-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v31)) (v2 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_v34) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S50000x3 : Shape := ⟨2, ![50000, 3]⟩
abbrev S1x25000x3x3 : Shape := ⟨4, ![1, 25000, 3, 3]⟩
abbrev S1x25000x3 : Shape := ⟨3, ![1, 25000, 3]⟩
abbrev S25000 : Shape := ⟨1, ![25000]⟩
abbrev S25000x9 : Shape := ⟨2, ![25000, 9]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S1x25000x3x3 : S_.BroadcastsInDim S1x25000x3x3 (![] : Fin 0 → Fin S1x25000x3x3.rank)
  reducesTo_S1x25000x3x3_S_d0_1_2_3 : S1x25000x3x3.ReducesTo [0, 1, 2, 3] S_
  bcast_S_S1x25000x3 : S_.BroadcastsInDim S1x25000x3 (![] : Fin 0 → Fin S1x25000x3.rank)
  reducesTo_S1x25000x3_S_d0_1_2 : S1x25000x3.ReducesTo [0, 1, 2] S_
  bcast_S_S25000 : S_.BroadcastsInDim S25000 (![] : Fin 0 → Fin S25000.rank)
  reducesTo_S25000_S_d0 : S25000.ReducesTo [0] S_
  bcast_S_S25000x9 : S_.BroadcastsInDim S25000x9 (![] : Fin 0 → Fin S25000x9.rank)
  reducesTo_S25000x9_S_d0_1 : S25000x9.ReducesTo [0, 1] S_

variable [Facts]

def fn_part2 {F : FTy → Type} [FloatOps F] (main_arg6 : IVec S25000x9 32) (main_v32 : IVec S_ 1) (main_c_12 : IVec S_ 32) : IVec S_ 1 :=
  let main_v33 : IVec S25000x9 32 := broadcastInDim S25000x9 ![] bcast_S_S25000x9 main_c_12
  let main_v34 : IVec S25000x9 1 := cmpi .sge main_arg6 main_v33
  let main_c_13 : IVec S_ 32 := constantI S_ 32 24999#32
  let main_v35 : IVec S25000x9 32 := broadcastInDim S25000x9 ![] bcast_S_S25000x9 main_c_13
  let main_v36 : IVec S25000x9 1 := cmpi .sle main_arg6 main_v35
  let main_v37 : IVec S25000x9 1 := andi main_v34 main_v36
  let main_c_14 : IVec S_ 1 := constantI S_ 1 1#1
  let main_v38 : IVec S_ 1 := (fun x v => Host.reduce IntOp.andi x v reducesTo_S25000x9_S_d0_1 h_S_) main_v37 main_c_14
  let main_v39 : IVec S_ 1 := andi main_v32 main_v38
  main_v39

def fn_part1 {F : FTy → Type} [FloatOps F] (main_arg4 : IVec S25000 32) (main_arg5 : IVec S50000x3 32) (main_arg6 : IVec S25000x9 32) (main_v13 : IVec S_ 1) (main_v16 : IVec S50000x3 1) : IVec S_ 1 :=
  let main_c_5 : IVec S_ 1 := constantI S_ 1 1#1
  let main_v17 : IVec S_ 1 := (fun x v => Host.reduce IntOp.andi x v reducesTo_S50000x3_S_d0_1 h_S_) main_v16 main_c_5
  let main_v18 : IVec S_ 1 := andi main_v13 main_v17
  let main_c_6 : IVec S_ 32 := constantI S_ 32 0#32
  let main_v19 : IVec S25000 32 := broadcastInDim S25000 ![] bcast_S_S25000 main_c_6
  let main_v20 : IVec S25000 1 := cmpi .sge main_arg4 main_v19
  let main_c_7 : IVec S_ 32 := constantI S_ 32 49999#32
  let main_v21 : IVec S25000 32 := broadcastInDim S25000 ![] bcast_S_S25000 main_c_7
  let main_v22 : IVec S25000 1 := cmpi .sle main_arg4 main_v21
  let main_v23 : IVec S25000 1 := andi main_v20 main_v22
  let main_c_8 : IVec S_ 1 := constantI S_ 1 1#1
  let main_v24 : IVec S_ 1 := (fun x v => Host.reduce IntOp.andi x v reducesTo_S25000_S_d0 h_S_) main_v23 main_c_8
  let main_v25 : IVec S_ 1 := andi main_v18 main_v24
  let main_c_9 : IVec S_ 32 := constantI S_ 32 0#32
  let main_v26 : IVec S50000x3 32 := broadcastInDim S50000x3 ![] bcast_S_S50000x3 main_c_9
  let main_v27 : IVec S50000x3 1 := cmpi .sge main_arg5 main_v26
  let main_c_10 : IVec S_ 32 := constantI S_ 32 24999#32
  let main_v28 : IVec S50000x3 32 := broadcastInDim S50000x3 ![] bcast_S_S50000x3 main_c_10
  let main_v29 : IVec S50000x3 1 := cmpi .sle main_arg5 main_v28
  let main_v30 : IVec S50000x3 1 := andi main_v27 main_v29
  let main_c_11 : IVec S_ 1 := constantI S_ 1 1#1
  let main_v31 : IVec S_ 1 := (fun x v => Host.reduce IntOp.andi x v reducesTo_S50000x3_S_d0_1 h_S_) main_v30 main_c_11
  let main_v32 : IVec S_ 1 := andi main_v25 main_v31
  let main_c_12 : IVec S_ 32 := constantI S_ 32 0#32
  fn_part2 (F := F) main_arg6 main_v32 main_c_12

def fn {F : FTy → Type} [FloatOps F] (main_arg0 : FVec F S50000x3 .f32) (main_arg1 : FVec F S1x25000x3x3 .f32) (main_arg2 : FVec F S1x25000x3 .f32) (main_arg3 : FVec F S50000x3 .f32) (main_arg4 : IVec S25000 32) (main_arg5 : IVec S50000x3 32) (main_arg6 : IVec S25000x9 32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S1x25000x3x3 .f32 := Host.absf main_arg1
  let main_cst_0 : FVec F S_ .f32 := constant S_ .f32 0x7F800000#32
  let main_v5 : FVec F S1x25000x3x3 .f32 := broadcastInDim S1x25000x3x3 ![] bcast_S_S1x25000x3x3 main_cst_0
  let main_v6 : IVec S1x25000x3x3 1 := cmpf .olt main_v4 main_v5
  let main_c_1 : IVec S_ 1 := constantI S_ 1 1#1
  let main_v7 : IVec S_ 1 := (fun x v => Host.reduce IntOp.andi x v reducesTo_S1x25000x3x3_S_d0_1_2_3 h_S_) main_v6 main_c_1
  let main_v8 : IVec S_ 1 := andi main_v3 main_v7
  let main_v9 : FVec F S1x25000x3 .f32 := Host.absf main_arg2
  let main_cst_2 : FVec F S_ .f32 := constant S_ .f32 0x7F800000#32
  let main_v10 : FVec F S1x25000x3 .f32 := broadcastInDim S1x25000x3 ![] bcast_S_S1x25000x3 main_cst_2
  let main_v11 : IVec S1x25000x3 1 := cmpf .olt main_v9 main_v10
  let main_c_3 : IVec S_ 1 := constantI S_ 1 1#1
  let main_v12 : IVec S_ 1 := (fun x v => Host.reduce IntOp.andi x v reducesTo_S1x25000x3_S_d0_1_2 h_S_) main_v11 main_c_3
  let main_v13 : IVec S_ 1 := andi main_v8 main_v12
  let main_v14 : FVec F S50000x3 .f32 := Host.absf main_arg3
  let main_cst_4 : FVec F S_ .f32 := constant S_ .f32 0x7F800000#32
  let main_v15 : FVec F S50000x3 .f32 := broadcastInDim S50000x3 ![] bcast_S_S50000x3 main_cst_4
  let main_v16 : IVec S50000x3 1 := cmpf .olt main_v14 main_v15
  fn_part1 (F := F) main_arg4 main_arg5 main_arg6 main_v13 main_v16
-- ==== Kernel.lean ====
abbrev S50000x3 : Shape := ⟨2, ![50000, 3]⟩
abbrev S1x25000x3x3 : Shape := ⟨4, ![1, 25000, 3, 3]⟩
abbrev S1x25000x3 : Shape := ⟨3, ![1, 25000, 3]⟩
abbrev S25000 : Shape := ⟨1, ![25000]⟩
abbrev S25000x9 : Shape := ⟨2, ![25000, 9]⟩
abbrev S25000x3x3 : Shape := ⟨3, ![25000, 3, 3]⟩
abbrev S_ : Shape := ⟨0, ![]⟩
abbrev S28672x9 : Shape := ⟨2, ![28672, 9]⟩
abbrev S258048 : Shape := ⟨1, ![258048]⟩
abbrev S25000x3 : Shape := ⟨2, ![25000, 3]⟩
abbrev S28672x3 : Shape := ⟨2, ![28672, 3]⟩
abbrev S86016 : Shape := ⟨1, ![86016]⟩
abbrev S28672 : Shape := ⟨1, ![28672]⟩
abbrev S53248x3 : Shape := ⟨2, ![53248, 3]⟩
abbrev S3x53248 : Shape := ⟨2, ![3, 53248]⟩
abbrev S159744 : Shape := ⟨1, ![159744]⟩
abbrev S225000 : Shape := ⟨1, ![225000]⟩
abbrev S229376 : Shape := ⟨1, ![229376]⟩
abbrev S28672x128 : Shape := ⟨2, ![28672, 128]⟩
abbrev S51200 : Shape := ⟨1, ![51200]⟩
abbrev S896 : Shape := ⟨1, ![896]⟩
abbrev S8064 : Shape := ⟨1, ![8064]⟩
abbrev S2688 : Shape := ⟨1, ![2688]⟩
abbrev S128x128 : Shape := ⟨2, ![128, 128]⟩
abbrev S16 : Shape := ⟨1, ![16]⟩
abbrev S1024 : Shape := ⟨1, ![1024]⟩
abbrev S128 : Shape := ⟨1, ![128]⟩
abbrev S1664 : Shape := ⟨1, ![1664]⟩
abbrev S4992 : Shape := ⟨1, ![4992]⟩
abbrev S32 : Shape := ⟨1, ![32]⟩
abbrev S1x50000x3 : Shape := ⟨3, ![1, 50000, 3]⟩
abbrev S32x32 : Shape := ⟨2, ![32, 32]⟩
abbrev S32x16 : Shape := ⟨2, ![32, 16]⟩

abbrev nBuf : Table → Nat
  | .hbm => 63
  | .local .scVector .vmem => 20
  | _ => 0

abbrev bufTy : (tb : Table) → Fin (nBuf tb) → BufTy
  | .hbm, ⟨0, _⟩ => ⟨S50000x3, .f32⟩
  | .hbm, ⟨1, _⟩ => ⟨S1x25000x3x3, .f32⟩
  | .hbm, ⟨2, _⟩ => ⟨S1x25000x3, .f32⟩
  | .hbm, ⟨3, _⟩ => ⟨S50000x3, .f32⟩
  | .hbm, ⟨4, _⟩ => ⟨S25000, .i32⟩
  | .hbm, ⟨5, _⟩ => ⟨S50000x3, .i32⟩
  | .hbm, ⟨6, _⟩ => ⟨S25000x9, .i32⟩
  | .hbm, ⟨7, _⟩ => ⟨S25000x3x3, .f32⟩
  | .hbm, ⟨8, _⟩ => ⟨S25000x9, .f32⟩
  | .hbm, ⟨9, _⟩ => ⟨S_, .i32⟩
  | .hbm, ⟨10, _⟩ => ⟨S_, .f32⟩
  | .hbm, ⟨11, _⟩ => ⟨S28672x9, .f32⟩
  | .hbm, ⟨12, _⟩ => ⟨S258048, .f32⟩
  | .hbm, ⟨13, _⟩ => ⟨S25000x3, .f32⟩
  | .hbm, ⟨14, _⟩ => ⟨S_, .i32⟩
  | .hbm, ⟨15, _⟩ => ⟨S_, .f32⟩
  | .hbm, ⟨16, _⟩ => ⟨S28672x3, .f32⟩
  | .hbm, ⟨17, _⟩ => ⟨S86016, .f32⟩
  | .hbm, ⟨18, _⟩ => ⟨S_, .i32⟩
  | .hbm, ⟨19, _⟩ => ⟨S_, .i32⟩
  | .hbm, ⟨20, _⟩ => ⟨S28672, .i32⟩
  | .hbm, ⟨21, _⟩ => ⟨S_, .i32⟩
  | .hbm, ⟨22, _⟩ => ⟨S_, .f32⟩
  | .hbm, ⟨23, _⟩ => ⟨S53248x3, .f32⟩
  | .hbm, ⟨24, _⟩ => ⟨S3x53248, .f32⟩
  | .hbm, ⟨25, _⟩ => ⟨S159744, .f32⟩
  | .hbm, ⟨26, _⟩ => ⟨S_, .i32⟩
  | .hbm, ⟨27, _⟩ => ⟨S_, .i32⟩
  | .hbm, ⟨28, _⟩ => ⟨S53248x3, .i32⟩
  | .hbm, ⟨29, _⟩ => ⟨S3x53248, .i32⟩
  | .hbm, ⟨30, _⟩ => ⟨S159744, .i32⟩
  | .hbm, ⟨31, _⟩ => ⟨S_, .i32⟩
  | .hbm, ⟨32, _⟩ => ⟨S_, .f32⟩
  | .hbm, ⟨33, _⟩ => ⟨S53248x3, .f32⟩
  | .hbm, ⟨34, _⟩ => ⟨S3x53248, .f32⟩
  | .hbm, ⟨35, _⟩ => ⟨S159744, .f32⟩
  | .hbm, ⟨36, _⟩ => ⟨S225000, .i32⟩
  | .hbm, ⟨37, _⟩ => ⟨S_, .i32⟩
  | .hbm, ⟨38, _⟩ => ⟨S_, .i32⟩
  | .hbm, ⟨39, _⟩ => ⟨S229376, .i32⟩
  | .hbm, ⟨40, _⟩ => ⟨S25000, .i32⟩
  | .hbm, ⟨41, _⟩ => ⟨S25000x9, .i32⟩
  | .hbm, ⟨42, _⟩ => ⟨S225000, .i32⟩
  | .hbm, ⟨43, _⟩ => ⟨S_, .i32⟩
  | .hbm, ⟨44, _⟩ => ⟨S_, .i32⟩
  | .hbm, ⟨45, _⟩ => ⟨S229376, .i32⟩
  | .hbm, ⟨46, _⟩ => ⟨S28672x128, .f32⟩
  | .hbm, ⟨47, _⟩ => ⟨S159744, .f32⟩
  | .hbm, ⟨48, _⟩ => ⟨S1024, .f32⟩
  | .hbm, ⟨49, _⟩ => ⟨S53248x3, .f32⟩
  | .hbm, ⟨50, _⟩ => ⟨S50000x3, .f32⟩
  | .hbm, ⟨51, _⟩ => ⟨S1x50000x3, .f32⟩
  | .hbm, ⟨52, _⟩ => ⟨S32x32, .f32⟩
  | .hbm, ⟨53, _⟩ => ⟨S32x16, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S32x16, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .local .scVector .vmem, ⟨0, _⟩ => ⟨S51200, .f32⟩
  | .local .scVector .vmem, ⟨1, _⟩ => ⟨S896, .i32⟩
  | .local .scVector .vmem, ⟨2, _⟩ => ⟨S896, .f32⟩
  | .local .scVector .vmem, ⟨3, _⟩ => ⟨S896, .f32⟩
  | .local .scVector .vmem, ⟨4, _⟩ => ⟨S896, .f32⟩
  | .local .scVector .vmem, ⟨5, _⟩ => ⟨S8064, .f32⟩
  | .local .scVector .vmem, ⟨6, _⟩ => ⟨S2688, .f32⟩
  | .local .scVector .vmem, ⟨7, _⟩ => ⟨S128x128, .f32⟩
  | .local .scVector .vmem, ⟨8, _⟩ => ⟨S128, .i32⟩
  | .local .scVector .vmem, ⟨9, _⟩ => ⟨S128, .i32⟩
  | .local .scVector .vmem, ⟨10, _⟩ => ⟨S1664, .f32⟩
  | .local .scVector .vmem, ⟨11, _⟩ => ⟨S1664, .f32⟩
  | .local .scVector .vmem, ⟨12, _⟩ => ⟨S1664, .f32⟩
  | .local .scVector .vmem, ⟨13, _⟩ => ⟨S1664, .f32⟩
  | .local .scVector .vmem, ⟨14, _⟩ => ⟨S128x128, .f32⟩
  | .local .scVector .vmem, ⟨15, _⟩ => ⟨S128x128, .f32⟩
  | .local .scVector .vmem, ⟨16, _⟩ => ⟨S128x128, .f32⟩
  | .local .scVector .vmem, ⟨17, _⟩ => ⟨S4992, .f32⟩
  | .local .scVector .vmem, ⟨18, _⟩ => ⟨S1024, .i32⟩
  | .local .scVector .vmem, ⟨19, _⟩ => ⟨S32, .f32⟩
  | _, _ => ⟨S50000x3, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 30 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | _ => false

abbrev sig : RefSig :=
  ofTables nBuf rfl bufTy 4 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_call2_v0 : Ref sig .tc := ⟨.hbm, 19, rfl⟩
abbrev main_v7 : Ref sig .tc := ⟨.hbm, 20, rfl⟩
abbrev main_c_2 : Ref sig .tc := ⟨.hbm, 21, rfl⟩
abbrev main_call3_v0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_3 : Ref sig .tc := ⟨.hbm, 26, rfl⟩
abbrev main_call4_v0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_4 : Ref sig .tc := ⟨.hbm, 31, rfl⟩
abbrev main_call5_v0 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_5 : Ref sig .tc := ⟨.hbm, 37, rfl⟩
abbrev main_call6_v0 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_6 : Ref sig .tc := ⟨.hbm, 43, rfl⟩
abbrev main_call7_v0 : Ref sig .tc := ⟨.hbm, 44, rfl⟩
abbrev main_v22 : Ref sig .tc := ⟨.hbm, 45, rfl⟩
abbrev main_v23 : Ref sig .tc := ⟨.hbm, 46, rfl⟩
abbrev main_v24_0 : Ref sig .tc := ⟨.hbm, 47, rfl⟩
abbrev main_v24_1 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst : Ref sig .tc := ⟨.hbm, 54, rfl⟩
abbrev main_v30 : Ref sig .tc := ⟨.hbm, 55, rfl⟩
abbrev main_cst_7 : Ref sig .tc := ⟨.hbm, 56, rfl⟩
abbrev main_v31 : Ref sig .tc := ⟨.hbm, 57, rfl⟩
abbrev main_v32 : Ref sig .tc := ⟨.hbm, 58, rfl⟩
abbrev main_cst_8 : Ref sig .tc := ⟨.hbm, 59, rfl⟩
abbrev main_v33 : Ref sig .tc := ⟨.hbm, 60, rfl⟩
abbrev main_cst_9 : Ref sig .tc := ⟨.hbm, 61, rfl⟩
abbrev main_v34 : Ref sig .tc := ⟨.hbm, 62, rfl⟩
abbrev main_v7_scv : Ref sig .scVector := ⟨.hbm, 20, rfl⟩
abbrev main_v3_scv : Ref sig .scVector := ⟨.hbm, 12, rfl⟩
abbrev main_v6_scv : Ref sig .scVector := ⟨.hbm, 17, rfl⟩
abbrev main_v10_scv : Ref sig .scVector := ⟨.hbm, 25, rfl⟩
abbrev main_v23_scv : Ref sig .scVector := ⟨.hbm, 46, rfl⟩
abbrev main_v13_scv : Ref sig .scVector := ⟨.hbm, 30, rfl⟩
abbrev main_v16_scv : Ref sig .scVector := ⟨.hbm, 35, rfl⟩
abbrev main_v18_scv : Ref sig .scVector := ⟨.hbm, 39, rfl⟩
abbrev main_v22_scv : Ref sig .scVector := ⟨.hbm, 45, rfl⟩
abbrev main_v24_0_scv : Ref sig .scVector := ⟨.hbm, 47, rfl⟩
abbrev main_v24_1_scv : Ref sig .scVector := ⟨.hbm, 48, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc1_scratch0 : Ref sig .scVector := ⟨.vmem, 8, rfl⟩
abbrev cc1_scratch1 : Ref sig .scVector := ⟨.vmem, 9, rfl⟩
abbrev cc1_scratch2 : Ref sig .scVector := ⟨.vmem, 10, rfl⟩
abbrev cc1_scratch3 : Ref sig .scVector := ⟨.vmem, 11, rfl⟩
abbrev cc1_scratch4 : Ref sig .scVector := ⟨.vmem, 12, rfl⟩
abbrev cc1_scratch5 : Ref sig .scVector := ⟨.vmem, 13, rfl⟩
abbrev cc1_scratch6 : Ref sig .scVector := ⟨.vmem, 14, rfl⟩
abbrev cc1_scratch7 : Ref sig .scVector := ⟨.vmem, 15, rfl⟩
abbrev cc1_scratch8 : Ref sig .scVector := ⟨.vmem, 16, rfl⟩
abbrev cc1_scratch9 : Ref sig .scVector := ⟨.vmem, 17, rfl⟩
abbrev cc1_scratch10 : Ref sig .scVector := ⟨.vmem, 18, rfl⟩
abbrev cc1_scratch11 : Ref sig .scVector := ⟨.vmem, 19, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c896_i32 : BitVec 32 := 896#32
  let v3 : BitVec 32 := Scalar.muli v1 c896_i32
  ![v3.toNat]
@[reducible] def k0_t1_loop : Scf.Loop 32 :=
  let c0_i32_0 : BitVec 32 := 0#32
  let c56_i32 : BitVec 32 := 56#32
  let v4 : BitVec 32 := Scalar.addi c0_i32_0 c56_i32
  let c1_i32 : BitVec 32 := 1#32
  ⟨c0_i32_0, v4, c1_i32⟩
def k0_off2 (k0_t1 : Fin k0_t1_loop.trips) : Fin 1 → Nat :=
  let c0_i32_0 : BitVec 32 := 0#32
  let c1_i32 : BitVec 32 := 1#32
  let arg15 : BitVec 32 := Scf.iv c0_i32_0 c1_i32 k0_t1
  let c16_i32 : BitVec 32 := 16#32
  let v10 : BitVec 32 := Scalar.muli arg15 c16_i32
  let v11 : Index := Scalar.indexCast v10
  ![v11.toNat]

def k0_chk1 (v12 : IVec S16 32) : Prop :=
  (∀ a x, ((![v12] : Fin 1 → IVec S16 32) a x).toNat < S51200.size a)
instance k0_chk1.dec : ∀ (v12 : IVec S16 32), Decidable (k0_chk1 v12) := fun v12 => decidable_of_iff' _ (Iff.of_eq (k0_chk1.eq_1 v12))
theorem k0_idx1_inb : ∀ (v12 : IVec S16 32) (k0_hw1 : k0_chk1 v12), ∀ a x, ((![v12] : Fin 1 → IVec S16 32) a x).toNat < S51200.size a := fun v12 k0_hw1 => k0_hw1
def k0_off3 (k0_t1 : Fin k0_t1_loop.trips) : Fin 1 → Nat :=
  let c0_i32_0 : BitVec 32 := 0#32
  let c1_i32 : BitVec 32 := 1#32
  let arg15 : BitVec 32 := Scf.iv c0_i32_0 c1_i32 k0_t1
  let c16_i32_16 : BitVec 32 := 16#32
  let v14 : BitVec 32 := Scalar.muli arg15 c16_i32_16
  let v15 : Index := Scalar.indexCast v14
  ![v15.toNat]
@[reducible] def k0_t2_loop : Scf.Loop 32 :=
  let c0_i32_3 : BitVec 32 := 0#32
  let c56_i32_4 : BitVec 32 := 56#32
  let v5 : BitVec 32 := Scalar.addi c0_i32_3 c56_i32_4
  let c1_i32_5 : BitVec 32 := 1#32
  ⟨c0_i32_3, v5, c1_i32_5⟩
def k0_off4 (k0_t2 : Fin k0_t2_loop.trips) : Fin 1 → Nat :=
  let c0_i32_3 : BitVec 32 := 0#32
  let c1_i32_5 : BitVec 32 := 1#32
  let arg15 : BitVec 32 := Scf.iv c0_i32_3 c1_i32_5 k0_t2
  let c16_i32 : BitVec 32 := 16#32
  let v10 : BitVec 32 := Scalar.muli arg15 c16_i32
  let v11 : Index := Scalar.indexCast v10
  ![v11.toNat]

def k0_chk2 (v12 : IVec S16 32) : Prop :=
  (∀ a x, ((![v12] : Fin 1 → IVec S16 32) a x).toNat < S51200.size a)
instance k0_chk2.dec : ∀ (v12 : IVec S16 32), Decidable (k0_chk2 v12) := fun v12 => decidable_of_iff' _ (Iff.of_eq (k0_chk2.eq_1 v12))
theorem k0_idx2_inb : ∀ (v12 : IVec S16 32) (k0_hw2 : k0_chk2 v12), ∀ a x, ((![v12] : Fin 1 → IVec S16 32) a x).toNat < S51200.size a := fun v12 k0_hw2 => k0_hw2
def k0_off5 (k0_t2 : Fin k0_t2_loop.trips) : Fin 1 → Nat :=
  let c0_i32_3 : BitVec 32 := 0#32
  let c1_i32_5 : BitVec 32 := 1#32
  let arg15 : BitVec 32 := Scf.iv c0_i32_3 c1_i32_5 k0_t2
  let c16_i32_16 : BitVec 32 := 16#32
  let v14 : BitVec 32 := Scalar.muli arg15 c16_i32_16
  let v15 : Index := Scalar.indexCast v14
  ![v15.toNat]
@[reducible] def k0_t3_loop : Scf.Loop 32 :=
  let c0_i32_8 : BitVec 32 := 0#32
  let c56_i32_9 : BitVec 32 := 56#32
  let v6 : BitVec 32 := Scalar.addi c0_i32_8 c56_i32_9
  let c1_i32_10 : BitVec 32 := 1#32
  ⟨c0_i32_8, v6, c1_i32_10⟩
def k0_off6 (k0_t3 : Fin k0_t3_loop.trips) : Fin 1 → Nat :=
  let c0_i32_8 : BitVec 32 := 0#32
  let c1_i32_10 : BitVec 32 := 1#32
  let arg15 : BitVec 32 := Scf.iv c0_i32_8 c1_i32_10 k0_t3
  let c16_i32 : BitVec 32 := 16#32
  let v10 : BitVec 32 := Scalar.muli arg15 c16_i32
  let v11 : Index := Scalar.indexCast v10
  ![v11.toNat]

def k0_chk3 (v12 : IVec S16 32) : Prop :=
  (∀ a x, ((![v12] : Fin 1 → IVec S16 32) a x).toNat < S51200.size a)
instance k0_chk3.dec : ∀ (v12 : IVec S16 32), Decidable (k0_chk3 v12) := fun v12 => decidable_of_iff' _ (Iff.of_eq (k0_chk3.eq_1 v12))
theorem k0_idx3_inb : ∀ (v12 : IVec S16 32) (k0_hw3 : k0_chk3 v12), ∀ a x, ((![v12] : Fin 1 → IVec S16 32) a x).toNat < S51200.size a := fun v12 k0_hw3 => k0_hw3
def k0_off7 (k0_t3 : Fin k0_t3_loop.trips) : Fin 1 → Nat :=
  let c0_i32_8 : BitVec 32 := 0#32
  let c1_i32_10 : BitVec 32 := 1#32
  let arg15 : BitVec 32 := Scf.iv c0_i32_8 c1_i32_10 k0_t3
  let c16_i32_16 : BitVec 32 := 16#32
  let v14 : BitVec 32 := Scalar.muli arg15 c16_i32_16
  let v15 : Index := Scalar.indexCast v14
  ![v15.toNat]
def k0_off8 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c896_i32 : BitVec 32 := 896#32
  let v3 : BitVec 32 := Scalar.muli v1 c896_i32
  let c9_i32 : BitVec 32 := 9#32
  let v7 : BitVec 32 := Scalar.muli v3 c9_i32
  ![v7.toNat]
def k0_off9 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c896_i32 : BitVec 32 := 896#32
  let v3 : BitVec 32 := Scalar.muli v1 c896_i32
  let c3_i32 : BitVec 32 := 3#32
  let v8 : BitVec 32 := Scalar.muli v3 c3_i32
  ![v8.toNat]
@[reducible] def k0_t4_loop : Scf.Loop 32 :=
  let c0_i32_13 : BitVec 32 := 0#32
  let c7_i32 : BitVec 32 := 7#32
  let v9 : BitVec 32 := Scalar.addi c0_i32_13 c7_i32
  let c1_i32_14 : BitVec 32 := 1#32
  ⟨c0_i32_13, v9, c1_i32_14⟩
@[reducible] def k0_t5_loop : Scf.Loop 32 :=
  let c0_i32_17 : BitVec 32 := 0#32
  let c8_i32 : BitVec 32 := 8#32
  let v10 : BitVec 32 := Scalar.addi c0_i32_17 c8_i32
  let c1_i32_18 : BitVec 32 := 1#32
  ⟨c0_i32_17, v10, c1_i32_18⟩
def k0_off10 (k0_t4 : Fin k0_t4_loop.trips) (k0_t5 : Fin k0_t5_loop.trips) : Fin 1 → Nat :=
  let c0_i32_13 : BitVec 32 := 0#32
  let c1_i32_14 : BitVec 32 := 1#32
  let arg15 : BitVec 32 := Scf.iv c0_i32_13 c1_i32_14 k0_t4
  let c128_i32_20 : BitVec 32 := 128#32
  let v16 : BitVec 32 := Scalar.muli arg15 c128_i32_20
  let c0_i32_17 : BitVec 32 := 0#32
  let c1_i32_18 : BitVec 32 := 1#32
  let arg16 : BitVec 32 := Scf.iv c0_i32_17 c1_i32_18 k0_t5
  let c16_i32_21 : BitVec 32 := 16#32
  let v17 : BitVec 32 := Scalar.muli arg16 c16_i32_21
  let v18 : BitVec 32 := Scalar.addi v16 v17
  let v22 : Index := Scalar.indexCast v18
  ![v22.toNat]

def k0_chk4 (v15 : IVec S16 32) (v21 : IVec S16 32) : Prop :=
  (∀ a x, ((![v15, v21] : Fin 2 → IVec S16 32) a x).toNat < S128x128.size a)
instance k0_chk4.dec : ∀ (v15 : IVec S16 32) (v21 : IVec S16 32), Decidable (k0_chk4 v15 v21) := fun v15 v21 => decidable_of_iff' _ (Iff.of_eq (k0_chk4.eq_1 v15 v21))
theorem k0_idx4_inb : ∀ (v15 : IVec S16 32) (v21 : IVec S16 32) (k0_hw4 : k0_chk4 v15 v21), ∀ a x, ((![v15, v21] : Fin 2 → IVec S16 32) a x).toNat < S128x128.size a := fun v15 v21 k0_hw4 => k0_hw4
def k0_off11 (k0_t4 : Fin k0_t4_loop.trips) (k0_t5 : Fin k0_t5_loop.trips) : Fin 1 → Nat :=
  let c0_i32_13 : BitVec 32 := 0#32
  let c1_i32_14 : BitVec 32 := 1#32
  let arg15 : BitVec 32 := Scf.iv c0_i32_13 c1_i32_14 k0_t4
  let c128_i32_20 : BitVec 32 := 128#32
  let v16 : BitVec 32 := Scalar.muli arg15 c128_i32_20
  let c0_i32_17 : BitVec 32 := 0#32
  let c1_i32_18 : BitVec 32 := 1#32
  let arg16 : BitVec 32 := Scf.iv c0_i32_17 c1_i32_18 k0_t5
  let c16_i32_21 : BitVec 32 := 16#32
  let v17 : BitVec 32 := Scalar.muli arg16 c16_i32_21
  let v18 : BitVec 32 := Scalar.addi v16 v17
  let v25 : Index := Scalar.indexCast v18
  ![v25.toNat]

def k0_chk5 (v15 : IVec S16 32) (v24 : IVec S16 32) : Prop :=
  (∀ a x, ((![v15, v24] : Fin 2 → IVec S16 32) a x).toNat < S128x128.size a)
instance k0_chk5.dec : ∀ (v15 : IVec S16 32) (v24 : IVec S16 32), Decidable (k0_chk5 v15 v24) := fun v15 v24 => decidable_of_iff' _ (Iff.of_eq (k0_chk5.eq_1 v15 v24))
theorem k0_idx5_inb : ∀ (v15 : IVec S16 32) (v24 : IVec S16 32) (k0_hw5 : k0_chk5 v15 v24), ∀ a x, ((![v15, v24] : Fin 2 → IVec S16 32) a x).toNat < S128x128.size a := fun v15 v24 k0_hw5 => k0_hw5
def k0_off12 (k0_t4 : Fin k0_t4_loop.trips) (k0_t5 : Fin k0_t5_loop.trips) : Fin 1 → Nat :=
  let c0_i32_13 : BitVec 32 := 0#32
  let c1_i32_14 : BitVec 32 := 1#32
  let arg15 : BitVec 32 := Scf.iv c0_i32_13 c1_i32_14 k0_t4
  let c128_i32_20 : BitVec 32 := 128#32
  let v16 : BitVec 32 := Scalar.muli arg15 c128_i32_20
  let c0_i32_17 : BitVec 32 := 0#32
  let c1_i32_18 : BitVec 32 := 1#32
  let arg16 : BitVec 32 := Scf.iv c0_i32_17 c1_i32_18 k0_t5
  let c16_i32_21 : BitVec 32 := 16#32
  let v17 : BitVec 32 := Scalar.muli arg16 c16_i32_21
  let v18 : BitVec 32 := Scalar.addi v16 v17
  let v28 : Index := Scalar.indexCast v18
  ![v28.toNat]

def k0_chk6 (v15 : IVec S16 32) (v27 : IVec S16 32) : Prop :=
  (∀ a x, ((![v15, v27] : Fin 2 → IVec S16 32) a x).toNat < S128x128.size a)
instance k0_chk6.dec : ∀ (v15 : IVec S16 32) (v27 : IVec S16 32), Decidable (k0_chk6 v15 v27) := fun v15 v27 => decidable_of_iff' _ (Iff.of_eq (k0_chk6.eq_1 v15 v27))
theorem k0_idx6_inb : ∀ (v15 : IVec S16 32) (v27 : IVec S16 32) (k0_hw6 : k0_chk6 v15 v27), ∀ a x, ((![v15, v27] : Fin 2 → IVec S16 32) a x).toNat < S128x128.size a := fun v15 v27 k0_hw6 => k0_hw6

def k0_chk7 (v36 : IVec S16 32) : Prop :=
  (∀ a x, ((![v36] : Fin 1 → IVec S16 32) a x).toNat < S2688.size a)
instance k0_chk7.dec : ∀ (v36 : IVec S16 32), Decidable (k0_chk7 v36) := fun v36 => decidable_of_iff' _ (Iff.of_eq (k0_chk7.eq_1 v36))
theorem k0_idx7_inb : ∀ (v36 : IVec S16 32) (k0_hw7 : k0_chk7 v36), ∀ a x, ((![v36] : Fin 1 → IVec S16 32) a x).toNat < S2688.size a := fun v36 k0_hw7 => k0_hw7

def k0_chk8 (v15 : IVec S16 32) (v34 : IVec S16 32) : Prop :=
  (∀ a x, ((![v15, v34] : Fin 2 → IVec S16 32) a x).toNat < S128x128.size a)
instance k0_chk8.dec : ∀ (v15 : IVec S16 32) (v34 : IVec S16 32), Decidable (k0_chk8 v15 v34) := fun v15 v34 => decidable_of_iff' _ (Iff.of_eq (k0_chk8.eq_1 v15 v34))
theorem k0_idx8_inb : ∀ (v15 : IVec S16 32) (v34 : IVec S16 32) (k0_hw8 : k0_chk8 v15 v34), ∀ a x, ((![v15, v34] : Fin 2 → IVec S16 32) a x).toNat < S128x128.size a := fun v15 v34 k0_hw8 => k0_hw8

def k0_chk9 (v40 : IVec S16 32) : Prop :=
  (∀ a x, ((![v40] : Fin 1 → IVec S16 32) a x).toNat < S2688.size a)
instance k0_chk9.dec : ∀ (v40 : IVec S16 32), Decidable (k0_chk9 v40) := fun v40 => decidable_of_iff' _ (Iff.of_eq (k0_chk9.eq_1 v40))
theorem k0_idx9_inb : ∀ (v40 : IVec S16 32) (k0_hw9 : k0_chk9 v40), ∀ a x, ((![v40] : Fin 1 → IVec S16 32) a x).toNat < S2688.size a := fun v40 k0_hw9 => k0_hw9

def k0_chk10 (v15 : IVec S16 32) (v38 : IVec S16 32) : Prop :=
  (∀ a x, ((![v15, v38] : Fin 2 → IVec S16 32) a x).toNat < S128x128.size a)
instance k0_chk10.dec : ∀ (v15 : IVec S16 32) (v38 : IVec S16 32), Decidable (k0_chk10 v15 v38) := fun v15 v38 => decidable_of_iff' _ (Iff.of_eq (k0_chk10.eq_1 v15 v38))
theorem k0_idx10_inb : ∀ (v15 : IVec S16 32) (v38 : IVec S16 32) (k0_hw10 : k0_chk10 v15 v38), ∀ a x, ((![v15, v38] : Fin 2 → IVec S16 32) a x).toNat < S128x128.size a := fun v15 v38 k0_hw10 => k0_hw10

def k0_chk11 (v44 : IVec S16 32) : Prop :=
  (∀ a x, ((![v44] : Fin 1 → IVec S16 32) a x).toNat < S2688.size a)
instance k0_chk11.dec : ∀ (v44 : IVec S16 32), Decidable (k0_chk11 v44) := fun v44 => decidable_of_iff' _ (Iff.of_eq (k0_chk11.eq_1 v44))
theorem k0_idx11_inb : ∀ (v44 : IVec S16 32) (k0_hw11 : k0_chk11 v44), ∀ a x, ((![v44] : Fin 1 → IVec S16 32) a x).toNat < S2688.size a := fun v44 k0_hw11 => k0_hw11

def k0_chk12 (v15 : IVec S16 32) (v42 : IVec S16 32) : Prop :=
  (∀ a x, ((![v15, v42] : Fin 2 → IVec S16 32) a x).toNat < S128x128.size a)
instance k0_chk12.dec : ∀ (v15 : IVec S16 32) (v42 : IVec S16 32), Decidable (k0_chk12 v15 v42) := fun v15 v42 => decidable_of_iff' _ (Iff.of_eq (k0_chk12.eq_1 v15 v42))
theorem k0_idx12_inb : ∀ (v15 : IVec S16 32) (v42 : IVec S16 32) (k0_hw12 : k0_chk12 v15 v42), ∀ a x, ((![v15, v42] : Fin 2 → IVec S16 32) a x).toNat < S128x128.size a := fun v15 v42 k0_hw12 => k0_hw12

def k0_chk13 (v48 : IVec S16 32) : Prop :=
  (∀ a x, ((![v48] : Fin 1 → IVec S16 32) a x).toNat < S8064.size a)
instance k0_chk13.dec : ∀ (v48 : IVec S16 32), Decidable (k0_chk13 v48) := fun v48 => decidable_of_iff' _ (Iff.of_eq (k0_chk13.eq_1 v48))
theorem k0_idx13_inb : ∀ (v48 : IVec S16 32) (k0_hw13 : k0_chk13 v48), ∀ a x, ((![v48] : Fin 1 → IVec S16 32) a x).toNat < S8064.size a := fun v48 k0_hw13 => k0_hw13

def k0_chk14 (v15 : IVec S16 32) (v46 : IVec S16 32) : Prop :=
  (∀ a x, ((![v15, v46] : Fin 2 → IVec S16 32) a x).toNat < S128x128.size a)
instance k0_chk14.dec : ∀ (v15 : IVec S16 32) (v46 : IVec S16 32), Decidable (k0_chk14 v15 v46) := fun v15 v46 => decidable_of_iff' _ (Iff.of_eq (k0_chk14.eq_1 v15 v46))
theorem k0_idx14_inb : ∀ (v15 : IVec S16 32) (v46 : IVec S16 32) (k0_hw14 : k0_chk14 v15 v46), ∀ a x, ((![v15, v46] : Fin 2 → IVec S16 32) a x).toNat < S128x128.size a := fun v15 v46 k0_hw14 => k0_hw14

def k0_chk15 (v52 : IVec S16 32) : Prop :=
  (∀ a x, ((![v52] : Fin 1 → IVec S16 32) a x).toNat < S8064.size a)
instance k0_chk15.dec : ∀ (v52 : IVec S16 32), Decidable (k0_chk15 v52) := fun v52 => decidable_of_iff' _ (Iff.of_eq (k0_chk15.eq_1 v52))
theorem k0_idx15_inb : ∀ (v52 : IVec S16 32) (k0_hw15 : k0_chk15 v52), ∀ a x, ((![v52] : Fin 1 → IVec S16 32) a x).toNat < S8064.size a := fun v52 k0_hw15 => k0_hw15

def k0_chk16 (v15 : IVec S16 32) (v50 : IVec S16 32) : Prop :=
  (∀ a x, ((![v15, v50] : Fin 2 → IVec S16 32) a x).toNat < S128x128.size a)
instance k0_chk16.dec : ∀ (v15 : IVec S16 32) (v50 : IVec S16 32), Decidable (k0_chk16 v15 v50) := fun v15 v50 => decidable_of_iff' _ (Iff.of_eq (k0_chk16.eq_1 v15 v50))
theorem k0_idx16_inb : ∀ (v15 : IVec S16 32) (v50 : IVec S16 32) (k0_hw16 : k0_chk16 v15 v50), ∀ a x, ((![v15, v50] : Fin 2 → IVec S16 32) a x).toNat < S128x128.size a := fun v15 v50 k0_hw16 => k0_hw16

def k0_chk17 (v56 : IVec S16 32) : Prop :=
  (∀ a x, ((![v56] : Fin 1 → IVec S16 32) a x).toNat < S8064.size a)
instance k0_chk17.dec : ∀ (v56 : IVec S16 32), Decidable (k0_chk17 v56) := fun v56 => decidable_of_iff' _ (Iff.of_eq (k0_chk17.eq_1 v56))
theorem k0_idx17_inb : ∀ (v56 : IVec S16 32) (k0_hw17 : k0_chk17 v56), ∀ a x, ((![v56] : Fin 1 → IVec S16 32) a x).toNat < S8064.size a := fun v56 k0_hw17 => k0_hw17

def k0_chk18 (v15 : IVec S16 32) (v54 : IVec S16 32) : Prop :=
  (∀ a x, ((![v15, v54] : Fin 2 → IVec S16 32) a x).toNat < S128x128.size a)
instance k0_chk18.dec : ∀ (v15 : IVec S16 32) (v54 : IVec S16 32), Decidable (k0_chk18 v15 v54) := fun v15 v54 => decidable_of_iff' _ (Iff.of_eq (k0_chk18.eq_1 v15 v54))
theorem k0_idx18_inb : ∀ (v15 : IVec S16 32) (v54 : IVec S16 32) (k0_hw18 : k0_chk18 v15 v54), ∀ a x, ((![v15, v54] : Fin 2 → IVec S16 32) a x).toNat < S128x128.size a := fun v15 v54 k0_hw18 => k0_hw18

def k0_chk19 (v60 : IVec S16 32) : Prop :=
  (∀ a x, ((![v60] : Fin 1 → IVec S16 32) a x).toNat < S8064.size a)
instance k0_chk19.dec : ∀ (v60 : IVec S16 32), Decidable (k0_chk19 v60) := fun v60 => decidable_of_iff' _ (Iff.of_eq (k0_chk19.eq_1 v60))
theorem k0_idx19_inb : ∀ (v60 : IVec S16 32) (k0_hw19 : k0_chk19 v60), ∀ a x, ((![v60] : Fin 1 → IVec S16 32) a x).toNat < S8064.size a := fun v60 k0_hw19 => k0_hw19

def k0_chk20 (v15 : IVec S16 32) (v58 : IVec S16 32) : Prop :=
  (∀ a x, ((![v15, v58] : Fin 2 → IVec S16 32) a x).toNat < S128x128.size a)
instance k0_chk20.dec : ∀ (v15 : IVec S16 32) (v58 : IVec S16 32), Decidable (k0_chk20 v15 v58) := fun v15 v58 => decidable_of_iff' _ (Iff.of_eq (k0_chk20.eq_1 v15 v58))
theorem k0_idx20_inb : ∀ (v15 : IVec S16 32) (v58 : IVec S16 32) (k0_hw20 : k0_chk20 v15 v58), ∀ a x, ((![v15, v58] : Fin 2 → IVec S16 32) a x).toNat < S128x128.size a := fun v15 v58 k0_hw20 => k0_hw20

def k0_chk21 (v64 : IVec S16 32) : Prop :=
  (∀ a x, ((![v64] : Fin 1 → IVec S16 32) a x).toNat < S8064.size a)
instance k0_chk21.dec : ∀ (v64 : IVec S16 32), Decidable (k0_chk21 v64) := fun v64 => decidable_of_iff' _ (Iff.of_eq (k0_chk21.eq_1 v64))
theorem k0_idx21_inb : ∀ (v64 : IVec S16 32) (k0_hw21 : k0_chk21 v64), ∀ a x, ((![v64] : Fin 1 → IVec S16 32) a x).toNat < S8064.size a := fun v64 k0_hw21 => k0_hw21

def k0_chk22 (v15 : IVec S16 32) (v62 : IVec S16 32) : Prop :=
  (∀ a x, ((![v15, v62] : Fin 2 → IVec S16 32) a x).toNat < S128x128.size a)
instance k0_chk22.dec : ∀ (v15 : IVec S16 32) (v62 : IVec S16 32), Decidable (k0_chk22 v15 v62) := fun v15 v62 => decidable_of_iff' _ (Iff.of_eq (k0_chk22.eq_1 v15 v62))
theorem k0_idx22_inb : ∀ (v15 : IVec S16 32) (v62 : IVec S16 32) (k0_hw22 : k0_chk22 v15 v62), ∀ a x, ((![v15, v62] : Fin 2 → IVec S16 32) a x).toNat < S128x128.size a := fun v15 v62 k0_hw22 => k0_hw22

def k0_chk23 (v68 : IVec S16 32) : Prop :=
  (∀ a x, ((![v68] : Fin 1 → IVec S16 32) a x).toNat < S8064.size a)
instance k0_chk23.dec : ∀ (v68 : IVec S16 32), Decidable (k0_chk23 v68) := fun v68 => decidable_of_iff' _ (Iff.of_eq (k0_chk23.eq_1 v68))
theorem k0_idx23_inb : ∀ (v68 : IVec S16 32) (k0_hw23 : k0_chk23 v68), ∀ a x, ((![v68] : Fin 1 → IVec S16 32) a x).toNat < S8064.size a := fun v68 k0_hw23 => k0_hw23

def k0_chk24 (v15 : IVec S16 32) (v66 : IVec S16 32) : Prop :=
  (∀ a x, ((![v15, v66] : Fin 2 → IVec S16 32) a x).toNat < S128x128.size a)
instance k0_chk24.dec : ∀ (v15 : IVec S16 32) (v66 : IVec S16 32), Decidable (k0_chk24 v15 v66) := fun v15 v66 => decidable_of_iff' _ (Iff.of_eq (k0_chk24.eq_1 v15 v66))
theorem k0_idx24_inb : ∀ (v15 : IVec S16 32) (v66 : IVec S16 32) (k0_hw24 : k0_chk24 v15 v66), ∀ a x, ((![v15, v66] : Fin 2 → IVec S16 32) a x).toNat < S128x128.size a := fun v15 v66 k0_hw24 => k0_hw24

def k0_chk25 (v72 : IVec S16 32) : Prop :=
  (∀ a x, ((![v72] : Fin 1 → IVec S16 32) a x).toNat < S8064.size a)
instance k0_chk25.dec : ∀ (v72 : IVec S16 32), Decidable (k0_chk25 v72) := fun v72 => decidable_of_iff' _ (Iff.of_eq (k0_chk25.eq_1 v72))
theorem k0_idx25_inb : ∀ (v72 : IVec S16 32) (k0_hw25 : k0_chk25 v72), ∀ a x, ((![v72] : Fin 1 → IVec S16 32) a x).toNat < S8064.size a := fun v72 k0_hw25 => k0_hw25

def k0_chk26 (v15 : IVec S16 32) (v70 : IVec S16 32) : Prop :=
  (∀ a x, ((![v15, v70] : Fin 2 → IVec S16 32) a x).toNat < S128x128.size a)
instance k0_chk26.dec : ∀ (v15 : IVec S16 32) (v70 : IVec S16 32), Decidable (k0_chk26 v15 v70) := fun v15 v70 => decidable_of_iff' _ (Iff.of_eq (k0_chk26.eq_1 v15 v70))
theorem k0_idx26_inb : ∀ (v15 : IVec S16 32) (v70 : IVec S16 32) (k0_hw26 : k0_chk26 v15 v70), ∀ a x, ((![v15, v70] : Fin 2 → IVec S16 32) a x).toNat < S128x128.size a := fun v15 v70 k0_hw26 => k0_hw26

def k0_chk27 (v76 : IVec S16 32) : Prop :=
  (∀ a x, ((![v76] : Fin 1 → IVec S16 32) a x).toNat < S8064.size a)
instance k0_chk27.dec : ∀ (v76 : IVec S16 32), Decidable (k0_chk27 v76) := fun v76 => decidable_of_iff' _ (Iff.of_eq (k0_chk27.eq_1 v76))
theorem k0_idx27_inb : ∀ (v76 : IVec S16 32) (k0_hw27 : k0_chk27 v76), ∀ a x, ((![v76] : Fin 1 → IVec S16 32) a x).toNat < S8064.size a := fun v76 k0_hw27 => k0_hw27

def k0_chk28 (v15 : IVec S16 32) (v74 : IVec S16 32) : Prop :=
  (∀ a x, ((![v15, v74] : Fin 2 → IVec S16 32) a x).toNat < S128x128.size a)
instance k0_chk28.dec : ∀ (v15 : IVec S16 32) (v74 : IVec S16 32), Decidable (k0_chk28 v15 v74) := fun v15 v74 => decidable_of_iff' _ (Iff.of_eq (k0_chk28.eq_1 v15 v74))
theorem k0_idx28_inb : ∀ (v15 : IVec S16 32) (v74 : IVec S16 32) (k0_hw28 : k0_chk28 v15 v74), ∀ a x, ((![v15, v74] : Fin 2 → IVec S16 32) a x).toNat < S128x128.size a := fun v15 v74 k0_hw28 => k0_hw28

def k0_chk29 (v80 : IVec S16 32) : Prop :=
  (∀ a x, ((![v80] : Fin 1 → IVec S16 32) a x).toNat < S8064.size a)
instance k0_chk29.dec : ∀ (v80 : IVec S16 32), Decidable (k0_chk29 v80) := fun v80 => decidable_of_iff' _ (Iff.of_eq (k0_chk29.eq_1 v80))
theorem k0_idx29_inb : ∀ (v80 : IVec S16 32) (k0_hw29 : k0_chk29 v80), ∀ a x, ((![v80] : Fin 1 → IVec S16 32) a x).toNat < S8064.size a := fun v80 k0_hw29 => k0_hw29

def k0_chk30 (v15 : IVec S16 32) (v78 : IVec S16 32) : Prop :=
  (∀ a x, ((![v15, v78] : Fin 2 → IVec S16 32) a x).toNat < S128x128.size a)
instance k0_chk30.dec : ∀ (v15 : IVec S16 32) (v78 : IVec S16 32), Decidable (k0_chk30 v15 v78) := fun v15 v78 => decidable_of_iff' _ (Iff.of_eq (k0_chk30.eq_1 v15 v78))
theorem k0_idx30_inb : ∀ (v15 : IVec S16 32) (v78 : IVec S16 32) (k0_hw30 : k0_chk30 v15 v78), ∀ a x, ((![v15, v78] : Fin 2 → IVec S16 32) a x).toNat < S128x128.size a := fun v15 v78 k0_hw30 => k0_hw30
def k0_off13 (i : grid0.Coords) (k0_t4 : Fin k0_t4_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c896_i32 : BitVec 32 := 896#32
  let v3 : BitVec 32 := Scalar.muli v1 c896_i32
  let c0_i32_13 : BitVec 32 := 0#32
  let c1_i32_14 : BitVec 32 := 1#32
  let arg15 : BitVec 32 := Scf.iv c0_i32_13 c1_i32_14 k0_t4
  let c128_i32 : BitVec 32 := 128#32
  let v11 : BitVec 32 := Scalar.muli arg15 c128_i32
  let v12 : BitVec 32 := Scalar.addi v3 v11
  let c0_i32_20_r6 : BitVec 32 := 0#32
  ![v12.toNat, 0]
abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v5 : BitVec 32 := Scalar.muli v1 c1664_i32
  ![v5.toNat]
def k1_off2 (i : grid1.Coords) (c53248_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v5 : BitVec 32 := Scalar.muli v1 c1664_i32
  let v6 : BitVec 32 := Scalar.addi c53248_i32 v5
  ![v6.toNat]
@[reducible] def k1_t1_loop : Scf.Loop 32 :=
  let c0_i32_1 : BitVec 32 := 0#32
  let c6_i32 : BitVec 32 := 6#32
  let v9 : BitVec 32 := Scalar.addi c0_i32_1 c6_i32
  let c1_i32 : BitVec 32 := 1#32
  ⟨c0_i32_1, v9, c1_i32⟩
def k1_off3 (i : grid1.Coords) (k1_t1 : Fin k1_t1_loop.trips) : Fin 1 → Nat :=
  let c0_i32_53 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v5 : BitVec 32 := Scalar.muli v1 c1664_i32
  let v40 : BitVec 32 := Scalar.addi c0_i32_53 v5
  let c0_i32_1 : BitVec 32 := 0#32
  let c1_i32 : BitVec 32 := 1#32
  let arg24 : BitVec 32 := Scf.iv c0_i32_1 c1_i32 k1_t1
  let c2_i32_52 : BitVec 32 := 2#32
  let v39 : BitVec 32 := Scalar.muli arg24 c2_i32_52
  let c128_i32 : BitVec 32 := 128#32
  let v41 : BitVec 32 := Scalar.muli v39 c128_i32
  let v42 : BitVec 32 := Scalar.addi v40 v41
  ![v42.toNat]
def k1_off4 (i : grid1.Coords) (k1_t1 : Fin k1_t1_loop.trips) : Fin 1 → Nat :=
  let c0_i32_53 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v5 : BitVec 32 := Scalar.muli v1 c1664_i32
  let v40 : BitVec 32 := Scalar.addi c0_i32_53 v5
  let c0_i32_1 : BitVec 32 := 0#32
  let c1_i32 : BitVec 32 := 1#32
  let arg24 : BitVec 32 := Scf.iv c0_i32_1 c1_i32 k1_t1
  let c2_i32_52 : BitVec 32 := 2#32
  let v39 : BitVec 32 := Scalar.muli arg24 c2_i32_52
  let c1_i32_56 : BitVec 32 := 1#32
  let v44 : BitVec 32 := Scalar.addi v39 c1_i32_56
  let c128_i32_57 : BitVec 32 := 128#32
  let v45 : BitVec 32 := Scalar.muli v44 c128_i32_57
  let v46 : BitVec 32 := Scalar.addi v40 v45
  ![v46.toNat]
@[reducible] def k1_t2_loop : Scf.Loop 32 :=
  let c0_i32_63 : BitVec 32 := 0#32
  let c8_i32_64 : BitVec 32 := 8#32
  let v49 : BitVec 32 := Scalar.addi c0_i32_63 c8_i32_64
  let c1_i32_65 : BitVec 32 := 1#32
  ⟨c0_i32_63, v49, c1_i32_65⟩

def k1_chk1 (v58 : IVec S16 32) (v59 : IVec S16 32) : Prop :=
  (∀ a x, ((![v58, v59] : Fin 2 → IVec S16 32) a x).toNat < S128x128.size a)
instance k1_chk1.dec : ∀ (v58 : IVec S16 32) (v59 : IVec S16 32), Decidable (k1_chk1 v58 v59) := fun v58 v59 => decidable_of_iff' _ (Iff.of_eq (k1_chk1.eq_1 v58 v59))
theorem k1_idx1_inb : ∀ (v58 : IVec S16 32) (v59 : IVec S16 32) (k1_hw1 : k1_chk1 v58 v59), ∀ a x, ((![v58, v59] : Fin 2 → IVec S16 32) a x).toNat < S128x128.size a := fun v58 v59 k1_hw1 => k1_hw1

def k1_chk2 (v58 : IVec S16 32) (v61 : IVec S16 32) : Prop :=
  (∀ a x, ((![v58, v61] : Fin 2 → IVec S16 32) a x).toNat < S128x128.size a)
instance k1_chk2.dec : ∀ (v58 : IVec S16 32) (v61 : IVec S16 32), Decidable (k1_chk2 v58 v61) := fun v58 v61 => decidable_of_iff' _ (Iff.of_eq (k1_chk2.eq_1 v58 v61))
theorem k1_idx2_inb : ∀ (v58 : IVec S16 32) (v61 : IVec S16 32) (k1_hw2 : k1_chk2 v58 v61), ∀ a x, ((![v58, v61] : Fin 2 → IVec S16 32) a x).toNat < S128x128.size a := fun v58 v61 k1_hw2 => k1_hw2

def k1_chk3 (v58 : IVec S16 32) (v63 : IVec S16 32) : Prop :=
  (∀ a x, ((![v58, v63] : Fin 2 → IVec S16 32) a x).toNat < S128x128.size a)
instance k1_chk3.dec : ∀ (v58 : IVec S16 32) (v63 : IVec S16 32), Decidable (k1_chk3 v58 v63) := fun v58 v63 => decidable_of_iff' _ (Iff.of_eq (k1_chk3.eq_1 v58 v63))
theorem k1_idx3_inb : ∀ (v58 : IVec S16 32) (v63 : IVec S16 32) (k1_hw3 : k1_chk3 v58 v63), ∀ a x, ((![v58, v63] : Fin 2 → IVec S16 32) a x).toNat < S128x128.size a := fun v58 v63 k1_hw3 => k1_hw3

def k1_chk4 (v58 : IVec S16 32) (v65 : IVec S16 32) : Prop :=
  (∀ a x, ((![v58, v65] : Fin 2 → IVec S16 32) a x).toNat < S128x128.size a)
instance k1_chk4.dec : ∀ (v58 : IVec S16 32) (v65 : IVec S16 32), Decidable (k1_chk4 v58 v65) := fun v58 v65 => decidable_of_iff' _ (Iff.of_eq (k1_chk4.eq_1 v58 v65))
theorem k1_idx4_inb : ∀ (v58 : IVec S16 32) (v65 : IVec S16 32) (k1_hw4 : k1_chk4 v58 v65), ∀ a x, ((![v58, v65] : Fin 2 → IVec S16 32) a x).toNat < S128x128.size a := fun v58 v65 k1_hw4 => k1_hw4

def k1_chk5 (v58 : IVec S16 32) (v67 : IVec S16 32) : Prop :=
  (∀ a x, ((![v58, v67] : Fin 2 → IVec S16 32) a x).toNat < S128x128.size a)
instance k1_chk5.dec : ∀ (v58 : IVec S16 32) (v67 : IVec S16 32), Decidable (k1_chk5 v58 v67) := fun v58 v67 => decidable_of_iff' _ (Iff.of_eq (k1_chk5.eq_1 v58 v67))
theorem k1_idx5_inb : ∀ (v58 : IVec S16 32) (v67 : IVec S16 32) (k1_hw5 : k1_chk5 v58 v67), ∀ a x, ((![v58, v67] : Fin 2 → IVec S16 32) a x).toNat < S128x128.size a := fun v58 v67 k1_hw5 => k1_hw5

def k1_chk6 (v58 : IVec S16 32) (v69 : IVec S16 32) : Prop :=
  (∀ a x, ((![v58, v69] : Fin 2 → IVec S16 32) a x).toNat < S128x128.size a)
instance k1_chk6.dec : ∀ (v58 : IVec S16 32) (v69 : IVec S16 32), Decidable (k1_chk6 v58 v69) := fun v58 v69 => decidable_of_iff' _ (Iff.of_eq (k1_chk6.eq_1 v58 v69))
theorem k1_idx6_inb : ∀ (v58 : IVec S16 32) (v69 : IVec S16 32) (k1_hw6 : k1_chk6 v58 v69), ∀ a x, ((![v58, v69] : Fin 2 → IVec S16 32) a x).toNat < S128x128.size a := fun v58 v69 k1_hw6 => k1_hw6

def k1_chk7 (v58 : IVec S16 32) (v71 : IVec S16 32) : Prop :=
  (∀ a x, ((![v58, v71] : Fin 2 → IVec S16 32) a x).toNat < S128x128.size a)
instance k1_chk7.dec : ∀ (v58 : IVec S16 32) (v71 : IVec S16 32), Decidable (k1_chk7 v58 v71) := fun v58 v71 => decidable_of_iff' _ (Iff.of_eq (k1_chk7.eq_1 v58 v71))
theorem k1_idx7_inb : ∀ (v58 : IVec S16 32) (v71 : IVec S16 32) (k1_hw7 : k1_chk7 v58 v71), ∀ a x, ((![v58, v71] : Fin 2 → IVec S16 32) a x).toNat < S128x128.size a := fun v58 v71 k1_hw7 => k1_hw7

def k1_chk8 (v58 : IVec S16 32) (v73 : IVec S16 32) : Prop :=
  (∀ a x, ((![v58, v73] : Fin 2 → IVec S16 32) a x).toNat < S128x128.size a)
instance k1_chk8.dec : ∀ (v58 : IVec S16 32) (v73 : IVec S16 32), Decidable (k1_chk8 v58 v73) := fun v58 v73 => decidable_of_iff' _ (Iff.of_eq (k1_chk8.eq_1 v58 v73))
theorem k1_idx8_inb : ∀ (v58 : IVec S16 32) (v73 : IVec S16 32) (k1_hw8 : k1_chk8 v58 v73), ∀ a x, ((![v58, v73] : Fin 2 → IVec S16 32) a x).toNat < S128x128.size a := fun v58 v73 k1_hw8 => k1_hw8

def k1_chk9 (v58 : IVec S16 32) (v75 : IVec S16 32) : Prop :=
  (∀ a x, ((![v58, v75] : Fin 2 → IVec S16 32) a x).toNat < S128x128.size a)
instance k1_chk9.dec : ∀ (v58 : IVec S16 32) (v75 : IVec S16 32), Decidable (k1_chk9 v58 v75) := fun v58 v75 => decidable_of_iff' _ (Iff.of_eq (k1_chk9.eq_1 v58 v75))
theorem k1_idx9_inb : ∀ (v58 : IVec S16 32) (v75 : IVec S16 32) (k1_hw9 : k1_chk9 v58 v75), ∀ a x, ((![v58, v75] : Fin 2 → IVec S16 32) a x).toNat < S128x128.size a := fun v58 v75 k1_hw9 => k1_hw9

def k1_chk10 (v58 : IVec S16 32) (v77 : IVec S16 32) : Prop :=
  (∀ a x, ((![v58, v77] : Fin 2 → IVec S16 32) a x).toNat < S128x128.size a)
instance k1_chk10.dec : ∀ (v58 : IVec S16 32) (v77 : IVec S16 32), Decidable (k1_chk10 v58 v77) := fun v58 v77 => decidable_of_iff' _ (Iff.of_eq (k1_chk10.eq_1 v58 v77))
theorem k1_idx10_inb : ∀ (v58 : IVec S16 32) (v77 : IVec S16 32) (k1_hw10 : k1_chk10 v58 v77), ∀ a x, ((![v58, v77] : Fin 2 → IVec S16 32) a x).toNat < S128x128.size a := fun v58 v77 k1_hw10 => k1_hw10

def k1_chk11 (v58 : IVec S16 32) (v79 : IVec S16 32) : Prop :=
  (∀ a x, ((![v58, v79] : Fin 2 → IVec S16 32) a x).toNat < S128x128.size a)
instance k1_chk11.dec : ∀ (v58 : IVec S16 32) (v79 : IVec S16 32), Decidable (k1_chk11 v58 v79) := fun v58 v79 => decidable_of_iff' _ (Iff.of_eq (k1_chk11.eq_1 v58 v79))
theorem k1_idx11_inb : ∀ (v58 : IVec S16 32) (v79 : IVec S16 32) (k1_hw11 : k1_chk11 v58 v79), ∀ a x, ((![v58, v79] : Fin 2 → IVec S16 32) a x).toNat < S128x128.size a := fun v58 v79 k1_hw11 => k1_hw11

def k1_chk12 (v58 : IVec S16 32) (v81 : IVec S16 32) : Prop :=
  (∀ a x, ((![v58, v81] : Fin 2 → IVec S16 32) a x).toNat < S128x128.size a)
instance k1_chk12.dec : ∀ (v58 : IVec S16 32) (v81 : IVec S16 32), Decidable (k1_chk12 v58 v81) := fun v58 v81 => decidable_of_iff' _ (Iff.of_eq (k1_chk12.eq_1 v58 v81))
theorem k1_idx12_inb : ∀ (v58 : IVec S16 32) (v81 : IVec S16 32) (k1_hw12 : k1_chk12 v58 v81), ∀ a x, ((![v58, v81] : Fin 2 → IVec S16 32) a x).toNat < S128x128.size a := fun v58 v81 k1_hw12 => k1_hw12

def k1_chk13 (v58 : IVec S16 32) (v83 : IVec S16 32) : Prop :=
  (∀ a x, ((![v58, v83] : Fin 2 → IVec S16 32) a x).toNat < S128x128.size a)
instance k1_chk13.dec : ∀ (v58 : IVec S16 32) (v83 : IVec S16 32), Decidable (k1_chk13 v58 v83) := fun v58 v83 => decidable_of_iff' _ (Iff.of_eq (k1_chk13.eq_1 v58 v83))
theorem k1_idx13_inb : ∀ (v58 : IVec S16 32) (v83 : IVec S16 32) (k1_hw13 : k1_chk13 v58 v83), ∀ a x, ((![v58, v83] : Fin 2 → IVec S16 32) a x).toNat < S128x128.size a := fun v58 v83 k1_hw13 => k1_hw13

def k1_chk14 (v58 : IVec S16 32) (v85 : IVec S16 32) : Prop :=
  (∀ a x, ((![v58, v85] : Fin 2 → IVec S16 32) a x).toNat < S128x128.size a)
instance k1_chk14.dec : ∀ (v58 : IVec S16 32) (v85 : IVec S16 32), Decidable (k1_chk14 v58 v85) := fun v58 v85 => decidable_of_iff' _ (Iff.of_eq (k1_chk14.eq_1 v58 v85))
theorem k1_idx14_inb : ∀ (v58 : IVec S16 32) (v85 : IVec S16 32) (k1_hw14 : k1_chk14 v58 v85), ∀ a x, ((![v58, v85] : Fin 2 → IVec S16 32) a x).toNat < S128x128.size a := fun v58 v85 k1_hw14 => k1_hw14

def k1_chk15 (v58 : IVec S16 32) (v87 : IVec S16 32) : Prop :=
  (∀ a x, ((![v58, v87] : Fin 2 → IVec S16 32) a x).toNat < S128x128.size a)
instance k1_chk15.dec : ∀ (v58 : IVec S16 32) (v87 : IVec S16 32), Decidable (k1_chk15 v58 v87) := fun v58 v87 => decidable_of_iff' _ (Iff.of_eq (k1_chk15.eq_1 v58 v87))
theorem k1_idx15_inb : ∀ (v58 : IVec S16 32) (v87 : IVec S16 32) (k1_hw15 : k1_chk15 v58 v87), ∀ a x, ((![v58, v87] : Fin 2 → IVec S16 32) a x).toNat < S128x128.size a := fun v58 v87 k1_hw15 => k1_hw15
def k1_off5 (k1_t1 : Fin k1_t1_loop.trips) (k1_t2 : Fin k1_t2_loop.trips) : Fin 1 → Nat :=
  let c0_i32_1 : BitVec 32 := 0#32
  let c1_i32 : BitVec 32 := 1#32
  let arg24 : BitVec 32 := Scf.iv c0_i32_1 c1_i32 k1_t1
  let c2_i32_52 : BitVec 32 := 2#32
  let v39 : BitVec 32 := Scalar.muli arg24 c2_i32_52
  let c128_i32_75 : BitVec 32 := 128#32
  let v53 : BitVec 32 := Scalar.muli v39 c128_i32_75
  let c0_i32_63 : BitVec 32 := 0#32
  let c1_i32_65 : BitVec 32 := 1#32
  let arg25 : BitVec 32 := Scf.iv c0_i32_63 c1_i32_65 k1_t2
  let c16_i32_76 : BitVec 32 := 16#32
  let v54 : BitVec 32 := Scalar.muli arg25 c16_i32_76
  let v55 : BitVec 32 := Scalar.addi v53 v54
  let v89 : Index := Scalar.indexCast v55
  ![v89.toNat]

def k1_chk16 (v126 : IVec S16 32) : Prop :=
  (∀ a x, ((![v126] : Fin 1 → IVec S16 32) a x).toNat < S4992.size a)
instance k1_chk16.dec : ∀ (v126 : IVec S16 32), Decidable (k1_chk16 v126) := fun v126 => decidable_of_iff' _ (Iff.of_eq (k1_chk16.eq_1 v126))
theorem k1_idx16_inb : ∀ (v126 : IVec S16 32) (k1_hw16 : k1_chk16 v126), ∀ a x, ((![v126] : Fin 1 → IVec S16 32) a x).toNat < S4992.size a := fun v126 k1_hw16 => k1_hw16

def k1_chk17 (v128 : IVec S16 32) : Prop :=
  (∀ a x, ((![v128] : Fin 1 → IVec S16 32) a x).toNat < S4992.size a)
instance k1_chk17.dec : ∀ (v128 : IVec S16 32), Decidable (k1_chk17 v128) := fun v128 => decidable_of_iff' _ (Iff.of_eq (k1_chk17.eq_1 v128))
theorem k1_idx17_inb : ∀ (v128 : IVec S16 32) (k1_hw17 : k1_chk17 v128), ∀ a x, ((![v128] : Fin 1 → IVec S16 32) a x).toNat < S4992.size a := fun v128 k1_hw17 => k1_hw17

def k1_chk18 (v130 : IVec S16 32) : Prop :=
  (∀ a x, ((![v130] : Fin 1 → IVec S16 32) a x).toNat < S4992.size a)
instance k1_chk18.dec : ∀ (v130 : IVec S16 32), Decidable (k1_chk18 v130) := fun v130 => decidable_of_iff' _ (Iff.of_eq (k1_chk18.eq_1 v130))
theorem k1_idx18_inb : ∀ (v130 : IVec S16 32) (k1_hw18 : k1_chk18 v130), ∀ a x, ((![v130] : Fin 1 → IVec S16 32) a x).toNat < S4992.size a := fun v130 k1_hw18 => k1_hw18
@[reducible] def k1_t3_loop : Scf.Loop 32 :=
  let c0_i32_71 : BitVec 32 := 0#32
  let c8_i32_72 : BitVec 32 := 8#32
  let v52 : BitVec 32 := Scalar.addi c0_i32_71 c8_i32_72
  let c1_i32_73 : BitVec 32 := 1#32
  ⟨c0_i32_71, v52, c1_i32_73⟩

def k1_chk19 (v58 : IVec S16 32) (v59 : IVec S16 32) : Prop :=
  (∀ a x, ((![v58, v59] : Fin 2 → IVec S16 32) a x).toNat < S128x128.size a)
instance k1_chk19.dec : ∀ (v58 : IVec S16 32) (v59 : IVec S16 32), Decidable (k1_chk19 v58 v59) := fun v58 v59 => decidable_of_iff' _ (Iff.of_eq (k1_chk19.eq_1 v58 v59))
theorem k1_idx19_inb : ∀ (v58 : IVec S16 32) (v59 : IVec S16 32) (k1_hw19 : k1_chk19 v58 v59), ∀ a x, ((![v58, v59] : Fin 2 → IVec S16 32) a x).toNat < S128x128.size a := fun v58 v59 k1_hw19 => k1_hw19

def k1_chk20 (v58 : IVec S16 32) (v61 : IVec S16 32) : Prop :=
  (∀ a x, ((![v58, v61] : Fin 2 → IVec S16 32) a x).toNat < S128x128.size a)
instance k1_chk20.dec : ∀ (v58 : IVec S16 32) (v61 : IVec S16 32), Decidable (k1_chk20 v58 v61) := fun v58 v61 => decidable_of_iff' _ (Iff.of_eq (k1_chk20.eq_1 v58 v61))
theorem k1_idx20_inb : ∀ (v58 : IVec S16 32) (v61 : IVec S16 32) (k1_hw20 : k1_chk20 v58 v61), ∀ a x, ((![v58, v61] : Fin 2 → IVec S16 32) a x).toNat < S128x128.size a := fun v58 v61 k1_hw20 => k1_hw20

def k1_chk21 (v58 : IVec S16 32) (v63 : IVec S16 32) : Prop :=
  (∀ a x, ((![v58, v63] : Fin 2 → IVec S16 32) a x).toNat < S128x128.size a)
instance k1_chk21.dec : ∀ (v58 : IVec S16 32) (v63 : IVec S16 32), Decidable (k1_chk21 v58 v63) := fun v58 v63 => decidable_of_iff' _ (Iff.of_eq (k1_chk21.eq_1 v58 v63))
theorem k1_idx21_inb : ∀ (v58 : IVec S16 32) (v63 : IVec S16 32) (k1_hw21 : k1_chk21 v58 v63), ∀ a x, ((![v58, v63] : Fin 2 → IVec S16 32) a x).toNat < S128x128.size a := fun v58 v63 k1_hw21 => k1_hw21

def k1_chk22 (v58 : IVec S16 32) (v65 : IVec S16 32) : Prop :=
  (∀ a x, ((![v58, v65] : Fin 2 → IVec S16 32) a x).toNat < S128x128.size a)
instance k1_chk22.dec : ∀ (v58 : IVec S16 32) (v65 : IVec S16 32), Decidable (k1_chk22 v58 v65) := fun v58 v65 => decidable_of_iff' _ (Iff.of_eq (k1_chk22.eq_1 v58 v65))
theorem k1_idx22_inb : ∀ (v58 : IVec S16 32) (v65 : IVec S16 32) (k1_hw22 : k1_chk22 v58 v65), ∀ a x, ((![v58, v65] : Fin 2 → IVec S16 32) a x).toNat < S128x128.size a := fun v58 v65 k1_hw22 => k1_hw22

def k1_chk23 (v58 : IVec S16 32) (v67 : IVec S16 32) : Prop :=
  (∀ a x, ((![v58, v67] : Fin 2 → IVec S16 32) a x).toNat < S128x128.size a)
instance k1_chk23.dec : ∀ (v58 : IVec S16 32) (v67 : IVec S16 32), Decidable (k1_chk23 v58 v67) := fun v58 v67 => decidable_of_iff' _ (Iff.of_eq (k1_chk23.eq_1 v58 v67))
theorem k1_idx23_inb : ∀ (v58 : IVec S16 32) (v67 : IVec S16 32) (k1_hw23 : k1_chk23 v58 v67), ∀ a x, ((![v58, v67] : Fin 2 → IVec S16 32) a x).toNat < S128x128.size a := fun v58 v67 k1_hw23 => k1_hw23

def k1_chk24 (v58 : IVec S16 32) (v69 : IVec S16 32) : Prop :=
  (∀ a x, ((![v58, v69] : Fin 2 → IVec S16 32) a x).toNat < S128x128.size a)
instance k1_chk24.dec : ∀ (v58 : IVec S16 32) (v69 : IVec S16 32), Decidable (k1_chk24 v58 v69) := fun v58 v69 => decidable_of_iff' _ (Iff.of_eq (k1_chk24.eq_1 v58 v69))
theorem k1_idx24_inb : ∀ (v58 : IVec S16 32) (v69 : IVec S16 32) (k1_hw24 : k1_chk24 v58 v69), ∀ a x, ((![v58, v69] : Fin 2 → IVec S16 32) a x).toNat < S128x128.size a := fun v58 v69 k1_hw24 => k1_hw24

def k1_chk25 (v58 : IVec S16 32) (v71 : IVec S16 32) : Prop :=
  (∀ a x, ((![v58, v71] : Fin 2 → IVec S16 32) a x).toNat < S128x128.size a)
instance k1_chk25.dec : ∀ (v58 : IVec S16 32) (v71 : IVec S16 32), Decidable (k1_chk25 v58 v71) := fun v58 v71 => decidable_of_iff' _ (Iff.of_eq (k1_chk25.eq_1 v58 v71))
theorem k1_idx25_inb : ∀ (v58 : IVec S16 32) (v71 : IVec S16 32) (k1_hw25 : k1_chk25 v58 v71), ∀ a x, ((![v58, v71] : Fin 2 → IVec S16 32) a x).toNat < S128x128.size a := fun v58 v71 k1_hw25 => k1_hw25

def k1_chk26 (v58 : IVec S16 32) (v73 : IVec S16 32) : Prop :=
  (∀ a x, ((![v58, v73] : Fin 2 → IVec S16 32) a x).toNat < S128x128.size a)
instance k1_chk26.dec : ∀ (v58 : IVec S16 32) (v73 : IVec S16 32), Decidable (k1_chk26 v58 v73) := fun v58 v73 => decidable_of_iff' _ (Iff.of_eq (k1_chk26.eq_1 v58 v73))
theorem k1_idx26_inb : ∀ (v58 : IVec S16 32) (v73 : IVec S16 32) (k1_hw26 : k1_chk26 v58 v73), ∀ a x, ((![v58, v73] : Fin 2 → IVec S16 32) a x).toNat < S128x128.size a := fun v58 v73 k1_hw26 => k1_hw26

def k1_chk27 (v58 : IVec S16 32) (v75 : IVec S16 32) : Prop :=
  (∀ a x, ((![v58, v75] : Fin 2 → IVec S16 32) a x).toNat < S128x128.size a)
instance k1_chk27.dec : ∀ (v58 : IVec S16 32) (v75 : IVec S16 32), Decidable (k1_chk27 v58 v75) := fun v58 v75 => decidable_of_iff' _ (Iff.of_eq (k1_chk27.eq_1 v58 v75))
theorem k1_idx27_inb : ∀ (v58 : IVec S16 32) (v75 : IVec S16 32) (k1_hw27 : k1_chk27 v58 v75), ∀ a x, ((![v58, v75] : Fin 2 → IVec S16 32) a x).toNat < S128x128.size a := fun v58 v75 k1_hw27 => k1_hw27

def k1_chk28 (v58 : IVec S16 32) (v77 : IVec S16 32) : Prop :=
  (∀ a x, ((![v58, v77] : Fin 2 → IVec S16 32) a x).toNat < S128x128.size a)
instance k1_chk28.dec : ∀ (v58 : IVec S16 32) (v77 : IVec S16 32), Decidable (k1_chk28 v58 v77) := fun v58 v77 => decidable_of_iff' _ (Iff.of_eq (k1_chk28.eq_1 v58 v77))
theorem k1_idx28_inb : ∀ (v58 : IVec S16 32) (v77 : IVec S16 32) (k1_hw28 : k1_chk28 v58 v77), ∀ a x, ((![v58, v77] : Fin 2 → IVec S16 32) a x).toNat < S128x128.size a := fun v58 v77 k1_hw28 => k1_hw28

def k1_chk29 (v58 : IVec S16 32) (v79 : IVec S16 32) : Prop :=
  (∀ a x, ((![v58, v79] : Fin 2 → IVec S16 32) a x).toNat < S128x128.size a)
instance k1_chk29.dec : ∀ (v58 : IVec S16 32) (v79 : IVec S16 32), Decidable (k1_chk29 v58 v79) := fun v58 v79 => decidable_of_iff' _ (Iff.of_eq (k1_chk29.eq_1 v58 v79))
theorem k1_idx29_inb : ∀ (v58 : IVec S16 32) (v79 : IVec S16 32) (k1_hw29 : k1_chk29 v58 v79), ∀ a x, ((![v58, v79] : Fin 2 → IVec S16 32) a x).toNat < S128x128.size a := fun v58 v79 k1_hw29 => k1_hw29

def k1_chk30 (v58 : IVec S16 32) (v81 : IVec S16 32) : Prop :=
  (∀ a x, ((![v58, v81] : Fin 2 → IVec S16 32) a x).toNat < S128x128.size a)
instance k1_chk30.dec : ∀ (v58 : IVec S16 32) (v81 : IVec S16 32), Decidable (k1_chk30 v58 v81) := fun v58 v81 => decidable_of_iff' _ (Iff.of_eq (k1_chk30.eq_1 v58 v81))
theorem k1_idx30_inb : ∀ (v58 : IVec S16 32) (v81 : IVec S16 32) (k1_hw30 : k1_chk30 v58 v81), ∀ a x, ((![v58, v81] : Fin 2 → IVec S16 32) a x).toNat < S128x128.size a := fun v58 v81 k1_hw30 => k1_hw30

def k1_chk31 (v58 : IVec S16 32) (v83 : IVec S16 32) : Prop :=
  (∀ a x, ((![v58, v83] : Fin 2 → IVec S16 32) a x).toNat < S128x128.size a)
instance k1_chk31.dec : ∀ (v58 : IVec S16 32) (v83 : IVec S16 32), Decidable (k1_chk31 v58 v83) := fun v58 v83 => decidable_of_iff' _ (Iff.of_eq (k1_chk31.eq_1 v58 v83))
theorem k1_idx31_inb : ∀ (v58 : IVec S16 32) (v83 : IVec S16 32) (k1_hw31 : k1_chk31 v58 v83), ∀ a x, ((![v58, v83] : Fin 2 → IVec S16 32) a x).toNat < S128x128.size a := fun v58 v83 k1_hw31 => k1_hw31

def k1_chk32 (v58 : IVec S16 32) (v85 : IVec S16 32) : Prop :=
  (∀ a x, ((![v58, v85] : Fin 2 → IVec S16 32) a x).toNat < S128x128.size a)
instance k1_chk32.dec : ∀ (v58 : IVec S16 32) (v85 : IVec S16 32), Decidable (k1_chk32 v58 v85) := fun v58 v85 => decidable_of_iff' _ (Iff.of_eq (k1_chk32.eq_1 v58 v85))
theorem k1_idx32_inb : ∀ (v58 : IVec S16 32) (v85 : IVec S16 32) (k1_hw32 : k1_chk32 v58 v85), ∀ a x, ((![v58, v85] : Fin 2 → IVec S16 32) a x).toNat < S128x128.size a := fun v58 v85 k1_hw32 => k1_hw32

def k1_chk33 (v58 : IVec S16 32) (v87 : IVec S16 32) : Prop :=
  (∀ a x, ((![v58, v87] : Fin 2 → IVec S16 32) a x).toNat < S128x128.size a)
instance k1_chk33.dec : ∀ (v58 : IVec S16 32) (v87 : IVec S16 32), Decidable (k1_chk33 v58 v87) := fun v58 v87 => decidable_of_iff' _ (Iff.of_eq (k1_chk33.eq_1 v58 v87))
theorem k1_idx33_inb : ∀ (v58 : IVec S16 32) (v87 : IVec S16 32) (k1_hw33 : k1_chk33 v58 v87), ∀ a x, ((![v58, v87] : Fin 2 → IVec S16 32) a x).toNat < S128x128.size a := fun v58 v87 k1_hw33 => k1_hw33
def k1_off6 (k1_t1 : Fin k1_t1_loop.trips) (k1_t3 : Fin k1_t3_loop.trips) : Fin 1 → Nat :=
  let c0_i32_1 : BitVec 32 := 0#32
  let c1_i32 : BitVec 32 := 1#32
  let arg24 : BitVec 32 := Scf.iv c0_i32_1 c1_i32 k1_t1
  let c2_i32_52 : BitVec 32 := 2#32
  let v39 : BitVec 32 := Scalar.muli arg24 c2_i32_52
  let c1_i32_69 : BitVec 32 := 1#32
  let v51 : BitVec 32 := Scalar.addi v39 c1_i32_69
  let c128_i32_75 : BitVec 32 := 128#32
  let v53 : BitVec 32 := Scalar.muli v51 c128_i32_75
  let c0_i32_71 : BitVec 32 := 0#32
  let c1_i32_73 : BitVec 32 := 1#32
  let arg25 : BitVec 32 := Scf.iv c0_i32_71 c1_i32_73 k1_t3
  let c16_i32_76 : BitVec 32 := 16#32
  let v54 : BitVec 32 := Scalar.muli arg25 c16_i32_76
  let v55 : BitVec 32 := Scalar.addi v53 v54
  let v89 : Index := Scalar.indexCast v55
  ![v89.toNat]

def k1_chk34 (v126 : IVec S16 32) : Prop :=
  (∀ a x, ((![v126] : Fin 1 → IVec S16 32) a x).toNat < S4992.size a)
instance k1_chk34.dec : ∀ (v126 : IVec S16 32), Decidable (k1_chk34 v126) := fun v126 => decidable_of_iff' _ (Iff.of_eq (k1_chk34.eq_1 v126))
theorem k1_idx34_inb : ∀ (v126 : IVec S16 32) (k1_hw34 : k1_chk34 v126), ∀ a x, ((![v126] : Fin 1 → IVec S16 32) a x).toNat < S4992.size a := fun v126 k1_hw34 => k1_hw34

def k1_chk35 (v128 : IVec S16 32) : Prop :=
  (∀ a x, ((![v128] : Fin 1 → IVec S16 32) a x).toNat < S4992.size a)
instance k1_chk35.dec : ∀ (v128 : IVec S16 32), Decidable (k1_chk35 v128) := fun v128 => decidable_of_iff' _ (Iff.of_eq (k1_chk35.eq_1 v128))
theorem k1_idx35_inb : ∀ (v128 : IVec S16 32) (k1_hw35 : k1_chk35 v128), ∀ a x, ((![v128] : Fin 1 → IVec S16 32) a x).toNat < S4992.size a := fun v128 k1_hw35 => k1_hw35

def k1_chk36 (v130 : IVec S16 32) : Prop :=
  (∀ a x, ((![v130] : Fin 1 → IVec S16 32) a x).toNat < S4992.size a)
instance k1_chk36.dec : ∀ (v130 : IVec S16 32), Decidable (k1_chk36 v130) := fun v130 => decidable_of_iff' _ (Iff.of_eq (k1_chk36.eq_1 v130))
theorem k1_idx36_inb : ∀ (v130 : IVec S16 32) (k1_hw36 : k1_chk36 v130), ∀ a x, ((![v130] : Fin 1 → IVec S16 32) a x).toNat < S4992.size a := fun v130 k1_hw36 => k1_hw36
def k1_off7 (i : grid1.Coords) (c0_i32_3 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v5 : BitVec 32 := Scalar.muli v1 c1664_i32
  let v10 : BitVec 32 := Scalar.addi c0_i32_3 v5
  let c1536_i32 : BitVec 32 := 1536#32
  let v11 : BitVec 32 := Scalar.addi v10 c1536_i32
  ![v11.toNat]
@[reducible] def k1_t4_loop : Scf.Loop 32 :=
  let c0_i32_9 : BitVec 32 := 0#32
  let c8_i32 : BitVec 32 := 8#32
  let v14 : BitVec 32 := Scalar.addi c0_i32_9 c8_i32
  let c1_i32_10 : BitVec 32 := 1#32
  ⟨c0_i32_9, v14, c1_i32_10⟩

def k1_chk37 (v43 : IVec S16 32) (v44 : IVec S16 32) : Prop :=
  (∀ a x, ((![v43, v44] : Fin 2 → IVec S16 32) a x).toNat < S128x128.size a)
instance k1_chk37.dec : ∀ (v43 : IVec S16 32) (v44 : IVec S16 32), Decidable (k1_chk37 v43 v44) := fun v43 v44 => decidable_of_iff' _ (Iff.of_eq (k1_chk37.eq_1 v43 v44))
theorem k1_idx37_inb : ∀ (v43 : IVec S16 32) (v44 : IVec S16 32) (k1_hw37 : k1_chk37 v43 v44), ∀ a x, ((![v43, v44] : Fin 2 → IVec S16 32) a x).toNat < S128x128.size a := fun v43 v44 k1_hw37 => k1_hw37

def k1_chk38 (v43 : IVec S16 32) (v46 : IVec S16 32) : Prop :=
  (∀ a x, ((![v43, v46] : Fin 2 → IVec S16 32) a x).toNat < S128x128.size a)
instance k1_chk38.dec : ∀ (v43 : IVec S16 32) (v46 : IVec S16 32), Decidable (k1_chk38 v43 v46) := fun v43 v46 => decidable_of_iff' _ (Iff.of_eq (k1_chk38.eq_1 v43 v46))
theorem k1_idx38_inb : ∀ (v43 : IVec S16 32) (v46 : IVec S16 32) (k1_hw38 : k1_chk38 v43 v46), ∀ a x, ((![v43, v46] : Fin 2 → IVec S16 32) a x).toNat < S128x128.size a := fun v43 v46 k1_hw38 => k1_hw38

def k1_chk39 (v43 : IVec S16 32) (v48 : IVec S16 32) : Prop :=
  (∀ a x, ((![v43, v48] : Fin 2 → IVec S16 32) a x).toNat < S128x128.size a)
instance k1_chk39.dec : ∀ (v43 : IVec S16 32) (v48 : IVec S16 32), Decidable (k1_chk39 v43 v48) := fun v43 v48 => decidable_of_iff' _ (Iff.of_eq (k1_chk39.eq_1 v43 v48))
theorem k1_idx39_inb : ∀ (v43 : IVec S16 32) (v48 : IVec S16 32) (k1_hw39 : k1_chk39 v43 v48), ∀ a x, ((![v43, v48] : Fin 2 → IVec S16 32) a x).toNat < S128x128.size a := fun v43 v48 k1_hw39 => k1_hw39

def k1_chk40 (v43 : IVec S16 32) (v50 : IVec S16 32) : Prop :=
  (∀ a x, ((![v43, v50] : Fin 2 → IVec S16 32) a x).toNat < S128x128.size a)
instance k1_chk40.dec : ∀ (v43 : IVec S16 32) (v50 : IVec S16 32), Decidable (k1_chk40 v43 v50) := fun v43 v50 => decidable_of_iff' _ (Iff.of_eq (k1_chk40.eq_1 v43 v50))
theorem k1_idx40_inb : ∀ (v43 : IVec S16 32) (v50 : IVec S16 32) (k1_hw40 : k1_chk40 v43 v50), ∀ a x, ((![v43, v50] : Fin 2 → IVec S16 32) a x).toNat < S128x128.size a := fun v43 v50 k1_hw40 => k1_hw40

def k1_chk41 (v43 : IVec S16 32) (v52 : IVec S16 32) : Prop :=
  (∀ a x, ((![v43, v52] : Fin 2 → IVec S16 32) a x).toNat < S128x128.size a)
instance k1_chk41.dec : ∀ (v43 : IVec S16 32) (v52 : IVec S16 32), Decidable (k1_chk41 v43 v52) := fun v43 v52 => decidable_of_iff' _ (Iff.of_eq (k1_chk41.eq_1 v43 v52))
theorem k1_idx41_inb : ∀ (v43 : IVec S16 32) (v52 : IVec S16 32) (k1_hw41 : k1_chk41 v43 v52), ∀ a x, ((![v43, v52] : Fin 2 → IVec S16 32) a x).toNat < S128x128.size a := fun v43 v52 k1_hw41 => k1_hw41

def k1_chk42 (v43 : IVec S16 32) (v54 : IVec S16 32) : Prop :=
  (∀ a x, ((![v43, v54] : Fin 2 → IVec S16 32) a x).toNat < S128x128.size a)
instance k1_chk42.dec : ∀ (v43 : IVec S16 32) (v54 : IVec S16 32), Decidable (k1_chk42 v43 v54) := fun v43 v54 => decidable_of_iff' _ (Iff.of_eq (k1_chk42.eq_1 v43 v54))
theorem k1_idx42_inb : ∀ (v43 : IVec S16 32) (v54 : IVec S16 32) (k1_hw42 : k1_chk42 v43 v54), ∀ a x, ((![v43, v54] : Fin 2 → IVec S16 32) a x).toNat < S128x128.size a := fun v43 v54 k1_hw42 => k1_hw42

def k1_chk43 (v43 : IVec S16 32) (v56 : IVec S16 32) : Prop :=
  (∀ a x, ((![v43, v56] : Fin 2 → IVec S16 32) a x).toNat < S128x128.size a)
instance k1_chk43.dec : ∀ (v43 : IVec S16 32) (v56 : IVec S16 32), Decidable (k1_chk43 v43 v56) := fun v43 v56 => decidable_of_iff' _ (Iff.of_eq (k1_chk43.eq_1 v43 v56))
theorem k1_idx43_inb : ∀ (v43 : IVec S16 32) (v56 : IVec S16 32) (k1_hw43 : k1_chk43 v43 v56), ∀ a x, ((![v43, v56] : Fin 2 → IVec S16 32) a x).toNat < S128x128.size a := fun v43 v56 k1_hw43 => k1_hw43

def k1_chk44 (v43 : IVec S16 32) (v58 : IVec S16 32) : Prop :=
  (∀ a x, ((![v43, v58] : Fin 2 → IVec S16 32) a x).toNat < S128x128.size a)
instance k1_chk44.dec : ∀ (v43 : IVec S16 32) (v58 : IVec S16 32), Decidable (k1_chk44 v43 v58) := fun v43 v58 => decidable_of_iff' _ (Iff.of_eq (k1_chk44.eq_1 v43 v58))
theorem k1_idx44_inb : ∀ (v43 : IVec S16 32) (v58 : IVec S16 32) (k1_hw44 : k1_chk44 v43 v58), ∀ a x, ((![v43, v58] : Fin 2 → IVec S16 32) a x).toNat < S128x128.size a := fun v43 v58 k1_hw44 => k1_hw44

def k1_chk45 (v43 : IVec S16 32) (v60 : IVec S16 32) : Prop :=
  (∀ a x, ((![v43, v60] : Fin 2 → IVec S16 32) a x).toNat < S128x128.size a)
instance k1_chk45.dec : ∀ (v43 : IVec S16 32) (v60 : IVec S16 32), Decidable (k1_chk45 v43 v60) := fun v43 v60 => decidable_of_iff' _ (Iff.of_eq (k1_chk45.eq_1 v43 v60))
theorem k1_idx45_inb : ∀ (v43 : IVec S16 32) (v60 : IVec S16 32) (k1_hw45 : k1_chk45 v43 v60), ∀ a x, ((![v43, v60] : Fin 2 → IVec S16 32) a x).toNat < S128x128.size a := fun v43 v60 k1_hw45 => k1_hw45

def k1_chk46 (v43 : IVec S16 32) (v62 : IVec S16 32) : Prop :=
  (∀ a x, ((![v43, v62] : Fin 2 → IVec S16 32) a x).toNat < S128x128.size a)
instance k1_chk46.dec : ∀ (v43 : IVec S16 32) (v62 : IVec S16 32), Decidable (k1_chk46 v43 v62) := fun v43 v62 => decidable_of_iff' _ (Iff.of_eq (k1_chk46.eq_1 v43 v62))
theorem k1_idx46_inb : ∀ (v43 : IVec S16 32) (v62 : IVec S16 32) (k1_hw46 : k1_chk46 v43 v62), ∀ a x, ((![v43, v62] : Fin 2 → IVec S16 32) a x).toNat < S128x128.size a := fun v43 v62 k1_hw46 => k1_hw46

def k1_chk47 (v43 : IVec S16 32) (v64 : IVec S16 32) : Prop :=
  (∀ a x, ((![v43, v64] : Fin 2 → IVec S16 32) a x).toNat < S128x128.size a)
instance k1_chk47.dec : ∀ (v43 : IVec S16 32) (v64 : IVec S16 32), Decidable (k1_chk47 v43 v64) := fun v43 v64 => decidable_of_iff' _ (Iff.of_eq (k1_chk47.eq_1 v43 v64))
theorem k1_idx47_inb : ∀ (v43 : IVec S16 32) (v64 : IVec S16 32) (k1_hw47 : k1_chk47 v43 v64), ∀ a x, ((![v43, v64] : Fin 2 → IVec S16 32) a x).toNat < S128x128.size a := fun v43 v64 k1_hw47 => k1_hw47

def k1_chk48 (v43 : IVec S16 32) (v66 : IVec S16 32) : Prop :=
  (∀ a x, ((![v43, v66] : Fin 2 → IVec S16 32) a x).toNat < S128x128.size a)
instance k1_chk48.dec : ∀ (v43 : IVec S16 32) (v66 : IVec S16 32), Decidable (k1_chk48 v43 v66) := fun v43 v66 => decidable_of_iff' _ (Iff.of_eq (k1_chk48.eq_1 v43 v66))
theorem k1_idx48_inb : ∀ (v43 : IVec S16 32) (v66 : IVec S16 32) (k1_hw48 : k1_chk48 v43 v66), ∀ a x, ((![v43, v66] : Fin 2 → IVec S16 32) a x).toNat < S128x128.size a := fun v43 v66 k1_hw48 => k1_hw48

def k1_chk49 (v43 : IVec S16 32) (v68 : IVec S16 32) : Prop :=
  (∀ a x, ((![v43, v68] : Fin 2 → IVec S16 32) a x).toNat < S128x128.size a)
instance k1_chk49.dec : ∀ (v43 : IVec S16 32) (v68 : IVec S16 32), Decidable (k1_chk49 v43 v68) := fun v43 v68 => decidable_of_iff' _ (Iff.of_eq (k1_chk49.eq_1 v43 v68))
theorem k1_idx49_inb : ∀ (v43 : IVec S16 32) (v68 : IVec S16 32) (k1_hw49 : k1_chk49 v43 v68), ∀ a x, ((![v43, v68] : Fin 2 → IVec S16 32) a x).toNat < S128x128.size a := fun v43 v68 k1_hw49 => k1_hw49

def k1_chk50 (v43 : IVec S16 32) (v70 : IVec S16 32) : Prop :=
  (∀ a x, ((![v43, v70] : Fin 2 → IVec S16 32) a x).toNat < S128x128.size a)
instance k1_chk50.dec : ∀ (v43 : IVec S16 32) (v70 : IVec S16 32), Decidable (k1_chk50 v43 v70) := fun v43 v70 => decidable_of_iff' _ (Iff.of_eq (k1_chk50.eq_1 v43 v70))
theorem k1_idx50_inb : ∀ (v43 : IVec S16 32) (v70 : IVec S16 32) (k1_hw50 : k1_chk50 v43 v70), ∀ a x, ((![v43, v70] : Fin 2 → IVec S16 32) a x).toNat < S128x128.size a := fun v43 v70 k1_hw50 => k1_hw50

def k1_chk51 (v43 : IVec S16 32) (v72 : IVec S16 32) : Prop :=
  (∀ a x, ((![v43, v72] : Fin 2 → IVec S16 32) a x).toNat < S128x128.size a)
instance k1_chk51.dec : ∀ (v43 : IVec S16 32) (v72 : IVec S16 32), Decidable (k1_chk51 v43 v72) := fun v43 v72 => decidable_of_iff' _ (Iff.of_eq (k1_chk51.eq_1 v43 v72))
theorem k1_idx51_inb : ∀ (v43 : IVec S16 32) (v72 : IVec S16 32) (k1_hw51 : k1_chk51 v43 v72), ∀ a x, ((![v43, v72] : Fin 2 → IVec S16 32) a x).toNat < S128x128.size a := fun v43 v72 k1_hw51 => k1_hw51
def k1_off8 (k1_t4 : Fin k1_t4_loop.trips) : Fin 1 → Nat :=
  let c1536_i32_53 : BitVec 32 := 1536#32
  let c0_i32_9 : BitVec 32 := 0#32
  let c1_i32_10 : BitVec 32 := 1#32
  let arg24 : BitVec 32 := Scf.iv c0_i32_9 c1_i32_10 k1_t4
  let c16_i32_52 : BitVec 32 := 16#32
  let v39 : BitVec 32 := Scalar.muli arg24 c16_i32_52
  let v40 : BitVec 32 := Scalar.addi c1536_i32_53 v39
  let v74 : Index := Scalar.indexCast v40
  ![v74.toNat]

def k1_chk52 (v111 : IVec S16 32) : Prop :=
  (∀ a x, ((![v111] : Fin 1 → IVec S16 32) a x).toNat < S4992.size a)
instance k1_chk52.dec : ∀ (v111 : IVec S16 32), Decidable (k1_chk52 v111) := fun v111 => decidable_of_iff' _ (Iff.of_eq (k1_chk52.eq_1 v111))
theorem k1_idx52_inb : ∀ (v111 : IVec S16 32) (k1_hw52 : k1_chk52 v111), ∀ a x, ((![v111] : Fin 1 → IVec S16 32) a x).toNat < S4992.size a := fun v111 k1_hw52 => k1_hw52

def k1_chk53 (v113 : IVec S16 32) : Prop :=
  (∀ a x, ((![v113] : Fin 1 → IVec S16 32) a x).toNat < S4992.size a)
instance k1_chk53.dec : ∀ (v113 : IVec S16 32), Decidable (k1_chk53 v113) := fun v113 => decidable_of_iff' _ (Iff.of_eq (k1_chk53.eq_1 v113))
theorem k1_idx53_inb : ∀ (v113 : IVec S16 32) (k1_hw53 : k1_chk53 v113), ∀ a x, ((![v113] : Fin 1 → IVec S16 32) a x).toNat < S4992.size a := fun v113 k1_hw53 => k1_hw53

def k1_chk54 (v115 : IVec S16 32) : Prop :=
  (∀ a x, ((![v115] : Fin 1 → IVec S16 32) a x).toNat < S4992.size a)
instance k1_chk54.dec : ∀ (v115 : IVec S16 32), Decidable (k1_chk54 v115) := fun v115 => decidable_of_iff' _ (Iff.of_eq (k1_chk54.eq_1 v115))
theorem k1_idx54_inb : ∀ (v115 : IVec S16 32) (k1_hw54 : k1_chk54 v115), ∀ a x, ((![v115] : Fin 1 → IVec S16 32) a x).toNat < S4992.size a := fun v115 k1_hw54 => k1_hw54
@[reducible] def k1_t5_loop : Scf.Loop 32 :=
  let c0_i32_14 : BitVec 32 := 0#32
  let c6_i32_15 : BitVec 32 := 6#32
  let v16 : BitVec 32 := Scalar.addi c0_i32_14 c6_i32_15
  let c1_i32_16 : BitVec 32 := 1#32
  ⟨c0_i32_14, v16, c1_i32_16⟩
def k1_off9 (i : grid1.Coords) (k1_t5 : Fin k1_t5_loop.trips) : Fin 1 → Nat :=
  let c53248_i32_53 : BitVec 32 := 53248#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v5 : BitVec 32 := Scalar.muli v1 c1664_i32
  let v40 : BitVec 32 := Scalar.addi c53248_i32_53 v5
  let c0_i32_14 : BitVec 32 := 0#32
  let c1_i32_16 : BitVec 32 := 1#32
  let arg24 : BitVec 32 := Scf.iv c0_i32_14 c1_i32_16 k1_t5
  let c2_i32_52 : BitVec 32 := 2#32
  let v39 : BitVec 32 := Scalar.muli arg24 c2_i32_52
  let c128_i32 : BitVec 32 := 128#32
  let v41 : BitVec 32 := Scalar.muli v39 c128_i32
  let v42 : BitVec 32 := Scalar.addi v40 v41
  ![v42.toNat]
def k1_off10 (i : grid1.Coords) (k1_t5 : Fin k1_t5_loop.trips) : Fin 1 → Nat :=
  let c53248_i32_53 : BitVec 32 := 53248#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v5 : BitVec 32 := Scalar.muli v1 c1664_i32
  let v40 : BitVec 32 := Scalar.addi c53248_i32_53 v5
  let c0_i32_14 : BitVec 32 := 0#32
  let c1_i32_16 : BitVec 32 := 1#32
  let arg24 : BitVec 32 := Scf.iv c0_i32_14 c1_i32_16 k1_t5
  let c2_i32_52 : BitVec 32 := 2#32
  let v39 : BitVec 32 := Scalar.muli arg24 c2_i32_52
  let c1_i32_56 : BitVec 32 := 1#32
  let v44 : BitVec 32 := Scalar.addi v39 c1_i32_56
  let c128_i32_57 : BitVec 32 := 128#32
  let v45 : BitVec 32 := Scalar.muli v44 c128_i32_57
  let v46 : BitVec 32 := Scalar.addi v40 v45
  ![v46.toNat]
@[reducible] def k1_t6_loop : Scf.Loop 32 :=
  let c0_i32_63 : BitVec 32 := 0#32
  let c8_i32_64 : BitVec 32 := 8#32
  let v49 : BitVec 32 := Scalar.addi c0_i32_63 c8_i32_64
  let c1_i32_65 : BitVec 32 := 1#32
  ⟨c0_i32_63, v49, c1_i32_65⟩

def k1_chk55 (v58 : IVec S16 32) (v59 : IVec S16 32) : Prop :=
  (∀ a x, ((![v58, v59] : Fin 2 → IVec S16 32) a x).toNat < S128x128.size a)
instance k1_chk55.dec : ∀ (v58 : IVec S16 32) (v59 : IVec S16 32), Decidable (k1_chk55 v58 v59) := fun v58 v59 => decidable_of_iff' _ (Iff.of_eq (k1_chk55.eq_1 v58 v59))
theorem k1_idx55_inb : ∀ (v58 : IVec S16 32) (v59 : IVec S16 32) (k1_hw55 : k1_chk55 v58 v59), ∀ a x, ((![v58, v59] : Fin 2 → IVec S16 32) a x).toNat < S128x128.size a := fun v58 v59 k1_hw55 => k1_hw55

def k1_chk56 (v58 : IVec S16 32) (v61 : IVec S16 32) : Prop :=
  (∀ a x, ((![v58, v61] : Fin 2 → IVec S16 32) a x).toNat < S128x128.size a)
instance k1_chk56.dec : ∀ (v58 : IVec S16 32) (v61 : IVec S16 32), Decidable (k1_chk56 v58 v61) := fun v58 v61 => decidable_of_iff' _ (Iff.of_eq (k1_chk56.eq_1 v58 v61))
theorem k1_idx56_inb : ∀ (v58 : IVec S16 32) (v61 : IVec S16 32) (k1_hw56 : k1_chk56 v58 v61), ∀ a x, ((![v58, v61] : Fin 2 → IVec S16 32) a x).toNat < S128x128.size a := fun v58 v61 k1_hw56 => k1_hw56

def k1_chk57 (v58 : IVec S16 32) (v63 : IVec S16 32) : Prop :=
  (∀ a x, ((![v58, v63] : Fin 2 → IVec S16 32) a x).toNat < S128x128.size a)
instance k1_chk57.dec : ∀ (v58 : IVec S16 32) (v63 : IVec S16 32), Decidable (k1_chk57 v58 v63) := fun v58 v63 => decidable_of_iff' _ (Iff.of_eq (k1_chk57.eq_1 v58 v63))
theorem k1_idx57_inb : ∀ (v58 : IVec S16 32) (v63 : IVec S16 32) (k1_hw57 : k1_chk57 v58 v63), ∀ a x, ((![v58, v63] : Fin 2 → IVec S16 32) a x).toNat < S128x128.size a := fun v58 v63 k1_hw57 => k1_hw57

def k1_chk58 (v58 : IVec S16 32) (v65 : IVec S16 32) : Prop :=
  (∀ a x, ((![v58, v65] : Fin 2 → IVec S16 32) a x).toNat < S128x128.size a)
instance k1_chk58.dec : ∀ (v58 : IVec S16 32) (v65 : IVec S16 32), Decidable (k1_chk58 v58 v65) := fun v58 v65 => decidable_of_iff' _ (Iff.of_eq (k1_chk58.eq_1 v58 v65))
theorem k1_idx58_inb : ∀ (v58 : IVec S16 32) (v65 : IVec S16 32) (k1_hw58 : k1_chk58 v58 v65), ∀ a x, ((![v58, v65] : Fin 2 → IVec S16 32) a x).toNat < S128x128.size a := fun v58 v65 k1_hw58 => k1_hw58

def k1_chk59 (v58 : IVec S16 32) (v67 : IVec S16 32) : Prop :=
  (∀ a x, ((![v58, v67] : Fin 2 → IVec S16 32) a x).toNat < S128x128.size a)
instance k1_chk59.dec : ∀ (v58 : IVec S16 32) (v67 : IVec S16 32), Decidable (k1_chk59 v58 v67) := fun v58 v67 => decidable_of_iff' _ (Iff.of_eq (k1_chk59.eq_1 v58 v67))
theorem k1_idx59_inb : ∀ (v58 : IVec S16 32) (v67 : IVec S16 32) (k1_hw59 : k1_chk59 v58 v67), ∀ a x, ((![v58, v67] : Fin 2 → IVec S16 32) a x).toNat < S128x128.size a := fun v58 v67 k1_hw59 => k1_hw59

def k1_chk60 (v58 : IVec S16 32) (v69 : IVec S16 32) : Prop :=
  (∀ a x, ((![v58, v69] : Fin 2 → IVec S16 32) a x).toNat < S128x128.size a)
instance k1_chk60.dec : ∀ (v58 : IVec S16 32) (v69 : IVec S16 32), Decidable (k1_chk60 v58 v69) := fun v58 v69 => decidable_of_iff' _ (Iff.of_eq (k1_chk60.eq_1 v58 v69))
theorem k1_idx60_inb : ∀ (v58 : IVec S16 32) (v69 : IVec S16 32) (k1_hw60 : k1_chk60 v58 v69), ∀ a x, ((![v58, v69] : Fin 2 → IVec S16 32) a x).toNat < S128x128.size a := fun v58 v69 k1_hw60 => k1_hw60

def k1_chk61 (v58 : IVec S16 32) (v71 : IVec S16 32) : Prop :=
  (∀ a x, ((![v58, v71] : Fin 2 → IVec S16 32) a x).toNat < S128x128.size a)
instance k1_chk61.dec : ∀ (v58 : IVec S16 32) (v71 : IVec S16 32), Decidable (k1_chk61 v58 v71) := fun v58 v71 => decidable_of_iff' _ (Iff.of_eq (k1_chk61.eq_1 v58 v71))
theorem k1_idx61_inb : ∀ (v58 : IVec S16 32) (v71 : IVec S16 32) (k1_hw61 : k1_chk61 v58 v71), ∀ a x, ((![v58, v71] : Fin 2 → IVec S16 32) a x).toNat < S128x128.size a := fun v58 v71 k1_hw61 => k1_hw61

def k1_chk62 (v58 : IVec S16 32) (v73 : IVec S16 32) : Prop :=
  (∀ a x, ((![v58, v73] : Fin 2 → IVec S16 32) a x).toNat < S128x128.size a)
instance k1_chk62.dec : ∀ (v58 : IVec S16 32) (v73 : IVec S16 32), Decidable (k1_chk62 v58 v73) := fun v58 v73 => decidable_of_iff' _ (Iff.of_eq (k1_chk62.eq_1 v58 v73))
theorem k1_idx62_inb : ∀ (v58 : IVec S16 32) (v73 : IVec S16 32) (k1_hw62 : k1_chk62 v58 v73), ∀ a x, ((![v58, v73] : Fin 2 → IVec S16 32) a x).toNat < S128x128.size a := fun v58 v73 k1_hw62 => k1_hw62

def k1_chk63 (v58 : IVec S16 32) (v75 : IVec S16 32) : Prop :=
  (∀ a x, ((![v58, v75] : Fin 2 → IVec S16 32) a x).toNat < S128x128.size a)
instance k1_chk63.dec : ∀ (v58 : IVec S16 32) (v75 : IVec S16 32), Decidable (k1_chk63 v58 v75) := fun v58 v75 => decidable_of_iff' _ (Iff.of_eq (k1_chk63.eq_1 v58 v75))
theorem k1_idx63_inb : ∀ (v58 : IVec S16 32) (v75 : IVec S16 32) (k1_hw63 : k1_chk63 v58 v75), ∀ a x, ((![v58, v75] : Fin 2 → IVec S16 32) a x).toNat < S128x128.size a := fun v58 v75 k1_hw63 => k1_hw63

def k1_chk64 (v58 : IVec S16 32) (v77 : IVec S16 32) : Prop :=
  (∀ a x, ((![v58, v77] : Fin 2 → IVec S16 32) a x).toNat < S128x128.size a)
instance k1_chk64.dec : ∀ (v58 : IVec S16 32) (v77 : IVec S16 32), Decidable (k1_chk64 v58 v77) := fun v58 v77 => decidable_of_iff' _ (Iff.of_eq (k1_chk64.eq_1 v58 v77))
theorem k1_idx64_inb : ∀ (v58 : IVec S16 32) (v77 : IVec S16 32) (k1_hw64 : k1_chk64 v58 v77), ∀ a x, ((![v58, v77] : Fin 2 → IVec S16 32) a x).toNat < S128x128.size a := fun v58 v77 k1_hw64 => k1_hw64

def k1_chk65 (v58 : IVec S16 32) (v79 : IVec S16 32) : Prop :=
  (∀ a x, ((![v58, v79] : Fin 2 → IVec S16 32) a x).toNat < S128x128.size a)
instance k1_chk65.dec : ∀ (v58 : IVec S16 32) (v79 : IVec S16 32), Decidable (k1_chk65 v58 v79) := fun v58 v79 => decidable_of_iff' _ (Iff.of_eq (k1_chk65.eq_1 v58 v79))
theorem k1_idx65_inb : ∀ (v58 : IVec S16 32) (v79 : IVec S16 32) (k1_hw65 : k1_chk65 v58 v79), ∀ a x, ((![v58, v79] : Fin 2 → IVec S16 32) a x).toNat < S128x128.size a := fun v58 v79 k1_hw65 => k1_hw65

def k1_chk66 (v58 : IVec S16 32) (v81 : IVec S16 32) : Prop :=
  (∀ a x, ((![v58, v81] : Fin 2 → IVec S16 32) a x).toNat < S128x128.size a)
instance k1_chk66.dec : ∀ (v58 : IVec S16 32) (v81 : IVec S16 32), Decidable (k1_chk66 v58 v81) := fun v58 v81 => decidable_of_iff' _ (Iff.of_eq (k1_chk66.eq_1 v58 v81))
theorem k1_idx66_inb : ∀ (v58 : IVec S16 32) (v81 : IVec S16 32) (k1_hw66 : k1_chk66 v58 v81), ∀ a x, ((![v58, v81] : Fin 2 → IVec S16 32) a x).toNat < S128x128.size a := fun v58 v81 k1_hw66 => k1_hw66

def k1_chk67 (v58 : IVec S16 32) (v83 : IVec S16 32) : Prop :=
  (∀ a x, ((![v58, v83] : Fin 2 → IVec S16 32) a x).toNat < S128x128.size a)
instance k1_chk67.dec : ∀ (v58 : IVec S16 32) (v83 : IVec S16 32), Decidable (k1_chk67 v58 v83) := fun v58 v83 => decidable_of_iff' _ (Iff.of_eq (k1_chk67.eq_1 v58 v83))
theorem k1_idx67_inb : ∀ (v58 : IVec S16 32) (v83 : IVec S16 32) (k1_hw67 : k1_chk67 v58 v83), ∀ a x, ((![v58, v83] : Fin 2 → IVec S16 32) a x).toNat < S128x128.size a := fun v58 v83 k1_hw67 => k1_hw67

def k1_chk68 (v58 : IVec S16 32) (v85 : IVec S16 32) : Prop :=
  (∀ a x, ((![v58, v85] : Fin 2 → IVec S16 32) a x).toNat < S128x128.size a)
instance k1_chk68.dec : ∀ (v58 : IVec S16 32) (v85 : IVec S16 32), Decidable (k1_chk68 v58 v85) := fun v58 v85 => decidable_of_iff' _ (Iff.of_eq (k1_chk68.eq_1 v58 v85))
theorem k1_idx68_inb : ∀ (v58 : IVec S16 32) (v85 : IVec S16 32) (k1_hw68 : k1_chk68 v58 v85), ∀ a x, ((![v58, v85] : Fin 2 → IVec S16 32) a x).toNat < S128x128.size a := fun v58 v85 k1_hw68 => k1_hw68

def k1_chk69 (v58 : IVec S16 32) (v87 : IVec S16 32) : Prop :=
  (∀ a x, ((![v58, v87] : Fin 2 → IVec S16 32) a x).toNat < S128x128.size a)
instance k1_chk69.dec : ∀ (v58 : IVec S16 32) (v87 : IVec S16 32), Decidable (k1_chk69 v58 v87) := fun v58 v87 => decidable_of_iff' _ (Iff.of_eq (k1_chk69.eq_1 v58 v87))
theorem k1_idx69_inb : ∀ (v58 : IVec S16 32) (v87 : IVec S16 32) (k1_hw69 : k1_chk69 v58 v87), ∀ a x, ((![v58, v87] : Fin 2 → IVec S16 32) a x).toNat < S128x128.size a := fun v58 v87 k1_hw69 => k1_hw69
def k1_off11 (k1_t5 : Fin k1_t5_loop.trips) (k1_t6 : Fin k1_t6_loop.trips) : Fin 1 → Nat :=
  let c0_i32_14 : BitVec 32 := 0#32
  let c1_i32_16 : BitVec 32 := 1#32
  let arg24 : BitVec 32 := Scf.iv c0_i32_14 c1_i32_16 k1_t5
  let c2_i32_52 : BitVec 32 := 2#32
  let v39 : BitVec 32 := Scalar.muli arg24 c2_i32_52
  let c128_i32_75 : BitVec 32 := 128#32
  let v53 : BitVec 32 := Scalar.muli v39 c128_i32_75
  let c0_i32_63 : BitVec 32 := 0#32
  let c1_i32_65 : BitVec 32 := 1#32
  let arg25 : BitVec 32 := Scf.iv c0_i32_63 c1_i32_65 k1_t6
  let c16_i32_76 : BitVec 32 := 16#32
  let v54 : BitVec 32 := Scalar.muli arg25 c16_i32_76
  let v55 : BitVec 32 := Scalar.addi v53 v54
  let v89 : Index := Scalar.indexCast v55
  ![v89.toNat]

def k1_chk70 (v126 : IVec S16 32) : Prop :=
  (∀ a x, ((![v126] : Fin 1 → IVec S16 32) a x).toNat < S4992.size a)
instance k1_chk70.dec : ∀ (v126 : IVec S16 32), Decidable (k1_chk70 v126) := fun v126 => decidable_of_iff' _ (Iff.of_eq (k1_chk70.eq_1 v126))
theorem k1_idx70_inb : ∀ (v126 : IVec S16 32) (k1_hw70 : k1_chk70 v126), ∀ a x, ((![v126] : Fin 1 → IVec S16 32) a x).toNat < S4992.size a := fun v126 k1_hw70 => k1_hw70

def k1_chk71 (v128 : IVec S16 32) : Prop :=
  (∀ a x, ((![v128] : Fin 1 → IVec S16 32) a x).toNat < S4992.size a)
instance k1_chk71.dec : ∀ (v128 : IVec S16 32), Decidable (k1_chk71 v128) := fun v128 => decidable_of_iff' _ (Iff.of_eq (k1_chk71.eq_1 v128))
theorem k1_idx71_inb : ∀ (v128 : IVec S16 32) (k1_hw71 : k1_chk71 v128), ∀ a x, ((![v128] : Fin 1 → IVec S16 32) a x).toNat < S4992.size a := fun v128 k1_hw71 => k1_hw71

def k1_chk72 (v130 : IVec S16 32) : Prop :=
  (∀ a x, ((![v130] : Fin 1 → IVec S16 32) a x).toNat < S4992.size a)
instance k1_chk72.dec : ∀ (v130 : IVec S16 32), Decidable (k1_chk72 v130) := fun v130 => decidable_of_iff' _ (Iff.of_eq (k1_chk72.eq_1 v130))
theorem k1_idx72_inb : ∀ (v130 : IVec S16 32) (k1_hw72 : k1_chk72 v130), ∀ a x, ((![v130] : Fin 1 → IVec S16 32) a x).toNat < S4992.size a := fun v130 k1_hw72 => k1_hw72
@[reducible] def k1_t7_loop : Scf.Loop 32 :=
  let c0_i32_71 : BitVec 32 := 0#32
  let c8_i32_72 : BitVec 32 := 8#32
  let v52 : BitVec 32 := Scalar.addi c0_i32_71 c8_i32_72
  let c1_i32_73 : BitVec 32 := 1#32
  ⟨c0_i32_71, v52, c1_i32_73⟩

def k1_chk73 (v58 : IVec S16 32) (v59 : IVec S16 32) : Prop :=
  (∀ a x, ((![v58, v59] : Fin 2 → IVec S16 32) a x).toNat < S128x128.size a)
instance k1_chk73.dec : ∀ (v58 : IVec S16 32) (v59 : IVec S16 32), Decidable (k1_chk73 v58 v59) := fun v58 v59 => decidable_of_iff' _ (Iff.of_eq (k1_chk73.eq_1 v58 v59))
theorem k1_idx73_inb : ∀ (v58 : IVec S16 32) (v59 : IVec S16 32) (k1_hw73 : k1_chk73 v58 v59), ∀ a x, ((![v58, v59] : Fin 2 → IVec S16 32) a x).toNat < S128x128.size a := fun v58 v59 k1_hw73 => k1_hw73

def k1_chk74 (v58 : IVec S16 32) (v61 : IVec S16 32) : Prop :=
  (∀ a x, ((![v58, v61] : Fin 2 → IVec S16 32) a x).toNat < S128x128.size a)
instance k1_chk74.dec : ∀ (v58 : IVec S16 32) (v61 : IVec S16 32), Decidable (k1_chk74 v58 v61) := fun v58 v61 => decidable_of_iff' _ (Iff.of_eq (k1_chk74.eq_1 v58 v61))
theorem k1_idx74_inb : ∀ (v58 : IVec S16 32) (v61 : IVec S16 32) (k1_hw74 : k1_chk74 v58 v61), ∀ a x, ((![v58, v61] : Fin 2 → IVec S16 32) a x).toNat < S128x128.size a := fun v58 v61 k1_hw74 => k1_hw74

def k1_chk75 (v58 : IVec S16 32) (v63 : IVec S16 32) : Prop :=
  (∀ a x, ((![v58, v63] : Fin 2 → IVec S16 32) a x).toNat < S128x128.size a)
instance k1_chk75.dec : ∀ (v58 : IVec S16 32) (v63 : IVec S16 32), Decidable (k1_chk75 v58 v63) := fun v58 v63 => decidable_of_iff' _ (Iff.of_eq (k1_chk75.eq_1 v58 v63))
theorem k1_idx75_inb : ∀ (v58 : IVec S16 32) (v63 : IVec S16 32) (k1_hw75 : k1_chk75 v58 v63), ∀ a x, ((![v58, v63] : Fin 2 → IVec S16 32) a x).toNat < S128x128.size a := fun v58 v63 k1_hw75 => k1_hw75

def k1_chk76 (v58 : IVec S16 32) (v65 : IVec S16 32) : Prop :=
  (∀ a x, ((![v58, v65] : Fin 2 → IVec S16 32) a x).toNat < S128x128.size a)
instance k1_chk76.dec : ∀ (v58 : IVec S16 32) (v65 : IVec S16 32), Decidable (k1_chk76 v58 v65) := fun v58 v65 => decidable_of_iff' _ (Iff.of_eq (k1_chk76.eq_1 v58 v65))
theorem k1_idx76_inb : ∀ (v58 : IVec S16 32) (v65 : IVec S16 32) (k1_hw76 : k1_chk76 v58 v65), ∀ a x, ((![v58, v65] : Fin 2 → IVec S16 32) a x).toNat < S128x128.size a := fun v58 v65 k1_hw76 => k1_hw76

def k1_chk77 (v58 : IVec S16 32) (v67 : IVec S16 32) : Prop :=
  (∀ a x, ((![v58, v67] : Fin 2 → IVec S16 32) a x).toNat < S128x128.size a)
instance k1_chk77.dec : ∀ (v58 : IVec S16 32) (v67 : IVec S16 32), Decidable (k1_chk77 v58 v67) := fun v58 v67 => decidable_of_iff' _ (Iff.of_eq (k1_chk77.eq_1 v58 v67))
theorem k1_idx77_inb : ∀ (v58 : IVec S16 32) (v67 : IVec S16 32) (k1_hw77 : k1_chk77 v58 v67), ∀ a x, ((![v58, v67] : Fin 2 → IVec S16 32) a x).toNat < S128x128.size a := fun v58 v67 k1_hw77 => k1_hw77

def k1_chk78 (v58 : IVec S16 32) (v69 : IVec S16 32) : Prop :=
  (∀ a x, ((![v58, v69] : Fin 2 → IVec S16 32) a x).toNat < S128x128.size a)
instance k1_chk78.dec : ∀ (v58 : IVec S16 32) (v69 : IVec S16 32), Decidable (k1_chk78 v58 v69) := fun v58 v69 => decidable_of_iff' _ (Iff.of_eq (k1_chk78.eq_1 v58 v69))
theorem k1_idx78_inb : ∀ (v58 : IVec S16 32) (v69 : IVec S16 32) (k1_hw78 : k1_chk78 v58 v69), ∀ a x, ((![v58, v69] : Fin 2 → IVec S16 32) a x).toNat < S128x128.size a := fun v58 v69 k1_hw78 => k1_hw78

def k1_chk79 (v58 : IVec S16 32) (v71 : IVec S16 32) : Prop :=
  (∀ a x, ((![v58, v71] : Fin 2 → IVec S16 32) a x).toNat < S128x128.size a)
instance k1_chk79.dec : ∀ (v58 : IVec S16 32) (v71 : IVec S16 32), Decidable (k1_chk79 v58 v71) := fun v58 v71 => decidable_of_iff' _ (Iff.of_eq (k1_chk79.eq_1 v58 v71))
theorem k1_idx79_inb : ∀ (v58 : IVec S16 32) (v71 : IVec S16 32) (k1_hw79 : k1_chk79 v58 v71), ∀ a x, ((![v58, v71] : Fin 2 → IVec S16 32) a x).toNat < S128x128.size a := fun v58 v71 k1_hw79 => k1_hw79

def k1_chk80 (v58 : IVec S16 32) (v73 : IVec S16 32) : Prop :=
  (∀ a x, ((![v58, v73] : Fin 2 → IVec S16 32) a x).toNat < S128x128.size a)
instance k1_chk80.dec : ∀ (v58 : IVec S16 32) (v73 : IVec S16 32), Decidable (k1_chk80 v58 v73) := fun v58 v73 => decidable_of_iff' _ (Iff.of_eq (k1_chk80.eq_1 v58 v73))
theorem k1_idx80_inb : ∀ (v58 : IVec S16 32) (v73 : IVec S16 32) (k1_hw80 : k1_chk80 v58 v73), ∀ a x, ((![v58, v73] : Fin 2 → IVec S16 32) a x).toNat < S128x128.size a := fun v58 v73 k1_hw80 => k1_hw80

def k1_chk81 (v58 : IVec S16 32) (v75 : IVec S16 32) : Prop :=
  (∀ a x, ((![v58, v75] : Fin 2 → IVec S16 32) a x).toNat < S128x128.size a)
instance k1_chk81.dec : ∀ (v58 : IVec S16 32) (v75 : IVec S16 32), Decidable (k1_chk81 v58 v75) := fun v58 v75 => decidable_of_iff' _ (Iff.of_eq (k1_chk81.eq_1 v58 v75))
theorem k1_idx81_inb : ∀ (v58 : IVec S16 32) (v75 : IVec S16 32) (k1_hw81 : k1_chk81 v58 v75), ∀ a x, ((![v58, v75] : Fin 2 → IVec S16 32) a x).toNat < S128x128.size a := fun v58 v75 k1_hw81 => k1_hw81

def k1_chk82 (v58 : IVec S16 32) (v77 : IVec S16 32) : Prop :=
  (∀ a x, ((![v58, v77] : Fin 2 → IVec S16 32) a x).toNat < S128x128.size a)
instance k1_chk82.dec : ∀ (v58 : IVec S16 32) (v77 : IVec S16 32), Decidable (k1_chk82 v58 v77) := fun v58 v77 => decidable_of_iff' _ (Iff.of_eq (k1_chk82.eq_1 v58 v77))
theorem k1_idx82_inb : ∀ (v58 : IVec S16 32) (v77 : IVec S16 32) (k1_hw82 : k1_chk82 v58 v77), ∀ a x, ((![v58, v77] : Fin 2 → IVec S16 32) a x).toNat < S128x128.size a := fun v58 v77 k1_hw82 => k1_hw82

def k1_chk83 (v58 : IVec S16 32) (v79 : IVec S16 32) : Prop :=
  (∀ a x, ((![v58, v79] : Fin 2 → IVec S16 32) a x).toNat < S128x128.size a)
instance k1_chk83.dec : ∀ (v58 : IVec S16 32) (v79 : IVec S16 32), Decidable (k1_chk83 v58 v79) := fun v58 v79 => decidable_of_iff' _ (Iff.of_eq (k1_chk83.eq_1 v58 v79))
theorem k1_idx83_inb : ∀ (v58 : IVec S16 32) (v79 : IVec S16 32) (k1_hw83 : k1_chk83 v58 v79), ∀ a x, ((![v58, v79] : Fin 2 → IVec S16 32) a x).toNat < S128x128.size a := fun v58 v79 k1_hw83 => k1_hw83

def k1_chk84 (v58 : IVec S16 32) (v81 : IVec S16 32) : Prop :=
  (∀ a x, ((![v58, v81] : Fin 2 → IVec S16 32) a x).toNat < S128x128.size a)
instance k1_chk84.dec : ∀ (v58 : IVec S16 32) (v81 : IVec S16 32), Decidable (k1_chk84 v58 v81) := fun v58 v81 => decidable_of_iff' _ (Iff.of_eq (k1_chk84.eq_1 v58 v81))
theorem k1_idx84_inb : ∀ (v58 : IVec S16 32) (v81 : IVec S16 32) (k1_hw84 : k1_chk84 v58 v81), ∀ a x, ((![v58, v81] : Fin 2 → IVec S16 32) a x).toNat < S128x128.size a := fun v58 v81 k1_hw84 => k1_hw84

def k1_chk85 (v58 : IVec S16 32) (v83 : IVec S16 32) : Prop :=
  (∀ a x, ((![v58, v83] : Fin 2 → IVec S16 32) a x).toNat < S128x128.size a)
instance k1_chk85.dec : ∀ (v58 : IVec S16 32) (v83 : IVec S16 32), Decidable (k1_chk85 v58 v83) := fun v58 v83 => decidable_of_iff' _ (Iff.of_eq (k1_chk85.eq_1 v58 v83))
theorem k1_idx85_inb : ∀ (v58 : IVec S16 32) (v83 : IVec S16 32) (k1_hw85 : k1_chk85 v58 v83), ∀ a x, ((![v58, v83] : Fin 2 → IVec S16 32) a x).toNat < S128x128.size a := fun v58 v83 k1_hw85 => k1_hw85

def k1_chk86 (v58 : IVec S16 32) (v85 : IVec S16 32) : Prop :=
  (∀ a x, ((![v58, v85] : Fin 2 → IVec S16 32) a x).toNat < S128x128.size a)
instance k1_chk86.dec : ∀ (v58 : IVec S16 32) (v85 : IVec S16 32), Decidable (k1_chk86 v58 v85) := fun v58 v85 => decidable_of_iff' _ (Iff.of_eq (k1_chk86.eq_1 v58 v85))
theorem k1_idx86_inb : ∀ (v58 : IVec S16 32) (v85 : IVec S16 32) (k1_hw86 : k1_chk86 v58 v85), ∀ a x, ((![v58, v85] : Fin 2 → IVec S16 32) a x).toNat < S128x128.size a := fun v58 v85 k1_hw86 => k1_hw86

def k1_chk87 (v58 : IVec S16 32) (v87 : IVec S16 32) : Prop :=
  (∀ a x, ((![v58, v87] : Fin 2 → IVec S16 32) a x).toNat < S128x128.size a)
instance k1_chk87.dec : ∀ (v58 : IVec S16 32) (v87 : IVec S16 32), Decidable (k1_chk87 v58 v87) := fun v58 v87 => decidable_of_iff' _ (Iff.of_eq (k1_chk87.eq_1 v58 v87))
theorem k1_idx87_inb : ∀ (v58 : IVec S16 32) (v87 : IVec S16 32) (k1_hw87 : k1_chk87 v58 v87), ∀ a x, ((![v58, v87] : Fin 2 → IVec S16 32) a x).toNat < S128x128.size a := fun v58 v87 k1_hw87 => k1_hw87
def k1_off12 (k1_t5 : Fin k1_t5_loop.trips) (k1_t7 : Fin k1_t7_loop.trips) : Fin 1 → Nat :=
  let c0_i32_14 : BitVec 32 := 0#32
  let c1_i32_16 : BitVec 32 := 1#32
  let arg24 : BitVec 32 := Scf.iv c0_i32_14 c1_i32_16 k1_t5
  let c2_i32_52 : BitVec 32 := 2#32
  let v39 : BitVec 32 := Scalar.muli arg24 c2_i32_52
  let c1_i32_69 : BitVec 32 := 1#32
  let v51 : BitVec 32 := Scalar.addi v39 c1_i32_69
  let c128_i32_75 : BitVec 32 := 128#32
  let v53 : BitVec 32 := Scalar.muli v51 c128_i32_75
  let c0_i32_71 : BitVec 32 := 0#32
  let c1_i32_73 : BitVec 32 := 1#32
  let arg25 : BitVec 32 := Scf.iv c0_i32_71 c1_i32_73 k1_t7
  let c16_i32_76 : BitVec 32 := 16#32
  let v54 : BitVec 32 := Scalar.muli arg25 c16_i32_76
  let v55 : BitVec 32 := Scalar.addi v53 v54
  let v89 : Index := Scalar.indexCast v55
  ![v89.toNat]

def k1_chk88 (v126 : IVec S16 32) : Prop :=
  (∀ a x, ((![v126] : Fin 1 → IVec S16 32) a x).toNat < S4992.size a)
instance k1_chk88.dec : ∀ (v126 : IVec S16 32), Decidable (k1_chk88 v126) := fun v126 => decidable_of_iff' _ (Iff.of_eq (k1_chk88.eq_1 v126))
theorem k1_idx88_inb : ∀ (v126 : IVec S16 32) (k1_hw88 : k1_chk88 v126), ∀ a x, ((![v126] : Fin 1 → IVec S16 32) a x).toNat < S4992.size a := fun v126 k1_hw88 => k1_hw88

def k1_chk89 (v128 : IVec S16 32) : Prop :=
  (∀ a x, ((![v128] : Fin 1 → IVec S16 32) a x).toNat < S4992.size a)
instance k1_chk89.dec : ∀ (v128 : IVec S16 32), Decidable (k1_chk89 v128) := fun v128 => decidable_of_iff' _ (Iff.of_eq (k1_chk89.eq_1 v128))
theorem k1_idx89_inb : ∀ (v128 : IVec S16 32) (k1_hw89 : k1_chk89 v128), ∀ a x, ((![v128] : Fin 1 → IVec S16 32) a x).toNat < S4992.size a := fun v128 k1_hw89 => k1_hw89

def k1_chk90 (v130 : IVec S16 32) : Prop :=
  (∀ a x, ((![v130] : Fin 1 → IVec S16 32) a x).toNat < S4992.size a)
instance k1_chk90.dec : ∀ (v130 : IVec S16 32), Decidable (k1_chk90 v130) := fun v130 => decidable_of_iff' _ (Iff.of_eq (k1_chk90.eq_1 v130))
theorem k1_idx90_inb : ∀ (v130 : IVec S16 32) (k1_hw90 : k1_chk90 v130), ∀ a x, ((![v130] : Fin 1 → IVec S16 32) a x).toNat < S4992.size a := fun v130 k1_hw90 => k1_hw90
@[reducible] def k1_t8_loop : Scf.Loop 32 :=
  let c0_i32_25 : BitVec 32 := 0#32
  let c8_i32_26 : BitVec 32 := 8#32
  let v21 : BitVec 32 := Scalar.addi c0_i32_25 c8_i32_26
  let c1_i32_27 : BitVec 32 := 1#32
  ⟨c0_i32_25, v21, c1_i32_27⟩

def k1_chk91 (v43 : IVec S16 32) (v44 : IVec S16 32) : Prop :=
  (∀ a x, ((![v43, v44] : Fin 2 → IVec S16 32) a x).toNat < S128x128.size a)
instance k1_chk91.dec : ∀ (v43 : IVec S16 32) (v44 : IVec S16 32), Decidable (k1_chk91 v43 v44) := fun v43 v44 => decidable_of_iff' _ (Iff.of_eq (k1_chk91.eq_1 v43 v44))
theorem k1_idx91_inb : ∀ (v43 : IVec S16 32) (v44 : IVec S16 32) (k1_hw91 : k1_chk91 v43 v44), ∀ a x, ((![v43, v44] : Fin 2 → IVec S16 32) a x).toNat < S128x128.size a := fun v43 v44 k1_hw91 => k1_hw91

def k1_chk92 (v43 : IVec S16 32) (v46 : IVec S16 32) : Prop :=
  (∀ a x, ((![v43, v46] : Fin 2 → IVec S16 32) a x).toNat < S128x128.size a)
instance k1_chk92.dec : ∀ (v43 : IVec S16 32) (v46 : IVec S16 32), Decidable (k1_chk92 v43 v46) := fun v43 v46 => decidable_of_iff' _ (Iff.of_eq (k1_chk92.eq_1 v43 v46))
theorem k1_idx92_inb : ∀ (v43 : IVec S16 32) (v46 : IVec S16 32) (k1_hw92 : k1_chk92 v43 v46), ∀ a x, ((![v43, v46] : Fin 2 → IVec S16 32) a x).toNat < S128x128.size a := fun v43 v46 k1_hw92 => k1_hw92

def k1_chk93 (v43 : IVec S16 32) (v48 : IVec S16 32) : Prop :=
  (∀ a x, ((![v43, v48] : Fin 2 → IVec S16 32) a x).toNat < S128x128.size a)
instance k1_chk93.dec : ∀ (v43 : IVec S16 32) (v48 : IVec S16 32), Decidable (k1_chk93 v43 v48) := fun v43 v48 => decidable_of_iff' _ (Iff.of_eq (k1_chk93.eq_1 v43 v48))
theorem k1_idx93_inb : ∀ (v43 : IVec S16 32) (v48 : IVec S16 32) (k1_hw93 : k1_chk93 v43 v48), ∀ a x, ((![v43, v48] : Fin 2 → IVec S16 32) a x).toNat < S128x128.size a := fun v43 v48 k1_hw93 => k1_hw93

def k1_chk94 (v43 : IVec S16 32) (v50 : IVec S16 32) : Prop :=
  (∀ a x, ((![v43, v50] : Fin 2 → IVec S16 32) a x).toNat < S128x128.size a)
instance k1_chk94.dec : ∀ (v43 : IVec S16 32) (v50 : IVec S16 32), Decidable (k1_chk94 v43 v50) := fun v43 v50 => decidable_of_iff' _ (Iff.of_eq (k1_chk94.eq_1 v43 v50))
theorem k1_idx94_inb : ∀ (v43 : IVec S16 32) (v50 : IVec S16 32) (k1_hw94 : k1_chk94 v43 v50), ∀ a x, ((![v43, v50] : Fin 2 → IVec S16 32) a x).toNat < S128x128.size a := fun v43 v50 k1_hw94 => k1_hw94

def k1_chk95 (v43 : IVec S16 32) (v52 : IVec S16 32) : Prop :=
  (∀ a x, ((![v43, v52] : Fin 2 → IVec S16 32) a x).toNat < S128x128.size a)
instance k1_chk95.dec : ∀ (v43 : IVec S16 32) (v52 : IVec S16 32), Decidable (k1_chk95 v43 v52) := fun v43 v52 => decidable_of_iff' _ (Iff.of_eq (k1_chk95.eq_1 v43 v52))
theorem k1_idx95_inb : ∀ (v43 : IVec S16 32) (v52 : IVec S16 32) (k1_hw95 : k1_chk95 v43 v52), ∀ a x, ((![v43, v52] : Fin 2 → IVec S16 32) a x).toNat < S128x128.size a := fun v43 v52 k1_hw95 => k1_hw95

def k1_chk96 (v43 : IVec S16 32) (v54 : IVec S16 32) : Prop :=
  (∀ a x, ((![v43, v54] : Fin 2 → IVec S16 32) a x).toNat < S128x128.size a)
instance k1_chk96.dec : ∀ (v43 : IVec S16 32) (v54 : IVec S16 32), Decidable (k1_chk96 v43 v54) := fun v43 v54 => decidable_of_iff' _ (Iff.of_eq (k1_chk96.eq_1 v43 v54))
theorem k1_idx96_inb : ∀ (v43 : IVec S16 32) (v54 : IVec S16 32) (k1_hw96 : k1_chk96 v43 v54), ∀ a x, ((![v43, v54] : Fin 2 → IVec S16 32) a x).toNat < S128x128.size a := fun v43 v54 k1_hw96 => k1_hw96

def k1_chk97 (v43 : IVec S16 32) (v56 : IVec S16 32) : Prop :=
  (∀ a x, ((![v43, v56] : Fin 2 → IVec S16 32) a x).toNat < S128x128.size a)
instance k1_chk97.dec : ∀ (v43 : IVec S16 32) (v56 : IVec S16 32), Decidable (k1_chk97 v43 v56) := fun v43 v56 => decidable_of_iff' _ (Iff.of_eq (k1_chk97.eq_1 v43 v56))
theorem k1_idx97_inb : ∀ (v43 : IVec S16 32) (v56 : IVec S16 32) (k1_hw97 : k1_chk97 v43 v56), ∀ a x, ((![v43, v56] : Fin 2 → IVec S16 32) a x).toNat < S128x128.size a := fun v43 v56 k1_hw97 => k1_hw97

def k1_chk98 (v43 : IVec S16 32) (v58 : IVec S16 32) : Prop :=
  (∀ a x, ((![v43, v58] : Fin 2 → IVec S16 32) a x).toNat < S128x128.size a)
instance k1_chk98.dec : ∀ (v43 : IVec S16 32) (v58 : IVec S16 32), Decidable (k1_chk98 v43 v58) := fun v43 v58 => decidable_of_iff' _ (Iff.of_eq (k1_chk98.eq_1 v43 v58))
theorem k1_idx98_inb : ∀ (v43 : IVec S16 32) (v58 : IVec S16 32) (k1_hw98 : k1_chk98 v43 v58), ∀ a x, ((![v43, v58] : Fin 2 → IVec S16 32) a x).toNat < S128x128.size a := fun v43 v58 k1_hw98 => k1_hw98

def k1_chk99 (v43 : IVec S16 32) (v60 : IVec S16 32) : Prop :=
  (∀ a x, ((![v43, v60] : Fin 2 → IVec S16 32) a x).toNat < S128x128.size a)
instance k1_chk99.dec : ∀ (v43 : IVec S16 32) (v60 : IVec S16 32), Decidable (k1_chk99 v43 v60) := fun v43 v60 => decidable_of_iff' _ (Iff.of_eq (k1_chk99.eq_1 v43 v60))
theorem k1_idx99_inb : ∀ (v43 : IVec S16 32) (v60 : IVec S16 32) (k1_hw99 : k1_chk99 v43 v60), ∀ a x, ((![v43, v60] : Fin 2 → IVec S16 32) a x).toNat < S128x128.size a := fun v43 v60 k1_hw99 => k1_hw99

def k1_chk100 (v43 : IVec S16 32) (v62 : IVec S16 32) : Prop :=
  (∀ a x, ((![v43, v62] : Fin 2 → IVec S16 32) a x).toNat < S128x128.size a)
instance k1_chk100.dec : ∀ (v43 : IVec S16 32) (v62 : IVec S16 32), Decidable (k1_chk100 v43 v62) := fun v43 v62 => decidable_of_iff' _ (Iff.of_eq (k1_chk100.eq_1 v43 v62))
theorem k1_idx100_inb : ∀ (v43 : IVec S16 32) (v62 : IVec S16 32) (k1_hw100 : k1_chk100 v43 v62), ∀ a x, ((![v43, v62] : Fin 2 → IVec S16 32) a x).toNat < S128x128.size a := fun v43 v62 k1_hw100 => k1_hw100

def k1_chk101 (v43 : IVec S16 32) (v64 : IVec S16 32) : Prop :=
  (∀ a x, ((![v43, v64] : Fin 2 → IVec S16 32) a x).toNat < S128x128.size a)
instance k1_chk101.dec : ∀ (v43 : IVec S16 32) (v64 : IVec S16 32), Decidable (k1_chk101 v43 v64) := fun v43 v64 => decidable_of_iff' _ (Iff.of_eq (k1_chk101.eq_1 v43 v64))
theorem k1_idx101_inb : ∀ (v43 : IVec S16 32) (v64 : IVec S16 32) (k1_hw101 : k1_chk101 v43 v64), ∀ a x, ((![v43, v64] : Fin 2 → IVec S16 32) a x).toNat < S128x128.size a := fun v43 v64 k1_hw101 => k1_hw101

def k1_chk102 (v43 : IVec S16 32) (v66 : IVec S16 32) : Prop :=
  (∀ a x, ((![v43, v66] : Fin 2 → IVec S16 32) a x).toNat < S128x128.size a)
instance k1_chk102.dec : ∀ (v43 : IVec S16 32) (v66 : IVec S16 32), Decidable (k1_chk102 v43 v66) := fun v43 v66 => decidable_of_iff' _ (Iff.of_eq (k1_chk102.eq_1 v43 v66))
theorem k1_idx102_inb : ∀ (v43 : IVec S16 32) (v66 : IVec S16 32) (k1_hw102 : k1_chk102 v43 v66), ∀ a x, ((![v43, v66] : Fin 2 → IVec S16 32) a x).toNat < S128x128.size a := fun v43 v66 k1_hw102 => k1_hw102

def k1_chk103 (v43 : IVec S16 32) (v68 : IVec S16 32) : Prop :=
  (∀ a x, ((![v43, v68] : Fin 2 → IVec S16 32) a x).toNat < S128x128.size a)
instance k1_chk103.dec : ∀ (v43 : IVec S16 32) (v68 : IVec S16 32), Decidable (k1_chk103 v43 v68) := fun v43 v68 => decidable_of_iff' _ (Iff.of_eq (k1_chk103.eq_1 v43 v68))
theorem k1_idx103_inb : ∀ (v43 : IVec S16 32) (v68 : IVec S16 32) (k1_hw103 : k1_chk103 v43 v68), ∀ a x, ((![v43, v68] : Fin 2 → IVec S16 32) a x).toNat < S128x128.size a := fun v43 v68 k1_hw103 => k1_hw103

def k1_chk104 (v43 : IVec S16 32) (v70 : IVec S16 32) : Prop :=
  (∀ a x, ((![v43, v70] : Fin 2 → IVec S16 32) a x).toNat < S128x128.size a)
instance k1_chk104.dec : ∀ (v43 : IVec S16 32) (v70 : IVec S16 32), Decidable (k1_chk104 v43 v70) := fun v43 v70 => decidable_of_iff' _ (Iff.of_eq (k1_chk104.eq_1 v43 v70))
theorem k1_idx104_inb : ∀ (v43 : IVec S16 32) (v70 : IVec S16 32) (k1_hw104 : k1_chk104 v43 v70), ∀ a x, ((![v43, v70] : Fin 2 → IVec S16 32) a x).toNat < S128x128.size a := fun v43 v70 k1_hw104 => k1_hw104

def k1_chk105 (v43 : IVec S16 32) (v72 : IVec S16 32) : Prop :=
  (∀ a x, ((![v43, v72] : Fin 2 → IVec S16 32) a x).toNat < S128x128.size a)
instance k1_chk105.dec : ∀ (v43 : IVec S16 32) (v72 : IVec S16 32), Decidable (k1_chk105 v43 v72) := fun v43 v72 => decidable_of_iff' _ (Iff.of_eq (k1_chk105.eq_1 v43 v72))
theorem k1_idx105_inb : ∀ (v43 : IVec S16 32) (v72 : IVec S16 32) (k1_hw105 : k1_chk105 v43 v72), ∀ a x, ((![v43, v72] : Fin 2 → IVec S16 32) a x).toNat < S128x128.size a := fun v43 v72 k1_hw105 => k1_hw105
def k1_off13 (k1_t8 : Fin k1_t8_loop.trips) : Fin 1 → Nat :=
  let c1536_i32_53 : BitVec 32 := 1536#32
  let c0_i32_25 : BitVec 32 := 0#32
  let c1_i32_27 : BitVec 32 := 1#32
  let arg24 : BitVec 32 := Scf.iv c0_i32_25 c1_i32_27 k1_t8
  let c16_i32_52 : BitVec 32 := 16#32
  let v39 : BitVec 32 := Scalar.muli arg24 c16_i32_52
  let v40 : BitVec 32 := Scalar.addi c1536_i32_53 v39
  let v74 : Index := Scalar.indexCast v40
  ![v74.toNat]

def k1_chk106 (v111 : IVec S16 32) : Prop :=
  (∀ a x, ((![v111] : Fin 1 → IVec S16 32) a x).toNat < S4992.size a)
instance k1_chk106.dec : ∀ (v111 : IVec S16 32), Decidable (k1_chk106 v111) := fun v111 => decidable_of_iff' _ (Iff.of_eq (k1_chk106.eq_1 v111))
theorem k1_idx106_inb : ∀ (v111 : IVec S16 32) (k1_hw106 : k1_chk106 v111), ∀ a x, ((![v111] : Fin 1 → IVec S16 32) a x).toNat < S4992.size a := fun v111 k1_hw106 => k1_hw106

def k1_chk107 (v113 : IVec S16 32) : Prop :=
  (∀ a x, ((![v113] : Fin 1 → IVec S16 32) a x).toNat < S4992.size a)
instance k1_chk107.dec : ∀ (v113 : IVec S16 32), Decidable (k1_chk107 v113) := fun v113 => decidable_of_iff' _ (Iff.of_eq (k1_chk107.eq_1 v113))
theorem k1_idx107_inb : ∀ (v113 : IVec S16 32) (k1_hw107 : k1_chk107 v113), ∀ a x, ((![v113] : Fin 1 → IVec S16 32) a x).toNat < S4992.size a := fun v113 k1_hw107 => k1_hw107

def k1_chk108 (v115 : IVec S16 32) : Prop :=
  (∀ a x, ((![v115] : Fin 1 → IVec S16 32) a x).toNat < S4992.size a)
instance k1_chk108.dec : ∀ (v115 : IVec S16 32), Decidable (k1_chk108 v115) := fun v115 => decidable_of_iff' _ (Iff.of_eq (k1_chk108.eq_1 v115))
theorem k1_idx108_inb : ∀ (v115 : IVec S16 32) (k1_hw108 : k1_chk108 v115), ∀ a x, ((![v115] : Fin 1 → IVec S16 32) a x).toNat < S4992.size a := fun v115 k1_hw108 => k1_hw108
@[reducible] def k1_t9_loop : Scf.Loop 32 :=
  let c0_i32_31 : BitVec 32 := 0#32
  let c6_i32_32 : BitVec 32 := 6#32
  let v23 : BitVec 32 := Scalar.addi c0_i32_31 c6_i32_32
  let c1_i32_33 : BitVec 32 := 1#32
  ⟨c0_i32_31, v23, c1_i32_33⟩
def k1_off14 (i : grid1.Coords) (k1_t9 : Fin k1_t9_loop.trips) : Fin 1 → Nat :=
  let c106496_i32_53 : BitVec 32 := 106496#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v5 : BitVec 32 := Scalar.muli v1 c1664_i32
  let v40 : BitVec 32 := Scalar.addi c106496_i32_53 v5
  let c0_i32_31 : BitVec 32 := 0#32
  let c1_i32_33 : BitVec 32 := 1#32
  let arg24 : BitVec 32 := Scf.iv c0_i32_31 c1_i32_33 k1_t9
  let c2_i32_52 : BitVec 32 := 2#32
  let v39 : BitVec 32 := Scalar.muli arg24 c2_i32_52
  let c128_i32 : BitVec 32 := 128#32
  let v41 : BitVec 32 := Scalar.muli v39 c128_i32
  let v42 : BitVec 32 := Scalar.addi v40 v41
  ![v42.toNat]
def k1_off15 (i : grid1.Coords) (k1_t9 : Fin k1_t9_loop.trips) : Fin 1 → Nat :=
  let c106496_i32_53 : BitVec 32 := 106496#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v5 : BitVec 32 := Scalar.muli v1 c1664_i32
  let v40 : BitVec 32 := Scalar.addi c106496_i32_53 v5
  let c0_i32_31 : BitVec 32 := 0#32
  let c1_i32_33 : BitVec 32 := 1#32
  let arg24 : BitVec 32 := Scf.iv c0_i32_31 c1_i32_33 k1_t9
  let c2_i32_52 : BitVec 32 := 2#32
  let v39 : BitVec 32 := Scalar.muli arg24 c2_i32_52
  let c1_i32_56 : BitVec 32 := 1#32
  let v44 : BitVec 32 := Scalar.addi v39 c1_i32_56
  let c128_i32_57 : BitVec 32 := 128#32
  let v45 : BitVec 32 := Scalar.muli v44 c128_i32_57
  let v46 : BitVec 32 := Scalar.addi v40 v45
  ![v46.toNat]
@[reducible] def k1_t10_loop : Scf.Loop 32 :=
  let c0_i32_63 : BitVec 32 := 0#32
  let c8_i32_64 : BitVec 32 := 8#32
  let v49 : BitVec 32 := Scalar.addi c0_i32_63 c8_i32_64
  let c1_i32_65 : BitVec 32 := 1#32
  ⟨c0_i32_63, v49, c1_i32_65⟩

def k1_chk109 (v58 : IVec S16 32) (v59 : IVec S16 32) : Prop :=
  (∀ a x, ((![v58, v59] : Fin 2 → IVec S16 32) a x).toNat < S128x128.size a)
instance k1_chk109.dec : ∀ (v58 : IVec S16 32) (v59 : IVec S16 32), Decidable (k1_chk109 v58 v59) := fun v58 v59 => decidable_of_iff' _ (Iff.of_eq (k1_chk109.eq_1 v58 v59))
theorem k1_idx109_inb : ∀ (v58 : IVec S16 32) (v59 : IVec S16 32) (k1_hw109 : k1_chk109 v58 v59), ∀ a x, ((![v58, v59] : Fin 2 → IVec S16 32) a x).toNat < S128x128.size a := fun v58 v59 k1_hw109 => k1_hw109

def k1_chk110 (v58 : IVec S16 32) (v61 : IVec S16 32) : Prop :=
  (∀ a x, ((![v58, v61] : Fin 2 → IVec S16 32) a x).toNat < S128x128.size a)
instance k1_chk110.dec : ∀ (v58 : IVec S16 32) (v61 : IVec S16 32), Decidable (k1_chk110 v58 v61) := fun v58 v61 => decidable_of_iff' _ (Iff.of_eq (k1_chk110.eq_1 v58 v61))
theorem k1_idx110_inb : ∀ (v58 : IVec S16 32) (v61 : IVec S16 32) (k1_hw110 : k1_chk110 v58 v61), ∀ a x, ((![v58, v61] : Fin 2 → IVec S16 32) a x).toNat < S128x128.size a := fun v58 v61 k1_hw110 => k1_hw110

def k1_chk111 (v58 : IVec S16 32) (v63 : IVec S16 32) : Prop :=
  (∀ a x, ((![v58, v63] : Fin 2 → IVec S16 32) a x).toNat < S128x128.size a)
instance k1_chk111.dec : ∀ (v58 : IVec S16 32) (v63 : IVec S16 32), Decidable (k1_chk111 v58 v63) := fun v58 v63 => decidable_of_iff' _ (Iff.of_eq (k1_chk111.eq_1 v58 v63))
theorem k1_idx111_inb : ∀ (v58 : IVec S16 32) (v63 : IVec S16 32) (k1_hw111 : k1_chk111 v58 v63), ∀ a x, ((![v58, v63] : Fin 2 → IVec S16 32) a x).toNat < S128x128.size a := fun v58 v63 k1_hw111 => k1_hw111

def k1_chk112 (v58 : IVec S16 32) (v65 : IVec S16 32) : Prop :=
  (∀ a x, ((![v58, v65] : Fin 2 → IVec S16 32) a x).toNat < S128x128.size a)
instance k1_chk112.dec : ∀ (v58 : IVec S16 32) (v65 : IVec S16 32), Decidable (k1_chk112 v58 v65) := fun v58 v65 => decidable_of_iff' _ (Iff.of_eq (k1_chk112.eq_1 v58 v65))
theorem k1_idx112_inb : ∀ (v58 : IVec S16 32) (v65 : IVec S16 32) (k1_hw112 : k1_chk112 v58 v65), ∀ a x, ((![v58, v65] : Fin 2 → IVec S16 32) a x).toNat < S128x128.size a := fun v58 v65 k1_hw112 => k1_hw112

def k1_chk113 (v58 : IVec S16 32) (v67 : IVec S16 32) : Prop :=
  (∀ a x, ((![v58, v67] : Fin 2 → IVec S16 32) a x).toNat < S128x128.size a)
instance k1_chk113.dec : ∀ (v58 : IVec S16 32) (v67 : IVec S16 32), Decidable (k1_chk113 v58 v67) := fun v58 v67 => decidable_of_iff' _ (Iff.of_eq (k1_chk113.eq_1 v58 v67))
theorem k1_idx113_inb : ∀ (v58 : IVec S16 32) (v67 : IVec S16 32) (k1_hw113 : k1_chk113 v58 v67), ∀ a x, ((![v58, v67] : Fin 2 → IVec S16 32) a x).toNat < S128x128.size a := fun v58 v67 k1_hw113 => k1_hw113

def k1_chk114 (v58 : IVec S16 32) (v69 : IVec S16 32) : Prop :=
  (∀ a x, ((![v58, v69] : Fin 2 → IVec S16 32) a x).toNat < S128x128.size a)
instance k1_chk114.dec : ∀ (v58 : IVec S16 32) (v69 : IVec S16 32), Decidable (k1_chk114 v58 v69) := fun v58 v69 => decidable_of_iff' _ (Iff.of_eq (k1_chk114.eq_1 v58 v69))
theorem k1_idx114_inb : ∀ (v58 : IVec S16 32) (v69 : IVec S16 32) (k1_hw114 : k1_chk114 v58 v69), ∀ a x, ((![v58, v69] : Fin 2 → IVec S16 32) a x).toNat < S128x128.size a := fun v58 v69 k1_hw114 => k1_hw114

def k1_chk115 (v58 : IVec S16 32) (v71 : IVec S16 32) : Prop :=
  (∀ a x, ((![v58, v71] : Fin 2 → IVec S16 32) a x).toNat < S128x128.size a)
instance k1_chk115.dec : ∀ (v58 : IVec S16 32) (v71 : IVec S16 32), Decidable (k1_chk115 v58 v71) := fun v58 v71 => decidable_of_iff' _ (Iff.of_eq (k1_chk115.eq_1 v58 v71))
theorem k1_idx115_inb : ∀ (v58 : IVec S16 32) (v71 : IVec S16 32) (k1_hw115 : k1_chk115 v58 v71), ∀ a x, ((![v58, v71] : Fin 2 → IVec S16 32) a x).toNat < S128x128.size a := fun v58 v71 k1_hw115 => k1_hw115

def k1_chk116 (v58 : IVec S16 32) (v73 : IVec S16 32) : Prop :=
  (∀ a x, ((![v58, v73] : Fin 2 → IVec S16 32) a x).toNat < S128x128.size a)
instance k1_chk116.dec : ∀ (v58 : IVec S16 32) (v73 : IVec S16 32), Decidable (k1_chk116 v58 v73) := fun v58 v73 => decidable_of_iff' _ (Iff.of_eq (k1_chk116.eq_1 v58 v73))
theorem k1_idx116_inb : ∀ (v58 : IVec S16 32) (v73 : IVec S16 32) (k1_hw116 : k1_chk116 v58 v73), ∀ a x, ((![v58, v73] : Fin 2 → IVec S16 32) a x).toNat < S128x128.size a := fun v58 v73 k1_hw116 => k1_hw116

def k1_chk117 (v58 : IVec S16 32) (v75 : IVec S16 32) : Prop :=
  (∀ a x, ((![v58, v75] : Fin 2 → IVec S16 32) a x).toNat < S128x128.size a)
instance k1_chk117.dec : ∀ (v58 : IVec S16 32) (v75 : IVec S16 32), Decidable (k1_chk117 v58 v75) := fun v58 v75 => decidable_of_iff' _ (Iff.of_eq (k1_chk117.eq_1 v58 v75))
theorem k1_idx117_inb : ∀ (v58 : IVec S16 32) (v75 : IVec S16 32) (k1_hw117 : k1_chk117 v58 v75), ∀ a x, ((![v58, v75] : Fin 2 → IVec S16 32) a x).toNat < S128x128.size a := fun v58 v75 k1_hw117 => k1_hw117

def k1_chk118 (v58 : IVec S16 32) (v77 : IVec S16 32) : Prop :=
  (∀ a x, ((![v58, v77] : Fin 2 → IVec S16 32) a x).toNat < S128x128.size a)
instance k1_chk118.dec : ∀ (v58 : IVec S16 32) (v77 : IVec S16 32), Decidable (k1_chk118 v58 v77) := fun v58 v77 => decidable_of_iff' _ (Iff.of_eq (k1_chk118.eq_1 v58 v77))
theorem k1_idx118_inb : ∀ (v58 : IVec S16 32) (v77 : IVec S16 32) (k1_hw118 : k1_chk118 v58 v77), ∀ a x, ((![v58, v77] : Fin 2 → IVec S16 32) a x).toNat < S128x128.size a := fun v58 v77 k1_hw118 => k1_hw118

def k1_chk119 (v58 : IVec S16 32) (v79 : IVec S16 32) : Prop :=
  (∀ a x, ((![v58, v79] : Fin 2 → IVec S16 32) a x).toNat < S128x128.size a)
instance k1_chk119.dec : ∀ (v58 : IVec S16 32) (v79 : IVec S16 32), Decidable (k1_chk119 v58 v79) := fun v58 v79 => decidable_of_iff' _ (Iff.of_eq (k1_chk119.eq_1 v58 v79))
theorem k1_idx119_inb : ∀ (v58 : IVec S16 32) (v79 : IVec S16 32) (k1_hw119 : k1_chk119 v58 v79), ∀ a x, ((![v58, v79] : Fin 2 → IVec S16 32) a x).toNat < S128x128.size a := fun v58 v79 k1_hw119 => k1_hw119

def k1_chk120 (v58 : IVec S16 32) (v81 : IVec S16 32) : Prop :=
  (∀ a x, ((![v58, v81] : Fin 2 → IVec S16 32) a x).toNat < S128x128.size a)
instance k1_chk120.dec : ∀ (v58 : IVec S16 32) (v81 : IVec S16 32), Decidable (k1_chk120 v58 v81) := fun v58 v81 => decidable_of_iff' _ (Iff.of_eq (k1_chk120.eq_1 v58 v81))
theorem k1_idx120_inb : ∀ (v58 : IVec S16 32) (v81 : IVec S16 32) (k1_hw120 : k1_chk120 v58 v81), ∀ a x, ((![v58, v81] : Fin 2 → IVec S16 32) a x).toNat < S128x128.size a := fun v58 v81 k1_hw120 => k1_hw120

def k1_chk121 (v58 : IVec S16 32) (v83 : IVec S16 32) : Prop :=
  (∀ a x, ((![v58, v83] : Fin 2 → IVec S16 32) a x).toNat < S128x128.size a)
instance k1_chk121.dec : ∀ (v58 : IVec S16 32) (v83 : IVec S16 32), Decidable (k1_chk121 v58 v83) := fun v58 v83 => decidable_of_iff' _ (Iff.of_eq (k1_chk121.eq_1 v58 v83))
theorem k1_idx121_inb : ∀ (v58 : IVec S16 32) (v83 : IVec S16 32) (k1_hw121 : k1_chk121 v58 v83), ∀ a x, ((![v58, v83] : Fin 2 → IVec S16 32) a x).toNat < S128x128.size a := fun v58 v83 k1_hw121 => k1_hw121

def k1_chk122 (v58 : IVec S16 32) (v85 : IVec S16 32) : Prop :=
  (∀ a x, ((![v58, v85] : Fin 2 → IVec S16 32) a x).toNat < S128x128.size a)
instance k1_chk122.dec : ∀ (v58 : IVec S16 32) (v85 : IVec S16 32), Decidable (k1_chk122 v58 v85) := fun v58 v85 => decidable_of_iff' _ (Iff.of_eq (k1_chk122.eq_1 v58 v85))
theorem k1_idx122_inb : ∀ (v58 : IVec S16 32) (v85 : IVec S16 32) (k1_hw122 : k1_chk122 v58 v85), ∀ a x, ((![v58, v85] : Fin 2 → IVec S16 32) a x).toNat < S128x128.size a := fun v58 v85 k1_hw122 => k1_hw122

def k1_chk123 (v58 : IVec S16 32) (v87 : IVec S16 32) : Prop :=
  (∀ a x, ((![v58, v87] : Fin 2 → IVec S16 32) a x).toNat < S128x128.size a)
instance k1_chk123.dec : ∀ (v58 : IVec S16 32) (v87 : IVec S16 32), Decidable (k1_chk123 v58 v87) := fun v58 v87 => decidable_of_iff' _ (Iff.of_eq (k1_chk123.eq_1 v58 v87))
theorem k1_idx123_inb : ∀ (v58 : IVec S16 32) (v87 : IVec S16 32) (k1_hw123 : k1_chk123 v58 v87), ∀ a x, ((![v58, v87] : Fin 2 → IVec S16 32) a x).toNat < S128x128.size a := fun v58 v87 k1_hw123 => k1_hw123
def k1_off16 (k1_t9 : Fin k1_t9_loop.trips) (k1_t10 : Fin k1_t10_loop.trips) : Fin 1 → Nat :=
  let c0_i32_31 : BitVec 32 := 0#32
  let c1_i32_33 : BitVec 32 := 1#32
  let arg24 : BitVec 32 := Scf.iv c0_i32_31 c1_i32_33 k1_t9
  let c2_i32_52 : BitVec 32 := 2#32
  let v39 : BitVec 32 := Scalar.muli arg24 c2_i32_52
  let c128_i32_75 : BitVec 32 := 128#32
  let v53 : BitVec 32 := Scalar.muli v39 c128_i32_75
  let c0_i32_63 : BitVec 32 := 0#32
  let c1_i32_65 : BitVec 32 := 1#32
  let arg25 : BitVec 32 := Scf.iv c0_i32_63 c1_i32_65 k1_t10
  let c16_i32_76 : BitVec 32 := 16#32
  let v54 : BitVec 32 := Scalar.muli arg25 c16_i32_76
  let v55 : BitVec 32 := Scalar.addi v53 v54
  let v89 : Index := Scalar.indexCast v55
  ![v89.toNat]

def k1_chk124 (v126 : IVec S16 32) : Prop :=
  (∀ a x, ((![v126] : Fin 1 → IVec S16 32) a x).toNat < S4992.size a)
instance k1_chk124.dec : ∀ (v126 : IVec S16 32), Decidable (k1_chk124 v126) := fun v126 => decidable_of_iff' _ (Iff.of_eq (k1_chk124.eq_1 v126))
theorem k1_idx124_inb : ∀ (v126 : IVec S16 32) (k1_hw124 : k1_chk124 v126), ∀ a x, ((![v126] : Fin 1 → IVec S16 32) a x).toNat < S4992.size a := fun v126 k1_hw124 => k1_hw124

def k1_chk125 (v128 : IVec S16 32) : Prop :=
  (∀ a x, ((![v128] : Fin 1 → IVec S16 32) a x).toNat < S4992.size a)
instance k1_chk125.dec : ∀ (v128 : IVec S16 32), Decidable (k1_chk125 v128) := fun v128 => decidable_of_iff' _ (Iff.of_eq (k1_chk125.eq_1 v128))
theorem k1_idx125_inb : ∀ (v128 : IVec S16 32) (k1_hw125 : k1_chk125 v128), ∀ a x, ((![v128] : Fin 1 → IVec S16 32) a x).toNat < S4992.size a := fun v128 k1_hw125 => k1_hw125

def k1_chk126 (v130 : IVec S16 32) : Prop :=
  (∀ a x, ((![v130] : Fin 1 → IVec S16 32) a x).toNat < S4992.size a)
instance k1_chk126.dec : ∀ (v130 : IVec S16 32), Decidable (k1_chk126 v130) := fun v130 => decidable_of_iff' _ (Iff.of_eq (k1_chk126.eq_1 v130))
theorem k1_idx126_inb : ∀ (v130 : IVec S16 32) (k1_hw126 : k1_chk126 v130), ∀ a x, ((![v130] : Fin 1 → IVec S16 32) a x).toNat < S4992.size a := fun v130 k1_hw126 => k1_hw126
@[reducible] def k1_t11_loop : Scf.Loop 32 :=
  let c0_i32_71 : BitVec 32 := 0#32
  let c8_i32_72 : BitVec 32 := 8#32
  let v52 : BitVec 32 := Scalar.addi c0_i32_71 c8_i32_72
  let c1_i32_73 : BitVec 32 := 1#32
  ⟨c0_i32_71, v52, c1_i32_73⟩

def k1_chk127 (v58 : IVec S16 32) (v59 : IVec S16 32) : Prop :=
  (∀ a x, ((![v58, v59] : Fin 2 → IVec S16 32) a x).toNat < S128x128.size a)
instance k1_chk127.dec : ∀ (v58 : IVec S16 32) (v59 : IVec S16 32), Decidable (k1_chk127 v58 v59) := fun v58 v59 => decidable_of_iff' _ (Iff.of_eq (k1_chk127.eq_1 v58 v59))
theorem k1_idx127_inb : ∀ (v58 : IVec S16 32) (v59 : IVec S16 32) (k1_hw127 : k1_chk127 v58 v59), ∀ a x, ((![v58, v59] : Fin 2 → IVec S16 32) a x).toNat < S128x128.size a := fun v58 v59 k1_hw127 => k1_hw127

def k1_chk128 (v58 : IVec S16 32) (v61 : IVec S16 32) : Prop :=
  (∀ a x, ((![v58, v61] : Fin 2 → IVec S16 32) a x).toNat < S128x128.size a)
instance k1_chk128.dec : ∀ (v58 : IVec S16 32) (v61 : IVec S16 32), Decidable (k1_chk128 v58 v61) := fun v58 v61 => decidable_of_iff' _ (Iff.of_eq (k1_chk128.eq_1 v58 v61))
theorem k1_idx128_inb : ∀ (v58 : IVec S16 32) (v61 : IVec S16 32) (k1_hw128 : k1_chk128 v58 v61), ∀ a x, ((![v58, v61] : Fin 2 → IVec S16 32) a x).toNat < S128x128.size a := fun v58 v61 k1_hw128 => k1_hw128

def k1_chk129 (v58 : IVec S16 32) (v63 : IVec S16 32) : Prop :=
  (∀ a x, ((![v58, v63] : Fin 2 → IVec S16 32) a x).toNat < S128x128.size a)
instance k1_chk129.dec : ∀ (v58 : IVec S16 32) (v63 : IVec S16 32), Decidable (k1_chk129 v58 v63) := fun v58 v63 => decidable_of_iff' _ (Iff.of_eq (k1_chk129.eq_1 v58 v63))
theorem k1_idx129_inb : ∀ (v58 : IVec S16 32) (v63 : IVec S16 32) (k1_hw129 : k1_chk129 v58 v63), ∀ a x, ((![v58, v63] : Fin 2 → IVec S16 32) a x).toNat < S128x128.size a := fun v58 v63 k1_hw129 => k1_hw129

def k1_chk130 (v58 : IVec S16 32) (v65 : IVec S16 32) : Prop :=
  (∀ a x, ((![v58, v65] : Fin 2 → IVec S16 32) a x).toNat < S128x128.size a)
instance k1_chk130.dec : ∀ (v58 : IVec S16 32) (v65 : IVec S16 32), Decidable (k1_chk130 v58 v65) := fun v58 v65 => decidable_of_iff' _ (Iff.of_eq (k1_chk130.eq_1 v58 v65))
theorem k1_idx130_inb : ∀ (v58 : IVec S16 32) (v65 : IVec S16 32) (k1_hw130 : k1_chk130 v58 v65), ∀ a x, ((![v58, v65] : Fin 2 → IVec S16 32) a x).toNat < S128x128.size a := fun v58 v65 k1_hw130 => k1_hw130

def k1_chk131 (v58 : IVec S16 32) (v67 : IVec S16 32) : Prop :=
  (∀ a x, ((![v58, v67] : Fin 2 → IVec S16 32) a x).toNat < S128x128.size a)
instance k1_chk131.dec : ∀ (v58 : IVec S16 32) (v67 : IVec S16 32), Decidable (k1_chk131 v58 v67) := fun v58 v67 => decidable_of_iff' _ (Iff.of_eq (k1_chk131.eq_1 v58 v67))
theorem k1_idx131_inb : ∀ (v58 : IVec S16 32) (v67 : IVec S16 32) (k1_hw131 : k1_chk131 v58 v67), ∀ a x, ((![v58, v67] : Fin 2 → IVec S16 32) a x).toNat < S128x128.size a := fun v58 v67 k1_hw131 => k1_hw131

def k1_chk132 (v58 : IVec S16 32) (v69 : IVec S16 32) : Prop :=
  (∀ a x, ((![v58, v69] : Fin 2 → IVec S16 32) a x).toNat < S128x128.size a)
instance k1_chk132.dec : ∀ (v58 : IVec S16 32) (v69 : IVec S16 32), Decidable (k1_chk132 v58 v69) := fun v58 v69 => decidable_of_iff' _ (Iff.of_eq (k1_chk132.eq_1 v58 v69))
theorem k1_idx132_inb : ∀ (v58 : IVec S16 32) (v69 : IVec S16 32) (k1_hw132 : k1_chk132 v58 v69), ∀ a x, ((![v58, v69] : Fin 2 → IVec S16 32) a x).toNat < S128x128.size a := fun v58 v69 k1_hw132 => k1_hw132

def k1_chk133 (v58 : IVec S16 32) (v71 : IVec S16 32) : Prop :=
  (∀ a x, ((![v58, v71] : Fin 2 → IVec S16 32) a x).toNat < S128x128.size a)
instance k1_chk133.dec : ∀ (v58 : IVec S16 32) (v71 : IVec S16 32), Decidable (k1_chk133 v58 v71) := fun v58 v71 => decidable_of_iff' _ (Iff.of_eq (k1_chk133.eq_1 v58 v71))
theorem k1_idx133_inb : ∀ (v58 : IVec S16 32) (v71 : IVec S16 32) (k1_hw133 : k1_chk133 v58 v71), ∀ a x, ((![v58, v71] : Fin 2 → IVec S16 32) a x).toNat < S128x128.size a := fun v58 v71 k1_hw133 => k1_hw133

def k1_chk134 (v58 : IVec S16 32) (v73 : IVec S16 32) : Prop :=
  (∀ a x, ((![v58, v73] : Fin 2 → IVec S16 32) a x).toNat < S128x128.size a)
instance k1_chk134.dec : ∀ (v58 : IVec S16 32) (v73 : IVec S16 32), Decidable (k1_chk134 v58 v73) := fun v58 v73 => decidable_of_iff' _ (Iff.of_eq (k1_chk134.eq_1 v58 v73))
theorem k1_idx134_inb : ∀ (v58 : IVec S16 32) (v73 : IVec S16 32) (k1_hw134 : k1_chk134 v58 v73), ∀ a x, ((![v58, v73] : Fin 2 → IVec S16 32) a x).toNat < S128x128.size a := fun v58 v73 k1_hw134 => k1_hw134

def k1_chk135 (v58 : IVec S16 32) (v75 : IVec S16 32) : Prop :=
  (∀ a x, ((![v58, v75] : Fin 2 → IVec S16 32) a x).toNat < S128x128.size a)
instance k1_chk135.dec : ∀ (v58 : IVec S16 32) (v75 : IVec S16 32), Decidable (k1_chk135 v58 v75) := fun v58 v75 => decidable_of_iff' _ (Iff.of_eq (k1_chk135.eq_1 v58 v75))
theorem k1_idx135_inb : ∀ (v58 : IVec S16 32) (v75 : IVec S16 32) (k1_hw135 : k1_chk135 v58 v75), ∀ a x, ((![v58, v75] : Fin 2 → IVec S16 32) a x).toNat < S128x128.size a := fun v58 v75 k1_hw135 => k1_hw135

def k1_chk136 (v58 : IVec S16 32) (v77 : IVec S16 32) : Prop :=
  (∀ a x, ((![v58, v77] : Fin 2 → IVec S16 32) a x).toNat < S128x128.size a)
instance k1_chk136.dec : ∀ (v58 : IVec S16 32) (v77 : IVec S16 32), Decidable (k1_chk136 v58 v77) := fun v58 v77 => decidable_of_iff' _ (Iff.of_eq (k1_chk136.eq_1 v58 v77))
theorem k1_idx136_inb : ∀ (v58 : IVec S16 32) (v77 : IVec S16 32) (k1_hw136 : k1_chk136 v58 v77), ∀ a x, ((![v58, v77] : Fin 2 → IVec S16 32) a x).toNat < S128x128.size a := fun v58 v77 k1_hw136 => k1_hw136

def k1_chk137 (v58 : IVec S16 32) (v79 : IVec S16 32) : Prop :=
  (∀ a x, ((![v58, v79] : Fin 2 → IVec S16 32) a x).toNat < S128x128.size a)
instance k1_chk137.dec : ∀ (v58 : IVec S16 32) (v79 : IVec S16 32), Decidable (k1_chk137 v58 v79) := fun v58 v79 => decidable_of_iff' _ (Iff.of_eq (k1_chk137.eq_1 v58 v79))
theorem k1_idx137_inb : ∀ (v58 : IVec S16 32) (v79 : IVec S16 32) (k1_hw137 : k1_chk137 v58 v79), ∀ a x, ((![v58, v79] : Fin 2 → IVec S16 32) a x).toNat < S128x128.size a := fun v58 v79 k1_hw137 => k1_hw137

def k1_chk138 (v58 : IVec S16 32) (v81 : IVec S16 32) : Prop :=
  (∀ a x, ((![v58, v81] : Fin 2 → IVec S16 32) a x).toNat < S128x128.size a)
instance k1_chk138.dec : ∀ (v58 : IVec S16 32) (v81 : IVec S16 32), Decidable (k1_chk138 v58 v81) := fun v58 v81 => decidable_of_iff' _ (Iff.of_eq (k1_chk138.eq_1 v58 v81))
theorem k1_idx138_inb : ∀ (v58 : IVec S16 32) (v81 : IVec S16 32) (k1_hw138 : k1_chk138 v58 v81), ∀ a x, ((![v58, v81] : Fin 2 → IVec S16 32) a x).toNat < S128x128.size a := fun v58 v81 k1_hw138 => k1_hw138

def k1_chk139 (v58 : IVec S16 32) (v83 : IVec S16 32) : Prop :=
  (∀ a x, ((![v58, v83] : Fin 2 → IVec S16 32) a x).toNat < S128x128.size a)
instance k1_chk139.dec : ∀ (v58 : IVec S16 32) (v83 : IVec S16 32), Decidable (k1_chk139 v58 v83) := fun v58 v83 => decidable_of_iff' _ (Iff.of_eq (k1_chk139.eq_1 v58 v83))
theorem k1_idx139_inb : ∀ (v58 : IVec S16 32) (v83 : IVec S16 32) (k1_hw139 : k1_chk139 v58 v83), ∀ a x, ((![v58, v83] : Fin 2 → IVec S16 32) a x).toNat < S128x128.size a := fun v58 v83 k1_hw139 => k1_hw139

def k1_chk140 (v58 : IVec S16 32) (v85 : IVec S16 32) : Prop :=
  (∀ a x, ((![v58, v85] : Fin 2 → IVec S16 32) a x).toNat < S128x128.size a)
instance k1_chk140.dec : ∀ (v58 : IVec S16 32) (v85 : IVec S16 32), Decidable (k1_chk140 v58 v85) := fun v58 v85 => decidable_of_iff' _ (Iff.of_eq (k1_chk140.eq_1 v58 v85))
theorem k1_idx140_inb : ∀ (v58 : IVec S16 32) (v85 : IVec S16 32) (k1_hw140 : k1_chk140 v58 v85), ∀ a x, ((![v58, v85] : Fin 2 → IVec S16 32) a x).toNat < S128x128.size a := fun v58 v85 k1_hw140 => k1_hw140

def k1_chk141 (v58 : IVec S16 32) (v87 : IVec S16 32) : Prop :=
  (∀ a x, ((![v58, v87] : Fin 2 → IVec S16 32) a x).toNat < S128x128.size a)
instance k1_chk141.dec : ∀ (v58 : IVec S16 32) (v87 : IVec S16 32), Decidable (k1_chk141 v58 v87) := fun v58 v87 => decidable_of_iff' _ (Iff.of_eq (k1_chk141.eq_1 v58 v87))
theorem k1_idx141_inb : ∀ (v58 : IVec S16 32) (v87 : IVec S16 32) (k1_hw141 : k1_chk141 v58 v87), ∀ a x, ((![v58, v87] : Fin 2 → IVec S16 32) a x).toNat < S128x128.size a := fun v58 v87 k1_hw141 => k1_hw141
def k1_off17 (k1_t9 : Fin k1_t9_loop.trips) (k1_t11 : Fin k1_t11_loop.trips) : Fin 1 → Nat :=
  let c0_i32_31 : BitVec 32 := 0#32
  let c1_i32_33 : BitVec 32 := 1#32
  let arg24 : BitVec 32 := Scf.iv c0_i32_31 c1_i32_33 k1_t9
  let c2_i32_52 : BitVec 32 := 2#32
  let v39 : BitVec 32 := Scalar.muli arg24 c2_i32_52
  let c1_i32_69 : BitVec 32 := 1#32
  let v51 : BitVec 32 := Scalar.addi v39 c1_i32_69
  let c128_i32_75 : BitVec 32 := 128#32
  let v53 : BitVec 32 := Scalar.muli v51 c128_i32_75
  let c0_i32_71 : BitVec 32 := 0#32
  let c1_i32_73 : BitVec 32 := 1#32
  let arg25 : BitVec 32 := Scf.iv c0_i32_71 c1_i32_73 k1_t11
  let c16_i32_76 : BitVec 32 := 16#32
  let v54 : BitVec 32 := Scalar.muli arg25 c16_i32_76
  let v55 : BitVec 32 := Scalar.addi v53 v54
  let v89 : Index := Scalar.indexCast v55
  ![v89.toNat]

def k1_chk142 (v126 : IVec S16 32) : Prop :=
  (∀ a x, ((![v126] : Fin 1 → IVec S16 32) a x).toNat < S4992.size a)
instance k1_chk142.dec : ∀ (v126 : IVec S16 32), Decidable (k1_chk142 v126) := fun v126 => decidable_of_iff' _ (Iff.of_eq (k1_chk142.eq_1 v126))
theorem k1_idx142_inb : ∀ (v126 : IVec S16 32) (k1_hw142 : k1_chk142 v126), ∀ a x, ((![v126] : Fin 1 → IVec S16 32) a x).toNat < S4992.size a := fun v126 k1_hw142 => k1_hw142

def k1_chk143 (v128 : IVec S16 32) : Prop :=
  (∀ a x, ((![v128] : Fin 1 → IVec S16 32) a x).toNat < S4992.size a)
instance k1_chk143.dec : ∀ (v128 : IVec S16 32), Decidable (k1_chk143 v128) := fun v128 => decidable_of_iff' _ (Iff.of_eq (k1_chk143.eq_1 v128))
theorem k1_idx143_inb : ∀ (v128 : IVec S16 32) (k1_hw143 : k1_chk143 v128), ∀ a x, ((![v128] : Fin 1 → IVec S16 32) a x).toNat < S4992.size a := fun v128 k1_hw143 => k1_hw143

def k1_chk144 (v130 : IVec S16 32) : Prop :=
  (∀ a x, ((![v130] : Fin 1 → IVec S16 32) a x).toNat < S4992.size a)
instance k1_chk144.dec : ∀ (v130 : IVec S16 32), Decidable (k1_chk144 v130) := fun v130 => decidable_of_iff' _ (Iff.of_eq (k1_chk144.eq_1 v130))
theorem k1_idx144_inb : ∀ (v130 : IVec S16 32) (k1_hw144 : k1_chk144 v130), ∀ a x, ((![v130] : Fin 1 → IVec S16 32) a x).toNat < S4992.size a := fun v130 k1_hw144 => k1_hw144
@[reducible] def k1_t12_loop : Scf.Loop 32 :=
  let c0_i32_42 : BitVec 32 := 0#32
  let c8_i32_43 : BitVec 32 := 8#32
  let v28 : BitVec 32 := Scalar.addi c0_i32_42 c8_i32_43
  let c1_i32_44 : BitVec 32 := 1#32
  ⟨c0_i32_42, v28, c1_i32_44⟩

def k1_chk145 (v43 : IVec S16 32) (v44 : IVec S16 32) : Prop :=
  (∀ a x, ((![v43, v44] : Fin 2 → IVec S16 32) a x).toNat < S128x128.size a)
instance k1_chk145.dec : ∀ (v43 : IVec S16 32) (v44 : IVec S16 32), Decidable (k1_chk145 v43 v44) := fun v43 v44 => decidable_of_iff' _ (Iff.of_eq (k1_chk145.eq_1 v43 v44))
theorem k1_idx145_inb : ∀ (v43 : IVec S16 32) (v44 : IVec S16 32) (k1_hw145 : k1_chk145 v43 v44), ∀ a x, ((![v43, v44] : Fin 2 → IVec S16 32) a x).toNat < S128x128.size a := fun v43 v44 k1_hw145 => k1_hw145

def k1_chk146 (v43 : IVec S16 32) (v46 : IVec S16 32) : Prop :=
  (∀ a x, ((![v43, v46] : Fin 2 → IVec S16 32) a x).toNat < S128x128.size a)
instance k1_chk146.dec : ∀ (v43 : IVec S16 32) (v46 : IVec S16 32), Decidable (k1_chk146 v43 v46) := fun v43 v46 => decidable_of_iff' _ (Iff.of_eq (k1_chk146.eq_1 v43 v46))
theorem k1_idx146_inb : ∀ (v43 : IVec S16 32) (v46 : IVec S16 32) (k1_hw146 : k1_chk146 v43 v46), ∀ a x, ((![v43, v46] : Fin 2 → IVec S16 32) a x).toNat < S128x128.size a := fun v43 v46 k1_hw146 => k1_hw146

def k1_chk147 (v43 : IVec S16 32) (v48 : IVec S16 32) : Prop :=
  (∀ a x, ((![v43, v48] : Fin 2 → IVec S16 32) a x).toNat < S128x128.size a)
instance k1_chk147.dec : ∀ (v43 : IVec S16 32) (v48 : IVec S16 32), Decidable (k1_chk147 v43 v48) := fun v43 v48 => decidable_of_iff' _ (Iff.of_eq (k1_chk147.eq_1 v43 v48))
theorem k1_idx147_inb : ∀ (v43 : IVec S16 32) (v48 : IVec S16 32) (k1_hw147 : k1_chk147 v43 v48), ∀ a x, ((![v43, v48] : Fin 2 → IVec S16 32) a x).toNat < S128x128.size a := fun v43 v48 k1_hw147 => k1_hw147

def k1_chk148 (v43 : IVec S16 32) (v50 : IVec S16 32) : Prop :=
  (∀ a x, ((![v43, v50] : Fin 2 → IVec S16 32) a x).toNat < S128x128.size a)
instance k1_chk148.dec : ∀ (v43 : IVec S16 32) (v50 : IVec S16 32), Decidable (k1_chk148 v43 v50) := fun v43 v50 => decidable_of_iff' _ (Iff.of_eq (k1_chk148.eq_1 v43 v50))
theorem k1_idx148_inb : ∀ (v43 : IVec S16 32) (v50 : IVec S16 32) (k1_hw148 : k1_chk148 v43 v50), ∀ a x, ((![v43, v50] : Fin 2 → IVec S16 32) a x).toNat < S128x128.size a := fun v43 v50 k1_hw148 => k1_hw148

def k1_chk149 (v43 : IVec S16 32) (v52 : IVec S16 32) : Prop :=
  (∀ a x, ((![v43, v52] : Fin 2 → IVec S16 32) a x).toNat < S128x128.size a)
instance k1_chk149.dec : ∀ (v43 : IVec S16 32) (v52 : IVec S16 32), Decidable (k1_chk149 v43 v52) := fun v43 v52 => decidable_of_iff' _ (Iff.of_eq (k1_chk149.eq_1 v43 v52))
theorem k1_idx149_inb : ∀ (v43 : IVec S16 32) (v52 : IVec S16 32) (k1_hw149 : k1_chk149 v43 v52), ∀ a x, ((![v43, v52] : Fin 2 → IVec S16 32) a x).toNat < S128x128.size a := fun v43 v52 k1_hw149 => k1_hw149

def k1_chk150 (v43 : IVec S16 32) (v54 : IVec S16 32) : Prop :=
  (∀ a x, ((![v43, v54] : Fin 2 → IVec S16 32) a x).toNat < S128x128.size a)
instance k1_chk150.dec : ∀ (v43 : IVec S16 32) (v54 : IVec S16 32), Decidable (k1_chk150 v43 v54) := fun v43 v54 => decidable_of_iff' _ (Iff.of_eq (k1_chk150.eq_1 v43 v54))
theorem k1_idx150_inb : ∀ (v43 : IVec S16 32) (v54 : IVec S16 32) (k1_hw150 : k1_chk150 v43 v54), ∀ a x, ((![v43, v54] : Fin 2 → IVec S16 32) a x).toNat < S128x128.size a := fun v43 v54 k1_hw150 => k1_hw150

def k1_chk151 (v43 : IVec S16 32) (v56 : IVec S16 32) : Prop :=
  (∀ a x, ((![v43, v56] : Fin 2 → IVec S16 32) a x).toNat < S128x128.size a)
instance k1_chk151.dec : ∀ (v43 : IVec S16 32) (v56 : IVec S16 32), Decidable (k1_chk151 v43 v56) := fun v43 v56 => decidable_of_iff' _ (Iff.of_eq (k1_chk151.eq_1 v43 v56))
theorem k1_idx151_inb : ∀ (v43 : IVec S16 32) (v56 : IVec S16 32) (k1_hw151 : k1_chk151 v43 v56), ∀ a x, ((![v43, v56] : Fin 2 → IVec S16 32) a x).toNat < S128x128.size a := fun v43 v56 k1_hw151 => k1_hw151

def k1_chk152 (v43 : IVec S16 32) (v58 : IVec S16 32) : Prop :=
  (∀ a x, ((![v43, v58] : Fin 2 → IVec S16 32) a x).toNat < S128x128.size a)
instance k1_chk152.dec : ∀ (v43 : IVec S16 32) (v58 : IVec S16 32), Decidable (k1_chk152 v43 v58) := fun v43 v58 => decidable_of_iff' _ (Iff.of_eq (k1_chk152.eq_1 v43 v58))
theorem k1_idx152_inb : ∀ (v43 : IVec S16 32) (v58 : IVec S16 32) (k1_hw152 : k1_chk152 v43 v58), ∀ a x, ((![v43, v58] : Fin 2 → IVec S16 32) a x).toNat < S128x128.size a := fun v43 v58 k1_hw152 => k1_hw152

def k1_chk153 (v43 : IVec S16 32) (v60 : IVec S16 32) : Prop :=
  (∀ a x, ((![v43, v60] : Fin 2 → IVec S16 32) a x).toNat < S128x128.size a)
instance k1_chk153.dec : ∀ (v43 : IVec S16 32) (v60 : IVec S16 32), Decidable (k1_chk153 v43 v60) := fun v43 v60 => decidable_of_iff' _ (Iff.of_eq (k1_chk153.eq_1 v43 v60))
theorem k1_idx153_inb : ∀ (v43 : IVec S16 32) (v60 : IVec S16 32) (k1_hw153 : k1_chk153 v43 v60), ∀ a x, ((![v43, v60] : Fin 2 → IVec S16 32) a x).toNat < S128x128.size a := fun v43 v60 k1_hw153 => k1_hw153

def k1_chk154 (v43 : IVec S16 32) (v62 : IVec S16 32) : Prop :=
  (∀ a x, ((![v43, v62] : Fin 2 → IVec S16 32) a x).toNat < S128x128.size a)
instance k1_chk154.dec : ∀ (v43 : IVec S16 32) (v62 : IVec S16 32), Decidable (k1_chk154 v43 v62) := fun v43 v62 => decidable_of_iff' _ (Iff.of_eq (k1_chk154.eq_1 v43 v62))
theorem k1_idx154_inb : ∀ (v43 : IVec S16 32) (v62 : IVec S16 32) (k1_hw154 : k1_chk154 v43 v62), ∀ a x, ((![v43, v62] : Fin 2 → IVec S16 32) a x).toNat < S128x128.size a := fun v43 v62 k1_hw154 => k1_hw154

def k1_chk155 (v43 : IVec S16 32) (v64 : IVec S16 32) : Prop :=
  (∀ a x, ((![v43, v64] : Fin 2 → IVec S16 32) a x).toNat < S128x128.size a)
instance k1_chk155.dec : ∀ (v43 : IVec S16 32) (v64 : IVec S16 32), Decidable (k1_chk155 v43 v64) := fun v43 v64 => decidable_of_iff' _ (Iff.of_eq (k1_chk155.eq_1 v43 v64))
theorem k1_idx155_inb : ∀ (v43 : IVec S16 32) (v64 : IVec S16 32) (k1_hw155 : k1_chk155 v43 v64), ∀ a x, ((![v43, v64] : Fin 2 → IVec S16 32) a x).toNat < S128x128.size a := fun v43 v64 k1_hw155 => k1_hw155

def k1_chk156 (v43 : IVec S16 32) (v66 : IVec S16 32) : Prop :=
  (∀ a x, ((![v43, v66] : Fin 2 → IVec S16 32) a x).toNat < S128x128.size a)
instance k1_chk156.dec : ∀ (v43 : IVec S16 32) (v66 : IVec S16 32), Decidable (k1_chk156 v43 v66) := fun v43 v66 => decidable_of_iff' _ (Iff.of_eq (k1_chk156.eq_1 v43 v66))
theorem k1_idx156_inb : ∀ (v43 : IVec S16 32) (v66 : IVec S16 32) (k1_hw156 : k1_chk156 v43 v66), ∀ a x, ((![v43, v66] : Fin 2 → IVec S16 32) a x).toNat < S128x128.size a := fun v43 v66 k1_hw156 => k1_hw156

def k1_chk157 (v43 : IVec S16 32) (v68 : IVec S16 32) : Prop :=
  (∀ a x, ((![v43, v68] : Fin 2 → IVec S16 32) a x).toNat < S128x128.size a)
instance k1_chk157.dec : ∀ (v43 : IVec S16 32) (v68 : IVec S16 32), Decidable (k1_chk157 v43 v68) := fun v43 v68 => decidable_of_iff' _ (Iff.of_eq (k1_chk157.eq_1 v43 v68))
theorem k1_idx157_inb : ∀ (v43 : IVec S16 32) (v68 : IVec S16 32) (k1_hw157 : k1_chk157 v43 v68), ∀ a x, ((![v43, v68] : Fin 2 → IVec S16 32) a x).toNat < S128x128.size a := fun v43 v68 k1_hw157 => k1_hw157

def k1_chk158 (v43 : IVec S16 32) (v70 : IVec S16 32) : Prop :=
  (∀ a x, ((![v43, v70] : Fin 2 → IVec S16 32) a x).toNat < S128x128.size a)
instance k1_chk158.dec : ∀ (v43 : IVec S16 32) (v70 : IVec S16 32), Decidable (k1_chk158 v43 v70) := fun v43 v70 => decidable_of_iff' _ (Iff.of_eq (k1_chk158.eq_1 v43 v70))
theorem k1_idx158_inb : ∀ (v43 : IVec S16 32) (v70 : IVec S16 32) (k1_hw158 : k1_chk158 v43 v70), ∀ a x, ((![v43, v70] : Fin 2 → IVec S16 32) a x).toNat < S128x128.size a := fun v43 v70 k1_hw158 => k1_hw158

def k1_chk159 (v43 : IVec S16 32) (v72 : IVec S16 32) : Prop :=
  (∀ a x, ((![v43, v72] : Fin 2 → IVec S16 32) a x).toNat < S128x128.size a)
instance k1_chk159.dec : ∀ (v43 : IVec S16 32) (v72 : IVec S16 32), Decidable (k1_chk159 v43 v72) := fun v43 v72 => decidable_of_iff' _ (Iff.of_eq (k1_chk159.eq_1 v43 v72))
theorem k1_idx159_inb : ∀ (v43 : IVec S16 32) (v72 : IVec S16 32) (k1_hw159 : k1_chk159 v43 v72), ∀ a x, ((![v43, v72] : Fin 2 → IVec S16 32) a x).toNat < S128x128.size a := fun v43 v72 k1_hw159 => k1_hw159
def k1_off18 (k1_t12 : Fin k1_t12_loop.trips) : Fin 1 → Nat :=
  let c1536_i32_53 : BitVec 32 := 1536#32
  let c0_i32_42 : BitVec 32 := 0#32
  let c1_i32_44 : BitVec 32 := 1#32
  let arg24 : BitVec 32 := Scf.iv c0_i32_42 c1_i32_44 k1_t12
  let c16_i32_52 : BitVec 32 := 16#32
  let v39 : BitVec 32 := Scalar.muli arg24 c16_i32_52
  let v40 : BitVec 32 := Scalar.addi c1536_i32_53 v39
  let v74 : Index := Scalar.indexCast v40
  ![v74.toNat]

def k1_chk160 (v111 : IVec S16 32) : Prop :=
  (∀ a x, ((![v111] : Fin 1 → IVec S16 32) a x).toNat < S4992.size a)
instance k1_chk160.dec : ∀ (v111 : IVec S16 32), Decidable (k1_chk160 v111) := fun v111 => decidable_of_iff' _ (Iff.of_eq (k1_chk160.eq_1 v111))
theorem k1_idx160_inb : ∀ (v111 : IVec S16 32) (k1_hw160 : k1_chk160 v111), ∀ a x, ((![v111] : Fin 1 → IVec S16 32) a x).toNat < S4992.size a := fun v111 k1_hw160 => k1_hw160

def k1_chk161 (v113 : IVec S16 32) : Prop :=
  (∀ a x, ((![v113] : Fin 1 → IVec S16 32) a x).toNat < S4992.size a)
instance k1_chk161.dec : ∀ (v113 : IVec S16 32), Decidable (k1_chk161 v113) := fun v113 => decidable_of_iff' _ (Iff.of_eq (k1_chk161.eq_1 v113))
theorem k1_idx161_inb : ∀ (v113 : IVec S16 32) (k1_hw161 : k1_chk161 v113), ∀ a x, ((![v113] : Fin 1 → IVec S16 32) a x).toNat < S4992.size a := fun v113 k1_hw161 => k1_hw161

def k1_chk162 (v115 : IVec S16 32) : Prop :=
  (∀ a x, ((![v115] : Fin 1 → IVec S16 32) a x).toNat < S4992.size a)
instance k1_chk162.dec : ∀ (v115 : IVec S16 32), Decidable (k1_chk162 v115) := fun v115 => decidable_of_iff' _ (Iff.of_eq (k1_chk162.eq_1 v115))
theorem k1_idx162_inb : ∀ (v115 : IVec S16 32) (k1_hw162 : k1_chk162 v115), ∀ a x, ((![v115] : Fin 1 → IVec S16 32) a x).toNat < S4992.size a := fun v115 k1_hw162 => k1_hw162
def k1_off19 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v5 : BitVec 32 := Scalar.muli v1 c1664_i32
  let c3_i32_46 : BitVec 32 := 3#32
  let v29 : BitVec 32 := Scalar.muli v5 c3_i32_46
  ![v29.toNat]
@[reducible] def k1_t13_loop : Scf.Loop 32 :=
  let c0_i32_48 : BitVec 32 := 0#32
  let c7_i32 : BitVec 32 := 7#32
  let v33 : BitVec 32 := Scalar.addi c0_i32_48 c7_i32
  let c1_i32_49 : BitVec 32 := 1#32
  ⟨c0_i32_48, v33, c1_i32_49⟩
def k1_off20 (i : grid1.Coords) (k1_t13 : Fin k1_t13_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7168_i32 : BitVec 32 := 7168#32
  let v30 : BitVec 32 := Scalar.muli v1 c7168_i32
  let c0_i32_48 : BitVec 32 := 0#32
  let c1_i32_49 : BitVec 32 := 1#32
  let arg24 : BitVec 32 := Scf.iv c0_i32_48 c1_i32_49 k1_t13
  let c1024_i32 : BitVec 32 := 1024#32
  let v39 : BitVec 32 := Scalar.muli arg24 c1024_i32
  let v40 : BitVec 32 := Scalar.addi v30 v39
  ![v40.toNat]
def k1_mult1 (i : grid1.Coords) (k1_t13 : Fin k1_t13_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7168_i32 : BitVec 32 := 7168#32
  let v30 : BitVec 32 := Scalar.muli v1 c7168_i32
  let c0_i32_48 : BitVec 32 := 0#32
  let c1_i32_49 : BitVec 32 := 1#32
  let arg24 : BitVec 32 := Scf.iv c0_i32_48 c1_i32_49 k1_t13
  let c1024_i32 : BitVec 32 := 1024#32
  let v39 : BitVec 32 := Scalar.muli arg24 c1024_i32
  let v40 : BitVec 32 := Scalar.addi v30 v39
  let c0_i32_52 : BitVec 32 := 0#32
  let v42 : BitVec 1 := Scalar.cmpi .sgt v40 c0_i32_52
  let v43 : BitVec 32 := Scalar.extui v42
  let c0_i32_53 : BitVec 32 := 0#32
  let v44 : BitVec 1 := Scalar.cmpi .slt v40 c0_i32_53
  let v45 : BitVec 32 := Scalar.extui v44
  let v46 : BitVec 32 := Scalar.subi v43 v45
  let c9_i32 : BitVec 32 := 9#32
  let c0_i32_54 : BitVec 32 := 0#32
  let v47 : BitVec 1 := Scalar.cmpi .sgt c9_i32 c0_i32_54
  let v48 : BitVec 32 := Scalar.extui v47
  let c0_i32_55 : BitVec 32 := 0#32
  let v49 : BitVec 1 := Scalar.cmpi .slt c9_i32 c0_i32_55
  let v50 : BitVec 32 := Scalar.extui v49
  let v51 : BitVec 32 := Scalar.subi v48 v50
  let v52 : BitVec 1 := Scalar.cmpi .ne v46 v51
  let v53 : BitVec 32 := Scalar.remsi v40 c9_i32
  let c0_i32_56 : BitVec 32 := 0#32
  let v54 : BitVec 1 := Scalar.cmpi .ne v53 c0_i32_56
  let v55 : BitVec 1 := Scalar.andi v52 v54
  let v41 : BitVec 32 := Scalar.divsi v40 c9_i32
  let c1_i32_57 : BitVec 32 := 1#32
  let v56 : BitVec 32 := Scalar.subi v41 c1_i32_57
  let v57 : BitVec 32 := Scalar.select v55 v56 v41
  let c0_i32_59 : BitVec 32 := 0#32
  let v59 : BitVec 1 := Scalar.cmpi .sgt v57 c0_i32_59
  let v60 : BitVec 32 := Scalar.extui v59
  let c0_i32_60 : BitVec 32 := 0#32
  let v61 : BitVec 1 := Scalar.cmpi .slt v57 c0_i32_60
  let v62 : BitVec 32 := Scalar.extui v61
  let v63 : BitVec 32 := Scalar.subi v60 v62
  let c8_i32_58 : BitVec 32 := 8#32
  let c0_i32_61 : BitVec 32 := 0#32
  let v64 : BitVec 1 := Scalar.cmpi .sgt c8_i32_58 c0_i32_61
  let v65 : BitVec 32 := Scalar.extui v64
  let c0_i32_62 : BitVec 32 := 0#32
  let v66 : BitVec 1 := Scalar.cmpi .slt c8_i32_58 c0_i32_62
  let v67 : BitVec 32 := Scalar.extui v66
  let v68 : BitVec 32 := Scalar.subi v65 v67
  let v69 : BitVec 1 := Scalar.cmpi .ne v63 v68
  let v70 : BitVec 32 := Scalar.remsi v57 c8_i32_58
  let c0_i32_63 : BitVec 32 := 0#32
  let v71 : BitVec 1 := Scalar.cmpi .ne v70 c0_i32_63
  let v72 : BitVec 1 := Scalar.andi v69 v71
  let v58 : BitVec 32 := Scalar.divsi v57 c8_i32_58
  let c1_i32_64 : BitVec 32 := 1#32
  let v73 : BitVec 32 := Scalar.subi v58 c1_i32_64
  let v74 : BitVec 32 := Scalar.select v72 v73 v58
  let c8_i32_65 : BitVec 32 := 8#32
  let v75 : BitVec 32 := Scalar.muli v74 c8_i32_65
  let c24992_i32 : BitVec 32 := 24992#32
  let v76 : BitVec 32 := Scalar.minsi v75 c24992_i32
  v76
def k1_off21 (i : grid1.Coords) (k1_t13 : Fin k1_t13_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7168_i32 : BitVec 32 := 7168#32
  let v30 : BitVec 32 := Scalar.muli v1 c7168_i32
  let c0_i32_48 : BitVec 32 := 0#32
  let c1_i32_49 : BitVec 32 := 1#32
  let arg24 : BitVec 32 := Scf.iv c0_i32_48 c1_i32_49 k1_t13
  let c1024_i32 : BitVec 32 := 1024#32
  let v39 : BitVec 32 := Scalar.muli arg24 c1024_i32
  let v40 : BitVec 32 := Scalar.addi v30 v39
  let c0_i32_52 : BitVec 32 := 0#32
  let v42 : BitVec 1 := Scalar.cmpi .sgt v40 c0_i32_52
  let v43 : BitVec 32 := Scalar.extui v42
  let c0_i32_53 : BitVec 32 := 0#32
  let v44 : BitVec 1 := Scalar.cmpi .slt v40 c0_i32_53
  let v45 : BitVec 32 := Scalar.extui v44
  let v46 : BitVec 32 := Scalar.subi v43 v45
  let c9_i32 : BitVec 32 := 9#32
  let c0_i32_54 : BitVec 32 := 0#32
  let v47 : BitVec 1 := Scalar.cmpi .sgt c9_i32 c0_i32_54
  let v48 : BitVec 32 := Scalar.extui v47
  let c0_i32_55 : BitVec 32 := 0#32
  let v49 : BitVec 1 := Scalar.cmpi .slt c9_i32 c0_i32_55
  let v50 : BitVec 32 := Scalar.extui v49
  let v51 : BitVec 32 := Scalar.subi v48 v50
  let v52 : BitVec 1 := Scalar.cmpi .ne v46 v51
  let v53 : BitVec 32 := Scalar.remsi v40 c9_i32
  let c0_i32_56 : BitVec 32 := 0#32
  let v54 : BitVec 1 := Scalar.cmpi .ne v53 c0_i32_56
  let v55 : BitVec 1 := Scalar.andi v52 v54
  let v41 : BitVec 32 := Scalar.divsi v40 c9_i32
  let c1_i32_57 : BitVec 32 := 1#32
  let v56 : BitVec 32 := Scalar.subi v41 c1_i32_57
  let v57 : BitVec 32 := Scalar.select v55 v56 v41
  let c0_i32_59 : BitVec 32 := 0#32
  let v59 : BitVec 1 := Scalar.cmpi .sgt v57 c0_i32_59
  let v60 : BitVec 32 := Scalar.extui v59
  let c0_i32_60 : BitVec 32 := 0#32
  let v61 : BitVec 1 := Scalar.cmpi .slt v57 c0_i32_60
  let v62 : BitVec 32 := Scalar.extui v61
  let v63 : BitVec 32 := Scalar.subi v60 v62
  let c8_i32_58 : BitVec 32 := 8#32
  let c0_i32_61 : BitVec 32 := 0#32
  let v64 : BitVec 1 := Scalar.cmpi .sgt c8_i32_58 c0_i32_61
  let v65 : BitVec 32 := Scalar.extui v64
  let c0_i32_62 : BitVec 32 := 0#32
  let v66 : BitVec 1 := Scalar.cmpi .slt c8_i32_58 c0_i32_62
  let v67 : BitVec 32 := Scalar.extui v66
  let v68 : BitVec 32 := Scalar.subi v65 v67
  let v69 : BitVec 1 := Scalar.cmpi .ne v63 v68
  let v70 : BitVec 32 := Scalar.remsi v57 c8_i32_58
  let c0_i32_63 : BitVec 32 := 0#32
  let v71 : BitVec 1 := Scalar.cmpi .ne v70 c0_i32_63
  let v72 : BitVec 1 := Scalar.andi v69 v71
  let v58 : BitVec 32 := Scalar.divsi v57 c8_i32_58
  let c1_i32_64 : BitVec 32 := 1#32
  let v73 : BitVec 32 := Scalar.subi v58 c1_i32_64
  let v74 : BitVec 32 := Scalar.select v72 v73 v58
  let c8_i32_65 : BitVec 32 := 8#32
  let v75 : BitVec 32 := Scalar.muli v74 c8_i32_65
  let c24992_i32 : BitVec 32 := 24992#32
  let v76 : BitVec 32 := Scalar.minsi v75 c24992_i32
  let v77 : BitVec 32 := v76
  let c0_i32_69_r17 : BitVec 32 := 0#32
  ![v77.toNat, 0]
@[reducible] def k1_t14_loop : Scf.Loop 32 :=
  let c0_i32_66 : BitVec 32 := 0#32
  let c4_i32 : BitVec 32 := 4#32
  let v78 : BitVec 32 := Scalar.addi c0_i32_66 c4_i32
  let c1_i32_67 : BitVec 32 := 1#32
  ⟨c0_i32_66, v78, c1_i32_67⟩
def k1_off22 (i : grid1.Coords) (k1_t13 : Fin k1_t13_loop.trips) (k1_t14 : Fin k1_t14_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7168_i32 : BitVec 32 := 7168#32
  let v30 : BitVec 32 := Scalar.muli v1 c7168_i32
  let c0_i32_48 : BitVec 32 := 0#32
  let c1_i32_49 : BitVec 32 := 1#32
  let arg24 : BitVec 32 := Scf.iv c0_i32_48 c1_i32_49 k1_t13
  let c1024_i32 : BitVec 32 := 1024#32
  let v39 : BitVec 32 := Scalar.muli arg24 c1024_i32
  let v40 : BitVec 32 := Scalar.addi v30 v39
  let c0_i32_66 : BitVec 32 := 0#32
  let c1_i32_67 : BitVec 32 := 1#32
  let arg27 : BitVec 32 := Scf.iv c0_i32_66 c1_i32_67 k1_t14
  let c2_i32_69 : BitVec 32 := 2#32
  let v80 : BitVec 32 := Scalar.muli arg27 c2_i32_69
  let c128_i32 : BitVec 32 := 128#32
  let v81 : BitVec 32 := Scalar.muli v80 c128_i32
  let v82 : BitVec 32 := Scalar.addi v40 v81
  ![v82.toNat]
def k1_off23 (i : grid1.Coords) (k1_t13 : Fin k1_t13_loop.trips) (k1_t14 : Fin k1_t14_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7168_i32 : BitVec 32 := 7168#32
  let v30 : BitVec 32 := Scalar.muli v1 c7168_i32
  let c0_i32_48 : BitVec 32 := 0#32
  let c1_i32_49 : BitVec 32 := 1#32
  let arg24 : BitVec 32 := Scf.iv c0_i32_48 c1_i32_49 k1_t13
  let c1024_i32 : BitVec 32 := 1024#32
  let v39 : BitVec 32 := Scalar.muli arg24 c1024_i32
  let v40 : BitVec 32 := Scalar.addi v30 v39
  let c0_i32_66 : BitVec 32 := 0#32
  let c1_i32_67 : BitVec 32 := 1#32
  let arg27 : BitVec 32 := Scf.iv c0_i32_66 c1_i32_67 k1_t14
  let c2_i32_69 : BitVec 32 := 2#32
  let v80 : BitVec 32 := Scalar.muli arg27 c2_i32_69
  let c1_i32_72 : BitVec 32 := 1#32
  let v84 : BitVec 32 := Scalar.addi v80 c1_i32_72
  let c128_i32_73 : BitVec 32 := 128#32
  let v85 : BitVec 32 := Scalar.muli v84 c128_i32_73
  let v86 : BitVec 32 := Scalar.addi v40 v85
  ![v86.toNat]
@[reducible] def k1_t15_loop : Scf.Loop 32 :=
  let c0_i32_78 : BitVec 32 := 0#32
  let c8_i32_79 : BitVec 32 := 8#32
  let v89 : BitVec 32 := Scalar.addi c0_i32_78 c8_i32_79
  let c1_i32_80 : BitVec 32 := 1#32
  ⟨c0_i32_78, v89, c1_i32_80⟩
def k1_off24 (k1_t14 : Fin k1_t14_loop.trips) (k1_t15 : Fin k1_t15_loop.trips) : Fin 1 → Nat :=
  let c0_i32_66 : BitVec 32 := 0#32
  let c1_i32_67 : BitVec 32 := 1#32
  let arg27 : BitVec 32 := Scf.iv c0_i32_66 c1_i32_67 k1_t14
  let c2_i32_69 : BitVec 32 := 2#32
  let v80 : BitVec 32 := Scalar.muli arg27 c2_i32_69
  let c128_i32_90 : BitVec 32 := 128#32
  let v98 : BitVec 32 := Scalar.muli v80 c128_i32_90
  let c0_i32_78 : BitVec 32 := 0#32
  let c1_i32_80 : BitVec 32 := 1#32
  let arg30 : BitVec 32 := Scf.iv c0_i32_78 c1_i32_80 k1_t15
  let c16_i32_91 : BitVec 32 := 16#32
  let v99 : BitVec 32 := Scalar.muli arg30 c16_i32_91
  let v100 : BitVec 32 := Scalar.addi v98 v99
  let v101 : Index := Scalar.indexCast v100
  ![v101.toNat]

def k1_chk163 (v104 : IVec S16 32) (v105 : IVec S16 32) : Prop :=
  (∀ a x, ((![v104, v105] : Fin 2 → IVec S16 32) a x).toNat < S128x128.size a)
instance k1_chk163.dec : ∀ (v104 : IVec S16 32) (v105 : IVec S16 32), Decidable (k1_chk163 v104 v105) := fun v104 v105 => decidable_of_iff' _ (Iff.of_eq (k1_chk163.eq_1 v104 v105))
theorem k1_idx163_inb : ∀ (v104 : IVec S16 32) (v105 : IVec S16 32) (k1_hw163 : k1_chk163 v104 v105), ∀ a x, ((![v104, v105] : Fin 2 → IVec S16 32) a x).toNat < S128x128.size a := fun v104 v105 k1_hw163 => k1_hw163

def k1_chk164 (v104 : IVec S16 32) (v107 : IVec S16 32) : Prop :=
  (∀ a x, ((![v104, v107] : Fin 2 → IVec S16 32) a x).toNat < S128x128.size a)
instance k1_chk164.dec : ∀ (v104 : IVec S16 32) (v107 : IVec S16 32), Decidable (k1_chk164 v104 v107) := fun v104 v107 => decidable_of_iff' _ (Iff.of_eq (k1_chk164.eq_1 v104 v107))
theorem k1_idx164_inb : ∀ (v104 : IVec S16 32) (v107 : IVec S16 32) (k1_hw164 : k1_chk164 v104 v107), ∀ a x, ((![v104, v107] : Fin 2 → IVec S16 32) a x).toNat < S128x128.size a := fun v104 v107 k1_hw164 => k1_hw164

def k1_chk165 (v104 : IVec S16 32) (v109 : IVec S16 32) : Prop :=
  (∀ a x, ((![v104, v109] : Fin 2 → IVec S16 32) a x).toNat < S128x128.size a)
instance k1_chk165.dec : ∀ (v104 : IVec S16 32) (v109 : IVec S16 32), Decidable (k1_chk165 v104 v109) := fun v104 v109 => decidable_of_iff' _ (Iff.of_eq (k1_chk165.eq_1 v104 v109))
theorem k1_idx165_inb : ∀ (v104 : IVec S16 32) (v109 : IVec S16 32) (k1_hw165 : k1_chk165 v104 v109), ∀ a x, ((![v104, v109] : Fin 2 → IVec S16 32) a x).toNat < S128x128.size a := fun v104 v109 k1_hw165 => k1_hw165

def k1_chk166 (v104 : IVec S16 32) (v111 : IVec S16 32) : Prop :=
  (∀ a x, ((![v104, v111] : Fin 2 → IVec S16 32) a x).toNat < S128x128.size a)
instance k1_chk166.dec : ∀ (v104 : IVec S16 32) (v111 : IVec S16 32), Decidable (k1_chk166 v104 v111) := fun v104 v111 => decidable_of_iff' _ (Iff.of_eq (k1_chk166.eq_1 v104 v111))
theorem k1_idx166_inb : ∀ (v104 : IVec S16 32) (v111 : IVec S16 32) (k1_hw166 : k1_chk166 v104 v111), ∀ a x, ((![v104, v111] : Fin 2 → IVec S16 32) a x).toNat < S128x128.size a := fun v104 v111 k1_hw166 => k1_hw166

def k1_chk167 (v104 : IVec S16 32) (v113 : IVec S16 32) : Prop :=
  (∀ a x, ((![v104, v113] : Fin 2 → IVec S16 32) a x).toNat < S128x128.size a)
instance k1_chk167.dec : ∀ (v104 : IVec S16 32) (v113 : IVec S16 32), Decidable (k1_chk167 v104 v113) := fun v104 v113 => decidable_of_iff' _ (Iff.of_eq (k1_chk167.eq_1 v104 v113))
theorem k1_idx167_inb : ∀ (v104 : IVec S16 32) (v113 : IVec S16 32) (k1_hw167 : k1_chk167 v104 v113), ∀ a x, ((![v104, v113] : Fin 2 → IVec S16 32) a x).toNat < S128x128.size a := fun v104 v113 k1_hw167 => k1_hw167

def k1_chk168 (v104 : IVec S16 32) (v115 : IVec S16 32) : Prop :=
  (∀ a x, ((![v104, v115] : Fin 2 → IVec S16 32) a x).toNat < S128x128.size a)
instance k1_chk168.dec : ∀ (v104 : IVec S16 32) (v115 : IVec S16 32), Decidable (k1_chk168 v104 v115) := fun v104 v115 => decidable_of_iff' _ (Iff.of_eq (k1_chk168.eq_1 v104 v115))
theorem k1_idx168_inb : ∀ (v104 : IVec S16 32) (v115 : IVec S16 32) (k1_hw168 : k1_chk168 v104 v115), ∀ a x, ((![v104, v115] : Fin 2 → IVec S16 32) a x).toNat < S128x128.size a := fun v104 v115 k1_hw168 => k1_hw168

def k1_chk169 (v104 : IVec S16 32) (v117 : IVec S16 32) : Prop :=
  (∀ a x, ((![v104, v117] : Fin 2 → IVec S16 32) a x).toNat < S128x128.size a)
instance k1_chk169.dec : ∀ (v104 : IVec S16 32) (v117 : IVec S16 32), Decidable (k1_chk169 v104 v117) := fun v104 v117 => decidable_of_iff' _ (Iff.of_eq (k1_chk169.eq_1 v104 v117))
theorem k1_idx169_inb : ∀ (v104 : IVec S16 32) (v117 : IVec S16 32) (k1_hw169 : k1_chk169 v104 v117), ∀ a x, ((![v104, v117] : Fin 2 → IVec S16 32) a x).toNat < S128x128.size a := fun v104 v117 k1_hw169 => k1_hw169

def k1_chk170 (v104 : IVec S16 32) (v119 : IVec S16 32) : Prop :=
  (∀ a x, ((![v104, v119] : Fin 2 → IVec S16 32) a x).toNat < S128x128.size a)
instance k1_chk170.dec : ∀ (v104 : IVec S16 32) (v119 : IVec S16 32), Decidable (k1_chk170 v104 v119) := fun v104 v119 => decidable_of_iff' _ (Iff.of_eq (k1_chk170.eq_1 v104 v119))
theorem k1_idx170_inb : ∀ (v104 : IVec S16 32) (v119 : IVec S16 32) (k1_hw170 : k1_chk170 v104 v119), ∀ a x, ((![v104, v119] : Fin 2 → IVec S16 32) a x).toNat < S128x128.size a := fun v104 v119 k1_hw170 => k1_hw170

def k1_chk171 (v104 : IVec S16 32) (v121 : IVec S16 32) : Prop :=
  (∀ a x, ((![v104, v121] : Fin 2 → IVec S16 32) a x).toNat < S128x128.size a)
instance k1_chk171.dec : ∀ (v104 : IVec S16 32) (v121 : IVec S16 32), Decidable (k1_chk171 v104 v121) := fun v104 v121 => decidable_of_iff' _ (Iff.of_eq (k1_chk171.eq_1 v104 v121))
theorem k1_idx171_inb : ∀ (v104 : IVec S16 32) (v121 : IVec S16 32) (k1_hw171 : k1_chk171 v104 v121), ∀ a x, ((![v104, v121] : Fin 2 → IVec S16 32) a x).toNat < S128x128.size a := fun v104 v121 k1_hw171 => k1_hw171

def k1_chk172 (v104 : IVec S16 32) (v123 : IVec S16 32) : Prop :=
  (∀ a x, ((![v104, v123] : Fin 2 → IVec S16 32) a x).toNat < S128x128.size a)
instance k1_chk172.dec : ∀ (v104 : IVec S16 32) (v123 : IVec S16 32), Decidable (k1_chk172 v104 v123) := fun v104 v123 => decidable_of_iff' _ (Iff.of_eq (k1_chk172.eq_1 v104 v123))
theorem k1_idx172_inb : ∀ (v104 : IVec S16 32) (v123 : IVec S16 32) (k1_hw172 : k1_chk172 v104 v123), ∀ a x, ((![v104, v123] : Fin 2 → IVec S16 32) a x).toNat < S128x128.size a := fun v104 v123 k1_hw172 => k1_hw172

def k1_chk173 (v104 : IVec S16 32) (v125 : IVec S16 32) : Prop :=
  (∀ a x, ((![v104, v125] : Fin 2 → IVec S16 32) a x).toNat < S128x128.size a)
instance k1_chk173.dec : ∀ (v104 : IVec S16 32) (v125 : IVec S16 32), Decidable (k1_chk173 v104 v125) := fun v104 v125 => decidable_of_iff' _ (Iff.of_eq (k1_chk173.eq_1 v104 v125))
theorem k1_idx173_inb : ∀ (v104 : IVec S16 32) (v125 : IVec S16 32) (k1_hw173 : k1_chk173 v104 v125), ∀ a x, ((![v104, v125] : Fin 2 → IVec S16 32) a x).toNat < S128x128.size a := fun v104 v125 k1_hw173 => k1_hw173

def k1_chk174 (v104 : IVec S16 32) (v127 : IVec S16 32) : Prop :=
  (∀ a x, ((![v104, v127] : Fin 2 → IVec S16 32) a x).toNat < S128x128.size a)
instance k1_chk174.dec : ∀ (v104 : IVec S16 32) (v127 : IVec S16 32), Decidable (k1_chk174 v104 v127) := fun v104 v127 => decidable_of_iff' _ (Iff.of_eq (k1_chk174.eq_1 v104 v127))
theorem k1_idx174_inb : ∀ (v104 : IVec S16 32) (v127 : IVec S16 32) (k1_hw174 : k1_chk174 v104 v127), ∀ a x, ((![v104, v127] : Fin 2 → IVec S16 32) a x).toNat < S128x128.size a := fun v104 v127 k1_hw174 => k1_hw174

def k1_chk175 (v104 : IVec S16 32) (v129 : IVec S16 32) : Prop :=
  (∀ a x, ((![v104, v129] : Fin 2 → IVec S16 32) a x).toNat < S128x128.size a)
instance k1_chk175.dec : ∀ (v104 : IVec S16 32) (v129 : IVec S16 32), Decidable (k1_chk175 v104 v129) := fun v104 v129 => decidable_of_iff' _ (Iff.of_eq (k1_chk175.eq_1 v104 v129))
theorem k1_idx175_inb : ∀ (v104 : IVec S16 32) (v129 : IVec S16 32) (k1_hw175 : k1_chk175 v104 v129), ∀ a x, ((![v104, v129] : Fin 2 → IVec S16 32) a x).toNat < S128x128.size a := fun v104 v129 k1_hw175 => k1_hw175

def k1_chk176 (v104 : IVec S16 32) (v131 : IVec S16 32) : Prop :=
  (∀ a x, ((![v104, v131] : Fin 2 → IVec S16 32) a x).toNat < S128x128.size a)
instance k1_chk176.dec : ∀ (v104 : IVec S16 32) (v131 : IVec S16 32), Decidable (k1_chk176 v104 v131) := fun v104 v131 => decidable_of_iff' _ (Iff.of_eq (k1_chk176.eq_1 v104 v131))
theorem k1_idx176_inb : ∀ (v104 : IVec S16 32) (v131 : IVec S16 32) (k1_hw176 : k1_chk176 v104 v131), ∀ a x, ((![v104, v131] : Fin 2 → IVec S16 32) a x).toNat < S128x128.size a := fun v104 v131 k1_hw176 => k1_hw176

def k1_chk177 (v104 : IVec S16 32) (v133 : IVec S16 32) : Prop :=
  (∀ a x, ((![v104, v133] : Fin 2 → IVec S16 32) a x).toNat < S128x128.size a)
instance k1_chk177.dec : ∀ (v104 : IVec S16 32) (v133 : IVec S16 32), Decidable (k1_chk177 v104 v133) := fun v104 v133 => decidable_of_iff' _ (Iff.of_eq (k1_chk177.eq_1 v104 v133))
theorem k1_idx177_inb : ∀ (v104 : IVec S16 32) (v133 : IVec S16 32) (k1_hw177 : k1_chk177 v104 v133), ∀ a x, ((![v104, v133] : Fin 2 → IVec S16 32) a x).toNat < S128x128.size a := fun v104 v133 k1_hw177 => k1_hw177

def k1_chk178 (v97 : IVec S16 32) (v135 : IVec S16 32) : Prop :=
  (∀ a x, ((![v97, v135] : Fin 2 → IVec S16 32) a x).toNat < S128x128.size a)
instance k1_chk178.dec : ∀ (v97 : IVec S16 32) (v135 : IVec S16 32), Decidable (k1_chk178 v97 v135) := fun v97 v135 => decidable_of_iff' _ (Iff.of_eq (k1_chk178.eq_1 v97 v135))
theorem k1_idx178_inb : ∀ (v97 : IVec S16 32) (v135 : IVec S16 32) (k1_hw178 : k1_chk178 v97 v135), ∀ a x, ((![v97, v135] : Fin 2 → IVec S16 32) a x).toNat < S128x128.size a := fun v97 v135 k1_hw178 => k1_hw178

def k1_chk179 (v97 : IVec S16 32) (v137 : IVec S16 32) : Prop :=
  (∀ a x, ((![v97, v137] : Fin 2 → IVec S16 32) a x).toNat < S128x128.size a)
instance k1_chk179.dec : ∀ (v97 : IVec S16 32) (v137 : IVec S16 32), Decidable (k1_chk179 v97 v137) := fun v97 v137 => decidable_of_iff' _ (Iff.of_eq (k1_chk179.eq_1 v97 v137))
theorem k1_idx179_inb : ∀ (v97 : IVec S16 32) (v137 : IVec S16 32) (k1_hw179 : k1_chk179 v97 v137), ∀ a x, ((![v97, v137] : Fin 2 → IVec S16 32) a x).toNat < S128x128.size a := fun v97 v137 k1_hw179 => k1_hw179

def k1_chk180 (v97 : IVec S16 32) (v139 : IVec S16 32) : Prop :=
  (∀ a x, ((![v97, v139] : Fin 2 → IVec S16 32) a x).toNat < S128x128.size a)
instance k1_chk180.dec : ∀ (v97 : IVec S16 32) (v139 : IVec S16 32), Decidable (k1_chk180 v97 v139) := fun v97 v139 => decidable_of_iff' _ (Iff.of_eq (k1_chk180.eq_1 v97 v139))
theorem k1_idx180_inb : ∀ (v97 : IVec S16 32) (v139 : IVec S16 32) (k1_hw180 : k1_chk180 v97 v139), ∀ a x, ((![v97, v139] : Fin 2 → IVec S16 32) a x).toNat < S128x128.size a := fun v97 v139 k1_hw180 => k1_hw180

def k1_chk181 (v97 : IVec S16 32) (v141 : IVec S16 32) : Prop :=
  (∀ a x, ((![v97, v141] : Fin 2 → IVec S16 32) a x).toNat < S128x128.size a)
instance k1_chk181.dec : ∀ (v97 : IVec S16 32) (v141 : IVec S16 32), Decidable (k1_chk181 v97 v141) := fun v97 v141 => decidable_of_iff' _ (Iff.of_eq (k1_chk181.eq_1 v97 v141))
theorem k1_idx181_inb : ∀ (v97 : IVec S16 32) (v141 : IVec S16 32) (k1_hw181 : k1_chk181 v97 v141), ∀ a x, ((![v97, v141] : Fin 2 → IVec S16 32) a x).toNat < S128x128.size a := fun v97 v141 k1_hw181 => k1_hw181

def k1_chk182 (v97 : IVec S16 32) (v143 : IVec S16 32) : Prop :=
  (∀ a x, ((![v97, v143] : Fin 2 → IVec S16 32) a x).toNat < S128x128.size a)
instance k1_chk182.dec : ∀ (v97 : IVec S16 32) (v143 : IVec S16 32), Decidable (k1_chk182 v97 v143) := fun v97 v143 => decidable_of_iff' _ (Iff.of_eq (k1_chk182.eq_1 v97 v143))
theorem k1_idx182_inb : ∀ (v97 : IVec S16 32) (v143 : IVec S16 32) (k1_hw182 : k1_chk182 v97 v143), ∀ a x, ((![v97, v143] : Fin 2 → IVec S16 32) a x).toNat < S128x128.size a := fun v97 v143 k1_hw182 => k1_hw182

def k1_chk183 (v97 : IVec S16 32) (v145 : IVec S16 32) : Prop :=
  (∀ a x, ((![v97, v145] : Fin 2 → IVec S16 32) a x).toNat < S128x128.size a)
instance k1_chk183.dec : ∀ (v97 : IVec S16 32) (v145 : IVec S16 32), Decidable (k1_chk183 v97 v145) := fun v97 v145 => decidable_of_iff' _ (Iff.of_eq (k1_chk183.eq_1 v97 v145))
theorem k1_idx183_inb : ∀ (v97 : IVec S16 32) (v145 : IVec S16 32) (k1_hw183 : k1_chk183 v97 v145), ∀ a x, ((![v97, v145] : Fin 2 → IVec S16 32) a x).toNat < S128x128.size a := fun v97 v145 k1_hw183 => k1_hw183

def k1_chk184 (v97 : IVec S16 32) (v147 : IVec S16 32) : Prop :=
  (∀ a x, ((![v97, v147] : Fin 2 → IVec S16 32) a x).toNat < S128x128.size a)
instance k1_chk184.dec : ∀ (v97 : IVec S16 32) (v147 : IVec S16 32), Decidable (k1_chk184 v97 v147) := fun v97 v147 => decidable_of_iff' _ (Iff.of_eq (k1_chk184.eq_1 v97 v147))
theorem k1_idx184_inb : ∀ (v97 : IVec S16 32) (v147 : IVec S16 32) (k1_hw184 : k1_chk184 v97 v147), ∀ a x, ((![v97, v147] : Fin 2 → IVec S16 32) a x).toNat < S128x128.size a := fun v97 v147 k1_hw184 => k1_hw184

def k1_chk185 (v97 : IVec S16 32) (v149 : IVec S16 32) : Prop :=
  (∀ a x, ((![v97, v149] : Fin 2 → IVec S16 32) a x).toNat < S128x128.size a)
instance k1_chk185.dec : ∀ (v97 : IVec S16 32) (v149 : IVec S16 32), Decidable (k1_chk185 v97 v149) := fun v97 v149 => decidable_of_iff' _ (Iff.of_eq (k1_chk185.eq_1 v97 v149))
theorem k1_idx185_inb : ∀ (v97 : IVec S16 32) (v149 : IVec S16 32) (k1_hw185 : k1_chk185 v97 v149), ∀ a x, ((![v97, v149] : Fin 2 → IVec S16 32) a x).toNat < S128x128.size a := fun v97 v149 k1_hw185 => k1_hw185

def k1_chk186 (v97 : IVec S16 32) (v151 : IVec S16 32) : Prop :=
  (∀ a x, ((![v97, v151] : Fin 2 → IVec S16 32) a x).toNat < S128x128.size a)
instance k1_chk186.dec : ∀ (v97 : IVec S16 32) (v151 : IVec S16 32), Decidable (k1_chk186 v97 v151) := fun v97 v151 => decidable_of_iff' _ (Iff.of_eq (k1_chk186.eq_1 v97 v151))
theorem k1_idx186_inb : ∀ (v97 : IVec S16 32) (v151 : IVec S16 32) (k1_hw186 : k1_chk186 v97 v151), ∀ a x, ((![v97, v151] : Fin 2 → IVec S16 32) a x).toNat < S128x128.size a := fun v97 v151 k1_hw186 => k1_hw186

def k1_chk187 (v97 : IVec S16 32) (v153 : IVec S16 32) : Prop :=
  (∀ a x, ((![v97, v153] : Fin 2 → IVec S16 32) a x).toNat < S128x128.size a)
instance k1_chk187.dec : ∀ (v97 : IVec S16 32) (v153 : IVec S16 32), Decidable (k1_chk187 v97 v153) := fun v97 v153 => decidable_of_iff' _ (Iff.of_eq (k1_chk187.eq_1 v97 v153))
theorem k1_idx187_inb : ∀ (v97 : IVec S16 32) (v153 : IVec S16 32) (k1_hw187 : k1_chk187 v97 v153), ∀ a x, ((![v97, v153] : Fin 2 → IVec S16 32) a x).toNat < S128x128.size a := fun v97 v153 k1_hw187 => k1_hw187

def k1_chk188 (v97 : IVec S16 32) (v155 : IVec S16 32) : Prop :=
  (∀ a x, ((![v97, v155] : Fin 2 → IVec S16 32) a x).toNat < S128x128.size a)
instance k1_chk188.dec : ∀ (v97 : IVec S16 32) (v155 : IVec S16 32), Decidable (k1_chk188 v97 v155) := fun v97 v155 => decidable_of_iff' _ (Iff.of_eq (k1_chk188.eq_1 v97 v155))
theorem k1_idx188_inb : ∀ (v97 : IVec S16 32) (v155 : IVec S16 32) (k1_hw188 : k1_chk188 v97 v155), ∀ a x, ((![v97, v155] : Fin 2 → IVec S16 32) a x).toNat < S128x128.size a := fun v97 v155 k1_hw188 => k1_hw188

def k1_chk189 (v97 : IVec S16 32) (v157 : IVec S16 32) : Prop :=
  (∀ a x, ((![v97, v157] : Fin 2 → IVec S16 32) a x).toNat < S128x128.size a)
instance k1_chk189.dec : ∀ (v97 : IVec S16 32) (v157 : IVec S16 32), Decidable (k1_chk189 v97 v157) := fun v97 v157 => decidable_of_iff' _ (Iff.of_eq (k1_chk189.eq_1 v97 v157))
theorem k1_idx189_inb : ∀ (v97 : IVec S16 32) (v157 : IVec S16 32) (k1_hw189 : k1_chk189 v97 v157), ∀ a x, ((![v97, v157] : Fin 2 → IVec S16 32) a x).toNat < S128x128.size a := fun v97 v157 k1_hw189 => k1_hw189

def k1_chk190 (v97 : IVec S16 32) (v159 : IVec S16 32) : Prop :=
  (∀ a x, ((![v97, v159] : Fin 2 → IVec S16 32) a x).toNat < S128x128.size a)
instance k1_chk190.dec : ∀ (v97 : IVec S16 32) (v159 : IVec S16 32), Decidable (k1_chk190 v97 v159) := fun v97 v159 => decidable_of_iff' _ (Iff.of_eq (k1_chk190.eq_1 v97 v159))
theorem k1_idx190_inb : ∀ (v97 : IVec S16 32) (v159 : IVec S16 32) (k1_hw190 : k1_chk190 v97 v159), ∀ a x, ((![v97, v159] : Fin 2 → IVec S16 32) a x).toNat < S128x128.size a := fun v97 v159 k1_hw190 => k1_hw190

def k1_chk191 (v97 : IVec S16 32) (v161 : IVec S16 32) : Prop :=
  (∀ a x, ((![v97, v161] : Fin 2 → IVec S16 32) a x).toNat < S128x128.size a)
instance k1_chk191.dec : ∀ (v97 : IVec S16 32) (v161 : IVec S16 32), Decidable (k1_chk191 v97 v161) := fun v97 v161 => decidable_of_iff' _ (Iff.of_eq (k1_chk191.eq_1 v97 v161))
theorem k1_idx191_inb : ∀ (v97 : IVec S16 32) (v161 : IVec S16 32) (k1_hw191 : k1_chk191 v97 v161), ∀ a x, ((![v97, v161] : Fin 2 → IVec S16 32) a x).toNat < S128x128.size a := fun v97 v161 k1_hw191 => k1_hw191

def k1_chk192 (v97 : IVec S16 32) (v163 : IVec S16 32) : Prop :=
  (∀ a x, ((![v97, v163] : Fin 2 → IVec S16 32) a x).toNat < S128x128.size a)
instance k1_chk192.dec : ∀ (v97 : IVec S16 32) (v163 : IVec S16 32), Decidable (k1_chk192 v97 v163) := fun v97 v163 => decidable_of_iff' _ (Iff.of_eq (k1_chk192.eq_1 v97 v163))
theorem k1_idx192_inb : ∀ (v97 : IVec S16 32) (v163 : IVec S16 32) (k1_hw192 : k1_chk192 v97 v163), ∀ a x, ((![v97, v163] : Fin 2 → IVec S16 32) a x).toNat < S128x128.size a := fun v97 v163 k1_hw192 => k1_hw192
@[reducible] def k1_t16_loop : Scf.Loop 32 :=
  let c0_i32_85 : BitVec 32 := 0#32
  let c8_i32_86 : BitVec 32 := 8#32
  let v93 : BitVec 32 := Scalar.addi c0_i32_85 c8_i32_86
  let c1_i32_87 : BitVec 32 := 1#32
  ⟨c0_i32_85, v93, c1_i32_87⟩
def k1_off25 (k1_t14 : Fin k1_t14_loop.trips) (k1_t16 : Fin k1_t16_loop.trips) : Fin 1 → Nat :=
  let c0_i32_66 : BitVec 32 := 0#32
  let c1_i32_67 : BitVec 32 := 1#32
  let arg27 : BitVec 32 := Scf.iv c0_i32_66 c1_i32_67 k1_t14
  let c2_i32_69 : BitVec 32 := 2#32
  let v80 : BitVec 32 := Scalar.muli arg27 c2_i32_69
  let c1_i32_84 : BitVec 32 := 1#32
  let v92 : BitVec 32 := Scalar.addi v80 c1_i32_84
  let c128_i32_90 : BitVec 32 := 128#32
  let v98 : BitVec 32 := Scalar.muli v92 c128_i32_90
  let c0_i32_85 : BitVec 32 := 0#32
  let c1_i32_87 : BitVec 32 := 1#32
  let arg30 : BitVec 32 := Scf.iv c0_i32_85 c1_i32_87 k1_t16
  let c16_i32_91 : BitVec 32 := 16#32
  let v99 : BitVec 32 := Scalar.muli arg30 c16_i32_91
  let v100 : BitVec 32 := Scalar.addi v98 v99
  let v101 : Index := Scalar.indexCast v100
  ![v101.toNat]

def k1_chk193 (v104 : IVec S16 32) (v105 : IVec S16 32) : Prop :=
  (∀ a x, ((![v104, v105] : Fin 2 → IVec S16 32) a x).toNat < S128x128.size a)
instance k1_chk193.dec : ∀ (v104 : IVec S16 32) (v105 : IVec S16 32), Decidable (k1_chk193 v104 v105) := fun v104 v105 => decidable_of_iff' _ (Iff.of_eq (k1_chk193.eq_1 v104 v105))
theorem k1_idx193_inb : ∀ (v104 : IVec S16 32) (v105 : IVec S16 32) (k1_hw193 : k1_chk193 v104 v105), ∀ a x, ((![v104, v105] : Fin 2 → IVec S16 32) a x).toNat < S128x128.size a := fun v104 v105 k1_hw193 => k1_hw193

def k1_chk194 (v104 : IVec S16 32) (v107 : IVec S16 32) : Prop :=
  (∀ a x, ((![v104, v107] : Fin 2 → IVec S16 32) a x).toNat < S128x128.size a)
instance k1_chk194.dec : ∀ (v104 : IVec S16 32) (v107 : IVec S16 32), Decidable (k1_chk194 v104 v107) := fun v104 v107 => decidable_of_iff' _ (Iff.of_eq (k1_chk194.eq_1 v104 v107))
theorem k1_idx194_inb : ∀ (v104 : IVec S16 32) (v107 : IVec S16 32) (k1_hw194 : k1_chk194 v104 v107), ∀ a x, ((![v104, v107] : Fin 2 → IVec S16 32) a x).toNat < S128x128.size a := fun v104 v107 k1_hw194 => k1_hw194

def k1_chk195 (v104 : IVec S16 32) (v109 : IVec S16 32) : Prop :=
  (∀ a x, ((![v104, v109] : Fin 2 → IVec S16 32) a x).toNat < S128x128.size a)
instance k1_chk195.dec : ∀ (v104 : IVec S16 32) (v109 : IVec S16 32), Decidable (k1_chk195 v104 v109) := fun v104 v109 => decidable_of_iff' _ (Iff.of_eq (k1_chk195.eq_1 v104 v109))
theorem k1_idx195_inb : ∀ (v104 : IVec S16 32) (v109 : IVec S16 32) (k1_hw195 : k1_chk195 v104 v109), ∀ a x, ((![v104, v109] : Fin 2 → IVec S16 32) a x).toNat < S128x128.size a := fun v104 v109 k1_hw195 => k1_hw195

def k1_chk196 (v104 : IVec S16 32) (v111 : IVec S16 32) : Prop :=
  (∀ a x, ((![v104, v111] : Fin 2 → IVec S16 32) a x).toNat < S128x128.size a)
instance k1_chk196.dec : ∀ (v104 : IVec S16 32) (v111 : IVec S16 32), Decidable (k1_chk196 v104 v111) := fun v104 v111 => decidable_of_iff' _ (Iff.of_eq (k1_chk196.eq_1 v104 v111))
theorem k1_idx196_inb : ∀ (v104 : IVec S16 32) (v111 : IVec S16 32) (k1_hw196 : k1_chk196 v104 v111), ∀ a x, ((![v104, v111] : Fin 2 → IVec S16 32) a x).toNat < S128x128.size a := fun v104 v111 k1_hw196 => k1_hw196

def k1_chk197 (v104 : IVec S16 32) (v113 : IVec S16 32) : Prop :=
  (∀ a x, ((![v104, v113] : Fin 2 → IVec S16 32) a x).toNat < S128x128.size a)
instance k1_chk197.dec : ∀ (v104 : IVec S16 32) (v113 : IVec S16 32), Decidable (k1_chk197 v104 v113) := fun v104 v113 => decidable_of_iff' _ (Iff.of_eq (k1_chk197.eq_1 v104 v113))
theorem k1_idx197_inb : ∀ (v104 : IVec S16 32) (v113 : IVec S16 32) (k1_hw197 : k1_chk197 v104 v113), ∀ a x, ((![v104, v113] : Fin 2 → IVec S16 32) a x).toNat < S128x128.size a := fun v104 v113 k1_hw197 => k1_hw197

def k1_chk198 (v104 : IVec S16 32) (v115 : IVec S16 32) : Prop :=
  (∀ a x, ((![v104, v115] : Fin 2 → IVec S16 32) a x).toNat < S128x128.size a)
instance k1_chk198.dec : ∀ (v104 : IVec S16 32) (v115 : IVec S16 32), Decidable (k1_chk198 v104 v115) := fun v104 v115 => decidable_of_iff' _ (Iff.of_eq (k1_chk198.eq_1 v104 v115))
theorem k1_idx198_inb : ∀ (v104 : IVec S16 32) (v115 : IVec S16 32) (k1_hw198 : k1_chk198 v104 v115), ∀ a x, ((![v104, v115] : Fin 2 → IVec S16 32) a x).toNat < S128x128.size a := fun v104 v115 k1_hw198 => k1_hw198

def k1_chk199 (v104 : IVec S16 32) (v117 : IVec S16 32) : Prop :=
  (∀ a x, ((![v104, v117] : Fin 2 → IVec S16 32) a x).toNat < S128x128.size a)
instance k1_chk199.dec : ∀ (v104 : IVec S16 32) (v117 : IVec S16 32), Decidable (k1_chk199 v104 v117) := fun v104 v117 => decidable_of_iff' _ (Iff.of_eq (k1_chk199.eq_1 v104 v117))
theorem k1_idx199_inb : ∀ (v104 : IVec S16 32) (v117 : IVec S16 32) (k1_hw199 : k1_chk199 v104 v117), ∀ a x, ((![v104, v117] : Fin 2 → IVec S16 32) a x).toNat < S128x128.size a := fun v104 v117 k1_hw199 => k1_hw199

def k1_chk200 (v104 : IVec S16 32) (v119 : IVec S16 32) : Prop :=
  (∀ a x, ((![v104, v119] : Fin 2 → IVec S16 32) a x).toNat < S128x128.size a)
instance k1_chk200.dec : ∀ (v104 : IVec S16 32) (v119 : IVec S16 32), Decidable (k1_chk200 v104 v119) := fun v104 v119 => decidable_of_iff' _ (Iff.of_eq (k1_chk200.eq_1 v104 v119))
theorem k1_idx200_inb : ∀ (v104 : IVec S16 32) (v119 : IVec S16 32) (k1_hw200 : k1_chk200 v104 v119), ∀ a x, ((![v104, v119] : Fin 2 → IVec S16 32) a x).toNat < S128x128.size a := fun v104 v119 k1_hw200 => k1_hw200

def k1_chk201 (v104 : IVec S16 32) (v121 : IVec S16 32) : Prop :=
  (∀ a x, ((![v104, v121] : Fin 2 → IVec S16 32) a x).toNat < S128x128.size a)
instance k1_chk201.dec : ∀ (v104 : IVec S16 32) (v121 : IVec S16 32), Decidable (k1_chk201 v104 v121) := fun v104 v121 => decidable_of_iff' _ (Iff.of_eq (k1_chk201.eq_1 v104 v121))
theorem k1_idx201_inb : ∀ (v104 : IVec S16 32) (v121 : IVec S16 32) (k1_hw201 : k1_chk201 v104 v121), ∀ a x, ((![v104, v121] : Fin 2 → IVec S16 32) a x).toNat < S128x128.size a := fun v104 v121 k1_hw201 => k1_hw201

def k1_chk202 (v104 : IVec S16 32) (v123 : IVec S16 32) : Prop :=
  (∀ a x, ((![v104, v123] : Fin 2 → IVec S16 32) a x).toNat < S128x128.size a)
instance k1_chk202.dec : ∀ (v104 : IVec S16 32) (v123 : IVec S16 32), Decidable (k1_chk202 v104 v123) := fun v104 v123 => decidable_of_iff' _ (Iff.of_eq (k1_chk202.eq_1 v104 v123))
theorem k1_idx202_inb : ∀ (v104 : IVec S16 32) (v123 : IVec S16 32) (k1_hw202 : k1_chk202 v104 v123), ∀ a x, ((![v104, v123] : Fin 2 → IVec S16 32) a x).toNat < S128x128.size a := fun v104 v123 k1_hw202 => k1_hw202

def k1_chk203 (v104 : IVec S16 32) (v125 : IVec S16 32) : Prop :=
  (∀ a x, ((![v104, v125] : Fin 2 → IVec S16 32) a x).toNat < S128x128.size a)
instance k1_chk203.dec : ∀ (v104 : IVec S16 32) (v125 : IVec S16 32), Decidable (k1_chk203 v104 v125) := fun v104 v125 => decidable_of_iff' _ (Iff.of_eq (k1_chk203.eq_1 v104 v125))
theorem k1_idx203_inb : ∀ (v104 : IVec S16 32) (v125 : IVec S16 32) (k1_hw203 : k1_chk203 v104 v125), ∀ a x, ((![v104, v125] : Fin 2 → IVec S16 32) a x).toNat < S128x128.size a := fun v104 v125 k1_hw203 => k1_hw203

def k1_chk204 (v104 : IVec S16 32) (v127 : IVec S16 32) : Prop :=
  (∀ a x, ((![v104, v127] : Fin 2 → IVec S16 32) a x).toNat < S128x128.size a)
instance k1_chk204.dec : ∀ (v104 : IVec S16 32) (v127 : IVec S16 32), Decidable (k1_chk204 v104 v127) := fun v104 v127 => decidable_of_iff' _ (Iff.of_eq (k1_chk204.eq_1 v104 v127))
theorem k1_idx204_inb : ∀ (v104 : IVec S16 32) (v127 : IVec S16 32) (k1_hw204 : k1_chk204 v104 v127), ∀ a x, ((![v104, v127] : Fin 2 → IVec S16 32) a x).toNat < S128x128.size a := fun v104 v127 k1_hw204 => k1_hw204

def k1_chk205 (v104 : IVec S16 32) (v129 : IVec S16 32) : Prop :=
  (∀ a x, ((![v104, v129] : Fin 2 → IVec S16 32) a x).toNat < S128x128.size a)
instance k1_chk205.dec : ∀ (v104 : IVec S16 32) (v129 : IVec S16 32), Decidable (k1_chk205 v104 v129) := fun v104 v129 => decidable_of_iff' _ (Iff.of_eq (k1_chk205.eq_1 v104 v129))
theorem k1_idx205_inb : ∀ (v104 : IVec S16 32) (v129 : IVec S16 32) (k1_hw205 : k1_chk205 v104 v129), ∀ a x, ((![v104, v129] : Fin 2 → IVec S16 32) a x).toNat < S128x128.size a := fun v104 v129 k1_hw205 => k1_hw205

def k1_chk206 (v104 : IVec S16 32) (v131 : IVec S16 32) : Prop :=
  (∀ a x, ((![v104, v131] : Fin 2 → IVec S16 32) a x).toNat < S128x128.size a)
instance k1_chk206.dec : ∀ (v104 : IVec S16 32) (v131 : IVec S16 32), Decidable (k1_chk206 v104 v131) := fun v104 v131 => decidable_of_iff' _ (Iff.of_eq (k1_chk206.eq_1 v104 v131))
theorem k1_idx206_inb : ∀ (v104 : IVec S16 32) (v131 : IVec S16 32) (k1_hw206 : k1_chk206 v104 v131), ∀ a x, ((![v104, v131] : Fin 2 → IVec S16 32) a x).toNat < S128x128.size a := fun v104 v131 k1_hw206 => k1_hw206

def k1_chk207 (v104 : IVec S16 32) (v133 : IVec S16 32) : Prop :=
  (∀ a x, ((![v104, v133] : Fin 2 → IVec S16 32) a x).toNat < S128x128.size a)
instance k1_chk207.dec : ∀ (v104 : IVec S16 32) (v133 : IVec S16 32), Decidable (k1_chk207 v104 v133) := fun v104 v133 => decidable_of_iff' _ (Iff.of_eq (k1_chk207.eq_1 v104 v133))
theorem k1_idx207_inb : ∀ (v104 : IVec S16 32) (v133 : IVec S16 32) (k1_hw207 : k1_chk207 v104 v133), ∀ a x, ((![v104, v133] : Fin 2 → IVec S16 32) a x).toNat < S128x128.size a := fun v104 v133 k1_hw207 => k1_hw207

def k1_chk208 (v97 : IVec S16 32) (v135 : IVec S16 32) : Prop :=
  (∀ a x, ((![v97, v135] : Fin 2 → IVec S16 32) a x).toNat < S128x128.size a)
instance k1_chk208.dec : ∀ (v97 : IVec S16 32) (v135 : IVec S16 32), Decidable (k1_chk208 v97 v135) := fun v97 v135 => decidable_of_iff' _ (Iff.of_eq (k1_chk208.eq_1 v97 v135))
theorem k1_idx208_inb : ∀ (v97 : IVec S16 32) (v135 : IVec S16 32) (k1_hw208 : k1_chk208 v97 v135), ∀ a x, ((![v97, v135] : Fin 2 → IVec S16 32) a x).toNat < S128x128.size a := fun v97 v135 k1_hw208 => k1_hw208

def k1_chk209 (v97 : IVec S16 32) (v137 : IVec S16 32) : Prop :=
  (∀ a x, ((![v97, v137] : Fin 2 → IVec S16 32) a x).toNat < S128x128.size a)
instance k1_chk209.dec : ∀ (v97 : IVec S16 32) (v137 : IVec S16 32), Decidable (k1_chk209 v97 v137) := fun v97 v137 => decidable_of_iff' _ (Iff.of_eq (k1_chk209.eq_1 v97 v137))
theorem k1_idx209_inb : ∀ (v97 : IVec S16 32) (v137 : IVec S16 32) (k1_hw209 : k1_chk209 v97 v137), ∀ a x, ((![v97, v137] : Fin 2 → IVec S16 32) a x).toNat < S128x128.size a := fun v97 v137 k1_hw209 => k1_hw209

def k1_chk210 (v97 : IVec S16 32) (v139 : IVec S16 32) : Prop :=
  (∀ a x, ((![v97, v139] : Fin 2 → IVec S16 32) a x).toNat < S128x128.size a)
instance k1_chk210.dec : ∀ (v97 : IVec S16 32) (v139 : IVec S16 32), Decidable (k1_chk210 v97 v139) := fun v97 v139 => decidable_of_iff' _ (Iff.of_eq (k1_chk210.eq_1 v97 v139))
theorem k1_idx210_inb : ∀ (v97 : IVec S16 32) (v139 : IVec S16 32) (k1_hw210 : k1_chk210 v97 v139), ∀ a x, ((![v97, v139] : Fin 2 → IVec S16 32) a x).toNat < S128x128.size a := fun v97 v139 k1_hw210 => k1_hw210

def k1_chk211 (v97 : IVec S16 32) (v141 : IVec S16 32) : Prop :=
  (∀ a x, ((![v97, v141] : Fin 2 → IVec S16 32) a x).toNat < S128x128.size a)
instance k1_chk211.dec : ∀ (v97 : IVec S16 32) (v141 : IVec S16 32), Decidable (k1_chk211 v97 v141) := fun v97 v141 => decidable_of_iff' _ (Iff.of_eq (k1_chk211.eq_1 v97 v141))
theorem k1_idx211_inb : ∀ (v97 : IVec S16 32) (v141 : IVec S16 32) (k1_hw211 : k1_chk211 v97 v141), ∀ a x, ((![v97, v141] : Fin 2 → IVec S16 32) a x).toNat < S128x128.size a := fun v97 v141 k1_hw211 => k1_hw211

def k1_chk212 (v97 : IVec S16 32) (v143 : IVec S16 32) : Prop :=
  (∀ a x, ((![v97, v143] : Fin 2 → IVec S16 32) a x).toNat < S128x128.size a)
instance k1_chk212.dec : ∀ (v97 : IVec S16 32) (v143 : IVec S16 32), Decidable (k1_chk212 v97 v143) := fun v97 v143 => decidable_of_iff' _ (Iff.of_eq (k1_chk212.eq_1 v97 v143))
theorem k1_idx212_inb : ∀ (v97 : IVec S16 32) (v143 : IVec S16 32) (k1_hw212 : k1_chk212 v97 v143), ∀ a x, ((![v97, v143] : Fin 2 → IVec S16 32) a x).toNat < S128x128.size a := fun v97 v143 k1_hw212 => k1_hw212

def k1_chk213 (v97 : IVec S16 32) (v145 : IVec S16 32) : Prop :=
  (∀ a x, ((![v97, v145] : Fin 2 → IVec S16 32) a x).toNat < S128x128.size a)
instance k1_chk213.dec : ∀ (v97 : IVec S16 32) (v145 : IVec S16 32), Decidable (k1_chk213 v97 v145) := fun v97 v145 => decidable_of_iff' _ (Iff.of_eq (k1_chk213.eq_1 v97 v145))
theorem k1_idx213_inb : ∀ (v97 : IVec S16 32) (v145 : IVec S16 32) (k1_hw213 : k1_chk213 v97 v145), ∀ a x, ((![v97, v145] : Fin 2 → IVec S16 32) a x).toNat < S128x128.size a := fun v97 v145 k1_hw213 => k1_hw213

def k1_chk214 (v97 : IVec S16 32) (v147 : IVec S16 32) : Prop :=
  (∀ a x, ((![v97, v147] : Fin 2 → IVec S16 32) a x).toNat < S128x128.size a)
instance k1_chk214.dec : ∀ (v97 : IVec S16 32) (v147 : IVec S16 32), Decidable (k1_chk214 v97 v147) := fun v97 v147 => decidable_of_iff' _ (Iff.of_eq (k1_chk214.eq_1 v97 v147))
theorem k1_idx214_inb : ∀ (v97 : IVec S16 32) (v147 : IVec S16 32) (k1_hw214 : k1_chk214 v97 v147), ∀ a x, ((![v97, v147] : Fin 2 → IVec S16 32) a x).toNat < S128x128.size a := fun v97 v147 k1_hw214 => k1_hw214

def k1_chk215 (v97 : IVec S16 32) (v149 : IVec S16 32) : Prop :=
  (∀ a x, ((![v97, v149] : Fin 2 → IVec S16 32) a x).toNat < S128x128.size a)
instance k1_chk215.dec : ∀ (v97 : IVec S16 32) (v149 : IVec S16 32), Decidable (k1_chk215 v97 v149) := fun v97 v149 => decidable_of_iff' _ (Iff.of_eq (k1_chk215.eq_1 v97 v149))
theorem k1_idx215_inb : ∀ (v97 : IVec S16 32) (v149 : IVec S16 32) (k1_hw215 : k1_chk215 v97 v149), ∀ a x, ((![v97, v149] : Fin 2 → IVec S16 32) a x).toNat < S128x128.size a := fun v97 v149 k1_hw215 => k1_hw215

def k1_chk216 (v97 : IVec S16 32) (v151 : IVec S16 32) : Prop :=
  (∀ a x, ((![v97, v151] : Fin 2 → IVec S16 32) a x).toNat < S128x128.size a)
instance k1_chk216.dec : ∀ (v97 : IVec S16 32) (v151 : IVec S16 32), Decidable (k1_chk216 v97 v151) := fun v97 v151 => decidable_of_iff' _ (Iff.of_eq (k1_chk216.eq_1 v97 v151))
theorem k1_idx216_inb : ∀ (v97 : IVec S16 32) (v151 : IVec S16 32) (k1_hw216 : k1_chk216 v97 v151), ∀ a x, ((![v97, v151] : Fin 2 → IVec S16 32) a x).toNat < S128x128.size a := fun v97 v151 k1_hw216 => k1_hw216

def k1_chk217 (v97 : IVec S16 32) (v153 : IVec S16 32) : Prop :=
  (∀ a x, ((![v97, v153] : Fin 2 → IVec S16 32) a x).toNat < S128x128.size a)
instance k1_chk217.dec : ∀ (v97 : IVec S16 32) (v153 : IVec S16 32), Decidable (k1_chk217 v97 v153) := fun v97 v153 => decidable_of_iff' _ (Iff.of_eq (k1_chk217.eq_1 v97 v153))
theorem k1_idx217_inb : ∀ (v97 : IVec S16 32) (v153 : IVec S16 32) (k1_hw217 : k1_chk217 v97 v153), ∀ a x, ((![v97, v153] : Fin 2 → IVec S16 32) a x).toNat < S128x128.size a := fun v97 v153 k1_hw217 => k1_hw217

def k1_chk218 (v97 : IVec S16 32) (v155 : IVec S16 32) : Prop :=
  (∀ a x, ((![v97, v155] : Fin 2 → IVec S16 32) a x).toNat < S128x128.size a)
instance k1_chk218.dec : ∀ (v97 : IVec S16 32) (v155 : IVec S16 32), Decidable (k1_chk218 v97 v155) := fun v97 v155 => decidable_of_iff' _ (Iff.of_eq (k1_chk218.eq_1 v97 v155))
theorem k1_idx218_inb : ∀ (v97 : IVec S16 32) (v155 : IVec S16 32) (k1_hw218 : k1_chk218 v97 v155), ∀ a x, ((![v97, v155] : Fin 2 → IVec S16 32) a x).toNat < S128x128.size a := fun v97 v155 k1_hw218 => k1_hw218

def k1_chk219 (v97 : IVec S16 32) (v157 : IVec S16 32) : Prop :=
  (∀ a x, ((![v97, v157] : Fin 2 → IVec S16 32) a x).toNat < S128x128.size a)
instance k1_chk219.dec : ∀ (v97 : IVec S16 32) (v157 : IVec S16 32), Decidable (k1_chk219 v97 v157) := fun v97 v157 => decidable_of_iff' _ (Iff.of_eq (k1_chk219.eq_1 v97 v157))
theorem k1_idx219_inb : ∀ (v97 : IVec S16 32) (v157 : IVec S16 32) (k1_hw219 : k1_chk219 v97 v157), ∀ a x, ((![v97, v157] : Fin 2 → IVec S16 32) a x).toNat < S128x128.size a := fun v97 v157 k1_hw219 => k1_hw219

def k1_chk220 (v97 : IVec S16 32) (v159 : IVec S16 32) : Prop :=
  (∀ a x, ((![v97, v159] : Fin 2 → IVec S16 32) a x).toNat < S128x128.size a)
instance k1_chk220.dec : ∀ (v97 : IVec S16 32) (v159 : IVec S16 32), Decidable (k1_chk220 v97 v159) := fun v97 v159 => decidable_of_iff' _ (Iff.of_eq (k1_chk220.eq_1 v97 v159))
theorem k1_idx220_inb : ∀ (v97 : IVec S16 32) (v159 : IVec S16 32) (k1_hw220 : k1_chk220 v97 v159), ∀ a x, ((![v97, v159] : Fin 2 → IVec S16 32) a x).toNat < S128x128.size a := fun v97 v159 k1_hw220 => k1_hw220

def k1_chk221 (v97 : IVec S16 32) (v161 : IVec S16 32) : Prop :=
  (∀ a x, ((![v97, v161] : Fin 2 → IVec S16 32) a x).toNat < S128x128.size a)
instance k1_chk221.dec : ∀ (v97 : IVec S16 32) (v161 : IVec S16 32), Decidable (k1_chk221 v97 v161) := fun v97 v161 => decidable_of_iff' _ (Iff.of_eq (k1_chk221.eq_1 v97 v161))
theorem k1_idx221_inb : ∀ (v97 : IVec S16 32) (v161 : IVec S16 32) (k1_hw221 : k1_chk221 v97 v161), ∀ a x, ((![v97, v161] : Fin 2 → IVec S16 32) a x).toNat < S128x128.size a := fun v97 v161 k1_hw221 => k1_hw221

def k1_chk222 (v97 : IVec S16 32) (v163 : IVec S16 32) : Prop :=
  (∀ a x, ((![v97, v163] : Fin 2 → IVec S16 32) a x).toNat < S128x128.size a)
instance k1_chk222.dec : ∀ (v97 : IVec S16 32) (v163 : IVec S16 32), Decidable (k1_chk222 v97 v163) := fun v97 v163 => decidable_of_iff' _ (Iff.of_eq (k1_chk222.eq_1 v97 v163))
theorem k1_idx222_inb : ∀ (v97 : IVec S16 32) (v163 : IVec S16 32) (k1_hw222 : k1_chk222 v97 v163), ∀ a x, ((![v97, v163] : Fin 2 → IVec S16 32) a x).toNat < S128x128.size a := fun v97 v163 k1_hw222 => k1_hw222
def k1_off26 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_51 : BitVec 32 := 2#32
  let v37 : BitVec 32 := Scalar.muli v1 c2_i32_51
  let c16_i32 : BitVec 32 := 16#32
  let v38 : BitVec 32 := Scalar.muli v37 c16_i32
  ![v38.toNat]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))

class Facts₀ : Prop where
  shapeCasts_S1x25000x3x3_S25000x3x3 : S1x25000x3x3.ShapeCasts S25000x3x3
  shapeCasts_S25000x3x3_S25000x9 : S25000x3x3.ShapeCasts S25000x9
  pads_S25000x9_S28672x9_036720_000 : S25000x9.Pads (![0, 0] : Fin 2 → Nat) ![3672, 0] ![0, 0] S28672x9
  h_S_ : 0 < S_.numel
  shapeCasts_S28672x9_S258048 : S28672x9.ShapeCasts S258048
  shapeCasts_S1x25000x3_S25000x3 : S1x25000x3.ShapeCasts S25000x3
  pads_S25000x3_S28672x3_036720_000 : S25000x3.Pads (![0, 0] : Fin 2 → Nat) ![3672, 0] ![0, 0] S28672x3
  shapeCasts_S28672x3_S86016 : S28672x3.ShapeCasts S86016
  pads_S25000_S28672_036720 : S25000.Pads (![0] : Fin 1 → Nat) ![3672] ![0] S28672
  pads_S50000x3_S53248x3_032480_000 : S50000x3.Pads (![0, 0] : Fin 2 → Nat) ![3248, 0] ![0, 0] S53248x3
  transposes_S53248x3_S3x53248_1_0 : S53248x3.Transposes [1, 0] S3x53248
  shapeCasts_S3x53248_S159744 : S3x53248.ShapeCasts S159744
  shapeCasts_S25000x9_S225000 : S25000x9.ShapeCasts S225000
  pads_S225000_S229376_043760 : S225000.Pads (![0] : Fin 1 → Nat) ![4376] ![0] S229376
  bcast_S25000_S25000x9_0 : S25000.BroadcastsInDim S25000x9 (![0] : Fin 1 → Fin S25000x9.rank)
  iota_S16_d0_w32_scVector : S16.Iotas .scVector 32 [0]
  inb_S159744_S51200_0 : ∀ a, (![0] : Fin 1 → Nat) a + S51200.size a ≤ S159744.size a
  h_S16 : 0 < S16.numel
  h_S51200 : 0 < S51200.numel
  inb_S159744_S51200_53248 : ∀ a, (![53248] : Fin 1 → Nat) a + S51200.size a ≤ S159744.size a
  inb_S159744_S51200_106496 : ∀ a, (![106496] : Fin 1 → Nat) a + S51200.size a ≤ S159744.size a
  h_S128x128 : 0 < S128x128.numel
  h_S2688 : 0 < S2688.numel
  h_S8064 : 0 < S8064.numel
  inb_S28672x128_S28672x128_0_0 : ∀ a, (![0, 0] : Fin 2 → Nat) a + S28672x128.size a ≤ S28672x128.size a
  gathers_S28672x128_S128x128 : S28672x128.Gathers 0 S128x128
  h_S4992 : 0 < S4992.numel
  inb_S32_S16_0 : ∀ a, (![0] : Fin 1 → Nat) a + S16.size a ≤ S32.size a
  inb_S32_S16_16 : ∀ a, (![16] : Fin 1 → Nat) a + S16.size a ≤ S32.size a
  shapeCasts_S159744_S53248x3 : S159744.ShapeCasts S53248x3
  slices_S53248x3_S50000x3_0_0 : S53248x3.Slices ![0, 0] S50000x3
  bcast_S50000x3_S1x50000x3_1_2 : S50000x3.BroadcastsInDim S1x50000x3 (![1, 2] : Fin 2 → Fin S1x50000x3.rank)
  shapeCasts_S1024_S32x32 : S1024.ShapeCasts S32x32
  slices_S32x32_S32x16_0_0 : S32x32.Slices ![0, 0] S32x16
  reducesTo_S32x16_S_d0_1 : S32x16.ReducesTo [0, 1] S_
  slices_S32x32_S32x16_0_16 : S32x32.Slices ![0, 16] S32x16
  hcc0_scoped0 : 0 + S_.numel ≤ 30
  hcc0_scoped1 : 1 + S_.numel ≤ 30
  hcc0_scoped2 : 2 + S_.numel ≤ 30
  hcc0_scoped3 : 3 + S_.numel ≤ 30
  hcc0_scoped4 : 4 + S_.numel ≤ 30
  hcc0_scoped5 : 5 + S_.numel ≤ 30
  hcc0_scoped6 : 6 + S_.numel ≤ 30
  hcc1_scratch12 : 7 + S_.numel ≤ 30
  hcc1_scratch13 : 8 + S_.numel ≤ 30
  hcc1_scoped0 : 9 + S_.numel ≤ 30
  hcc1_scoped1 : 10 + S_.numel ≤ 30
  hcc1_scoped2 : 11 + S_.numel ≤ 30
  hcc1_scoped3 : 12 + S_.numel ≤ 30
  hcc1_scoped4 : 13 + S_.numel ≤ 30
  hcc1_scoped5 : 14 + S_.numel ≤ 30
  hcc1_scoped6 : 15 + S_.numel ≤ 30
  hcc1_scoped7 : 16 + S_.numel ≤ 30
  hcc1_scoped8 : 17 + S_.numel ≤ 30
  hcc1_scoped9 : 18 + S_.numel ≤ 30
  hcc1_scoped10 : 19 + S_.numel ≤ 30
  hcc1_scoped11 : 20 + S_.numel ≤ 30
  hcc1_scoped12 : 21 + S_.numel ≤ 30
  hcc1_scoped13 : 22 + S_.numel ≤ 30
  hcc1_scoped14 : 23 + S_.numel ≤ 30
  hcc1_scoped15 : 24 + S_.numel ≤ 30
  hcc1_scoped16 : 25 + S_.numel ≤ 30
  hcc1_scoped17 : 26 + S_.numel ≤ 30
  hcc1_scoped18 : 27 + S_.numel ≤ 30
  hcc1_scoped19 : 28 + S_.numel ≤ 30
  hcc1_scoped20 : 29 + S_.numel ≤ 30
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S896.size a ≤ S28672.size a
  k0_t1_ok : k0_t1_loop.OK
  k0_off2_inb : ∀ k0_t1 : Fin k0_t1_loop.trips, ∀ a, (k0_off2 k0_t1) a + S16.size a ≤ S896.size a
  k0_off3_inb : ∀ k0_t1 : Fin k0_t1_loop.trips, ∀ a, (k0_off3 k0_t1) a + S16.size a ≤ S896.size a
  k0_t2_ok : k0_t2_loop.OK
  k0_off4_inb : ∀ k0_t2 : Fin k0_t2_loop.trips, ∀ a, (k0_off4 k0_t2) a + S16.size a ≤ S896.size a
  k0_off5_inb : ∀ k0_t2 : Fin k0_t2_loop.trips, ∀ a, (k0_off5 k0_t2) a + S16.size a ≤ S896.size a
  k0_t3_ok : k0_t3_loop.OK
  k0_off6_inb : ∀ k0_t3 : Fin k0_t3_loop.trips, ∀ a, (k0_off6 k0_t3) a + S16.size a ≤ S896.size a
  k0_off7_inb : ∀ k0_t3 : Fin k0_t3_loop.trips, ∀ a, (k0_off7 k0_t3) a + S16.size a ≤ S896.size a
  k0_off8_inb : ∀ i : grid0.Coords, ∀ a, (k0_off8 i) a + S8064.size a ≤ S258048.size a
  k0_off9_inb : ∀ i : grid0.Coords, ∀ a, (k0_off9 i) a + S2688.size a ≤ S86016.size a
  k0_t4_ok : k0_t4_loop.OK
  k0_t5_ok : k0_t5_loop.OK
  k0_off10_inb : ∀ (k0_t4 : Fin k0_t4_loop.trips) (k0_t5 : Fin k0_t5_loop.trips), ∀ a, (k0_off10 k0_t4 k0_t5) a + S16.size a ≤ S896.size a
  k0_off11_inb : ∀ (k0_t4 : Fin k0_t4_loop.trips) (k0_t5 : Fin k0_t5_loop.trips), ∀ a, (k0_off11 k0_t4 k0_t5) a + S16.size a ≤ S896.size a
  k0_off12_inb : ∀ (k0_t4 : Fin k0_t4_loop.trips) (k0_t5 : Fin k0_t5_loop.trips), ∀ a, (k0_off12 k0_t4 k0_t5) a + S16.size a ≤ S896.size a
  k0_off13_inb : ∀ (i : grid0.Coords) (k0_t4 : Fin k0_t4_loop.trips), ∀ a, (k0_off13 i k0_t4) a + S128x128.size a ≤ S28672x128.size a
  hcore1 : grid1.bound 0 ≤ τ.nSC
  hsub1 : grid1.bound 1 ≤ τ.nSub
  k1_off1_inb : ∀ i : grid1.Coords, ∀ a, (k1_off1 i) a + S1664.size a ≤ S159744.size a
  k1_off2_inb : ∀ i : grid1.Coords, ∀ (r : Fin 3), ∀ a, (k1_off2 i (BitVec.ofNat 32 (53248 * r.val))) a + S1664.size a ≤ S159744.size a
  k1_t1_ok : k1_t1_loop.OK
  k1_off3_inb : ∀ (i : grid1.Coords) (k1_t1 : Fin k1_t1_loop.trips), ∀ a, (k1_off3 i k1_t1) a + S128.size a ≤ S159744.size a
  k1_off4_inb : ∀ (i : grid1.Coords) (k1_t1 : Fin k1_t1_loop.trips), ∀ a, (k1_off4 i k1_t1) a + S128.size a ≤ S159744.size a
  k1_t2_ok : k1_t2_loop.OK
  k1_off5_inb : ∀ (k1_t1 : Fin k1_t1_loop.trips) (k1_t2 : Fin k1_t2_loop.trips), ∀ a, (k1_off5 k1_t1 k1_t2) a + S16.size a ≤ S1664.size a
  k1_t3_ok : k1_t3_loop.OK
  k1_off6_inb : ∀ (k1_t1 : Fin k1_t1_loop.trips) (k1_t3 : Fin k1_t3_loop.trips), ∀ a, (k1_off6 k1_t1 k1_t3) a + S16.size a ≤ S1664.size a
  k1_off7_inb : ∀ i : grid1.Coords, ∀ (r : Fin 3), ∀ a, (k1_off7 i (BitVec.ofNat 32 (53248 * r.val))) a + S128.size a ≤ S159744.size a
  k1_t4_ok : k1_t4_loop.OK
  k1_off8_inb : ∀ k1_t4 : Fin k1_t4_loop.trips, ∀ a, (k1_off8 k1_t4) a + S16.size a ≤ S1664.size a
  k1_t5_ok : k1_t5_loop.OK
  k1_off9_inb : ∀ (i : grid1.Coords) (k1_t5 : Fin k1_t5_loop.trips), ∀ a, (k1_off9 i k1_t5) a + S128.size a ≤ S159744.size a
  k1_off10_inb : ∀ (i : grid1.Coords) (k1_t5 : Fin k1_t5_loop.trips), ∀ a, (k1_off10 i k1_t5) a + S128.size a ≤ S159744.size a
  k1_t6_ok : k1_t6_loop.OK
  k1_off11_inb : ∀ (k1_t5 : Fin k1_t5_loop.trips) (k1_t6 : Fin k1_t6_loop.trips), ∀ a, (k1_off11 k1_t5 k1_t6) a + S16.size a ≤ S1664.size a
  k1_t7_ok : k1_t7_loop.OK
  k1_off12_inb : ∀ (k1_t5 : Fin k1_t5_loop.trips) (k1_t7 : Fin k1_t7_loop.trips), ∀ a, (k1_off12 k1_t5 k1_t7) a + S16.size a ≤ S1664.size a
  k1_t8_ok : k1_t8_loop.OK
  k1_off13_inb : ∀ k1_t8 : Fin k1_t8_loop.trips, ∀ a, (k1_off13 k1_t8) a + S16.size a ≤ S1664.size a
  k1_t9_ok : k1_t9_loop.OK
  k1_off14_inb : ∀ (i : grid1.Coords) (k1_t9 : Fin k1_t9_loop.trips), ∀ a, (k1_off14 i k1_t9) a + S128.size a ≤ S159744.size a
  k1_off15_inb : ∀ (i : grid1.Coords) (k1_t9 : Fin k1_t9_loop.trips), ∀ a, (k1_off15 i k1_t9) a + S128.size a ≤ S159744.size a
  k1_t10_ok : k1_t10_loop.OK
  k1_off16_inb : ∀ (k1_t9 : Fin k1_t9_loop.trips) (k1_t10 : Fin k1_t10_loop.trips), ∀ a, (k1_off16 k1_t9 k1_t10) a + S16.size a ≤ S1664.size a
  k1_t11_ok : k1_t11_loop.OK
  k1_off17_inb : ∀ (k1_t9 : Fin k1_t9_loop.trips) (k1_t11 : Fin k1_t11_loop.trips), ∀ a, (k1_off17 k1_t9 k1_t11) a + S16.size a ≤ S1664.size a
  k1_t12_ok : k1_t12_loop.OK
  k1_off18_inb : ∀ k1_t12 : Fin k1_t12_loop.trips, ∀ a, (k1_off18 k1_t12) a + S16.size a ≤ S1664.size a
  k1_off19_inb : ∀ i : grid1.Coords, ∀ a, (k1_off19 i) a + S4992.size a ≤ S159744.size a
  k1_t13_ok : k1_t13_loop.OK
  k1_off20_inb : ∀ (i : grid1.Coords) (k1_t13 : Fin k1_t13_loop.trips), ∀ a, (k1_off20 i k1_t13) a + S1024.size a ≤ S229376.size a
  k1_mult1_dvd : ∀ (i : grid1.Coords) (k1_t13 : Fin k1_t13_loop.trips), 8 ∣ (k1_mult1 i k1_t13).toNat
  k1_off21_inb : ∀ (i : grid1.Coords) (k1_t13 : Fin k1_t13_loop.trips), ∀ a, (k1_off21 i k1_t13) a + S128x128.size a ≤ S28672x128.size a
  k1_t14_ok : k1_t14_loop.OK
  k1_off22_inb : ∀ (i : grid1.Coords) (k1_t13 : Fin k1_t13_loop.trips) (k1_t14 : Fin k1_t14_loop.trips), ∀ a, (k1_off22 i k1_t13 k1_t14) a + S128.size a ≤ S229376.size a
  k1_off23_inb : ∀ (i : grid1.Coords) (k1_t13 : Fin k1_t13_loop.trips) (k1_t14 : Fin k1_t14_loop.trips), ∀ a, (k1_off23 i k1_t13 k1_t14) a + S128.size a ≤ S229376.size a
  k1_t15_ok : k1_t15_loop.OK
  k1_off24_inb : ∀ (k1_t14 : Fin k1_t14_loop.trips) (k1_t15 : Fin k1_t15_loop.trips), ∀ a, (k1_off24 k1_t14 k1_t15) a + S16.size a ≤ S1024.size a
  k1_t16_ok : k1_t16_loop.OK
  k1_off25_inb : ∀ (k1_t14 : Fin k1_t14_loop.trips) (k1_t16 : Fin k1_t16_loop.trips), ∀ a, (k1_off25 k1_t14 k1_t16) a + S16.size a ≤ S1024.size a
  k1_off26_inb : ∀ i : grid1.Coords, ∀ a, (k1_off26 i) a + S32.size a ≤ S1024.size a

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2
abbrev cc0_scoped3 : DmaSems sig S_ := SemArray.consecutive 3 S_ hcc0_scoped3
abbrev cc0_scoped4 : DmaSems sig S_ := SemArray.consecutive 4 S_ hcc0_scoped4
abbrev cc0_scoped5 : DmaSems sig S_ := SemArray.consecutive 5 S_ hcc0_scoped5
abbrev cc0_scoped6 : DmaSems sig S_ := SemArray.consecutive 6 S_ hcc0_scoped6
abbrev cc1_scratch12 : DmaSems sig S_ := SemArray.consecutive 7 S_ hcc1_scratch12
abbrev cc1_scratch13 : DmaSems sig S_ := SemArray.consecutive 8 S_ hcc1_scratch13
abbrev cc1_scoped0 : DmaSems sig S_ := SemArray.consecutive 9 S_ hcc1_scoped0
abbrev cc1_scoped1 : DmaSems sig S_ := SemArray.consecutive 10 S_ hcc1_scoped1
abbrev cc1_scoped2 : DmaSems sig S_ := SemArray.consecutive 11 S_ hcc1_scoped2
abbrev cc1_scoped3 : DmaSems sig S_ := SemArray.consecutive 12 S_ hcc1_scoped3
abbrev cc1_scoped4 : DmaSems sig S_ := SemArray.consecutive 13 S_ hcc1_scoped4
abbrev cc1_scoped5 : DmaSems sig S_ := SemArray.consecutive 14 S_ hcc1_scoped5
abbrev cc1_scoped6 : DmaSems sig S_ := SemArray.consecutive 15 S_ hcc1_scoped6
abbrev cc1_scoped7 : DmaSems sig S_ := SemArray.consecutive 16 S_ hcc1_scoped7
abbrev cc1_scoped8 : DmaSems sig S_ := SemArray.consecutive 17 S_ hcc1_scoped8
abbrev cc1_scoped9 : DmaSems sig S_ := SemArray.consecutive 18 S_ hcc1_scoped9
abbrev cc1_scoped10 : DmaSems sig S_ := SemArray.consecutive 19 S_ hcc1_scoped10
abbrev cc1_scoped11 : DmaSems sig S_ := SemArray.consecutive 20 S_ hcc1_scoped11
abbrev cc1_scoped12 : DmaSems sig S_ := SemArray.consecutive 21 S_ hcc1_scoped12
abbrev cc1_scoped13 : DmaSems sig S_ := SemArray.consecutive 22 S_ hcc1_scoped13
abbrev cc1_scoped14 : DmaSems sig S_ := SemArray.consecutive 23 S_ hcc1_scoped14
abbrev cc1_scoped15 : DmaSems sig S_ := SemArray.consecutive 24 S_ hcc1_scoped15
abbrev cc1_scoped16 : DmaSems sig S_ := SemArray.consecutive 25 S_ hcc1_scoped16
abbrev cc1_scoped17 : DmaSems sig S_ := SemArray.consecutive 26 S_ hcc1_scoped17
abbrev cc1_scoped18 : DmaSems sig S_ := SemArray.consecutive 27 S_ hcc1_scoped18
abbrev cc1_scoped19 : DmaSems sig S_ := SemArray.consecutive 28 S_ hcc1_scoped19
abbrev cc1_scoped20 : DmaSems sig S_ := SemArray.consecutive 29 S_ hcc1_scoped20

class Facts : Prop extends Facts₀ where

variable [Facts]
-- ==== ReferenceIdeal.lean ====
abbrev S50000x3 : Shape := ⟨2, ![50000, 3]⟩
abbrev S1x25000x3x3 : Shape := ⟨4, ![1, 25000, 3, 3]⟩
abbrev S1x25000x3 : Shape := ⟨3, ![1, 25000, 3]⟩
abbrev S25000 : Shape := ⟨1, ![25000]⟩
abbrev S25000x9 : Shape := ⟨2, ![25000, 9]⟩
abbrev S_ : Shape := ⟨0, ![]⟩
abbrev S25000x1 : Shape := ⟨2, ![25000, 1]⟩
abbrev S1 : Shape := ⟨1, ![1]⟩
abbrev S1x1 : Shape := ⟨2, ![1, 1]⟩
abbrev S25000x3 : Shape := ⟨2, ![25000, 3]⟩
abbrev S150000 : Shape := ⟨1, ![150000]⟩
abbrev S150000x1 : Shape := ⟨2, ![150000, 1]⟩
abbrev S150000x3 : Shape := ⟨2, ![150000, 3]⟩
abbrev S25000x3x3 : Shape := ⟨3, ![25000, 3, 3]⟩
abbrev S150000x3x3 : Shape := ⟨3, ![150000, 3, 3]⟩
abbrev S50000x3x3 : Shape := ⟨3, ![50000, 3, 3]⟩
abbrev S50000x3x1 : Shape := ⟨3, ![50000, 3, 1]⟩
abbrev S225000 : Shape := ⟨1, ![225000]⟩
abbrev S25000x9x3x3 : Shape := ⟨4, ![25000, 9, 3, 3]⟩
abbrev S225000x3x3 : Shape := ⟨3, ![225000, 3, 3]⟩
abbrev S25000x9x3 : Shape := ⟨3, ![25000, 9, 3]⟩
abbrev S225000x3 : Shape := ⟨2, ![225000, 3]⟩
abbrev S225000x1 : Shape := ⟨2, ![225000, 1]⟩
abbrev S1x50000x3 : Shape := ⟨3, ![1, 50000, 3]⟩

abbrev nBuf : Space → Nat
  | .hbm => 208
  | .vmem => 0
  | .smem => 0
  | _ => 0

abbrev hbmTy0_0 (i : Nat) : BufTy := match i % 128 with
  | 0 => ⟨S50000x3, .f32⟩
  | 1 => ⟨S1x25000x3x3, .f32⟩
  | 2 => ⟨S1x25000x3, .f32⟩
  | 3 => ⟨S50000x3, .f32⟩
  | 4 => ⟨S25000, .i32⟩
  | 5 => ⟨S50000x3, .i32⟩
  | 6 => ⟨S25000x9, .i32⟩
  | 7 => ⟨S_, .i32⟩
  | 8 => ⟨S25000, .i32⟩
  | 9 => ⟨S25000, .i1⟩
  | 10 => ⟨S_, .i32⟩
  | 11 => ⟨S25000, .i32⟩
  | 12 => ⟨S25000, .i32⟩
  | 13 => ⟨S25000, .i32⟩
  | 14 => ⟨S25000x1, .i32⟩
  | 15 => ⟨S1, .i32⟩
  | 16 => ⟨S_, .i32⟩
  | 17 => ⟨S25000x1, .i32⟩
  | 18 => ⟨S25000x1, .i1⟩
  | 19 => ⟨S1x1, .i32⟩
  | 20 => ⟨S25000x1, .i32⟩
  | 21 => ⟨S25000x1, .i1⟩
  | 22 => ⟨S25000x1, .i1⟩
  | 23 => ⟨S_, .i1⟩
  | 24 => ⟨S25000, .i1⟩
  | 25 => ⟨S25000x3, .f32⟩
  | 26 => ⟨S25000x3, .i1⟩
  | 27 => ⟨S_, .f32⟩
  | 28 => ⟨S25000x3, .f32⟩
  | 29 => ⟨S25000x3, .f32⟩
  | 30 => ⟨S150000, .i32⟩
  | 31 => ⟨S_, .i32⟩
  | 32 => ⟨S150000, .i32⟩
  | 33 => ⟨S150000, .i1⟩
  | 34 => ⟨S_, .i32⟩
  | 35 => ⟨S150000, .i32⟩
  | 36 => ⟨S150000, .i32⟩
  | 37 => ⟨S150000, .i32⟩
  | 38 => ⟨S150000x1, .i32⟩
  | 39 => ⟨S1, .i32⟩
  | 40 => ⟨S_, .i32⟩
  | 41 => ⟨S150000x1, .i32⟩
  | 42 => ⟨S150000x1, .i1⟩
  | 43 => ⟨S1x1, .i32⟩
  | 44 => ⟨S150000x1, .i32⟩
  | 45 => ⟨S150000x1, .i1⟩
  | 46 => ⟨S150000x1, .i1⟩
  | 47 => ⟨S_, .i1⟩
  | 48 => ⟨S150000, .i1⟩
  | 49 => ⟨S150000x3, .f32⟩
  | 50 => ⟨S150000x3, .i1⟩
  | 51 => ⟨S_, .f32⟩
  | 52 => ⟨S150000x3, .f32⟩
  | 53 => ⟨S150000x3, .f32⟩
  | 54 => ⟨S25000x3x3, .f32⟩
  | 55 => ⟨S25000x3, .f32⟩
  | 56 => ⟨S_, .i32⟩
  | 57 => ⟨S150000, .i32⟩
  | 58 => ⟨S150000, .i1⟩
  | 59 => ⟨S_, .i32⟩
  | 60 => ⟨S150000, .i32⟩
  | 61 => ⟨S150000, .i32⟩
  | 62 => ⟨S150000, .i32⟩
  | 63 => ⟨S150000x1, .i32⟩
  | 64 => ⟨S1, .i32⟩
  | 65 => ⟨S_, .i32⟩
  | 66 => ⟨S150000x1, .i32⟩
  | 67 => ⟨S150000x1, .i1⟩
  | 68 => ⟨S1x1, .i32⟩
  | 69 => ⟨S150000x1, .i32⟩
  | 70 => ⟨S150000x1, .i1⟩
  | 71 => ⟨S150000x1, .i1⟩
  | 72 => ⟨S_, .i1⟩
  | 73 => ⟨S150000, .i1⟩
  | 74 => ⟨S150000x3x3, .f32⟩
  | 75 => ⟨S150000x3x3, .i1⟩
  | 76 => ⟨S_, .f32⟩
  | 77 => ⟨S150000x3x3, .f32⟩
  | 78 => ⟨S150000x3x3, .f32⟩
  | 79 => ⟨S_, .i32⟩
  | 80 => ⟨S150000, .i32⟩
  | 81 => ⟨S150000, .i1⟩
  | 82 => ⟨S_, .i32⟩
  | 83 => ⟨S150000, .i32⟩
  | 84 => ⟨S150000, .i32⟩
  | 85 => ⟨S150000, .i32⟩
  | 86 => ⟨S150000x1, .i32⟩
  | 87 => ⟨S1, .i32⟩
  | 88 => ⟨S_, .i32⟩
  | 89 => ⟨S150000x1, .i32⟩
  | 90 => ⟨S150000x1, .i1⟩
  | 91 => ⟨S1x1, .i32⟩
  | 92 => ⟨S150000x1, .i32⟩
  | 93 => ⟨S150000x1, .i1⟩
  | 94 => ⟨S150000x1, .i1⟩
  | 95 => ⟨S_, .i1⟩
  | 96 => ⟨S150000, .i1⟩
  | 97 => ⟨S150000x3, .f32⟩
  | 98 => ⟨S150000x3, .i1⟩
  | 99 => ⟨S_, .f32⟩
  | 100 => ⟨S150000x3, .f32⟩
  | 101 => ⟨S150000x3, .f32⟩
  | 102 => ⟨S50000x3x3, .f32⟩
  | 103 => ⟨S150000x3, .f32⟩
  | 104 => ⟨S150000x3, .f32⟩
  | 105 => ⟨S150000x3, .f32⟩
  | 106 => ⟨S150000x3, .f32⟩
  | 107 => ⟨S150000x3, .f32⟩
  | 108 => ⟨S50000x3x3, .f32⟩
  | 109 => ⟨S50000x3x1, .f32⟩
  | 110 => ⟨S50000x3x3, .f32⟩
  | 111 => ⟨S50000x3x3, .f32⟩
  | 112 => ⟨S_, .f32⟩
  | 113 => ⟨S50000x3, .f32⟩
  | 114 => ⟨S225000, .i32⟩
  | 115 => ⟨S25000x9x3x3, .f32⟩
  | 116 => ⟨S225000x3x3, .f32⟩
  | 117 => ⟨S25000x9x3, .f32⟩
  | 118 => ⟨S225000x3, .f32⟩
  | 119 => ⟨S_, .i32⟩
  | 120 => ⟨S225000, .i32⟩
  | 121 => ⟨S225000, .i1⟩
  | 122 => ⟨S_, .i32⟩
  | 123 => ⟨S225000, .i32⟩
  | 124 => ⟨S225000, .i32⟩
  | 125 => ⟨S225000, .i32⟩
  | 126 => ⟨S225000x1, .i32⟩
  | 127 => ⟨S1, .i32⟩
  | _ => ⟨S50000x3, .f32⟩

abbrev hbmTy0_1 (i : Nat) : BufTy := match i % 128 with
  | 0 => ⟨S_, .i32⟩
  | 1 => ⟨S225000x1, .i32⟩
  | 2 => ⟨S225000x1, .i1⟩
  | 3 => ⟨S1x1, .i32⟩
  | 4 => ⟨S225000x1, .i32⟩
  | 5 => ⟨S225000x1, .i1⟩
  | 6 => ⟨S225000x1, .i1⟩
  | 7 => ⟨S_, .i1⟩
  | 8 => ⟨S225000, .i1⟩
  | 9 => ⟨S225000x3, .f32⟩
  | 10 => ⟨S225000x3, .i1⟩
  | 11 => ⟨S_, .f32⟩
  | 12 => ⟨S225000x3, .f32⟩
  | 13 => ⟨S225000x3, .f32⟩
  | 14 => ⟨S25000x3, .f32⟩
  | 15 => ⟨S25000x9x3, .f32⟩
  | 16 => ⟨S225000x3, .f32⟩
  | 17 => ⟨S_, .i32⟩
  | 18 => ⟨S225000, .i32⟩
  | 19 => ⟨S225000, .i1⟩
  | 20 => ⟨S_, .i32⟩
  | 21 => ⟨S225000, .i32⟩
  | 22 => ⟨S225000, .i32⟩
  | 23 => ⟨S225000, .i32⟩
  | 24 => ⟨S225000x1, .i32⟩
  | 25 => ⟨S1, .i32⟩
  | 26 => ⟨S_, .i32⟩
  | 27 => ⟨S225000x1, .i32⟩
  | 28 => ⟨S225000x1, .i1⟩
  | 29 => ⟨S1x1, .i32⟩
  | 30 => ⟨S225000x1, .i32⟩
  | 31 => ⟨S225000x1, .i1⟩
  | 32 => ⟨S225000x1, .i1⟩
  | 33 => ⟨S_, .i1⟩
  | 34 => ⟨S225000, .i1⟩
  | 35 => ⟨S225000x3, .f32⟩
  | 36 => ⟨S225000x3, .i1⟩
  | 37 => ⟨S_, .f32⟩
  | 38 => ⟨S225000x3, .f32⟩
  | 39 => ⟨S225000x3, .f32⟩
  | 40 => ⟨S225000x3, .f32⟩
  | 41 => ⟨S225000x3, .f32⟩
  | 42 => ⟨S225000x3, .f32⟩
  | 43 => ⟨S225000x3, .f32⟩
  | 44 => ⟨S225000x3, .f32⟩
  | 45 => ⟨S_, .i32⟩
  | 46 => ⟨S225000, .i32⟩
  | 47 => ⟨S225000, .i1⟩
  | 48 => ⟨S_, .i32⟩
  | 49 => ⟨S225000, .i32⟩
  | 50 => ⟨S225000, .i32⟩
  | 51 => ⟨S225000, .i32⟩
  | 52 => ⟨S225000x1, .i32⟩
  | 53 => ⟨S1, .i32⟩
  | 54 => ⟨S_, .i32⟩
  | 55 => ⟨S225000x1, .i32⟩
  | 56 => ⟨S225000x1, .i1⟩
  | 57 => ⟨S1x1, .i32⟩
  | 58 => ⟨S225000x1, .i32⟩
  | 59 => ⟨S225000x1, .i1⟩
  | 60 => ⟨S225000x1, .i1⟩
  | 61 => ⟨S_, .i1⟩
  | 62 => ⟨S225000, .i1⟩
  | 63 => ⟨S225000x3x3, .f32⟩
  | 64 => ⟨S225000x3x3, .i1⟩
  | 65 => ⟨S_, .f32⟩
  | 66 => ⟨S225000x3x3, .f32⟩
  | 67 => ⟨S225000x3x3, .f32⟩
  | 68 => ⟨S225000x3x3, .f32⟩
  | 69 => ⟨S225000x3x3, .f32⟩
  | 70 => ⟨S_, .f32⟩
  | 71 => ⟨S_, .f32⟩
  | 72 => ⟨S_, .f32⟩
  | 73 => ⟨S_, .f32⟩
  | 74 => ⟨S225000x3, .f32⟩
  | 75 => ⟨S_, .f32⟩
  | 76 => ⟨S_, .f32⟩
  | 77 => ⟨S_, .f32⟩
  | 78 => ⟨S_, .f32⟩
  | 79 => ⟨S1x50000x3, .f32⟩
  | _ => ⟨S50000x3, .f32⟩

abbrev hbmTy (i : Nat) : BufTy := match i / 128 with
  | 0 => hbmTy0_0 i
  | 1 => hbmTy0_1 i
  | _ => ⟨S50000x3, .f32⟩

abbrev bufTy : (tb : Table) → Fin (tcTables nBuf tb) → BufTy
  | .hbm, ⟨i, _⟩ => hbmTy i
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_v1 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v2 : Ref sig .tc := ⟨.hbm, 53, rfl⟩
abbrev main_v3 : Ref sig .tc := ⟨.hbm, 54, rfl⟩
abbrev main_v4 : Ref sig .tc := ⟨.hbm, 55, rfl⟩
abbrev main_call2_c : Ref sig .tc := ⟨.hbm, 56, rfl⟩
abbrev main_call2_v0 : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_c_1 : Ref sig .tc := ⟨.hbm, 64, rfl⟩
abbrev main_call2_c_2 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_c_3 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_call2_cst : Ref sig .tc := ⟨.hbm, 76, rfl⟩
abbrev main_call2_v15 : Ref sig .tc := ⟨.hbm, 77, rfl⟩
abbrev main_v5 : Ref sig .tc := ⟨.hbm, 78, rfl⟩
abbrev main_call3_c : Ref sig .tc := ⟨.hbm, 79, rfl⟩
abbrev main_call3_v0 : Ref sig .tc := ⟨.hbm, 80, rfl⟩
abbrev main_call3_v1 : Ref sig .tc := ⟨.hbm, 81, rfl⟩
abbrev main_call3_c_0 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_call3_v5 : Ref sig .tc := ⟨.hbm, 86, rfl⟩
abbrev main_call3_c_1 : Ref sig .tc := ⟨.hbm, 87, rfl⟩
abbrev main_call3_c_2 : Ref sig .tc := ⟨.hbm, 88, rfl⟩
abbrev main_call3_v6 : Ref sig .tc := ⟨.hbm, 89, rfl⟩
abbrev main_call3_v7 : Ref sig .tc := ⟨.hbm, 90, rfl⟩
abbrev main_call3_v8 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_c_3 : Ref sig .tc := ⟨.hbm, 95, rfl⟩
abbrev main_call3_v12 : Ref sig .tc := ⟨.hbm, 96, rfl⟩
abbrev main_call3_v13 : Ref sig .tc := ⟨.hbm, 97, rfl⟩
abbrev main_call3_v14 : Ref sig .tc := ⟨.hbm, 98, rfl⟩
abbrev main_call3_cst : Ref sig .tc := ⟨.hbm, 99, rfl⟩
abbrev main_call3_v15 : Ref sig .tc := ⟨.hbm, 100, rfl⟩
abbrev main_v6 : Ref sig .tc := ⟨.hbm, 101, rfl⟩
abbrev main_v7 : Ref sig .tc := ⟨.hbm, 102, rfl⟩
abbrev main_v8 : Ref sig .tc := ⟨.hbm, 103, rfl⟩
abbrev main_v9 : Ref sig .tc := ⟨.hbm, 104, rfl⟩
abbrev main_v10 : Ref sig .tc := ⟨.hbm, 105, rfl⟩
abbrev main_v11 : Ref sig .tc := ⟨.hbm, 106, rfl⟩
abbrev main_v12 : Ref sig .tc := ⟨.hbm, 107, rfl⟩
abbrev main_v13 : Ref sig .tc := ⟨.hbm, 108, rfl⟩
abbrev main_v14 : Ref sig .tc := ⟨.hbm, 109, rfl⟩
abbrev main_v15 : Ref sig .tc := ⟨.hbm, 110, rfl⟩
abbrev main_v16 : Ref sig .tc := ⟨.hbm, 111, rfl⟩
abbrev main_cst : Ref sig .tc := ⟨.hbm, 112, rfl⟩
abbrev main_v17 : Ref sig .tc := ⟨.hbm, 113, rfl⟩
abbrev main_v18 : Ref sig .tc := ⟨.hbm, 114, rfl⟩
abbrev main_v19 : Ref sig .tc := ⟨.hbm, 115, rfl⟩
abbrev main_v20 : Ref sig .tc := ⟨.hbm, 116, rfl⟩
abbrev main_v21 : Ref sig .tc := ⟨.hbm, 117, rfl⟩
abbrev main_v22 : Ref sig .tc := ⟨.hbm, 118, rfl⟩
abbrev main_call4_c : Ref sig .tc := ⟨.hbm, 119, rfl⟩
abbrev main_call4_v0 : Ref sig .tc := ⟨.hbm, 120, rfl⟩
abbrev main_call4_v1 : Ref sig .tc := ⟨.hbm, 121, rfl⟩
abbrev main_call4_c_0 : Ref sig .tc := ⟨.hbm, 122, rfl⟩
abbrev main_call4_v2 : Ref sig .tc := ⟨.hbm, 123, rfl⟩
abbrev main_call4_v3 : Ref sig .tc := ⟨.hbm, 124, rfl⟩
abbrev main_call4_v4 : Ref sig .tc := ⟨.hbm, 125, rfl⟩
abbrev main_call4_v5 : Ref sig .tc := ⟨.hbm, 126, rfl⟩
abbrev main_call4_c_1 : Ref sig .tc := ⟨.hbm, 127, rfl⟩
abbrev main_call4_c_2 : Ref sig .tc := ⟨.hbm, 128, rfl⟩
abbrev main_call4_v6 : Ref sig .tc := ⟨.hbm, 129, rfl⟩
abbrev main_call4_v7 : Ref sig .tc := ⟨.hbm, 130, rfl⟩
abbrev main_call4_v8 : Ref sig .tc := ⟨.hbm, 131, rfl⟩
abbrev main_call4_v9 : Ref sig .tc := ⟨.hbm, 132, rfl⟩
abbrev main_call4_v10 : Ref sig .tc := ⟨.hbm, 133, rfl⟩
abbrev main_call4_v11 : Ref sig .tc := ⟨.hbm, 134, rfl⟩
abbrev main_call4_c_3 : Ref sig .tc := ⟨.hbm, 135, rfl⟩
abbrev main_call4_v12 : Ref sig .tc := ⟨.hbm, 136, rfl⟩
abbrev main_call4_v13 : Ref sig .tc := ⟨.hbm, 137, rfl⟩
abbrev main_call4_v14 : Ref sig .tc := ⟨.hbm, 138, rfl⟩
abbrev main_call4_cst : Ref sig .tc := ⟨.hbm, 139, rfl⟩
abbrev main_call4_v15 : Ref sig .tc := ⟨.hbm, 140, rfl⟩
abbrev main_v23 : Ref sig .tc := ⟨.hbm, 141, rfl⟩
abbrev main_v24 : Ref sig .tc := ⟨.hbm, 142, rfl⟩
abbrev main_v25 : Ref sig .tc := ⟨.hbm, 143, rfl⟩
abbrev main_v26 : Ref sig .tc := ⟨.hbm, 144, rfl⟩
abbrev main_call5_c : Ref sig .tc := ⟨.hbm, 145, rfl⟩
abbrev main_call5_v0 : Ref sig .tc := ⟨.hbm, 146, rfl⟩
abbrev main_call5_v1 : Ref sig .tc := ⟨.hbm, 147, rfl⟩
abbrev main_call5_c_0 : Ref sig .tc := ⟨.hbm, 148, rfl⟩
abbrev main_call5_v2 : Ref sig .tc := ⟨.hbm, 149, rfl⟩
abbrev main_call5_v3 : Ref sig .tc := ⟨.hbm, 150, rfl⟩
abbrev main_call5_v4 : Ref sig .tc := ⟨.hbm, 151, rfl⟩
abbrev main_call5_v5 : Ref sig .tc := ⟨.hbm, 152, rfl⟩
abbrev main_call5_c_1 : Ref sig .tc := ⟨.hbm, 153, rfl⟩
abbrev main_call5_c_2 : Ref sig .tc := ⟨.hbm, 154, rfl⟩
abbrev main_call5_v6 : Ref sig .tc := ⟨.hbm, 155, rfl⟩
abbrev main_call5_v7 : Ref sig .tc := ⟨.hbm, 156, rfl⟩
abbrev main_call5_v8 : Ref sig .tc := ⟨.hbm, 157, rfl⟩
abbrev main_call5_v9 : Ref sig .tc := ⟨.hbm, 158, rfl⟩
abbrev main_call5_v10 : Ref sig .tc := ⟨.hbm, 159, rfl⟩
abbrev main_call5_v11 : Ref sig .tc := ⟨.hbm, 160, rfl⟩
abbrev main_call5_c_3 : Ref sig .tc := ⟨.hbm, 161, rfl⟩
abbrev main_call5_v12 : Ref sig .tc := ⟨.hbm, 162, rfl⟩
abbrev main_call5_v13 : Ref sig .tc := ⟨.hbm, 163, rfl⟩
abbrev main_call5_v14 : Ref sig .tc := ⟨.hbm, 164, rfl⟩
abbrev main_call5_cst : Ref sig .tc := ⟨.hbm, 165, rfl⟩
abbrev main_call5_v15 : Ref sig .tc := ⟨.hbm, 166, rfl⟩
abbrev main_v27 : Ref sig .tc := ⟨.hbm, 167, rfl⟩
abbrev main_v28 : Ref sig .tc := ⟨.hbm, 168, rfl⟩
abbrev main_v29 : Ref sig .tc := ⟨.hbm, 169, rfl⟩
abbrev main_v30 : Ref sig .tc := ⟨.hbm, 170, rfl⟩
abbrev main_v31 : Ref sig .tc := ⟨.hbm, 171, rfl⟩
abbrev main_v32 : Ref sig .tc := ⟨.hbm, 172, rfl⟩
abbrev main_call6_c : Ref sig .tc := ⟨.hbm, 173, rfl⟩
abbrev main_call6_v0 : Ref sig .tc := ⟨.hbm, 174, rfl⟩
abbrev main_call6_v1 : Ref sig .tc := ⟨.hbm, 175, rfl⟩
abbrev main_call6_c_0 : Ref sig .tc := ⟨.hbm, 176, rfl⟩
abbrev main_call6_v2 : Ref sig .tc := ⟨.hbm, 177, rfl⟩
abbrev main_call6_v3 : Ref sig .tc := ⟨.hbm, 178, rfl⟩
abbrev main_call6_v4 : Ref sig .tc := ⟨.hbm, 179, rfl⟩
abbrev main_call6_v5 : Ref sig .tc := ⟨.hbm, 180, rfl⟩
abbrev main_call6_c_1 : Ref sig .tc := ⟨.hbm, 181, rfl⟩
abbrev main_call6_c_2 : Ref sig .tc := ⟨.hbm, 182, rfl⟩
abbrev main_call6_v6 : Ref sig .tc := ⟨.hbm, 183, rfl⟩
abbrev main_call6_v7 : Ref sig .tc := ⟨.hbm, 184, rfl⟩
abbrev main_call6_v8 : Ref sig .tc := ⟨.hbm, 185, rfl⟩
abbrev main_call6_v9 : Ref sig .tc := ⟨.hbm, 186, rfl⟩
abbrev main_call6_v10 : Ref sig .tc := ⟨.hbm, 187, rfl⟩
abbrev main_call6_v11 : Ref sig .tc := ⟨.hbm, 188, rfl⟩
abbrev main_call6_c_3 : Ref sig .tc := ⟨.hbm, 189, rfl⟩
abbrev main_call6_v12 : Ref sig .tc := ⟨.hbm, 190, rfl⟩
abbrev main_call6_v13 : Ref sig .tc := ⟨.hbm, 191, rfl⟩
abbrev main_call6_v14 : Ref sig .tc := ⟨.hbm, 192, rfl⟩
abbrev main_call6_cst : Ref sig .tc := ⟨.hbm, 193, rfl⟩
abbrev main_call6_v15 : Ref sig .tc := ⟨.hbm, 194, rfl⟩
abbrev main_v33 : Ref sig .tc := ⟨.hbm, 195, rfl⟩
abbrev main_v34 : Ref sig .tc := ⟨.hbm, 196, rfl⟩
abbrev main_v35 : Ref sig .tc := ⟨.hbm, 197, rfl⟩
abbrev main_cst_0 : Ref sig .tc := ⟨.hbm, 198, rfl⟩
abbrev main_v36 : Ref sig .tc := ⟨.hbm, 199, rfl⟩
abbrev main_cst_1 : Ref sig .tc := ⟨.hbm, 200, rfl⟩
abbrev main_v37 : Ref sig .tc := ⟨.hbm, 201, rfl⟩
abbrev main_v38 : Ref sig .tc := ⟨.hbm, 202, rfl⟩
abbrev main_cst_2 : Ref sig .tc := ⟨.hbm, 203, rfl⟩
abbrev main_v39 : Ref sig .tc := ⟨.hbm, 204, rfl⟩
abbrev main_cst_3 : Ref sig .tc := ⟨.hbm, 205, rfl⟩
abbrev main_v40 : Ref sig .tc := ⟨.hbm, 206, rfl⟩
abbrev main_v41 : Ref sig .tc := ⟨.hbm, 207, rfl⟩

abbrev nD : Nat := 1
abbrev τ : Topo := Topo.v7x

variable {F : FTy → Type} [FloatOps F]

class Facts₀ : Prop where
  bcast_S_S25000 : S_.BroadcastsInDim S25000 (![] : Fin 0 → Fin S25000.rank)
  bcast_S25000_S25000x1_0 : S25000.BroadcastsInDim S25000x1 (![0] : Fin 1 → Fin S25000x1.rank)
  bcast_S_S25000x1 : S_.BroadcastsInDim S25000x1 (![] : Fin 0 → Fin S25000x1.rank)
  bcast_S1_S1x1_1 : S1.BroadcastsInDim S1x1 (![1] : Fin 1 → Fin S1x1.rank)
  bcast_S1x1_S25000x1_0_1 : S1x1.BroadcastsInDim S25000x1 (![0, 1] : Fin 2 → Fin S25000x1.rank)
  reducesTo_S25000x1_S25000_d1 : S25000x1.ReducesTo [1] S25000
  h_S_ : 0 < S_.numel
  bcast_S25000_S25000x3_0 : S25000.BroadcastsInDim S25000x3 (![0] : Fin 1 → Fin S25000x3.rank)
  bcast_S_S25000x3 : S_.BroadcastsInDim S25000x3 (![] : Fin 0 → Fin S25000x3.rank)
  shapeCasts_S50000x3_S150000 : S50000x3.ShapeCasts S150000
  bcast_S_S150000 : S_.BroadcastsInDim S150000 (![] : Fin 0 → Fin S150000.rank)
  bcast_S150000_S150000x1_0 : S150000.BroadcastsInDim S150000x1 (![0] : Fin 1 → Fin S150000x1.rank)
  bcast_S_S150000x1 : S_.BroadcastsInDim S150000x1 (![] : Fin 0 → Fin S150000x1.rank)
  bcast_S1x1_S150000x1_0_1 : S1x1.BroadcastsInDim S150000x1 (![0, 1] : Fin 2 → Fin S150000x1.rank)
  reducesTo_S150000x1_S150000_d1 : S150000x1.ReducesTo [1] S150000
  bcast_S150000_S150000x3_0 : S150000.BroadcastsInDim S150000x3 (![0] : Fin 1 → Fin S150000x3.rank)
  bcast_S_S150000x3 : S_.BroadcastsInDim S150000x3 (![] : Fin 0 → Fin S150000x3.rank)
  shapeCasts_S1x25000x3x3_S25000x3x3 : S1x25000x3x3.ShapeCasts S25000x3x3
  shapeCasts_S1x25000x3_S25000x3 : S1x25000x3.ShapeCasts S25000x3
  bcast_S150000_S150000x3x3_0 : S150000.BroadcastsInDim S150000x3x3 (![0] : Fin 1 → Fin S150000x3x3.rank)
  bcast_S_S150000x3x3 : S_.BroadcastsInDim S150000x3x3 (![] : Fin 0 → Fin S150000x3x3.rank)
  bcast_S50000x3_S50000x3x3_0_2 : S50000x3.BroadcastsInDim S50000x3x3 (![0, 2] : Fin 2 → Fin S50000x3x3.rank)
  shapeCasts_S50000x3x3_S150000x3 : S50000x3x3.ShapeCasts S150000x3
  shapeCasts_S150000x3_S50000x3x3 : S150000x3.ShapeCasts S50000x3x3
  bcast_S50000x3_S50000x3x1_0_1 : S50000x3.BroadcastsInDim S50000x3x1 (![0, 1] : Fin 2 → Fin S50000x3x1.rank)
  bcast_S50000x3x1_S50000x3x3_0_1_2 : S50000x3x1.BroadcastsInDim S50000x3x3 (![0, 1, 2] : Fin 3 → Fin S50000x3x3.rank)
  reducesTo_S50000x3x3_S50000x3_d1 : S50000x3x3.ReducesTo [1] S50000x3
  shapeCasts_S25000x9_S225000 : S25000x9.ShapeCasts S225000
  bcast_S25000x3x3_S25000x9x3x3_0_2_3 : S25000x3x3.BroadcastsInDim S25000x9x3x3 (![0, 2, 3] : Fin 3 → Fin S25000x9x3x3.rank)
  shapeCasts_S25000x9x3x3_S225000x3x3 : S25000x9x3x3.ShapeCasts S225000x3x3
  bcast_S25000x3_S25000x9x3_0_2 : S25000x3.BroadcastsInDim S25000x9x3 (![0, 2] : Fin 2 → Fin S25000x9x3.rank)
  shapeCasts_S25000x9x3_S225000x3 : S25000x9x3.ShapeCasts S225000x3
  bcast_S_S225000 : S_.BroadcastsInDim S225000 (![] : Fin 0 → Fin S225000.rank)
  bcast_S225000_S225000x1_0 : S225000.BroadcastsInDim S225000x1 (![0] : Fin 1 → Fin S225000x1.rank)
  bcast_S_S225000x1 : S_.BroadcastsInDim S225000x1 (![] : Fin 0 → Fin S225000x1.rank)
  bcast_S1x1_S225000x1_0_1 : S1x1.BroadcastsInDim S225000x1 (![0, 1] : Fin 2 → Fin S225000x1.rank)
  reducesTo_S225000x1_S225000_d1 : S225000x1.ReducesTo [1] S225000
  bcast_S225000_S225000x3_0 : S225000.BroadcastsInDim S225000x3 (![0] : Fin 1 → Fin S225000x3.rank)
  bcast_S_S225000x3 : S_.BroadcastsInDim S225000x3 (![] : Fin 0 → Fin S225000x3.rank)
  bcast_S225000_S225000x3x3_0 : S225000.BroadcastsInDim S225000x3x3 (![0] : Fin 1 → Fin S225000x3x3.rank)
  bcast_S_S225000x3x3 : S_.BroadcastsInDim S225000x3x3 (![] : Fin 0 → Fin S225000x3x3.rank)
  reducesTo_S225000x3x3_S_d0_1_2 : S225000x3x3.ReducesTo [0, 1, 2] S_
  reducesTo_S225000x3_S_d0_1 : S225000x3.ReducesTo [0, 1] S_
  bcast_S50000x3_S1x50000x3_1_2 : S50000x3.BroadcastsInDim S1x50000x3 (![1, 2] : Fin 2 → Fin S1x50000x3.rank)
  gather_S50000x3_S25000x1_S25000x3_1_0_n_n_0_1_13_wf : GatherDims.WF S50000x3 S25000x1 S25000x3 [1] [0] [] [0] [] 1 ![1, 3]
  gather_S25000x3_S150000x1_S150000x3_1_0_n_n_0_1_13_wf : GatherDims.WF S25000x3 S150000x1 S150000x3 [1] [0] [] [0] [] 1 ![1, 3]
  gather_S25000x3x3_S150000x1_S150000x3x3_12_0_n_n_0_1_133_wf : GatherDims.WF S25000x3x3 S150000x1 S150000x3x3 [1, 2] [0] [] [0] [] 1 ![1, 3, 3]
  dot_S150000x3x3_S150000x3_S150000x3_2_1_1_n_0_0_wf : DotDims.WF S150000x3x3 S150000x3 S150000x3 [2] [1] [1] [] [0] [0]
  gather_S25000x3_S225000x1_S225000x3_1_0_n_n_0_1_13_wf : GatherDims.WF S25000x3 S225000x1 S225000x3 [1] [0] [] [0] [] 1 ![1, 3]
  dot_S225000x3x3_S225000x3_S225000x3_2_1_1_n_0_0_wf : DotDims.WF S225000x3x3 S225000x3 S225000x3 [2] [1] [1] [] [0] [0]
  gather_S25000x3x3_S225000x1_S225000x3x3_12_0_n_n_0_1_133_wf : GatherDims.WF S25000x3x3 S225000x1 S225000x3x3 [1, 2] [0] [] [0] [] 1 ![1, 3, 3]

variable [Facts₀]

def gather_S50000x3_S25000x1_S25000x3_1_0_n_n_0_1_13 : GatherDims S50000x3 S25000x1 S25000x3 where
  offsetDims := [1]
  collapsedSliceDims := [0]
  operandBatchingDims := []
  startIndicesBatchingDims := []
  startIndexMap := [0]
  indexVectorDim := 1
  sliceSizes := ![1, 3]
  wf := gather_S50000x3_S25000x1_S25000x3_1_0_n_n_0_1_13_wf
def gather_S25000x3_S150000x1_S150000x3_1_0_n_n_0_1_13 : GatherDims S25000x3 S150000x1 S150000x3 where
  offsetDims := [1]
  collapsedSliceDims := [0]
  operandBatchingDims := []
  startIndicesBatchingDims := []
  startIndexMap := [0]
  indexVectorDim := 1
  sliceSizes := ![1, 3]
  wf := gather_S25000x3_S150000x1_S150000x3_1_0_n_n_0_1_13_wf
def gather_S25000x3x3_S150000x1_S150000x3x3_12_0_n_n_0_1_133 : GatherDims S25000x3x3 S150000x1 S150000x3x3 where
  offsetDims := [1, 2]
  collapsedSliceDims := [0]
  operandBatchingDims := []
  startIndicesBatchingDims := []
  startIndexMap := [0]
  indexVectorDim := 1
  sliceSizes := ![1, 3, 3]
  wf := gather_S25000x3x3_S150000x1_S150000x3x3_12_0_n_n_0_1_133_wf
def dot_S150000x3x3_S150000x3_S150000x3_2_1_1_n_0_0 : DotDims S150000x3x3 S150000x3 S150000x3 where
  lhsContracting := [2]
  rhsContracting := [1]
  lhsNonContracting := [1]
  rhsNonContracting := []
  lhsBatch := [0]
  rhsBatch := [0]
  wf := dot_S150000x3x3_S150000x3_S150000x3_2_1_1_n_0_0_wf
def gather_S25000x3_S225000x1_S225000x3_1_0_n_n_0_1_13 : GatherDims S25000x3 S225000x1 S225000x3 where
  offsetDims := [1]
  collapsedSliceDims := [0]
  operandBatchingDims := []
  startIndicesBatchingDims := []
  startIndexMap := [0]
  indexVectorDim := 1
  sliceSizes := ![1, 3]
  wf := gather_S25000x3_S225000x1_S225000x3_1_0_n_n_0_1_13_wf
def dot_S225000x3x3_S225000x3_S225000x3_2_1_1_n_0_0 : DotDims S225000x3x3 S225000x3 S225000x3 where
  lhsContracting := [2]
  rhsContracting := [1]
  lhsNonContracting := [1]
  rhsNonContracting := []
  lhsBatch := [0]
  rhsBatch := [0]
  wf := dot_S225000x3x3_S225000x3_S225000x3_2_1_1_n_0_0_wf
def gather_S25000x3x3_S225000x1_S225000x3x3_12_0_n_n_0_1_133 : GatherDims S25000x3x3 S225000x1 S225000x3x3 where
  offsetDims := [1, 2]
  collapsedSliceDims := [0]
  operandBatchingDims := []
  startIndicesBatchingDims := []
  startIndexMap := [0]
  indexVectorDim := 1
  sliceSizes := ![1, 3, 3]
  wf := gather_S25000x3x3_S225000x1_S225000x3x3_12_0_n_n_0_1_133_wf

class Facts : Prop extends Facts₀ where

variable [Facts]
-- ==== Proof.MainOps.lean ====
/- The host operations of @main before the first SparseCore call (opsPre) and after the second (opsPost), copied line by
   line from the printed program, each call of a padding function as its two operations over that call's buffers. -/
import proofs.«205348_g71287867179597_cont_9to1c4b_113_38_alg».proof.KernelIdeal
import Idealize.ShloMosaic.Lib.StableHlo.Run

noncomputable section

namespace Cert.KI

open Cert.KernelIdeal Idealize.ShloMosaic Idealize.ShloMosaic.StableHlo

variable {F : FTy → Type} [FloatOps F]

-- the operations cite the program's stated side conditions by name, as @main does
variable [Facts]
open Facts₀ Facts

abbrev opsPre : List (HloOp τ sig (Elt F)) :=
  [
    reshape main_arg1 main_v0 rfl shapeCasts_S1x25000x3x3_S25000x3x3,
    reshape main_v0 main_v1 rfl shapeCasts_S25000x3x3_S25000x9,
    nullary main_c (constantI S_ 32 0#32),
    TRef.unary (.of main_c : TRef sig ⟨S_, .i32⟩) main_call0.v0 (sitofp .f32),
    TRef.binary (.of main_v1 : TRef sig ⟨S25000x9, .f32⟩) main_call0.v0 main_call0.v1 (fun x v => pad S28672x9 ![0, 0] ![3672, 0] ![0, 0] x v pads_S25000x9_S28672x9_036720_000 h_S_),
    reshape main_v2 main_v3 rfl shapeCasts_S28672x9_S258048,
    reshape main_arg2 main_v4 rfl shapeCasts_S1x25000x3_S25000x3,
    nullary main_c_0 (constantI S_ 32 0#32),
    TRef.unary (.of main_c_0 : TRef sig ⟨S_, .i32⟩) main_call1.v0 (sitofp .f32),
    TRef.binary (.of main_v4 : TRef sig ⟨S25000x3, .f32⟩) main_call1.v0 main_call1.v1 (fun x v => pad S28672x3 ![0, 0] ![3672, 0] ![0, 0] x v pads_S25000x3_S28672x3_036720_000 h_S_),
    reshape main_v5 main_v6 rfl shapeCasts_S28672x3_S86016,
    nullary main_c_1 (constantI S_ 32 0#32),
    TRef.unary (.of main_c_1 : TRef sig ⟨S_, .i32⟩) main_call2.v0 id,
    TRef.binary (.of main_arg4 : TRef sig ⟨S25000, .i32⟩) main_call2.v0 main_call2.v1 (fun x v => pad S28672 ![0] ![3672] ![0] x v pads_S25000_S28672_036720 h_S_),
    nullary main_c_2 (constantI S_ 32 0#32),
    TRef.unary (.of main_c_2 : TRef sig ⟨S_, .i32⟩) main_call3.v0 (sitofp .f32),
    TRef.binary (.of main_arg0 : TRef sig ⟨S50000x3, .f32⟩) main_call3.v0 main_call3.v1 (fun x v => pad S53248x3 ![0, 0] ![3248, 0] ![0, 0] x v pads_S50000x3_S53248x3_032480_000 h_S_),
    unary main_v8 main_v9 ((transpose S3x53248 [1, 0] · transposes_S53248x3_S3x53248_1_0) : (⟨S53248x3, .f32⟩ : BufTy).Contents (Elt F) → (⟨S3x53248, .f32⟩ : BufTy).Contents (Elt F)),
    reshape main_v9 main_v10 rfl shapeCasts_S3x53248_S159744,
    nullary main_c_3 (constantI S_ 32 0#32),
    TRef.unary (.of main_c_3 : TRef sig ⟨S_, .i32⟩) main_call4.v0 id,
    TRef.binary (.of main_arg5 : TRef sig ⟨S50000x3, .i32⟩) main_call4.v0 main_call4.v1 (fun x v => pad S53248x3 ![0, 0] ![3248, 0] ![0, 0] x v pads_S50000x3_S53248x3_032480_000 h_S_),
    unary main_v11 main_v12 ((transpose S3x53248 [1, 0] · transposes_S53248x3_S3x53248_1_0) : (⟨S53248x3, .i32⟩ : BufTy).Contents (Elt F) → (⟨S3x53248, .i32⟩ : BufTy).Contents (Elt F)),
    reshape main_v12 main_v13 rfl shapeCasts_S3x53248_S159744,
    nullary main_c_4 (constantI S_ 32 0#32),
    TRef.unary (.of main_c_4 : TRef sig ⟨S_, .i32⟩) main_call5.v0 (sitofp .f32),
    TRef.binary (.of main_arg3 : TRef sig ⟨S50000x3, .f32⟩) main_call5.v0 main_call5.v1 (fun x v => pad S53248x3 ![0, 0] ![3248, 0] ![0, 0] x v pads_S50000x3_S53248x3_032480_000 h_S_),
    unary main_v14 main_v15 ((transpose S3x53248 [1, 0] · transposes_S53248x3_S3x53248_1_0) : (⟨S53248x3, .f32⟩ : BufTy).Contents (Elt F) → (⟨S3x53248, .f32⟩ : BufTy).Contents (Elt F)),
    reshape main_v15 main_v16 rfl shapeCasts_S3x53248_S159744,
    reshape main_arg6 main_v17 rfl shapeCasts_S25000x9_S225000,
    nullary main_c_5 (constantI S_ 32 24999#32),
    TRef.unary (.of main_c_5 : TRef sig ⟨S_, .i32⟩) main_call6.v0 id,
    TRef.binary (.of main_v17 : TRef sig ⟨S225000, .i32⟩) main_call6.v0 main_call6.v1 (fun x v => pad S229376 ![0] ![4376] ![0] x v pads_S225000_S229376_043760 h_S_),
    nullary main_v19 (iotaInDim S25000 32 0),
    unary main_v19 main_v20 (broadcastInDim S25000x9 ![0] bcast_S25000_S25000x9_0 : (⟨S25000, .i32⟩ : BufTy).Contents (Elt F) → (⟨S25000x9, .i32⟩ : BufTy).Contents (Elt F)),
    reshape main_v20 main_v21 rfl shapeCasts_S25000x9_S225000,
    nullary main_c_6 (constantI S_ 32 24999#32),
    TRef.unary (.of main_c_6 : TRef sig ⟨S_, .i32⟩) main_call7.v0 id,
    TRef.binary (.of main_v21 : TRef sig ⟨S225000, .i32⟩) main_call7.v0 main_call7.v1 (fun x v => pad S229376 ![0] ![4376] ![0] x v pads_S225000_S229376_043760 h_S_) ]

abbrev opsPost : List (HloOp τ sig (Elt F)) :=
  [
    reshape main_v24_0 main_v25 rfl shapeCasts_S159744_S53248x3,
    unary main_v25 main_v26 ((extractStridedSlice S50000x3 ![0, 0] · slices_S53248x3_S50000x3_0_0) : (⟨S53248x3, .f32⟩ : BufTy).Contents (Elt F) → (⟨S50000x3, .f32⟩ : BufTy).Contents (Elt F)),
    unary main_v26 main_v27 (broadcastInDim S1x50000x3 ![1, 2] bcast_S50000x3_S1x50000x3_1_2 : (⟨S50000x3, .f32⟩ : BufTy).Contents (Elt F) → (⟨S1x50000x3, .f32⟩ : BufTy).Contents (Elt F)),
    reshape main_v24_1 main_v28 rfl shapeCasts_S1024_S32x32,
    unary main_v28 main_v29 ((extractStridedSlice S32x16 ![0, 0] · slices_S32x32_S32x16_0_0) : (⟨S32x32, .f32⟩ : BufTy).Contents (Elt F) → (⟨S32x16, .f32⟩ : BufTy).Contents (Elt F)),
    nullary main_cst (constant S_ .f32 0x00000000#32),
    binary main_v29 main_cst main_v30 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
    nullary main_cst_7 (constant S_ .f32 0x46C35000#32),
    binary main_v30 main_cst_7 main_v31 (Host.divf : (⟨S_, .f32⟩ : BufTy).Contents (Elt F) → (⟨S_, .f32⟩ : BufTy).Contents (Elt F) → (⟨S_, .f32⟩ : BufTy).Contents (Elt F)),
    unary main_v28 main_v32 ((extractStridedSlice S32x16 ![0, 16] · slices_S32x32_S32x16_0_16) : (⟨S32x32, .f32⟩ : BufTy).Contents (Elt F) → (⟨S32x16, .f32⟩ : BufTy).Contents (Elt F)),
    nullary main_cst_8 (constant S_ .f32 0x00000000#32),
    binary main_v32 main_cst_8 main_v33 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
    nullary main_cst_9 (constant S_ .f32 0x49F73140#32),
    binary main_v33 main_cst_9 main_v34 (Host.divf : (⟨S_, .f32⟩ : BufTy).Contents (Elt F) → (⟨S_, .f32⟩ : BufTy).Contents (Elt F) → (⟨S_, .f32⟩ : BufTy).Contents (Elt F)) ]

end Cert.KI

end
-- ==== Proof.Common.lean ====
import proofs.«205348_g71287867179597_cont_9to1c4b_113_38_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx
import proofs.«205348_g71287867179597_cont_9to1c4b_113_38_alg».proof.Proof.Gen.KernelIdeal
import proofs.«205348_g71287867179597_cont_9to1c4b_113_38_alg».proof.Proof.Gen.KernelIdeal.Skeleton
import proofs.«205348_g71287867179597_cont_9to1c4b_113_38_alg».proof.Proof.MainOps

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type}

abbrev ΛP : Labels := Pipeline.Sig Λ₀ (Fin 0) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

abbrev EH : Emb UH (MT nD τ sig (HIx 2) (Elt F) ℕ UU ℕ) := embL

variable [FloatOps F]

variable [Facts]
open Facts₀ Facts

set_option maxRecDepth 4096 in
theorem main_eq (d : Dev nD) :
    main (F := F) d = (do seq (opsPre (F := F)); (K (F := F)).run d 0; (K (F := F)).run d 1; seq (opsPost (F := F))) := by
  simp only [main, fn_pad.body, fn_pad_0.body, fn_pad_1.body, fn_pad_2.body, fn_pad_3.body, fn_pad_4.body, seq, bind_assoc, pure_bind]

variable (m : (ℓ : Loc nD τ sig) → Buf (Elt F) ℓ) (ρ : Dev nD → PrngReg)

def V0 (d : Dev nD) : Valuation τ sig (Elt F) := fun b => m (d, b)
def Vpre (d : Dev nD) : Valuation τ sig (Elt F) := after (opsPre (F := F)) (V0 m d)

abbrev locOf (d : Dev nD) (b : Ref sig .tc) : Loc nD τ sig := (SparseCore.T d).loc b

abbrev tNidx (d : Dev nD) : Buf (Elt F) (locOf d main_v7) := Vpre m d (Proc.devRef .tc main_v7)
abbrev tRot (d : Dev nD) : Buf (Elt F) (locOf d main_v3) := Vpre m d (Proc.devRef .tc main_v3)
abbrev tTr (d : Dev nD) : Buf (Elt F) (locOf d main_v6) := Vpre m d (Proc.devRef .tc main_v6)
abbrev tVt (d : Dev nD) : Buf (Elt F) (locOf d main_v10) := Vpre m d (Proc.devRef .tc main_v10)
abbrev tInf (d : Dev nD) : Buf (Elt F) (locOf d main_v13) := Vpre m d (Proc.devRef .tc main_v13)
abbrev tWt (d : Dev nD) : Buf (Elt F) (locOf d main_v16) := Vpre m d (Proc.devRef .tc main_v16)
abbrev tOrn (d : Dev nD) : Buf (Elt F) (locOf d main_v18) := Vpre m d (Proc.devRef .tc main_v18)
abbrev tMrep (d : Dev nD) : Buf (Elt F) (locOf d main_v22) := Vpre m d (Proc.devRef .tc main_v22)

def wid (c : Fin 2) (s : Fin 16) : Fin 32 := ⟨s.val * 2 + c.val, by omega⟩

def at1 {n : ℕ} {α : Type} (f : (⟨1, ![n]⟩ : Shape).Idx → α) (h0 : 0 < n := by decide) (k : ℕ) : α :=
  f (ValueIdx.ix1 ⟨if k < n then k else 0, by split <;> omega⟩)

def ptRows (w : Fin 32) : Finset S28672x128.Idx :=
  Finset.univ.filter fun j => w.val * 896 ≤ (j 0).val ∧ (j 0).val < (w.val + 1) * 896
def owSet (w : Fin 32) : Finset S159744.Idx :=
  Finset.univ.filter fun j => w.val * 4992 ≤ (j 0).val ∧ (j 0).val < (w.val + 1) * 4992
def olSet (w : Fin 32) : Finset S1024.Idx :=
  Finset.univ.filter fun j => w.val * 32 ≤ (j 0).val ∧ (j 0).val < (w.val + 1) * 32

def nodeWord (d : Dev nD) (r col : ℕ) : Elt F .f32 :=
  if col < 3 then at1 (tVt m d) (k := col * 53248 + (at1 (tNidx m d) (k := r) : BitVec 32).toNat)
  else if col < 6 then at1 (tTr m d) (k := r * 3 + (col - 3))
  else at1 (tRot m d) (k := r * 9 + (col - 6))

def PtabOK (d : Dev nD) (f : Buf (Elt F) (locOf d main_v23)) : Prop :=
  ∀ (r : Fin 28672) (col : Fin 128), col.val < 15 → f (ValueIdx.ix2 r col) = nodeWord m d r.val col.val
def PtabTile (d : Dev nD) (w : Fin 32) (f : Buf (Elt F) (locOf d main_v23)) : Prop :=
  ∀ (r : Fin 28672) (col : Fin 128), w.val * 896 ≤ r.val → r.val < (w.val + 1) * 896 → col.val < 15 →
    f (ValueIdx.ix2 r col) = nodeWord m d r.val col.val

def lanes16 {α : Type} (g : ℕ → α) (p : ℕ) : S16.Idx → α := fun x => g (p + (x 0).val)
def rowVec (d : Dev nD) (ids : ℕ → ℕ) (p col : ℕ) : Vec F S16 .f32 := fun x => nodeWord m d (ids (p + (x 0).val)) col

def infId (d : Dev nD) (q : ℕ) : ℕ := (at1 (tInf m d) (k := q) : BitVec 32).toNat
def srcId (d : Dev nD) (q : ℕ) : ℕ := (at1 (tMrep m d) (k := q) : BitVec 32).toNat
def tgtId (d : Dev nD) (q : ℕ) : ℕ := (at1 (tOrn m d) (k := q) : BitVec 32).toNat

def blendTerm (d : Dev nD) (w : Fin 32) (k b i : ℕ) : Vec F S16 .f32 :=
  let v0 := w.val * 1664 + b
  let pc := fun col => rowVec m d (infId m d) (k * 53248 + v0) col
  let vx : Vec F S16 .f32 := lanes16 (fun q => at1 (tVt m d) (k := q)) v0
  let vy : Vec F S16 .f32 := lanes16 (fun q => at1 (tVt m d) (k := q)) (53248 + v0)
  let vz : Vec F S16 .f32 := lanes16 (fun q => at1 (tVt m d) (k := q)) (2 * 53248 + v0)
  let wt : Vec F S16 .f32 := lanes16 (fun q => at1 (tWt m d) (k := q)) (k * 53248 + v0)
  match i with
  | 0 => k1_pay6 (pc 0) (pc 1) (pc 2) (pc 3) (pc 6) (pc 7) (pc 8) vx vy vz wt
  | 1 => k1_pay7 (pc 0) (pc 1) (pc 2) (pc 4) (pc 9) (pc 10) (pc 11) vx vy vz wt
  | _ => k1_pay8 (pc 0) (pc 1) (pc 2) (pc 5) (pc 12) (pc 13) (pc 14) vx vy vz wt

def BlendTile (d : Dev nD) (w : Fin 32) (f : Buf (Elt F) (locOf d main_v24_0)) : Prop :=
  ∀ u i : ℕ, u < 1664 → i < 3 →
    at1 f (k := w.val * 4992 + 3 * u + i)
      = Elt.idxAdd .f32 (Elt.idxAdd .f32 (blendTerm m d w 0 (u / 16 * 16) i (ValueIdx.ix1 ⟨u % 16, Nat.mod_lt _ (by decide)⟩))
          (blendTerm m d w 1 (u / 16 * 16) i (ValueIdx.ix1 ⟨u % 16, Nat.mod_lt _ (by decide)⟩)))
          (blendTerm m d w 2 (u / 16 * 16) i (ValueIdx.ix1 ⟨u % 16, Nat.mod_lt _ (by decide)⟩))

def lossStep (d : Dev nD) (p : ℕ) (acc : Vec F S16 .f32 × Vec F S16 .f32) : Vec F S16 .f32 × Vec F S16 .f32 :=
  let mc := fun col => rowVec m d (srcId m d) p col
  let nc := fun col => rowVec m d (tgtId m d) p col
  (k1_pay101 acc.1 (mc 0) (mc 1) (mc 2) (mc 3) (mc 4) (mc 5) (mc 6) (mc 7) (mc 8) (mc 9) (mc 10) (mc 11) (mc 12) (mc 13) (mc 14)
      (nc 0) (nc 1) (nc 2) (nc 3) (nc 4) (nc 5),
   k1_pay114 (mc 11) (mc 12) (mc 13) (mc 14) (nc 11) (nc 12) (nc 13) (nc 14)
      (k1_pay102 acc.2 (mc 6) (mc 7) (mc 8) (mc 9) (nc 6) (nc 7) (nc 8) (nc 9)) (k1_pay103 (mc 10) (nc 10)))

def lossAcc (d : Dev nD) (w : Fin 32) : ℕ → Vec F S16 .f32 × Vec F S16 .f32
  | 0 => (k1_pay112, k1_pay113)
  | n + 1 => lossStep m d (w.val * 7168 + 16 * n) (lossAcc d w n)

def LossTile (d : Dev nD) (w : Fin 32) (f : Buf (Elt F) (locOf d main_v24_1)) : Prop :=
  ∀ l : Fin 16, at1 f (k := w.val * 32 + l.val) = (lossAcc m d w 448).1 (ValueIdx.ix1 l)
    ∧ at1 f (k := w.val * 32 + 16 + l.val) = (lossAcc m d w 448).2 (ValueIdx.ix1 l)

def RangesOK : Prop :=
  ∀ d : Dev nD,
    (∀ r, r < 28672 → (at1 (tNidx m d) (k := r) : BitVec 32).toNat < 50000)
    ∧ (∀ q, q < 159744 → infId m d q < 25000)
    ∧ (∀ q, q < 229376 → tgtId m d q < 25000)
    ∧ (∀ q, q < 229376 → srcId m d q = min (q / 9) 24999)

local notation "𝕄" => MT nD τ sig (HIx 2) (Elt F) ℕ UU ℕ

abbrev rd (w : Fin 32) : PosShare TreeShare := Transfers.shareTok fullShare 32 w

def go0 (d : Dev nD) (w : Fin 32) : sProp 𝕄 :=
  iprop((locOf d main_v7 ↦{rd w} tNidx m d) ∗ (locOf d main_v3 ↦{rd w} tRot m d) ∗ (locOf d main_v6 ↦{rd w} tTr m d)
    ∗ (locOf d main_v10 ↦{rd w} tVt m d) ∗ (locOf d main_v23 ↦[ptRows w]{fullShare} m (locOf d main_v23)))
def td0 (d : Dev nD) (w : Fin 32) : sProp 𝕄 :=
  iprop((locOf d main_v7 ↦{rd w} tNidx m d) ∗ (locOf d main_v3 ↦{rd w} tRot m d) ∗ (locOf d main_v6 ↦{rd w} tTr m d)
    ∗ (locOf d main_v10 ↦{rd w} tVt m d) ∗ ∃ f, ⌜PtabTile m d w f⌝ ∗ locOf d main_v23 ↦[ptRows w]{fullShare} f)

def go1 (d : Dev nD) (w : Fin 32) : sProp 𝕄 :=
  iprop((∃ f, ⌜PtabOK m d f⌝ ∗ locOf d main_v23 ↦{rd w} f) ∗ (locOf d main_v10 ↦{rd w} tVt m d) ∗ (locOf d main_v13 ↦{rd w} tInf m d)
    ∗ (locOf d main_v16 ↦{rd w} tWt m d) ∗ (locOf d main_v18 ↦{rd w} tOrn m d) ∗ (locOf d main_v22 ↦{rd w} tMrep m d)
    ∗ (locOf d main_v24_0 ↦[owSet w]{fullShare} m (locOf d main_v24_0)) ∗ (locOf d main_v24_1 ↦[olSet w]{fullShare} m (locOf d main_v24_1)))
def td1 (d : Dev nD) (w : Fin 32) : sProp 𝕄 :=
  iprop((∃ f, ⌜BlendTile m d w f⌝ ∗ (locOf d main_v24_0 ↦[owSet w]{fullShare} f)) ∗ (∃ f, ⌜LossTile m d w f⌝ ∗ (locOf d main_v24_1 ↦[olSet w]{fullShare} f)))

theorem nCore_eq (q : Fin 2) : (K (F := F)).nCore q = 2 := by fin_cases q <;> rfl
theorem nSub_eq (q : Fin 2) : (K (F := F)).nSub q = 16 := by fin_cases q <;> rfl

def tileGo (q : Fin 2) (d : Dev nD) (w : Fin 32) : sProp 𝕄 := match q with | 0 => go0 m d w | 1 => go1 m d w
def tileTd (q : Fin 2) (d : Dev nD) (w : Fin 32) : sProp 𝕄 := match q with | 0 => td0 m d w | 1 => td1 m d w

def P : (K (F := F)).Pay (nD := nD) (Val := Elt F) (Name := ℕ) (U := UU) where
  st := fun q d c => bigSep Finset.univ fun i : Fin ((K (F := F)).nSub q) => tileGo m q d (wid (Fin.cast (nCore_eq q) c) (Fin.cast (nSub_eq q) i))
  dn := fun q d c => bigSep Finset.univ fun i : Fin ((K (F := F)).nSub q) => tileTd m q d (wid (Fin.cast (nCore_eq q) c) (Fin.cast (nSub_eq q) i))
  go := fun q d c i => tileGo m q d (wid (Fin.cast (nCore_eq q) c) (Fin.cast (nSub_eq q) i))
  td := fun q d c i => tileTd m q d (wid (Fin.cast (nCore_eq q) c) (Fin.cast (nSub_eq q) i))
  x := fun _ _ => iprop(emp)

def post27 (f0 : FVec F S159744 .f32) : FVec F S1x50000x3 .f32 :=
  broadcastInDim S1x50000x3 ![1, 2] Facts₀.bcast_S50000x3_S1x50000x3_1_2
    (extractStridedSlice S50000x3 ![0, 0] (shapeCast S53248x3 f0 Facts₀.shapeCasts_S159744_S53248x3) Facts₀.slices_S53248x3_S50000x3_0_0)
def post31 (f1 : FVec F S1024 .f32) : FVec F S_ .f32 :=
  Host.divf (Host.reduceAdd (extractStridedSlice S32x16 ![0, 0] (shapeCast S32x32 f1 Facts₀.shapeCasts_S1024_S32x32) Facts₀.slices_S32x32_S32x16_0_0)
      (constant S_ .f32 0x00000000#32) Facts₀.reducesTo_S32x16_S_d0_1 Facts₀.h_S_)
    (constant S_ .f32 0x46C35000#32)
def post34 (f1 : FVec F S1024 .f32) : FVec F S_ .f32 :=
  Host.divf (Host.reduceAdd (extractStridedSlice S32x16 ![0, 16] (shapeCast S32x32 f1 Facts₀.shapeCasts_S1024_S32x32) Facts₀.slices_S32x32_S32x16_0_16)
      (constant S_ .f32 0x00000000#32) Facts₀.reducesTo_S32x16_S_d0_1 Facts₀.h_S_)
    (constant S_ .f32 0x49F73140#32)

def RunPost (d : Dev nD) (mem : (ℓ : Loc nD τ sig) → Buf (Elt F) ℓ) : Prop :=
  (∃ (f0 : Buf (Elt F) (locOf d main_v24_0)) (f1 : Buf (Elt F) (locOf d main_v24_1)),
      (∀ w, BlendTile m d w f0) ∧ (∀ w, LossTile m d w f1)
      ∧ mem (locOf d main_v27) = post27 f0 ∧ mem (locOf d main_v31) = post31 f1 ∧ mem (locOf d main_v34) = post34 f1)
  ∧ mem (locOf d main_arg0) = m (locOf d main_arg0) ∧ mem (locOf d main_arg1) = m (locOf d main_arg1)
  ∧ mem (locOf d main_arg2) = m (locOf d main_arg2) ∧ mem (locOf d main_arg3) = m (locOf d main_arg3)
  ∧ mem (locOf d main_arg4) = m (locOf d main_arg4) ∧ mem (locOf d main_arg5) = m (locOf d main_arg5)
  ∧ mem (locOf d main_arg6) = m (locOf d main_arg6)

end Cert.KI

end
-- ==== Proof.Launch.lean ====
import proofs.«205348_g71287867179597_cont_9to1c4b_113_38_alg».proof.Proof.Common

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F]
variable [Facts]
open Facts₀ Facts

variable (m : (ℓ : Loc nD τ sig) → Buf (Elt F) ℓ) (ρ : Dev nD → PrngReg)

local notation "𝕄" => MT nD τ sig (HIx 2) (Elt F) ℕ UU ℕ

theorem tileGo_storable (q : Fin 2) (d : Dev nD) (w : Fin 32) : BI.Storable (upEmb : UEmb _ 𝕄) (tileGo m q d w) := by
  match q with
  | 0 => show BI.Storable upEmb (go0 m d w); unfold go0; infer_instance
  | 1 => show BI.Storable upEmb (go1 m d w); unfold go1; infer_instance
theorem tileTd_storable (q : Fin 2) (d : Dev nD) (w : Fin 32) : BI.Storable (upEmb : UEmb _ 𝕄) (tileTd m q d w) := by
  match q with
  | 0 => show BI.Storable upEmb (td0 m d w); unfold td0; infer_instance
  | 1 => show BI.Storable upEmb (td1 m d w); unfold td1; infer_instance

instance P_storable : (P (F := F) m).IsStorable where
  st q d c := by
    have := tileGo_storable m q d
    unfold P; dsimp only; infer_instance
  dn q d c := by
    have := tileTd_storable m q d
    unfold P; dsimp only; infer_instance
  go q d c i := by unfold P; dsimp only; exact tileGo_storable m q d _
  td q d c i := by unfold P; dsimp only; exact tileTd_storable m q d _

theorem vecSplit0 : (K (F := F)).VecSplit' (P m) 0 := by
  intro d c
  have e1 : (P m).st 0 d c = bigSep Finset.univ fun i : Fin ((K (F := F)).nSub 0) => (P m).go 0 d c i := rfl
  have e2 : (P m).dn 0 d c = bigSep Finset.univ fun i : Fin ((K (F := F)).nSub 0) => (P m).td 0 d c i := rfl
  rw [e1, e2]
  iintro H; imodintro
  isplitl [H]; · iexact H
  iintro H; iexact H
theorem vecSplit1 : (K (F := F)).VecSplit' (P m) 1 := by
  intro d c
  have e1 : (P m).st 1 d c = bigSep Finset.univ fun i : Fin ((K (F := F)).nSub 1) => (P m).go 1 d c i := rfl
  have e2 : (P m).dn 1 d c = bigSep Finset.univ fun i : Fin ((K (F := F)).nSub 1) => (P m).td 1 d c i := rfl
  rw [e1, e2]
  iintro H; imodintro
  isplitl [H]; · iexact H
  iintro H; iexact H

def u₀ : UU := (initOf (K (F := F)).hsCells (K (F := F)).hsToks, 1)

omit [FloatOps F] [Facts] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 2 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

abbrev FIN (d : Dev nD) : sProp 𝕄 :=
  iprop((locOf d main_arg0 ↦{fullShare} m (locOf d main_arg0)) ∗ (locOf d main_arg1 ↦{fullShare} m (locOf d main_arg1))
    ∗ (locOf d main_arg2 ↦{fullShare} m (locOf d main_arg2)) ∗ (locOf d main_arg3 ↦{fullShare} m (locOf d main_arg3))
    ∗ (locOf d main_arg4 ↦{fullShare} m (locOf d main_arg4)) ∗ (locOf d main_arg5 ↦{fullShare} m (locOf d main_arg5))
    ∗ (locOf d main_arg6 ↦{fullShare} m (locOf d main_arg6))
    ∗ ∃ (f0 : Buf (Elt F) (locOf d main_v24_0)) (f1 : Buf (Elt F) (locOf d main_v24_1)),
        ⌜(∀ w, BlendTile m d w f0) ∧ (∀ w, LossTile m d w f1)⌝
        ∗ (locOf d main_v27 ↦{fullShare} post27 f0) ∗ (locOf d main_v31 ↦{fullShare} post31 f1) ∗ (locOf d main_v34 ↦{fullShare} post34 f1))

omit [FloatOps F] [Facts] in
theorem regroup (Φ : Fin 32 → sProp 𝕄) :
    (bigSep Finset.univ fun c : Fin 2 => bigSep Finset.univ fun i : Fin 16 => Φ (wid c i)) = bigSep Finset.univ Φ := by
  have hinj : Function.Injective fun p : Fin 2 × Fin 16 => wid p.1 p.2 := by
    rintro ⟨c, s⟩ ⟨c', s'⟩ h
    have h' : s.val * 2 + c.val = s'.val * 2 + c'.val := congrArg Fin.val h
    have hc := c.isLt; have hc' := c'.isLt
    exact Prod.ext (Fin.ext (show c.val = c'.val by omega)) (Fin.ext (show s.val = s'.val by omega))
  have huniv : (Finset.univ : Finset (Fin 32)) = (Finset.univ ×ˢ Finset.univ : Finset (Fin 2 × Fin 16)).map ⟨_, hinj⟩ := by
    refine Finset.ext fun w => ⟨fun _ => ?_, fun _ => Finset.mem_univ _⟩
    have hw := w.isLt
    exact Finset.mem_map.mpr ⟨(⟨w.val % 2, by omega⟩, ⟨w.val / 2, by omega⟩), Finset.mem_product.mpr ⟨Finset.mem_univ _, Finset.mem_univ _⟩,
      Fin.ext (show w.val / 2 * 2 + w.val % 2 = w.val by omega)⟩
  rw [huniv, bigSep_map, SparseCore.bigSep_product]
  rfl

omit [FloatOps F] [Facts] in
theorem ptRows_disjoint : ∀ w ∈ (Finset.univ : Finset (Fin 32)), ∀ w' ∈ (Finset.univ : Finset (Fin 32)), w ≠ w' → Disjoint (ptRows w) (ptRows w') := by
  intro w _ w' _ h
  refine Finset.disjoint_left.mpr fun j h1 h2 => h (Fin.ext ?_)
  have a := (Finset.mem_filter.mp h1).2; have b := (Finset.mem_filter.mp h2).2
  omega
omit [FloatOps F] [Facts] in
theorem ptRows_cover : (Finset.univ : Finset (Fin 32)).biUnion ptRows = Finset.univ := by
  ext j
  simp only [Finset.mem_biUnion, Finset.mem_univ, true_and, iff_true]
  have hj : (j 0).val < 28672 := ValueIdx.idx2_lt0 j
  exact ⟨⟨(j 0).val / 896, by omega⟩, Finset.mem_filter.mpr ⟨Finset.mem_univ _, by show (j 0).val / 896 * 896 ≤ _ ∧ _ < ((j 0).val / 896 + 1) * 896; omega⟩⟩
omit [FloatOps F] [Facts] in
theorem owSet_disjoint : ∀ w ∈ (Finset.univ : Finset (Fin 32)), ∀ w' ∈ (Finset.univ : Finset (Fin 32)), w ≠ w' → Disjoint (owSet w) (owSet w') := by
  intro w _ w' _ h
  refine Finset.disjoint_left.mpr fun j h1 h2 => h (Fin.ext ?_)
  have a := (Finset.mem_filter.mp h1).2; have b := (Finset.mem_filter.mp h2).2
  omega
omit [FloatOps F] [Facts] in
theorem owSet_cover : (Finset.univ : Finset (Fin 32)).biUnion owSet = Finset.univ := by
  ext j
  simp only [Finset.mem_biUnion, Finset.mem_univ, true_and, iff_true]
  have hj : (j 0).val < 159744 := (j 0).isLt
  exact ⟨⟨(j 0).val / 4992, by omega⟩, Finset.mem_filter.mpr ⟨Finset.mem_univ _, by show (j 0).val / 4992 * 4992 ≤ _ ∧ _ < ((j 0).val / 4992 + 1) * 4992; omega⟩⟩
omit [FloatOps F] [Facts] in
theorem olSet_disjoint : ∀ w ∈ (Finset.univ : Finset (Fin 32)), ∀ w' ∈ (Finset.univ : Finset (Fin 32)), w ≠ w' → Disjoint (olSet w) (olSet w') := by
  intro w _ w' _ h
  refine Finset.disjoint_left.mpr fun j h1 h2 => h (Fin.ext ?_)
  have a := (Finset.mem_filter.mp h1).2; have b := (Finset.mem_filter.mp h2).2
  omega
omit [FloatOps F] [Facts] in
theorem olSet_cover : (Finset.univ : Finset (Fin 32)).biUnion olSet = Finset.univ := by
  ext j
  simp only [Finset.mem_biUnion, Finset.mem_univ, true_and, iff_true]
  have hj : (j 0).val < 1024 := (j 0).isLt
  exact ⟨⟨(j 0).val / 32, by omega⟩, Finset.mem_filter.mpr ⟨Finset.mem_univ _, by show (j 0).val / 32 * 32 ≤ _ ∧ _ < ((j 0).val / 32 + 1) * 32; omega⟩⟩

theorem whole_cut {ℓ : Loc nD τ sig} (Kw : Fin 32 → Finset (Idx ℓ))
    (hd : ∀ w ∈ (Finset.univ : Finset (Fin 32)), ∀ w' ∈ (Finset.univ : Finset (Fin 32)), w ≠ w' → Disjoint (Kw w) (Kw w'))
    (hc : (Finset.univ : Finset (Fin 32)).biUnion Kw = Finset.univ) (f : Buf (Elt F) ℓ) :
    (ℓ ↦{fullShare} f : sProp 𝕄) = bigSep Finset.univ fun w : Fin 32 => ℓ ↦[Kw w]{fullShare} f := by
  rw [← pointsTo_biUnion Finset.univ (ℓ := ℓ) Kw hd, hc]

theorem rows_join {ℓ : Loc nD τ sig} (Kw : Fin 32 → Finset (Idx ℓ))
    (hd : ∀ w ∈ (Finset.univ : Finset (Fin 32)), ∀ w' ∈ (Finset.univ : Finset (Fin 32)), w ≠ w' → Disjoint (Kw w) (Kw w'))
    (hc : (Finset.univ : Finset (Fin 32)).biUnion Kw = Finset.univ)
    (φ : Fin 32 → Buf (Elt F) ℓ → Prop) (ψ : Buf (Elt F) ℓ → Prop)
    (h : ∀ (fs : Fin 32 → Buf (Elt F) ℓ) (g : Buf (Elt F) ℓ), (∀ w, φ w (fs w)) → (∀ w, ∀ i ∈ Kw w, g i = fs w i) → ψ g) :
    (bigSep Finset.univ fun w : Fin 32 => iprop(∃ f, ⌜φ w f⌝ ∗ ℓ ↦[Kw w]{fullShare} f)) ⊢ (iprop(∃ g, ⌜ψ g⌝ ∗ ℓ ↦{fullShare} g) : sProp 𝕄) := by
  refine (bigSep_exists_pi Finset.univ (fun w (f : Buf (Elt F) ℓ) => iprop(⌜φ w f⌝ ∗ ℓ ↦[Kw w]{fullShare} f))).trans ?_
  iintro ⟨%fs, H⟩
  ihave H' := (bigSep_pure_sep Finset.univ (fun w => φ w (fs w)) (fun w => (ℓ ↦[Kw w]{fullShare} fs w : sProp 𝕄))) $$ H
  icases H' with ⟨%hφ, H⟩
  ihave H' := (pointsTo_biUnion_join Finset.univ Kw fs (fs 0) hd) $$ H
  icases H' with ⟨%g, %hg, Hg⟩
  rw [hc]
  iexists g
  isplitr
  · ipureintro; exact h fs g (fun w => hφ w (Finset.mem_univ w)) (fun w => hg w (Finset.mem_univ w))
  · iexact Hg

theorem ptab_join (d : Dev nD) :
    (bigSep Finset.univ fun w : Fin 32 => iprop(∃ f, ⌜PtabTile m d w f⌝ ∗ locOf d main_v23 ↦[ptRows w]{fullShare} f))
      ⊢ (iprop(∃ g, ⌜PtabOK m d g⌝ ∗ locOf d main_v23 ↦{fullShare} g) : sProp 𝕄) := by
  refine rows_join (ℓ := locOf d main_v23) ptRows ptRows_disjoint ptRows_cover (fun w f => PtabTile m d w f) (fun g => PtabOK m d g) ?_
  intro fs g hφ hg r col hcol
  have hr := r.isLt
  have hlo : r.val / 896 * 896 ≤ r.val := by omega
  have hhi : r.val < (r.val / 896 + 1) * 896 := by omega
  rw [hg ⟨r.val / 896, by omega⟩ (ValueIdx.ix2 r col) (Finset.mem_filter.mpr ⟨Finset.mem_univ _, hlo, hhi⟩)]
  exact hφ ⟨r.val / 896, by omega⟩ r col hlo hhi hcol

omit [Facts] in
theorem at1_congr {n : ℕ} {α : Type} (f g : (⟨1, ![n]⟩ : Shape).Idx → α) (h0 : 0 < n) (k : ℕ) (hk : k < n)
    (h : g (ValueIdx.ix1 ⟨k, hk⟩) = f (ValueIdx.ix1 ⟨k, hk⟩)) : at1 g h0 k = at1 f h0 k := by
  unfold at1
  have e : (⟨if k < n then k else 0, by split <;> omega⟩ : Fin n) = ⟨k, hk⟩ := Fin.ext (if_pos hk)
  rw [e]; exact h

theorem blend_join (d : Dev nD) :
    (bigSep Finset.univ fun w : Fin 32 => iprop(∃ f, ⌜BlendTile m d w f⌝ ∗ locOf d main_v24_0 ↦[owSet w]{fullShare} f))
      ⊢ (iprop(∃ g, ⌜∀ w, BlendTile m d w g⌝ ∗ locOf d main_v24_0 ↦{fullShare} g) : sProp 𝕄) := by
  refine rows_join (ℓ := locOf d main_v24_0) owSet owSet_disjoint owSet_cover (fun w f => BlendTile m d w f) (fun g => ∀ w, BlendTile m d w g) ?_
  intro fs g hφ hg w u i hu hi
  have hw := w.isLt
  have hk : w.val * 4992 + 3 * u + i < 159744 := by omega
  rw [at1_congr (fs w) g (by decide) _ hk (hg w _ (Finset.mem_filter.mpr ⟨Finset.mem_univ _, by show w.val * 4992 ≤ w.val * 4992 + 3 * u + i; omega, by show w.val * 4992 + 3 * u + i < _; omega⟩))]
  exact hφ w u i hu hi

theorem loss_join (d : Dev nD) :
    (bigSep Finset.univ fun w : Fin 32 => iprop(∃ f, ⌜LossTile m d w f⌝ ∗ locOf d main_v24_1 ↦[olSet w]{fullShare} f))
      ⊢ (iprop(∃ g, ⌜∀ w, LossTile m d w g⌝ ∗ locOf d main_v24_1 ↦{fullShare} g) : sProp 𝕄) := by
  refine rows_join (ℓ := locOf d main_v24_1) olSet olSet_disjoint olSet_cover (fun w f => LossTile m d w f) (fun g => ∀ w, LossTile m d w g) ?_
  intro fs g hφ hg w l
  have hw := w.isLt; have hl := l.isLt
  have hk1 : w.val * 32 + l.val < 1024 := by omega
  have hk2 : w.val * 32 + 16 + l.val < 1024 := by omega
  rw [at1_congr (fs w) g (by decide) _ hk1 (hg w _ (Finset.mem_filter.mpr ⟨Finset.mem_univ _, by show w.val * 32 ≤ w.val * 32 + l.val; omega, by show w.val * 32 + l.val < _; omega⟩)),
    at1_congr (fs w) g (by decide) _ hk2 (hg w _ (Finset.mem_filter.mpr ⟨Finset.mem_univ _, by show w.val * 32 ≤ w.val * 32 + 16 + l.val; omega, by show w.val * 32 + 16 + l.val < _; omega⟩))]
  exact hφ w l

local notation "r'" => Proc.devRef (τ := τ) (sig := sig) Proc.tc

abbrev rE : Ref sig .tc ↪ DevRef τ sig := ⟨Proc.devRef (τ := τ) (sig := sig) Proc.tc, Proc.devRef_injective _⟩

omit [FloatOps F] [Facts] in
theorem held_map (d : Dev nD) (R : Finset (Ref sig .tc)) (W : Valuation τ sig (Elt F)) :
    (held (T d) (R.map rE) W : sProp 𝕄) = bigSep R fun b => locOf d b ↦{fullShare} W (r' b) := by
  unfold held; rw [bigSep_map]; rfl

omit [FloatOps F] [Facts] in
theorem bigSep_cut {R R' : Finset (Ref sig .tc)} (h : R' ⊆ R) (Φ : Ref sig .tc → sProp 𝕄) :
    bigSep R Φ = iprop(bigSep R' Φ ∗ bigSep (R \ R') Φ) := by
  conv_lhs => rw [← Finset.union_sdiff_of_subset h]
  exact bigSep_union Finset.disjoint_sdiff

theorem all_unscoped : ∀ b : Ref sig .tc, ¬ b.isScoped := by decide

omit [FloatOps F] [Facts] in
theorem unscoped_held (d : Dev nD) : (unscopedBufs d (fun b => m ((SparseCore.T d).loc b)) : sProp 𝕄) = held (T d) (tcRefs τ sig) (V0 m d) := by
  unfold unscopedBufs
  rw [Finset.filter_true_of_mem (fun b _ => all_unscoped b)]
  exact (held_map d Finset.univ (V0 m d)).symm

abbrev R11 : Finset (Ref sig .tc) := {main_v7, main_v3, main_v6, main_v10, main_v13, main_v16, main_v18, main_v22, main_v23, main_v24_0, main_v24_1}
abbrev Rrest : Finset (Ref sig .tc) := Finset.univ \ R11
abbrev Rsuf : Finset (Ref sig .tc) := insert main_v24_0 (insert main_v24_1 Rrest)
abbrev R10 : Finset (Ref sig .tc) := {main_arg0, main_arg1, main_arg2, main_arg3, main_arg4, main_arg5, main_arg6, main_v27, main_v31, main_v34}

omit [FloatOps F] [Facts] in
theorem bigSep_R11 (Φ : Ref sig .tc → sProp 𝕄) :
    bigSep R11 Φ = iprop(Φ main_v7 ∗ Φ main_v3 ∗ Φ main_v6 ∗ Φ main_v10 ∗ Φ main_v13 ∗ Φ main_v16 ∗ Φ main_v18 ∗ Φ main_v22 ∗ Φ main_v23 ∗ Φ main_v24_0 ∗ Φ main_v24_1) := by
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
omit [FloatOps F] [Facts] in
theorem bigSep_R10 (Φ : Ref sig .tc → sProp 𝕄) :
    bigSep R10 Φ = iprop(Φ main_arg0 ∗ Φ main_arg1 ∗ Φ main_arg2 ∗ Φ main_arg3 ∗ Φ main_arg4 ∗ Φ main_arg5 ∗ Φ main_arg6 ∗ Φ main_v27 ∗ Φ main_v31 ∗ Φ main_v34) := by
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] [Facts] in
theorem held_all (d : Dev nD) (W : Valuation τ sig (Elt F)) :
    (held (T d) (tcRefs τ sig) W : sProp 𝕄)
      = iprop(((locOf d main_v7 ↦{fullShare} W (r' main_v7))
          ∗ (locOf d main_v3 ↦{fullShare} W (r' main_v3))
          ∗ (locOf d main_v6 ↦{fullShare} W (r' main_v6))
          ∗ (locOf d main_v10 ↦{fullShare} W (r' main_v10))
          ∗ (locOf d main_v13 ↦{fullShare} W (r' main_v13))
          ∗ (locOf d main_v16 ↦{fullShare} W (r' main_v16))
          ∗ (locOf d main_v18 ↦{fullShare} W (r' main_v18))
          ∗ (locOf d main_v22 ↦{fullShare} W (r' main_v22))
          ∗ (locOf d main_v23 ↦{fullShare} W (r' main_v23))
          ∗ (locOf d main_v24_0 ↦{fullShare} W (r' main_v24_0))
          ∗ (locOf d main_v24_1 ↦{fullShare} W (r' main_v24_1)))
          ∗ bigSep Rrest fun b => locOf d b ↦{fullShare} W (r' b)) := by
  show (held (T d) (Finset.univ.map rE) W : sProp 𝕄) = _
  rw [held_map, bigSep_cut (Finset.subset_univ R11), bigSep_R11]

theorem opsPre_sub : (opsPre (F := F)).Forall fun op => op.bufs ⊆ tcRefs τ sig :=
  ⟨reshape_bufs_sub .., reshape_bufs_sub .., nullary_bufs_sub .., unary_bufs_sub .., binary_bufs_sub .., reshape_bufs_sub .., reshape_bufs_sub .., nullary_bufs_sub .., unary_bufs_sub .., binary_bufs_sub .., reshape_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., unary_bufs_sub .., reshape_bufs_sub .., nullary_bufs_sub .., unary_bufs_sub .., binary_bufs_sub .., unary_bufs_sub .., reshape_bufs_sub .., reshape_bufs_sub .., nullary_bufs_sub .., unary_bufs_sub .., binary_bufs_sub .., nullary_bufs_sub .., unary_bufs_sub .., reshape_bufs_sub .., nullary_bufs_sub .., unary_bufs_sub .., binary_bufs_sub ..⟩
theorem opsPre_fresh : (opsPre (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

omit [FloatOps F] [Facts] in
theorem sub1 {R : Finset (Ref sig .tc)} {y : Ref sig .tc} (hy : y ∈ R) : ({r' y} : Finset (DevRef τ sig)) ⊆ R.map rE :=
  Finset.singleton_subset_iff.mpr (Finset.mem_map_of_mem rE hy)
omit [FloatOps F] [Facts] in
theorem sub2 {R : Finset (Ref sig .tc)} {x y : Ref sig .tc} (hx : x ∈ R) (hy : y ∈ R) : ({r' x, r' y} : Finset (DevRef τ sig)) ⊆ R.map rE :=
  Finset.insert_subset (Finset.mem_map_of_mem rE hx) (sub1 hy)
omit [FloatOps F] [Facts] in
theorem sub3 {R : Finset (Ref sig .tc)} {a b y : Ref sig .tc} (ha : a ∈ R) (hb : b ∈ R) (hy : y ∈ R) :
    ({r' a, r' b, r' y} : Finset (DevRef τ sig)) ⊆ R.map rE :=
  Finset.insert_subset (Finset.mem_map_of_mem rE ha) (sub2 hb hy)

theorem opsPost_sub : (opsPost (F := F)).Forall fun op => op.bufs ⊆ Rsuf.map rE :=
  ⟨sub2 (x := main_v24_0) (y := main_v25) (by decide) (by decide),
    sub2 (x := main_v25) (y := main_v26) (by decide) (by decide),
    sub2 (x := main_v26) (y := main_v27) (by decide) (by decide),
    sub2 (x := main_v24_1) (y := main_v28) (by decide) (by decide),
    sub2 (x := main_v28) (y := main_v29) (by decide) (by decide),
    sub1 (y := main_cst) (by decide),
    sub3 (a := main_v29) (b := main_cst) (y := main_v30) (by decide) (by decide) (by decide),
    sub1 (y := main_cst_7) (by decide),
    sub3 (a := main_v30) (b := main_cst_7) (y := main_v31) (by decide) (by decide) (by decide),
    sub2 (x := main_v28) (y := main_v32) (by decide) (by decide),
    sub1 (y := main_cst_8) (by decide),
    sub3 (a := main_v32) (b := main_cst_8) (y := main_v33) (by decide) (by decide) (by decide),
    sub1 (y := main_cst_9) (by decide),
    sub3 (a := main_v33) (b := main_cst_9) (y := main_v34) (by decide) (by decide) (by decide)⟩
theorem opsPost_fresh : (opsPost (F := F)).Forall fun op => op.fresh = ∅ :=
  ⟨rfl, rfl, rfl, rfl, rfl, rfl, rfl, rfl, rfl, rfl, rfl, rfl, rfl, rfl⟩

set_option maxRecDepth 4096 in
theorem Vpre_keep_arg0 (d : Dev nD) : Vpre m d (r' main_arg0) = m (locOf d main_arg0) := by
  unfold Vpre; after_results; rfl
set_option maxRecDepth 4096 in
theorem Vpre_keep_arg1 (d : Dev nD) : Vpre m d (r' main_arg1) = m (locOf d main_arg1) := by
  unfold Vpre; after_results; rfl
set_option maxRecDepth 4096 in
theorem Vpre_keep_arg2 (d : Dev nD) : Vpre m d (r' main_arg2) = m (locOf d main_arg2) := by
  unfold Vpre; after_results; rfl
set_option maxRecDepth 4096 in
theorem Vpre_keep_arg3 (d : Dev nD) : Vpre m d (r' main_arg3) = m (locOf d main_arg3) := by
  unfold Vpre; after_results; rfl
set_option maxRecDepth 4096 in
theorem Vpre_keep_arg4 (d : Dev nD) : Vpre m d (r' main_arg4) = m (locOf d main_arg4) := by
  unfold Vpre; after_results; rfl
set_option maxRecDepth 4096 in
theorem Vpre_keep_arg5 (d : Dev nD) : Vpre m d (r' main_arg5) = m (locOf d main_arg5) := by
  unfold Vpre; after_results; rfl
set_option maxRecDepth 4096 in
theorem Vpre_keep_arg6 (d : Dev nD) : Vpre m d (r' main_arg6) = m (locOf d main_arg6) := by
  unfold Vpre; after_results; rfl
set_option maxRecDepth 4096 in
theorem Vpre_keep_v23 (d : Dev nD) : Vpre m d (r' main_v23) = m (locOf d main_v23) := by
  unfold Vpre; after_results; rfl
set_option maxRecDepth 4096 in
theorem Vpre_keep_v24_0 (d : Dev nD) : Vpre m d (r' main_v24_0) = m (locOf d main_v24_0) := by
  unfold Vpre; after_results; rfl
set_option maxRecDepth 4096 in
theorem Vpre_keep_v24_1 (d : Dev nD) : Vpre m d (r' main_v24_1) = m (locOf d main_v24_1) := by
  unfold Vpre; after_results; rfl

set_option maxRecDepth 4096 in
theorem post_keep_arg0 (W : Valuation τ sig (Elt F)) : after (opsPost (F := F)) W (r' main_arg0) = W (r' main_arg0) := by
  after_results
set_option maxRecDepth 4096 in
theorem post_keep_arg1 (W : Valuation τ sig (Elt F)) : after (opsPost (F := F)) W (r' main_arg1) = W (r' main_arg1) := by
  after_results
set_option maxRecDepth 4096 in
theorem post_keep_arg2 (W : Valuation τ sig (Elt F)) : after (opsPost (F := F)) W (r' main_arg2) = W (r' main_arg2) := by
  after_results
set_option maxRecDepth 4096 in
theorem post_keep_arg3 (W : Valuation τ sig (Elt F)) : after (opsPost (F := F)) W (r' main_arg3) = W (r' main_arg3) := by
  after_results
set_option maxRecDepth 4096 in
theorem post_keep_arg4 (W : Valuation τ sig (Elt F)) : after (opsPost (F := F)) W (r' main_arg4) = W (r' main_arg4) := by
  after_results
set_option maxRecDepth 4096 in
theorem post_keep_arg5 (W : Valuation τ sig (Elt F)) : after (opsPost (F := F)) W (r' main_arg5) = W (r' main_arg5) := by
  after_results
set_option maxRecDepth 4096 in
theorem post_keep_arg6 (W : Valuation τ sig (Elt F)) : after (opsPost (F := F)) W (r' main_arg6) = W (r' main_arg6) := by
  after_results

set_option maxRecDepth 4096 in
theorem post_v27 (W : Valuation τ sig (Elt F)) : after (opsPost (F := F)) W (r' main_v27) = post27 (W (r' main_v24_0)) := by
  after_results; rfl
set_option maxRecDepth 4096 in
theorem post_v31 (W : Valuation τ sig (Elt F)) : after (opsPost (F := F)) W (r' main_v31) = post31 (W (r' main_v24_1)) := by
  after_results; rfl
set_option maxRecDepth 4096 in
theorem post_v34 (W : Valuation τ sig (Elt F)) : after (opsPost (F := F)) W (r' main_v34) = post34 (W (r' main_v24_1)) := by
  after_results; rfl

def V2 (d : Dev nD) (f0 : Buf (Elt F) (locOf d main_v24_0)) (f1 : Buf (Elt F) (locOf d main_v24_1)) : Valuation τ sig (Elt F) :=
  Function.update (Function.update (Vpre m d) (r' main_v24_0) f0) (r' main_v24_1) f1

theorem V2_0 (d : Dev nD) (f0 : Buf (Elt F) (locOf d main_v24_0)) (f1 : Buf (Elt F) (locOf d main_v24_1)) : V2 m d f0 f1 (r' main_v24_0) = f0 := by
  unfold V2; rw [Function.update_of_ne (devRef_ne_of_ne (by decide)), Function.update_self]
theorem V2_1 (d : Dev nD) (f0 : Buf (Elt F) (locOf d main_v24_0)) (f1 : Buf (Elt F) (locOf d main_v24_1)) : V2 m d f0 f1 (r' main_v24_1) = f1 :=
  Function.update_self _ _ _
theorem V2_rest (d : Dev nD) (f0 : Buf (Elt F) (locOf d main_v24_0)) (f1 : Buf (Elt F) (locOf d main_v24_1)) (b : Ref sig .tc) (hb : b ∈ Rrest) :
    V2 m d f0 f1 (r' b) = Vpre m d (r' b) := by
  have h0 : b ≠ main_v24_0 := fun h => (Finset.mem_sdiff.mp hb).2 (by rw [h]; decide)
  have h1 : b ≠ main_v24_1 := fun h => (Finset.mem_sdiff.mp hb).2 (by rw [h]; decide)
  unfold V2; rw [Function.update_of_ne (devRef_ne_of_ne h1), Function.update_of_ne (devRef_ne_of_ne h0)]

theorem held_pre (d : Dev nD) :
    (held (T d) (tcRefs τ sig) (Vpre m d) : sProp 𝕄)
      = iprop(((locOf d main_v7 ↦{fullShare} tNidx m d) ∗ (locOf d main_v3 ↦{fullShare} tRot m d) ∗ (locOf d main_v6 ↦{fullShare} tTr m d)
          ∗ (locOf d main_v10 ↦{fullShare} tVt m d) ∗ (locOf d main_v13 ↦{fullShare} tInf m d) ∗ (locOf d main_v16 ↦{fullShare} tWt m d)
          ∗ (locOf d main_v18 ↦{fullShare} tOrn m d) ∗ (locOf d main_v22 ↦{fullShare} tMrep m d)
          ∗ (locOf d main_v23 ↦{fullShare} m (locOf d main_v23)) ∗ (locOf d main_v24_0 ↦{fullShare} m (locOf d main_v24_0))
          ∗ (locOf d main_v24_1 ↦{fullShare} m (locOf d main_v24_1)))
          ∗ bigSep Rrest fun b => locOf d b ↦{fullShare} Vpre m d (r' b)) := by
  rw [held_all, Vpre_keep_v23, Vpre_keep_v24_0, Vpre_keep_v24_1]

theorem held_suf (d : Dev nD) (f0 : Buf (Elt F) (locOf d main_v24_0)) (f1 : Buf (Elt F) (locOf d main_v24_1)) :
    (iprop((locOf d main_v24_0 ↦{fullShare} f0) ∗ (locOf d main_v24_1 ↦{fullShare} f1) ∗ bigSep Rrest fun b => locOf d b ↦{fullShare} Vpre m d (r' b)) : sProp 𝕄)
      = held (T d) (Rsuf.map rE) (V2 m d f0 f1) := by
  have e : (bigSep Rrest fun b => (locOf d b ↦{fullShare} V2 m d f0 f1 (r' b) : sProp 𝕄)) = bigSep Rrest fun b => locOf d b ↦{fullShare} Vpre m d (r' b) :=
    bigSep_congr fun b hb => by rw [V2_rest m d f0 f1 b hb]
  rw [held_map, SparseCore.bigSep_insert' (by decide), SparseCore.bigSep_insert' (by decide), V2_0, V2_1, e]

theorem held_fin (d : Dev nD) (f0 : Buf (Elt F) (locOf d main_v24_0)) (f1 : Buf (Elt F) (locOf d main_v24_1)) :
    (held (T d) (Rsuf.map rE) (after (opsPost (F := F)) (V2 m d f0 f1)) : sProp 𝕄)
      = iprop(((locOf d main_arg0 ↦{fullShare} m (locOf d main_arg0)) ∗ (locOf d main_arg1 ↦{fullShare} m (locOf d main_arg1)) ∗ (locOf d main_arg2 ↦{fullShare} m (locOf d main_arg2)) ∗ (locOf d main_arg3 ↦{fullShare} m (locOf d main_arg3)) ∗ (locOf d main_arg4 ↦{fullShare} m (locOf d main_arg4)) ∗ (locOf d main_arg5 ↦{fullShare} m (locOf d main_arg5)) ∗ (locOf d main_arg6 ↦{fullShare} m (locOf d main_arg6))
          ∗ (locOf d main_v27 ↦{fullShare} post27 f0) ∗ (locOf d main_v31 ↦{fullShare} post31 f1) ∗ (locOf d main_v34 ↦{fullShare} post34 f1))
          ∗ bigSep (Rsuf \ R10) fun b => locOf d b ↦{fullShare} after (opsPost (F := F)) (V2 m d f0 f1) (r' b)) := by
  rw [held_map, bigSep_cut (show R10 ⊆ Rsuf by decide), bigSep_R10,
    post_keep_arg0, post_keep_arg1, post_keep_arg2, post_keep_arg3, post_keep_arg4, post_keep_arg5, post_keep_arg6, post_v27, post_v31, post_v34, V2_0, V2_1,
    V2_rest m d f0 f1 main_arg0 (by decide), Vpre_keep_arg0, V2_rest m d f0 f1 main_arg1 (by decide), Vpre_keep_arg1, V2_rest m d f0 f1 main_arg2 (by decide), Vpre_keep_arg2, V2_rest m d f0 f1 main_arg3 (by decide), Vpre_keep_arg3, V2_rest m d f0 f1 main_arg4 (by decide), Vpre_keep_arg4, V2_rest m d f0 f1 main_arg5 (by decide), Vpre_keep_arg5, V2_rest m d f0 f1 main_arg6 (by decide), Vpre_keep_arg6]

theorem st0_eq (d : Dev nD) : (bigSep Finset.univ fun c : Fin ((K (F := F)).nCore 0) => (P m).st 0 d c) = bigSep Finset.univ fun w : Fin 32 => go0 m d w := by
  rw [← regroup]; rfl
theorem dn0_eq (d : Dev nD) : (bigSep Finset.univ fun c : Fin ((K (F := F)).nCore 0) => (P m).dn 0 d c) = bigSep Finset.univ fun w : Fin 32 => td0 m d w := by
  rw [← regroup]; rfl
theorem st1_eq (d : Dev nD) : (bigSep Finset.univ fun c : Fin ((K (F := F)).nCore 1) => (P m).st 1 d c) = bigSep Finset.univ fun w : Fin 32 => go1 m d w := by
  rw [← regroup]; rfl
theorem dn1_eq (d : Dev nD) : (bigSep Finset.univ fun c : Fin ((K (F := F)).nCore 1) => (P m).dn 1 d c) = bigSep Finset.univ fun w : Fin 32 => td1 m d w := by
  rw [← regroup]; rfl

local notation "drop32" => Transfers.shareDrop fullShare 32

theorem cut0 (d : Dev nD) :
    iprop((locOf d main_v7 ↦{fullShare} tNidx m d) ∗ (locOf d main_v3 ↦{fullShare} tRot m d) ∗ (locOf d main_v6 ↦{fullShare} tTr m d)
        ∗ (locOf d main_v10 ↦{fullShare} tVt m d) ∗ (locOf d main_v23 ↦{fullShare} m (locOf d main_v23)))
      ⊢ (iprop((bigSep Finset.univ fun c : Fin ((K (F := F)).nCore 0) => (P m).st 0 d c) ∗ (locOf d main_v10 ↦{drop32} tVt m d)) : sProp 𝕄) := by
  rw [st0_eq]; unfold go0
  rw [bigSep_sep', bigSep_sep', bigSep_sep', bigSep_sep', whole_cut (ℓ := locOf d main_v23) ptRows ptRows_disjoint ptRows_cover]
  iintro ⟨H7, H3, H6, H10, H23⟩
  ihave H7' := (Transfers.pointsTo_toks_split fullShare 32) $$ H7
  icases H7' with ⟨-, H7⟩
  ihave H3' := (Transfers.pointsTo_toks_split fullShare 32) $$ H3
  icases H3' with ⟨-, H3⟩
  ihave H6' := (Transfers.pointsTo_toks_split fullShare 32) $$ H6
  icases H6' with ⟨-, H6⟩
  ihave H10' := (Transfers.pointsTo_toks_split fullShare 32) $$ H10
  icases H10' with ⟨H10d, H10⟩
  isplitr [H10d]
  · isplitl [H7]; · iexact H7
    isplitl [H3]; · iexact H3
    isplitl [H6]; · iexact H6
    isplitl [H10]; · iexact H10
    iexact H23
  · iexact H10d

theorem join0 (d : Dev nD) :
    iprop((bigSep Finset.univ fun c : Fin ((K (F := F)).nCore 0) => (P m).dn 0 d c) ∗ (locOf d main_v10 ↦{drop32} tVt m d))
      ⊢ (iprop((locOf d main_v10 ↦{fullShare} tVt m d) ∗ ∃ g, ⌜PtabOK m d g⌝ ∗ locOf d main_v23 ↦{fullShare} g) : sProp 𝕄) := by
  rw [dn0_eq]; unfold td0
  rw [bigSep_sep', bigSep_sep', bigSep_sep', bigSep_sep']
  iintro ⟨⟨-, -, -, H10, H23⟩, H10d⟩
  isplitl [H10 H10d]
  · iapply (Transfers.pointsTo_toks_join fullShare 32)
    isplitl [H10d]; · iexact H10d
    iexact H10
  · iapply (ptab_join m d); iexact H23

theorem cut1 (d : Dev nD) (g : Buf (Elt F) (locOf d main_v23)) (hg : PtabOK m d g) :
    iprop((locOf d main_v23 ↦{fullShare} g) ∗ (locOf d main_v10 ↦{fullShare} tVt m d) ∗ (locOf d main_v13 ↦{fullShare} tInf m d)
        ∗ (locOf d main_v16 ↦{fullShare} tWt m d) ∗ (locOf d main_v18 ↦{fullShare} tOrn m d) ∗ (locOf d main_v22 ↦{fullShare} tMrep m d)
        ∗ (locOf d main_v24_0 ↦{fullShare} m (locOf d main_v24_0)) ∗ (locOf d main_v24_1 ↦{fullShare} m (locOf d main_v24_1)))
      ⊢ (bigSep Finset.univ fun c : Fin ((K (F := F)).nCore 1) => (P m).st 1 d c : sProp 𝕄) := by
  rw [st1_eq]; unfold go1
  rw [bigSep_sep', bigSep_sep', bigSep_sep', bigSep_sep', bigSep_sep', bigSep_sep', bigSep_sep',
    whole_cut (ℓ := locOf d main_v24_0) owSet owSet_disjoint owSet_cover, whole_cut (ℓ := locOf d main_v24_1) olSet olSet_disjoint olSet_cover]
  have hex : ∀ w : Fin 32, (locOf d main_v23 ↦{rd w} g : sProp 𝕄) ⊢ iprop(∃ f, ⌜PtabOK m d f⌝ ∗ locOf d main_v23 ↦{rd w} f) := fun w => by
    iintro H; iexists g
    isplitr; · ipureintro; exact hg
    iexact H
  have hmono : (bigSep Finset.univ fun w : Fin 32 => (locOf d main_v23 ↦{rd w} g : sProp 𝕄))
      ⊢ bigSep Finset.univ fun w : Fin 32 => iprop(∃ f, ⌜PtabOK m d f⌝ ∗ locOf d main_v23 ↦{rd w} f) :=
    bigSep_mono fun w _ => hex w
  iintro ⟨H23, H10, H13, H16, H18, H22, H240, H241⟩
  ihave H23' := (Transfers.pointsTo_toks_split fullShare 32) $$ H23
  icases H23' with ⟨-, H23⟩
  ihave H10' := (Transfers.pointsTo_toks_split fullShare 32) $$ H10
  icases H10' with ⟨-, H10⟩
  ihave H13' := (Transfers.pointsTo_toks_split fullShare 32) $$ H13
  icases H13' with ⟨-, H13⟩
  ihave H16' := (Transfers.pointsTo_toks_split fullShare 32) $$ H16
  icases H16' with ⟨-, H16⟩
  ihave H18' := (Transfers.pointsTo_toks_split fullShare 32) $$ H18
  icases H18' with ⟨-, H18⟩
  ihave H22' := (Transfers.pointsTo_toks_split fullShare 32) $$ H22
  icases H22' with ⟨-, H22⟩
  isplitl [H23]
  · iapply hmono; iexact H23
  isplitl [H10]; · iexact H10
  isplitl [H13]; · iexact H13
  isplitl [H16]; · iexact H16
  isplitl [H18]; · iexact H18
  isplitl [H22]; · iexact H22
  isplitl [H240]; · iexact H240
  iexact H241

theorem join1 (d : Dev nD) :
    (bigSep Finset.univ fun c : Fin ((K (F := F)).nCore 1) => (P m).dn 1 d c)
      ⊢ (iprop(∃ (f0 : Buf (Elt F) (locOf d main_v24_0)) (f1 : Buf (Elt F) (locOf d main_v24_1)),
          ⌜(∀ w, BlendTile m d w f0) ∧ (∀ w, LossTile m d w f1)⌝ ∗ (locOf d main_v24_0 ↦{fullShare} f0) ∗ (locOf d main_v24_1 ↦{fullShare} f1)) : sProp 𝕄) := by
  rw [dn1_eq]; unfold td1
  rw [bigSep_sep']
  iintro ⟨H0, H1⟩
  ihave H0' := (blend_join m d) $$ H0
  icases H0' with ⟨%f0, %h0, H0⟩
  ihave H1' := (loss_join m d) $$ H1
  icases H1' with ⟨%f1, %h1, H1⟩
  iexists f0; iexists f1
  isplitr; · ipureintro; exact ⟨h0, h1⟩
  isplitl [H0]; · iexact H0
  iexact H1

theorem main_eq' (d : Dev nD) :
    main (F := F) d = (seq (opsPre (F := F)) >>= fun _ => (K (F := F)).run d 0 >>= fun _ => (K (F := F)).run d 1 >>= fun _ =>
      seq (opsPost (F := F)) >>= fun _ => pure ⟨⟩) := by
  rw [main_eq]; simp only [bind_pure_unit]

set_option backward.isDefEq.respectTransparency.types false in
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ FIN m d) := by
  unfold SparseCore.Cfg.tcRes
  rw [unscoped_held, main_eq']
  iintro ⟨#Hctx, Hst, ⟨Hb, Hheld, -, -⟩, -⟩
  iapply (wp_seq (𝒱 := 𝒱) (bd := none) (E := Set.univ) d (tcRefs τ sig) _ (opsPre (F := F))
      (List.forall_iff_forall_mem.mp opsPre_sub) (List.forall_iff_forall_mem.mp opsPre_fresh) (V0 m d)) $$ [Hb Hheld]
  · isplitl [Hb]; · iexact Hb
    iexact Hheld
  iintro ⟨Hb, Hheld⟩
  rw [show after (opsPre (F := F)) (V0 m d) = Vpre m d from rfl]
  ihave Hh := (Entails.of_eq (held_pre m d)) $$ Hheld
  icases Hh with ⟨⟨H7, H3, H6, H10, H13, H16, H18, H22, H23, H240, H241⟩, Hrest⟩
  ihave Hc := (cut0 m d) $$ [H7 H3 H6 H10 H23]
  · isplitl [H7]; · iexact H7
    isplitl [H3]; · iexact H3
    isplitl [H6]; · iexact H6
    isplitl [H10]; · iexact H10
    iexact H23
  icases Hc with ⟨Hgo, H10d⟩
  rw [wp_bind]
  iapply ((K (F := F)).wp_run (D (F := F)) 𝒱 (EH := EH) (P := P m) κ d 0) $$ [Hst Hgo Hb H10d H13 H16 H18 H22 H240 H241 Hrest]
  isplitr; · iexact Hctx
  isplitl [Hst]; · iexact Hst
  isplitl [Hgo]; · iexact Hgo
  iintro ⟨Hst, Hdn⟩
  ihave Hj := (join0 m d) $$ [Hdn H10d]
  · isplitl [Hdn]; · iexact Hdn
    iexact H10d
  icases Hj with ⟨H10, %g, %hg, H23⟩
  ihave Hgo := (cut1 m d g hg) $$ [H23 H10 H13 H16 H18 H22 H240 H241]
  · isplitl [H23]; · iexact H23
    isplitl [H10]; · iexact H10
    isplitl [H13]; · iexact H13
    isplitl [H16]; · iexact H16
    isplitl [H18]; · iexact H18
    isplitl [H22]; · iexact H22
    isplitl [H240]; · iexact H240
    iexact H241
  rw [wp_bind]
  iapply ((K (F := F)).wp_run (D (F := F)) 𝒱 (EH := EH) (P := P m) κ d 1) $$ [Hst Hgo Hb Hrest]
  isplitr; · iexact Hctx
  isplitl [Hst]; · iexact Hst
  isplitl [Hgo]; · iexact Hgo
  iintro ⟨Hst, Hdn⟩
  ihave Hj := (join1 m d) $$ Hdn
  icases Hj with ⟨%f0, %f1, %hT, H240, H241⟩
  ihave Hheld := (Entails.of_eq (held_suf m d f0 f1)) $$ [H240 H241 Hrest]
  · isplitl [H240]; · iexact H240
    isplitl [H241]; · iexact H241
    iexact Hrest
  iapply (wp_seq (𝒱 := 𝒱) (bd := none) (E := Set.univ) d (Rsuf.map rE) _ (opsPost (F := F))
      (List.forall_iff_forall_mem.mp opsPost_sub) (List.forall_iff_forall_mem.mp opsPost_fresh) (V2 m d f0 f1)) $$ [Hb Hheld]
  · isplitl [Hb]; · iexact Hb
    iexact Hheld
  iintro ⟨Hb, Hheld⟩
  ihave Hh := (Entails.of_eq (held_fin m d f0 f1)) $$ Hheld
  icases Hh with ⟨⟨A0, A1, A2, A3, A4, A5, A6, H27, H31, H34⟩, -⟩
  rw [wp_pure]; imodintro
  isplitl [Hst]; · iexact Hst
  isplitl [A0]; · iexact A0
  isplitl [A1]; · iexact A1
  isplitl [A2]; · iexact A2
  isplitl [A3]; · iexact A3
  isplitl [A4]; · iexact A4
  isplitl [A5]; · iexact A5
  isplitl [A6]; · iexact A6
  iexists f0; iexists f1
  isplitr; · ipureintro; exact hT
  isplitl [H27]; · iexact H27
  isplitl [H31]; · iexact H31
  iexact H34

omit [FloatOps F] [Facts] in
theorem SI_whole {ℓ : Loc nD τ sig} (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜RunPost m d s'.mem.mem⌝ : sProp 𝕄) := by
  iintro ⟨⟨H0, H1, H2, H3, H4, H5, H6, %f0, %f1, %hT, H27, H31, H34⟩, HSI⟩
  ihave H := (SI_whole _ s') $$ [H0 HSI]
  · isplitl [H0] <;> iassumption
  icases H with ⟨%h0, HSI⟩
  ihave H := (SI_whole _ s') $$ [H1 HSI]
  · isplitl [H1] <;> iassumption
  icases H with ⟨%h1, HSI⟩
  ihave H := (SI_whole _ s') $$ [H2 HSI]
  · isplitl [H2] <;> iassumption
  icases H with ⟨%h2, HSI⟩
  ihave H := (SI_whole _ s') $$ [H3 HSI]
  · isplitl [H3] <;> iassumption
  icases H with ⟨%h3, HSI⟩
  ihave H := (SI_whole _ s') $$ [H4 HSI]
  · isplitl [H4] <;> iassumption
  icases H with ⟨%h4, HSI⟩
  ihave H := (SI_whole _ s') $$ [H5 HSI]
  · isplitl [H5] <;> iassumption
  icases H with ⟨%h5, HSI⟩
  ihave H := (SI_whole _ s') $$ [H6 HSI]
  · isplitl [H6] <;> iassumption
  icases H with ⟨%h6, HSI⟩
  ihave H := (SI_whole _ s') $$ [H27 HSI]
  · isplitl [H27] <;> iassumption
  icases H with ⟨%h27, HSI⟩
  ihave H := (SI_whole _ s') $$ [H31 HSI]
  · isplitl [H31] <;> iassumption
  icases H with ⟨%h31, HSI⟩
  ihave H := (SI_whole _ s') $$ [H34 HSI]
  · isplitl [H34] <;> iassumption
  icases H with ⟨%h34, HSI⟩
  ipureintro
  exact ⟨⟨f0, f1, hT.1, hT.2, h27, h31, h34⟩, h0, h1, h2, h3, h4, h5, h6⟩

theorem run_main [∀ e, Nonempty (Elt F e)] (hR : RangesOK m)
    (h0 : (K (F := F)).TileObl (D (F := F)) 𝒱 (P m) v₀ 0) (h1 : (K (F := F)).TileObl (D (F := F)) 𝒱 (P m) v₀ 1) :
    θ_run (Cert.KernelIdeal.defs (F := F)) (Cert.KernelIdeal.threads (F := F)) ⟨m, fun _ => 0, ρ⟩ (fun r => ∀ c : Dev nD, RunPost m c r.2.mem) :=
  SparseCore.Cfg.θ_run_sc (K := K (F := F)) (D := D (F := F)) (𝒱 := 𝒱) (EH := EH) (P := P m) facts v₀
    (fun q hq => match q with | 0 => nomatch hq | 1 => nomatch hq)
    (fun q _ => match q with | 0 => h0 | 1 => h1)
    (fun q _ => match q with | 0 => SparseCore.Cfg.VecSplit.of_plain (vecSplit0 m) | 1 => SparseCore.Cfg.VecSplit.of_plain (vecSplit1 m))
    m ρ main (fun _ => iprop(emp)) (FIN m) (u₀ (F := F)) (sep_elim_left.trans (hu₀ m)) (hmain m ρ)
    (fun d s' => RunPost m d s'.mem.mem) (hfin m) (fun r => ∀ c : Dev nD, RunPost m c r.2.mem) (fun _ h => h)

end Cert.KI

end
-- ==== Proof.LibStoreIdx.lean ====
import Idealize.ShloMosaic.PureOps.ShapeOps

namespace Idealize.ShloMosaic

variable {F : FTy → Type} [FloatOps F] {s : Shape} {e : EltTy} {d : Fin 1 → Nat}

def storeIdxStep (idxs : Fin s.rank → IVec ⟨1, d⟩ 32) (v : Vec F ⟨1, d⟩ e) (mask : IVec ⟨1, d⟩ 1) (add : Bool)
    (h : ∀ a x, (idxs a x).toNat < s.size a) (g : Vec F s e) (k : Fin (d 0)) : Vec F s e :=
  let x := Shape.ofLane k
  if mask x = 1 then
    let i := idxAt idxs h x
    let y := if add then Elt.idxAdd e (g i) (v x) else v x
    fun j => if (∀ a, (j a).val = (i a).val) then y else g j
  else g

theorem storeIdx_eq_foldl (f : Vec F s e) (idxs : Fin s.rank → IVec ⟨1, d⟩ 32) (v : Vec F ⟨1, d⟩ e) (mask : IVec ⟨1, d⟩ 1)
    (add : Bool) (h : ∀ a x, (idxs a x).toNat < s.size a) :
    storeIdx f idxs v mask add h = (List.finRange (d 0)).foldl (storeIdxStep idxs v mask add h) f := rfl

theorem foldl_storeIdxStep_of_ne (idxs : Fin s.rank → IVec ⟨1, d⟩ 32) (v : Vec F ⟨1, d⟩ e) (mask : IVec ⟨1, d⟩ 1) (add : Bool)
    (h : ∀ a x, (idxs a x).toNat < s.size a) (j : s.Idx) :
    ∀ (l : List (Fin (d 0))) (g : Vec F s e), (∀ k ∈ l, ¬ ∀ a, (j a).val = (idxs a (Shape.ofLane k)).toNat) →
      (l.foldl (storeIdxStep idxs v mask add h) g) j = g j
  | [], _, _ => rfl
  | k :: l, g, hj => by
    rw [List.foldl_cons, foldl_storeIdxStep_of_ne idxs v mask add h j l _ (fun k' hk' => hj k' (List.mem_cons_of_mem _ hk'))]
    unfold storeIdxStep
    by_cases hm : mask (Shape.ofLane k) = 1
    · simp only [hm, if_true]
      exact if_neg (hj k (List.mem_cons_self ..))
    · simp only [hm, if_false]

theorem foldl_storeIdxStep_at_lane (idxs : Fin s.rank → IVec ⟨1, d⟩ 32) (v : Vec F ⟨1, d⟩ e) (mask : IVec ⟨1, d⟩ 1) (add : Bool)
    (h : ∀ a x, (idxs a x).toNat < s.size a) (hmask : ∀ x, mask x = 1) (k : Fin (d 0)) :
    ∀ (l : List (Fin (d 0))) (g : Vec F s e),
      l.Pairwise (fun k₁ k₂ => ¬ ∀ a, (idxs a (Shape.ofLane k₁)).toNat = (idxs a (Shape.ofLane k₂)).toNat) → k ∈ l →
      (l.foldl (storeIdxStep idxs v mask add h) g) (idxAt idxs h (Shape.ofLane k))
        = if add then Elt.idxAdd e (g (idxAt idxs h (Shape.ofLane k))) (v (Shape.ofLane k)) else v (Shape.ofLane k)
  | [], _, _, hk => absurd hk (List.not_mem_nil)
  | k₀ :: l, g, hl, hk => by
    rw [List.pairwise_cons] at hl
    rw [List.foldl_cons]
    rcases List.mem_cons.1 hk with rfl | hk'
    ·
      rw [foldl_storeIdxStep_of_ne idxs v mask add h _ l _ (fun k' hk' hc => hl.1 k' hk' (fun a => hc a))]
      unfold storeIdxStep
      simp only [hmask, if_true]
      exact if_pos (fun _ => trivial)
    ·
      rw [foldl_storeIdxStep_at_lane idxs v mask add h hmask k l _ hl.2 hk']
      have hne : ¬ ∀ a, ((idxAt idxs h (Shape.ofLane k)) a).val = ((idxAt idxs h (Shape.ofLane k₀)) a).val :=
        fun hc => hl.1 k hk' (fun a => (hc a).symm)
      have hg : storeIdxStep idxs v mask add h g k₀ (idxAt idxs h (Shape.ofLane k)) = g (idxAt idxs h (Shape.ofLane k)) := by
        unfold storeIdxStep
        simp only [hmask, if_true]
        exact if_neg hne
      rw [hg]

variable (f : Vec F s e) (idxs : Fin s.rank → IVec ⟨1, d⟩ 32) (v : Vec F ⟨1, d⟩ e) (mask : IVec ⟨1, d⟩ 1) (add : Bool)
  (h : ∀ a x, (idxs a x).toNat < s.size a)

theorem storeIdx_of_ne (j : s.Idx) (hj : ∀ k : Fin (d 0), ¬ ∀ a, (j a).val = (idxs a (Shape.ofLane k)).toNat) :
    storeIdx f idxs v mask add h j = f j := by
  rw [storeIdx_eq_foldl]
  exact foldl_storeIdxStep_of_ne idxs v mask add h j _ f (fun k _ => hj k)

theorem storeIdx_at_lane (hmask : ∀ x, mask x = 1)
    (hinj : ∀ k₁ k₂ : Fin (d 0), k₁ ≠ k₂ → ¬ ∀ a, (idxs a (Shape.ofLane k₁)).toNat = (idxs a (Shape.ofLane k₂)).toNat)
    (j : s.Idx) (k : Fin (d 0)) (hjk : ∀ a, (j a).val = (idxs a (Shape.ofLane k)).toNat) :
    storeIdx f idxs v mask add h j
      = if add then Elt.idxAdd e (f j) (v (Shape.ofLane k)) else v (Shape.ofLane k) := by
  have hj : j = idxAt idxs h (Shape.ofLane k) := funext fun a => Fin.ext (hjk a)
  subst hj
  rw [storeIdx_eq_foldl]
  exact foldl_storeIdxStep_at_lane idxs v mask add h hmask k _ f
    ((List.nodup_finRange (d 0)).imp (fun {k₁ k₂} hne => hinj k₁ k₂ hne)) (List.mem_finRange k)

theorem storeIdx_at_lane_store (hmask : ∀ x, mask x = 1)
    (hinj : ∀ k₁ k₂ : Fin (d 0), k₁ ≠ k₂ → ¬ ∀ a, (idxs a (Shape.ofLane k₁)).toNat = (idxs a (Shape.ofLane k₂)).toNat)
    (j : s.Idx) (k : Fin (d 0)) (hjk : ∀ a, (j a).val = (idxs a (Shape.ofLane k)).toNat) :
    storeIdx f idxs v mask false h j = v (Shape.ofLane k) := by
  rw [storeIdx_at_lane f idxs v mask false h hmask hinj j k hjk]; rfl

theorem storeIdx_at_lane_add (hmask : ∀ x, mask x = 1)
    (hinj : ∀ k₁ k₂ : Fin (d 0), k₁ ≠ k₂ → ¬ ∀ a, (idxs a (Shape.ofLane k₁)).toNat = (idxs a (Shape.ofLane k₂)).toNat)
    (j : s.Idx) (k : Fin (d 0)) (hjk : ∀ a, (j a).val = (idxs a (Shape.ofLane k)).toNat) :
    storeIdx f idxs v mask true h j = Elt.idxAdd e (f j) (v (Shape.ofLane k)) := by
  rw [storeIdx_at_lane f idxs v mask true h hmask hinj j k hjk]; rfl

end Idealize.ShloMosaic
-- ==== Proof.Body0Val.lean ====
import proofs.«205348_g71287867179597_cont_9to1c4b_113_38_alg».proof.Proof.Common
import proofs.«205348_g71287867179597_cont_9to1c4b_113_38_alg».proof.Proof.LibStoreIdx
import Idealize.ShloMosaic.Lib.SparseCore.Threads
import Idealize.ShloMosaic.Lib.SparseCore.Cells
import Idealize.ShloMosaic.Lib.Transfers
import Idealize.ShloMosaic.Lib.Writes

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F] [Facts]
open Facts₀ Facts

variable (m : (ℓ : Loc nD τ sig) → Buf (Elt F) ℓ) (ρ : Dev nD → PrngReg)

local notation "𝕄" => MT nD τ sig (HIx 2) (Elt F) ℕ UU ℕ

section Tile

variable (d : Dev nD) (L : grid0.Coords)

abbrev cV (L : grid0.Coords) : Fin τ.nSC := (L 0).castLE Facts₀.hcore0
abbrev jV (L : grid0.Coords) : Fin τ.nSub := (L 1).castLE Facts₀.hsub0

theorem bound_zero : grid0.bound 0 = 2 := rfl
theorem bound_one : grid0.bound 1 = 16 := rfl

def wL0 (L : grid0.Coords) : Fin 32 := wid (Fin.cast bound_zero (L 0)) (Fin.cast bound_one (L 1))
theorem wL0_val : (wL0 L).val = (L 1).val * 2 + (L 0).val := rfl

theorem trips1 : k0_t1_loop.trips = 56 := by decide
theorem trips2 : k0_t2_loop.trips = 56 := by decide
theorem trips3 : k0_t3_loop.trips = 56 := by decide
theorem trips4 : k0_t4_loop.trips = 7 := by decide
theorem trips5 : k0_t5_loop.trips = 8 := by decide

abbrev aN : Memref sig .scVector .hbm S28672 .i32 := Memref.whole main_v7_scv
abbrev aR : Memref sig .scVector .hbm S258048 .f32 := Memref.whole main_v3_scv
abbrev aT : Memref sig .scVector .hbm S86016 .f32 := Memref.whole main_v6_scv
abbrev aV : Memref sig .scVector .hbm S159744 .f32 := Memref.whole main_v10_scv
abbrev aP : Memref sig .scVector .hbm S28672x128 .f32 := Memref.whole main_v23_scv
abbrev b0 : Memref sig .scVector .vmem S51200 .f32 := Memref.whole cc0_scratch0
abbrev b1 : Memref sig .scVector .vmem S896 .i32 := Memref.whole cc0_scratch1
abbrev b2 : Memref sig .scVector .vmem S896 .f32 := Memref.whole cc0_scratch2
abbrev b3 : Memref sig .scVector .vmem S896 .f32 := Memref.whole cc0_scratch3
abbrev b4 : Memref sig .scVector .vmem S896 .f32 := Memref.whole cc0_scratch4
abbrev b5 : Memref sig .scVector .vmem S8064 .f32 := Memref.whole cc0_scratch5
abbrev b6 : Memref sig .scVector .vmem S2688 .f32 := Memref.whole cc0_scratch6
abbrev b7 : Memref sig .scVector .vmem S128x128 .f32 := Memref.whole cc0_scratch7

theorem at1_eq {n : ℕ} {α : Type} (f : (⟨1, ![n]⟩ : Shape).Idx → α) (h0 : 0 < n) (j : (⟨1, ![n]⟩ : Shape).Idx) (k : ℕ)
    (hk : k = (j 0).val) : at1 f h0 k = f j := by
  subst hk
  have hlt : (j 0).val < n := (j 0).isLt
  unfold at1
  have e : (⟨if (j 0).val < n then (j 0).val else 0, by split <;> omega⟩ : Fin n) = j 0 := Fin.ext (if_pos hlt)
  rw [e]
  exact congrArg f (ValueIdx.eq_ix1 j).symm

omit [FloatOps F] [Facts] in
theorem read_access_whole {κ : Kind} {sp : Space} {s : Shape} {e : EltTy} (v : View sig κ sp s e) (f : v.ty.Contents (Elt F)) :
    (v.slice (Rect.whole s)).read (Elt F) f = v.read (Elt F) f := by
  funext x
  show v.read (Elt F) f ((Rect.whole s).emb x) = _
  rw [Rect.emb_whole_apply]

theorem nidx_read (f1 g1 : (b1).view.ty.Contents (Elt F))
    (h : View.write (Elt F) (b1).view f1 (ReadAs.same.apply (View.read (Elt F)
        ((aN).slice (Rect.unit (s := S28672) (k0_off1 L) S896.size (Facts₀.k0_off1_inb L)) (fun _ => rfl)).view (tNidx m d))) Finset.univ = g1)
    (j : S896.Idx) : (b1).view.read (Elt F) g1 j = at1 (tNidx m d) (k := (wL0 L).val * 896 + (j 0).val) := by
  subst h
  rw [View.read_write_univ, ReadAs.apply_same]
  have key : ∀ J : S28672.Idx, (J 0).val = (wL0 L).val * 896 + (j 0).val →
      at1 (tNidx m d) (k := (wL0 L).val * 896 + (j 0).val) = tNidx m d J :=
    fun J hJ => at1_eq (tNidx m d) (by decide) J _ hJ.symm
  refine (key (((aN).slice (Rect.unit (s := S28672) (k0_off1 L) S896.size (Facts₀.k0_off1_inb L)) (fun _ => rfl)).view.emb j) ?_).symm
  show k0_off1 L 0 + 1 * (j 0).val = _
  rw [k0_off1_eq, wL0_val]; simp only [Matrix.cons_val_zero]; omega

theorem vt_read (f0 g0 : (b0).view.ty.Contents (Elt F)) (off : Fin 1 → ℕ) (inb : ∀ a, off a + S51200.size a ≤ S159744.size a)
    (hr : ∀ a, (Rect.unit (s := S159744) off S51200.size inb).stride a = 1)
    (h : View.write (Elt F) (b0).view f0 (ReadAs.same.apply (View.read (Elt F)
        ((aV).slice (Rect.unit (s := S159744) off S51200.size inb) hr).view (tVt m d))) Finset.univ = g0)
    (j : S51200.Idx) : ((b0).access (Rect.whole S51200)).read (Elt F) g0 j = at1 (tVt m d) (k := off 0 + (j 0).val) := by
  subst h
  rw [read_access_whole, View.read_write_univ, ReadAs.apply_same]
  have key : ∀ J : S159744.Idx, (J 0).val = off 0 + (j 0).val → at1 (tVt m d) (k := off 0 + (j 0).val) = tVt m d J :=
    fun J hJ => at1_eq (tVt m d) (by decide) J _ hJ.symm
  refine (key (((aV).slice (Rect.unit (s := S159744) off S51200.size inb) hr).view.emb j) ?_).symm
  show off 0 + 1 * (j 0).val = _
  omega

theorem chk_gather (hR : RangesOK m) (g1 : (b1).view.ty.Contents (Elt F))
    (hN : ∀ j : S896.Idx, (b1).view.read (Elt F) g1 j = at1 (tNidx m d) (k := (wL0 L).val * 896 + (j 0).val))
    (off : Fin 1 → ℕ) (inb : ∀ a, off a + S16.size a ≤ S896.size a) :
    ∀ a x, ((![View.readAt (Elt F) (b1).view (Rect.unit (s := S896) off S16.size inb).toLoadRect g1] : Fin 1 → IVec S16 32) a x).toNat
      < S51200.size a := by
  intro a x
  obtain rfl : a = 0 := Fin.eq_zero a
  show (View.readAt (Elt F) (b1).view (Rect.unit (s := S896) off S16.size inb).toLoadRect g1 x : BitVec 32).toNat < 51200
  rw [View.readAt_apply, hN]
  have hw := (wL0 L).isLt
  have hj := ((Rect.unit (s := S896) off S16.size inb).toLoadRect.idx x 0).isLt
  have := (hR d).1 ((wL0 L).val * 896 + ((Rect.unit (s := S896) off S16.size inb).toLoadRect.idx x 0).val)
    (by have : ((Rect.unit (s := S896) off S16.size inb).toLoadRect.idx x 0).val < 896 := hj; omega)
  omega

def gWord (c p : ℕ) : Elt F .f32 :=
  at1 (tVt m d) (k := c * 53248 + (at1 (tNidx m d) (k := (wL0 L).val * 896 + p) : BitVec 32).toNat)

theorem gather_step (dst : Memref sig .scVector .vmem S896 .f32) (c k : ℕ) (off2 off3 : Fin 1 → ℕ)
    (inb2 : ∀ a, off2 a + S16.size a ≤ S896.size a) (inb3 : ∀ a, off3 a + S16.size a ≤ S896.size a)
    (h2 : off2 0 = 16 * k) (h3 : off3 0 = 16 * k)
    (g0 : (b0).view.ty.Contents (Elt F)) (g1 : (b1).view.ty.Contents (Elt F)) (g : dst.view.ty.Contents (Elt F))
    (hidx : ∀ a x, ((![View.readAt (Elt F) (b1).view (Rect.unit (s := S896) off2 S16.size inb2).toLoadRect g1] : Fin 1 → IVec S16 32) a x).toNat < S51200.size a)
    (hN : ∀ j : S896.Idx, (b1).view.read (Elt F) g1 j = at1 (tNidx m d) (k := (wL0 L).val * 896 + (j 0).val))
    (hV : ∀ j : S51200.Idx, ((b0).access (Rect.whole S51200)).read (Elt F) g0 j = at1 (tVt m d) (k := c * 53248 + (j 0).val))
    (hg : ∀ j : S896.Idx, (j 0).val < 16 * k → dst.view.read (Elt F) g j = gWord m d L c (j 0).val) :
    ∀ j : S896.Idx, (j 0).val < 16 * (k + 1) →
      dst.view.read (Elt F) (dst.view.writes (Elt F) g [⟨Rect.unit (s := S896) off3 S16.size inb3,
        loadIdx (((b0).access (Rect.whole S51200)).read (Elt F) g0)
          ![View.readAt (Elt F) (b1).view (Rect.unit (s := S896) off2 S16.size inb2).toLoadRect g1] hidx⟩]) j
        = gWord m d L c (j 0).val := by
  intro j hj
  by_cases hlt : (j 0).val < 16 * k
  · rw [View.read_writes_apply_of_forall_not_mem _ _ j _ (by
      intro p hp; rw [List.mem_singleton] at hp; subst hp
      rw [Rect.mem_set_unit]; intro hc; have := (hc 0).1; omega)]
    exact hg j hlt
  · have hx : (j 0).val - 16 * k < 16 := by omega
    have hje : j = (Rect.unit (s := S896) off3 S16.size inb3).emb (ValueIdx.ix1 ⟨(j 0).val - 16 * k, hx⟩) := by
      funext a; obtain rfl : a = 0 := Fin.eq_zero a; apply Fin.ext
      show (j 0).val = off3 0 + 1 * ((j 0).val - 16 * k); omega
    rw [hje, View.read_writes_cons_emb]
    unfold loadIdx
    rw [hV]
    unfold gWord
    congr 2
    show (View.readAt (Elt F) (b1).view (Rect.unit (s := S896) off2 S16.size inb2).toLoadRect g1 (ValueIdx.ix1 ⟨(j 0).val - 16 * k, hx⟩) : BitVec 32).toNat = _
    rw [View.readAt_apply, hN]
    congr 3
    show off2 0 + 1 * ((j 0).val - 16 * k) = off3 0 + 1 * ((j 0).val - 16 * k)
    omega

abbrev IOTA : IVec S16 32 := iota .scVector S16 32 [0] Gen.iota_S16_d0_w32_scVector

omit [FloatOps F] [Facts] in
theorem w_row : ∀ (t5 : Fin k0_t5_loop.trips) (x : S16.Idx), ((k0_pay4 IOTA 0#32 1#32 t5) x).toNat = 16 * t5.val + (x 0).val := by decide +kernel
omit [FloatOps F] [Facts] in
theorem w_tr0 : ∀ (t4 : Fin k0_t4_loop.trips) (t5 : Fin k0_t5_loop.trips) (x : S16.Idx), ((k0_pay8 IOTA (Scf.iv 0#32 1#32 t4) 0#32 1#32 t5) x).toNat = 3 * (128 * t4.val + 16 * t5.val + (x 0).val) + 0 := by decide +kernel
omit [FloatOps F] [Facts] in
theorem w_tr1 : ∀ (t4 : Fin k0_t4_loop.trips) (t5 : Fin k0_t5_loop.trips) (x : S16.Idx), ((k0_pay9 IOTA (Scf.iv 0#32 1#32 t4) 0#32 1#32 t5) x).toNat = 3 * (128 * t4.val + 16 * t5.val + (x 0).val) + 1 := by decide +kernel
omit [FloatOps F] [Facts] in
theorem w_tr2 : ∀ (t4 : Fin k0_t4_loop.trips) (t5 : Fin k0_t5_loop.trips) (x : S16.Idx), ((k0_pay10 IOTA (Scf.iv 0#32 1#32 t4) 0#32 1#32 t5) x).toNat = 3 * (128 * t4.val + 16 * t5.val + (x 0).val) + 2 := by decide +kernel
omit [FloatOps F] [Facts] in
theorem w_rot0 : ∀ (t4 : Fin k0_t4_loop.trips) (t5 : Fin k0_t5_loop.trips) (x : S16.Idx), ((k0_pay11 (k0_pay7 IOTA (Scf.iv 0#32 1#32 t4) 0#32 1#32 t5)) x).toNat = 9 * (128 * t4.val + 16 * t5.val + (x 0).val) + 0 := by decide +kernel
omit [FloatOps F] [Facts] in
theorem w_rot1 : ∀ (t4 : Fin k0_t4_loop.trips) (t5 : Fin k0_t5_loop.trips) (x : S16.Idx), ((k0_pay12 (k0_pay7 IOTA (Scf.iv 0#32 1#32 t4) 0#32 1#32 t5)) x).toNat = 9 * (128 * t4.val + 16 * t5.val + (x 0).val) + 1 := by decide +kernel
omit [FloatOps F] [Facts] in
theorem w_rot2 : ∀ (t4 : Fin k0_t4_loop.trips) (t5 : Fin k0_t5_loop.trips) (x : S16.Idx), ((k0_pay13 (k0_pay7 IOTA (Scf.iv 0#32 1#32 t4) 0#32 1#32 t5)) x).toNat = 9 * (128 * t4.val + 16 * t5.val + (x 0).val) + 2 := by decide +kernel
omit [FloatOps F] [Facts] in
theorem w_rot3 : ∀ (t4 : Fin k0_t4_loop.trips) (t5 : Fin k0_t5_loop.trips) (x : S16.Idx), ((k0_pay14 (k0_pay7 IOTA (Scf.iv 0#32 1#32 t4) 0#32 1#32 t5)) x).toNat = 9 * (128 * t4.val + 16 * t5.val + (x 0).val) + 3 := by decide +kernel
omit [FloatOps F] [Facts] in
theorem w_rot4 : ∀ (t4 : Fin k0_t4_loop.trips) (t5 : Fin k0_t5_loop.trips) (x : S16.Idx), ((k0_pay15 (k0_pay7 IOTA (Scf.iv 0#32 1#32 t4) 0#32 1#32 t5)) x).toNat = 9 * (128 * t4.val + 16 * t5.val + (x 0).val) + 4 := by decide +kernel
omit [FloatOps F] [Facts] in
theorem w_rot5 : ∀ (t4 : Fin k0_t4_loop.trips) (t5 : Fin k0_t5_loop.trips) (x : S16.Idx), ((k0_pay16 (k0_pay7 IOTA (Scf.iv 0#32 1#32 t4) 0#32 1#32 t5)) x).toNat = 9 * (128 * t4.val + 16 * t5.val + (x 0).val) + 5 := by decide +kernel
omit [FloatOps F] [Facts] in
theorem w_rot6 : ∀ (t4 : Fin k0_t4_loop.trips) (t5 : Fin k0_t5_loop.trips) (x : S16.Idx), ((k0_pay1 (k0_pay7 IOTA (Scf.iv 0#32 1#32 t4) 0#32 1#32 t5)) x).toNat = 9 * (128 * t4.val + 16 * t5.val + (x 0).val) + 6 := by decide +kernel
omit [FloatOps F] [Facts] in
theorem w_rot7 : ∀ (t4 : Fin k0_t4_loop.trips) (t5 : Fin k0_t5_loop.trips) (x : S16.Idx), ((k0_pay2 (k0_pay7 IOTA (Scf.iv 0#32 1#32 t4) 0#32 1#32 t5)) x).toNat = 9 * (128 * t4.val + 16 * t5.val + (x 0).val) + 7 := by decide +kernel
omit [FloatOps F] [Facts] in
theorem w_rot8 : ∀ (t4 : Fin k0_t4_loop.trips) (t5 : Fin k0_t5_loop.trips) (x : S16.Idx), ((k0_pay3 (k0_pay7 IOTA (Scf.iv 0#32 1#32 t4) 0#32 1#32 t5)) x).toNat = 9 * (128 * t4.val + 16 * t5.val + (x 0).val) + 8 := by decide +kernel
omit [FloatOps F] [Facts] in
theorem c_st0 : ∀ (t5 : Fin k0_t5_loop.trips), k0_chk4 (k0_pay4 IOTA 0#32 1#32 t5) (broadcast S16 0#32) := by decide +kernel
omit [FloatOps F] [Facts] in
theorem c_st1 : ∀ (t5 : Fin k0_t5_loop.trips), k0_chk5 (k0_pay4 IOTA 0#32 1#32 t5) (broadcast S16 1#32) := by decide +kernel
omit [FloatOps F] [Facts] in
theorem c_st2 : ∀ (t5 : Fin k0_t5_loop.trips), k0_chk6 (k0_pay4 IOTA 0#32 1#32 t5) (broadcast S16 2#32) := by decide +kernel
omit [FloatOps F] [Facts] in
theorem c_st3 : ∀ (t5 : Fin k0_t5_loop.trips), k0_chk8 (k0_pay4 IOTA 0#32 1#32 t5) (broadcast S16 3#32) := by decide +kernel
omit [FloatOps F] [Facts] in
theorem c_st4 : ∀ (t5 : Fin k0_t5_loop.trips), k0_chk10 (k0_pay4 IOTA 0#32 1#32 t5) (broadcast S16 4#32) := by decide +kernel
omit [FloatOps F] [Facts] in
theorem c_st5 : ∀ (t5 : Fin k0_t5_loop.trips), k0_chk12 (k0_pay4 IOTA 0#32 1#32 t5) (broadcast S16 5#32) := by decide +kernel
omit [FloatOps F] [Facts] in
theorem c_st6 : ∀ (t5 : Fin k0_t5_loop.trips), k0_chk14 (k0_pay4 IOTA 0#32 1#32 t5) (broadcast S16 6#32) := by decide +kernel
omit [FloatOps F] [Facts] in
theorem c_st7 : ∀ (t5 : Fin k0_t5_loop.trips), k0_chk16 (k0_pay4 IOTA 0#32 1#32 t5) (broadcast S16 7#32) := by decide +kernel
omit [FloatOps F] [Facts] in
theorem c_st8 : ∀ (t5 : Fin k0_t5_loop.trips), k0_chk18 (k0_pay4 IOTA 0#32 1#32 t5) (broadcast S16 8#32) := by decide +kernel
omit [FloatOps F] [Facts] in
theorem c_st9 : ∀ (t5 : Fin k0_t5_loop.trips), k0_chk20 (k0_pay4 IOTA 0#32 1#32 t5) (broadcast S16 9#32) := by decide +kernel
omit [FloatOps F] [Facts] in
theorem c_st10 : ∀ (t5 : Fin k0_t5_loop.trips), k0_chk22 (k0_pay4 IOTA 0#32 1#32 t5) (broadcast S16 10#32) := by decide +kernel
omit [FloatOps F] [Facts] in
theorem c_st11 : ∀ (t5 : Fin k0_t5_loop.trips), k0_chk24 (k0_pay4 IOTA 0#32 1#32 t5) (broadcast S16 11#32) := by decide +kernel
omit [FloatOps F] [Facts] in
theorem c_st12 : ∀ (t5 : Fin k0_t5_loop.trips), k0_chk26 (k0_pay4 IOTA 0#32 1#32 t5) (broadcast S16 12#32) := by decide +kernel
omit [FloatOps F] [Facts] in
theorem c_st13 : ∀ (t5 : Fin k0_t5_loop.trips), k0_chk28 (k0_pay4 IOTA 0#32 1#32 t5) (broadcast S16 13#32) := by decide +kernel
omit [FloatOps F] [Facts] in
theorem c_st14 : ∀ (t5 : Fin k0_t5_loop.trips), k0_chk30 (k0_pay4 IOTA 0#32 1#32 t5) (broadcast S16 14#32) := by decide +kernel
omit [FloatOps F] [Facts] in
theorem c_tr0 : ∀ (t4 : Fin k0_t4_loop.trips) (t5 : Fin k0_t5_loop.trips), k0_chk7 (k0_pay8 IOTA (Scf.iv 0#32 1#32 t4) 0#32 1#32 t5) := by decide +kernel
omit [FloatOps F] [Facts] in
theorem c_tr1 : ∀ (t4 : Fin k0_t4_loop.trips) (t5 : Fin k0_t5_loop.trips), k0_chk9 (k0_pay9 IOTA (Scf.iv 0#32 1#32 t4) 0#32 1#32 t5) := by decide +kernel
omit [FloatOps F] [Facts] in
theorem c_tr2 : ∀ (t4 : Fin k0_t4_loop.trips) (t5 : Fin k0_t5_loop.trips), k0_chk11 (k0_pay10 IOTA (Scf.iv 0#32 1#32 t4) 0#32 1#32 t5) := by decide +kernel
omit [FloatOps F] [Facts] in
theorem c_rot0 : ∀ (t4 : Fin k0_t4_loop.trips) (t5 : Fin k0_t5_loop.trips), k0_chk13 (k0_pay11 (k0_pay7 IOTA (Scf.iv 0#32 1#32 t4) 0#32 1#32 t5)) := by decide +kernel
omit [FloatOps F] [Facts] in
theorem c_rot1 : ∀ (t4 : Fin k0_t4_loop.trips) (t5 : Fin k0_t5_loop.trips), k0_chk15 (k0_pay12 (k0_pay7 IOTA (Scf.iv 0#32 1#32 t4) 0#32 1#32 t5)) := by decide +kernel
omit [FloatOps F] [Facts] in
theorem c_rot2 : ∀ (t4 : Fin k0_t4_loop.trips) (t5 : Fin k0_t5_loop.trips), k0_chk17 (k0_pay13 (k0_pay7 IOTA (Scf.iv 0#32 1#32 t4) 0#32 1#32 t5)) := by decide +kernel
omit [FloatOps F] [Facts] in
theorem c_rot3 : ∀ (t4 : Fin k0_t4_loop.trips) (t5 : Fin k0_t5_loop.trips), k0_chk19 (k0_pay14 (k0_pay7 IOTA (Scf.iv 0#32 1#32 t4) 0#32 1#32 t5)) := by decide +kernel
omit [FloatOps F] [Facts] in
theorem c_rot4 : ∀ (t4 : Fin k0_t4_loop.trips) (t5 : Fin k0_t5_loop.trips), k0_chk21 (k0_pay15 (k0_pay7 IOTA (Scf.iv 0#32 1#32 t4) 0#32 1#32 t5)) := by decide +kernel
omit [FloatOps F] [Facts] in
theorem c_rot5 : ∀ (t4 : Fin k0_t4_loop.trips) (t5 : Fin k0_t5_loop.trips), k0_chk23 (k0_pay16 (k0_pay7 IOTA (Scf.iv 0#32 1#32 t4) 0#32 1#32 t5)) := by decide +kernel
omit [FloatOps F] [Facts] in
theorem c_rot6 : ∀ (t4 : Fin k0_t4_loop.trips) (t5 : Fin k0_t5_loop.trips), k0_chk25 (k0_pay1 (k0_pay7 IOTA (Scf.iv 0#32 1#32 t4) 0#32 1#32 t5)) := by decide +kernel
omit [FloatOps F] [Facts] in
theorem c_rot7 : ∀ (t4 : Fin k0_t4_loop.trips) (t5 : Fin k0_t5_loop.trips), k0_chk27 (k0_pay2 (k0_pay7 IOTA (Scf.iv 0#32 1#32 t4) 0#32 1#32 t5)) := by decide +kernel
omit [FloatOps F] [Facts] in
theorem c_rot8 : ∀ (t4 : Fin k0_t4_loop.trips) (t5 : Fin k0_t5_loop.trips), k0_chk29 (k0_pay3 (k0_pay7 IOTA (Scf.iv 0#32 1#32 t4) 0#32 1#32 t5)) := by decide +kernel

def StageOK (base k c : ℕ) (f : (b7).view.ty.Contents (Elt F)) : Prop :=
  ∀ (r col : Fin 128), col.val < 15 → (r.val < 16 * k ∨ (r.val < 16 * (k + 1) ∧ col.val < c)) →
    (b7).view.read (Elt F) f (ValueIdx.ix2 r col) = nodeWord m d (base + r.val) col.val

theorem stageOK_zero (base : ℕ) (f : (b7).view.ty.Contents (Elt F)) : StageOK m d base 0 0 f := by
  intro r col _ h; rcases h with h | ⟨_, h⟩ <;> omega

theorem stageOK_next (base k : ℕ) (f : (b7).view.ty.Contents (Elt F)) (h : StageOK m d base k 15 f) : StageOK m d base (k + 1) 0 f := by
  intro r col hc hr
  rcases hr with hr | ⟨_, hr⟩
  · exact h r col hc (by by_cases h1 : r.val < 16 * k; exact .inl h1; exact .inr ⟨by omega, hc⟩)
  · omega

theorem stageOK_store (base k c : ℕ) (hc : c < 15) (hk : k < 8) (f : (b7).view.ty.Contents (Elt F)) (rowv colv : IVec S16 32) (v : Vec F S16 .f32)
    (h : ∀ a x, ((![rowv, colv] : Fin 2 → IVec S16 32) a x).toNat < S128x128.size a)
    (hf : StageOK m d base k c f)
    (hrow : ∀ x : S16.Idx, (rowv x).toNat = 16 * k + (x 0).val) (hcol : ∀ x : S16.Idx, (colv x).toNat = c)
    (hv : ∀ x : S16.Idx, v x = nodeWord m d (base + 16 * k + (x 0).val) c) :
    StageOK m d base k (c + 1) (((b7).access (Rect.whole S128x128)).write (Elt F) f
      (storeIdx (((b7).access (Rect.whole S128x128)).read (Elt F) f) ![rowv, colv] v (fun _ => 1#1) false h) Finset.univ) := by
  intro r col hc15 hr
  have hread : (b7).view.read (Elt F) (((b7).access (Rect.whole S128x128)).write (Elt F) f
      (storeIdx (((b7).access (Rect.whole S128x128)).read (Elt F) f) ![rowv, colv] v (fun _ => 1#1) false h) Finset.univ)
      = storeIdx (((b7).access (Rect.whole S128x128)).read (Elt F) f) ![rowv, colv] v (fun _ => 1#1) false h := by
    rw [← read_access_whole (b7).view]
    exact View.read_write_univ _ _
  have hg : ((b7).access (Rect.whole S128x128)).read (Elt F) f = (b7).view.read (Elt F) f := read_access_whole _ _
  rw [hread]
  by_cases hin : 16 * k ≤ r.val ∧ r.val < 16 * (k + 1) ∧ col.val = c
  ·
    obtain ⟨h1, h2, h3⟩ := hin
    have hx : r.val - 16 * k < (![16] : Fin 1 → ℕ) 0 := by show _ < 16; omega
    have hinj : ∀ k₁ k₂ : Fin ((![16] : Fin 1 → ℕ) 0), k₁ ≠ k₂ →
        ¬ ∀ a, ((![rowv, colv] : Fin 2 → IVec S16 32) a (Shape.ofLane (d := ![16]) k₁)).toNat
          = ((![rowv, colv] : Fin 2 → IVec S16 32) a (Shape.ofLane (d := ![16]) k₂)).toNat := by
      intro k₁ k₂ hne hall
      have h0 : (rowv (Shape.ofLane (d := ![16]) k₁)).toNat = (rowv (Shape.ofLane (d := ![16]) k₂)).toNat := hall 0
      have e1 : (rowv (Shape.ofLane (d := ![16]) k₁)).toNat = 16 * k + k₁.val := hrow _
      have e2 : (rowv (Shape.ofLane (d := ![16]) k₂)).toNat = 16 * k + k₂.val := hrow _
      exact hne (Fin.ext (by omega))
    have hjk : ∀ a, ((ValueIdx.ix2 r col : S128x128.Idx) a).val
        = ((![rowv, colv] : Fin 2 → IVec S16 32) a (Shape.ofLane (d := ![16]) ⟨r.val - 16 * k, hx⟩)).toNat := by
      intro a
      match a with
      | ⟨0, _⟩ =>
        have e : (rowv (Shape.ofLane (d := ![16]) ⟨r.val - 16 * k, hx⟩)).toNat = 16 * k + (r.val - 16 * k) := hrow _
        show r.val = (rowv (Shape.ofLane (d := ![16]) ⟨r.val - 16 * k, hx⟩)).toNat
        omega
      | ⟨1, _⟩ =>
        show col.val = (colv (Shape.ofLane (d := ![16]) ⟨r.val - 16 * k, hx⟩)).toNat
        rw [hcol]; exact h3
    rw [storeIdx_at_lane_store _ ![rowv, colv] v (fun _ => 1#1) h (fun _ => rfl) hinj (ValueIdx.ix2 r col)
      ⟨r.val - 16 * k, hx⟩ hjk, hv]
    show nodeWord m d (base + 16 * k + (r.val - 16 * k)) c = nodeWord m d (base + r.val) col.val
    have h16 : r.val - 16 * k < 16 := hx
    rw [h3, show base + 16 * k + (r.val - 16 * k) = base + r.val by omega]
  ·
    have hne : ∀ kk : Fin ((![16] : Fin 1 → ℕ) 0), ¬ ∀ a, ((ValueIdx.ix2 r col : S128x128.Idx) a).val
        = ((![rowv, colv] : Fin 2 → IVec S16 32) a (Shape.ofLane (d := ![16]) kk)).toNat := by
      intro kk hall
      have h0 : r.val = (rowv (Shape.ofLane (d := ![16]) kk)).toNat := hall 0
      have h1 : col.val = (colv (Shape.ofLane (d := ![16]) kk)).toNat := hall 1
      have e0 : (rowv (Shape.ofLane (d := ![16]) kk)).toNat = 16 * k + kk.val := hrow _
      rw [hcol] at h1
      have hkk : kk.val < 16 := kk.isLt
      exact hin ⟨by omega, by omega, h1⟩
    rw [storeIdx_of_ne _ ![rowv, colv] v (fun _ => 1#1) false h (ValueIdx.ix2 r col) hne, hg]
    refine hf r col hc15 ?_
    rcases hr with hr | ⟨hr1, hr2⟩
    · exact .inl hr
    · by_cases h16 : r.val < 16 * k
      · exact .inl h16
      · have hcc : col.val ≠ c := fun e => hin ⟨by omega, hr1, e⟩
        exact .inr ⟨hr1, by omega⟩

theorem tr_read (f6 g6 : (b6).view.ty.Contents (Elt F))
    (h : View.write (Elt F) (b6).view f6 (ReadAs.same.apply (View.read (Elt F)
        ((aT).slice (Rect.unit (s := S86016) (k0_off9 L) S2688.size (Facts₀.k0_off9_inb L)) (fun _ => rfl)).view (tTr m d))) Finset.univ = g6)
    (j : S2688.Idx) : ((b6).access (Rect.whole S2688)).read (Elt F) g6 j = at1 (tTr m d) (k := (wL0 L).val * 2688 + (j 0).val) := by
  subst h
  rw [read_access_whole, View.read_write_univ, ReadAs.apply_same]
  have key : ∀ J : S86016.Idx, (J 0).val = (wL0 L).val * 2688 + (j 0).val →
      at1 (tTr m d) (k := (wL0 L).val * 2688 + (j 0).val) = tTr m d J :=
    fun J hJ => at1_eq (tTr m d) (by decide) J _ hJ.symm
  refine (key (((aT).slice (Rect.unit (s := S86016) (k0_off9 L) S2688.size (Facts₀.k0_off9_inb L)) (fun _ => rfl)).view.emb j) ?_).symm
  show k0_off9 L 0 + 1 * (j 0).val = _
  rw [k0_off9_eq, wL0_val]; simp only [Matrix.cons_val_zero]; omega

theorem rot_read (f5 g5 : (b5).view.ty.Contents (Elt F))
    (h : View.write (Elt F) (b5).view f5 (ReadAs.same.apply (View.read (Elt F)
        ((aR).slice (Rect.unit (s := S258048) (k0_off8 L) S8064.size (Facts₀.k0_off8_inb L)) (fun _ => rfl)).view (tRot m d))) Finset.univ = g5)
    (j : S8064.Idx) : ((b5).access (Rect.whole S8064)).read (Elt F) g5 j = at1 (tRot m d) (k := (wL0 L).val * 8064 + (j 0).val) := by
  subst h
  rw [read_access_whole, View.read_write_univ, ReadAs.apply_same]
  have key : ∀ J : S258048.Idx, (J 0).val = (wL0 L).val * 8064 + (j 0).val →
      at1 (tRot m d) (k := (wL0 L).val * 8064 + (j 0).val) = tRot m d J :=
    fun J hJ => at1_eq (tRot m d) (by decide) J _ hJ.symm
  refine (key (((aR).slice (Rect.unit (s := S258048) (k0_off8 L) S8064.size (Facts₀.k0_off8_inb L)) (fun _ => rfl)).view.emb j) ?_).symm
  show k0_off8 L 0 + 1 * (j 0).val = _
  rw [k0_off8_eq, wL0_val]; simp only [Matrix.cons_val_zero]; omega

theorem val_plain (c : ℕ) (hc : c < 3) (src : Memref sig .scVector .vmem S896 .f32) (g : src.view.ty.Contents (Elt F))
    (hg : ∀ j : S896.Idx, (j 0).val < 16 * 56 → src.view.read (Elt F) g j = gWord m d L c (j 0).val)
    (p : ℕ) (off : Fin 1 → ℕ) (inb : ∀ a, off a + S16.size a ≤ S896.size a) (hoff : off 0 = p) (x : S16.Idx) :
    View.readAt (Elt F) src.view (Rect.unit (s := S896) off S16.size inb).toLoadRect g x
      = nodeWord m d ((wL0 L).val * 896 + p + (x 0).val) c := by
  have hj : ((Rect.unit (s := S896) off S16.size inb).toLoadRect.idx x 0).val = p + (x 0).val := by
    show off 0 + 1 * (x 0).val = _; omega
  have hlt : ((Rect.unit (s := S896) off S16.size inb).toLoadRect.idx x 0).val < 16 * 56 :=
    ((Rect.unit (s := S896) off S16.size inb).toLoadRect.idx x 0).isLt
  rw [View.readAt_apply, hg _ hlt, hj]
  unfold gWord nodeWord
  rw [if_pos hc, Nat.add_assoc]

theorem val_tr (c : ℕ) (hc3 : 3 ≤ c) (hc6 : c < 6) (g6 : (b6).view.ty.Contents (Elt F))
    (hT : ∀ j : S2688.Idx, ((b6).access (Rect.whole S2688)).read (Elt F) g6 j = at1 (tTr m d) (k := (wL0 L).val * 2688 + (j 0).val))
    (idxv : IVec S16 32) (hidx : ∀ a x, ((![idxv] : Fin 1 → IVec S16 32) a x).toNat < S2688.size a)
    (p : ℕ) (hp : p + 16 ≤ 896) (hi : ∀ x : S16.Idx, (idxv x).toNat = 3 * (p + (x 0).val) + (c - 3)) (x : S16.Idx) :
    loadIdx (((b6).access (Rect.whole S2688)).read (Elt F) g6) ![idxv] hidx x
      = nodeWord m d ((wL0 L).val * 896 + p + (x 0).val) c := by
  unfold loadIdx
  rw [hT]
  unfold nodeWord
  rw [if_neg (by omega), if_pos hc6]
  congr 1
  show (wL0 L).val * 2688 + (idxv x).toNat = _
  rw [hi]
  omega

theorem val_rot (c : ℕ) (hc6 : 6 ≤ c) (hc15 : c < 15) (g5 : (b5).view.ty.Contents (Elt F))
    (hRt : ∀ j : S8064.Idx, ((b5).access (Rect.whole S8064)).read (Elt F) g5 j = at1 (tRot m d) (k := (wL0 L).val * 8064 + (j 0).val))
    (idxv : IVec S16 32) (hidx : ∀ a x, ((![idxv] : Fin 1 → IVec S16 32) a x).toNat < S8064.size a)
    (p : ℕ) (hp : p + 16 ≤ 896) (hi : ∀ x : S16.Idx, (idxv x).toNat = 9 * (p + (x 0).val) + (c - 6)) (x : S16.Idx) :
    loadIdx (((b5).access (Rect.whole S8064)).read (Elt F) g5) ![idxv] hidx x
      = nodeWord m d ((wL0 L).val * 896 + p + (x 0).val) c := by
  unfold loadIdx
  rw [hRt]
  unfold nodeWord
  rw [if_neg (by omega), if_neg (by omega)]
  congr 1
  show (wL0 L).val * 8064 + (idxv x).toNat = _
  rw [hi]
  omega

end Tile
end Cert.KI
end
-- ==== Proof.Body0Rows.lean ====
import proofs.«205348_g71287867179597_cont_9to1c4b_113_38_alg».proof.Proof.Common
import proofs.«205348_g71287867179597_cont_9to1c4b_113_38_alg».proof.Proof.LibStoreIdx
import proofs.«205348_g71287867179597_cont_9to1c4b_113_38_alg».proof.Proof.Body0Val
import Idealize.ShloMosaic.Lib.SparseCore.Threads
import Idealize.ShloMosaic.Lib.SparseCore.Cells
import Idealize.ShloMosaic.Lib.Transfers
import Idealize.ShloMosaic.Lib.Writes

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F] [Facts]
open Facts₀ Facts

variable (m : (ℓ : Loc nD τ sig) → Buf (Elt F) ℓ) (ρ : Dev nD → PrngReg)

local notation "𝕄" => MT nD τ sig (HIx 2) (Elt F) ℕ UU ℕ

section Tile

variable (d : Dev nD) (L : grid0.Coords)

abbrev pRect (L : grid0.Coords) (t : Fin k0_t4_loop.trips) : Rect S28672x128 :=
  Rect.unit (s := S28672x128) (k0_off13 L t) S128x128.size (Facts₀.k0_off13_inb L t)
abbrev pSl (L : grid0.Coords) (t : Fin k0_t4_loop.trips) : Memref sig .scVector .hbm S128x128 .f32 :=
  (aP).slice (pRect L t) (fun _ => rfl)

theorem set_pSl (t : Fin k0_t4_loop.trips) : (pSl L t).view.set = (pRect L t).set := by
  simp only [Memref.view_slice, Memref.view_whole, View.set_slice_whole]

theorem mem_pRect (t : Fin k0_t4_loop.trips) (j : S28672x128.Idx) :
    j ∈ (pRect L t).set ↔ (wL0 L).val * 896 + 128 * t.val ≤ (j 0).val ∧ (j 0).val < (wL0 L).val * 896 + 128 * t.val + 128 := by
  rw [Rect.mem_set_unit, k0_off13_eq, Fin.forall_fin_two, wL0_val]
  have h1 : (j 1).val < 128 := (j 1).isLt
  simp only [Matrix.cons_val_zero, Matrix.cons_val_one, Matrix.head_cons]
  show (_ ≤ (j 0).val ∧ (j 0).val < _ + 128) ∧ (0 ≤ (j 1).val ∧ (j 1).val < 0 + 128) ↔ _
  omega

theorem pRect_disjoint (t t' : Fin k0_t4_loop.trips) (h : t ≠ t') : Disjoint (pRect L t).set (pRect L t').set := by
  rw [Finset.disjoint_left]
  intro j hj hj'
  rw [mem_pRect] at hj hj'
  exact h (Fin.ext (by omega))

theorem ptRows_eq : ptRows (wL0 L) = Finset.univ.biUnion fun t : Fin k0_t4_loop.trips => (pRect L t).set := by
  ext j
  simp only [ptRows, Finset.mem_filter, Finset.mem_univ, true_and, Finset.mem_biUnion, mem_pRect]
  constructor
  · intro ⟨h1, h2⟩
    exact ⟨⟨((j 0).val - (wL0 L).val * 896) / 128, by rw [trips4]; omega⟩, by dsimp only; omega, by dsimp only; omega⟩
  · rintro ⟨t, h1, h2⟩
    have h7 : t.val < 7 := lt_of_lt_of_eq t.isLt trips4
    omega

def RowsDone (k : ℕ) (G : Buf (Elt F) (locOf d main_v23)) : Prop :=
  ∀ (r : Fin 28672) (col : Fin 128), (wL0 L).val * 896 ≤ r.val → r.val < (wL0 L).val * 896 + 128 * k → col.val < 15 →
    G (ValueIdx.ix2 r col) = nodeWord m d r.val col.val

theorem rowsDone_zero (G : Buf (Elt F) (locOf d main_v23)) : RowsDone m d L 0 G := by
  intro r col h1 h2 _; omega

theorem rowsDone_ptabTile (G : Buf (Elt F) (locOf d main_v23)) (h : RowsDone m d L 7 G) : PtabTile m d (wL0 L) G := by
  intro r col h1 h2 h3
  exact h r col h1 (by omega) h3

theorem rows_step (t : Fin k0_t4_loop.trips) (G : Buf (Elt F) (locOf d main_v23)) (fS : (b7).view.ty.Contents (Elt F))
    (pay : S128x128.Idx → Elt F .f32) (hpay : ∀ x, pay x = (b7).view.read (Elt F) fS x)
    (hG : RowsDone m d L t.val G) (hS : StageOK m d ((wL0 L).val * 896 + 128 * t.val) 8 0 fS) :
    RowsDone m d L (t.val + 1) ((pSl L t).view.writes (Elt F) G [⟨Rect.whole S128x128, pay⟩]) := by
  intro r col h1 h2 hc15
  by_cases hlo : r.val < (wL0 L).val * 896 + 128 * t.val
  ·
    have hoff : (pSl L t).view.writes (Elt F) G [⟨Rect.whole S128x128, pay⟩] (ValueIdx.ix2 r col) = G (ValueIdx.ix2 r col) := by
      refine View.writes_apply_of_forall_ne _ _ _ (fun y hy => ?_)
      have hmem : (ValueIdx.ix2 r col : S28672x128.Idx) ∈ (pRect L t).set := by
        rw [← set_pSl, ← hy]; exact View.emb_mem_set _ y
      rw [mem_pRect] at hmem
      have : ((ValueIdx.ix2 r col : S28672x128.Idx) 0).val = r.val := rfl
      omega
    rw [hoff]
    exact hG r col h1 hlo hc15
  ·
    have hr' : r.val - ((wL0 L).val * 896 + 128 * t.val) < 128 := by omega
    have hemb : (pSl L t).view.emb ((Rect.whole S128x128).emb
        (ValueIdx.ix2 ⟨r.val - ((wL0 L).val * 896 + 128 * t.val), hr'⟩ col)) = (ValueIdx.ix2 r col : S28672x128.Idx) := by
      rw [Rect.emb_whole_apply]
      funext a
      apply Fin.ext
      match a with
      | ⟨0, _⟩ =>
        show k0_off13 L t 0 + 1 * (r.val - ((wL0 L).val * 896 + 128 * t.val)) = r.val
        rw [k0_off13_eq, wL0_val]; simp only [Matrix.cons_val_zero]; rw [wL0_val] at hlo h1; omega
      | ⟨1, _⟩ =>
        show k0_off13 L t 1 + 1 * col.val = col.val
        rw [k0_off13_eq]
        show 0 + 1 * col.val = col.val
        omega
    have hw := View.read_writes_cons_emb (pSl L t).view G (Rect.whole S128x128) pay []
      (ValueIdx.ix2 ⟨r.val - ((wL0 L).val * 896 + 128 * t.val), hr'⟩ col)
    rw [View.read_apply, hemb] at hw
    have hw' : (pSl L t).view.writes (Elt F) G [⟨Rect.whole S128x128, pay⟩] (ValueIdx.ix2 r col)
        = pay (ValueIdx.ix2 ⟨r.val - ((wL0 L).val * 896 + 128 * t.val), hr'⟩ col) := hw
    rw [hw', hpay, hS ⟨r.val - ((wL0 L).val * 896 + 128 * t.val), hr'⟩ col hc15 (.inl (by show _ < 16 * 8; omega))]
    show nodeWord m d ((wL0 L).val * 896 + 128 * t.val + (r.val - ((wL0 L).val * 896 + 128 * t.val))) col.val = _
    rw [show (wL0 L).val * 896 + 128 * t.val + (r.val - ((wL0 L).val * 896 + 128 * t.val)) = r.val by omega]

theorem rows_off (t t' : Fin k0_t4_loop.trips) (h : t' ≠ t) (G : Buf (Elt F) (locOf d main_v23)) (pay : S128x128.Idx → Elt F .f32) :
    ∀ i ∈ (pSl L t').view.set, G i = (pSl L t).view.writes (Elt F) G [⟨Rect.whole S128x128, pay⟩] i := by
  intro i hi
  symm
  refine View.writes_apply_of_forall_ne _ _ _ (fun y hy => ?_)
  have h1 : i ∈ (pRect L t).set := by rw [← set_pSl, ← hy]; exact View.emb_mem_set _ y
  have h2 : i ∈ (pRect L t').set := by rw [← set_pSl]; exact hi
  exact Finset.disjoint_left.mp (pRect_disjoint L t t' (Ne.symm h)) h1 h2

end Tile
end Cert.KI
end
-- ==== Proof.Body0.lean ====
import proofs.«205348_g71287867179597_cont_9to1c4b_113_38_alg».proof.Proof.Common
import proofs.«205348_g71287867179597_cont_9to1c4b_113_38_alg».proof.Proof.LibStoreIdx
import proofs.«205348_g71287867179597_cont_9to1c4b_113_38_alg».proof.Proof.Body0Val
import proofs.«205348_g71287867179597_cont_9to1c4b_113_38_alg».proof.Proof.Body0Rows
import Idealize.ShloMosaic.Lib.SparseCore.Threads
import Idealize.ShloMosaic.Lib.SparseCore.Cells
import Idealize.ShloMosaic.Lib.Transfers
import Idealize.ShloMosaic.Lib.Writes

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F] [Facts]
open Facts₀ Facts

variable (m : (ℓ : Loc nD τ sig) → Buf (Elt F) ℓ) (ρ : Dev nD → PrngReg)

local notation "𝕄" => MT nD τ sig (HIx 2) (Elt F) ℕ UU ℕ

section Tile

variable (d : Dev nD) (L : grid0.Coords)
abbrev sc0 (d : Dev nD) (L : grid0.Coords) : GSem nD τ sig := (V d (cV L) (jV L), .dma cc0_scoped0.sem)
abbrev sc1 (d : Dev nD) (L : grid0.Coords) : GSem nD τ sig := (V d (cV L) (jV L), .dma cc0_scoped1.sem)
abbrev sc2 (d : Dev nD) (L : grid0.Coords) : GSem nD τ sig := (V d (cV L) (jV L), .dma cc0_scoped2.sem)
abbrev sc3 (d : Dev nD) (L : grid0.Coords) : GSem nD τ sig := (V d (cV L) (jV L), .dma cc0_scoped3.sem)
abbrev sc4 (d : Dev nD) (L : grid0.Coords) : GSem nD τ sig := (V d (cV L) (jV L), .dma cc0_scoped4.sem)
abbrev sc5 (d : Dev nD) (L : grid0.Coords) : GSem nD τ sig := (V d (cV L) (jV L), .dma cc0_scoped5.sem)
abbrev sc6 (d : Dev nD) (L : grid0.Coords) : GSem nD τ sig := (V d (cV L) (jV L), .dma cc0_scoped6.sem)

omit [FloatOps F] [Facts] in
theorem ownSems0_V :
    (ownSems0 (V d (cV L) (jV L)) : sProp 𝕄)
      = iprop(semVal (sc0 d L) 0 ∗ semVal (sc1 d L) 0 ∗ semVal (sc2 d L) 0 ∗ semVal (sc3 d L) 0 ∗ semVal (sc4 d L) 0 ∗ semVal (sc5 d L) 0 ∗ semVal (sc6 d L) 0
          ∗ bigSep ((((((((ownCells (V d (cV L) (jV L))).erase (sc0 d L)).erase (sc1 d L)).erase (sc2 d L)).erase (sc3 d L)).erase (sc4 d L)).erase (sc5 d L)).erase (sc6 d L)) fun g => semVal g 0) := by
  unfold SparseCore.Cfg.ownSems0
  rw [SparseCore.bigSep_erase' ((mem_ownCells (g := sc0 d L)).mpr ⟨rfl, by show (SemLoc.dma cc0_scoped0.sem : SemLoc sig).isScoped .scVector = true; decide⟩),
    SparseCore.bigSep_erase' (Finset.mem_erase.mpr ⟨fun e => absurd (congrArg Prod.snd e) (show (SemLoc.dma cc0_scoped1.sem : SemLoc sig) ≠ SemLoc.dma cc0_scoped0.sem by decide), (mem_ownCells (g := sc1 d L)).mpr ⟨rfl, by show (SemLoc.dma cc0_scoped1.sem : SemLoc sig).isScoped .scVector = true; decide⟩⟩),
    SparseCore.bigSep_erase' (Finset.mem_erase.mpr ⟨fun e => absurd (congrArg Prod.snd e) (show (SemLoc.dma cc0_scoped2.sem : SemLoc sig) ≠ SemLoc.dma cc0_scoped1.sem by decide), Finset.mem_erase.mpr ⟨fun e => absurd (congrArg Prod.snd e) (show (SemLoc.dma cc0_scoped2.sem : SemLoc sig) ≠ SemLoc.dma cc0_scoped0.sem by decide), (mem_ownCells (g := sc2 d L)).mpr ⟨rfl, by show (SemLoc.dma cc0_scoped2.sem : SemLoc sig).isScoped .scVector = true; decide⟩⟩⟩),
    SparseCore.bigSep_erase' (Finset.mem_erase.mpr ⟨fun e => absurd (congrArg Prod.snd e) (show (SemLoc.dma cc0_scoped3.sem : SemLoc sig) ≠ SemLoc.dma cc0_scoped2.sem by decide), Finset.mem_erase.mpr ⟨fun e => absurd (congrArg Prod.snd e) (show (SemLoc.dma cc0_scoped3.sem : SemLoc sig) ≠ SemLoc.dma cc0_scoped1.sem by decide), Finset.mem_erase.mpr ⟨fun e => absurd (congrArg Prod.snd e) (show (SemLoc.dma cc0_scoped3.sem : SemLoc sig) ≠ SemLoc.dma cc0_scoped0.sem by decide), (mem_ownCells (g := sc3 d L)).mpr ⟨rfl, by show (SemLoc.dma cc0_scoped3.sem : SemLoc sig).isScoped .scVector = true; decide⟩⟩⟩⟩),
    SparseCore.bigSep_erase' (Finset.mem_erase.mpr ⟨fun e => absurd (congrArg Prod.snd e) (show (SemLoc.dma cc0_scoped4.sem : SemLoc sig) ≠ SemLoc.dma cc0_scoped3.sem by decide), Finset.mem_erase.mpr ⟨fun e => absurd (congrArg Prod.snd e) (show (SemLoc.dma cc0_scoped4.sem : SemLoc sig) ≠ SemLoc.dma cc0_scoped2.sem by decide), Finset.mem_erase.mpr ⟨fun e => absurd (congrArg Prod.snd e) (show (SemLoc.dma cc0_scoped4.sem : SemLoc sig) ≠ SemLoc.dma cc0_scoped1.sem by decide), Finset.mem_erase.mpr ⟨fun e => absurd (congrArg Prod.snd e) (show (SemLoc.dma cc0_scoped4.sem : SemLoc sig) ≠ SemLoc.dma cc0_scoped0.sem by decide), (mem_ownCells (g := sc4 d L)).mpr ⟨rfl, by show (SemLoc.dma cc0_scoped4.sem : SemLoc sig).isScoped .scVector = true; decide⟩⟩⟩⟩⟩),
    SparseCore.bigSep_erase' (Finset.mem_erase.mpr ⟨fun e => absurd (congrArg Prod.snd e) (show (SemLoc.dma cc0_scoped5.sem : SemLoc sig) ≠ SemLoc.dma cc0_scoped4.sem by decide), Finset.mem_erase.mpr ⟨fun e => absurd (congrArg Prod.snd e) (show (SemLoc.dma cc0_scoped5.sem : SemLoc sig) ≠ SemLoc.dma cc0_scoped3.sem by decide), Finset.mem_erase.mpr ⟨fun e => absurd (congrArg Prod.snd e) (show (SemLoc.dma cc0_scoped5.sem : SemLoc sig) ≠ SemLoc.dma cc0_scoped2.sem by decide), Finset.mem_erase.mpr ⟨fun e => absurd (congrArg Prod.snd e) (show (SemLoc.dma cc0_scoped5.sem : SemLoc sig) ≠ SemLoc.dma cc0_scoped1.sem by decide), Finset.mem_erase.mpr ⟨fun e => absurd (congrArg Prod.snd e) (show (SemLoc.dma cc0_scoped5.sem : SemLoc sig) ≠ SemLoc.dma cc0_scoped0.sem by decide), (mem_ownCells (g := sc5 d L)).mpr ⟨rfl, by show (SemLoc.dma cc0_scoped5.sem : SemLoc sig).isScoped .scVector = true; decide⟩⟩⟩⟩⟩⟩),
    SparseCore.bigSep_erase' (Finset.mem_erase.mpr ⟨fun e => absurd (congrArg Prod.snd e) (show (SemLoc.dma cc0_scoped6.sem : SemLoc sig) ≠ SemLoc.dma cc0_scoped5.sem by decide), Finset.mem_erase.mpr ⟨fun e => absurd (congrArg Prod.snd e) (show (SemLoc.dma cc0_scoped6.sem : SemLoc sig) ≠ SemLoc.dma cc0_scoped4.sem by decide), Finset.mem_erase.mpr ⟨fun e => absurd (congrArg Prod.snd e) (show (SemLoc.dma cc0_scoped6.sem : SemLoc sig) ≠ SemLoc.dma cc0_scoped3.sem by decide), Finset.mem_erase.mpr ⟨fun e => absurd (congrArg Prod.snd e) (show (SemLoc.dma cc0_scoped6.sem : SemLoc sig) ≠ SemLoc.dma cc0_scoped2.sem by decide), Finset.mem_erase.mpr ⟨fun e => absurd (congrArg Prod.snd e) (show (SemLoc.dma cc0_scoped6.sem : SemLoc sig) ≠ SemLoc.dma cc0_scoped1.sem by decide), Finset.mem_erase.mpr ⟨fun e => absurd (congrArg Prod.snd e) (show (SemLoc.dma cc0_scoped6.sem : SemLoc sig) ≠ SemLoc.dma cc0_scoped0.sem by decide), (mem_ownCells (g := sc6 d L)).mpr ⟨rfl, by show (SemLoc.dma cc0_scoped6.sem : SemLoc sig).isScoped .scVector = true; decide⟩⟩⟩⟩⟩⟩⟩)]

omit [FloatOps F] [Facts] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f) ∗ (∃ f, (V d (cV L) (jV L)).loc cc0_scratch6 ↦{fullShare} f) ∗ (∃ f, (V d (cV L) (jV L)).loc cc0_scratch7 ↦{fullShare} f)
          ∗ bigSep (((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)).erase ((Proc.scVector (cV L) (jV L)).devRef cc0_scratch7))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := ((Proc.scVector (cV L) (jV L)).devRef cc0_scratch5)) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := Proc.scVector (cV L) (jV L)) (b := ((Proc.scVector (cV L) (jV L)).devRef cc0_scratch6)) rfl⟩⟩⟩⟩⟩⟩),
    SparseCore.bigSep_erase' (Finset.mem_erase.mpr ⟨fun e => absurd (Proc.devRef_injective _ e) (show (cc0_scratch7 : Ref sig .scVector) ≠ cc0_scratch6 by decide), Finset.mem_erase.mpr ⟨fun e => absurd (Proc.devRef_injective _ e) (show (cc0_scratch7 : Ref sig .scVector) ≠ cc0_scratch5 by decide), Finset.mem_erase.mpr ⟨fun e => absurd (Proc.devRef_injective _ e) (show (cc0_scratch7 : Ref sig .scVector) ≠ cc0_scratch4 by decide), Finset.mem_erase.mpr ⟨fun e => absurd (Proc.devRef_injective _ e) (show (cc0_scratch7 : Ref sig .scVector) ≠ cc0_scratch3 by decide), Finset.mem_erase.mpr ⟨fun e => absurd (Proc.devRef_injective _ e) (show (cc0_scratch7 : Ref sig .scVector) ≠ cc0_scratch2 by decide), Finset.mem_erase.mpr ⟨fun e => absurd (Proc.devRef_injective _ e) (show (cc0_scratch7 : Ref sig .scVector) ≠ cc0_scratch1 by decide), Finset.mem_erase.mpr ⟨fun e => absurd (Proc.devRef_injective _ e) (show (cc0_scratch7 : Ref sig .scVector) ≠ cc0_scratch0 by decide), SparseCore.Cfg.mem_ownRefs_of_owner (p := Proc.scVector (cV L) (jV L)) (b := ((Proc.scVector (cV L) (jV L)).devRef cc0_scratch7)) rfl⟩⟩⟩⟩⟩⟩⟩)]
omit [FloatOps F] [Facts] in
theorem pts_aN (q : PosShare TreeShare) (f : Buf (Elt F) (locOf d main_v7)) :
    ((aN).view.loc (V d (cV L) (jV L)) ↦{q} f : sProp 𝕄) = locOf d main_v7 ↦{q} f := by
  simp only [Memref.view_whole, View.set_whole]
omit [FloatOps F] [Facts] in
theorem pts_aR (q : PosShare TreeShare) (f : Buf (Elt F) (locOf d main_v3)) :
    ((aR).view.loc (V d (cV L) (jV L)) ↦{q} f : sProp 𝕄) = locOf d main_v3 ↦{q} f := by
  simp only [Memref.view_whole, View.set_whole]
omit [FloatOps F] [Facts] in
theorem pts_aT (q : PosShare TreeShare) (f : Buf (Elt F) (locOf d main_v6)) :
    ((aT).view.loc (V d (cV L) (jV L)) ↦{q} f : sProp 𝕄) = locOf d main_v6 ↦{q} f := by
  simp only [Memref.view_whole, View.set_whole]
omit [FloatOps F] [Facts] in
theorem pts_aV (q : PosShare TreeShare) (f : Buf (Elt F) (locOf d main_v10)) :
    ((aV).view.loc (V d (cV L) (jV L)) ↦{q} f : sProp 𝕄) = locOf d main_v10 ↦{q} f := by
  simp only [Memref.view_whole, View.set_whole]
omit [FloatOps F] [Facts] in
theorem pts_b0 (f : Buf (Elt F) ((V d (cV L) (jV L)).loc cc0_scratch0)) :
    ((b0).view.loc (V d (cV L) (jV L)) ↦{fullShare} f : sProp 𝕄) = (V d (cV L) (jV L)).loc cc0_scratch0 ↦{fullShare} f := rfl
omit [FloatOps F] [Facts] in
theorem pts_b1 (f : Buf (Elt F) ((V d (cV L) (jV L)).loc cc0_scratch1)) :
    ((b1).view.loc (V d (cV L) (jV L)) ↦{fullShare} f : sProp 𝕄) = (V d (cV L) (jV L)).loc cc0_scratch1 ↦{fullShare} f := rfl
omit [FloatOps F] [Facts] in
theorem pts_b2 (f : Buf (Elt F) ((V d (cV L) (jV L)).loc cc0_scratch2)) :
    ((b2).view.loc (V d (cV L) (jV L)) ↦{fullShare} f : sProp 𝕄) = (V d (cV L) (jV L)).loc cc0_scratch2 ↦{fullShare} f := rfl
omit [FloatOps F] [Facts] in
theorem pts_b3 (f : Buf (Elt F) ((V d (cV L) (jV L)).loc cc0_scratch3)) :
    ((b3).view.loc (V d (cV L) (jV L)) ↦{fullShare} f : sProp 𝕄) = (V d (cV L) (jV L)).loc cc0_scratch3 ↦{fullShare} f := rfl
omit [FloatOps F] [Facts] in
theorem pts_b4 (f : Buf (Elt F) ((V d (cV L) (jV L)).loc cc0_scratch4)) :
    ((b4).view.loc (V d (cV L) (jV L)) ↦{fullShare} f : sProp 𝕄) = (V d (cV L) (jV L)).loc cc0_scratch4 ↦{fullShare} f := rfl
omit [FloatOps F] [Facts] in
theorem pts_b5 (f : Buf (Elt F) ((V d (cV L) (jV L)).loc cc0_scratch5)) :
    ((b5).view.loc (V d (cV L) (jV L)) ↦{fullShare} f : sProp 𝕄) = (V d (cV L) (jV L)).loc cc0_scratch5 ↦{fullShare} f := rfl
omit [FloatOps F] [Facts] in
theorem pts_b6 (f : Buf (Elt F) ((V d (cV L) (jV L)).loc cc0_scratch6)) :
    ((b6).view.loc (V d (cV L) (jV L)) ↦{fullShare} f : sProp 𝕄) = (V d (cV L) (jV L)).loc cc0_scratch6 ↦{fullShare} f := rfl
omit [FloatOps F] [Facts] in
theorem pts_b7 (f : Buf (Elt F) ((V d (cV L) (jV L)).loc cc0_scratch7)) :
    ((b7).view.loc (V d (cV L) (jV L)) ↦{fullShare} f : sProp 𝕄) = (V d (cV L) (jV L)).loc cc0_scratch7 ↦{fullShare} f := rfl

def gInv (dst : Memref sig .scVector .vmem S896 .f32)
    (g0 : Buf (Elt F) ((b0).view.loc (V d (cV L) (jV L)))) (g1 : Buf (Elt F) ((b1).view.loc (V d (cV L) (jV L))))
    (Pd : ℕ → Buf (Elt F) (dst.view.loc (V d (cV L) (jV L))) → Prop) (k : ℕ) (_ : PUnit) : sProp 𝕄 :=
  iprop(((b1).view.loc (V d (cV L) (jV L)) ↦{fullShare} g1) ∗ ((b0).view.loc (V d (cV L) (jV L)) ↦{fullShare} g0)
    ∗ ∃ g, ⌜Pd k g⌝ ∗ dst.view.loc (V d (cV L) (jV L)) ↦{fullShare} g)

omit [FloatOps F] [Facts] in
theorem set_b7_access : ((b7).access (Rect.whole S128x128)).set = Finset.univ := by
  simp only [Memref.access, Memref.view_whole, View.set_slice_whole]
  exact Rect.set_whole _

omit [FloatOps F] [Facts] in
theorem pts_b7_access (f : (b7).view.ty.Contents (Elt F)) :
    ((((b7).access (Rect.whole S128x128)).loc (V d (cV L) (jV L)) ↦[((b7).access (Rect.whole S128x128)).set]{fullShare} f : sProp 𝕄))
      = ((b7).view.loc (V d (cV L) (jV L)) ↦{fullShare} f) := by
  rw [set_b7_access]

theorem wp_colStore {α : Type} (base k c : ℕ) (hc : c < 15) (hk : k < 8)
    {rowv colv : IVec S16 32} {v : Vec F S16 .f32}
    {h : ∀ a x, ((![rowv, colv] : Fin 2 → IVec S16 32) a x).toNat < S128x128.size a}
    {hs : ((b7).access (Rect.whole S128x128)).Stores Finset.univ}
    {kk : PUnit → Prog (TpuEff nD τ sig (Elt F) Λ₀ (V d (cV L) (jV L)).2) α} {Φ : α → sProp 𝕄}
    (f : (b7).view.ty.Contents (Elt F)) (hf : StageOK m d base k c f)
    (hrow : ∀ x : S16.Idx, (rowv x).toNat = 16 * k + (x 0).val) (hcol : ∀ x : S16.Idx, (colv x).toNat = c)
    (hv : ∀ x : S16.Idx, v x = nodeWord m d (base + 16 * k + (x 0).val) c) :
    ((b7).view.loc (V d (cV L) (jV L)) ↦{fullShare} f : sProp 𝕄)
      ⊢ iprop((∀ f', iprop(⌜StageOK m d base k (c + 1) f'⌝ -∗ ((b7).view.loc (V d (cV L) (jV L)) ↦{fullShare} f')
              -∗ wp frame (wpE (defs₀ (F := F)) 𝒱₀ (V d (cV L) (jV L)) none) Set.univ (kk ⟨⟩) Φ))
          -∗ wp frame (wpE (defs₀ (F := F)) 𝒱₀ (V d (cV L) (jV L)) none) Set.univ
              (SparseCore.vectorStoreIdx (b7) ![rowv, colv] v (fun _ => 1#1) false h hs >>= kk) Φ) := by
  iintro H Hk
  ihave H := (Entails.of_eq (pts_b7_access (F := F) d L f).symm) $$ H
  iapply (SparseCore.wp_vectorStoreIdx (defs := defs₀ (F := F)) 𝒱₀ (V d (cV L) (jV L)) none Set.univ (base := b7) (f := f)) $$ H
  iintro H
  ihave H := (Entails.of_eq (pts_b7_access (F := F) d L _)) $$ H
  iapply Hk $$ %_ %(stageOK_store m d base k c hc hk f rowv colv v h hf hrow hcol hv) [H]
  iexact H

def sInv (base : ℕ) (g2 : (b2).view.ty.Contents (Elt F)) (g3 : (b3).view.ty.Contents (Elt F)) (g4 : (b4).view.ty.Contents (Elt F))
    (g5 : (b5).view.ty.Contents (Elt F)) (g6 : (b6).view.ty.Contents (Elt F)) (k : ℕ) (_ : PUnit) : sProp 𝕄 :=
  iprop(((b2).view.loc (V d (cV L) (jV L)) ↦{fullShare} g2) ∗ ((b3).view.loc (V d (cV L) (jV L)) ↦{fullShare} g3) ∗ ((b4).view.loc (V d (cV L) (jV L)) ↦{fullShare} g4)
    ∗ ((b5).view.loc (V d (cV L) (jV L)) ↦{fullShare} g5) ∗ ((b6).view.loc (V d (cV L) (jV L)) ↦{fullShare} g6)
    ∗ ∃ f, ⌜StageOK m d base k 0 f⌝ ∗ (b7).view.loc (V d (cV L) (jV L)) ↦{fullShare} f)

set_option maxRecDepth 8192 in
theorem cut_rows (G : Buf (Elt F) (locOf d main_v23)) :
    (locOf d main_v23 ↦[ptRows (wL0 L)]{fullShare} G : sProp 𝕄)
      = bigSep Finset.univ fun t : Fin k0_t4_loop.trips => (pSl L t).view.loc (V d (cV L) (jV L)) ↦[(pSl L t).view.set]{fullShare} G := by
  rw [ptRows_eq, pointsTo_biUnion _ _ (fun t _ t' _ h => pRect_disjoint L t t' h)]
  refine bigSep_congr (fun t _ => ?_)
  rw [set_pSl]

def oInv (O : CellTallies nD τ sig (HIx 2)) (W0 : Waits sig (HIx 2))
    (g2 : (b2).view.ty.Contents (Elt F)) (g3 : (b3).view.ty.Contents (Elt F)) (g4 : (b4).view.ty.Contents (Elt F))
    (g5 : (b5).view.ty.Contents (Elt F)) (g6 : (b6).view.ty.Contents (Elt F)) (k : ℕ) (_ : PUnit) : sProp 𝕄 :=
  iprop(Transfers.MayWaits (V d (cV L) (jV L)) (none : HIx 2) O
    ∗ ((b2).view.loc (V d (cV L) (jV L)) ↦{fullShare} g2) ∗ ((b3).view.loc (V d (cV L) (jV L)) ↦{fullShare} g3) ∗ ((b4).view.loc (V d (cV L) (jV L)) ↦{fullShare} g4)
    ∗ ((b5).view.loc (V d (cV L) (jV L)) ↦{fullShare} g5) ∗ ((b6).view.loc (V d (cV L) (jV L)) ↦{fullShare} g6)
    ∗ (∃ f, (b7).view.loc (V d (cV L) (jV L)) ↦{fullShare} f)
    ∗ semVal (sc6 d L) 0
    ∗ (∃ G, ⌜RowsDone m d L k G⌝ ∗ bigSep Finset.univ fun t : Fin k0_t4_loop.trips =>
          (pSl L t).view.loc (V d (cV L) (jV L)) ↦[(pSl L t).view.set]{fullShare} G)
    ∗ ∃ W', ⌜∀ p ∈ W', p ∈ W0 ∨ p.2 = none⌝ ∗ owes (V d (cV L) (jV L)) O W')

omit [FloatOps F] [Facts] in
theorem mem_ins6 {W : Waits sig (HIx 2)} {a0 a1 a2 a3 a4 a5 : SemLoc sig} {p : SemLoc sig × HIx 2}
    (h : p ∈ insert (a5, (default : HIx 2)) (insert (a4, default) (insert (a3, default) (insert (a2, default)
      (insert (a1, default) (insert (a0, default) W)))))) :
    p ∈ W ∨ p.2 = none := by
  simp only [Finset.mem_insert] at h
  rcases h with rfl | rfl | rfl | rfl | rfl | rfl | h
  all_goals first | exact .inr rfl | exact .inl h
set_option maxHeartbeats 40000000 in
set_option maxRecDepth 8192 in
theorem tile_body (hR : RangesOK m) (O : CellTallies nD τ sig (HIx 2)) (W : Waits sig (HIx 2)) (hO : ∀ g, O g none = 0) :
    iprop(levAts (K (F := F)).L (K (F := F)).lev ∗ emp ∗ go0 m d (wL0 L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__build_table L (Memref.whole main_v7_scv) (Memref.isWhole_whole _) (Memref.whole main_v3_scv) (Memref.isWhole_whole _) (Memref.whole main_v6_scv) (Memref.isWhole_whole _) (Memref.whole main_v10_scv) (Memref.isWhole_whole _) (Memref.whole main_v23_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scoped0 cc0_scoped1 cc0_scoped2 cc0_scoped3 cc0_scoped4 cc0_scoped5 cc0_scoped6)
          fun _ => iprop(td0 m d (wL0 L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__build_table_eq_skeleton]; unfold cc0__build_table_skel
  simp only [k0_part3_eq_skeleton]; unfold k0_part3_skel
  simp only [bind_assoc]
  rw [(K (F := F)).scopedBufs_V facts d (cV L) (jV L), SparseCore.Cfg.scopedSems0_V (Val := Elt F) d (cV L) (jV L), ownSems0_V, ownBufs_V]
  unfold go0
  iintro ⟨#Hlv, -, ⟨Hn, Hr, Ht, Hv, Hp⟩, ⟨⟨%f0, Hb0⟩, ⟨%f1, Hb1⟩, ⟨%f2, Hb2⟩, ⟨%f3, Hb3⟩, ⟨%f4, Hb4⟩, ⟨%f5, Hb5⟩, ⟨%f6, Hb6⟩, ⟨%f7, Hb7⟩, Hbufs⟩,
    ⟨Hs0, Hs1, Hs2, Hs3, Hs4, Hs5, Hs6, Hsems⟩, HO⟩
  ihave Hmw := ((K (F := F)).mayWaits_none (thr := V d (cV L) (jV L)) hO) $$ Hlv
  ihave Hn := (Entails.of_eq (pts_aN (F := F) d L _ _).symm) $$ Hn
  ihave Hr := (Entails.of_eq (pts_aR (F := F) d L _ _).symm) $$ Hr
  ihave Ht := (Entails.of_eq (pts_aT (F := F) d L _ _).symm) $$ Ht
  ihave Hv := (Entails.of_eq (pts_aV (F := F) d L _ _).symm) $$ Hv
  ihave Hb0 := (Entails.of_eq (pts_b0 (F := F) d L _).symm) $$ Hb0
  ihave Hb1 := (Entails.of_eq (pts_b1 (F := F) d L _).symm) $$ Hb1
  ihave Hb2 := (Entails.of_eq (pts_b2 (F := F) d L _).symm) $$ Hb2
  ihave Hb3 := (Entails.of_eq (pts_b3 (F := F) d L _).symm) $$ Hb3
  ihave Hb4 := (Entails.of_eq (pts_b4 (F := F) d L _).symm) $$ Hb4
  ihave Hb5 := (Entails.of_eq (pts_b5 (F := F) d L _).symm) $$ Hb5
  ihave Hb6 := (Entails.of_eq (pts_b6 (F := F) d L _).symm) $$ Hb6
  ihave Hb7 := (Entails.of_eq (pts_b7 (F := F) d L _).symm) $$ Hb7
  sl_exec
  generalize hg1 : View.write (Elt F) (Memref.whole cc0_scratch1).view f1 _ Finset.univ = g1
  have hN := nidx_read m d L f1 g1 hg1
  generalize hg0_0 : View.write (Elt F) (Memref.whole cc0_scratch0).view f0 _ Finset.univ = g0_0

  have hV0 : ∀ j : S51200.Idx, ((b0).access (Rect.whole S51200)).read (Elt F) g0_0 j = at1 (tVt m d) (k := 0 * 53248 + (j 0).val) := fun j => by
    rw [vt_read m d f0 g0_0 _ _ _ hg0_0 j]; simp
  sl_for (gInv d L b2 g0_0 g1 (fun k g => ∀ j : S896.Idx, (j 0).val < 16 * k → (b2).view.read (Elt F) g j = gWord m d L 0 (j 0).val)) $$ [Hb1 Hb0 Hb2]
  case region =>
    intro k _
    unfold gInv
    iintro ⟨H1, H0, %g, %hg, H2⟩
    have hchk : k0_chk1 (View.readAt (Elt F) (b1).view (Rect.unit (s := S896) (k0_off2 k) S16.size (Facts₀.k0_off2_inb k)).toLoadRect g1) :=
      chk_gather m d L hR g1 hN _ _
    sl_exec
    iapply (SparseCore.wp_vectorLoadIdx (defs := defs₀ (F := F)) 𝒱₀ (V d (cV L) (jV L)) none Set.univ (base := b0)
      (S := Finset.univ) (q := fullShare) (f := g0_0) (Finset.subset_univ _)) $$ H0
    iintro H0
    sl_exec
    sl_step
    isplitl [H1]; · iexact H1
    isplitl [H0]; · iexact H0
    iexists _; isplitr
    rotate_left
    · iexact H2
    · ipureintro
      exact gather_step m d L b2 0 k.val (k0_off2 k) (k0_off3 k) _ _ (by rw [k0_off2_eq]; rfl) (by rw [k0_off3_eq]; rfl) g0_0 g1 g _ hN hV0 hg
  · unfold gInv
    isplitl [Hb1]; · iexact Hb1
    isplitl [Hb0]; · iexact Hb0
    iexists f2; isplitr
    · ipureintro; intro j hj; omega
    · iexact Hb2
  iintro %_ HI
  unfold gInv
  icases HI with ⟨Hb1, Hb0, %g2, %hg2, Hb2⟩

  sl_exec
  generalize hg0_1 : View.write (Elt F) (Memref.whole cc0_scratch0).view g0_0 _ Finset.univ = g0_1

  have hV1 : ∀ j : S51200.Idx, ((b0).access (Rect.whole S51200)).read (Elt F) g0_1 j = at1 (tVt m d) (k := 1 * 53248 + (j 0).val) := fun j => by
    rw [vt_read m d g0_0 g0_1 _ _ _ hg0_1 j]; simp
  sl_for (gInv d L b3 g0_1 g1 (fun k g => ∀ j : S896.Idx, (j 0).val < 16 * k → (b3).view.read (Elt F) g j = gWord m d L 1 (j 0).val)) $$ [Hb1 Hb0 Hb3]
  case region =>
    intro k _
    unfold gInv
    iintro ⟨H1, H0, %g, %hg, H2⟩
    have hchk : k0_chk2 (View.readAt (Elt F) (b1).view (Rect.unit (s := S896) (k0_off4 k) S16.size (Facts₀.k0_off4_inb k)).toLoadRect g1) :=
      chk_gather m d L hR g1 hN _ _
    sl_exec
    iapply (SparseCore.wp_vectorLoadIdx (defs := defs₀ (F := F)) 𝒱₀ (V d (cV L) (jV L)) none Set.univ (base := b0)
      (S := Finset.univ) (q := fullShare) (f := g0_1) (Finset.subset_univ _)) $$ H0
    iintro H0
    sl_exec
    sl_step
    isplitl [H1]; · iexact H1
    isplitl [H0]; · iexact H0
    iexists _; isplitr
    rotate_left
    · iexact H2
    · ipureintro
      exact gather_step m d L b3 1 k.val (k0_off4 k) (k0_off5 k) _ _ (by rw [k0_off4_eq]; rfl) (by rw [k0_off5_eq]; rfl) g0_1 g1 g _ hN hV1 hg
  · unfold gInv
    isplitl [Hb1]; · iexact Hb1
    isplitl [Hb0]; · iexact Hb0
    iexists f3; isplitr
    · ipureintro; intro j hj; omega
    · iexact Hb3
  iintro %_ HI
  unfold gInv
  icases HI with ⟨Hb1, Hb0, %g3, %hg3, Hb3⟩

  sl_exec
  generalize hg0_2 : View.write (Elt F) (Memref.whole cc0_scratch0).view g0_1 _ Finset.univ = g0_2

  have hV2 : ∀ j : S51200.Idx, ((b0).access (Rect.whole S51200)).read (Elt F) g0_2 j = at1 (tVt m d) (k := 2 * 53248 + (j 0).val) := fun j => by
    rw [vt_read m d g0_1 g0_2 _ _ _ hg0_2 j]; simp
  sl_for (gInv d L b4 g0_2 g1 (fun k g => ∀ j : S896.Idx, (j 0).val < 16 * k → (b4).view.read (Elt F) g j = gWord m d L 2 (j 0).val)) $$ [Hb1 Hb0 Hb4]
  case region =>
    intro k _
    unfold gInv
    iintro ⟨H1, H0, %g, %hg, H2⟩
    have hchk : k0_chk3 (View.readAt (Elt F) (b1).view (Rect.unit (s := S896) (k0_off6 k) S16.size (Facts₀.k0_off6_inb k)).toLoadRect g1) :=
      chk_gather m d L hR g1 hN _ _
    sl_exec
    iapply (SparseCore.wp_vectorLoadIdx (defs := defs₀ (F := F)) 𝒱₀ (V d (cV L) (jV L)) none Set.univ (base := b0)
      (S := Finset.univ) (q := fullShare) (f := g0_2) (Finset.subset_univ _)) $$ H0
    iintro H0
    sl_exec
    sl_step
    isplitl [H1]; · iexact H1
    isplitl [H0]; · iexact H0
    iexists _; isplitr
    rotate_left
    · iexact H2
    · ipureintro
      exact gather_step m d L b4 2 k.val (k0_off6 k) (k0_off7 k) _ _ (by rw [k0_off6_eq]; rfl) (by rw [k0_off7_eq]; rfl) g0_2 g1 g _ hN hV2 hg
  · unfold gInv
    isplitl [Hb1]; · iexact Hb1
    isplitl [Hb0]; · iexact Hb0
    iexists f4; isplitr
    · ipureintro; intro j hj; omega
    · iexact Hb4
  iintro %_ HI
  unfold gInv
  icases HI with ⟨Hb1, Hb0, %g4, %hg4, Hb4⟩

  sl_exec
  generalize hg5 : View.write (Elt F) (Memref.whole cc0_scratch5).view f5 _ Finset.univ = g5
  have hRt := rot_read m d L f5 g5 hg5
  generalize hg6 : View.write (Elt F) (Memref.whole cc0_scratch6).view f6 _ Finset.univ = g6
  have hT := tr_read m d L f6 g6 hg6
  have hg2' : ∀ j : S896.Idx, (j 0).val < 16 * 56 → (b2).view.read (Elt F) g2 j = gWord m d L 0 (j 0).val :=
    fun j hj => hg2 j (by have e : Scf.trips k0_t1_loop.lb k0_t1_loop.ub k0_t1_loop.st = 56 := trips1; omega)
  have hg3' : ∀ j : S896.Idx, (j 0).val < 16 * 56 → (b3).view.read (Elt F) g3 j = gWord m d L 1 (j 0).val :=
    fun j hj => hg3 j (by have e : Scf.trips k0_t2_loop.lb k0_t2_loop.ub k0_t2_loop.st = 56 := trips2; omega)
  have hg4' : ∀ j : S896.Idx, (j 0).val < 16 * 56 → (b4).view.read (Elt F) g4 j = gWord m d L 2 (j 0).val :=
    fun j hj => hg4 j (by have e : Scf.trips k0_t3_loop.lb k0_t3_loop.ub k0_t3_loop.st = 56 := trips3; omega)
  ihave Hp := (Entails.of_eq (cut_rows (F := F) d L _)) $$ Hp
  sl_for (oInv m d L O (insert (SemLoc.dma cc0_scoped5.sem, (default : HIx 2)) (insert (SemLoc.dma cc0_scoped4.sem, default) (insert (SemLoc.dma cc0_scoped3.sem, default)
      (insert (SemLoc.dma cc0_scoped2.sem, default) (insert (SemLoc.dma cc0_scoped1.sem, default) (insert (SemLoc.dma cc0_scoped0.sem, default) W))))))
      g2 g3 g4 g5 g6) $$ [Hmw Hb2 Hb3 Hb4 Hb5 Hb6 Hb7 Hs6 Hp HO]
  case region =>
    intro t _
    unfold oInv
    iintro ⟨#Hmw, H2, H3, H4, H5, H6, ⟨%f7', H7⟩, Hs6, ⟨%G, %hG, Hsl⟩, %W', %hW', HO⟩
    have ht7 : t.val < 7 := lt_of_lt_of_eq t.isLt trips4
    sl_exec
    sl_for (sInv m d L ((wL0 L).val * 896 + 128 * t.val) g2 g3 g4 g5 g6) $$ [H2 H3 H4 H5 H6 H7]
    case region =>
      intro k _
      unfold sInv
      iintro ⟨H2, H3, H4, H5, H6, %fs, %hfs, H7⟩
      have hk8 : k.val < 8 := lt_of_lt_of_eq k.isLt trips5
      sl_exec (disch := first | (guard_target = k0_chk4 _ _; exact c_st0 k))
      iapply (wp_colStore m d L ((wL0 L).val * 896 + 128 * t.val) k.val 0 (by omega) hk8 fs hfs (w_row k) (fun _ => rfl) (fun x => (val_plain m d L 0 (by omega) b2 g2 hg2' (128 * t.val + 16 * k.val) _ _ (by rw [k0_off10_eq]; rfl) x).trans (congrArg (fun r => nodeWord m d r 0) (by omega)))) $$ H7
      iintro %fc0 %hfc0 H7
      sl_exec (disch := first | (guard_target = k0_chk5 _ _; exact c_st1 k))
      iapply (wp_colStore m d L ((wL0 L).val * 896 + 128 * t.val) k.val 1 (by omega) hk8 fc0 hfc0 (w_row k) (fun _ => rfl) (fun x => (val_plain m d L 1 (by omega) b3 g3 hg3' (128 * t.val + 16 * k.val) _ _ (by rw [k0_off11_eq]; rfl) x).trans (congrArg (fun r => nodeWord m d r 1) (by omega)))) $$ H7
      iintro %fc1 %hfc1 H7
      sl_exec (disch := first | (guard_target = k0_chk6 _ _; exact c_st2 k))
      iapply (wp_colStore m d L ((wL0 L).val * 896 + 128 * t.val) k.val 2 (by omega) hk8 fc1 hfc1 (w_row k) (fun _ => rfl) (fun x => (val_plain m d L 2 (by omega) b4 g4 hg4' (128 * t.val + 16 * k.val) _ _ (by rw [k0_off12_eq]; rfl) x).trans (congrArg (fun r => nodeWord m d r 2) (by omega)))) $$ H7
      iintro %fc2 %hfc2 H7
      sl_exec (disch := first | (guard_target = k0_chk8 _ _; exact c_st3 k) | (guard_target = k0_chk7 _; exact c_tr0 t k))
      iapply (SparseCore.wp_vectorLoadIdx (defs := defs₀ (F := F)) 𝒱₀ (V d (cV L) (jV L)) none Set.univ (base := b6)
        (S := Finset.univ) (q := fullShare) (f := g6) (Finset.subset_univ _)) $$ H6
      iintro H6
      iapply (wp_colStore m d L ((wL0 L).val * 896 + 128 * t.val) k.val 3 (by omega) hk8 fc2 hfc2 (w_row k) (fun _ => rfl) (fun x => (val_tr m d L 3 (by omega) (by omega) g6 hT _ _ (128 * t.val + 16 * k.val) (by omega) (w_tr0 t k) x).trans (congrArg (fun r => nodeWord m d r 3) (by omega)))) $$ H7
      iintro %fc3 %hfc3 H7
      sl_exec (disch := first | (guard_target = k0_chk10 _ _; exact c_st4 k) | (guard_target = k0_chk9 _; exact c_tr1 t k))
      iapply (SparseCore.wp_vectorLoadIdx (defs := defs₀ (F := F)) 𝒱₀ (V d (cV L) (jV L)) none Set.univ (base := b6)
        (S := Finset.univ) (q := fullShare) (f := g6) (Finset.subset_univ _)) $$ H6
      iintro H6
      iapply (wp_colStore m d L ((wL0 L).val * 896 + 128 * t.val) k.val 4 (by omega) hk8 fc3 hfc3 (w_row k) (fun _ => rfl) (fun x => (val_tr m d L 4 (by omega) (by omega) g6 hT _ _ (128 * t.val + 16 * k.val) (by omega) (w_tr1 t k) x).trans (congrArg (fun r => nodeWord m d r 4) (by omega)))) $$ H7
      iintro %fc4 %hfc4 H7
      sl_exec (disch := first | (guard_target = k0_chk12 _ _; exact c_st5 k) | (guard_target = k0_chk11 _; exact c_tr2 t k))
      iapply (SparseCore.wp_vectorLoadIdx (defs := defs₀ (F := F)) 𝒱₀ (V d (cV L) (jV L)) none Set.univ (base := b6)
        (S := Finset.univ) (q := fullShare) (f := g6) (Finset.subset_univ _)) $$ H6
      iintro H6
      iapply (wp_colStore m d L ((wL0 L).val * 896 + 128 * t.val) k.val 5 (by omega) hk8 fc4 hfc4 (w_row k) (fun _ => rfl) (fun x => (val_tr m d L 5 (by omega) (by omega) g6 hT _ _ (128 * t.val + 16 * k.val) (by omega) (w_tr2 t k) x).trans (congrArg (fun r => nodeWord m d r 5) (by omega)))) $$ H7
      iintro %fc5 %hfc5 H7
      sl_exec (disch := first | (guard_target = k0_chk14 _ _; exact c_st6 k) | (guard_target = k0_chk13 _; exact c_rot0 t k))
      iapply (SparseCore.wp_vectorLoadIdx (defs := defs₀ (F := F)) 𝒱₀ (V d (cV L) (jV L)) none Set.univ (base := b5)
        (S := Finset.univ) (q := fullShare) (f := g5) (Finset.subset_univ _)) $$ H5
      iintro H5
      iapply (wp_colStore m d L ((wL0 L).val * 896 + 128 * t.val) k.val 6 (by omega) hk8 fc5 hfc5 (w_row k) (fun _ => rfl) (fun x => (val_rot m d L 6 (by omega) (by omega) g5 hRt _ _ (128 * t.val + 16 * k.val) (by omega) (w_rot0 t k) x).trans (congrArg (fun r => nodeWord m d r 6) (by omega)))) $$ H7
      iintro %fc6 %hfc6 H7
      sl_exec (disch := first | (guard_target = k0_chk16 _ _; exact c_st7 k) | (guard_target = k0_chk15 _; exact c_rot1 t k))
      iapply (SparseCore.wp_vectorLoadIdx (defs := defs₀ (F := F)) 𝒱₀ (V d (cV L) (jV L)) none Set.univ (base := b5)
        (S := Finset.univ) (q := fullShare) (f := g5) (Finset.subset_univ _)) $$ H5
      iintro H5
      iapply (wp_colStore m d L ((wL0 L).val * 896 + 128 * t.val) k.val 7 (by omega) hk8 fc6 hfc6 (w_row k) (fun _ => rfl) (fun x => (val_rot m d L 7 (by omega) (by omega) g5 hRt _ _ (128 * t.val + 16 * k.val) (by omega) (w_rot1 t k) x).trans (congrArg (fun r => nodeWord m d r 7) (by omega)))) $$ H7
      iintro %fc7 %hfc7 H7
      sl_exec (disch := first | (guard_target = k0_chk18 _ _; exact c_st8 k) | (guard_target = k0_chk17 _; exact c_rot2 t k))
      iapply (SparseCore.wp_vectorLoadIdx (defs := defs₀ (F := F)) 𝒱₀ (V d (cV L) (jV L)) none Set.univ (base := b5)
        (S := Finset.univ) (q := fullShare) (f := g5) (Finset.subset_univ _)) $$ H5
      iintro H5
      iapply (wp_colStore m d L ((wL0 L).val * 896 + 128 * t.val) k.val 8 (by omega) hk8 fc7 hfc7 (w_row k) (fun _ => rfl) (fun x => (val_rot m d L 8 (by omega) (by omega) g5 hRt _ _ (128 * t.val + 16 * k.val) (by omega) (w_rot2 t k) x).trans (congrArg (fun r => nodeWord m d r 8) (by omega)))) $$ H7
      iintro %fc8 %hfc8 H7
      sl_exec (disch := first | (guard_target = k0_chk20 _ _; exact c_st9 k) | (guard_target = k0_chk19 _; exact c_rot3 t k))
      iapply (SparseCore.wp_vectorLoadIdx (defs := defs₀ (F := F)) 𝒱₀ (V d (cV L) (jV L)) none Set.univ (base := b5)
        (S := Finset.univ) (q := fullShare) (f := g5) (Finset.subset_univ _)) $$ H5
      iintro H5
      iapply (wp_colStore m d L ((wL0 L).val * 896 + 128 * t.val) k.val 9 (by omega) hk8 fc8 hfc8 (w_row k) (fun _ => rfl) (fun x => (val_rot m d L 9 (by omega) (by omega) g5 hRt _ _ (128 * t.val + 16 * k.val) (by omega) (w_rot3 t k) x).trans (congrArg (fun r => nodeWord m d r 9) (by omega)))) $$ H7
      iintro %fc9 %hfc9 H7
      sl_exec (disch := first | (guard_target = k0_chk22 _ _; exact c_st10 k) | (guard_target = k0_chk21 _; exact c_rot4 t k))
      iapply (SparseCore.wp_vectorLoadIdx (defs := defs₀ (F := F)) 𝒱₀ (V d (cV L) (jV L)) none Set.univ (base := b5)
        (S := Finset.univ) (q := fullShare) (f := g5) (Finset.subset_univ _)) $$ H5
      iintro H5
      iapply (wp_colStore m d L ((wL0 L).val * 896 + 128 * t.val) k.val 10 (by omega) hk8 fc9 hfc9 (w_row k) (fun _ => rfl) (fun x => (val_rot m d L 10 (by omega) (by omega) g5 hRt _ _ (128 * t.val + 16 * k.val) (by omega) (w_rot4 t k) x).trans (congrArg (fun r => nodeWord m d r 10) (by omega)))) $$ H7
      iintro %fc10 %hfc10 H7
      sl_exec (disch := first | (guard_target = k0_chk24 _ _; exact c_st11 k) | (guard_target = k0_chk23 _; exact c_rot5 t k))
      iapply (SparseCore.wp_vectorLoadIdx (defs := defs₀ (F := F)) 𝒱₀ (V d (cV L) (jV L)) none Set.univ (base := b5)
        (S := Finset.univ) (q := fullShare) (f := g5) (Finset.subset_univ _)) $$ H5
      iintro H5
      iapply (wp_colStore m d L ((wL0 L).val * 896 + 128 * t.val) k.val 11 (by omega) hk8 fc10 hfc10 (w_row k) (fun _ => rfl) (fun x => (val_rot m d L 11 (by omega) (by omega) g5 hRt _ _ (128 * t.val + 16 * k.val) (by omega) (w_rot5 t k) x).trans (congrArg (fun r => nodeWord m d r 11) (by omega)))) $$ H7
      iintro %fc11 %hfc11 H7
      sl_exec (disch := first | (guard_target = k0_chk26 _ _; exact c_st12 k) | (guard_target = k0_chk25 _; exact c_rot6 t k))
      iapply (SparseCore.wp_vectorLoadIdx (defs := defs₀ (F := F)) 𝒱₀ (V d (cV L) (jV L)) none Set.univ (base := b5)
        (S := Finset.univ) (q := fullShare) (f := g5) (Finset.subset_univ _)) $$ H5
      iintro H5
      iapply (wp_colStore m d L ((wL0 L).val * 896 + 128 * t.val) k.val 12 (by omega) hk8 fc11 hfc11 (w_row k) (fun _ => rfl) (fun x => (val_rot m d L 12 (by omega) (by omega) g5 hRt _ _ (128 * t.val + 16 * k.val) (by omega) (w_rot6 t k) x).trans (congrArg (fun r => nodeWord m d r 12) (by omega)))) $$ H7
      iintro %fc12 %hfc12 H7
      sl_exec (disch := first | (guard_target = k0_chk28 _ _; exact c_st13 k) | (guard_target = k0_chk27 _; exact c_rot7 t k))
      iapply (SparseCore.wp_vectorLoadIdx (defs := defs₀ (F := F)) 𝒱₀ (V d (cV L) (jV L)) none Set.univ (base := b5)
        (S := Finset.univ) (q := fullShare) (f := g5) (Finset.subset_univ _)) $$ H5
      iintro H5
      iapply (wp_colStore m d L ((wL0 L).val * 896 + 128 * t.val) k.val 13 (by omega) hk8 fc12 hfc12 (w_row k) (fun _ => rfl) (fun x => (val_rot m d L 13 (by omega) (by omega) g5 hRt _ _ (128 * t.val + 16 * k.val) (by omega) (w_rot7 t k) x).trans (congrArg (fun r => nodeWord m d r 13) (by omega)))) $$ H7
      iintro %fc13 %hfc13 H7
      sl_exec (disch := first | (guard_target = k0_chk30 _ _; exact c_st14 k) | (guard_target = k0_chk29 _; exact c_rot8 t k))
      iapply (SparseCore.wp_vectorLoadIdx (defs := defs₀ (F := F)) 𝒱₀ (V d (cV L) (jV L)) none Set.univ (base := b5)
        (S := Finset.univ) (q := fullShare) (f := g5) (Finset.subset_univ _)) $$ H5
      iintro H5
      iapply (wp_colStore m d L ((wL0 L).val * 896 + 128 * t.val) k.val 14 (by omega) hk8 fc13 hfc13 (w_row k) (fun _ => rfl) (fun x => (val_rot m d L 14 (by omega) (by omega) g5 hRt _ _ (128 * t.val + 16 * k.val) (by omega) (w_rot8 t k) x).trans (congrArg (fun r => nodeWord m d r 14) (by omega)))) $$ H7
      iintro %fc14 %hfc14 H7
      sl_exec
      sl_step
      isplitl [H2]; · iexact H2
      isplitl [H3]; · iexact H3
      isplitl [H4]; · iexact H4
      isplitl [H5]; · iexact H5
      isplitl [H6]; · iexact H6
      iexists fc14; isplitr
      · ipureintro; exact stageOK_next m d ((wL0 L).val * 896 + 128 * t.val) k.val fc14 hfc14
      · iexact H7

    · unfold sInv
      isplitl [H2]; · iexact H2
      isplitl [H3]; · iexact H3
      isplitl [H4]; · iexact H4
      isplitl [H5]; · iexact H5
      isplitl [H6]; · iexact H6
      iexists f7'; isplitr
      · ipureintro; exact stageOK_zero m d _ _
      · iexact H7
    iintro %_ HI
    unfold sInv
    icases HI with ⟨H2, H3, H4, H5, H6, %fS, %hfS, H7⟩
    ihave Hsl := (Entails.of_eq (SparseCore.bigSep_erase' (Finset.mem_univ t))) $$ Hsl
    icases Hsl with ⟨Hpt, Hrest⟩
    sl_exec
    sl_step
    have hS8 : StageOK m d ((wL0 L).val * 896 + 128 * t.val) 8 0 fS := by
      have e : Scf.trips k0_t5_loop.lb k0_t5_loop.ub k0_t5_loop.st = 8 := trips5
      rw [← e]; exact hfS
    isplitl []; · iexact Hmw
    isplitl [H2]; · iexact H2
    isplitl [H3]; · iexact H3
    isplitl [H4]; · iexact H4
    isplitl [H5]; · iexact H5
    isplitl [H6]; · iexact H6
    isplitl [H7]; · iexists fS; iexact H7
    isplitl [Hs6]; · iexact Hs6
    isplitl [Hpt Hrest]
    · iexists _; isplitr
      rotate_left
      · iapply (Entails.of_eq (SparseCore.bigSep_erase' (Finset.mem_univ t)).symm)
        isplitl [Hpt]; · iexact Hpt
        iapply (Entails.of_eq (bigSep_congr (fun t' ht' => pointsTo_congr (rows_off (F := F) d L t t' (Finset.ne_of_mem_erase ht') G _))))
        iexact Hrest
      · ipureintro; exact rows_step m d L t G fS _ (fun _ => rfl) hG hS8
    iexists _; isplitr
    rotate_left
    · iexact HO
    · ipureintro; intro p hp
      rcases Finset.mem_insert.mp hp with hp | hp
      · exact .inr (hp ▸ rfl)
      · exact hW' p hp
  · unfold oInv
    isplitl []; · iexact Hmw
    isplitl [Hb2]; · iexact Hb2
    isplitl [Hb3]; · iexact Hb3
    isplitl [Hb4]; · iexact Hb4
    isplitl [Hb5]; · iexact Hb5
    isplitl [Hb6]; · iexact Hb6
    isplitl [Hb7]; · iexists f7; iexact Hb7
    isplitl [Hs6]; · iexact Hs6
    isplitl [Hp]
    · iexists _; isplitr
      rotate_left
      · iexact Hp
      · ipureintro; exact rowsDone_zero m d L _
    iexists _; isplitr
    rotate_left
    · iexact HO
    · ipureintro; exact fun p hp => .inl hp
  iintro %_ HI
  unfold oInv
  icases HI with ⟨-, Hb2, Hb3, Hb4, Hb5, Hb6, ⟨%f7e, Hb7⟩, Hs6, ⟨%G, %hG, Hsl⟩, %W', %hW', HO⟩
  sl_exec
  sl_step
  have hG7 : RowsDone m d L 7 G := by
    have e : Scf.trips k0_t4_loop.lb k0_t4_loop.ub k0_t4_loop.st = 7 := trips4
    rw [← e]; exact hG
  unfold td0
  isplitl [Hn Hr Ht Hv Hsl]
  · isplitl [Hn]; · iapply (Entails.of_eq (pts_aN (F := F) d L _ _)); iexact Hn
    isplitl [Hr]; · iapply (Entails.of_eq (pts_aR (F := F) d L _ _)); iexact Hr
    isplitl [Ht]; · iapply (Entails.of_eq (pts_aT (F := F) d L _ _)); iexact Ht
    isplitl [Hv]; · iapply (Entails.of_eq (pts_aV (F := F) d L _ _)); iexact Hv
    iexists G; isplitr
    · ipureintro; exact rowsDone_ptabTile m d L G hG7
    · iapply (Entails.of_eq (cut_rows (F := F) d L G).symm); iexact Hsl
  isplitl [Hb0 Hb1 Hb2 Hb3 Hb4 Hb5 Hb6 Hb7 Hbufs]
  · isplitl [Hb0]; · iexists _; iexact Hb0
    isplitl [Hb1]; · iexists _; iexact Hb1
    isplitl [Hb2]; · iexists _; iexact Hb2
    isplitl [Hb3]; · iexists _; iexact Hb3
    isplitl [Hb4]; · iexists _; iexact Hb4
    isplitl [Hb5]; · iexists _; iexact Hb5
    isplitl [Hb6]; · iexists _; iexact Hb6
    isplitl [Hb7]; · iexists _; iexact Hb7
    iexact Hbufs
  isplitl [Hs0 Hs1 Hs2 Hs3 Hs4 Hs5 Hs6 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    iexact Hsems
  iexists W'; isplitr
  · ipureintro; intro p hp
    rcases hW' p hp with h | h
    · exact mem_ins6 h
    · exact .inr h
  · iexact HO

end Tile

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile Facts₀.hcore0 Facts₀.hsub0 (fun c s => cc0__build_table (coordsV c s) (Memref.whole main_v7_scv) (Memref.isWhole_whole _) (Memref.whole main_v3_scv) (Memref.isWhole_whole _) (Memref.whole main_v6_scv) (Memref.isWhole_whole _) (Memref.whole main_v10_scv) (Memref.isWhole_whole _) (Memref.whole main_v23_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scoped0 cc0_scoped1 cc0_scoped2 cc0_scoped3 cc0_scoped4 cc0_scoped5 cc0_scoped6) ⟨⟩ c s := rfl

omit [FloatOps F] [Facts] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl0 (hR : RangesOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hR O W hO).trans (wp_mono frame _ _ fun _ => obl_post)

end Cert.KI

end
-- ==== Proof.Body1Ifc.lean ====
import proofs.«205348_g71287867179597_cont_9to1c4b_113_38_alg».proof.Proof.Common

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F] [Facts]
open Facts₀ Facts

variable (m : (ℓ : Loc nD τ sig) → Buf (Elt F) ℓ)

local notation "𝕄" => MT nD τ sig (HIx 2) (Elt F) ℕ UU ℕ

abbrev aPtab : Memref sig .scVector .hbm S28672x128 .f32 := Memref.whole main_v23_scv
abbrev aVt : Memref sig .scVector .hbm S159744 .f32 := Memref.whole main_v10_scv
abbrev aInf : Memref sig .scVector .hbm S159744 .i32 := Memref.whole main_v13_scv
abbrev aWt : Memref sig .scVector .hbm S159744 .f32 := Memref.whole main_v16_scv
abbrev aOrn : Memref sig .scVector .hbm S229376 .i32 := Memref.whole main_v18_scv
abbrev aMrep : Memref sig .scVector .hbm S229376 .i32 := Memref.whole main_v22_scv
abbrev aOut0 : Memref sig .scVector .hbm S159744 .f32 := Memref.whole main_v24_0_scv
abbrev aOut1 : Memref sig .scVector .hbm S1024 .f32 := Memref.whole main_v24_1_scv
abbrev sGv : Memref sig .scVector .vmem S128 .i32 := Memref.whole cc1_scratch0
abbrev sGb : Memref sig .scVector .vmem S128 .i32 := Memref.whole cc1_scratch1
abbrev sVx : Memref sig .scVector .vmem S1664 .f32 := Memref.whole cc1_scratch2
abbrev sVy : Memref sig .scVector .vmem S1664 .f32 := Memref.whole cc1_scratch3
abbrev sVz : Memref sig .scVector .vmem S1664 .f32 := Memref.whole cc1_scratch4
abbrev sWt : Memref sig .scVector .vmem S1664 .f32 := Memref.whole cc1_scratch5
abbrev sRv : Memref sig .scVector .vmem S128x128 .f32 := Memref.whole cc1_scratch6
abbrev sRb : Memref sig .scVector .vmem S128x128 .f32 := Memref.whole cc1_scratch7
abbrev sRc : Memref sig .scVector .vmem S128x128 .f32 := Memref.whole cc1_scratch8
abbrev sOut : Memref sig .scVector .vmem S4992 .f32 := Memref.whole cc1_scratch9
abbrev sStg : Memref sig .scVector .vmem S1024 .i32 := Memref.whole cc1_scratch10
abbrev sAcc : Memref sig .scVector .vmem S32 .f32 := Memref.whole cc1_scratch11

section Tile

variable (d : Dev nD) (L : grid1.Coords)

abbrev cV1 (L : grid1.Coords) : Fin τ.nSC := (L 0).castLE Facts₀.hcore1
abbrev jV1 (L : grid1.Coords) : Fin τ.nSub := (L 1).castLE Facts₀.hsub1
abbrev thr1 : Thread nD τ := V d (cV1 L) (jV1 L)
def wL (L : grid1.Coords) : Fin 32 := wid (Fin.cast (show grid1.bound 0 = 2 from rfl) (L 0)) (Fin.cast (show grid1.bound 1 = 16 from rfl) (L 1))

abbrev bv1 (L : grid1.Coords) : BitVec 32 := Scalar.addi (Scalar.muli (BitVec.ofNat 32 (L 1).val) 2#32) (BitVec.ofNat 32 (L 0).val)
abbrev bv2 : IVec S16 32 := iota .scVector S16 32 [0] Facts₀.iota_S16_d0_w32_scVector
abbrev bv5 (L : grid1.Coords) : BitVec 32 := Scalar.muli (bv1 L) 1664#32

def RowsAt (ids : ℕ → ℕ) (p : ℕ) (R : S128x128.Idx → Elt F .f32) : Prop :=
  ∀ r col : Fin 128, col.val < 15 → R (ValueIdx.ix2 r col) = nodeWord m d (ids (p + r.val)) col.val
def SliceAt (g : ℕ → Elt F .f32) (p : ℕ) (X : S1664.Idx → Elt F .f32) : Prop :=
  ∀ j : Fin 1664, X (ValueIdx.ix1 j) = g (p + j.val)

def CoordsOK (k : ℕ) (X Y Z W : S1664.Idx → Elt F .f32) : Prop :=
  SliceAt (fun q => at1 (tVt m d) (k := q)) ((wL L).val * 1664) X
  ∧ SliceAt (fun q => at1 (tVt m d) (k := q)) (53248 + (wL L).val * 1664) Y
  ∧ SliceAt (fun q => at1 (tVt m d) (k := q)) (2 * 53248 + (wL L).val * 1664) Z
  ∧ SliceAt (fun q => at1 (tWt m d) (k := q)) (k * 53248 + (wL L).val * 1664) W

def ChunkDone (add : Bool) (k c : ℕ) (g g' : S4992.Idx → Elt F .f32) : Prop :=
  ∀ q : Fin 4992, g' (ValueIdx.ix1 q) =
    if 128 * c ≤ q.val / 3 ∧ q.val / 3 < 128 * (c + 1) then
      (let t := blendTerm m d (wL L) k (q.val / 3 / 16 * 16) (q.val % 3) (ValueIdx.ix1 ⟨q.val / 3 % 16, Nat.mod_lt _ (by decide)⟩)
       if add then Elt.idxAdd .f32 (g (ValueIdx.ix1 q)) t else t)
    else g (ValueIdx.ix1 q)

end Tile

end Cert.KI

end
-- ==== Proof.LibPadRead.lean ====
import Idealize.ShloMosaic.Lib.KernelVsHost
import Idealize.ShloMosaic.Lib.Pipeline.Value
import Idealize.ShloMosaic.Lib.ValueLayout

noncomputable section

namespace Cert.LibPadRead

open Idealize.ShloMosaic Idealize.ShloMosaic.ValueIdx

variable {α : Type}

theorem pad_high_ix1 {n n' : ℕ} (hi : Fin 1 → ℕ) (x : (⟨1, ![n]⟩ : Shape).Idx → α) {u : Shape} (v : u.Idx → α)
    (h : (⟨1, ![n]⟩ : Shape).Pads ![0] hi ![0] ⟨1, ![n']⟩) (hu : 0 < u.numel) (j : Fin n') :
    pad ⟨1, ![n']⟩ ![0] hi ![0] x v h hu (ix1 j)
      = if hj : j.val < n then x (ix1 ⟨j.val, hj⟩) else v (Shape.Idx.first hu) := by
  split
  · next hj =>
    exact pad_apply_of_inside _ _ _ x v h hu _ (ix1 ⟨j.val, hj⟩) (fun a => match a with | ⟨0, _⟩ => by simp)
  · next hj =>
    exact pad_apply_of_not_inside _ _ _ x v h hu _ (0 : Fin 1) (fun hin => hj (by simpa using hin.2.2))

theorem pad_high_rows_ix2 {n n' c : ℕ} (hi : Fin 2 → ℕ) (x : (⟨2, ![n, c]⟩ : Shape).Idx → α) {u : Shape} (v : u.Idx → α)
    (h : (⟨2, ![n, c]⟩ : Shape).Pads ![0, 0] hi ![0, 0] ⟨2, ![n', c]⟩) (hu : 0 < u.numel) (i : Fin n') (j : Fin c) :
    pad ⟨2, ![n', c]⟩ ![0, 0] hi ![0, 0] x v h hu (ix2 i j)
      = if hi' : i.val < n then x (ix2 ⟨i.val, hi'⟩ j) else v (Shape.Idx.first hu) := by
  split
  · next hi' =>
    exact pad_apply_of_inside _ _ _ x v h hu _ (ix2 ⟨i.val, hi'⟩ j)
      (fun a => match a with | ⟨0, _⟩ => by simp | ⟨1, _⟩ => by simp)
  · next hi' =>
    exact pad_apply_of_not_inside _ _ _ x v h hu _ (0 : Fin 2) (fun hin => hi' (by simpa using hin.2.2))

theorem shapeCast_ab_flat_apply {a b N : ℕ} (x : (⟨2, ![a, b]⟩ : Shape).Idx → α)
    (h : (⟨2, ![a, b]⟩ : Shape).ShapeCasts ⟨1, ![N]⟩) (i : Fin a) (j : Fin b) (k : Fin N) (hk : k.val = i.val * b + j.val) :
    shapeCast ⟨1, ![N]⟩ x h (ix1 k) = x (ix2 i j) :=
  shapeCast_apply x h _ _ (by
    rw [Shape.rowMajor_val_two, Shape.rowMajor_val_one]
    show i.val * b + j.val = k.val
    exact hk.symm)

theorem shapeCast_abc_ab_apply {a b c M : ℕ} (x : (⟨3, ![a, b, c]⟩ : Shape).Idx → α)
    (h : (⟨3, ![a, b, c]⟩ : Shape).ShapeCasts ⟨2, ![a, M]⟩) (hM : M = b * c) (k : Fin a) (i : Fin b) (j : Fin c) (l : Fin M)
    (hl : l.val = i.val * c + j.val) :
    shapeCast ⟨2, ![a, M]⟩ x h (ix2 k l) = x (ix3 k i j) :=
  shapeCast_apply x h _ _ (by
    rw [Shape.rowMajor_val_three, Shape.rowMajor_val_two]
    show (k.val * b + i.val) * c + j.val = k.val * M + l.val
    rw [hl, hM, Nat.add_mul, Nat.mul_assoc, Nat.add_assoc])

theorem broadcastInDim_rows_ix2 {a b : ℕ} (ha : a ≠ 1) (x : (⟨1, ![a]⟩ : Shape).Idx → α)
    (h : (⟨1, ![a]⟩ : Shape).BroadcastsInDim ⟨2, ![a, b]⟩ ![0]) (i : Fin a) (j : Fin b) :
    broadcastInDim ⟨2, ![a, b]⟩ ![0] h x (ix2 i j) = x (ix1 i) :=
  broadcastInDim_apply _ h x _ _ (fun c => match c with
    | ⟨0, _⟩ => by
      show i.val = if a = 1 then 0 else i.val
      rw [if_neg ha])

end Cert.LibPadRead

end
-- ==== Proof.Tables.lean ====
import proofs.«205348_g71287867179597_cont_9to1c4b_113_38_alg».proof.Proof.Common
import proofs.«205348_g71287867179597_cont_9to1c4b_113_38_alg».proof.Proof.Gen.Pre_input_domain
import proofs.«205348_g71287867179597_cont_9to1c4b_113_38_alg».proof.Proof.LibPadRead
import Idealize.ShloMosaic.Lib.KernelVsHost
import Idealize.ShloMosaic.Lib.Pipeline.Value
import Idealize.ShloMosaic.Lib.ValueLayout
import Idealize.ShloMosaic.Lib.IdealHost
import Idealize.ShloMosaic.Lib.ReduceAll
import Idealize.ShloMosaic.Lib.StableHlo.Predicate

noncomputable section

namespace Cert.KI

open Cert.KernelIdeal Cert.KernelIdeal.Gen

open Idealize.ShloMosaic
open Idealize.ShloMosaic.SparseCore (S V T)
open Idealize.ShloMosaic.StableHlo
open Idealize.ShloMosaic.ValueIdx
open Cert.LibPadRead

variable {F : FTy → Type} [FloatOps F] [Facts]
open Facts₀ Facts

variable (m : (ℓ : Loc nD τ sig) → Buf (Elt F) ℓ) (ρ : Dev nD → PrngReg)

def padF : F .f32 := FloatOps.sitofp .f32 (0#32 : BitVec 32)

theorem at1_of_lt {n : ℕ} {α : Type} (f : (⟨1, ![n]⟩ : Shape).Idx → α) (h0 : 0 < n) (k : ℕ) (hk : k < n) :
    at1 f h0 k = f (ix1 ⟨k, hk⟩) := by
  have e : (⟨if k < n then k else 0, by split <;> omega⟩ : Fin n) = ⟨k, hk⟩ := Fin.ext (if_pos hk)
  unfold at1
  rw [e]

set_option maxRecDepth 8192 in
theorem tNidx_eq (d : Dev nD) :
    tNidx m d = pad S28672 ![0] ![3672] ![0] (m (locOf d main_arg4) : IVec S25000 32) (constantI S_ 32 0#32)
      Facts₀.pads_S25000_S28672_036720 Facts₀.h_S_ := by
  unfold tNidx Vpre
  after_results_simp
  rfl

set_option maxRecDepth 8192 in
theorem tRot_eq (d : Dev nD) :
    tRot m d = shapeCast S258048 (pad S28672x9 ![0, 0] ![3672, 0] ![0, 0]
        (shapeCast S25000x9 (shapeCast S25000x3x3 (m (locOf d main_arg1) : FVec F S1x25000x3x3 .f32)
          Facts₀.shapeCasts_S1x25000x3x3_S25000x3x3) Facts₀.shapeCasts_S25000x3x3_S25000x9)
        (sitofp .f32 (constantI S_ 32 0#32) : FVec F S_ .f32) Facts₀.pads_S25000x9_S28672x9_036720_000 Facts₀.h_S_)
      Facts₀.shapeCasts_S28672x9_S258048 := by
  unfold tRot Vpre
  after_results_simp
  rfl

set_option maxRecDepth 8192 in
theorem tTr_eq (d : Dev nD) :
    tTr m d = shapeCast S86016 (pad S28672x3 ![0, 0] ![3672, 0] ![0, 0]
        (shapeCast S25000x3 (m (locOf d main_arg2) : FVec F S1x25000x3 .f32) Facts₀.shapeCasts_S1x25000x3_S25000x3)
        (sitofp .f32 (constantI S_ 32 0#32) : FVec F S_ .f32) Facts₀.pads_S25000x3_S28672x3_036720_000 Facts₀.h_S_)
      Facts₀.shapeCasts_S28672x3_S86016 := by
  unfold tTr Vpre
  after_results_simp
  rfl

set_option maxRecDepth 8192 in
theorem tVt_eq (d : Dev nD) :
    tVt m d = shapeCast S159744 (transpose S3x53248 [1, 0] (pad S53248x3 ![0, 0] ![3248, 0] ![0, 0]
        (m (locOf d main_arg0) : FVec F S50000x3 .f32) (sitofp .f32 (constantI S_ 32 0#32) : FVec F S_ .f32)
        Facts₀.pads_S50000x3_S53248x3_032480_000 Facts₀.h_S_) Facts₀.transposes_S53248x3_S3x53248_1_0)
      Facts₀.shapeCasts_S3x53248_S159744 := by
  unfold tVt Vpre
  after_results_simp
  rfl

set_option maxRecDepth 8192 in
theorem tInf_eq (d : Dev nD) :
    tInf m d = shapeCast S159744 (transpose S3x53248 [1, 0] (pad S53248x3 ![0, 0] ![3248, 0] ![0, 0]
        (m (locOf d main_arg5) : IVec S50000x3 32) (constantI S_ 32 0#32)
        Facts₀.pads_S50000x3_S53248x3_032480_000 Facts₀.h_S_) Facts₀.transposes_S53248x3_S3x53248_1_0)
      Facts₀.shapeCasts_S3x53248_S159744 := by
  unfold tInf Vpre
  after_results_simp
  rfl

set_option maxRecDepth 8192 in
theorem tWt_eq (d : Dev nD) :
    tWt m d = shapeCast S159744 (transpose S3x53248 [1, 0] (pad S53248x3 ![0, 0] ![3248, 0] ![0, 0]
        (m (locOf d main_arg3) : FVec F S50000x3 .f32) (sitofp .f32 (constantI S_ 32 0#32) : FVec F S_ .f32)
        Facts₀.pads_S50000x3_S53248x3_032480_000 Facts₀.h_S_) Facts₀.transposes_S53248x3_S3x53248_1_0)
      Facts₀.shapeCasts_S3x53248_S159744 := by
  unfold tWt Vpre
  after_results_simp
  rfl

set_option maxRecDepth 8192 in
theorem tOrn_eq (d : Dev nD) :
    tOrn m d = pad S229376 ![0] ![4376] ![0]
      (shapeCast S225000 (m (locOf d main_arg6) : IVec S25000x9 32) Facts₀.shapeCasts_S25000x9_S225000)
      (constantI S_ 32 24999#32) Facts₀.pads_S225000_S229376_043760 Facts₀.h_S_ := by
  unfold tOrn Vpre
  after_results_simp
  rfl

set_option maxRecDepth 8192 in
theorem tMrep_eq (d : Dev nD) :
    tMrep m d = pad S229376 ![0] ![4376] ![0]
      (shapeCast S225000 (broadcastInDim S25000x9 ![0] Facts₀.bcast_S25000_S25000x9_0 (iotaInDim S25000 32 0))
        Facts₀.shapeCasts_S25000x9_S225000)
      (constantI S_ 32 24999#32) Facts₀.pads_S225000_S229376_043760 Facts₀.h_S_ := by
  unfold tMrep Vpre
  after_results_simp
  rfl

theorem tNidx_at (d : Dev nD) (r : ℕ) (hr : r < 28672) :
    (at1 (tNidx m d) (k := r) : BitVec 32)
      = if h : r < 25000 then (m (locOf d main_arg4) : IVec S25000 32) (ix1 ⟨r, h⟩) else 0#32 := by
  rw [at1_of_lt _ _ _ hr, tNidx_eq]
  exact pad_high_ix1 _ _ _ _ _ ⟨r, hr⟩

theorem tRot_at (d : Dev nD) (r c : ℕ) (hr : r < 28672) (hc : c < 9) :
    (at1 (tRot m d) (k := r * 9 + c) : F .f32)
      = if h : r < 25000 then
          (m (locOf d main_arg1) : FVec F S1x25000x3x3 .f32) (ix4 0 ⟨r, h⟩ ⟨c / 3, by omega⟩ ⟨c % 3, Nat.mod_lt _ (by decide)⟩)
        else padF := by
  have hk : r * 9 + c < 258048 := by omega
  rw [at1_of_lt _ _ _ hk, tRot_eq]
  refine (shapeCast_ab_flat_apply _ _ ⟨r, hr⟩ ⟨c, hc⟩ ⟨r * 9 + c, hk⟩ rfl).trans ?_
  refine (pad_high_rows_ix2 _ _ _ _ _ ⟨r, hr⟩ ⟨c, hc⟩).trans ?_
  by_cases h : r < 25000
  · rw [dif_pos h, dif_pos h]
    refine (shapeCast_abc_ab_apply _ _ rfl ⟨r, h⟩ ⟨c / 3, by omega⟩ ⟨c % 3, Nat.mod_lt _ (by decide)⟩ ⟨c, hc⟩
      (by show c = c / 3 * 3 + c % 3; omega)).trans ?_
    exact shapeCast_1abc_abc_apply _ _ _ _ _
  · rw [dif_neg h, dif_neg h]
    rfl

theorem tTr_at (d : Dev nD) (r c : ℕ) (hr : r < 28672) (hc : c < 3) :
    (at1 (tTr m d) (k := r * 3 + c) : F .f32)
      = if h : r < 25000 then (m (locOf d main_arg2) : FVec F S1x25000x3 .f32) (ix3 0 ⟨r, h⟩ ⟨c, hc⟩) else padF := by
  have hk : r * 3 + c < 86016 := by omega
  rw [at1_of_lt _ _ _ hk, tTr_eq]
  refine (shapeCast_ab_flat_apply _ _ ⟨r, hr⟩ ⟨c, hc⟩ ⟨r * 3 + c, hk⟩ rfl).trans ?_
  refine (pad_high_rows_ix2 _ _ _ _ _ ⟨r, hr⟩ ⟨c, hc⟩).trans ?_
  by_cases h : r < 25000
  · rw [dif_pos h, dif_pos h]
    exact shapeCast_1ab_ab_apply _ _ _ _
  · rw [dif_neg h, dif_neg h]
    rfl

theorem tVt_at (d : Dev nD) (k v : ℕ) (hk : k < 3) (hv : v < 53248) :
    (at1 (tVt m d) (k := k * 53248 + v) : F .f32)
      = if h : v < 50000 then (m (locOf d main_arg0) : FVec F S50000x3 .f32) (ix2 ⟨v, h⟩ ⟨k, hk⟩) else padF := by
  have hk' : k * 53248 + v < 159744 := by omega
  rw [at1_of_lt _ _ _ hk', tVt_eq]
  refine (shapeCast_ab_flat_apply _ _ ⟨k, hk⟩ ⟨v, hv⟩ ⟨k * 53248 + v, hk'⟩ rfl).trans ?_
  refine (transpose_ix2_apply _ _ _ _).trans ?_
  exact pad_high_rows_ix2 _ _ _ _ _ ⟨v, hv⟩ ⟨k, hk⟩

theorem tWt_at (d : Dev nD) (k v : ℕ) (hk : k < 3) (hv : v < 53248) :
    (at1 (tWt m d) (k := k * 53248 + v) : F .f32)
      = if h : v < 50000 then (m (locOf d main_arg3) : FVec F S50000x3 .f32) (ix2 ⟨v, h⟩ ⟨k, hk⟩) else padF := by
  have hk' : k * 53248 + v < 159744 := by omega
  rw [at1_of_lt _ _ _ hk', tWt_eq]
  refine (shapeCast_ab_flat_apply _ _ ⟨k, hk⟩ ⟨v, hv⟩ ⟨k * 53248 + v, hk'⟩ rfl).trans ?_
  refine (transpose_ix2_apply _ _ _ _).trans ?_
  exact pad_high_rows_ix2 _ _ _ _ _ ⟨v, hv⟩ ⟨k, hk⟩

theorem tInf_at (d : Dev nD) (k v : ℕ) (hk : k < 3) (hv : v < 53248) :
    (at1 (tInf m d) (k := k * 53248 + v) : BitVec 32)
      = if h : v < 50000 then (m (locOf d main_arg5) : IVec S50000x3 32) (ix2 ⟨v, h⟩ ⟨k, hk⟩) else 0#32 := by
  have hk' : k * 53248 + v < 159744 := by omega
  rw [at1_of_lt _ _ _ hk', tInf_eq]
  refine (shapeCast_ab_flat_apply _ _ ⟨k, hk⟩ ⟨v, hv⟩ ⟨k * 53248 + v, hk'⟩ rfl).trans ?_
  refine (transpose_ix2_apply _ _ _ _).trans ?_
  exact pad_high_rows_ix2 _ _ _ _ _ ⟨v, hv⟩ ⟨k, hk⟩

theorem tOrn_at (d : Dev nD) (q : ℕ) (hq : q < 229376) :
    (at1 (tOrn m d) (k := q) : BitVec 32)
      = if h : q < 225000 then
          (m (locOf d main_arg6) : IVec S25000x9 32) (ix2 ⟨q / 9, by omega⟩ ⟨q % 9, Nat.mod_lt _ (by decide)⟩)
        else 24999#32 := by
  rw [at1_of_lt _ _ _ hq, tOrn_eq]
  refine (pad_high_ix1 _ _ _ _ _ ⟨q, hq⟩).trans ?_
  by_cases h : q < 225000
  · rw [dif_pos h, dif_pos h]
    exact shapeCast_ab_flat_apply _ _ ⟨q / 9, by omega⟩ ⟨q % 9, Nat.mod_lt _ (by decide)⟩ ⟨q, h⟩
      (by show q = q / 9 * 9 + q % 9; omega)
  · rw [dif_neg h, dif_neg h]
    rfl

theorem tMrep_at (d : Dev nD) (q : ℕ) (hq : q < 229376) :
    (at1 (tMrep m d) (k := q) : BitVec 32) = BitVec.ofNat 32 (min (q / 9) 24999) := by
  rw [at1_of_lt _ _ _ hq, tMrep_eq]
  refine (pad_high_ix1 _ _ _ _ _ ⟨q, hq⟩).trans ?_
  by_cases h : q < 225000
  · rw [dif_pos h]
    refine (shapeCast_ab_flat_apply _ _ ⟨q / 9, by omega⟩ ⟨q % 9, Nat.mod_lt _ (by decide)⟩ ⟨q, h⟩
      (by show q = q / 9 * 9 + q % 9; omega)).trans ?_
    refine (broadcastInDim_rows_ix2 (by decide) _ _ _ _).trans ?_
    show BitVec.ofNat 32 (q / 9) = BitVec.ofNat 32 (min (q / 9) 24999)
    rw [Nat.min_eq_left (by omega)]
  · rw [dif_neg h]
    show 24999#32 = BitVec.ofNat 32 (min (q / 9) 24999)
    rw [Nat.min_eq_right (by omega)]

section Pre
variable [Cert.Pre_input_domain.Facts]

def PreAt : Prop :=
  ∀ d : Dev nD,
    Cert.Pre_input_domain.fn (F := F) (m (locOf d main_arg0)) (m (locOf d main_arg1)) (m (locOf d main_arg2))
      (m (locOf d main_arg3)) (m (locOf d main_arg4)) (m (locOf d main_arg5)) (m (locOf d main_arg6)) = fun _ => 1#1

instance subsingleton_scalarIdx : Subsingleton (⟨0, ![]⟩ : Shape).Idx := ⟨fun a b => funext fun d => d.elim0⟩

theorem toNat_le_of_signed_range (hi : BitVec 32) (hhi : hi.toNat < 2 ^ 31) (v : BitVec 32)
    (e : IntOp.andi (IntOp.cmpi .sge v 0#32) (IntOp.cmpi .sle v hi) = 1#1) : v.toNat ≤ hi.toNat := by
  obtain ⟨e0, e1⟩ := IntOp.andi_eq_one.1 e
  have hv : v.toNat < 2 ^ 31 := by
    have h0 : (0#32 : BitVec 32).sle v = true := (Predicate.ofBool_eq_one_iff _).1 e0
    rw [BitVec.sle_eq_decide, decide_eq_true_eq, BitVec.toInt_eq_toNat_cond, BitVec.toInt_eq_toNat_cond] at h0
    have := v.isLt
    simp only [BitVec.toNat_ofNat] at h0
    split at h0 <;> omega
  exact (Predicate.sle_iff_toNat hv hhi).1 e1

theorem pre_entries (hpre : PreAt m) (d : Dev nD) :
    (∀ i, cmpf .olt (Host.absf (m (locOf d main_arg0) : FVec F S50000x3 .f32))
        (broadcastInDim S50000x3 ![] Cert.Pre_input_domain.Facts.bcast_S_S50000x3 (constant S_ .f32 0x7F800000#32)) i = 1#1)
    ∧ (∀ i, cmpf .olt (Host.absf (m (locOf d main_arg1) : FVec F S1x25000x3x3 .f32))
        (broadcastInDim S1x25000x3x3 ![] Cert.Pre_input_domain.Facts.bcast_S_S1x25000x3x3 (constant S_ .f32 0x7F800000#32)) i = 1#1)
    ∧ (∀ i, cmpf .olt (Host.absf (m (locOf d main_arg2) : FVec F S1x25000x3 .f32))
        (broadcastInDim S1x25000x3 ![] Cert.Pre_input_domain.Facts.bcast_S_S1x25000x3 (constant S_ .f32 0x7F800000#32)) i = 1#1)
    ∧ (∀ i, cmpf .olt (Host.absf (m (locOf d main_arg3) : FVec F S50000x3 .f32))
        (broadcastInDim S50000x3 ![] Cert.Pre_input_domain.Facts.bcast_S_S50000x3 (constant S_ .f32 0x7F800000#32)) i = 1#1)
    ∧ (∀ i, ((m (locOf d main_arg4) : IVec S25000 32) i).toNat ≤ 49999)
    ∧ (∀ i, ((m (locOf d main_arg5) : IVec S50000x3 32) i).toNat ≤ 24999)
    ∧ (∀ i, ((m (locOf d main_arg6) : IVec S25000x9 32) i).toNat ≤ 24999) := by
  have e := congrFun (hpre d) ix0
  dsimp only [Cert.Pre_input_domain.fn, Cert.Pre_input_domain.fn_part1, Cert.Pre_input_domain.fn_part2] at e
  simp only [andi, IntOp.andi_eq_one] at e
  obtain ⟨⟨⟨⟨⟨⟨e0, e1⟩, e2⟩, e3⟩, e4⟩, e5⟩, e6⟩ := e
  refine ⟨Host.reduce_andi_all _ _ _ _ _ e0, Host.reduce_andi_all _ _ _ _ _ e1, Host.reduce_andi_all _ _ _ _ _ e2,
    Host.reduce_andi_all _ _ _ _ _ e3, fun i => ?_, fun i => ?_, fun i => ?_⟩
  · exact toNat_le_of_signed_range 49999#32 (by decide) _ (Host.reduce_andi_all _ _ _ _ _ e4 i)
  · exact toNat_le_of_signed_range 24999#32 (by decide) _ (Host.reduce_andi_all _ _ _ _ _ e5 i)
  · exact toNat_le_of_signed_range 24999#32 (by decide) _ (Host.reduce_andi_all _ _ _ _ _ e6 i)

theorem rangesOK_of_preAt (hpre : PreAt m) : RangesOK m := by
  intro d
  obtain ⟨-, -, -, -, h4, h5, h6⟩ := pre_entries m hpre d
  refine ⟨fun r hr => ?_, fun q hq => ?_, fun q hq => ?_, fun q hq => ?_⟩
  · rw [tNidx_at m d r hr]
    split
    · exact Nat.lt_succ_of_le (h4 _)
    · decide
  · have e : q = q / 53248 * 53248 + q % 53248 := by omega
    unfold infId
    rw [e, tInf_at m d (q / 53248) (q % 53248) (by omega) (Nat.mod_lt _ (by decide))]
    split
    · exact Nat.lt_succ_of_le (h5 _)
    · decide
  · unfold tgtId
    rw [tOrn_at m d q hq]
    split
    · exact Nat.lt_succ_of_le (h6 _)
    · decide
  · unfold srcId
    rw [tMrep_at m d q hq, BitVec.toNat_ofNat]
    exact Nat.mod_eq_of_lt (by omega)

end Pre

end Cert.KI

end
-- ==== Proof.Body1Val.lean ====
import proofs.«205348_g71287867179597_cont_9to1c4b_113_38_alg».proof.Proof.Body1Ifc
import proofs.«205348_g71287867179597_cont_9to1c4b_113_38_alg».proof.Proof.Tables
import Idealize.ShloMosaic.Lib.SparseCore.Stream

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F] [Facts]
open Facts₀ Facts

variable (m : (ℓ : Loc nD τ sig) → Buf (Elt F) ℓ)

local notation "𝕄" => MT nD τ sig (HIx 2) (Elt F) ℕ UU ℕ

section Tile

variable (d : Dev nD) (L : grid1.Coords)

def bT (k u i : ℕ) : Elt F .f32 := blendTerm m d (wL L) k (u / 16 * 16) i (ValueIdx.ix1 ⟨u % 16, Nat.mod_lt _ (by decide)⟩)
def blendSum : ℕ → ℕ → ℕ → Elt F .f32
  | 0, u, i => bT m d L 0 u i
  | 1, u, i => bT m d L 0 u i
  | (n + 2), u, i => Elt.idxAdd .f32 (blendSum (n + 1) u i) (bT m d L (n + 1) u i)
def BlendInv (k nch : ℕ) (g : S4992.Idx → Elt F .f32) : Prop :=
  ∀ q : Fin 4992, (q.val / 3 / 128 < nch → g (ValueIdx.ix1 q) = blendSum m d L (k + 1) (q.val / 3) (q.val % 3))
    ∧ (nch ≤ q.val / 3 / 128 → 0 < k → g (ValueIdx.ix1 q) = blendSum m d L k (q.val / 3) (q.val % 3))

theorem BlendInv_start (g : S4992.Idx → Elt F .f32) : BlendInv m d L 0 0 g := fun q => ⟨fun h0 => absurd h0 (Nat.not_lt_zero _), fun _ h0 => absurd h0 (Nat.lt_irrefl 0)⟩

theorem BlendInv_step {k c : ℕ} {g g' : S4992.Idx → Elt F .f32} (h : BlendInv m d L k c g)
    (h' : ChunkDone m d L (decide (0 < k)) k c g g') : BlendInv m d L k (c + 1) g' := by
  intro q
  have hq := h q
  have hq' := h' q
  by_cases hc : 128 * c ≤ q.val / 3 ∧ q.val / 3 < 128 * (c + 1)
  · rw [if_pos hc] at hq'
    refine ⟨fun _ => ?_, fun hge _ => absurd hge (by omega)⟩
    rcases Nat.eq_zero_or_pos k with rfl | hk
    · rw [hq']; rfl
    · have hg := hq.2 (by omega) hk
      obtain ⟨n, rfl⟩ : ∃ n, k = n + 1 := ⟨k - 1, by omega⟩
      rw [hq', hg, decide_eq_true (Nat.succ_pos n)]
      rfl
  · rw [if_neg hc] at hq'
    rw [hq']
    exact ⟨fun hlt => hq.1 (by omega), fun hge hk => hq.2 (by omega) hk⟩

theorem BlendInv_next {k : ℕ} {g : S4992.Idx → Elt F .f32} (h : BlendInv m d L k 13 g) : BlendInv m d L (k + 1) 0 g := fun q => ⟨fun h0 => absurd h0 (Nat.not_lt_zero _), fun _ _ => (h q).1 (by have := q.isLt; omega)⟩

theorem BlendInv_done {g : S4992.Idx → Elt F .f32} (h : BlendInv m d L 2 13 g) (u i : ℕ) (hu : u < 1664) (hi : i < 3) :
    g (ValueIdx.ix1 ⟨3 * u + i, by omega⟩)
      = Elt.idxAdd .f32 (Elt.idxAdd .f32 (blendTerm m d (wL L) 0 (u / 16 * 16) i (ValueIdx.ix1 ⟨u % 16, Nat.mod_lt _ (by decide)⟩))
          (blendTerm m d (wL L) 1 (u / 16 * 16) i (ValueIdx.ix1 ⟨u % 16, Nat.mod_lt _ (by decide)⟩)))
          (blendTerm m d (wL L) 2 (u / 16 * 16) i (ValueIdx.ix1 ⟨u % 16, Nat.mod_lt _ (by decide)⟩)) := by
  have h1 := (h ⟨3 * u + i, by omega⟩).1 (by show (3 * u + i) / 3 / 128 < 13; omega)
  have e1 : (3 * u + i) / 3 = u := by omega
  have e2 : (3 * u + i) % 3 = i := by omega
  dsimp only at h1
  rw [e1, e2] at h1
  exact h1

end Tile

theorem inf_inb (d : Dev nD) (hRg : RangesOK m) : ∀ q, q < 159744 → infId m d q < 28672 := fun q hq => lt_of_lt_of_le ((hRg d).2.1 q hq) (by norm_num)
theorem tgt_inb (d : Dev nD) (hRg : RangesOK m) : ∀ q, q < 229376 → tgtId m d q < 28672 := fun q hq => lt_of_lt_of_le ((hRg d).2.2.1 q hq) (by norm_num)
theorem src_inb (d : Dev nD) (hRg : RangesOK m) : ∀ q, q < 229376 → srcId m d q < 28672 := fun q hq => by
  rw [(hRg d).2.2.2 q hq]
  exact lt_of_le_of_lt (Nat.min_le_right _ _) (by norm_num)

theorem inf_slice_read (d : Dev nD) (o : Fin S159744.rank → ℕ) (hb : ∀ a, o a + S128.size a ≤ S159744.size a) (j : Fin 128) :
    (((aInf).slice (Rect.unit (s := S159744) o S128.size hb) (fun _ => rfl)).view.read (Elt F) (tInf m d) (ValueIdx.ix1 j) : BitVec 32).toNat
      = infId m d (o 0 + j.val) := by
  have hle : o 0 + 128 ≤ 159744 := hb 0
  have hk : o 0 + j.val < 159744 := by have := j.isLt; omega
  have hemb : (Rect.unit (s := S159744) o S128.size hb).emb (ValueIdx.ix1 j) = ValueIdx.ix1 ⟨o 0 + j.val, hk⟩ := by
    funext a
    obtain rfl : a = 0 := Subsingleton.elim _ _
    exact Fin.ext (by show o 0 + 1 * j.val = o 0 + j.val; omega)
  unfold infId
  rw [at1_of_lt _ _ _ hk]
  show ((tInf m d) ((Rect.unit (s := S159744) o S128.size hb).emb (ValueIdx.ix1 j)) : BitVec 32).toNat = _
  rw [hemb]
theorem orn_slice_read (d : Dev nD) (o : Fin S229376.rank → ℕ) (hb : ∀ a, o a + S128.size a ≤ S229376.size a) (j : Fin 128) :
    (((aOrn).slice (Rect.unit (s := S229376) o S128.size hb) (fun _ => rfl)).view.read (Elt F) (tOrn m d) (ValueIdx.ix1 j) : BitVec 32).toNat
      = tgtId m d (o 0 + j.val) := by
  have hle : o 0 + 128 ≤ 229376 := hb 0
  have hk : o 0 + j.val < 229376 := by have := j.isLt; omega
  have hemb : (Rect.unit (s := S229376) o S128.size hb).emb (ValueIdx.ix1 j) = ValueIdx.ix1 ⟨o 0 + j.val, hk⟩ := by
    funext a
    obtain rfl : a = 0 := Subsingleton.elim _ _
    exact Fin.ext (by show o 0 + 1 * j.val = o 0 + j.val; omega)
  unfold tgtId
  rw [at1_of_lt _ _ _ hk]
  show ((tOrn m d) ((Rect.unit (s := S229376) o S128.size hb).emb (ValueIdx.ix1 j)) : BitVec 32).toNat = _
  rw [hemb]
theorem mrep_slice_read (d : Dev nD) (o : Fin S229376.rank → ℕ) (hb : ∀ a, o a + S128.size a ≤ S229376.size a) (j : Fin 128) :
    (((aMrep).slice (Rect.unit (s := S229376) o S128.size hb) (fun _ => rfl)).view.read (Elt F) (tMrep m d) (ValueIdx.ix1 j) : BitVec 32).toNat
      = srcId m d (o 0 + j.val) := by
  have hle : o 0 + 128 ≤ 229376 := hb 0
  have hk : o 0 + j.val < 229376 := by have := j.isLt; omega
  have hemb : (Rect.unit (s := S229376) o S128.size hb).emb (ValueIdx.ix1 j) = ValueIdx.ix1 ⟨o 0 + j.val, hk⟩ := by
    funext a
    obtain rfl : a = 0 := Subsingleton.elim _ _
    exact Fin.ext (by show o 0 + 1 * j.val = o 0 + j.val; omega)
  unfold srcId
  rw [at1_of_lt _ _ _ hk]
  show ((tMrep m d) ((Rect.unit (s := S229376) o S128.size hb).emb (ValueIdx.ix1 j)) : BitVec 32).toNat = _
  rw [hemb]

theorem gather_rowsAt (d : Dev nD) (ids : ℕ → ℕ) (p : ℕ) (fP : Buf (Elt F) (locOf d main_v23)) (hP : PtabOK m d fP)
    (fo : S128.Idx → Elt F .i32) (hn : S128.numel = S128x128.size (Facts₀.gathers_S28672x128_S128x128).axis')
    (hin : ∀ x, (fo x).toNat < S28672x128.size (Facts₀.gathers_S28672x128_S128x128).axis)
    (hids : ∀ j : Fin 128, (fo (ValueIdx.ix1 j) : BitVec 32).toNat = ids (p + j.val)) :
    RowsAt m d ids p (SparseCore.gatherPayload Facts₀.gathers_S28672x128_S128x128 fP (SparseCore.rows fo hn hin)) := by
  intro r col hcol
  have hrow : ∀ k : Fin 128, (SparseCore.rows fo hn hin k).val = ids (p + k.val) := by
    intro k
    have e : S128.rowMajor.symm (Fin.cast hn.symm k) = ValueIdx.ix1 k := by
      rw [Equiv.symm_apply_eq]
      exact Fin.ext (by rw [Shape.rowMajor_val_one]; rfl)
    show (fo (S128.rowMajor.symm (Fin.cast hn.symm k))).toNat = _
    rw [e, hids]
  have hlt : ids (p + r.val) < 28672 := by rw [← hrow r]; exact (SparseCore.rows fo hn hin r).isLt
  have h0 : (Facts₀.gathers_S28672x128_S128x128).idx (SparseCore.rows fo hn hin) (ValueIdx.ix2 r col) 0 = ⟨ids (p + r.val), hlt⟩ :=
    Fin.ext (hrow r)
  have h1 : (Facts₀.gathers_S28672x128_S128x128).idx (SparseCore.rows fo hn hin) (ValueIdx.ix2 r col) 1 = col := Fin.ext rfl
  show fP ((Facts₀.gathers_S28672x128_S128x128).idx (SparseCore.rows fo hn hin) (ValueIdx.ix2 r col)) = _
  rw [ValueIdx.eq_ix2 ((Facts₀.gathers_S28672x128_S128x128).idx (SparseCore.rows fo hn hin) (ValueIdx.ix2 r col)), h0, h1]
  exact hP ⟨_, hlt⟩ col hcol

theorem ptab_slice_read (d : Dev nD) (fP : Buf (Elt F) (locOf d main_v23)) :
    ((aPtab).slice (Rect.unit (s := S28672x128) ![0, 0] S28672x128.size Facts₀.inb_S28672x128_S28672x128_0_0) (fun _ => rfl)).view.read (Elt F) fP
      = fP := by
  funext x
  show fP ((Rect.unit (s := S28672x128) ![0, 0] S28672x128.size Facts₀.inb_S28672x128_S28672x128_0_0).emb x) = fP x
  congr 1
  funext a
  have h0 : ∀ b : Fin 2, (![0, 0] : Fin 2 → ℕ) b = 0 := by decide
  exact Fin.ext (by show ![0, 0] a + 1 * (x a).val = (x a).val; rw [h0 a]; omega)

theorem gather_rowsAt_sRv (d : Dev nD) (ids : ℕ → ℕ) (p : ℕ) (fP : Buf (Elt F) (locOf d main_v23)) (hP : PtabOK m d fP)
    (fo : S128.Idx → Elt F .i32) (hn : S128.numel = S128x128.size (Facts₀.gathers_S28672x128_S128x128).axis')
    (hin : ∀ x, (fo x).toNat < S28672x128.size (Facts₀.gathers_S28672x128_S128x128).axis)
    (hids : ∀ j : Fin 128, (fo (ValueIdx.ix1 j) : BitVec 32).toNat = ids (p + j.val)) (fr : (sRv).view.ty.Contents (Elt F)) :
    RowsAt m d ids p ((sRv).view.write (Elt F) fr
      (SparseCore.gatherPayload Facts₀.gathers_S28672x128_S128x128 fP (SparseCore.rows fo hn hin)) Finset.univ) := by
  rw [View.write_whole_univ]
  exact gather_rowsAt m d ids p fP hP fo hn hin hids
theorem gather_rowsAt_sRb (d : Dev nD) (ids : ℕ → ℕ) (p : ℕ) (fP : Buf (Elt F) (locOf d main_v23)) (hP : PtabOK m d fP)
    (fo : S128.Idx → Elt F .i32) (hn : S128.numel = S128x128.size (Facts₀.gathers_S28672x128_S128x128).axis')
    (hin : ∀ x, (fo x).toNat < S28672x128.size (Facts₀.gathers_S28672x128_S128x128).axis)
    (hids : ∀ j : Fin 128, (fo (ValueIdx.ix1 j) : BitVec 32).toNat = ids (p + j.val)) (fr : (sRb).view.ty.Contents (Elt F)) :
    RowsAt m d ids p ((sRb).view.write (Elt F) fr
      (SparseCore.gatherPayload Facts₀.gathers_S28672x128_S128x128 fP (SparseCore.rows fo hn hin)) Finset.univ) := by
  rw [View.write_whole_univ]
  exact gather_rowsAt m d ids p fP hP fo hn hin hids

section Tile2

variable (d : Dev nD) (L : grid1.Coords)

theorem gv_inb (hRg : RangesOK m) (fs : Buf (Elt F) ((sGv).view.loc (thr1 d L))) (pay : S128.Idx → Elt F .i32) (off : Fin 1 → ℕ)
    (hb : ∀ a, off a + S128.size a ≤ S159744.size a)
    (hpay : pay = ((aInf).slice (Rect.unit (s := S159744) off S128.size hb) (fun _ => rfl)).view.read (Elt F) (tInf m d)) :
    ∀ x, ((sGv).view.read (Elt F) (View.write (Elt F) (sGv).view fs pay Finset.univ) x).toNat
      < S28672x128.size Gen.gathers_S28672x128_S128x128.axis := by
  intro x
  subst hpay
  rw [View.write_whole_univ]
  obtain ⟨j, rfl⟩ : ∃ j : Fin 128, x = ValueIdx.ix1 j := ⟨x 0, ValueIdx.eq_ix1 x⟩
  have hle : off 0 + 128 ≤ 159744 := hb 0
  show (((aInf).slice (Rect.unit (s := S159744) off S128.size hb) (fun _ => rfl)).view.read (Elt F) (tInf m d) (ValueIdx.ix1 j) : BitVec 32).toNat < 28672
  rw [inf_slice_read m d off hb j]
  exact inf_inb m d hRg _ (by have := j.isLt; omega)
theorem gb_inb (hRg : RangesOK m) (fs : Buf (Elt F) ((sGb).view.loc (thr1 d L))) (pay : S128.Idx → Elt F .i32) (off : Fin 1 → ℕ)
    (hb : ∀ a, off a + S128.size a ≤ S159744.size a)
    (hpay : pay = ((aInf).slice (Rect.unit (s := S159744) off S128.size hb) (fun _ => rfl)).view.read (Elt F) (tInf m d)) :
    ∀ x, ((sGb).view.read (Elt F) (View.write (Elt F) (sGb).view fs pay Finset.univ) x).toNat
      < S28672x128.size Gen.gathers_S28672x128_S128x128.axis := by
  intro x
  subst hpay
  rw [View.write_whole_univ]
  obtain ⟨j, rfl⟩ : ∃ j : Fin 128, x = ValueIdx.ix1 j := ⟨x 0, ValueIdx.eq_ix1 x⟩
  have hle : off 0 + 128 ≤ 159744 := hb 0
  show (((aInf).slice (Rect.unit (s := S159744) off S128.size hb) (fun _ => rfl)).view.read (Elt F) (tInf m d) (ValueIdx.ix1 j) : BitVec 32).toNat < 28672
  rw [inf_slice_read m d off hb j]
  exact inf_inb m d hRg _ (by have := j.isLt; omega)

theorem rows_v (hRg : RangesOK m) (fP : Buf (Elt F) ((aPtab).view.loc (thr1 d L))) (hP : PtabOK m d fP)
    (fr : Buf (Elt F) ((sRv).view.loc (thr1 d L))) (fs : Buf (Elt F) ((sGv).view.loc (thr1 d L))) (pay : S128.Idx → Elt F .i32)
    (off : Fin 1 → ℕ) (hb : ∀ a, off a + S128.size a ≤ S159744.size a)
    (hpay : pay = ((aInf).slice (Rect.unit (s := S159744) off S128.size hb) (fun _ => rfl)).view.read (Elt F) (tInf m d))
    (hpr2 : ∀ a, (Rect.unit (s := S28672x128) ![0, 0] S28672x128.size Gen.inb_S28672x128_S28672x128_0_0).stride a = 1)
    (hn : S128.numel = S128x128.size Gen.gathers_S28672x128_S128x128.axis')
    (hin : ∀ x, ((sGv).view.read (Elt F) (View.write (Elt F) (sGv).view fs pay Finset.univ) x).toNat
      < S28672x128.size Gen.gathers_S28672x128_S128x128.axis) :
    RowsAt m d (infId m d) (off 0) ((sRv).view.writes (Elt F) fr
      [⟨Rect.whole S128x128, SparseCore.gatherPayload Gen.gathers_S28672x128_S128x128
        (View.read (Elt F) ((aPtab).slice (Rect.unit ![0, 0] S28672x128.size Gen.inb_S28672x128_S28672x128_0_0) hpr2).view fP)
        (SparseCore.rows (View.read (Elt F) (sGv).view (View.write (Elt F) (sGv).view fs pay Finset.univ)) hn hin)⟩]) := by
  subst hpay
  have hPr : PtabOK m d (View.read (Elt F)
      ((aPtab).slice (Rect.unit ![0, 0] S28672x128.size Gen.inb_S28672x128_S28672x128_0_0) hpr2).view fP) := by
    rw [show View.read (Elt F) ((aPtab).slice (Rect.unit ![0, 0] S28672x128.size Gen.inb_S28672x128_S28672x128_0_0) hpr2).view fP = fP
      from ptab_slice_read d fP]
    exact hP
  have hids : ∀ j : Fin 128, (View.read (Elt F) (sGv).view (View.write (Elt F) (sGv).view fs
      (((aInf).slice (Rect.unit (s := S159744) off S128.size hb) (fun _ => rfl)).view.read (Elt F) (tInf m d)) Finset.univ)
        (ValueIdx.ix1 j) : BitVec 32).toNat = infId m d (off 0 + j.val) := by
    intro j
    rw [View.write_whole_univ]
    exact inf_slice_read m d off hb j
  have G := gather_rowsAt m d (infId m d) (off 0) _ hPr _ hn hin hids
  intro r col hcol
  refine Eq.trans ?_ (G r col hcol)
  have e := Rect.emb_whole_apply S128x128 (ValueIdx.ix2 r col)
  conv_lhs => rw [← e]
  exact View.read_writes_cons_emb (sRv).view fr (Rect.whole S128x128) _ [] (ValueIdx.ix2 r col)
theorem rows_b (hRg : RangesOK m) (fP : Buf (Elt F) ((aPtab).view.loc (thr1 d L))) (hP : PtabOK m d fP)
    (fr : Buf (Elt F) ((sRb).view.loc (thr1 d L))) (fs : Buf (Elt F) ((sGb).view.loc (thr1 d L))) (pay : S128.Idx → Elt F .i32)
    (off : Fin 1 → ℕ) (hb : ∀ a, off a + S128.size a ≤ S159744.size a)
    (hpay : pay = ((aInf).slice (Rect.unit (s := S159744) off S128.size hb) (fun _ => rfl)).view.read (Elt F) (tInf m d))
    (hpr2 : ∀ a, (Rect.unit (s := S28672x128) ![0, 0] S28672x128.size Gen.inb_S28672x128_S28672x128_0_0).stride a = 1)
    (hn : S128.numel = S128x128.size Gen.gathers_S28672x128_S128x128.axis')
    (hin : ∀ x, ((sGb).view.read (Elt F) (View.write (Elt F) (sGb).view fs pay Finset.univ) x).toNat
      < S28672x128.size Gen.gathers_S28672x128_S128x128.axis) :
    RowsAt m d (infId m d) (off 0) ((sRb).view.writes (Elt F) fr
      [⟨Rect.whole S128x128, SparseCore.gatherPayload Gen.gathers_S28672x128_S128x128
        (View.read (Elt F) ((aPtab).slice (Rect.unit ![0, 0] S28672x128.size Gen.inb_S28672x128_S28672x128_0_0) hpr2).view fP)
        (SparseCore.rows (View.read (Elt F) (sGb).view (View.write (Elt F) (sGb).view fs pay Finset.univ)) hn hin)⟩]) := by
  subst hpay
  have hPr : PtabOK m d (View.read (Elt F)
      ((aPtab).slice (Rect.unit ![0, 0] S28672x128.size Gen.inb_S28672x128_S28672x128_0_0) hpr2).view fP) := by
    rw [show View.read (Elt F) ((aPtab).slice (Rect.unit ![0, 0] S28672x128.size Gen.inb_S28672x128_S28672x128_0_0) hpr2).view fP = fP
      from ptab_slice_read d fP]
    exact hP
  have hids : ∀ j : Fin 128, (View.read (Elt F) (sGb).view (View.write (Elt F) (sGb).view fs
      (((aInf).slice (Rect.unit (s := S159744) off S128.size hb) (fun _ => rfl)).view.read (Elt F) (tInf m d)) Finset.univ)
        (ValueIdx.ix1 j) : BitVec 32).toNat = infId m d (off 0 + j.val) := by
    intro j
    rw [View.write_whole_univ]
    exact inf_slice_read m d off hb j
  have G := gather_rowsAt m d (infId m d) (off 0) _ hPr _ hn hin hids
  intro r col hcol
  refine Eq.trans ?_ (G r col hcol)
  have e := Rect.emb_whole_apply S128x128 (ValueIdx.ix2 r col)
  conv_lhs => rw [← e]
  exact View.read_writes_cons_emb (sRb).view fr (Rect.whole S128x128) _ [] (ValueIdx.ix2 r col)

end Tile2

end Cert.KI

end
-- ==== Proof.Body1Out.lean ====
import proofs.«205348_g71287867179597_cont_9to1c4b_113_38_alg».proof.Proof.Body1Ifc

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F] [Facts]
open Facts₀ Facts

local notation "𝕄" => MT nD τ sig (HIx 2) (Elt F) ℕ UU ℕ

section Tile

variable (d : Dev nD) (L : grid1.Coords)

abbrev out0K (L : grid1.Coords) : Memref sig .scVector .hbm S4992 .f32 :=
  (aOut0).slice (Rect.unit (s := S159744) (k1_off19 L) S4992.size (Gen.k1_off19_inb L)) (fun _ => rfl)
abbrev out1K (L : grid1.Coords) : Memref sig .scVector .hbm S32 .f32 :=
  (aOut1).slice (Rect.unit (s := S1024) (k1_off26 L) S32.size (Gen.k1_off26_inb L)) (fun _ => rfl)

omit [FloatOps F] [Facts] in
theorem wL_val : (wL L).val = (L 1).val * 2 + (L 0).val := rfl

omit [FloatOps F] in
theorem set_out0 : (out0K L).view.set = owSet (wL L) := by
  show ((View.whole main_v24_0_scv).slice (Rect.unit (s := S159744) (k1_off19 L) S4992.size (Gen.k1_off19_inb L))).set = _
  rw [View.set_slice_whole]
  ext j
  rw [Rect.mem_set_unit, Gen.k1_off19_eq L]
  simp only [owSet, Finset.mem_filter, Finset.mem_univ, true_and]
  have hw := wL_val L
  have h0 : (L 0).val < 2 := (L 0).isLt
  have h1 : (L 1).val < 16 := (L 1).isLt
  constructor
  · intro h
    have h' : 9984 * (L 1).val + 4992 * (L 0).val ≤ (j 0).val
        ∧ (j 0).val < 9984 * (L 1).val + 4992 * (L 0).val + 4992 := h 0
    omega
  · intro h a
    obtain rfl : a = (0 : Fin 1) := Subsingleton.elim (α := Fin 1) _ _
    show 9984 * (L 1).val + 4992 * (L 0).val ≤ (j 0).val ∧ (j 0).val < 9984 * (L 1).val + 4992 * (L 0).val + 4992
    omega

omit [FloatOps F] in
theorem set_out1 : (out1K L).view.set = olSet (wL L) := by
  show ((View.whole main_v24_1_scv).slice (Rect.unit (s := S1024) (k1_off26 L) S32.size (Gen.k1_off26_inb L))).set = _
  rw [View.set_slice_whole]
  ext j
  rw [Rect.mem_set_unit, Gen.k1_off26_eq L]
  simp only [olSet, Finset.mem_filter, Finset.mem_univ, true_and]
  have hw := wL_val L
  have h0 : (L 0).val < 2 := (L 0).isLt
  have h1 : (L 1).val < 16 := (L 1).isLt
  constructor
  · intro h
    have h' : 64 * (L 1).val + 32 * (L 0).val ≤ (j 0).val
        ∧ (j 0).val < 64 * (L 1).val + 32 * (L 0).val + 32 := h 0
    omega
  · intro h a
    obtain rfl : a = (0 : Fin 1) := Subsingleton.elim (α := Fin 1) _ _
    show 64 * (L 1).val + 32 * (L 0).val ≤ (j 0).val ∧ (j 0).val < 64 * (L 1).val + 32 * (L 0).val + 32
    omega

theorem pts_out0 (f : Buf (Elt F) (locOf d main_v24_0)) :
    ((out0K L).view.loc (thr1 d L) ↦[(out0K L).view.set]{fullShare} f : sProp 𝕄) = (locOf d main_v24_0 ↦[owSet (wL L)]{fullShare} f) := by
  rw [set_out0]

theorem pts_out1 (f : Buf (Elt F) (locOf d main_v24_1)) :
    ((out1K L).view.loc (thr1 d L) ↦[(out1K L).view.set]{fullShare} f : sProp 𝕄) = (locOf d main_v24_1 ↦[olSet (wL L)]{fullShare} f) := by
  rw [set_out1]

omit [FloatOps F] in
theorem out0K_emb (j : Fin 4992) :
    (out0K L).view.emb (ValueIdx.ix1 j) = ValueIdx.ix1 ⟨(wL L).val * 4992 + j.val, by have := (wL L).isLt; omega⟩ := by
  funext a
  obtain rfl : a = (0 : Fin 1) := Subsingleton.elim (α := Fin 1) _ _
  apply Fin.ext
  show k1_off19 L 0 + 1 * j.val = (wL L).val * 4992 + j.val
  rw [Gen.k1_off19_eq L]
  have hw := wL_val L
  show (9984 * (L 1).val + 4992 * (L 0).val) + 1 * j.val = (wL L).val * 4992 + j.val
  omega

omit [FloatOps F] in
theorem out1K_emb (j : Fin 32) :
    (out1K L).view.emb (ValueIdx.ix1 j) = ValueIdx.ix1 ⟨(wL L).val * 32 + j.val, by have := (wL L).isLt; omega⟩ := by
  funext a
  obtain rfl : a = (0 : Fin 1) := Subsingleton.elim (α := Fin 1) _ _
  apply Fin.ext
  show k1_off26 L 0 + 1 * j.val = (wL L).val * 32 + j.val
  rw [Gen.k1_off26_eq L]
  have hw := wL_val L
  show (64 * (L 1).val + 32 * (L 0).val) + 1 * j.val = (wL L).val * 32 + j.val
  omega

end Tile

end Cert.KI

end
-- ==== Proof.Body1Blend.lean ====
-- The inner blend loops of the second call: eight trips a chunk, each storing or adding three terms for sixteen vertices.
import proofs.«205348_g71287867179597_cont_9to1c4b_113_38_alg».proof.Proof.Common
import proofs.«205348_g71287867179597_cont_9to1c4b_113_38_alg».proof.Proof.LibStoreIdx
import proofs.«205348_g71287867179597_cont_9to1c4b_113_38_alg».proof.Proof.Body1Ifc

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F] [Facts]
open Facts₀ Facts

variable (m : (ℓ : Loc nD τ sig) → Buf (Elt F) ℓ)

local notation "𝕄" => MT nD τ sig (HIx 2) (Elt F) ℕ UU ℕ
variable (d : Dev nD) (L : grid1.Coords)

theorem bv2_toNat (x : S16.Idx) : ((bv2 : IVec S16 32) x).toNat = (x 0).val := by
  have hx : (x 0).val < 16 := (x 0).isLt
  show (BitVec.ofNat 32 (([0] : List (Fin S16.rank)).foldl (fun n a => n * S16.size a + (x a).val) 0)).toNat = (x 0).val
  simp only [List.foldl_cons, List.foldl_nil, BitVec.toNat_ofNat]
  omega

theorem iv01_toNat (n : ℕ) (hn : n < 2 ^ 32) : (Scf.iv (0#32) (1#32) n).toNat = n := by
  unfold Scf.iv
  simp only [BitVec.toNat_add, BitVec.toNat_mul, BitVec.toNat_ofNat]
  omega

theorem rowIdx_toNat (n : ℕ) (hn : n < 8) (x : S16.Idx) :
    ((addi (broadcast S16 (Scalar.muli (Scf.iv (0#32) (1#32) n) 16#32)) (bv2 : IVec S16 32)) x).toNat = 16 * n + (x 0).val := by
  have hx : (x 0).val < 16 := (x 0).isLt
  have h2 := bv2_toNat x
  have hi := iv01_toNat n (by omega)
  show (IntOp.addi (Scalar.muli (Scf.iv (0#32) (1#32) n) 16#32) ((bv2 : IVec S16 32) x)).toNat = _
  simp only [IntOp.addi, Scalar.muli, IntOp.muli, BitVec.toNat_add, BitVec.toNat_mul, BitVec.toNat_ofNat, h2, hi]
  omega

theorem colIdx_toNat (col : ℕ) (hcol : col < 2 ^ 32) (x : S16.Idx) : ((broadcast S16 (BitVec.ofNat 32 col) : IVec S16 32) x).toNat = col := by
  show (BitVec.ofNat 32 col).toNat = col
  simp only [BitVec.toNat_ofNat]; omega

theorem base_pair (v39 : BitVec 32) (c n : ℕ) (hv : v39.toNat = c) (hc : c ≤ 12) (hn : n < 8) :
    (Scalar.addi (Scalar.muli v39 128#32) (Scalar.muli (Scf.iv (0#32) (1#32) n) 16#32)).toNat = 128 * c + 16 * n := by
  have hi := iv01_toNat n (by omega)
  simp only [Scalar.addi, IntOp.addi, Scalar.muli, IntOp.muli, BitVec.toNat_add, BitVec.toNat_mul, BitVec.toNat_ofNat, hv, hi]
  omega

theorem base_tail (n : ℕ) (hn : n < 8) :
    (Scalar.addi 1536#32 (Scalar.muli (Scf.iv (0#32) (1#32) n) 16#32)).toNat = 128 * 12 + 16 * n := by
  have hi := iv01_toNat n (by omega)
  simp only [Scalar.addi, IntOp.addi, Scalar.muli, IntOp.muli, BitVec.toNat_add, BitVec.toNat_mul, BitVec.toNat_ofNat, hi]
  omega

theorem chunk_even (t : ℕ) (ht : t < 6) : (Scalar.muli (Scf.iv (0#32) (1#32) t) 2#32).toNat = 2 * t := by
  have hi := iv01_toNat t (by omega)
  simp only [Scalar.muli, IntOp.muli, BitVec.toNat_mul, BitVec.toNat_ofNat, hi]
  omega
theorem chunk_odd (t : ℕ) (ht : t < 6) : (Scalar.addi (Scalar.muli (Scf.iv (0#32) (1#32) t) 2#32) 1#32).toNat = 2 * t + 1 := by
  have hi := iv01_toNat t (by omega)
  simp only [Scalar.addi, IntOp.addi, Scalar.muli, IntOp.muli, BitVec.toNat_add, BitVec.toNat_mul, BitVec.toNat_ofNat, hi]
  omega

theorem flatIdx_toNat (v55 : BitVec 32) (b : ℕ) (hb : b ≤ 1648) (hv : v55.toNat = b) (x : S16.Idx) :
    ((addi (muli (bv2 : IVec S16 32) (broadcast S16 3#32)) (broadcast S16 (Scalar.muli v55 3#32))) x).toNat = 3 * (x 0).val + 3 * b := by
  have hx : (x 0).val < 16 := (x 0).isLt
  have h2 := bv2_toNat x
  show (IntOp.addi (IntOp.muli ((bv2 : IVec S16 32) x) 3#32) (Scalar.muli v55 3#32)).toNat = _
  simp only [IntOp.addi, Scalar.muli, IntOp.muli, BitVec.toNat_add, BitVec.toNat_mul, BitVec.toNat_ofNat, h2, hv]
  omega
theorem flatIdx1_toNat (i0 : IVec S16 32) (a : ℕ) (ha : a ≤ 4989) (x : S16.Idx) (h : (i0 x).toNat = a) :
    ((addi i0 (broadcast S16 1#32)) x).toNat = a + 1 := by
  show (IntOp.addi (i0 x) 1#32).toNat = _
  simp only [IntOp.addi, BitVec.toNat_add, BitVec.toNat_ofNat, h]; omega
theorem flatIdx2_toNat (i0 : IVec S16 32) (a : ℕ) (ha : a ≤ 4989) (x : S16.Idx) (h : (i0 x).toNat = a) :
    ((addi i0 (broadcast S16 2#32)) x).toNat = a + 2 := by
  show (IntOp.addi (i0 x) 2#32).toNat = _
  simp only [IntOp.addi, BitVec.toNat_add, BitVec.toNat_ofNat, h]; omega

theorem rows_inb (v58 v59 : IVec S16 32) (h58 : ∀ x, (v58 x).toNat < 128) (h59 : ∀ x, (v59 x).toNat < 128) :
    ∀ a x, ((![v58, v59] : Fin 2 → IVec S16 32) a x).toNat < S128x128.size a := by
  intro a x
  match a with
  | ⟨0, _⟩ => exact h58 x
  | ⟨1, _⟩ => exact h59 x

theorem out_inb (i : IVec S16 32) (hi : ∀ x, (i x).toNat < 4992) :
    ∀ a x, ((![i] : Fin 1 → IVec S16 32) a x).toNat < S4992.size a := by
  intro a x
  match a with
  | ⟨0, _⟩ => exact hi x

theorem rows_load (k c n col : ℕ) (R : S128x128.Idx → Elt F .f32)
    (hR : RowsAt m d (infId m d) (k * 53248 + (wL L).val * 1664 + 128 * c) R) (hcol : col < 15) (hn : n < 8)
    (v58 v59 : IVec S16 32) (h58 : ∀ x, (v58 x).toNat = 16 * n + (x 0).val) (h59 : ∀ x, (v59 x).toNat = col)
    (h : ∀ a x, ((![v58, v59] : Fin 2 → IVec S16 32) a x).toNat < S128x128.size a) :
    loadIdx (F := F) R ![v58, v59] h = rowVec m d (infId m d) (k * 53248 + ((wL L).val * 1664 + (128 * c + 16 * n))) col := by
  funext x
  have hx : (x 0).val < 16 := (x 0).isLt
  have e : R (ValueIdx.ix2 (⟨16 * n + (x 0).val, by omega⟩ : Fin 128) (⟨col, by omega⟩ : Fin 128))
      = nodeWord m d (infId m d (k * 53248 + (wL L).val * 1664 + 128 * c + (16 * n + (x 0).val))) col :=
    hR ⟨16 * n + (x 0).val, by omega⟩ ⟨col, by omega⟩ hcol
  have hi : idxAt (![v58, v59] : Fin 2 → IVec S16 32) h x = ValueIdx.ix2 (⟨16 * n + (x 0).val, by omega⟩ : Fin 128) (⟨col, by omega⟩ : Fin 128) := by
    funext a
    match a with
    | ⟨0, _⟩ => exact Fin.ext (h58 x)
    | ⟨1, _⟩ => exact Fin.ext (h59 x)
  have hp : k * 53248 + (wL L).val * 1664 + 128 * c + (16 * n + (x 0).val) = k * 53248 + ((wL L).val * 1664 + (128 * c + 16 * n)) + (x 0).val := by
    simp only [Nat.add_assoc]
  show R (idxAt _ h x) = nodeWord m d (infId m d (k * 53248 + ((wL L).val * 1664 + (128 * c + 16 * n)) + (x 0).val)) col
  rw [hi, e, hp]

theorem slice_load {sc : Memref sig .scVector .vmem S1664 .f32} (gf : ℕ → Elt F .f32) (p b pos : ℕ)
    (X : Buf (Elt F) (sc.view.loc (thr1 d L))) (hX : SliceAt gf p (sc.view.read (Elt F) X)) (hpos : pos = p + b)
    (off : Fin 1 → ℕ) (hoff : off = ![b]) (inb : ∀ a, off a + S16.size a ≤ S1664.size a) :
    sc.view.readAt (Elt F) (Rect.unit (s := S1664) off S16.size inb).toLoadRect X = lanes16 gf pos := by
  subst hoff hpos
  funext x
  have hx : (x 0).val < 16 := (x 0).isLt
  have hb : b + 16 ≤ 1664 := inb 0
  have hi : (Rect.unit (s := S1664) ![b] S16.size inb).toLoadRect.idx x = ValueIdx.ix1 (⟨b + (x 0).val, by omega⟩ : Fin 1664) := by
    funext a
    match a with
    | ⟨0, _⟩ => exact Fin.ext (show b + 1 * (x 0).val = b + (x 0).val by omega)
  show sc.view.read (Elt F) X ((Rect.unit (s := S1664) ![b] S16.size inb).toLoadRect.idx x) = gf (p + b + (x 0).val)
  rw [hi, hX ⟨b + (x 0).val, by omega⟩, Nat.add_assoc]

theorem ofLane_eq_ix1 (l : Fin 16) : (Shape.ofLane (d := ![16]) l : S16.Idx) = ValueIdx.ix1 l := by
  funext a
  match a with
  | ⟨0, _⟩ => rfl

theorem store_hit (add : Bool) (f : S4992.Idx → Elt F .f32) (i : IVec S16 32) (v : Vec F S16 .f32) (base : ℕ)
    (hi : ∀ x, (i x).toNat = 3 * (x 0).val + base) (h : ∀ a x, ((![i] : Fin 1 → IVec S16 32) a x).toNat < S4992.size a)
    (q : Fin 4992) (l : Fin 16) (hq : q.val = 3 * l.val + base) :
    storeIdx (F := F) f ![i] v (fun _ => 1#1) add h (ValueIdx.ix1 q)
      = if add then Elt.idxAdd .f32 (f (ValueIdx.ix1 q)) (v (ValueIdx.ix1 l)) else v (ValueIdx.ix1 l) := by
  have hinj : ∀ k₁ k₂ : Fin 16, k₁ ≠ k₂ →
      ¬ ∀ a, ((![i] : Fin 1 → IVec S16 32) a (Shape.ofLane k₁)).toNat = ((![i] : Fin 1 → IVec S16 32) a (Shape.ofLane k₂)).toNat := by
    intro k₁ k₂ hne hall
    have e : (i (Shape.ofLane k₁)).toNat = (i (Shape.ofLane k₂)).toNat := hall 0
    rw [hi, hi] at e
    have e' : 3 * k₁.val + base = 3 * k₂.val + base := e
    exact hne (Fin.ext (by omega))
  have hjk : ∀ a, ((ValueIdx.ix1 q : S4992.Idx) a).val = ((![i] : Fin 1 → IVec S16 32) a (Shape.ofLane l)).toNat := by
    intro a
    match a with
    | ⟨0, _⟩ =>
      show q.val = (i (Shape.ofLane l)).toNat
      rw [hi]; exact hq
  have e := storeIdx_at_lane (F := F) f (![i] : Fin 1 → IVec S16 32) v (fun _ => 1#1) add h (fun _ => rfl) hinj (ValueIdx.ix1 q) l hjk
  rw [ofLane_eq_ix1] at e
  exact e

theorem store_miss (add : Bool) (f : S4992.Idx → Elt F .f32) (i : IVec S16 32) (v : Vec F S16 .f32) (base : ℕ)
    (hi : ∀ x, (i x).toNat = 3 * (x 0).val + base) (h : ∀ a x, ((![i] : Fin 1 → IVec S16 32) a x).toNat < S4992.size a)
    (q : Fin 4992) (hq : ∀ l : Fin 16, q.val ≠ 3 * l.val + base) :
    storeIdx (F := F) f ![i] v (fun _ => 1#1) add h (ValueIdx.ix1 q) = f (ValueIdx.ix1 q) := by
  refine storeIdx_of_ne (F := F) f (![i] : Fin 1 → IVec S16 32) v (fun _ => 1#1) add h (ValueIdx.ix1 q) ?_
  intro l hall
  have e : q.val = (i (Shape.ofLane l)).toNat := hall 0
  rw [hi] at e
  exact hq l e

def PartDone (add : Bool) (k c n : ℕ) (g g' : S4992.Idx → Elt F .f32) : Prop :=
  ∀ q : Fin 4992, g' (ValueIdx.ix1 q) =
    if 128 * c ≤ q.val / 3 ∧ q.val / 3 < 128 * c + 16 * n then
      (let t := blendTerm m d (wL L) k (q.val / 3 / 16 * 16) (q.val % 3) (ValueIdx.ix1 ⟨q.val / 3 % 16, Nat.mod_lt _ (by decide)⟩)
       if add then Elt.idxAdd .f32 (g (ValueIdx.ix1 q)) t else t)
    else g (ValueIdx.ix1 q)

theorem partDone_zero (add : Bool) (k c : ℕ) (g : S4992.Idx → Elt F .f32) : PartDone m d L add k c 0 g g := by
  intro q
  rw [if_neg (by omega)]

theorem partDone_eight (add : Bool) (k c : ℕ) (g g' : S4992.Idx → Elt F .f32) (h : PartDone m d L add k c 8 g g') :
    ChunkDone m d L add k c g g' := by
  intro q
  have hc : (128 * c ≤ q.val / 3 ∧ q.val / 3 < 128 * c + 16 * 8) ↔ (128 * c ≤ q.val / 3 ∧ q.val / 3 < 128 * (c + 1)) := by omega
  rw [h q]
  simp only [hc]

theorem blendTerm_at (k b b' i : ℕ) (l l' : Fin 16) (hb : b' = b) (hl : l'.val = l.val) :
    blendTerm m d (wL L) k b' i (ValueIdx.ix1 l') = blendTerm m d (wL L) k b i (ValueIdx.ix1 l) := by
  subst hb; rw [Fin.ext hl]

theorem partDone_step (add : Bool) (k c n : ℕ) (hc : c ≤ 12) (hn : n < 8) (g g' : S4992.Idx → Elt F .f32)
    (i0 i1 i2 : IVec S16 32) (v0 v1 v2 : Vec F S16 .f32)
    (hi0 : ∀ x, (i0 x).toNat = 3 * (x 0).val + 3 * (128 * c + 16 * n))
    (hi1 : ∀ x, (i1 x).toNat = 3 * (x 0).val + (3 * (128 * c + 16 * n) + 1))
    (hi2 : ∀ x, (i2 x).toNat = 3 * (x 0).val + (3 * (128 * c + 16 * n) + 2))
    (h0 : ∀ a x, ((![i0] : Fin 1 → IVec S16 32) a x).toNat < S4992.size a)
    (h1 : ∀ a x, ((![i1] : Fin 1 → IVec S16 32) a x).toNat < S4992.size a)
    (h2 : ∀ a x, ((![i2] : Fin 1 → IVec S16 32) a x).toNat < S4992.size a)
    (hv0 : v0 = blendTerm m d (wL L) k (128 * c + 16 * n) 0) (hv1 : v1 = blendTerm m d (wL L) k (128 * c + 16 * n) 1)
    (hv2 : v2 = blendTerm m d (wL L) k (128 * c + 16 * n) 2)
    (hP : PartDone m d L add k c n g g') :
    PartDone m d L add k c (n + 1) g
      (storeIdx (F := F) (storeIdx (F := F) (storeIdx (F := F) g' ![i0] v0 (fun _ => 1#1) add h0) ![i1] v1 (fun _ => 1#1) add h1)
        ![i2] v2 (fun _ => 1#1) add h2) := by
  subst hv0 hv1 hv2
  intro q
  have hq := q.isLt
  have hP' := hP q
  by_cases hblk : 128 * c + 16 * n ≤ q.val / 3 ∧ q.val / 3 < 128 * c + 16 * n + 16
  · have hold : ¬ (128 * c ≤ q.val / 3 ∧ q.val / 3 < 128 * c + 16 * n) := by omega
    have hnew : 128 * c ≤ q.val / 3 ∧ q.val / 3 < 128 * c + 16 * (n + 1) := by omega
    rw [if_neg hold] at hP'
    rw [if_pos hnew]
    have hl : q.val / 3 - (128 * c + 16 * n) < 16 := by omega
    have hb : q.val / 3 / 16 * 16 = 128 * c + 16 * n := by omega
    have hlm : q.val / 3 % 16 = q.val / 3 - (128 * c + 16 * n) := by omega
    have hT : ∀ i, blendTerm m d (wL L) k (q.val / 3 / 16 * 16) i (ValueIdx.ix1 ⟨q.val / 3 % 16, Nat.mod_lt _ (by decide)⟩)
        = blendTerm m d (wL L) k (128 * c + 16 * n) i (ValueIdx.ix1 ⟨q.val / 3 - (128 * c + 16 * n), hl⟩) :=
      fun i => blendTerm_at m d L k _ _ i ⟨_, hl⟩ ⟨_, _⟩ hb hlm
    show _ = if add then Elt.idxAdd .f32 (g (ValueIdx.ix1 q)) (blendTerm m d (wL L) k (q.val / 3 / 16 * 16) (q.val % 3) (ValueIdx.ix1 ⟨q.val / 3 % 16, Nat.mod_lt _ (by decide)⟩))
      else blendTerm m d (wL L) k (q.val / 3 / 16 * 16) (q.val % 3) (ValueIdx.ix1 ⟨q.val / 3 % 16, Nat.mod_lt _ (by decide)⟩)
    rw [hT]
    rcases (show q.val % 3 = 0 ∨ q.val % 3 = 1 ∨ q.val % 3 = 2 by omega) with hr | hr | hr
    · rw [store_miss add _ i2 _ _ hi2 h2 q (by intro l'; have := l'.isLt; omega),
        store_miss add _ i1 _ _ hi1 h1 q (by intro l'; have := l'.isLt; omega),
        store_hit add _ i0 _ _ hi0 h0 q ⟨_, hl⟩ (by show q.val = 3 * (q.val / 3 - (128 * c + 16 * n)) + _; omega), hP', hr]
    · rw [store_miss add _ i2 _ _ hi2 h2 q (by intro l'; have := l'.isLt; omega),
        store_hit add _ i1 _ _ hi1 h1 q ⟨_, hl⟩ (by show q.val = 3 * (q.val / 3 - (128 * c + 16 * n)) + _; omega),
        store_miss add _ i0 _ _ hi0 h0 q (by intro l'; have := l'.isLt; omega), hP', hr]
    · rw [store_hit add _ i2 _ _ hi2 h2 q ⟨_, hl⟩ (by show q.val = 3 * (q.val / 3 - (128 * c + 16 * n)) + _; omega),
        store_miss add _ i1 _ _ hi1 h1 q (by intro l'; have := l'.isLt; omega),
        store_miss add _ i0 _ _ hi0 h0 q (by intro l'; have := l'.isLt; omega), hP', hr]
  · have hcnd : (128 * c ≤ q.val / 3 ∧ q.val / 3 < 128 * c + 16 * n) ↔ (128 * c ≤ q.val / 3 ∧ q.val / 3 < 128 * c + 16 * (n + 1)) := by omega
    rw [store_miss add _ i2 _ _ hi2 h2 q (by intro l'; have := l'.isLt; omega),
      store_miss add _ i1 _ _ hi1 h1 q (by intro l'; have := l'.isLt; omega),
      store_miss add _ i0 _ _ hi0 h0 q (by intro l'; have := l'.isLt; omega), hP']
    simp only [hcnd]

local macro:max "k1at% " f:term:max L:term:max : term =>
  `($f $L aPtab (Memref.isWhole_whole _) aVt (Memref.isWhole_whole _) aInf (Memref.isWhole_whole _) aWt (Memref.isWhole_whole _)
      aOrn (Memref.isWhole_whole _) aMrep (Memref.isWhole_whole _) aOut0 (Memref.isWhole_whole _) aOut1 (Memref.isWhole_whole _)
      sGv (Memref.isWhole_whole _) sGb (Memref.isWhole_whole _) sVx (Memref.isWhole_whole _) sVy (Memref.isWhole_whole _)
      sVz (Memref.isWhole_whole _) sWt (Memref.isWhole_whole _) sRv (Memref.isWhole_whole _) sRb (Memref.isWhole_whole _)
      sRc (Memref.isWhole_whole _) sOut (Memref.isWhole_whole _) sStg (Memref.isWhole_whole _) sAcc (Memref.isWhole_whole _)
      cc1_scratch12 cc1_scratch13 cc1_scoped0 cc1_scoped1 cc1_scoped2 cc1_scoped3 cc1_scoped4 cc1_scoped5 cc1_scoped6 cc1_scoped7
      cc1_scoped8 cc1_scoped9 cc1_scoped10 cc1_scoped11 cc1_scoped12 cc1_scoped13 cc1_scoped14 cc1_scoped15 cc1_scoped16
      cc1_scoped17 cc1_scoped18 cc1_scoped19 cc1_scoped20)

def blendInv (rows : Memref sig .scVector .vmem S128x128 .f32) (add : Bool) (k c : ℕ)
    (R : Buf (Elt F) (rows.view.loc (thr1 d L))) (X : Buf (Elt F) ((sVx).view.loc (thr1 d L))) (Y : Buf (Elt F) ((sVy).view.loc (thr1 d L)))
    (Z : Buf (Elt F) ((sVz).view.loc (thr1 d L))) (W : Buf (Elt F) ((sWt).view.loc (thr1 d L))) (g : Buf (Elt F) ((sOut).view.loc (thr1 d L)))
    (n : ℕ) (_ : Unit) : sProp 𝕄 :=
  iprop((rows.view.loc (thr1 d L) ↦{fullShare} R) ∗ ((sVx).view.loc (thr1 d L) ↦{fullShare} X) ∗ ((sVy).view.loc (thr1 d L) ↦{fullShare} Y)
    ∗ ((sVz).view.loc (thr1 d L) ↦{fullShare} Z) ∗ ((sWt).view.loc (thr1 d L) ↦{fullShare} W)
    ∗ ∃ g', ⌜PartDone m d L add k c n g g'⌝ ∗ ((sOut).view.loc (thr1 d L) ↦{fullShare} g'))

theorem pts_out_whole (f : Buf (Elt F) ((sOut).view.loc (thr1 d L))) :
    (((sOut : Memref sig .scVector .vmem S4992 .f32).access (.whole S4992)).loc (thr1 d L) ↦[((sOut : Memref sig .scVector .vmem S4992 .f32).access (.whole S4992)).set]{fullShare} f : sProp 𝕄)
      = ((sOut).view.loc (thr1 d L) ↦{fullShare} f) := by
  rw [show ((sOut : Memref sig .scVector .vmem S4992 .f32).access (.whole S4992)).set = Finset.univ from Memref.set_access_whole (cc1_scratch9 : Ref sig .scVector)]

theorem out_read (f : S4992.Idx → Elt F .f32) :
    View.read (Elt F) ((sOut : Memref sig .scVector .vmem S4992 .f32).access (Rect.whole S4992)) f = f :=
  Memref.read_access_whole (Elt F) (cc1_scratch9 : Ref sig .scVector) f
theorem out_write (f w : S4992.Idx → Elt F .f32) :
    View.write (Elt F) ((sOut : Memref sig .scVector .vmem S4992 .f32).access (Rect.whole S4992)) f w Finset.univ = w :=
  Memref.write_access_whole_univ (Elt F) (cc1_scratch9 : Ref sig .scVector) f w

theorem wp_rowWord {rows : Memref sig .scVector .vmem S128x128 .f32} {R : Buf (Elt F) ((rows.access (.whole S128x128)).loc (thr1 d L))}
    (k c n col : ℕ) {R' : S128x128.Idx → Elt F .f32} (hR : RowsAt m d (infId m d) (k * 53248 + (wL L).val * 1664 + 128 * c) R')
    (hRd : View.read (Elt F) (rows.access (Rect.whole S128x128)) R = R')
    (hcol : col < 15) (hn : n < 8) {v58 : IVec S16 32} (h58 : ∀ x, (v58 x).toNat = 16 * n + (x 0).val)
    {dec : Decidable (∀ a x, ((![v58, broadcast S16 (BitVec.ofNat 32 col)] : Fin 2 → IVec S16 32) a x).toNat < S128x128.size a)}
    {hl : rows.view.Loads} {α : Type} {kont : Vec F S16 .f32 → Prog (TpuEff nD τ sig (Elt F) Λ₀ (thr1 d L).2) α} {Q : α → sProp 𝕄} :
    ((rows.access (.whole S128x128)).loc (thr1 d L) ↦{fullShare} R)
      ⊢ iprop((((rows.access (.whole S128x128)).loc (thr1 d L) ↦{fullShare} R)
          -∗ wp frame (wpE (defs₀ (F := F)) 𝒱₀ (thr1 d L) none) Set.univ (kont (rowVec m d (infId m d) (k * 53248 + ((wL L).val * 1664 + (128 * c + 16 * n))) col)) Q)
        -∗ wp frame (wpE (defs₀ (F := F)) 𝒱₀ (thr1 d L) none) Set.univ
            (.op (.assume _ dec) fun hw => SparseCore.vectorLoadIdx rows ![v58, broadcast S16 (BitVec.ofNat 32 col)] hw.down hl >>= kont) Q) := by
  subst hRd
  have h59 := fun x => colIdx_toNat col (by omega) x
  have hin := rows_inb v58 _ (fun x => (h58 x).trans_lt (by have hx : (x 0).val < 16 := (x 0).isLt; omega)) (fun x => (h59 x).trans_lt (by omega))
  iintro HR Hk
  iapply (wp_assume 𝒱₀ (thr1 d L) none Set.univ hin)
  iapply (SparseCore.wp_vectorLoadIdx 𝒱₀ (thr1 d L) none Set.univ (base := rows) (S := Finset.univ) (Finset.subset_univ _)) $$ HR; iintro HR
  rw [rows_load m d L k c n col _ hR hcol hn _ _ h58 h59 hin]
  iapply Hk $$ HR

theorem wp_rowWord' {rows : Memref sig .scVector .vmem S128x128 .f32} {R : Buf (Elt F) ((rows.access (.whole S128x128)).loc (thr1 d L))}
    (k c n col : ℕ) {R' : S128x128.Idx → Elt F .f32} (hR : RowsAt m d (infId m d) (k * 53248 + (wL L).val * 1664 + 128 * c) R')
    (hRd : View.read (Elt F) (rows.access (Rect.whole S128x128)) R = R')
    (hcol : col < 15) (hn : n < 8) {v58 : IVec S16 32} (h58 : ∀ x, (v58 x).toNat = 16 * n + (x 0).val)
    {hin : ∀ a x, ((![v58, broadcast S16 (BitVec.ofNat 32 col)] : Fin 2 → IVec S16 32) a x).toNat < S128x128.size a}
    {hl : rows.view.Loads} {α : Type} {kont : Vec F S16 .f32 → Prog (TpuEff nD τ sig (Elt F) Λ₀ (thr1 d L).2) α} {Q : α → sProp 𝕄} :
    ((rows.access (.whole S128x128)).loc (thr1 d L) ↦{fullShare} R)
      ⊢ iprop((((rows.access (.whole S128x128)).loc (thr1 d L) ↦{fullShare} R)
          -∗ wp frame (wpE (defs₀ (F := F)) 𝒱₀ (thr1 d L) none) Set.univ (kont (rowVec m d (infId m d) (k * 53248 + ((wL L).val * 1664 + (128 * c + 16 * n))) col)) Q)
        -∗ wp frame (wpE (defs₀ (F := F)) 𝒱₀ (thr1 d L) none) Set.univ (SparseCore.vectorLoadIdx rows ![v58, broadcast S16 (BitVec.ofNat 32 col)] hin hl >>= kont) Q) := by
  subst hRd
  iintro HR Hk
  iapply (SparseCore.wp_vectorLoadIdx 𝒱₀ (thr1 d L) none Set.univ (base := rows) (S := Finset.univ) (Finset.subset_univ _)) $$ HR; iintro HR
  rw [rows_load m d L k c n col _ hR hcol hn _ _ h58 (fun x => colIdx_toNat col (by omega) x) hin]
  iapply Hk $$ HR

theorem wp_slice16 {sc : Memref sig .scVector .vmem S1664 .f32} {X : Buf (Elt F) (sc.view.loc (thr1 d L))} (gf : ℕ → Elt F .f32) (p b pos : ℕ)
    (hX : SliceAt gf p (sc.view.read (Elt F) X)) (hpos : pos = p + b) {off : Fin 1 → ℕ} (hoff : off = ![b])
    {inb : ∀ a, off a + S16.size a ≤ S1664.size a} {hl : sc.view.LoadsAt (Rect.unit (s := S1664) off S16.size inb).toLoadRect}
    {α : Type} {kont : (S16.Idx → Elt F .f32) → Prog (TpuEff nD τ sig (Elt F) Λ₀ (thr1 d L).2) α} {Q : α → sProp 𝕄} :
    (sc.view.loc (thr1 d L) ↦{fullShare} X)
      ⊢ iprop(((sc.view.loc (thr1 d L) ↦{fullShare} X) -∗ wp frame (wpE (defs₀ (F := F)) 𝒱₀ (thr1 d L) none) Set.univ (kont (lanes16 gf pos)) Q)
        -∗ wp frame (wpE (defs₀ (F := F)) 𝒱₀ (thr1 d L) none) Set.univ (.op (.load sc (Rect.unit (s := S1664) off S16.size inb).toLoadRect hl) kont) Q) := by
  iintro HX Hk
  iapply (wp_load 𝒱₀ (thr1 d L) none Set.univ (m := sc) (S := Finset.univ) (Finset.subset_univ _)) $$ HX; iintro HX
  rw [slice_load d L gf p b pos X hX hpos off hoff inb]
  iapply Hk $$ HX

theorem wp_outStore {g : Buf (Elt F) ((sOut).view.loc (thr1 d L))} {i : IVec S16 32} (hi : ∀ x, (i x).toNat < 4992)
    {v : Vec F S16 .f32} {add : Bool} {dec : Decidable (∀ a x, ((![i] : Fin 1 → IVec S16 32) a x).toNat < S4992.size a)}
    {hs : ((sOut : Memref sig .scVector .vmem S4992 .f32).access (.whole S4992)).Stores Finset.univ}
    {α : Type} {kont : PUnit → Prog (TpuEff nD τ sig (Elt F) Λ₀ (thr1 d L).2) α} {Q : α → sProp 𝕄} :
    ((sOut).view.loc (thr1 d L) ↦{fullShare} g)
      ⊢ iprop((((sOut).view.loc (thr1 d L) ↦{fullShare} storeIdx (F := F) g ![i] v (fun _ => 1#1) add (out_inb i hi)) -∗ wp frame (wpE (defs₀ (F := F)) 𝒱₀ (thr1 d L) none) Set.univ (kont ⟨⟩) Q)
        -∗ wp frame (wpE (defs₀ (F := F)) 𝒱₀ (thr1 d L) none) Set.univ
            (.op (.assume _ dec) fun hw => SparseCore.vectorStoreIdx sOut ![i] v (fun _ => 1#1) add hw.down hs >>= kont) Q) := by
  iintro HO Hk
  iapply (wp_assume 𝒱₀ (thr1 d L) none Set.univ (out_inb i hi))
  ihave HO' := (Entails.of_eq (pts_out_whole (F := F) d L _).symm) $$ HO
  iapply (SparseCore.wp_vectorStoreIdx 𝒱₀ (thr1 d L) none Set.univ (base := sOut)) $$ HO'; iintro HO'
  ihave HO := (Entails.of_eq (pts_out_whole (F := F) d L _)) $$ HO'
  simp only [out_write, out_read]
  iapply Hk $$ HO

-- Eight trips by the invariant: from no block done to the chunk done.
theorem blend_for (rows : Memref sig .scVector .vmem S128x128 .f32) (add : Bool) (k c : ℕ) (lp : Scf.Loop 32) (ok : lp.OK) (h8 : lp.trips = 8)
    (body : Fin lp.trips → Unit → Prog (TpuEff nD τ sig (Elt F) Λ₀ (thr1 d L).2) Unit)
    (R : Buf (Elt F) ((rows).view.loc (thr1 d L))) (X : Buf (Elt F) ((sVx).view.loc (thr1 d L))) (Y : Buf (Elt F) ((sVy).view.loc (thr1 d L)))
    (Z : Buf (Elt F) ((sVz).view.loc (thr1 d L))) (W : Buf (Elt F) ((sWt).view.loc (thr1 d L))) (g : Buf (Elt F) ((sOut).view.loc (thr1 d L)))
    (htrip : ∀ n u, blendInv m d L rows add k c R X Y Z W g n.val u
      ⊢ wp frame (wpE (defs₀ (F := F)) 𝒱₀ (thr1 d L) none) Set.univ (body n u) (blendInv m d L rows add k c R X Y Z W g (n.val + 1))) :
    iprop(((rows).view.loc (thr1 d L) ↦{fullShare} R) ∗ ((sVx).view.loc (thr1 d L) ↦{fullShare} X) ∗ ((sVy).view.loc (thr1 d L) ↦{fullShare} Y)
        ∗ ((sVz).view.loc (thr1 d L) ↦{fullShare} Z) ∗ ((sWt).view.loc (thr1 d L) ↦{fullShare} W) ∗ ((sOut).view.loc (thr1 d L) ↦{fullShare} g))
      ⊢ (wp frame (wpE (defs₀ (F := F)) 𝒱₀ (thr1 d L) none) Set.univ (Scf.Loop.for lp ok ⟨⟩ body)
          fun _ => iprop(((rows).view.loc (thr1 d L) ↦{fullShare} R) ∗ ((sVx).view.loc (thr1 d L) ↦{fullShare} X) ∗ ((sVy).view.loc (thr1 d L) ↦{fullShare} Y)
        ∗ ((sVz).view.loc (thr1 d L) ↦{fullShare} Z) ∗ ((sWt).view.loc (thr1 d L) ↦{fullShare} W)
            ∗ ∃ g', ⌜ChunkDone m d L add k c g g'⌝ ∗ ((sOut).view.loc (thr1 d L) ↦{fullShare} g')) : sProp 𝕄) := by
  iintro ⟨HR, HX, HY, HZ, HW, HO⟩
  iapply (Scf.wp_for frame (wpE (defs₀ (F := F)) 𝒱₀ (thr1 d L) none) Set.univ lp.lb lp.ub lp.st ok ⟨⟩ _
    (blendInv m d L rows add k c R X Y Z W g) htrip)
  isplitl [HR HX HY HZ HW HO]
  · unfold blendInv
    iframe HR HX HY HZ HW
    iexists g; isplitr
    · ipureintro; exact partDone_zero m d L add k c g
    · iexact HO
  · iintro %acc HI
    unfold blendInv
    icases HI with ⟨HR, HX, HY, HZ, HW, %g', %hP, HO⟩
    iframe HR HX HY HZ HW
    iexists g'; isplitr
    · ipureintro; exact partDone_eight m d L add k c g g' (h8 ▸ hP)
    · iexact HO

theorem t2_trip (t₁ : Fin k1_t1_loop.trips)
    (R : Buf (Elt F) ((sRv).view.loc (thr1 d L))) (X : Buf (Elt F) ((sVx).view.loc (thr1 d L))) (Y : Buf (Elt F) ((sVy).view.loc (thr1 d L)))
    (Z : Buf (Elt F) ((sVz).view.loc (thr1 d L))) (W : Buf (Elt F) ((sWt).view.loc (thr1 d L))) (g : Buf (Elt F) ((sOut).view.loc (thr1 d L)))
    (hR : RowsAt m d (infId m d) (0 * 53248 + (wL L).val * 1664 + 128 * (2 * t₁.val)) R) (hC : CoordsOK m d L 0 X Y Z W)
    (n : Fin k1_t2_loop.trips) (u : Unit) :
    blendInv m d L sRv false 0 (2 * t₁.val) R X Y Z W g n.val u
      ⊢ wp frame (wpE (defs₀ (F := F)) 𝒱₀ (thr1 d L) none) Set.univ
          ((k1at% k1_t2_body L) bv2 t₁ (Scalar.muli (Scf.iv 0#32 1#32 t₁) 2#32) n u)
          (blendInv m d L sRv false 0 (2 * t₁.val) R X Y Z W g (n.val + 1)) := by
  have hn : n.val < 8 := lt_of_lt_of_le n.isLt k1_t2_abs.2.1
  have ht : t₁.val < 6 := lt_of_lt_of_le t₁.isLt k1_t1_abs.2.1
  unfold k1_t2_body
  simp only [k1_part1_eq_skeleton, k1_part2_eq_skeleton]
  unfold k1_part1_skel k1_part2_skel
  simp only [Prog.lift, Prog.bind_op, Prog.bind_ret, Prog.pure_eq_ret, bind_assoc, pure_bind]
  have hb := base_pair (Scalar.muli (Scf.iv 0#32 1#32 t₁) 2#32) (2 * t₁.val) n.val (chunk_even t₁.val ht) (by omega) hn
  have flat0 := fun x => flatIdx_toNat _ (128 * (2 * t₁.val) + 16 * n.val) (by omega) hb x
  have flat1 := fun x => flatIdx1_toNat _ _ (by have hx : (x 0).val < 16 := (x 0).isLt; omega) x (flat0 x)
  have flat2 := fun x => flatIdx2_toNat _ _ (by have hx : (x 0).val < 16 := (x 0).isLt; omega) x (flat0 x)
  have hrow := fun x => rowIdx_toNat n.val hn x
  unfold blendInv
  iintro ⟨HR, HX, HY, HZ, HW, %g', %hP, HO⟩
  iterate 12 (iapply (wp_rowWord m d L 0 (2 * t₁.val) n.val _ hR (Memref.read_access_whole (Elt F) (cc1_scratch6 : Ref sig .scVector) R) ?hc hn hrow) $$ HR; (case hc => omega); iintro HR)
  iterate 3 (iapply (wp_rowWord m d L 0 (2 * t₁.val) n.val _ hR (Memref.read_access_whole (Elt F) (cc1_scratch6 : Ref sig .scVector) R) ?hc hn hrow) $$ HR; (case hc => omega); iintro HR)
  iapply (wp_slice16 d L _ _ _ ((wL L).val * 1664 + (128 * (2 * t₁.val) + 16 * n.val)) hC.1 (by omega) (k1_off5_eq t₁ n)) $$ HX; iintro HX
  iapply (wp_slice16 d L _ _ _ (53248 + ((wL L).val * 1664 + (128 * (2 * t₁.val) + 16 * n.val))) hC.2.1 (by omega) (k1_off5_eq t₁ n)) $$ HY; iintro HY
  iapply (wp_slice16 d L _ _ _ (2 * 53248 + ((wL L).val * 1664 + (128 * (2 * t₁.val) + 16 * n.val))) hC.2.2.1 (by omega) (k1_off5_eq t₁ n)) $$ HZ; iintro HZ
  iapply (wp_slice16 d L _ _ _ (0 * 53248 + ((wL L).val * 1664 + (128 * (2 * t₁.val) + 16 * n.val))) hC.2.2.2 (by omega) (k1_off5_eq t₁ n)) $$ HW; iintro HW
  iapply (wp_outStore d L (fun x => (flat0 x).trans_lt (by have hx : (x 0).val < 16 := (x 0).isLt; omega))) $$ HO; iintro HO
  iapply (wp_outStore d L (fun x => (flat1 x).trans_lt (by have hx : (x 0).val < 16 := (x 0).isLt; omega))) $$ HO; iintro HO
  iapply (wp_outStore d L (fun x => (flat2 x).trans_lt (by have hx : (x 0).val < 16 := (x 0).isLt; omega))) $$ HO; iintro HO
  rw [wp_ret]; imodintro
  iframe HR HX HY HZ HW
  iexists _; isplitr; swap; · iexact HO
  ipureintro
  exact partDone_step m d L false 0 (2 * t₁.val) n.val (by omega) hn g g' _ _ _ _ _ _ flat0 flat1 flat2 _ _ _ rfl rfl rfl hP

theorem k1_t2_trips : k1_t2_loop.trips = 8 := by decide

theorem t6_trip (t₁ : Fin k1_t5_loop.trips)
    (R : Buf (Elt F) ((sRv).view.loc (thr1 d L))) (X : Buf (Elt F) ((sVx).view.loc (thr1 d L))) (Y : Buf (Elt F) ((sVy).view.loc (thr1 d L)))
    (Z : Buf (Elt F) ((sVz).view.loc (thr1 d L))) (W : Buf (Elt F) ((sWt).view.loc (thr1 d L))) (g : Buf (Elt F) ((sOut).view.loc (thr1 d L)))
    (hR : RowsAt m d (infId m d) (1 * 53248 + (wL L).val * 1664 + 128 * (2 * t₁.val)) R) (hC : CoordsOK m d L 1 X Y Z W)
    (n : Fin k1_t6_loop.trips) (u : Unit) :
    blendInv m d L sRv true 1 (2 * t₁.val) R X Y Z W g n.val u
      ⊢ wp frame (wpE (defs₀ (F := F)) 𝒱₀ (thr1 d L) none) Set.univ
          ((k1at% k1_t6_body L) bv2 k1_pay111 (bv5 L) t₁ (Scalar.muli (Scf.iv 0#32 1#32 t₁) 2#32) n u)
          (blendInv m d L sRv true 1 (2 * t₁.val) R X Y Z W g (n.val + 1)) := by
  have hn : n.val < 8 := lt_of_lt_of_le n.isLt k1_t6_abs.2.1
  have ht : t₁.val < 6 := lt_of_lt_of_le t₁.isLt k1_t5_abs.2.1
  unfold k1_t6_body
  simp only [k1_part7_eq_skeleton, k1_part8_eq_skeleton]
  unfold k1_part7_skel k1_part8_skel
  simp only [Prog.lift, Prog.bind_op, Prog.bind_ret, Prog.pure_eq_ret, bind_assoc, pure_bind]
  have hb := base_pair (Scalar.muli (Scf.iv 0#32 1#32 t₁) 2#32) (2 * t₁.val) n.val (chunk_even t₁.val ht) (by omega) hn
  have flat0 := fun x => flatIdx_toNat _ (128 * (2 * t₁.val) + 16 * n.val) (by omega) hb x
  have flat1 := fun x => flatIdx1_toNat _ _ (by have hx : (x 0).val < 16 := (x 0).isLt; omega) x (flat0 x)
  have flat2 := fun x => flatIdx2_toNat _ _ (by have hx : (x 0).val < 16 := (x 0).isLt; omega) x (flat0 x)
  have hrow := fun x => rowIdx_toNat n.val hn x
  unfold blendInv
  iintro ⟨HR, HX, HY, HZ, HW, %g', %hP, HO⟩
  iterate 12 (iapply (wp_rowWord m d L 1 (2 * t₁.val) n.val _ hR (Memref.read_access_whole (Elt F) (cc1_scratch6 : Ref sig .scVector) R) ?hc hn hrow) $$ HR; (case hc => omega); iintro HR)
  iterate 3 (iapply (wp_rowWord m d L 1 (2 * t₁.val) n.val _ hR (Memref.read_access_whole (Elt F) (cc1_scratch6 : Ref sig .scVector) R) ?hc hn hrow) $$ HR; (case hc => omega); iintro HR)
  iapply (wp_slice16 d L _ _ _ ((wL L).val * 1664 + (128 * (2 * t₁.val) + 16 * n.val)) hC.1 (by omega) (k1_off11_eq t₁ n)) $$ HX; iintro HX
  iapply (wp_slice16 d L _ _ _ (53248 + ((wL L).val * 1664 + (128 * (2 * t₁.val) + 16 * n.val))) hC.2.1 (by omega) (k1_off11_eq t₁ n)) $$ HY; iintro HY
  iapply (wp_slice16 d L _ _ _ (2 * 53248 + ((wL L).val * 1664 + (128 * (2 * t₁.val) + 16 * n.val))) hC.2.2.1 (by omega) (k1_off11_eq t₁ n)) $$ HZ; iintro HZ
  iapply (wp_slice16 d L _ _ _ (1 * 53248 + ((wL L).val * 1664 + (128 * (2 * t₁.val) + 16 * n.val))) hC.2.2.2 (by omega) (k1_off11_eq t₁ n)) $$ HW; iintro HW
  iapply (wp_outStore d L (fun x => (flat0 x).trans_lt (by have hx : (x 0).val < 16 := (x 0).isLt; omega))) $$ HO; iintro HO
  iapply (wp_outStore d L (fun x => (flat1 x).trans_lt (by have hx : (x 0).val < 16 := (x 0).isLt; omega))) $$ HO; iintro HO
  iapply (wp_outStore d L (fun x => (flat2 x).trans_lt (by have hx : (x 0).val < 16 := (x 0).isLt; omega))) $$ HO; iintro HO
  rw [wp_ret]; imodintro
  iframe HR HX HY HZ HW
  iexists _; isplitr; swap; · iexact HO
  ipureintro
  exact partDone_step m d L true 1 (2 * t₁.val) n.val (by omega) hn g g' _ _ _ _ _ _ flat0 flat1 flat2 _ _ _ rfl rfl rfl hP

theorem k1_t6_trips : k1_t6_loop.trips = 8 := by decide

end Cert.KI

end
-- ==== Proof.Body1Blend_t3.lean ====
import proofs.«205348_g71287867179597_cont_9to1c4b_113_38_alg».proof.Proof.Body1Blend

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F] [Facts]
open Facts₀ Facts

variable (m : (ℓ : Loc nD τ sig) → Buf (Elt F) ℓ)

local notation "𝕄" => MT nD τ sig (HIx 2) (Elt F) ℕ UU ℕ
variable (d : Dev nD) (L : grid1.Coords)

local macro:max "k1at% " f:term:max L:term:max : term =>
  `($f $L aPtab (Memref.isWhole_whole _) aVt (Memref.isWhole_whole _) aInf (Memref.isWhole_whole _) aWt (Memref.isWhole_whole _)
      aOrn (Memref.isWhole_whole _) aMrep (Memref.isWhole_whole _) aOut0 (Memref.isWhole_whole _) aOut1 (Memref.isWhole_whole _)
      sGv (Memref.isWhole_whole _) sGb (Memref.isWhole_whole _) sVx (Memref.isWhole_whole _) sVy (Memref.isWhole_whole _)
      sVz (Memref.isWhole_whole _) sWt (Memref.isWhole_whole _) sRv (Memref.isWhole_whole _) sRb (Memref.isWhole_whole _)
      sRc (Memref.isWhole_whole _) sOut (Memref.isWhole_whole _) sStg (Memref.isWhole_whole _) sAcc (Memref.isWhole_whole _)
      cc1_scratch12 cc1_scratch13 cc1_scoped0 cc1_scoped1 cc1_scoped2 cc1_scoped3 cc1_scoped4 cc1_scoped5 cc1_scoped6 cc1_scoped7
      cc1_scoped8 cc1_scoped9 cc1_scoped10 cc1_scoped11 cc1_scoped12 cc1_scoped13 cc1_scoped14 cc1_scoped15 cc1_scoped16
      cc1_scoped17 cc1_scoped18 cc1_scoped19 cc1_scoped20)

theorem t3_trip (t₁ : Fin k1_t1_loop.trips)
    (R : Buf (Elt F) ((sRb).view.loc (thr1 d L))) (X : Buf (Elt F) ((sVx).view.loc (thr1 d L))) (Y : Buf (Elt F) ((sVy).view.loc (thr1 d L)))
    (Z : Buf (Elt F) ((sVz).view.loc (thr1 d L))) (W : Buf (Elt F) ((sWt).view.loc (thr1 d L))) (g : Buf (Elt F) ((sOut).view.loc (thr1 d L)))
    (hR : RowsAt m d (infId m d) (0 * 53248 + (wL L).val * 1664 + 128 * (2 * t₁.val + 1)) R) (hC : CoordsOK m d L 0 X Y Z W)
    (n : Fin k1_t3_loop.trips) (u : Unit) :
    blendInv m d L sRb false 0 (2 * t₁.val + 1) R X Y Z W g n.val u
      ⊢ wp frame (wpE (defs₀ (F := F)) 𝒱₀ (thr1 d L) none) Set.univ
          ((k1at% k1_t3_body L) bv2 t₁ (Scalar.addi (Scalar.muli (Scf.iv 0#32 1#32 t₁) 2#32) 1#32) n u)
          (blendInv m d L sRb false 0 (2 * t₁.val + 1) R X Y Z W g (n.val + 1)) := by
  have hn : n.val < 8 := lt_of_lt_of_le n.isLt k1_t3_abs.2.1
  have ht : t₁.val < 6 := lt_of_lt_of_le t₁.isLt k1_t1_abs.2.1
  unfold k1_t3_body
  simp only [k1_part3_eq_skeleton, k1_part4_eq_skeleton]
  unfold k1_part3_skel k1_part4_skel
  simp only [Prog.lift, Prog.bind_op, Prog.bind_ret, Prog.pure_eq_ret, bind_assoc, pure_bind]
  have hb := base_pair (Scalar.addi (Scalar.muli (Scf.iv 0#32 1#32 t₁) 2#32) 1#32) (2 * t₁.val + 1) n.val (chunk_odd t₁.val ht) (by omega) hn
  have flat0 := fun x => flatIdx_toNat _ (128 * (2 * t₁.val + 1) + 16 * n.val) (by omega) hb x
  have flat1 := fun x => flatIdx1_toNat _ _ (by have hx : (x 0).val < 16 := (x 0).isLt; omega) x (flat0 x)
  have flat2 := fun x => flatIdx2_toNat _ _ (by have hx : (x 0).val < 16 := (x 0).isLt; omega) x (flat0 x)
  have hrow := fun x => rowIdx_toNat n.val hn x
  unfold blendInv
  iintro ⟨HR, HX, HY, HZ, HW, %g', %hP, HO⟩
  iterate 12 (iapply (wp_rowWord m d L 0 (2 * t₁.val + 1) n.val _ hR (Memref.read_access_whole (Elt F) (cc1_scratch7 : Ref sig .scVector) R) ?hc hn hrow) $$ HR; (case hc => omega); iintro HR)
  iterate 3 (iapply (wp_rowWord m d L 0 (2 * t₁.val + 1) n.val _ hR (Memref.read_access_whole (Elt F) (cc1_scratch7 : Ref sig .scVector) R) ?hc hn hrow) $$ HR; (case hc => omega); iintro HR)
  iapply (wp_slice16 d L _ _ _ ((wL L).val * 1664 + (128 * (2 * t₁.val + 1) + 16 * n.val)) hC.1 (by omega) (k1_off6_eq t₁ n)) $$ HX; iintro HX
  iapply (wp_slice16 d L _ _ _ (53248 + ((wL L).val * 1664 + (128 * (2 * t₁.val + 1) + 16 * n.val))) hC.2.1 (by omega) (k1_off6_eq t₁ n)) $$ HY; iintro HY
  iapply (wp_slice16 d L _ _ _ (2 * 53248 + ((wL L).val * 1664 + (128 * (2 * t₁.val + 1) + 16 * n.val))) hC.2.2.1 (by omega) (k1_off6_eq t₁ n)) $$ HZ; iintro HZ
  iapply (wp_slice16 d L _ _ _ (0 * 53248 + ((wL L).val * 1664 + (128 * (2 * t₁.val + 1) + 16 * n.val))) hC.2.2.2 (by omega) (k1_off6_eq t₁ n)) $$ HW; iintro HW
  iapply (wp_outStore d L (fun x => (flat0 x).trans_lt (by have hx : (x 0).val < 16 := (x 0).isLt; omega))) $$ HO; iintro HO
  iapply (wp_outStore d L (fun x => (flat1 x).trans_lt (by have hx : (x 0).val < 16 := (x 0).isLt; omega))) $$ HO; iintro HO
  iapply (wp_outStore d L (fun x => (flat2 x).trans_lt (by have hx : (x 0).val < 16 := (x 0).isLt; omega))) $$ HO; iintro HO
  rw [wp_ret]; imodintro
  iframe HR HX HY HZ HW
  iexists _; isplitr; swap; · iexact HO
  ipureintro
  exact partDone_step m d L false 0 (2 * t₁.val + 1) n.val (by omega) hn g g' _ _ _ _ _ _ flat0 flat1 flat2 _ _ _ rfl rfl rfl hP

theorem k1_t3_trips : k1_t3_loop.trips = 8 := by decide

end Cert.KI

end
-- ==== Proof.Body1Blend_t7.lean ====
import proofs.«205348_g71287867179597_cont_9to1c4b_113_38_alg».proof.Proof.Body1Blend

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F] [Facts]
open Facts₀ Facts

variable (m : (ℓ : Loc nD τ sig) → Buf (Elt F) ℓ)

local notation "𝕄" => MT nD τ sig (HIx 2) (Elt F) ℕ UU ℕ
variable (d : Dev nD) (L : grid1.Coords)

local macro:max "k1at% " f:term:max L:term:max : term =>
  `($f $L aPtab (Memref.isWhole_whole _) aVt (Memref.isWhole_whole _) aInf (Memref.isWhole_whole _) aWt (Memref.isWhole_whole _)
      aOrn (Memref.isWhole_whole _) aMrep (Memref.isWhole_whole _) aOut0 (Memref.isWhole_whole _) aOut1 (Memref.isWhole_whole _)
      sGv (Memref.isWhole_whole _) sGb (Memref.isWhole_whole _) sVx (Memref.isWhole_whole _) sVy (Memref.isWhole_whole _)
      sVz (Memref.isWhole_whole _) sWt (Memref.isWhole_whole _) sRv (Memref.isWhole_whole _) sRb (Memref.isWhole_whole _)
      sRc (Memref.isWhole_whole _) sOut (Memref.isWhole_whole _) sStg (Memref.isWhole_whole _) sAcc (Memref.isWhole_whole _)
      cc1_scratch12 cc1_scratch13 cc1_scoped0 cc1_scoped1 cc1_scoped2 cc1_scoped3 cc1_scoped4 cc1_scoped5 cc1_scoped6 cc1_scoped7
      cc1_scoped8 cc1_scoped9 cc1_scoped10 cc1_scoped11 cc1_scoped12 cc1_scoped13 cc1_scoped14 cc1_scoped15 cc1_scoped16
      cc1_scoped17 cc1_scoped18 cc1_scoped19 cc1_scoped20)

theorem t7_trip (t₁ : Fin k1_t5_loop.trips)
    (R : Buf (Elt F) ((sRb).view.loc (thr1 d L))) (X : Buf (Elt F) ((sVx).view.loc (thr1 d L))) (Y : Buf (Elt F) ((sVy).view.loc (thr1 d L)))
    (Z : Buf (Elt F) ((sVz).view.loc (thr1 d L))) (W : Buf (Elt F) ((sWt).view.loc (thr1 d L))) (g : Buf (Elt F) ((sOut).view.loc (thr1 d L)))
    (hR : RowsAt m d (infId m d) (1 * 53248 + (wL L).val * 1664 + 128 * (2 * t₁.val + 1)) R) (hC : CoordsOK m d L 1 X Y Z W)
    (n : Fin k1_t7_loop.trips) (u : Unit) :
    blendInv m d L sRb true 1 (2 * t₁.val + 1) R X Y Z W g n.val u
      ⊢ wp frame (wpE (defs₀ (F := F)) 𝒱₀ (thr1 d L) none) Set.univ
          ((k1at% k1_t7_body L) bv2 k1_pay111 (bv5 L) t₁ (Scalar.addi (Scalar.muli (Scf.iv 0#32 1#32 t₁) 2#32) 1#32) n u)
          (blendInv m d L sRb true 1 (2 * t₁.val + 1) R X Y Z W g (n.val + 1)) := by
  have hn : n.val < 8 := lt_of_lt_of_le n.isLt k1_t7_abs.2.1
  have ht : t₁.val < 6 := lt_of_lt_of_le t₁.isLt k1_t5_abs.2.1
  unfold k1_t7_body
  simp only [k1_part9_eq_skeleton, k1_part10_eq_skeleton]
  unfold k1_part9_skel k1_part10_skel
  simp only [Prog.lift, Prog.bind_op, Prog.bind_ret, Prog.pure_eq_ret, bind_assoc, pure_bind]
  have hb := base_pair (Scalar.addi (Scalar.muli (Scf.iv 0#32 1#32 t₁) 2#32) 1#32) (2 * t₁.val + 1) n.val (chunk_odd t₁.val ht) (by omega) hn
  have flat0 := fun x => flatIdx_toNat _ (128 * (2 * t₁.val + 1) + 16 * n.val) (by omega) hb x
  have flat1 := fun x => flatIdx1_toNat _ _ (by have hx : (x 0).val < 16 := (x 0).isLt; omega) x (flat0 x)
  have flat2 := fun x => flatIdx2_toNat _ _ (by have hx : (x 0).val < 16 := (x 0).isLt; omega) x (flat0 x)
  have hrow := fun x => rowIdx_toNat n.val hn x
  unfold blendInv
  iintro ⟨HR, HX, HY, HZ, HW, %g', %hP, HO⟩
  iterate 12 (iapply (wp_rowWord m d L 1 (2 * t₁.val + 1) n.val _ hR (Memref.read_access_whole (Elt F) (cc1_scratch7 : Ref sig .scVector) R) ?hc hn hrow) $$ HR; (case hc => omega); iintro HR)
  iterate 3 (iapply (wp_rowWord m d L 1 (2 * t₁.val + 1) n.val _ hR (Memref.read_access_whole (Elt F) (cc1_scratch7 : Ref sig .scVector) R) ?hc hn hrow) $$ HR; (case hc => omega); iintro HR)
  iapply (wp_slice16 d L _ _ _ ((wL L).val * 1664 + (128 * (2 * t₁.val + 1) + 16 * n.val)) hC.1 (by omega) (k1_off12_eq t₁ n)) $$ HX; iintro HX
  iapply (wp_slice16 d L _ _ _ (53248 + ((wL L).val * 1664 + (128 * (2 * t₁.val + 1) + 16 * n.val))) hC.2.1 (by omega) (k1_off12_eq t₁ n)) $$ HY; iintro HY
  iapply (wp_slice16 d L _ _ _ (2 * 53248 + ((wL L).val * 1664 + (128 * (2 * t₁.val + 1) + 16 * n.val))) hC.2.2.1 (by omega) (k1_off12_eq t₁ n)) $$ HZ; iintro HZ
  iapply (wp_slice16 d L _ _ _ (1 * 53248 + ((wL L).val * 1664 + (128 * (2 * t₁.val + 1) + 16 * n.val))) hC.2.2.2 (by omega) (k1_off12_eq t₁ n)) $$ HW; iintro HW
  iapply (wp_outStore d L (fun x => (flat0 x).trans_lt (by have hx : (x 0).val < 16 := (x 0).isLt; omega))) $$ HO; iintro HO
  iapply (wp_outStore d L (fun x => (flat1 x).trans_lt (by have hx : (x 0).val < 16 := (x 0).isLt; omega))) $$ HO; iintro HO
  iapply (wp_outStore d L (fun x => (flat2 x).trans_lt (by have hx : (x 0).val < 16 := (x 0).isLt; omega))) $$ HO; iintro HO
  rw [wp_ret]; imodintro
  iframe HR HX HY HZ HW
  iexists _; isplitr; swap; · iexact HO
  ipureintro
  exact partDone_step m d L true 1 (2 * t₁.val + 1) n.val (by omega) hn g g' _ _ _ _ _ _ flat0 flat1 flat2 _ _ _ rfl rfl rfl hP

theorem k1_t7_trips : k1_t7_loop.trips = 8 := by decide

end Cert.KI

end
-- ==== Proof.Body1Blend_t10.lean ====
import proofs.«205348_g71287867179597_cont_9to1c4b_113_38_alg».proof.Proof.Body1Blend

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F] [Facts]
open Facts₀ Facts

variable (m : (ℓ : Loc nD τ sig) → Buf (Elt F) ℓ)

local notation "𝕄" => MT nD τ sig (HIx 2) (Elt F) ℕ UU ℕ
variable (d : Dev nD) (L : grid1.Coords)

local macro:max "k1at% " f:term:max L:term:max : term =>
  `($f $L aPtab (Memref.isWhole_whole _) aVt (Memref.isWhole_whole _) aInf (Memref.isWhole_whole _) aWt (Memref.isWhole_whole _)
      aOrn (Memref.isWhole_whole _) aMrep (Memref.isWhole_whole _) aOut0 (Memref.isWhole_whole _) aOut1 (Memref.isWhole_whole _)
      sGv (Memref.isWhole_whole _) sGb (Memref.isWhole_whole _) sVx (Memref.isWhole_whole _) sVy (Memref.isWhole_whole _)
      sVz (Memref.isWhole_whole _) sWt (Memref.isWhole_whole _) sRv (Memref.isWhole_whole _) sRb (Memref.isWhole_whole _)
      sRc (Memref.isWhole_whole _) sOut (Memref.isWhole_whole _) sStg (Memref.isWhole_whole _) sAcc (Memref.isWhole_whole _)
      cc1_scratch12 cc1_scratch13 cc1_scoped0 cc1_scoped1 cc1_scoped2 cc1_scoped3 cc1_scoped4 cc1_scoped5 cc1_scoped6 cc1_scoped7
      cc1_scoped8 cc1_scoped9 cc1_scoped10 cc1_scoped11 cc1_scoped12 cc1_scoped13 cc1_scoped14 cc1_scoped15 cc1_scoped16
      cc1_scoped17 cc1_scoped18 cc1_scoped19 cc1_scoped20)

theorem t10_trip (t₁ : Fin k1_t9_loop.trips)
    (R : Buf (Elt F) ((sRv).view.loc (thr1 d L))) (X : Buf (Elt F) ((sVx).view.loc (thr1 d L))) (Y : Buf (Elt F) ((sVy).view.loc (thr1 d L)))
    (Z : Buf (Elt F) ((sVz).view.loc (thr1 d L))) (W : Buf (Elt F) ((sWt).view.loc (thr1 d L))) (g : Buf (Elt F) ((sOut).view.loc (thr1 d L)))
    (hR : RowsAt m d (infId m d) (2 * 53248 + (wL L).val * 1664 + 128 * (2 * t₁.val)) R) (hC : CoordsOK m d L 2 X Y Z W)
    (n : Fin k1_t10_loop.trips) (u : Unit) :
    blendInv m d L sRv true 2 (2 * t₁.val) R X Y Z W g n.val u
      ⊢ wp frame (wpE (defs₀ (F := F)) 𝒱₀ (thr1 d L) none) Set.univ
          ((k1at% k1_t10_body L) (bv1 L) bv2 k1_pay111 (bv5 L) t₁ (Scalar.muli (Scf.iv 0#32 1#32 t₁) 2#32) n u)
          (blendInv m d L sRv true 2 (2 * t₁.val) R X Y Z W g (n.val + 1)) := by
  have hn : n.val < 8 := lt_of_lt_of_le n.isLt k1_t10_abs.2.1
  have ht : t₁.val < 6 := lt_of_lt_of_le t₁.isLt k1_t9_abs.2.1
  unfold k1_t10_body
  simp only [k1_part13_eq_skeleton, k1_part14_eq_skeleton]
  unfold k1_part13_skel k1_part14_skel
  simp only [Prog.lift, Prog.bind_op, Prog.bind_ret, Prog.pure_eq_ret, bind_assoc, pure_bind]
  have hb := base_pair (Scalar.muli (Scf.iv 0#32 1#32 t₁) 2#32) (2 * t₁.val) n.val (chunk_even t₁.val ht) (by omega) hn
  have flat0 := fun x => flatIdx_toNat _ (128 * (2 * t₁.val) + 16 * n.val) (by omega) hb x
  have flat1 := fun x => flatIdx1_toNat _ _ (by have hx : (x 0).val < 16 := (x 0).isLt; omega) x (flat0 x)
  have flat2 := fun x => flatIdx2_toNat _ _ (by have hx : (x 0).val < 16 := (x 0).isLt; omega) x (flat0 x)
  have hrow := fun x => rowIdx_toNat n.val hn x
  unfold blendInv
  iintro ⟨HR, HX, HY, HZ, HW, %g', %hP, HO⟩
  iterate 12 (iapply (wp_rowWord m d L 2 (2 * t₁.val) n.val _ hR (Memref.read_access_whole (Elt F) (cc1_scratch6 : Ref sig .scVector) R) ?hc hn hrow) $$ HR; (case hc => omega); iintro HR)
  iterate 3 (iapply (wp_rowWord m d L 2 (2 * t₁.val) n.val _ hR (Memref.read_access_whole (Elt F) (cc1_scratch6 : Ref sig .scVector) R) ?hc hn hrow) $$ HR; (case hc => omega); iintro HR)
  iapply (wp_slice16 d L _ _ _ ((wL L).val * 1664 + (128 * (2 * t₁.val) + 16 * n.val)) hC.1 (by omega) (k1_off16_eq t₁ n)) $$ HX; iintro HX
  iapply (wp_slice16 d L _ _ _ (53248 + ((wL L).val * 1664 + (128 * (2 * t₁.val) + 16 * n.val))) hC.2.1 (by omega) (k1_off16_eq t₁ n)) $$ HY; iintro HY
  iapply (wp_slice16 d L _ _ _ (2 * 53248 + ((wL L).val * 1664 + (128 * (2 * t₁.val) + 16 * n.val))) hC.2.2.1 (by omega) (k1_off16_eq t₁ n)) $$ HZ; iintro HZ
  iapply (wp_slice16 d L _ _ _ (2 * 53248 + ((wL L).val * 1664 + (128 * (2 * t₁.val) + 16 * n.val))) hC.2.2.2 (by omega) (k1_off16_eq t₁ n)) $$ HW; iintro HW
  iapply (wp_outStore d L (fun x => (flat0 x).trans_lt (by have hx : (x 0).val < 16 := (x 0).isLt; omega))) $$ HO; iintro HO
  iapply (wp_outStore d L (fun x => (flat1 x).trans_lt (by have hx : (x 0).val < 16 := (x 0).isLt; omega))) $$ HO; iintro HO
  iapply (wp_outStore d L (fun x => (flat2 x).trans_lt (by have hx : (x 0).val < 16 := (x 0).isLt; omega))) $$ HO; iintro HO
  rw [wp_ret]; imodintro
  iframe HR HX HY HZ HW
  iexists _; isplitr; swap; · iexact HO
  ipureintro
  exact partDone_step m d L true 2 (2 * t₁.val) n.val (by omega) hn g g' _ _ _ _ _ _ flat0 flat1 flat2 _ _ _ rfl rfl rfl hP

theorem k1_t10_trips : k1_t10_loop.trips = 8 := by decide

end Cert.KI

end
-- ==== Proof.Body1Blend_t11.lean ====
import proofs.«205348_g71287867179597_cont_9to1c4b_113_38_alg».proof.Proof.Body1Blend

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F] [Facts]
open Facts₀ Facts

variable (m : (ℓ : Loc nD τ sig) → Buf (Elt F) ℓ)

local notation "𝕄" => MT nD τ sig (HIx 2) (Elt F) ℕ UU ℕ
variable (d : Dev nD) (L : grid1.Coords)

local macro:max "k1at% " f:term:max L:term:max : term =>
  `($f $L aPtab (Memref.isWhole_whole _) aVt (Memref.isWhole_whole _) aInf (Memref.isWhole_whole _) aWt (Memref.isWhole_whole _)
      aOrn (Memref.isWhole_whole _) aMrep (Memref.isWhole_whole _) aOut0 (Memref.isWhole_whole _) aOut1 (Memref.isWhole_whole _)
      sGv (Memref.isWhole_whole _) sGb (Memref.isWhole_whole _) sVx (Memref.isWhole_whole _) sVy (Memref.isWhole_whole _)
      sVz (Memref.isWhole_whole _) sWt (Memref.isWhole_whole _) sRv (Memref.isWhole_whole _) sRb (Memref.isWhole_whole _)
      sRc (Memref.isWhole_whole _) sOut (Memref.isWhole_whole _) sStg (Memref.isWhole_whole _) sAcc (Memref.isWhole_whole _)
      cc1_scratch12 cc1_scratch13 cc1_scoped0 cc1_scoped1 cc1_scoped2 cc1_scoped3 cc1_scoped4 cc1_scoped5 cc1_scoped6 cc1_scoped7
      cc1_scoped8 cc1_scoped9 cc1_scoped10 cc1_scoped11 cc1_scoped12 cc1_scoped13 cc1_scoped14 cc1_scoped15 cc1_scoped16
      cc1_scoped17 cc1_scoped18 cc1_scoped19 cc1_scoped20)

theorem t11_trip (t₁ : Fin k1_t9_loop.trips)
    (R : Buf (Elt F) ((sRb).view.loc (thr1 d L))) (X : Buf (Elt F) ((sVx).view.loc (thr1 d L))) (Y : Buf (Elt F) ((sVy).view.loc (thr1 d L)))
    (Z : Buf (Elt F) ((sVz).view.loc (thr1 d L))) (W : Buf (Elt F) ((sWt).view.loc (thr1 d L))) (g : Buf (Elt F) ((sOut).view.loc (thr1 d L)))
    (hR : RowsAt m d (infId m d) (2 * 53248 + (wL L).val * 1664 + 128 * (2 * t₁.val + 1)) R) (hC : CoordsOK m d L 2 X Y Z W)
    (n : Fin k1_t11_loop.trips) (u : Unit) :
    blendInv m d L sRb true 2 (2 * t₁.val + 1) R X Y Z W g n.val u
      ⊢ wp frame (wpE (defs₀ (F := F)) 𝒱₀ (thr1 d L) none) Set.univ
          ((k1at% k1_t11_body L) (bv1 L) bv2 k1_pay111 (bv5 L) t₁ (Scalar.addi (Scalar.muli (Scf.iv 0#32 1#32 t₁) 2#32) 1#32) n u)
          (blendInv m d L sRb true 2 (2 * t₁.val + 1) R X Y Z W g (n.val + 1)) := by
  have hn : n.val < 8 := lt_of_lt_of_le n.isLt k1_t11_abs.2.1
  have ht : t₁.val < 6 := lt_of_lt_of_le t₁.isLt k1_t9_abs.2.1
  unfold k1_t11_body
  simp only [k1_part15_eq_skeleton, k1_part16_eq_skeleton]
  unfold k1_part15_skel k1_part16_skel
  simp only [Prog.lift, Prog.bind_op, Prog.bind_ret, Prog.pure_eq_ret, bind_assoc, pure_bind]
  have hb := base_pair (Scalar.addi (Scalar.muli (Scf.iv 0#32 1#32 t₁) 2#32) 1#32) (2 * t₁.val + 1) n.val (chunk_odd t₁.val ht) (by omega) hn
  have flat0 := fun x => flatIdx_toNat _ (128 * (2 * t₁.val + 1) + 16 * n.val) (by omega) hb x
  have flat1 := fun x => flatIdx1_toNat _ _ (by have hx : (x 0).val < 16 := (x 0).isLt; omega) x (flat0 x)
  have flat2 := fun x => flatIdx2_toNat _ _ (by have hx : (x 0).val < 16 := (x 0).isLt; omega) x (flat0 x)
  have hrow := fun x => rowIdx_toNat n.val hn x
  unfold blendInv
  iintro ⟨HR, HX, HY, HZ, HW, %g', %hP, HO⟩
  iterate 12 (iapply (wp_rowWord m d L 2 (2 * t₁.val + 1) n.val _ hR (Memref.read_access_whole (Elt F) (cc1_scratch7 : Ref sig .scVector) R) ?hc hn hrow) $$ HR; (case hc => omega); iintro HR)
  iterate 3 (iapply (wp_rowWord m d L 2 (2 * t₁.val + 1) n.val _ hR (Memref.read_access_whole (Elt F) (cc1_scratch7 : Ref sig .scVector) R) ?hc hn hrow) $$ HR; (case hc => omega); iintro HR)
  iapply (wp_slice16 d L _ _ _ ((wL L).val * 1664 + (128 * (2 * t₁.val + 1) + 16 * n.val)) hC.1 (by omega) (k1_off17_eq t₁ n)) $$ HX; iintro HX
  iapply (wp_slice16 d L _ _ _ (53248 + ((wL L).val * 1664 + (128 * (2 * t₁.val + 1) + 16 * n.val))) hC.2.1 (by omega) (k1_off17_eq t₁ n)) $$ HY; iintro HY
  iapply (wp_slice16 d L _ _ _ (2 * 53248 + ((wL L).val * 1664 + (128 * (2 * t₁.val + 1) + 16 * n.val))) hC.2.2.1 (by omega) (k1_off17_eq t₁ n)) $$ HZ; iintro HZ
  iapply (wp_slice16 d L _ _ _ (2 * 53248 + ((wL L).val * 1664 + (128 * (2 * t₁.val + 1) + 16 * n.val))) hC.2.2.2 (by omega) (k1_off17_eq t₁ n)) $$ HW; iintro HW
  iapply (wp_outStore d L (fun x => (flat0 x).trans_lt (by have hx : (x 0).val < 16 := (x 0).isLt; omega))) $$ HO; iintro HO
  iapply (wp_outStore d L (fun x => (flat1 x).trans_lt (by have hx : (x 0).val < 16 := (x 0).isLt; omega))) $$ HO; iintro HO
  iapply (wp_outStore d L (fun x => (flat2 x).trans_lt (by have hx : (x 0).val < 16 := (x 0).isLt; omega))) $$ HO; iintro HO
  rw [wp_ret]; imodintro
  iframe HR HX HY HZ HW
  iexists _; isplitr; swap; · iexact HO
  ipureintro
  exact partDone_step m d L true 2 (2 * t₁.val + 1) n.val (by omega) hn g g' _ _ _ _ _ _ flat0 flat1 flat2 _ _ _ rfl rfl rfl hP

theorem k1_t11_trips : k1_t11_loop.trips = 8 := by decide

end Cert.KI

end
-- ==== Proof.Body1Pair.lean ====
import proofs.«205348_g71287867179597_cont_9to1c4b_113_38_alg».proof.Proof.Body1Val
import proofs.«205348_g71287867179597_cont_9to1c4b_113_38_alg».proof.Proof.Body1Out
import proofs.«205348_g71287867179597_cont_9to1c4b_113_38_alg».proof.Proof.Body1Blend
import proofs.«205348_g71287867179597_cont_9to1c4b_113_38_alg».proof.Proof.Body1Blend_t3
import proofs.«205348_g71287867179597_cont_9to1c4b_113_38_alg».proof.Proof.Body1Blend_t7
import proofs.«205348_g71287867179597_cont_9to1c4b_113_38_alg».proof.Proof.Body1Blend_t10
import proofs.«205348_g71287867179597_cont_9to1c4b_113_38_alg».proof.Proof.Body1Blend_t11

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F] [Facts]
open Facts₀ Facts

variable (m : (ℓ : Loc nD τ sig) → Buf (Elt F) ℓ)

local notation "𝕄" => MT nD τ sig (HIx 2) (Elt F) ℕ UU ℕ

local macro:max "k1at% " f:term:max L:term:max : term =>
  `($f $L aPtab (Memref.isWhole_whole _) aVt (Memref.isWhole_whole _) aInf (Memref.isWhole_whole _) aWt (Memref.isWhole_whole _)
      aOrn (Memref.isWhole_whole _) aMrep (Memref.isWhole_whole _) aOut0 (Memref.isWhole_whole _) aOut1 (Memref.isWhole_whole _)
      sGv (Memref.isWhole_whole _) sGb (Memref.isWhole_whole _) sVx (Memref.isWhole_whole _) sVy (Memref.isWhole_whole _)
      sVz (Memref.isWhole_whole _) sWt (Memref.isWhole_whole _) sRv (Memref.isWhole_whole _) sRb (Memref.isWhole_whole _)
      sRc (Memref.isWhole_whole _) sOut (Memref.isWhole_whole _) sStg (Memref.isWhole_whole _) sAcc (Memref.isWhole_whole _)
      cc1_scratch12 cc1_scratch13 cc1_scoped0 cc1_scoped1 cc1_scoped2 cc1_scoped3 cc1_scoped4 cc1_scoped5 cc1_scoped6 cc1_scoped7
      cc1_scoped8 cc1_scoped9 cc1_scoped10 cc1_scoped11 cc1_scoped12 cc1_scoped13 cc1_scoped14 cc1_scoped15 cc1_scoped16
      cc1_scoped17 cc1_scoped18 cc1_scoped19 cc1_scoped20)

theorem wp_call_bind {thr : Thread nD τ} {α β : Type} {p : Prog (TpuEff nD τ sig (Elt F) Λ₀ thr.2) α} {kk : α → Prog (TpuEff nD τ sig (Elt F) Λ₀ thr.2) β}
    {Pre : sProp 𝕄} {Q : α → sProp 𝕄} {Φ : β → sProp 𝕄}
    (h : Pre ⊢ wp frame (wpE (defs₀ (F := F)) 𝒱₀ thr none) Set.univ p Q) :
    Pre ⊢ iprop((∀ a, Q a -∗ wp frame (wpE (defs₀ (F := F)) 𝒱₀ thr none) Set.univ (kk a) Φ)
      -∗ wp frame (wpE (defs₀ (F := F)) 𝒱₀ thr none) Set.univ (p >>= kk) Φ) := by
  rw [wp_bind]
  iintro HP HK
  iapply (wp_wand_r frame _ Set.univ)
  isplitl [HP]
  · iapply h; iexact HP
  · iexact HK

section Tile
variable (d : Dev nD) (L : grid1.Coords)

def inv1 (O : CellTallies nD τ sig (HIx 2)) (W : Waits sig (HIx 2)) (fP : Buf (Elt F) ((aPtab).view.loc (thr1 d L)))
    (X : Buf (Elt F) ((sVx).view.loc (thr1 d L))) (Y : Buf (Elt F) ((sVy).view.loc (thr1 d L)))
    (Z : Buf (Elt F) ((sVz).view.loc (thr1 d L))) (Wt : Buf (Elt F) ((sWt).view.loc (thr1 d L))) (t : ℕ) (_ : PUnit.{1}) : sProp 𝕄 :=
  iprop(Transfers.MayWaits (thr1 d L) (none : HIx 2) O
    ∗ ((aInf).view.loc (thr1 d L) ↦{rd (wL L)} tInf m d) ∗ ((aPtab).view.loc (thr1 d L) ↦{rd (wL L)} fP)
    ∗ (∃ f, (sGv).view.loc (thr1 d L) ↦{fullShare} f) ∗ (∃ f, (sGb).view.loc (thr1 d L) ↦{fullShare} f)
    ∗ (∃ f, (sRv).view.loc (thr1 d L) ↦{fullShare} f) ∗ (∃ f, (sRb).view.loc (thr1 d L) ↦{fullShare} f)
    ∗ ((sVx).view.loc (thr1 d L) ↦{fullShare} X) ∗ ((sVy).view.loc (thr1 d L) ↦{fullShare} Y)
    ∗ ((sVz).view.loc (thr1 d L) ↦{fullShare} Z) ∗ ((sWt).view.loc (thr1 d L) ↦{fullShare} Wt)
    ∗ (∃ g, ⌜BlendInv m d L 0 (2 * t) g⌝ ∗ (sOut).view.loc (thr1 d L) ↦{fullShare} g)
    ∗ semVal (thr1 d L, SemLoc.dma cc1_scoped4.sem) 0 ∗ semVal (thr1 d L, SemLoc.dma cc1_scoped5.sem) 0
    ∗ semVal (thr1 d L, SemLoc.dma cc1_scratch12.sem) 0 ∗ semVal (thr1 d L, SemLoc.dma cc1_scratch13.sem) 0
    ∗ ∃ W', ⌜∀ p ∈ W', p ∈ W ∨ p.2 = none⌝ ∗ owes (thr1 d L) O W')

theorem k1_off3_pos (t : Fin k1_t1_loop.trips) : k1_off3 L t 0 = 0 * 53248 + (wL L).val * 1664 + 128 * (2 * t.val) := by
  have hw : (wL L).val = (L 1).val * 2 + (L 0).val := rfl
  rw [Gen.k1_off3_eq L t, hw]; simp only [Matrix.cons_val_zero]; omega
theorem k1_off4_pos (t : Fin k1_t1_loop.trips) : k1_off4 L t 0 = 0 * 53248 + (wL L).val * 1664 + 128 * (2 * t.val + 1) := by
  have hw : (wL L).val = (L 1).val * 2 + (L 0).val := rfl
  rw [Gen.k1_off4_eq L t, hw]; simp only [Matrix.cons_val_zero]; omega

set_option maxHeartbeats 4000000 in
theorem t1_region (hRg : RangesOK m) (O : CellTallies nD τ sig (HIx 2)) (W : Waits sig (HIx 2))
    (fP : Buf (Elt F) ((aPtab).view.loc (thr1 d L)))
    (X : Buf (Elt F) ((sVx).view.loc (thr1 d L))) (Y : Buf (Elt F) ((sVy).view.loc (thr1 d L)))
    (Z : Buf (Elt F) ((sVz).view.loc (thr1 d L))) (Wt : Buf (Elt F) ((sWt).view.loc (thr1 d L))) (hP : PtabOK m d fP)
    (hC : CoordsOK m d L 0 X Y Z Wt) (t : Fin k1_t1_loop.trips) :
    inv1 m d L O W fP X Y Z Wt t.val ⟨⟩
      ⊢ wp frame (wpE (defs₀ (F := F)) 𝒱₀ (thr1 d L) none) Set.univ ((k1at% k1_t1_body L) bv2 t ⟨⟩)
          (inv1 m d L O W fP X Y Z Wt (t.val + 1)) := by
  unfold inv1 k1_t1_body
  iintro ⟨Hmw, Hinf, Hpt, ⟨%fgv, Hgv⟩, ⟨%fgb, Hgb⟩, ⟨%frv, Hrv⟩, ⟨%frb, Hrb⟩, Hx, Hy, Hz, Hw, ⟨%g, %hg, Hout⟩, Hs4, Hs5, Hs12, Hs13, %W', %hW', HO⟩
  ihave Hpt2 := (pointsTo_share (PosShare.mem_left_op_right (rd (wL L)))).1 $$ Hpt
  icases Hpt2 with ⟨HptL, HptR⟩
  sl_exec
  have hin1 := gv_inb m d L hRg fgv (t1_region.sl.dma0 m d L t) (k1_off3 L t) (Gen.k1_off3_inb L t) rfl
  sl_exec
  have hin2 := gb_inb m d L hRg fgb (t1_region.sl.dma0_1 m d L t) (k1_off4 L t) (Gen.k1_off4_inb L t) rfl
  sl_exec
  have hRv : RowsAt m d (infId m d) (0 * 53248 + (wL L).val * 1664 + 128 * (2 * t.val))
      (sRv.view.writes (Elt F) sRv.view.junk [⟨Rect.whole S128x128, t1_region.sl.gather0 m d L fP t fgv hin1⟩]) := by
    rw [← k1_off3_pos L t]
    exact rows_v m d L hRg fP hP _ fgv _ (k1_off3 L t) (Gen.k1_off3_inb L t) rfl (fun _ => rfl) (by decide) hin1
  iapply (wp_call_bind (blend_for m d L sRv false 0 (2 * t.val) k1_t2_loop Facts₀.k1_t2_ok k1_t2_trips _ _ X Y Z Wt g (t2_trip m d L t _ X Y Z Wt g hRv hC))) $$ [Hrv Hx Hy Hz Hw Hout]
  · isplitl [Hrv]; · iexact Hrv
    isplitl [Hx]; · iexact Hx
    isplitl [Hy]; · iexact Hy
    isplitl [Hz]; · iexact Hz
    isplitl [Hw]; · iexact Hw
    iexact Hout
  iintro %_ ⟨Hrv, Hx, Hy, Hz, Hw, %g1, %hg1, Hout⟩
  sl_exec
  have hRb : RowsAt m d (infId m d) (0 * 53248 + (wL L).val * 1664 + 128 * (2 * t.val + 1))
      (sRb.view.writes (Elt F) sRb.view.junk [⟨Rect.whole S128x128, t1_region.sl.gather0_1 m d L fP t fgb hin2⟩]) := by
    rw [← k1_off4_pos L t]
    exact rows_b m d L hRg fP hP _ fgb _ (k1_off4 L t) (Gen.k1_off4_inb L t) rfl (fun _ => rfl) (by decide) hin2
  iapply (wp_call_bind (blend_for m d L sRb false 0 (2 * t.val + 1) k1_t3_loop Facts₀.k1_t3_ok k1_t3_trips _ _ X Y Z Wt g1 (t3_trip m d L t _ X Y Z Wt g1 hRb hC))) $$ [Hrb Hx Hy Hz Hw Hout]
  · isplitl [Hrb]; · iexact Hrb
    isplitl [Hx]; · iexact Hx
    isplitl [Hy]; · iexact Hy
    isplitl [Hz]; · iexact Hz
    isplitl [Hw]; · iexact Hw
    iexact Hout
  iintro %_ ⟨Hrb, Hx, Hy, Hz, Hw, %g2, %hg2, Hout⟩
  sl_step
  ihave Hpt := (pointsTo_share (PosShare.mem_left_op_right (rd (wL L)))).2 $$ [HptL HptR]
  · isplitl [HptL] <;> iassumption
  isplitl [Hmw]; · iexact Hmw
  isplitl [Hinf]; · iexact Hinf
  isplitl [Hpt]; · iexact Hpt
  isplitl [Hgv]; · iexists _; iexact Hgv
  isplitl [Hgb]; · iexists _; iexact Hgb
  isplitl [Hrv]; · iexists _; iexact Hrv
  isplitl [Hrb]; · iexists _; iexact Hrb
  isplitl [Hx]; · iexact Hx
  isplitl [Hy]; · iexact Hy
  isplitl [Hz]; · iexact Hz
  isplitl [Hw]; · iexact Hw
  isplitl [Hout]
  · iexists g2; isplitr
    · ipureintro
      have h1 := BlendInv_step m d L hg hg1
      have h2 := BlendInv_step m d L h1 hg2
      rw [show 2 * (t.val + 1) = 2 * t.val + 1 + 1 by omega]; exact h2
    · iexact Hout
  isplitl [Hs4]; · iexact Hs4
  isplitl [Hs5]; · iexact Hs5
  isplitl [Hs12]; · iexact Hs12
  isplitl [Hs13]; · iexact Hs13
  iexists _; isplitr
  rotate_left
  · iexact HO
  · ipureintro; intro p hp
    simp only [Finset.mem_insert] at hp
    rcases hp with hp | hp | hp | hp | hp
    · exact .inr (hp ▸ rfl)
    · exact .inr (hp ▸ rfl)
    · exact .inr (hp ▸ rfl)
    · exact .inr (hp ▸ rfl)
    · exact hW' p hp

theorem t1_wp (hRg : RangesOK m) (O : CellTallies nD τ sig (HIx 2)) (W : Waits sig (HIx 2))
    (fP : Buf (Elt F) ((aPtab).view.loc (thr1 d L)))
    (X : Buf (Elt F) ((sVx).view.loc (thr1 d L))) (Y : Buf (Elt F) ((sVy).view.loc (thr1 d L)))
    (Z : Buf (Elt F) ((sVz).view.loc (thr1 d L))) (Wt : Buf (Elt F) ((sWt).view.loc (thr1 d L))) (hP : PtabOK m d fP)
    (hC : CoordsOK m d L 0 X Y Z Wt) :
    inv1 m d L O W fP X Y Z Wt 0 ⟨⟩
      ⊢ wp frame (wpE (defs₀ (F := F)) 𝒱₀ (thr1 d L) none) Set.univ
          (Scf.Loop.for k1_t1_loop Facts₀.k1_t1_ok ⟨⟩ ((k1at% k1_t1_body L) bv2))
          (inv1 m d L O W fP X Y Z Wt k1_t1_loop.trips) := by
  iintro HI
  sl_for (inv1 m d L O W fP X Y Z Wt) $$ [HI]
  case region => exact fun t _ => t1_region m d L hRg O W fP X Y Z Wt hP hC t
  isplitl [HI]
  · iexact HI
  iintro %_ HI
  iexact HI

def inv5 (O : CellTallies nD τ sig (HIx 2)) (W : Waits sig (HIx 2)) (fP : Buf (Elt F) ((aPtab).view.loc (thr1 d L)))
    (X : Buf (Elt F) ((sVx).view.loc (thr1 d L))) (Y : Buf (Elt F) ((sVy).view.loc (thr1 d L)))
    (Z : Buf (Elt F) ((sVz).view.loc (thr1 d L))) (Wt : Buf (Elt F) ((sWt).view.loc (thr1 d L))) (t : ℕ) (_ : PUnit.{1}) : sProp 𝕄 :=
  iprop(Transfers.MayWaits (thr1 d L) (none : HIx 2) O
    ∗ ((aInf).view.loc (thr1 d L) ↦{rd (wL L)} tInf m d) ∗ ((aPtab).view.loc (thr1 d L) ↦{rd (wL L)} fP)
    ∗ (∃ f, (sGv).view.loc (thr1 d L) ↦{fullShare} f) ∗ (∃ f, (sGb).view.loc (thr1 d L) ↦{fullShare} f)
    ∗ (∃ f, (sRv).view.loc (thr1 d L) ↦{fullShare} f) ∗ (∃ f, (sRb).view.loc (thr1 d L) ↦{fullShare} f)
    ∗ ((sVx).view.loc (thr1 d L) ↦{fullShare} X) ∗ ((sVy).view.loc (thr1 d L) ↦{fullShare} Y)
    ∗ ((sVz).view.loc (thr1 d L) ↦{fullShare} Z) ∗ ((sWt).view.loc (thr1 d L) ↦{fullShare} Wt)
    ∗ (∃ g, ⌜BlendInv m d L 1 (2 * t) g⌝ ∗ (sOut).view.loc (thr1 d L) ↦{fullShare} g)
    ∗ semVal (thr1 d L, SemLoc.dma cc1_scoped8.sem) 0 ∗ semVal (thr1 d L, SemLoc.dma cc1_scoped9.sem) 0
    ∗ semVal (thr1 d L, SemLoc.dma cc1_scratch12.sem) 0 ∗ semVal (thr1 d L, SemLoc.dma cc1_scratch13.sem) 0
    ∗ ∃ W', ⌜∀ p ∈ W', p ∈ W ∨ p.2 = none⌝ ∗ owes (thr1 d L) O W')

theorem k1_off9_pos (t : Fin k1_t5_loop.trips) : k1_off9 L t 0 = 1 * 53248 + (wL L).val * 1664 + 128 * (2 * t.val) := by
  have hw : (wL L).val = (L 1).val * 2 + (L 0).val := rfl
  rw [Gen.k1_off9_eq L t, hw]; simp only [Matrix.cons_val_zero]; omega
theorem k1_off10_pos (t : Fin k1_t5_loop.trips) : k1_off10 L t 0 = 1 * 53248 + (wL L).val * 1664 + 128 * (2 * t.val + 1) := by
  have hw : (wL L).val = (L 1).val * 2 + (L 0).val := rfl
  rw [Gen.k1_off10_eq L t, hw]; simp only [Matrix.cons_val_zero]; omega

set_option maxHeartbeats 4000000 in
theorem t5_region (hRg : RangesOK m) (O : CellTallies nD τ sig (HIx 2)) (W : Waits sig (HIx 2))
    (fP : Buf (Elt F) ((aPtab).view.loc (thr1 d L)))
    (X : Buf (Elt F) ((sVx).view.loc (thr1 d L))) (Y : Buf (Elt F) ((sVy).view.loc (thr1 d L)))
    (Z : Buf (Elt F) ((sVz).view.loc (thr1 d L))) (Wt : Buf (Elt F) ((sWt).view.loc (thr1 d L))) (hP : PtabOK m d fP)
    (hC : CoordsOK m d L 1 X Y Z Wt) (t : Fin k1_t5_loop.trips) :
    inv5 m d L O W fP X Y Z Wt t.val ⟨⟩
      ⊢ wp frame (wpE (defs₀ (F := F)) 𝒱₀ (thr1 d L) none) Set.univ ((k1at% k1_t5_body L) bv2 k1_pay111 (bv5 L) t ⟨⟩)
          (inv5 m d L O W fP X Y Z Wt (t.val + 1)) := by
  unfold inv5 k1_t5_body
  iintro ⟨Hmw, Hinf, Hpt, ⟨%fgv, Hgv⟩, ⟨%fgb, Hgb⟩, ⟨%frv, Hrv⟩, ⟨%frb, Hrb⟩, Hx, Hy, Hz, Hw, ⟨%g, %hg, Hout⟩, Hs4, Hs5, Hs12, Hs13, %W', %hW', HO⟩
  ihave Hpt2 := (pointsTo_share (PosShare.mem_left_op_right (rd (wL L)))).1 $$ Hpt
  icases Hpt2 with ⟨HptL, HptR⟩
  sl_exec
  have hin1 := gv_inb m d L hRg fgv (t5_region.sl.dma0 m d L t) (k1_off9 L t) (Gen.k1_off9_inb L t) rfl
  sl_exec
  have hin2 := gb_inb m d L hRg fgb (t5_region.sl.dma0_1 m d L t) (k1_off10 L t) (Gen.k1_off10_inb L t) rfl
  sl_exec
  have hRv : RowsAt m d (infId m d) (1 * 53248 + (wL L).val * 1664 + 128 * (2 * t.val))
      (sRv.view.writes (Elt F) sRv.view.junk [⟨Rect.whole S128x128, t5_region.sl.gather0 m d L fP t fgv hin1⟩]) := by
    rw [← k1_off9_pos L t]
    exact rows_v m d L hRg fP hP _ fgv _ (k1_off9 L t) (Gen.k1_off9_inb L t) rfl (fun _ => rfl) (by decide) hin1
  iapply (wp_call_bind (blend_for m d L sRv true 1 (2 * t.val) k1_t6_loop Facts₀.k1_t6_ok k1_t6_trips _ _ X Y Z Wt g (t6_trip m d L t _ X Y Z Wt g hRv hC))) $$ [Hrv Hx Hy Hz Hw Hout]
  · isplitl [Hrv]; · iexact Hrv
    isplitl [Hx]; · iexact Hx
    isplitl [Hy]; · iexact Hy
    isplitl [Hz]; · iexact Hz
    isplitl [Hw]; · iexact Hw
    iexact Hout
  iintro %_ ⟨Hrv, Hx, Hy, Hz, Hw, %g1, %hg1, Hout⟩
  sl_exec
  have hRb : RowsAt m d (infId m d) (1 * 53248 + (wL L).val * 1664 + 128 * (2 * t.val + 1))
      (sRb.view.writes (Elt F) sRb.view.junk [⟨Rect.whole S128x128, t5_region.sl.gather0_1 m d L fP t fgb hin2⟩]) := by
    rw [← k1_off10_pos L t]
    exact rows_b m d L hRg fP hP _ fgb _ (k1_off10 L t) (Gen.k1_off10_inb L t) rfl (fun _ => rfl) (by decide) hin2
  iapply (wp_call_bind (blend_for m d L sRb true 1 (2 * t.val + 1) k1_t7_loop Facts₀.k1_t7_ok k1_t7_trips _ _ X Y Z Wt g1 (t7_trip m d L t _ X Y Z Wt g1 hRb hC))) $$ [Hrb Hx Hy Hz Hw Hout]
  · isplitl [Hrb]; · iexact Hrb
    isplitl [Hx]; · iexact Hx
    isplitl [Hy]; · iexact Hy
    isplitl [Hz]; · iexact Hz
    isplitl [Hw]; · iexact Hw
    iexact Hout
  iintro %_ ⟨Hrb, Hx, Hy, Hz, Hw, %g2, %hg2, Hout⟩
  sl_step
  ihave Hpt := (pointsTo_share (PosShare.mem_left_op_right (rd (wL L)))).2 $$ [HptL HptR]
  · isplitl [HptL] <;> iassumption
  isplitl [Hmw]; · iexact Hmw
  isplitl [Hinf]; · iexact Hinf
  isplitl [Hpt]; · iexact Hpt
  isplitl [Hgv]; · iexists _; iexact Hgv
  isplitl [Hgb]; · iexists _; iexact Hgb
  isplitl [Hrv]; · iexists _; iexact Hrv
  isplitl [Hrb]; · iexists _; iexact Hrb
  isplitl [Hx]; · iexact Hx
  isplitl [Hy]; · iexact Hy
  isplitl [Hz]; · iexact Hz
  isplitl [Hw]; · iexact Hw
  isplitl [Hout]
  · iexists g2; isplitr
    · ipureintro
      have h1 := BlendInv_step m d L hg hg1
      have h2 := BlendInv_step m d L h1 hg2
      rw [show 2 * (t.val + 1) = 2 * t.val + 1 + 1 by omega]; exact h2
    · iexact Hout
  isplitl [Hs4]; · iexact Hs4
  isplitl [Hs5]; · iexact Hs5
  isplitl [Hs12]; · iexact Hs12
  isplitl [Hs13]; · iexact Hs13
  iexists _; isplitr
  rotate_left
  · iexact HO
  · ipureintro; intro p hp
    simp only [Finset.mem_insert] at hp
    rcases hp with hp | hp | hp | hp | hp
    · exact .inr (hp ▸ rfl)
    · exact .inr (hp ▸ rfl)
    · exact .inr (hp ▸ rfl)
    · exact .inr (hp ▸ rfl)
    · exact hW' p hp

theorem t5_wp (hRg : RangesOK m) (O : CellTallies nD τ sig (HIx 2)) (W : Waits sig (HIx 2))
    (fP : Buf (Elt F) ((aPtab).view.loc (thr1 d L)))
    (X : Buf (Elt F) ((sVx).view.loc (thr1 d L))) (Y : Buf (Elt F) ((sVy).view.loc (thr1 d L)))
    (Z : Buf (Elt F) ((sVz).view.loc (thr1 d L))) (Wt : Buf (Elt F) ((sWt).view.loc (thr1 d L))) (hP : PtabOK m d fP)
    (hC : CoordsOK m d L 1 X Y Z Wt) :
    inv5 m d L O W fP X Y Z Wt 0 ⟨⟩
      ⊢ wp frame (wpE (defs₀ (F := F)) 𝒱₀ (thr1 d L) none) Set.univ
          (Scf.Loop.for k1_t5_loop Facts₀.k1_t5_ok ⟨⟩ ((k1at% k1_t5_body L) bv2 k1_pay111 (bv5 L)))
          (inv5 m d L O W fP X Y Z Wt k1_t5_loop.trips) := by
  iintro HI
  sl_for (inv5 m d L O W fP X Y Z Wt) $$ [HI]
  case region => exact fun t _ => t5_region m d L hRg O W fP X Y Z Wt hP hC t
  isplitl [HI]
  · iexact HI
  iintro %_ HI
  iexact HI

def inv9 (O : CellTallies nD τ sig (HIx 2)) (W : Waits sig (HIx 2)) (fP : Buf (Elt F) ((aPtab).view.loc (thr1 d L)))
    (X : Buf (Elt F) ((sVx).view.loc (thr1 d L))) (Y : Buf (Elt F) ((sVy).view.loc (thr1 d L)))
    (Z : Buf (Elt F) ((sVz).view.loc (thr1 d L))) (Wt : Buf (Elt F) ((sWt).view.loc (thr1 d L))) (t : ℕ) (_ : PUnit.{1}) : sProp 𝕄 :=
  iprop(Transfers.MayWaits (thr1 d L) (none : HIx 2) O
    ∗ ((aInf).view.loc (thr1 d L) ↦{rd (wL L)} tInf m d) ∗ ((aPtab).view.loc (thr1 d L) ↦{rd (wL L)} fP)
    ∗ (∃ f, (sGv).view.loc (thr1 d L) ↦{fullShare} f) ∗ (∃ f, (sGb).view.loc (thr1 d L) ↦{fullShare} f)
    ∗ (∃ f, (sRv).view.loc (thr1 d L) ↦{fullShare} f) ∗ (∃ f, (sRb).view.loc (thr1 d L) ↦{fullShare} f)
    ∗ ((sVx).view.loc (thr1 d L) ↦{fullShare} X) ∗ ((sVy).view.loc (thr1 d L) ↦{fullShare} Y)
    ∗ ((sVz).view.loc (thr1 d L) ↦{fullShare} Z) ∗ ((sWt).view.loc (thr1 d L) ↦{fullShare} Wt)
    ∗ (∃ g, ⌜BlendInv m d L 2 (2 * t) g⌝ ∗ (sOut).view.loc (thr1 d L) ↦{fullShare} g)
    ∗ semVal (thr1 d L, SemLoc.dma cc1_scoped12.sem) 0 ∗ semVal (thr1 d L, SemLoc.dma cc1_scoped13.sem) 0
    ∗ semVal (thr1 d L, SemLoc.dma cc1_scratch12.sem) 0 ∗ semVal (thr1 d L, SemLoc.dma cc1_scratch13.sem) 0
    ∗ ∃ W', ⌜∀ p ∈ W', p ∈ W ∨ p.2 = none⌝ ∗ owes (thr1 d L) O W')

theorem k1_off14_pos (t : Fin k1_t9_loop.trips) : k1_off14 L t 0 = 2 * 53248 + (wL L).val * 1664 + 128 * (2 * t.val) := by
  have hw : (wL L).val = (L 1).val * 2 + (L 0).val := rfl
  rw [Gen.k1_off14_eq L t, hw]; simp only [Matrix.cons_val_zero]; omega
theorem k1_off15_pos (t : Fin k1_t9_loop.trips) : k1_off15 L t 0 = 2 * 53248 + (wL L).val * 1664 + 128 * (2 * t.val + 1) := by
  have hw : (wL L).val = (L 1).val * 2 + (L 0).val := rfl
  rw [Gen.k1_off15_eq L t, hw]; simp only [Matrix.cons_val_zero]; omega

set_option maxHeartbeats 4000000 in
theorem t9_region (hRg : RangesOK m) (O : CellTallies nD τ sig (HIx 2)) (W : Waits sig (HIx 2))
    (fP : Buf (Elt F) ((aPtab).view.loc (thr1 d L)))
    (X : Buf (Elt F) ((sVx).view.loc (thr1 d L))) (Y : Buf (Elt F) ((sVy).view.loc (thr1 d L)))
    (Z : Buf (Elt F) ((sVz).view.loc (thr1 d L))) (Wt : Buf (Elt F) ((sWt).view.loc (thr1 d L))) (hP : PtabOK m d fP)
    (hC : CoordsOK m d L 2 X Y Z Wt) (t : Fin k1_t9_loop.trips) :
    inv9 m d L O W fP X Y Z Wt t.val ⟨⟩
      ⊢ wp frame (wpE (defs₀ (F := F)) 𝒱₀ (thr1 d L) none) Set.univ ((k1at% k1_t9_body L) (bv1 L) bv2 k1_pay111 (bv5 L) t ⟨⟩)
          (inv9 m d L O W fP X Y Z Wt (t.val + 1)) := by
  unfold inv9 k1_t9_body
  iintro ⟨Hmw, Hinf, Hpt, ⟨%fgv, Hgv⟩, ⟨%fgb, Hgb⟩, ⟨%frv, Hrv⟩, ⟨%frb, Hrb⟩, Hx, Hy, Hz, Hw, ⟨%g, %hg, Hout⟩, Hs4, Hs5, Hs12, Hs13, %W', %hW', HO⟩
  ihave Hpt2 := (pointsTo_share (PosShare.mem_left_op_right (rd (wL L)))).1 $$ Hpt
  icases Hpt2 with ⟨HptL, HptR⟩
  sl_exec
  have hin1 := gv_inb m d L hRg fgv (t9_region.sl.dma0 m d L t) (k1_off14 L t) (Gen.k1_off14_inb L t) rfl
  sl_exec
  have hin2 := gb_inb m d L hRg fgb (t9_region.sl.dma0_1 m d L t) (k1_off15 L t) (Gen.k1_off15_inb L t) rfl
  sl_exec
  have hRv : RowsAt m d (infId m d) (2 * 53248 + (wL L).val * 1664 + 128 * (2 * t.val))
      (sRv.view.writes (Elt F) sRv.view.junk [⟨Rect.whole S128x128, t9_region.sl.gather0 m d L fP t fgv hin1⟩]) := by
    rw [← k1_off14_pos L t]
    exact rows_v m d L hRg fP hP _ fgv _ (k1_off14 L t) (Gen.k1_off14_inb L t) rfl (fun _ => rfl) (by decide) hin1
  iapply (wp_call_bind (blend_for m d L sRv true 2 (2 * t.val) k1_t10_loop Facts₀.k1_t10_ok k1_t10_trips _ _ X Y Z Wt g (t10_trip m d L t _ X Y Z Wt g hRv hC))) $$ [Hrv Hx Hy Hz Hw Hout]
  · isplitl [Hrv]; · iexact Hrv
    isplitl [Hx]; · iexact Hx
    isplitl [Hy]; · iexact Hy
    isplitl [Hz]; · iexact Hz
    isplitl [Hw]; · iexact Hw
    iexact Hout
  iintro %_ ⟨Hrv, Hx, Hy, Hz, Hw, %g1, %hg1, Hout⟩
  sl_exec
  have hRb : RowsAt m d (infId m d) (2 * 53248 + (wL L).val * 1664 + 128 * (2 * t.val + 1))
      (sRb.view.writes (Elt F) sRb.view.junk [⟨Rect.whole S128x128, t9_region.sl.gather0_1 m d L fP t fgb hin2⟩]) := by
    rw [← k1_off15_pos L t]
    exact rows_b m d L hRg fP hP _ fgb _ (k1_off15 L t) (Gen.k1_off15_inb L t) rfl (fun _ => rfl) (by decide) hin2
  iapply (wp_call_bind (blend_for m d L sRb true 2 (2 * t.val + 1) k1_t11_loop Facts₀.k1_t11_ok k1_t11_trips _ _ X Y Z Wt g1 (t11_trip m d L t _ X Y Z Wt g1 hRb hC))) $$ [Hrb Hx Hy Hz Hw Hout]
  · isplitl [Hrb]; · iexact Hrb
    isplitl [Hx]; · iexact Hx
    isplitl [Hy]; · iexact Hy
    isplitl [Hz]; · iexact Hz
    isplitl [Hw]; · iexact Hw
    iexact Hout
  iintro %_ ⟨Hrb, Hx, Hy, Hz, Hw, %g2, %hg2, Hout⟩
  sl_step
  ihave Hpt := (pointsTo_share (PosShare.mem_left_op_right (rd (wL L)))).2 $$ [HptL HptR]
  · isplitl [HptL] <;> iassumption
  isplitl [Hmw]; · iexact Hmw
  isplitl [Hinf]; · iexact Hinf
  isplitl [Hpt]; · iexact Hpt
  isplitl [Hgv]; · iexists _; iexact Hgv
  isplitl [Hgb]; · iexists _; iexact Hgb
  isplitl [Hrv]; · iexists _; iexact Hrv
  isplitl [Hrb]; · iexists _; iexact Hrb
  isplitl [Hx]; · iexact Hx
  isplitl [Hy]; · iexact Hy
  isplitl [Hz]; · iexact Hz
  isplitl [Hw]; · iexact Hw
  isplitl [Hout]
  · iexists g2; isplitr
    · ipureintro
      have h1 := BlendInv_step m d L hg hg1
      have h2 := BlendInv_step m d L h1 hg2
      rw [show 2 * (t.val + 1) = 2 * t.val + 1 + 1 by omega]; exact h2
    · iexact Hout
  isplitl [Hs4]; · iexact Hs4
  isplitl [Hs5]; · iexact Hs5
  isplitl [Hs12]; · iexact Hs12
  isplitl [Hs13]; · iexact Hs13
  iexists _; isplitr
  rotate_left
  · iexact HO
  · ipureintro; intro p hp
    simp only [Finset.mem_insert] at hp
    rcases hp with hp | hp | hp | hp | hp
    · exact .inr (hp ▸ rfl)
    · exact .inr (hp ▸ rfl)
    · exact .inr (hp ▸ rfl)
    · exact .inr (hp ▸ rfl)
    · exact hW' p hp

theorem t9_wp (hRg : RangesOK m) (O : CellTallies nD τ sig (HIx 2)) (W : Waits sig (HIx 2))
    (fP : Buf (Elt F) ((aPtab).view.loc (thr1 d L)))
    (X : Buf (Elt F) ((sVx).view.loc (thr1 d L))) (Y : Buf (Elt F) ((sVy).view.loc (thr1 d L)))
    (Z : Buf (Elt F) ((sVz).view.loc (thr1 d L))) (Wt : Buf (Elt F) ((sWt).view.loc (thr1 d L))) (hP : PtabOK m d fP)
    (hC : CoordsOK m d L 2 X Y Z Wt) :
    inv9 m d L O W fP X Y Z Wt 0 ⟨⟩
      ⊢ wp frame (wpE (defs₀ (F := F)) 𝒱₀ (thr1 d L) none) Set.univ
          (Scf.Loop.for k1_t9_loop Facts₀.k1_t9_ok ⟨⟩ ((k1at% k1_t9_body L) (bv1 L) bv2 k1_pay111 (bv5 L)))
          (inv9 m d L O W fP X Y Z Wt k1_t9_loop.trips) := by
  iintro HI
  sl_for (inv9 m d L O W fP X Y Z Wt) $$ [HI]
  case region => exact fun t _ => t9_region m d L hRg O W fP X Y Z Wt hP hC t
  isplitl [HI]
  · iexact HI
  iintro %_ HI
  iexact HI

end Tile
end Cert.KI
end
-- ==== Proof.Body1Res.lean ====
import proofs.«205348_g71287867179597_cont_9to1c4b_113_38_alg».proof.Proof.Body1Ifc

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F] [Facts]
open Facts₀ Facts

local notation "𝕄" => MT nD τ sig (HIx 2) (Elt F) ℕ UU ℕ

section ListSplit

variable {M : Type} [URA M] {I : Type} [DecidableEq I]

theorem bigSep_split_list (Φ : I → sProp M) : ∀ (l : List I) (s : Finset I), l.Nodup → (∀ i ∈ l, i ∈ s) →
    bigSep s Φ = l.foldr (fun i R => iprop(Φ i ∗ R)) (bigSep (s \ l.toFinset) Φ)
  | [], s, _, _ => by rw [List.toFinset_nil, Finset.sdiff_empty, List.foldr_nil]
  | a :: l, s, hnd, hs => by
    have hnd' := List.nodup_cons.1 hnd
    rw [SparseCore.bigSep_erase' (hs a List.mem_cons_self),
      bigSep_split_list Φ l (s.erase a) hnd'.2 fun i hi =>
        Finset.mem_erase.2 ⟨fun e => hnd'.1 (e ▸ hi), hs i (List.mem_cons_of_mem _ hi)⟩,
      List.toFinset_cons, List.foldr_cons, Finset.sdiff_insert, Finset.erase_sdiff_comm]

end ListSplit

theorem scratchRefs_nodup :
    ([cc1_scratch0, cc1_scratch1, cc1_scratch2, cc1_scratch3, cc1_scratch4, cc1_scratch5, cc1_scratch6, cc1_scratch7,
      cc1_scratch8, cc1_scratch9, cc1_scratch10, cc1_scratch11] : List (Ref sig .scVector)).Nodup := by decide

def usedDmaSems : List (DmaSem sig) :=
  [cc1_scratch12.sem, cc1_scratch13.sem, cc1_scoped0.sem, cc1_scoped1.sem, cc1_scoped2.sem, cc1_scoped3.sem, cc1_scoped4.sem,
    cc1_scoped5.sem, cc1_scoped6.sem, cc1_scoped7.sem, cc1_scoped8.sem, cc1_scoped9.sem, cc1_scoped10.sem, cc1_scoped11.sem,
    cc1_scoped12.sem, cc1_scoped13.sem, cc1_scoped14.sem, cc1_scoped15.sem, cc1_scoped16.sem, cc1_scoped17.sem,
    cc1_scoped18.sem, cc1_scoped19.sem, cc1_scoped20.sem]

theorem usedDmaSems_nodup : (usedDmaSems : List (DmaSem sig)).Nodup := by
  have h : (usedDmaSems : List (DmaSem sig)).map Fin.val
      = [7, 8, 9, 10, 11, 12, 13, 14, 15, 16, 17, 18, 19, 20, 21, 22, 23, 24, 25, 26, 27, 28, 29] := rfl
  exact List.Nodup.of_map Fin.val (h ▸ by decide)

section Tile

variable (d : Dev nD) (L : grid1.Coords)

def usedBufs (L : grid1.Coords) : List (DevRef τ sig) :=
  ([cc1_scratch0, cc1_scratch1, cc1_scratch2, cc1_scratch3, cc1_scratch4, cc1_scratch5, cc1_scratch6, cc1_scratch7,
    cc1_scratch8, cc1_scratch9, cc1_scratch10, cc1_scratch11] : List (Ref sig .scVector)).map
    (Proc.scVector (cV1 L) (jV1 L)).devRef

def restBufs : sProp 𝕄 :=
  bigSep (ownRefs (τ := τ) (.scVector (cV1 L) (jV1 L)) \ (usedBufs L).toFinset)
    fun b => iprop(∃ f, ((d, b) : Loc nD τ sig) ↦{fullShare} f)

theorem usedBufs_nodup : (usedBufs L).Nodup :=
  List.Nodup.map (Proc.devRef_injective _) scratchRefs_nodup

theorem usedBufs_own : ∀ b ∈ usedBufs L, b ∈ ownRefs (τ := τ) (.scVector (cV1 L) (jV1 L)) := by
  intro b hb
  simp only [usedBufs, List.map_cons, List.map_nil, List.mem_cons, List.not_mem_nil, or_false] at hb
  rcases hb with rfl | rfl | rfl | rfl | rfl | rfl | rfl | rfl | rfl | rfl | rfl | rfl <;>
    exact SparseCore.Cfg.mem_ownRefs_of_owner rfl

theorem ownBufs_V1 : (ownBufs (thr1 d L) : sProp 𝕄)
    = iprop((∃ f, (sGv).view.loc (thr1 d L) ↦{fullShare} f) ∗ (∃ f, (sGb).view.loc (thr1 d L) ↦{fullShare} f) ∗ (∃ f, (sVx).view.loc (thr1 d L) ↦{fullShare} f) ∗ (∃ f, (sVy).view.loc (thr1 d L) ↦{fullShare} f) ∗ (∃ f, (sVz).view.loc (thr1 d L) ↦{fullShare} f) ∗ (∃ f, (sWt).view.loc (thr1 d L) ↦{fullShare} f) ∗ (∃ f, (sRv).view.loc (thr1 d L) ↦{fullShare} f) ∗ (∃ f, (sRb).view.loc (thr1 d L) ↦{fullShare} f) ∗ (∃ f, (sRc).view.loc (thr1 d L) ↦{fullShare} f) ∗ (∃ f, (sOut).view.loc (thr1 d L) ↦{fullShare} f) ∗ (∃ f, (sStg).view.loc (thr1 d L) ↦{fullShare} f) ∗ (∃ f, (sAcc).view.loc (thr1 d L) ↦{fullShare} f) ∗ restBufs d L) := by
  have h := bigSep_split_list (M := 𝕄) (fun b => iprop(∃ f, ((d, b) : Loc nD τ sig) ↦{fullShare} f)) (usedBufs L) _
    (usedBufs_nodup L) (usedBufs_own L)
  change _ = (usedBufs L).foldr _ (restBufs d L) at h
  refine h.trans ?_
  simp only [usedBufs, List.map_cons, List.map_nil, List.foldr_cons, List.foldr_nil]

def usedSems : List (GSem nD τ sig) := (usedDmaSems.map SemLoc.dma).map fun sm => (thr1 d L, sm)

def restSems : sProp 𝕄 := bigSep (ownCells (thr1 d L) \ (usedSems d L).toFinset) fun g => semVal g 0

theorem usedSems_nodup : (usedSems d L).Nodup :=
  ((usedDmaSems_nodup.map fun _ _ e => SemLoc.dma.inj e).map fun _ _ e => (Prod.mk.inj e).2)

theorem usedSems_own : ∀ g ∈ usedSems d L, g ∈ ownCells (thr1 d L) := by
  intro g hg
  obtain ⟨sm, hsm, rfl⟩ := List.mem_map.1 hg
  obtain ⟨s, -, rfl⟩ := List.mem_map.1 hsm
  exact mem_ownCells.2 ⟨rfl, show sig.isScopedDmaSem .scVector s = true from sig.sc_scopedDmaSem .scVector s (by decide)⟩

theorem ownSems0_V1 : (ownSems0 (thr1 d L) : sProp 𝕄)
    = iprop(semVal (thr1 d L, SemLoc.dma cc1_scratch12.sem) 0 ∗ semVal (thr1 d L, SemLoc.dma cc1_scratch13.sem) 0 ∗ semVal (thr1 d L, SemLoc.dma cc1_scoped0.sem) 0 ∗ semVal (thr1 d L, SemLoc.dma cc1_scoped1.sem) 0 ∗ semVal (thr1 d L, SemLoc.dma cc1_scoped2.sem) 0 ∗ semVal (thr1 d L, SemLoc.dma cc1_scoped3.sem) 0 ∗ semVal (thr1 d L, SemLoc.dma cc1_scoped4.sem) 0 ∗ semVal (thr1 d L, SemLoc.dma cc1_scoped5.sem) 0 ∗ semVal (thr1 d L, SemLoc.dma cc1_scoped6.sem) 0 ∗ semVal (thr1 d L, SemLoc.dma cc1_scoped7.sem) 0 ∗ semVal (thr1 d L, SemLoc.dma cc1_scoped8.sem) 0 ∗ semVal (thr1 d L, SemLoc.dma cc1_scoped9.sem) 0 ∗ semVal (thr1 d L, SemLoc.dma cc1_scoped10.sem) 0 ∗ semVal (thr1 d L, SemLoc.dma cc1_scoped11.sem) 0 ∗ semVal (thr1 d L, SemLoc.dma cc1_scoped12.sem) 0 ∗ semVal (thr1 d L, SemLoc.dma cc1_scoped13.sem) 0 ∗ semVal (thr1 d L, SemLoc.dma cc1_scoped14.sem) 0 ∗ semVal (thr1 d L, SemLoc.dma cc1_scoped15.sem) 0 ∗ semVal (thr1 d L, SemLoc.dma cc1_scoped16.sem) 0 ∗ semVal (thr1 d L, SemLoc.dma cc1_scoped17.sem) 0 ∗ semVal (thr1 d L, SemLoc.dma cc1_scoped18.sem) 0 ∗ semVal (thr1 d L, SemLoc.dma cc1_scoped19.sem) 0 ∗ semVal (thr1 d L, SemLoc.dma cc1_scoped20.sem) 0 ∗ restSems d L) := by
  have h := bigSep_split_list (M := 𝕄) (fun g : GSem nD τ sig => semVal g 0) (usedSems d L) _
    (usedSems_nodup d L) (usedSems_own d L)
  change _ = (usedSems d L).foldr _ (restSems d L) at h
  refine h.trans ?_
  simp only [usedSems, usedDmaSems, List.map_cons, List.map_nil, List.foldr_cons, List.foldr_nil]

theorem pts_aPtab (q : PosShare TreeShare) (f : Buf (Elt F) ((aPtab).view.loc (thr1 d L))) :
    ((aPtab).view.loc (thr1 d L) ↦{q} f : sProp 𝕄) = (locOf d main_v23 ↦{q} f) := rfl
theorem pts_aVt (q : PosShare TreeShare) (f : Buf (Elt F) ((aVt).view.loc (thr1 d L))) :
    ((aVt).view.loc (thr1 d L) ↦{q} f : sProp 𝕄) = (locOf d main_v10 ↦{q} f) := rfl
theorem pts_aInf (q : PosShare TreeShare) (f : Buf (Elt F) ((aInf).view.loc (thr1 d L))) :
    ((aInf).view.loc (thr1 d L) ↦{q} f : sProp 𝕄) = (locOf d main_v13 ↦{q} f) := rfl
theorem pts_aWt (q : PosShare TreeShare) (f : Buf (Elt F) ((aWt).view.loc (thr1 d L))) :
    ((aWt).view.loc (thr1 d L) ↦{q} f : sProp 𝕄) = (locOf d main_v16 ↦{q} f) := rfl
theorem pts_aOrn (q : PosShare TreeShare) (f : Buf (Elt F) ((aOrn).view.loc (thr1 d L))) :
    ((aOrn).view.loc (thr1 d L) ↦{q} f : sProp 𝕄) = (locOf d main_v18 ↦{q} f) := rfl
theorem pts_aMrep (q : PosShare TreeShare) (f : Buf (Elt F) ((aMrep).view.loc (thr1 d L))) :
    ((aMrep).view.loc (thr1 d L) ↦{q} f : sProp 𝕄) = (locOf d main_v22 ↦{q} f) := rfl

end Tile

end Cert.KI

end
-- ==== Proof.Body1Coord.lean ====
import proofs.«205348_g71287867179597_cont_9to1c4b_113_38_alg».proof.Proof.Body1Val
import proofs.«205348_g71287867179597_cont_9to1c4b_113_38_alg».proof.Proof.Body1Out

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F] [Facts]
open Facts₀ Facts

variable (m : (ℓ : Loc nD τ sig) → Buf (Elt F) ℓ)

local notation "𝕄" => MT nD τ sig (HIx 2) (Elt F) ℕ UU ℕ

theorem vt_slice_read (d : Dev nD) (o : Fin S159744.rank → ℕ) (hb : ∀ a, o a + S1664.size a ≤ S159744.size a) (j : Fin 1664) :
    ((aVt).slice (Rect.unit (s := S159744) o S1664.size hb) (fun _ => rfl)).view.read (Elt F) (tVt m d) (ValueIdx.ix1 j)
      = at1 (tVt m d) (k := o 0 + j.val) := by
  have hle : o 0 + 1664 ≤ 159744 := hb 0
  have hk : o 0 + j.val < 159744 := by have := j.isLt; omega
  have hemb : (Rect.unit (s := S159744) o S1664.size hb).emb (ValueIdx.ix1 j) = ValueIdx.ix1 ⟨o 0 + j.val, hk⟩ := by
    funext a
    obtain rfl : a = 0 := Subsingleton.elim _ _
    exact Fin.ext (by show o 0 + 1 * j.val = o 0 + j.val; omega)
  rw [at1_of_lt _ _ _ hk]
  show (tVt m d) ((Rect.unit (s := S159744) o S1664.size hb).emb (ValueIdx.ix1 j)) = _
  rw [hemb]

theorem wt_slice_read (d : Dev nD) (o : Fin S159744.rank → ℕ) (hb : ∀ a, o a + S1664.size a ≤ S159744.size a) (j : Fin 1664) :
    ((aWt).slice (Rect.unit (s := S159744) o S1664.size hb) (fun _ => rfl)).view.read (Elt F) (tWt m d) (ValueIdx.ix1 j)
      = at1 (tWt m d) (k := o 0 + j.val) := by
  have hle : o 0 + 1664 ≤ 159744 := hb 0
  have hk : o 0 + j.val < 159744 := by have := j.isLt; omega
  have hemb : (Rect.unit (s := S159744) o S1664.size hb).emb (ValueIdx.ix1 j) = ValueIdx.ix1 ⟨o 0 + j.val, hk⟩ := by
    funext a
    obtain rfl : a = 0 := Subsingleton.elim _ _
    exact Fin.ext (by show o 0 + 1 * j.val = o 0 + j.val; omega)
  rw [at1_of_lt _ _ _ hk]
  show (tWt m d) ((Rect.unit (s := S159744) o S1664.size hb).emb (ValueIdx.ix1 j)) = _
  rw [hemb]

section Tile

variable (d : Dev nD) (L : grid1.Coords)

omit [FloatOps F] in
theorem off1_val : k1_off1 L 0 = (wL L).val * 1664 := by
  have hw := wL_val L
  refine (congrFun (Gen.k1_off1_eq L) 0).trans ?_
  show 3328 * (L 1).val + 1664 * (L 0).val = (wL L).val * 1664
  omega

omit [FloatOps F] in
theorem off2_val (k : Fin 3) : k1_off2 L (BitVec.ofNat 32 (53248 * k.val)) 0 = k.val * 53248 + (wL L).val * 1664 := by
  have hw := wL_val L
  refine (congrFun (Gen.k1_off2_eq L k) 0).trans ?_
  show 53248 * k.val + 3328 * (L 1).val + 1664 * (L 0).val = k.val * 53248 + (wL L).val * 1664
  omega

theorem sliceAt_wt (k : Fin 3) (f5 : Buf (Elt F) ((sWt).view.loc (thr1 d L))) (pW : S1664.Idx → Elt F .f32)
    (hW : pW = ((aWt).slice (Rect.unit (s := S159744) (k1_off2 L (BitVec.ofNat 32 (53248 * k.val))) S1664.size (Gen.k1_off2_inb L k)) (fun _ => rfl)).view.read (Elt F) (tWt m d)) :
    SliceAt (fun q => at1 (tWt m d) (k := q)) (k.val * 53248 + (wL L).val * 1664) (View.write (Elt F) (sWt).view f5 pW Finset.univ) := by
  subst hW
  rw [View.write_whole_univ]
  intro j
  rw [wt_slice_read, off2_val]

theorem coordsOK_of (k : Fin 3) (f2 : Buf (Elt F) ((sVx).view.loc (thr1 d L))) (f3 : Buf (Elt F) ((sVy).view.loc (thr1 d L)))
    (f4 : Buf (Elt F) ((sVz).view.loc (thr1 d L))) (f5 : Buf (Elt F) ((sWt).view.loc (thr1 d L)))
    (pX pY pZ pW : S1664.Idx → Elt F .f32)
    (hX : pX = ((aVt).slice (Rect.unit (s := S159744) (k1_off1 L) S1664.size (Gen.k1_off1_inb L)) (fun _ => rfl)).view.read (Elt F) (tVt m d))
    (hY : pY = ((aVt).slice (Rect.unit (s := S159744) (k1_off2 L (BitVec.ofNat 32 (53248 * 1))) S1664.size (Gen.k1_off2_inb L 1)) (fun _ => rfl)).view.read (Elt F) (tVt m d))
    (hZ : pZ = ((aVt).slice (Rect.unit (s := S159744) (k1_off2 L (BitVec.ofNat 32 (53248 * 2))) S1664.size (Gen.k1_off2_inb L 2)) (fun _ => rfl)).view.read (Elt F) (tVt m d))
    (hW : pW = ((aWt).slice (Rect.unit (s := S159744) (k1_off2 L (BitVec.ofNat 32 (53248 * k.val))) S1664.size (Gen.k1_off2_inb L k)) (fun _ => rfl)).view.read (Elt F) (tWt m d)) :
    CoordsOK m d L k.val (View.write (Elt F) (sVx).view f2 pX Finset.univ) (View.write (Elt F) (sVy).view f3 pY Finset.univ)
      (View.write (Elt F) (sVz).view f4 pZ Finset.univ) (View.write (Elt F) (sWt).view f5 pW Finset.univ) := by
  subst hX hY hZ
  refine ⟨?_, ?_, ?_, sliceAt_wt m d L k f5 pW hW⟩
  · rw [View.write_whole_univ]
    intro j
    rw [vt_slice_read, off1_val]
  · rw [View.write_whole_univ]
    intro j
    rw [vt_slice_read]
    have e := off2_val L 1
    show at1 (tVt m d) (k := k1_off2 L (BitVec.ofNat 32 (53248 * (1 : Fin 3).val)) 0 + j.val) = _
    rw [e]
    rfl
  · rw [View.write_whole_univ]
    intro j
    rw [vt_slice_read]
    have e := off2_val L 2
    show at1 (tVt m d) (k := k1_off2 L (BitVec.ofNat 32 (53248 * (2 : Fin 3).val)) 0 + j.val) = _
    rw [e]
    rfl

theorem coordsOK_next (k : Fin 3) {k₀ : ℕ} {X Y Z W₀ : S1664.Idx → Elt F .f32} (h : CoordsOK m d L k₀ X Y Z W₀)
    (f5 : Buf (Elt F) ((sWt).view.loc (thr1 d L))) (pW : S1664.Idx → Elt F .f32)
    (hW : pW = ((aWt).slice (Rect.unit (s := S159744) (k1_off2 L (BitVec.ofNat 32 (53248 * k.val))) S1664.size (Gen.k1_off2_inb L k)) (fun _ => rfl)).view.read (Elt F) (tWt m d)) :
    CoordsOK m d L k.val X Y Z (View.write (Elt F) (sWt).view f5 pW Finset.univ) :=
  ⟨h.1, h.2.1, h.2.2.1, sliceAt_wt m d L k f5 pW hW⟩

end Tile

end Cert.KI

end
-- ==== Proof.Body1Edges.lean ====
import proofs.«205348_g71287867179597_cont_9to1c4b_113_38_alg».proof.Proof.Body1Ifc

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Tactic

variable {F : FTy → Type} [FloatOps F] [Facts]
open Facts₀ Facts

variable (m : (ℓ : Loc nD τ sig) → Buf (Elt F) ℓ)

local notation "𝕄" => MT nD τ sig (HIx 2) (Elt F) ℕ UU ℕ

local macro:max "k1at% " f:term:max L:term:max : term =>
  `($f $L aPtab (Memref.isWhole_whole _) aVt (Memref.isWhole_whole _) aInf (Memref.isWhole_whole _) aWt (Memref.isWhole_whole _)
      aOrn (Memref.isWhole_whole _) aMrep (Memref.isWhole_whole _) aOut0 (Memref.isWhole_whole _) aOut1 (Memref.isWhole_whole _)
      sGv (Memref.isWhole_whole _) sGb (Memref.isWhole_whole _) sVx (Memref.isWhole_whole _) sVy (Memref.isWhole_whole _)
      sVz (Memref.isWhole_whole _) sWt (Memref.isWhole_whole _) sRv (Memref.isWhole_whole _) sRb (Memref.isWhole_whole _)
      sRc (Memref.isWhole_whole _) sOut (Memref.isWhole_whole _) sStg (Memref.isWhole_whole _) sAcc (Memref.isWhole_whole _)
      cc1_scratch12 cc1_scratch13 cc1_scoped0 cc1_scoped1 cc1_scoped2 cc1_scoped3 cc1_scoped4 cc1_scoped5 cc1_scoped6 cc1_scoped7
      cc1_scoped8 cc1_scoped9 cc1_scoped10 cc1_scoped11 cc1_scoped12 cc1_scoped13 cc1_scoped14 cc1_scoped15 cc1_scoped16
      cc1_scoped17 cc1_scoped18 cc1_scoped19 cc1_scoped20)

section Tile

variable (d : Dev nD) (L : grid1.Coords)

def ePos (w : Fin 32) (si : ℕ) : ℕ := w.val * 7168 + 1024 * si
def eRow (w : Fin 32) (si : ℕ) : ℕ := min (ePos w si / 9 / 8 * 8) 24992

omit [Facts] in
theorem off20_eq' (L : grid1.Coords) (k : Fin k1_t13_loop.trips) : k1_off20 L k = ![ePos (wL L) k.val] := by
  revert L k; decide +kernel
omit [Facts] in
theorem off21_eq' (L : grid1.Coords) (k : Fin k1_t13_loop.trips) : k1_off21 L k = ![eRow (wL L) k.val, 0] := by
  revert L k; decide +kernel
omit [Facts] in
theorem mult1_toNat (L : grid1.Coords) (k : Fin k1_t13_loop.trips) : (k1_mult1 L k).toNat = eRow (wL L) k.val := by
  revert L k; decide +kernel
omit [Facts] in
theorem off22_eq' (L : grid1.Coords) (k : Fin k1_t13_loop.trips) (j : Fin k1_t14_loop.trips) : k1_off22 L k j = ![ePos (wL L) k.val + 256 * j.val] := by
  rw [k1_off22_eq]; revert L k j; decide +kernel
omit [Facts] in
theorem off23_eq' (L : grid1.Coords) (k : Fin k1_t13_loop.trips) (j : Fin k1_t14_loop.trips) : k1_off23 L k j = ![ePos (wL L) k.val + 256 * j.val + 128] := by
  rw [k1_off23_eq]; revert L k j; decide +kernel

theorem src_in_window (w : Fin 32) (si q : ℕ) (hsi : si < 7) (hq : q < 1024) :
    eRow w si ≤ min ((ePos w si + q) / 9) 24999 ∧ min ((ePos w si + q) / 9) 24999 < eRow w si + 128 := by
  unfold eRow ePos; omega

def StgOK (w : Fin 32) (k : ℕ) (X : S1024.Idx → Elt F .i32) : Prop :=
  ∀ q : Fin 1024, (X (ValueIdx.ix1 q) : BitVec 32).toNat = srcId m d (ePos w k + q.val)

omit [FloatOps F] [Facts] in
theorem chk2 (a : IVec S16 32) (c : BitVec 32) (ha : ∀ x, (a x).toNat < 128) (hc : c.toNat < 128) :
    ∀ a' x, ((![a, broadcast S16 c] : Fin 2 → IVec S16 32) a' x).toNat < S128x128.size a' := by
  intro a' x
  match a' with
  | ⟨0, _⟩ => exact ha x
  | ⟨1, _⟩ => exact hc

theorem loadIdx_at (R : S128x128.Idx → Elt F .f32) (a : IVec S16 32) (c : BitVec 32)
    (h : ∀ a' x, ((![a, broadcast S16 c] : Fin 2 → IVec S16 32) a' x).toNat < S128x128.size a') (x : S16.Idx) :
    loadIdx R ![a, broadcast S16 c] h x = R (ValueIdx.ix2 ⟨(a x).toNat, h 0 x⟩ ⟨c.toNat, h 1 x⟩) := by
  unfold loadIdx idxAt
  congr 1
  funext a'
  match a' with
  | ⟨0, _⟩ => rfl
  | ⟨1, _⟩ => rfl

theorem load_rows (ids : ℕ → ℕ) (p : ℕ) (R : S128x128.Idx → Elt F .f32) (hR : RowsAt m d ids p R) (a : IVec S16 32) (c : BitVec 32)
    (h : ∀ a' x, ((![a, broadcast S16 c] : Fin 2 → IVec S16 32) a' x).toNat < S128x128.size a') (hc : c.toNat < 15)
    (ids' : ℕ → ℕ) (p' : ℕ) (ha : ∀ x : S16.Idx, ids (p + (a x).toNat) = ids' (p' + (x 0).val)) :
    loadIdx R ![a, broadcast S16 c] h = rowVec m d ids' p' c.toNat := by
  funext x
  rw [loadIdx_at, hR _ _ hc]
  show nodeWord m d (ids (p + (a x).toNat)) c.toNat = nodeWord m d (ids' (p' + (x 0).val)) c.toNat
  rw [ha x]

omit [FloatOps F] in
theorem pay97_toNat (g : Fin k1_t15_loop.trips) (x : S16.Idx) : (k1_pay97 bv2 0#32 1#32 g x).toNat = 16 * g.val + (x 0).val := by
  have h : ∀ (g : Fin k1_t15_loop.trips) (x : S16.Idx),
      (k1_pay97 (iota .scVector S16 32 [0] (by decide)) 0#32 1#32 g x).toNat = 16 * g.val + (x 0).val := by decide +kernel
  exact h g x
omit [FloatOps F] in
theorem pay104_toNat (g : Fin k1_t16_loop.trips) (x : S16.Idx) : (k1_pay104 bv2 0#32 1#32 g x).toNat = 16 * g.val + (x 0).val := by
  have h : ∀ (g : Fin k1_t16_loop.trips) (x : S16.Idx),
      (k1_pay104 (iota .scVector S16 32 [0] (by decide)) 0#32 1#32 g x).toNat = 16 * g.val + (x 0).val := by decide +kernel
  exact h g x

theorem src_lane (hRg : RangesOK m) (k : Fin k1_t13_loop.trips) (v77 : BitVec 32) (hv77 : v77.toNat = eRow (wL L) k.val)
    (Fst : Buf (Elt F) ((sStg).view.loc (thr1 d L))) (hst : StgOK m d (wL L) k.val Fst)
    (off : Fin 1 → ℕ) (inb : ∀ a, off a + S16.size a ≤ S1024.size a) (x : S16.Idx) :
    ((subi (sStg.view.readAt (Elt F) (Rect.unit (s := S1024) off S16.size inb).toLoadRect Fst) (broadcast S16 v77) : IVec S16 32) x).toNat < 128
    ∧ eRow (wL L) k.val + ((subi (sStg.view.readAt (Elt F) (Rect.unit (s := S1024) off S16.size inb).toLoadRect Fst) (broadcast S16 v77) : IVec S16 32) x).toNat
        = srcId m d (ePos (wL L) k.val + (off 0 + (x 0).val)) := by
  have hx : (x 0).val < 16 := (x 0).isLt
  have hi : off 0 + 16 ≤ 1024 := inb 0
  have hk : k.val < 7 := Nat.lt_of_lt_of_le k.isLt (by decide)
  have hw : (wL L).val < 32 := (wL L).isLt
  have hread : ((sStg.view.readAt (Elt F) (Rect.unit (s := S1024) off S16.size inb).toLoadRect Fst x : Elt F .i32) : BitVec 32).toNat
      = srcId m d (ePos (wL L) k.val + (off 0 + (x 0).val)) := by
    have hidx : (Rect.unit (s := S1024) off S16.size inb).toLoadRect.idx x = ValueIdx.ix1 ⟨off 0 + (x 0).val, by omega⟩ := by
      funext a'; apply Fin.ext; rw [Subsingleton.elim a' 0]
      show off 0 + 1 * (x 0).val = off 0 + (x 0).val; omega
    show ((Fst ((Rect.unit (s := S1024) off S16.size inb).toLoadRect.idx x) : Elt F .i32) : BitVec 32).toNat = _
    rw [hidx]; exact hst ⟨off 0 + (x 0).val, by omega⟩
  have hs := (hRg d).2.2.2 (ePos (wL L) k.val + (off 0 + (x 0).val)) (by unfold ePos; omega)
  have hwin := src_in_window (wL L) k.val (off 0 + (x 0).val) hk (by omega)
  rw [← hs] at hwin
  have hle : (broadcast S16 v77 x : BitVec 32) ≤ (sStg.view.readAt (Elt F) (Rect.unit (s := S1024) off S16.size inb).toLoadRect Fst x : BitVec 32) := by
    rw [BitVec.le_def]; show v77.toNat ≤ _; rw [hread, hv77]; exact hwin.1
  have hsub : ((subi (sStg.view.readAt (Elt F) (Rect.unit (s := S1024) off S16.size inb).toLoadRect Fst) (broadcast S16 v77) : IVec S16 32) x).toNat
      = (sStg.view.readAt (Elt F) (Rect.unit (s := S1024) off S16.size inb).toLoadRect Fst x : BitVec 32).toNat - v77.toNat :=
    BitVec.toNat_sub_of_le hle
  rw [hsub, hread, hv77]; omega

theorem wp_assume_ret {α : Type} {Q : α → sProp 𝕄} (thr : Thread nD τ) {P : Prop} {dc : Decidable P}
    {kk : PLift P → Prog (TpuEff nD τ sig (Elt F) Λ₀ thr.2) α} (h : P) :
    wp (M := 𝕄) frame (wpE (defs₀ (F := F)) 𝒱₀ thr none) Set.univ (kk ⟨h⟩) Q
      ⊢ wp frame (wpE (defs₀ (F := F)) 𝒱₀ thr none) Set.univ (Prog.op (TpuEff.assume P dc) fun x => (Prog.ret x).bind kk) Q :=
  wp_assume 𝒱₀ thr none Set.univ h

theorem wp_rows_c {α : Type} {Q : α → sProp 𝕄} (ids : ℕ → ℕ) (p : ℕ) (R : Buf (Elt F) ((sRc).view.loc (thr1 d L))) (hR : RowsAt m d ids p R)
    (ids' : ℕ → ℕ) (p' : ℕ) (a : IVec S16 32) (ha : ∀ x : S16.Idx, ids (p + (a x).toNat) = ids' (p' + (x 0).val))
    (c : BitVec 32) (hc : c.toNat < 15)
    (h : ∀ a' x, ((![a, broadcast S16 c] : Fin 2 → IVec S16 32) a' x).toNat < S128x128.size a') (hl : (sRc).view.Loads)
    (K : Vec F S16 .f32 → Prog (TpuEff nD τ sig (Elt F) Λ₀ (thr1 d L).2) α) :
    (((sRc).access (.whole S128x128)).loc (thr1 d L) ↦{fullShare} R)
      ⊢ iprop(((((sRc).access (.whole S128x128)).loc (thr1 d L) ↦{fullShare} R)
            -∗ wp frame (wpE (defs₀ (F := F)) 𝒱₀ (thr1 d L) none) Set.univ (K (rowVec m d ids' p' c.toNat)) Q)
          -∗ wp frame (wpE (defs₀ (F := F)) 𝒱₀ (thr1 d L) none) Set.univ (SparseCore.vectorLoadIdx sRc ![a, broadcast S16 c] h hl >>= K) Q) := by
  have e : loadIdx (((sRc).access (.whole S128x128)).read (Elt F) R) ![a, broadcast S16 c] h = rowVec m d ids' p' c.toNat := by
    have hr : ((sRc).access (.whole S128x128)).read (Elt F) R = R := Memref.read_access_whole (Elt F) cc1_scratch8 R
    rw [hr]; exact load_rows m d ids p R hR a c h hc ids' p' ha
  rw [← e]
  exact SparseCore.wp_vectorLoadIdx 𝒱₀ (thr1 d L) none Set.univ (base := sRc) (S := Finset.univ) (q := fullShare) (Finset.subset_univ _)

theorem wp_rows_v {α : Type} {Q : α → sProp 𝕄} (ids : ℕ → ℕ) (p : ℕ) (R : Buf (Elt F) ((sRv).view.loc (thr1 d L))) (hR : RowsAt m d ids p R)
    (ids' : ℕ → ℕ) (p' : ℕ) (a : IVec S16 32) (ha : ∀ x : S16.Idx, ids (p + (a x).toNat) = ids' (p' + (x 0).val))
    (c : BitVec 32) (hc : c.toNat < 15)
    (h : ∀ a' x, ((![a, broadcast S16 c] : Fin 2 → IVec S16 32) a' x).toNat < S128x128.size a') (hl : (sRv).view.Loads)
    (K : Vec F S16 .f32 → Prog (TpuEff nD τ sig (Elt F) Λ₀ (thr1 d L).2) α) :
    (((sRv).access (.whole S128x128)).loc (thr1 d L) ↦{fullShare} R)
      ⊢ iprop(((((sRv).access (.whole S128x128)).loc (thr1 d L) ↦{fullShare} R)
            -∗ wp frame (wpE (defs₀ (F := F)) 𝒱₀ (thr1 d L) none) Set.univ (K (rowVec m d ids' p' c.toNat)) Q)
          -∗ wp frame (wpE (defs₀ (F := F)) 𝒱₀ (thr1 d L) none) Set.univ (SparseCore.vectorLoadIdx sRv ![a, broadcast S16 c] h hl >>= K) Q) := by
  have e : loadIdx (((sRv).access (.whole S128x128)).read (Elt F) R) ![a, broadcast S16 c] h = rowVec m d ids' p' c.toNat := by
    have hr : ((sRv).access (.whole S128x128)).read (Elt F) R = R := Memref.read_access_whole (Elt F) cc1_scratch6 R
    rw [hr]; exact load_rows m d ids p R hR a c h hc ids' p' ha
  rw [← e]
  exact SparseCore.wp_vectorLoadIdx 𝒱₀ (thr1 d L) none Set.univ (base := sRv) (S := Finset.univ) (q := fullShare) (Finset.subset_univ _)

theorem wp_rows_b {α : Type} {Q : α → sProp 𝕄} (ids : ℕ → ℕ) (p : ℕ) (R : Buf (Elt F) ((sRb).view.loc (thr1 d L))) (hR : RowsAt m d ids p R)
    (ids' : ℕ → ℕ) (p' : ℕ) (a : IVec S16 32) (ha : ∀ x : S16.Idx, ids (p + (a x).toNat) = ids' (p' + (x 0).val))
    (c : BitVec 32) (hc : c.toNat < 15)
    (h : ∀ a' x, ((![a, broadcast S16 c] : Fin 2 → IVec S16 32) a' x).toNat < S128x128.size a') (hl : (sRb).view.Loads)
    (K : Vec F S16 .f32 → Prog (TpuEff nD τ sig (Elt F) Λ₀ (thr1 d L).2) α) :
    (((sRb).access (.whole S128x128)).loc (thr1 d L) ↦{fullShare} R)
      ⊢ iprop(((((sRb).access (.whole S128x128)).loc (thr1 d L) ↦{fullShare} R)
            -∗ wp frame (wpE (defs₀ (F := F)) 𝒱₀ (thr1 d L) none) Set.univ (K (rowVec m d ids' p' c.toNat)) Q)
          -∗ wp frame (wpE (defs₀ (F := F)) 𝒱₀ (thr1 d L) none) Set.univ (SparseCore.vectorLoadIdx sRb ![a, broadcast S16 c] h hl >>= K) Q) := by
  have e : loadIdx (((sRb).access (.whole S128x128)).read (Elt F) R) ![a, broadcast S16 c] h = rowVec m d ids' p' c.toNat := by
    have hr : ((sRb).access (.whole S128x128)).read (Elt F) R = R := Memref.read_access_whole (Elt F) cc1_scratch7 R
    rw [hr]; exact load_rows m d ids p R hR a c h hc ids' p' ha
  rw [← e]
  exact SparseCore.wp_vectorLoadIdx 𝒱₀ (thr1 d L) none Set.univ (base := sRb) (S := Finset.univ) (q := fullShare) (Finset.subset_univ _)

local macro "ld0 " H:ident h:term:max lem:term:max thr:term:max : tactic => `(tactic| (
  iapply (wp_assume 𝒱₀ $thr none Set.univ (chk2 _ _ $h (by decide)))
  sl_whnfR []
  iapply ($lem) $$ $H:ident
  iintro $H:ident
  sl_whnfR []))
local macro "ld " H:ident h:term:max lem:term:max thr:term:max : tactic => `(tactic| (
  iapply (wp_assume_ret $thr (chk2 _ _ $h (by decide)))
  sl_whnfR []
  iapply ($lem) $$ $H:ident
  iintro $H:ident
  sl_whnfR []))
local macro "ldL " H:ident h:term:max lem:term:max thr:term:max : tactic => `(tactic| (
  iapply (wp_assume_ret $thr (chk2 _ _ $h (by decide)))
  sl_whnfR []
  iapply ($lem) $$ $H:ident
  iintro $H:ident))

def inv15 (n0 : ℕ) (Fst : Buf (Elt F) ((sStg).view.loc (thr1 d L))) (Fwin : Buf (Elt F) ((sRc).view.loc (thr1 d L))) (Frv : Buf (Elt F) ((sRv).view.loc (thr1 d L)))
    (g : ℕ) (acc : FVec F S16 .f32 × FVec F S16 .f32) : sProp 𝕄 :=
  iprop(⌜acc = lossAcc m d (wL L) (n0 + g)⌝
    ∗ ((sStg).view.loc (thr1 d L) ↦{fullShare} Fst) ∗ ((sRc).view.loc (thr1 d L) ↦{fullShare} Fwin) ∗ ((sRv).view.loc (thr1 d L) ↦{fullShare} Frv))
def inv16 (n0 : ℕ) (Fst : Buf (Elt F) ((sStg).view.loc (thr1 d L))) (Fwin : Buf (Elt F) ((sRc).view.loc (thr1 d L))) (Frb : Buf (Elt F) ((sRb).view.loc (thr1 d L)))
    (g : ℕ) (acc : FVec F S16 .f32 × FVec F S16 .f32) : sProp 𝕄 :=
  iprop(⌜acc = lossAcc m d (wL L) (n0 + g)⌝
    ∗ ((sStg).view.loc (thr1 d L) ↦{fullShare} Fst) ∗ ((sRc).view.loc (thr1 d L) ↦{fullShare} Fwin) ∗ ((sRb).view.loc (thr1 d L) ↦{fullShare} Frb))

set_option maxHeartbeats 16000000 in
theorem t15_trip (hRg : RangesOK m) (k : Fin k1_t13_loop.trips) (j : Fin k1_t14_loop.trips) (v77 v80 : BitVec 32) (hv77 : v77.toNat = eRow (wL L) k.val)
    (Fst : Buf (Elt F) ((sStg).view.loc (thr1 d L))) (Fwin : Buf (Elt F) ((sRc).view.loc (thr1 d L))) (Frv : Buf (Elt F) ((sRv).view.loc (thr1 d L)))
    (hst : StgOK m d (wL L) k.val Fst) (hwin : RowsAt m d id (eRow (wL L) k.val) Fwin)
    (hrv : RowsAt m d (tgtId m d) (ePos (wL L) k.val + 256 * j.val) Frv)
    (g : Fin k1_t15_loop.trips) (acc : FVec F S16 .f32 × FVec F S16 .f32) (hacc : acc = lossAcc m d (wL L) (64 * k.val + 16 * j.val + g.val)) :
    iprop(((sStg).view.loc (thr1 d L) ↦{fullShare} Fst) ∗ ((sRc).view.loc (thr1 d L) ↦{fullShare} Fwin) ∗ ((sRv).view.loc (thr1 d L) ↦{fullShare} Frv))
      ⊢ (wp frame (wpE (defs₀ (F := F)) 𝒱₀ (thr1 d L) none) Set.univ
          ((k1at% k1_t15_body L) (bv1 L) bv2 k1_pay111 (bv5 L) v77 j v80 g acc)
          (inv15 m d L (64 * k.val + 16 * j.val) Fst Fwin Frv (g.val + 1)) : sProp 𝕄) := by
  unfold k1_t15_body inv15
  iintro ⟨Hst, Hrc, Hrv⟩
  sl_exec
  have hg : g.val < 8 := Nat.lt_of_lt_of_le g.isLt (by decide)
  have hj : j.val < 4 := Nat.lt_of_lt_of_le j.isLt (by decide)
  have h0 : k1_off24 j g 0 = 256 * j.val + 16 * g.val := by rw [k1_off24_eq]; rfl
  have hrow : ∀ x, (k1_pay97 bv2 0#32 1#32 g x).toNat < 128 := by
    intro x; rw [pay97_toNat]; have hx : (x 0).val < 16 := (x 0).isLt; omega
  have hta : ∀ x : S16.Idx, tgtId m d (ePos (wL L) k.val + 256 * j.val + (k1_pay97 bv2 0#32 1#32 g x).toNat) = tgtId m d (ePos (wL L) k.val + 256 * j.val + 16 * g.val + (x 0).val) := by
    intro x; rw [pay97_toNat]; congr 1; omega
  have hsl := src_lane m d L hRg k v77 hv77 Fst hst (k1_off24 j g) (Facts₀.k1_off24_inb j g)
  have hml : ∀ x, (t15_trip.sl.v104 d L j v77 Fst g x).toNat < 128 := fun x => (hsl x).1
  have hsa : ∀ x : S16.Idx, id (eRow (wL L) k.val + (t15_trip.sl.v104 d L j v77 Fst g x).toNat) = srcId m d (ePos (wL L) k.val + 256 * j.val + 16 * g.val + (x 0).val) := by
    intro x
    have h2 : eRow (wL L) k.val + (t15_trip.sl.v104 d L j v77 Fst g x).toNat = srcId m d (ePos (wL L) k.val + (k1_off24 j g 0 + (x 0).val)) := (hsl x).2
    rw [h0] at h2
    show eRow (wL L) k.val + _ = _
    rw [h2]; congr 1; omega
  ihave Hrc := (Entails.of_eq (show ((sRc).view.loc (thr1 d L) ↦{fullShare} Fwin : sProp 𝕄) = ((sRc.access (.whole S128x128)).loc (thr1 d L) ↦{fullShare} Fwin) from rfl)) $$ Hrc
  ihave Hrv := (Entails.of_eq (show ((sRv).view.loc (thr1 d L) ↦{fullShare} Frv : sProp 𝕄) = ((sRv.access (.whole S128x128)).loc (thr1 d L) ↦{fullShare} Frv) from rfl)) $$ Hrv
  ld0 Hrc hml (wp_rows_c m d L id (eRow (wL L) k.val) Fwin hwin (srcId m d) (ePos (wL L) k.val + 256 * j.val + 16 * g.val) _ hsa _ (by decide) _ _ _) (thr1 d L)
  ld Hrc hml (wp_rows_c m d L id (eRow (wL L) k.val) Fwin hwin (srcId m d) (ePos (wL L) k.val + 256 * j.val + 16 * g.val) _ hsa _ (by decide) _ _ _) (thr1 d L)
  ld Hrc hml (wp_rows_c m d L id (eRow (wL L) k.val) Fwin hwin (srcId m d) (ePos (wL L) k.val + 256 * j.val + 16 * g.val) _ hsa _ (by decide) _ _ _) (thr1 d L)
  ld Hrc hml (wp_rows_c m d L id (eRow (wL L) k.val) Fwin hwin (srcId m d) (ePos (wL L) k.val + 256 * j.val + 16 * g.val) _ hsa _ (by decide) _ _ _) (thr1 d L)
  ld Hrc hml (wp_rows_c m d L id (eRow (wL L) k.val) Fwin hwin (srcId m d) (ePos (wL L) k.val + 256 * j.val + 16 * g.val) _ hsa _ (by decide) _ _ _) (thr1 d L)
  ld Hrc hml (wp_rows_c m d L id (eRow (wL L) k.val) Fwin hwin (srcId m d) (ePos (wL L) k.val + 256 * j.val + 16 * g.val) _ hsa _ (by decide) _ _ _) (thr1 d L)
  ld Hrc hml (wp_rows_c m d L id (eRow (wL L) k.val) Fwin hwin (srcId m d) (ePos (wL L) k.val + 256 * j.val + 16 * g.val) _ hsa _ (by decide) _ _ _) (thr1 d L)
  ld Hrc hml (wp_rows_c m d L id (eRow (wL L) k.val) Fwin hwin (srcId m d) (ePos (wL L) k.val + 256 * j.val + 16 * g.val) _ hsa _ (by decide) _ _ _) (thr1 d L)
  ld Hrc hml (wp_rows_c m d L id (eRow (wL L) k.val) Fwin hwin (srcId m d) (ePos (wL L) k.val + 256 * j.val + 16 * g.val) _ hsa _ (by decide) _ _ _) (thr1 d L)
  ld Hrc hml (wp_rows_c m d L id (eRow (wL L) k.val) Fwin hwin (srcId m d) (ePos (wL L) k.val + 256 * j.val + 16 * g.val) _ hsa _ (by decide) _ _ _) (thr1 d L)
  ld Hrc hml (wp_rows_c m d L id (eRow (wL L) k.val) Fwin hwin (srcId m d) (ePos (wL L) k.val + 256 * j.val + 16 * g.val) _ hsa _ (by decide) _ _ _) (thr1 d L)
  sl_exec
  ld0 Hrc hml (wp_rows_c m d L id (eRow (wL L) k.val) Fwin hwin (srcId m d) (ePos (wL L) k.val + 256 * j.val + 16 * g.val) _ hsa _ (by decide) _ _ _) (thr1 d L)
  ld Hrc hml (wp_rows_c m d L id (eRow (wL L) k.val) Fwin hwin (srcId m d) (ePos (wL L) k.val + 256 * j.val + 16 * g.val) _ hsa _ (by decide) _ _ _) (thr1 d L)
  ld Hrc hml (wp_rows_c m d L id (eRow (wL L) k.val) Fwin hwin (srcId m d) (ePos (wL L) k.val + 256 * j.val + 16 * g.val) _ hsa _ (by decide) _ _ _) (thr1 d L)
  ld Hrc hml (wp_rows_c m d L id (eRow (wL L) k.val) Fwin hwin (srcId m d) (ePos (wL L) k.val + 256 * j.val + 16 * g.val) _ hsa _ (by decide) _ _ _) (thr1 d L)
  ld Hrv hrow (wp_rows_v m d L (tgtId m d) (ePos (wL L) k.val + 256 * j.val) Frv hrv (tgtId m d) (ePos (wL L) k.val + 256 * j.val + 16 * g.val) _ hta _ (by decide) _ _ _) (thr1 d L)
  ld Hrv hrow (wp_rows_v m d L (tgtId m d) (ePos (wL L) k.val + 256 * j.val) Frv hrv (tgtId m d) (ePos (wL L) k.val + 256 * j.val + 16 * g.val) _ hta _ (by decide) _ _ _) (thr1 d L)
  ld Hrv hrow (wp_rows_v m d L (tgtId m d) (ePos (wL L) k.val + 256 * j.val) Frv hrv (tgtId m d) (ePos (wL L) k.val + 256 * j.val + 16 * g.val) _ hta _ (by decide) _ _ _) (thr1 d L)
  ld Hrv hrow (wp_rows_v m d L (tgtId m d) (ePos (wL L) k.val + 256 * j.val) Frv hrv (tgtId m d) (ePos (wL L) k.val + 256 * j.val + 16 * g.val) _ hta _ (by decide) _ _ _) (thr1 d L)
  ld Hrv hrow (wp_rows_v m d L (tgtId m d) (ePos (wL L) k.val + 256 * j.val) Frv hrv (tgtId m d) (ePos (wL L) k.val + 256 * j.val + 16 * g.val) _ hta _ (by decide) _ _ _) (thr1 d L)
  ld Hrv hrow (wp_rows_v m d L (tgtId m d) (ePos (wL L) k.val + 256 * j.val) Frv hrv (tgtId m d) (ePos (wL L) k.val + 256 * j.val + 16 * g.val) _ hta _ (by decide) _ _ _) (thr1 d L)
  ld Hrv hrow (wp_rows_v m d L (tgtId m d) (ePos (wL L) k.val + 256 * j.val) Frv hrv (tgtId m d) (ePos (wL L) k.val + 256 * j.val + 16 * g.val) _ hta _ (by decide) _ _ _) (thr1 d L)
  ld Hrv hrow (wp_rows_v m d L (tgtId m d) (ePos (wL L) k.val + 256 * j.val) Frv hrv (tgtId m d) (ePos (wL L) k.val + 256 * j.val + 16 * g.val) _ hta _ (by decide) _ _ _) (thr1 d L)
  ld Hrv hrow (wp_rows_v m d L (tgtId m d) (ePos (wL L) k.val + 256 * j.val) Frv hrv (tgtId m d) (ePos (wL L) k.val + 256 * j.val + 16 * g.val) _ hta _ (by decide) _ _ _) (thr1 d L)
  ld Hrv hrow (wp_rows_v m d L (tgtId m d) (ePos (wL L) k.val + 256 * j.val) Frv hrv (tgtId m d) (ePos (wL L) k.val + 256 * j.val + 16 * g.val) _ hta _ (by decide) _ _ _) (thr1 d L)
  ld Hrv hrow (wp_rows_v m d L (tgtId m d) (ePos (wL L) k.val + 256 * j.val) Frv hrv (tgtId m d) (ePos (wL L) k.val + 256 * j.val + 16 * g.val) _ hta _ (by decide) _ _ _) (thr1 d L)
  sl_exec
  ld0 Hrv hrow (wp_rows_v m d L (tgtId m d) (ePos (wL L) k.val + 256 * j.val) Frv hrv (tgtId m d) (ePos (wL L) k.val + 256 * j.val + 16 * g.val) _ hta _ (by decide) _ _ _) (thr1 d L)
  ld Hrv hrow (wp_rows_v m d L (tgtId m d) (ePos (wL L) k.val + 256 * j.val) Frv hrv (tgtId m d) (ePos (wL L) k.val + 256 * j.val + 16 * g.val) _ hta _ (by decide) _ _ _) (thr1 d L)
  ld Hrv hrow (wp_rows_v m d L (tgtId m d) (ePos (wL L) k.val + 256 * j.val) Frv hrv (tgtId m d) (ePos (wL L) k.val + 256 * j.val + 16 * g.val) _ hta _ (by decide) _ _ _) (thr1 d L)
  ldL Hrv hrow (wp_rows_v m d L (tgtId m d) (ePos (wL L) k.val + 256 * j.val) Frv hrv (tgtId m d) (ePos (wL L) k.val + 256 * j.val + 16 * g.val) _ hta _ (by decide) _ _ _) (thr1 d L)
  sl_exec
  sl_step
  isplitr
  · ipureintro
    have hP : (wL L).val * 7168 + 16 * (64 * k.val + 16 * j.val + g.val) = ePos (wL L) k.val + 256 * j.val + 16 * g.val := by unfold ePos; omega
    rw [show 64 * k.val + 16 * j.val + (g.val + 1) = (64 * k.val + 16 * j.val + g.val) + 1 by omega]
    show _ = lossStep m d _ (lossAcc m d (wL L) _)
    rw [← hacc, hP]
    unfold lossStep
    sl_unfold_run_names
    rfl
  ihave Hrc := (Entails.of_eq (show ((sRc.access (.whole S128x128)).loc (thr1 d L) ↦{fullShare} Fwin : sProp 𝕄) = ((sRc).view.loc (thr1 d L) ↦{fullShare} Fwin) from rfl)) $$ Hrc
  ihave Hrv := (Entails.of_eq (show ((sRv.access (.whole S128x128)).loc (thr1 d L) ↦{fullShare} Frv : sProp 𝕄) = ((sRv).view.loc (thr1 d L) ↦{fullShare} Frv) from rfl)) $$ Hrv
  isplitl [Hst]; · iexact Hst
  isplitl [Hrc]; · iexact Hrc
  iexact Hrv

set_option maxHeartbeats 16000000 in
theorem t16_trip (hRg : RangesOK m) (k : Fin k1_t13_loop.trips) (j : Fin k1_t14_loop.trips) (v77 v80 : BitVec 32) (hv77 : v77.toNat = eRow (wL L) k.val)
    (Fst : Buf (Elt F) ((sStg).view.loc (thr1 d L))) (Fwin : Buf (Elt F) ((sRc).view.loc (thr1 d L))) (Frv : Buf (Elt F) ((sRb).view.loc (thr1 d L)))
    (hst : StgOK m d (wL L) k.val Fst) (hwin : RowsAt m d id (eRow (wL L) k.val) Fwin)
    (hrv : RowsAt m d (tgtId m d) (ePos (wL L) k.val + 256 * j.val + 128) Frv)
    (g : Fin k1_t16_loop.trips) (acc : FVec F S16 .f32 × FVec F S16 .f32) (hacc : acc = lossAcc m d (wL L) (64 * k.val + 16 * j.val + 8 + g.val)) :
    iprop(((sStg).view.loc (thr1 d L) ↦{fullShare} Fst) ∗ ((sRc).view.loc (thr1 d L) ↦{fullShare} Fwin) ∗ ((sRb).view.loc (thr1 d L) ↦{fullShare} Frv))
      ⊢ (wp frame (wpE (defs₀ (F := F)) 𝒱₀ (thr1 d L) none) Set.univ
          ((k1at% k1_t16_body L) (bv1 L) bv2 k1_pay111 (bv5 L) v77 j v80 g acc)
          (inv16 m d L (64 * k.val + 16 * j.val + 8) Fst Fwin Frv (g.val + 1)) : sProp 𝕄) := by
  unfold k1_t16_body inv16
  iintro ⟨Hst, Hrc, Hrv⟩
  sl_exec
  have hg : g.val < 8 := Nat.lt_of_lt_of_le g.isLt (by decide)
  have hj : j.val < 4 := Nat.lt_of_lt_of_le j.isLt (by decide)
  have h0 : k1_off25 j g 0 = 256 * j.val + 16 * g.val + 128 := by rw [k1_off25_eq]; rfl
  have hrow : ∀ x, (k1_pay104 bv2 0#32 1#32 g x).toNat < 128 := by
    intro x; rw [pay104_toNat]; have hx : (x 0).val < 16 := (x 0).isLt; omega
  have hta : ∀ x : S16.Idx, tgtId m d (ePos (wL L) k.val + 256 * j.val + 128 + (k1_pay104 bv2 0#32 1#32 g x).toNat) = tgtId m d (ePos (wL L) k.val + 256 * j.val + 128 + 16 * g.val + (x 0).val) := by
    intro x; rw [pay104_toNat]; congr 1; omega
  have hsl := src_lane m d L hRg k v77 hv77 Fst hst (k1_off25 j g) (Facts₀.k1_off25_inb j g)
  have hml : ∀ x, (t16_trip.sl.v104 d L j v77 Fst g x).toNat < 128 := fun x => (hsl x).1
  have hsa : ∀ x : S16.Idx, id (eRow (wL L) k.val + (t16_trip.sl.v104 d L j v77 Fst g x).toNat) = srcId m d (ePos (wL L) k.val + 256 * j.val + 128 + 16 * g.val + (x 0).val) := by
    intro x
    have h2 : eRow (wL L) k.val + (t16_trip.sl.v104 d L j v77 Fst g x).toNat = srcId m d (ePos (wL L) k.val + (k1_off25 j g 0 + (x 0).val)) := (hsl x).2
    rw [h0] at h2
    show eRow (wL L) k.val + _ = _
    rw [h2]; congr 1; omega
  ihave Hrc := (Entails.of_eq (show ((sRc).view.loc (thr1 d L) ↦{fullShare} Fwin : sProp 𝕄) = ((sRc.access (.whole S128x128)).loc (thr1 d L) ↦{fullShare} Fwin) from rfl)) $$ Hrc
  ihave Hrv := (Entails.of_eq (show ((sRb).view.loc (thr1 d L) ↦{fullShare} Frv : sProp 𝕄) = ((sRb.access (.whole S128x128)).loc (thr1 d L) ↦{fullShare} Frv) from rfl)) $$ Hrv
  ld0 Hrc hml (wp_rows_c m d L id (eRow (wL L) k.val) Fwin hwin (srcId m d) (ePos (wL L) k.val + 256 * j.val + 128 + 16 * g.val) _ hsa _ (by decide) _ _ _) (thr1 d L)
  ld Hrc hml (wp_rows_c m d L id (eRow (wL L) k.val) Fwin hwin (srcId m d) (ePos (wL L) k.val + 256 * j.val + 128 + 16 * g.val) _ hsa _ (by decide) _ _ _) (thr1 d L)
  ld Hrc hml (wp_rows_c m d L id (eRow (wL L) k.val) Fwin hwin (srcId m d) (ePos (wL L) k.val + 256 * j.val + 128 + 16 * g.val) _ hsa _ (by decide) _ _ _) (thr1 d L)
  ld Hrc hml (wp_rows_c m d L id (eRow (wL L) k.val) Fwin hwin (srcId m d) (ePos (wL L) k.val + 256 * j.val + 128 + 16 * g.val) _ hsa _ (by decide) _ _ _) (thr1 d L)
  ld Hrc hml (wp_rows_c m d L id (eRow (wL L) k.val) Fwin hwin (srcId m d) (ePos (wL L) k.val + 256 * j.val + 128 + 16 * g.val) _ hsa _ (by decide) _ _ _) (thr1 d L)
  ld Hrc hml (wp_rows_c m d L id (eRow (wL L) k.val) Fwin hwin (srcId m d) (ePos (wL L) k.val + 256 * j.val + 128 + 16 * g.val) _ hsa _ (by decide) _ _ _) (thr1 d L)
  ld Hrc hml (wp_rows_c m d L id (eRow (wL L) k.val) Fwin hwin (srcId m d) (ePos (wL L) k.val + 256 * j.val + 128 + 16 * g.val) _ hsa _ (by decide) _ _ _) (thr1 d L)
  ld Hrc hml (wp_rows_c m d L id (eRow (wL L) k.val) Fwin hwin (srcId m d) (ePos (wL L) k.val + 256 * j.val + 128 + 16 * g.val) _ hsa _ (by decide) _ _ _) (thr1 d L)
  ld Hrc hml (wp_rows_c m d L id (eRow (wL L) k.val) Fwin hwin (srcId m d) (ePos (wL L) k.val + 256 * j.val + 128 + 16 * g.val) _ hsa _ (by decide) _ _ _) (thr1 d L)
  ld Hrc hml (wp_rows_c m d L id (eRow (wL L) k.val) Fwin hwin (srcId m d) (ePos (wL L) k.val + 256 * j.val + 128 + 16 * g.val) _ hsa _ (by decide) _ _ _) (thr1 d L)
  ld Hrc hml (wp_rows_c m d L id (eRow (wL L) k.val) Fwin hwin (srcId m d) (ePos (wL L) k.val + 256 * j.val + 128 + 16 * g.val) _ hsa _ (by decide) _ _ _) (thr1 d L)
  sl_exec
  ld0 Hrc hml (wp_rows_c m d L id (eRow (wL L) k.val) Fwin hwin (srcId m d) (ePos (wL L) k.val + 256 * j.val + 128 + 16 * g.val) _ hsa _ (by decide) _ _ _) (thr1 d L)
  ld Hrc hml (wp_rows_c m d L id (eRow (wL L) k.val) Fwin hwin (srcId m d) (ePos (wL L) k.val + 256 * j.val + 128 + 16 * g.val) _ hsa _ (by decide) _ _ _) (thr1 d L)
  ld Hrc hml (wp_rows_c m d L id (eRow (wL L) k.val) Fwin hwin (srcId m d) (ePos (wL L) k.val + 256 * j.val + 128 + 16 * g.val) _ hsa _ (by decide) _ _ _) (thr1 d L)
  ld Hrc hml (wp_rows_c m d L id (eRow (wL L) k.val) Fwin hwin (srcId m d) (ePos (wL L) k.val + 256 * j.val + 128 + 16 * g.val) _ hsa _ (by decide) _ _ _) (thr1 d L)
  ld Hrv hrow (wp_rows_b m d L (tgtId m d) (ePos (wL L) k.val + 256 * j.val + 128) Frv hrv (tgtId m d) (ePos (wL L) k.val + 256 * j.val + 128 + 16 * g.val) _ hta _ (by decide) _ _ _) (thr1 d L)
  ld Hrv hrow (wp_rows_b m d L (tgtId m d) (ePos (wL L) k.val + 256 * j.val + 128) Frv hrv (tgtId m d) (ePos (wL L) k.val + 256 * j.val + 128 + 16 * g.val) _ hta _ (by decide) _ _ _) (thr1 d L)
  ld Hrv hrow (wp_rows_b m d L (tgtId m d) (ePos (wL L) k.val + 256 * j.val + 128) Frv hrv (tgtId m d) (ePos (wL L) k.val + 256 * j.val + 128 + 16 * g.val) _ hta _ (by decide) _ _ _) (thr1 d L)
  ld Hrv hrow (wp_rows_b m d L (tgtId m d) (ePos (wL L) k.val + 256 * j.val + 128) Frv hrv (tgtId m d) (ePos (wL L) k.val + 256 * j.val + 128 + 16 * g.val) _ hta _ (by decide) _ _ _) (thr1 d L)
  ld Hrv hrow (wp_rows_b m d L (tgtId m d) (ePos (wL L) k.val + 256 * j.val + 128) Frv hrv (tgtId m d) (ePos (wL L) k.val + 256 * j.val + 128 + 16 * g.val) _ hta _ (by decide) _ _ _) (thr1 d L)
  ld Hrv hrow (wp_rows_b m d L (tgtId m d) (ePos (wL L) k.val + 256 * j.val + 128) Frv hrv (tgtId m d) (ePos (wL L) k.val + 256 * j.val + 128 + 16 * g.val) _ hta _ (by decide) _ _ _) (thr1 d L)
  ld Hrv hrow (wp_rows_b m d L (tgtId m d) (ePos (wL L) k.val + 256 * j.val + 128) Frv hrv (tgtId m d) (ePos (wL L) k.val + 256 * j.val + 128 + 16 * g.val) _ hta _ (by decide) _ _ _) (thr1 d L)
  ld Hrv hrow (wp_rows_b m d L (tgtId m d) (ePos (wL L) k.val + 256 * j.val + 128) Frv hrv (tgtId m d) (ePos (wL L) k.val + 256 * j.val + 128 + 16 * g.val) _ hta _ (by decide) _ _ _) (thr1 d L)
  ld Hrv hrow (wp_rows_b m d L (tgtId m d) (ePos (wL L) k.val + 256 * j.val + 128) Frv hrv (tgtId m d) (ePos (wL L) k.val + 256 * j.val + 128 + 16 * g.val) _ hta _ (by decide) _ _ _) (thr1 d L)
  ld Hrv hrow (wp_rows_b m d L (tgtId m d) (ePos (wL L) k.val + 256 * j.val + 128) Frv hrv (tgtId m d) (ePos (wL L) k.val + 256 * j.val + 128 + 16 * g.val) _ hta _ (by decide) _ _ _) (thr1 d L)
  ld Hrv hrow (wp_rows_b m d L (tgtId m d) (ePos (wL L) k.val + 256 * j.val + 128) Frv hrv (tgtId m d) (ePos (wL L) k.val + 256 * j.val + 128 + 16 * g.val) _ hta _ (by decide) _ _ _) (thr1 d L)
  sl_exec
  ld0 Hrv hrow (wp_rows_b m d L (tgtId m d) (ePos (wL L) k.val + 256 * j.val + 128) Frv hrv (tgtId m d) (ePos (wL L) k.val + 256 * j.val + 128 + 16 * g.val) _ hta _ (by decide) _ _ _) (thr1 d L)
  ld Hrv hrow (wp_rows_b m d L (tgtId m d) (ePos (wL L) k.val + 256 * j.val + 128) Frv hrv (tgtId m d) (ePos (wL L) k.val + 256 * j.val + 128 + 16 * g.val) _ hta _ (by decide) _ _ _) (thr1 d L)
  ld Hrv hrow (wp_rows_b m d L (tgtId m d) (ePos (wL L) k.val + 256 * j.val + 128) Frv hrv (tgtId m d) (ePos (wL L) k.val + 256 * j.val + 128 + 16 * g.val) _ hta _ (by decide) _ _ _) (thr1 d L)
  ldL Hrv hrow (wp_rows_b m d L (tgtId m d) (ePos (wL L) k.val + 256 * j.val + 128) Frv hrv (tgtId m d) (ePos (wL L) k.val + 256 * j.val + 128 + 16 * g.val) _ hta _ (by decide) _ _ _) (thr1 d L)
  sl_exec
  sl_step
  isplitr
  · ipureintro
    have hP : (wL L).val * 7168 + 16 * (64 * k.val + 16 * j.val + 8 + g.val) = ePos (wL L) k.val + 256 * j.val + 128 + 16 * g.val := by unfold ePos; omega
    rw [show 64 * k.val + 16 * j.val + 8 + (g.val + 1) = (64 * k.val + 16 * j.val + 8 + g.val) + 1 by omega]
    show _ = lossStep m d _ (lossAcc m d (wL L) _)
    rw [← hacc, hP]
    unfold lossStep
    sl_unfold_run_names
    rfl
  ihave Hrc := (Entails.of_eq (show ((sRc.access (.whole S128x128)).loc (thr1 d L) ↦{fullShare} Fwin : sProp 𝕄) = ((sRc).view.loc (thr1 d L) ↦{fullShare} Fwin) from rfl)) $$ Hrc
  ihave Hrv := (Entails.of_eq (show ((sRb.access (.whole S128x128)).loc (thr1 d L) ↦{fullShare} Frv : sProp 𝕄) = ((sRb).view.loc (thr1 d L) ↦{fullShare} Frv) from rfl)) $$ Hrv
  isplitl [Hst]; · iexact Hst
  isplitl [Hrc]; · iexact Hrc
  iexact Hrv

theorem t15_wp' (hRg : RangesOK m) (k : Fin k1_t13_loop.trips) (j : Fin k1_t14_loop.trips) (v77 v80 : BitVec 32) (hv77 : v77.toNat = eRow (wL L) k.val)
    (Fst : Buf (Elt F) ((sStg).view.loc (thr1 d L))) (Fwin : Buf (Elt F) ((sRc).view.loc (thr1 d L))) (Frv : Buf (Elt F) ((sRv).view.loc (thr1 d L)))
    (hst : StgOK m d (wL L) k.val Fst) (hwin : RowsAt m d id (eRow (wL L) k.val) Fwin)
    (hrv : RowsAt m d (tgtId m d) (ePos (wL L) k.val + 256 * j.val) Frv)
    (init : FVec F S16 .f32 × FVec F S16 .f32) (hinit : init = lossAcc m d (wL L) (64 * k.val + 16 * j.val)) :
    iprop(((sStg).view.loc (thr1 d L) ↦{fullShare} Fst) ∗ ((sRc).view.loc (thr1 d L) ↦{fullShare} Fwin) ∗ ((sRv).view.loc (thr1 d L) ↦{fullShare} Frv))
      ⊢ (wp frame (wpE (defs₀ (F := F)) 𝒱₀ (thr1 d L) none) Set.univ
          (Scf.Loop.for k1_t15_loop Facts₀.k1_t15_ok init ((k1at% k1_t15_body L) (bv1 L) bv2 k1_pay111 (bv5 L) v77 j v80))
          fun acc => iprop(⌜acc = lossAcc m d (wL L) (64 * k.val + 16 * j.val + 8)⌝
            ∗ ((sStg).view.loc (thr1 d L) ↦{fullShare} Fst) ∗ ((sRc).view.loc (thr1 d L) ↦{fullShare} Fwin) ∗ ((sRv).view.loc (thr1 d L) ↦{fullShare} Frv)) : sProp 𝕄) := by
  iintro ⟨Hst, Hrc, Hrv⟩
  sl_for (inv15 m d L (64 * k.val + 16 * j.val) Fst Fwin Frv) $$ [Hst Hrc Hrv]
  case region =>
    intro g acc
    rw [show inv15 m d L (64 * k.val + 16 * j.val) Fst Fwin Frv g.val acc
        = iprop(⌜acc = lossAcc m d (wL L) (64 * k.val + 16 * j.val + g.val)⌝
            ∗ ((sStg).view.loc (thr1 d L) ↦{fullShare} Fst) ∗ ((sRc).view.loc (thr1 d L) ↦{fullShare} Fwin) ∗ ((sRv).view.loc (thr1 d L) ↦{fullShare} Frv)) from rfl]
    iintro ⟨%hacc, H⟩
    iapply (t15_trip m d L hRg k j v77 v80 hv77 Fst Fwin Frv hst hwin hrv g acc hacc)
    iexact H
  · unfold inv15
    isplitl [Hst Hrc Hrv]
    · isplitr
      · ipureintro; subst hinit; rfl
      isplitl [Hst]; · iexact Hst
      isplitl [Hrc]; · iexact Hrc
      iexact Hrv
    iintro %acc HI
    icases HI with ⟨%h, Hst, Hrc, Hrv⟩
    isplitr
    · ipureintro
      have ht : Scf.trips k1_t15_loop.lb k1_t15_loop.ub k1_t15_loop.st = 8 := by decide
      rw [h, ht]
    isplitl [Hst]; · iexact Hst
    isplitl [Hrc]; · iexact Hrc
    iexact Hrv

theorem t16_wp' (hRg : RangesOK m) (k : Fin k1_t13_loop.trips) (j : Fin k1_t14_loop.trips) (v77 v92 : BitVec 32) (hv77 : v77.toNat = eRow (wL L) k.val)
    (Fst : Buf (Elt F) ((sStg).view.loc (thr1 d L))) (Fwin : Buf (Elt F) ((sRc).view.loc (thr1 d L))) (Frb : Buf (Elt F) ((sRb).view.loc (thr1 d L)))
    (hst : StgOK m d (wL L) k.val Fst) (hwin : RowsAt m d id (eRow (wL L) k.val) Fwin)
    (hrb : RowsAt m d (tgtId m d) (ePos (wL L) k.val + 256 * j.val + 128) Frb)
    (init : FVec F S16 .f32 × FVec F S16 .f32) (hinit : init = lossAcc m d (wL L) (64 * k.val + 16 * j.val + 8)) :
    iprop(((sStg).view.loc (thr1 d L) ↦{fullShare} Fst) ∗ ((sRc).view.loc (thr1 d L) ↦{fullShare} Fwin) ∗ ((sRb).view.loc (thr1 d L) ↦{fullShare} Frb))
      ⊢ (wp frame (wpE (defs₀ (F := F)) 𝒱₀ (thr1 d L) none) Set.univ
          (Scf.Loop.for k1_t16_loop Facts₀.k1_t16_ok init ((k1at% k1_t16_body L) (bv1 L) bv2 k1_pay111 (bv5 L) v77 j v92))
          fun acc => iprop(⌜acc = lossAcc m d (wL L) (64 * k.val + 16 * j.val + 8 + 8)⌝
            ∗ ((sStg).view.loc (thr1 d L) ↦{fullShare} Fst) ∗ ((sRc).view.loc (thr1 d L) ↦{fullShare} Fwin) ∗ ((sRb).view.loc (thr1 d L) ↦{fullShare} Frb)) : sProp 𝕄) := by
  iintro ⟨Hst, Hrc, Hrv⟩
  sl_for (inv16 m d L (64 * k.val + 16 * j.val + 8) Fst Fwin Frb) $$ [Hst Hrc Hrv]
  case region =>
    intro g acc
    rw [show inv16 m d L (64 * k.val + 16 * j.val + 8) Fst Fwin Frb g.val acc
        = iprop(⌜acc = lossAcc m d (wL L) (64 * k.val + 16 * j.val + 8 + g.val)⌝
            ∗ ((sStg).view.loc (thr1 d L) ↦{fullShare} Fst) ∗ ((sRc).view.loc (thr1 d L) ↦{fullShare} Fwin) ∗ ((sRb).view.loc (thr1 d L) ↦{fullShare} Frb)) from rfl]
    iintro ⟨%hacc, H⟩
    iapply (t16_trip m d L hRg k j v77 v92 hv77 Fst Fwin Frb hst hwin hrb g acc hacc)
    iexact H
  · unfold inv16
    isplitl [Hst Hrc Hrv]
    · isplitr
      · ipureintro; subst hinit; rfl
      isplitl [Hst]; · iexact Hst
      isplitl [Hrc]; · iexact Hrc
      iexact Hrv
    iintro %acc HI
    icases HI with ⟨%h, Hst, Hrc, Hrv⟩
    isplitr
    · ipureintro
      have ht : Scf.trips k1_t16_loop.lb k1_t16_loop.ub k1_t16_loop.st = 8 := by decide
      rw [h, ht]
    isplitl [Hst]; · iexact Hst
    isplitl [Hrc]; · iexact Hrc
    iexact Hrv

end Tile

end Cert.KI

end
-- ==== Proof.Body1ValE.lean ====
import proofs.«205348_g71287867179597_cont_9to1c4b_113_38_alg».proof.Proof.Body1Edges
import proofs.«205348_g71287867179597_cont_9to1c4b_113_38_alg».proof.Proof.Body1Val

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Tactic

variable {F : FTy → Type} [FloatOps F] [Facts]
open Facts₀ Facts

variable (m : (ℓ : Loc nD τ sig) → Buf (Elt F) ℓ)

local notation "𝕄" => MT nD τ sig (HIx 2) (Elt F) ℕ UU ℕ

section Tile

variable (d : Dev nD) (L : grid1.Coords)

theorem mrep_slice_read_1024 (o : Fin S229376.rank → ℕ) (hb : ∀ a, o a + S1024.size a ≤ S229376.size a) (j : Fin 1024) :
    (((aMrep).slice (Rect.unit (s := S229376) o S1024.size hb) (fun _ => rfl)).view.read (Elt F) (tMrep m d) (ValueIdx.ix1 j) : BitVec 32).toNat
      = srcId m d (o 0 + j.val) := by
  have hle : o 0 + 1024 ≤ 229376 := hb 0
  have hk : o 0 + j.val < 229376 := by have := j.isLt; omega
  have hemb : (Rect.unit (s := S229376) o S1024.size hb).emb (ValueIdx.ix1 j) = ValueIdx.ix1 ⟨o 0 + j.val, hk⟩ := by
    funext a
    obtain rfl : a = 0 := Subsingleton.elim _ _
    exact Fin.ext (by show o 0 + 1 * j.val = o 0 + j.val; omega)
  unfold srcId
  rw [at1_of_lt _ _ _ hk]
  show ((tMrep m d) ((Rect.unit (s := S229376) o S1024.size hb).emb (ValueIdx.ix1 j)) : BitVec 32).toNat = _
  rw [hemb]

theorem stg_ok (k : Fin k1_t13_loop.trips) (fst : Buf (Elt F) ((sStg).view.loc (thr1 d L))) (pay : S1024.Idx → Elt F .i32)
    (hpay : pay = ReadAs.same.apply (View.read (Elt F) ((aMrep).slice (Rect.unit (s := S229376) (k1_off20 L k) S1024.size (Gen.k1_off20_inb L k)) (fun _ => rfl)).view (tMrep m d))) :
    StgOK m d (wL L) k.val (View.write (Elt F) (sStg).view fst pay Finset.univ) := by
  subst hpay
  intro q
  rw [View.write_whole_univ]
  have e0 : k1_off20 L k 0 = ePos (wL L) k.val := by rw [off20_eq']; rfl
  rw [← e0]
  exact mrep_slice_read_1024 m d (k1_off20 L k) (Gen.k1_off20_inb L k) q

theorem win_ok (fP : Buf (Elt F) ((aPtab).view.loc (thr1 d L))) (hP : PtabOK m d fP) (k : Fin k1_t13_loop.trips)
    (frc : Buf (Elt F) ((sRc).view.loc (thr1 d L))) (pay : S128x128.Idx → Elt F .f32)
    (hpay : pay = ReadAs.same.apply (View.read (Elt F) ((aPtab).slice (Rect.unit (s := S28672x128) (k1_off21 L k) S128x128.size (Gen.k1_off21_inb L k)) (fun _ => rfl)).view fP)) :
    RowsAt m d id (eRow (wL L) k.val) (View.write (Elt F) (sRc).view frc pay Finset.univ) := by
  subst hpay
  intro r col hcol
  rw [View.write_whole_univ]
  have e0 : k1_off21 L k 0 = eRow (wL L) k.val := by rw [off21_eq']; rfl
  have e1 : k1_off21 L k 1 = 0 := by rw [off21_eq']; rfl
  have hrow : eRow (wL L) k.val + r.val < 28672 := by
    have : eRow (wL L) k.val ≤ 24992 := Nat.min_le_right _ _
    have := r.isLt; omega
  have h0 : (Rect.unit (s := S28672x128) (k1_off21 L k) S128x128.size (Gen.k1_off21_inb L k)).emb (ValueIdx.ix2 r col) 0
      = ⟨eRow (wL L) k.val + r.val, hrow⟩ :=
    Fin.ext (by show k1_off21 L k 0 + 1 * r.val = eRow (wL L) k.val + r.val; rw [e0]; omega)
  have h1 : (Rect.unit (s := S28672x128) (k1_off21 L k) S128x128.size (Gen.k1_off21_inb L k)).emb (ValueIdx.ix2 r col) 1 = col :=
    Fin.ext (by show k1_off21 L k 1 + 1 * col.val = col.val; rw [e1]; omega)
  show fP ((Rect.unit (s := S28672x128) (k1_off21 L k) S128x128.size (Gen.k1_off21_inb L k)).emb (ValueIdx.ix2 r col)) = _
  rw [ValueIdx.eq_ix2 ((Rect.unit (s := S28672x128) (k1_off21 L k) S128x128.size (Gen.k1_off21_inb L k)).emb (ValueIdx.ix2 r col)), h0, h1]
  exact hP ⟨_, hrow⟩ col hcol

theorem orn_gv_inb (hRg : RangesOK m) :
    ∀ (g : Buf (Elt F) ((sGv).view.loc (thr1 d L))) (off : Fin 1 → ℕ) (inb : ∀ a, off a + S128.size a ≤ S229376.size a)
      (hr : ∀ a, (Rect.unit (s := S229376) off S128.size inb).stride a = 1) (x : S128.Idx),
      ((sGv).view.read (Elt F) (View.write (Elt F) sGv.view g (ReadAs.same.apply (View.read (Elt F) (aOrn.slice (Rect.unit (s := S229376) off S128.size inb) hr).view (tOrn m d))) Finset.univ) x).toNat < 28672 := by
  intro g off inb hr x
  rw [View.write_whole_univ]
  obtain ⟨j, rfl⟩ : ∃ j : Fin 128, x = ValueIdx.ix1 j := ⟨x 0, ValueIdx.eq_ix1 x⟩
  have hle : off 0 + 128 ≤ 229376 := inb 0
  show (((aOrn).slice (Rect.unit (s := S229376) off S128.size inb) (fun _ => rfl)).view.read (Elt F) (tOrn m d) (ValueIdx.ix1 j) : BitVec 32).toNat < 28672
  rw [orn_slice_read m d off inb j]
  exact tgt_inb m d hRg _ (by have := j.isLt; omega)
theorem orn_gb_inb (hRg : RangesOK m) :
    ∀ (g : Buf (Elt F) ((sGb).view.loc (thr1 d L))) (off : Fin 1 → ℕ) (inb : ∀ a, off a + S128.size a ≤ S229376.size a)
      (hr : ∀ a, (Rect.unit (s := S229376) off S128.size inb).stride a = 1) (x : S128.Idx),
      ((sGb).view.read (Elt F) (View.write (Elt F) sGb.view g (ReadAs.same.apply (View.read (Elt F) (aOrn.slice (Rect.unit (s := S229376) off S128.size inb) hr).view (tOrn m d))) Finset.univ) x).toNat < 28672 := by
  intro g off inb hr x
  rw [View.write_whole_univ]
  obtain ⟨j, rfl⟩ : ∃ j : Fin 128, x = ValueIdx.ix1 j := ⟨x 0, ValueIdx.eq_ix1 x⟩
  have hle : off 0 + 128 ≤ 229376 := inb 0
  show (((aOrn).slice (Rect.unit (s := S229376) off S128.size inb) (fun _ => rfl)).view.read (Elt F) (tOrn m d) (ValueIdx.ix1 j) : BitVec 32).toNat < 28672
  rw [orn_slice_read m d off inb j]
  exact tgt_inb m d hRg _ (by have := j.isLt; omega)

theorem orn_rows_v (hRg : RangesOK m) (fP : Buf (Elt F) ((aPtab).view.loc (thr1 d L))) (hP : PtabOK m d fP)
    (fr : Buf (Elt F) ((sRv).view.loc (thr1 d L))) (fs : Buf (Elt F) ((sGv).view.loc (thr1 d L))) (pay : S128.Idx → Elt F .i32)
    (off : Fin 1 → ℕ) (hb : ∀ a, off a + S128.size a ≤ S229376.size a)
    (hpay : pay = ReadAs.same.apply (View.read (Elt F) ((aOrn).slice (Rect.unit (s := S229376) off S128.size hb) (fun _ => rfl)).view (tOrn m d)))
    (hpr2 : ∀ a, (Rect.unit (s := S28672x128) ![0, 0] S28672x128.size Gen.inb_S28672x128_S28672x128_0_0).stride a = 1)
    (hn : S128.numel = S128x128.size Gen.gathers_S28672x128_S128x128.axis')
    (hin : ∀ x, ((sGv).view.read (Elt F) (View.write (Elt F) (sGv).view fs pay Finset.univ) x).toNat
      < S28672x128.size Gen.gathers_S28672x128_S128x128.axis) :
    RowsAt m d (tgtId m d) (off 0) ((sRv).view.writes (Elt F) fr
      [⟨Rect.whole S128x128, SparseCore.gatherPayload Gen.gathers_S28672x128_S128x128
        (View.read (Elt F) ((aPtab).slice (Rect.unit ![0, 0] S28672x128.size Gen.inb_S28672x128_S28672x128_0_0) hpr2).view fP)
        (SparseCore.rows (View.read (Elt F) (sGv).view (View.write (Elt F) (sGv).view fs pay Finset.univ)) hn hin)⟩]) := by
  subst hpay
  have hPr : PtabOK m d (View.read (Elt F)
      ((aPtab).slice (Rect.unit ![0, 0] S28672x128.size Gen.inb_S28672x128_S28672x128_0_0) hpr2).view fP) := by
    rw [show View.read (Elt F) ((aPtab).slice (Rect.unit ![0, 0] S28672x128.size Gen.inb_S28672x128_S28672x128_0_0) hpr2).view fP = fP
      from ptab_slice_read d fP]
    exact hP
  have hids : ∀ j : Fin 128, (View.read (Elt F) (sGv).view (View.write (Elt F) (sGv).view fs
      (ReadAs.same.apply (View.read (Elt F) ((aOrn).slice (Rect.unit (s := S229376) off S128.size hb) (fun _ => rfl)).view (tOrn m d))) Finset.univ)
        (ValueIdx.ix1 j) : BitVec 32).toNat = tgtId m d (off 0 + j.val) := by
    intro j
    rw [View.write_whole_univ]
    exact orn_slice_read m d off hb j
  have G := gather_rowsAt m d (tgtId m d) (off 0) _ hPr _ hn hin hids
  intro r col hcol
  refine Eq.trans ?_ (G r col hcol)
  have e := Rect.emb_whole_apply S128x128 (ValueIdx.ix2 r col)
  conv_lhs => rw [← e]
  exact View.read_writes_cons_emb (sRv).view fr (Rect.whole S128x128) _ [] (ValueIdx.ix2 r col)
theorem orn_rows_b (hRg : RangesOK m) (fP : Buf (Elt F) ((aPtab).view.loc (thr1 d L))) (hP : PtabOK m d fP)
    (fr : Buf (Elt F) ((sRb).view.loc (thr1 d L))) (fs : Buf (Elt F) ((sGb).view.loc (thr1 d L))) (pay : S128.Idx → Elt F .i32)
    (off : Fin 1 → ℕ) (hb : ∀ a, off a + S128.size a ≤ S229376.size a)
    (hpay : pay = ReadAs.same.apply (View.read (Elt F) ((aOrn).slice (Rect.unit (s := S229376) off S128.size hb) (fun _ => rfl)).view (tOrn m d)))
    (hpr2 : ∀ a, (Rect.unit (s := S28672x128) ![0, 0] S28672x128.size Gen.inb_S28672x128_S28672x128_0_0).stride a = 1)
    (hn : S128.numel = S128x128.size Gen.gathers_S28672x128_S128x128.axis')
    (hin : ∀ x, ((sGb).view.read (Elt F) (View.write (Elt F) (sGb).view fs pay Finset.univ) x).toNat
      < S28672x128.size Gen.gathers_S28672x128_S128x128.axis) :
    RowsAt m d (tgtId m d) (off 0) ((sRb).view.writes (Elt F) fr
      [⟨Rect.whole S128x128, SparseCore.gatherPayload Gen.gathers_S28672x128_S128x128
        (View.read (Elt F) ((aPtab).slice (Rect.unit ![0, 0] S28672x128.size Gen.inb_S28672x128_S28672x128_0_0) hpr2).view fP)
        (SparseCore.rows (View.read (Elt F) (sGb).view (View.write (Elt F) (sGb).view fs pay Finset.univ)) hn hin)⟩]) := by
  subst hpay
  have hPr : PtabOK m d (View.read (Elt F)
      ((aPtab).slice (Rect.unit ![0, 0] S28672x128.size Gen.inb_S28672x128_S28672x128_0_0) hpr2).view fP) := by
    rw [show View.read (Elt F) ((aPtab).slice (Rect.unit ![0, 0] S28672x128.size Gen.inb_S28672x128_S28672x128_0_0) hpr2).view fP = fP
      from ptab_slice_read d fP]
    exact hP
  have hids : ∀ j : Fin 128, (View.read (Elt F) (sGb).view (View.write (Elt F) (sGb).view fs
      (ReadAs.same.apply (View.read (Elt F) ((aOrn).slice (Rect.unit (s := S229376) off S128.size hb) (fun _ => rfl)).view (tOrn m d))) Finset.univ)
        (ValueIdx.ix1 j) : BitVec 32).toNat = tgtId m d (off 0 + j.val) := by
    intro j
    rw [View.write_whole_univ]
    exact orn_slice_read m d off hb j
  have G := gather_rowsAt m d (tgtId m d) (off 0) _ hPr _ hn hin hids
  intro r col hcol
  refine Eq.trans ?_ (G r col hcol)
  have e := Rect.emb_whole_apply S128x128 (ValueIdx.ix2 r col)
  conv_lhs => rw [← e]
  exact View.read_writes_cons_emb (sRb).view fr (Rect.whole S128x128) _ [] (ValueIdx.ix2 r col)

end Tile

end Cert.KI

end
-- ==== Proof.Body1EdgesOuter.lean ====
import proofs.«205348_g71287867179597_cont_9to1c4b_113_38_alg».proof.Proof.Body1Edges
import proofs.«205348_g71287867179597_cont_9to1c4b_113_38_alg».proof.Proof.Body1Val
import proofs.«205348_g71287867179597_cont_9to1c4b_113_38_alg».proof.Proof.Body1ValE

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Tactic

variable {F : FTy → Type} [FloatOps F] [Facts]
open Facts₀ Facts

variable (m : (ℓ : Loc nD τ sig) → Buf (Elt F) ℓ)

local notation "𝕄" => MT nD τ sig (HIx 2) (Elt F) ℕ UU ℕ

local macro:max "k1at% " f:term:max L:term:max : term =>
  `($f $L aPtab (Memref.isWhole_whole _) aVt (Memref.isWhole_whole _) aInf (Memref.isWhole_whole _) aWt (Memref.isWhole_whole _)
      aOrn (Memref.isWhole_whole _) aMrep (Memref.isWhole_whole _) aOut0 (Memref.isWhole_whole _) aOut1 (Memref.isWhole_whole _)
      sGv (Memref.isWhole_whole _) sGb (Memref.isWhole_whole _) sVx (Memref.isWhole_whole _) sVy (Memref.isWhole_whole _)
      sVz (Memref.isWhole_whole _) sWt (Memref.isWhole_whole _) sRv (Memref.isWhole_whole _) sRb (Memref.isWhole_whole _)
      sRc (Memref.isWhole_whole _) sOut (Memref.isWhole_whole _) sStg (Memref.isWhole_whole _) sAcc (Memref.isWhole_whole _)
      cc1_scratch12 cc1_scratch13 cc1_scoped0 cc1_scoped1 cc1_scoped2 cc1_scoped3 cc1_scoped4 cc1_scoped5 cc1_scoped6 cc1_scoped7
      cc1_scoped8 cc1_scoped9 cc1_scoped10 cc1_scoped11 cc1_scoped12 cc1_scoped13 cc1_scoped14 cc1_scoped15 cc1_scoped16
      cc1_scoped17 cc1_scoped18 cc1_scoped19 cc1_scoped20)

section Tile

variable (d : Dev nD) (L : grid1.Coords)

theorem wp_inner_bind {α β : Type} {p : Prog (TpuEff nD τ sig (Elt F) Λ₀ (thr1 d L).2) α} {kk : α → Prog (TpuEff nD τ sig (Elt F) Λ₀ (thr1 d L).2) β}
    {Pre : sProp 𝕄} {Q : α → sProp 𝕄} {Φ : β → sProp 𝕄}
    (h : Pre ⊢ wp frame (wpE (defs₀ (F := F)) 𝒱₀ (thr1 d L) none) Set.univ p Q) :
    Pre ⊢ iprop((∀ a, Q a -∗ wp frame (wpE (defs₀ (F := F)) 𝒱₀ (thr1 d L) none) Set.univ (kk a) Φ)
      -∗ wp frame (wpE (defs₀ (F := F)) 𝒱₀ (thr1 d L) none) Set.univ (p >>= kk) Φ) := by
  rw [wp_bind]
  iintro HP HK
  iapply (wp_wand_r frame _ Set.univ)
  isplitl [HP]
  · iapply h; iexact HP
  · iexact HK

omit [FloatOps F] [Facts] in
theorem waits_ins {W' W₀ : Waits sig (HIx 2)} (s : SemLoc sig) (h : ∀ p ∈ W', p ∈ W₀ ∨ p.2 = none) :
    ∀ p ∈ insert (s, (default : HIx 2)) W', p ∈ W₀ ∨ p.2 = none := by
  intro p hp
  rcases Finset.mem_insert.mp hp with hp | hp
  · exact .inr (hp ▸ rfl)
  · exact h p hp

def edgeInv (O : CellTallies nD τ sig (HIx 2)) (W₀ : Waits sig (HIx 2)) (fP : Buf (Elt F) ((aPtab).view.loc (thr1 d L)))
    (n : ℕ) (acc : FVec F S16 .f32 × FVec F S16 .f32) : sProp 𝕄 :=
  iprop(⌜acc = lossAcc m d (wL L) (64 * n)⌝
    ∗ Transfers.MayWaits (thr1 d L) (none : HIx 2) O
    ∗ ((aPtab).view.loc (thr1 d L) ↦{rd (wL L)} fP) ∗ ((aOrn).view.loc (thr1 d L) ↦{rd (wL L)} tOrn m d) ∗ ((aMrep).view.loc (thr1 d L) ↦{rd (wL L)} tMrep m d)
    ∗ (∃ f, (sGv).view.loc (thr1 d L) ↦{fullShare} f) ∗ (∃ f, (sGb).view.loc (thr1 d L) ↦{fullShare} f)
    ∗ (∃ f, (sRv).view.loc (thr1 d L) ↦{fullShare} f) ∗ (∃ f, (sRb).view.loc (thr1 d L) ↦{fullShare} f) ∗ (∃ f, (sRc).view.loc (thr1 d L) ↦{fullShare} f)
    ∗ (∃ f, (sStg).view.loc (thr1 d L) ↦{fullShare} f)
    ∗ semVal (thr1 d L, SemLoc.dma cc1_scratch12.sem) 0 ∗ semVal (thr1 d L, SemLoc.dma cc1_scratch13.sem) 0
    ∗ semVal (thr1 d L, SemLoc.dma cc1_scoped16.sem) 0 ∗ semVal (thr1 d L, SemLoc.dma cc1_scoped17.sem) 0
    ∗ semVal (thr1 d L, SemLoc.dma cc1_scoped18.sem) 0 ∗ semVal (thr1 d L, SemLoc.dma cc1_scoped19.sem) 0
    ∗ ∃ W', ⌜∀ p ∈ W', p ∈ W₀ ∨ p.2 = none⌝ ∗ owes (thr1 d L) O W')

def edgeInv14 (O : CellTallies nD τ sig (HIx 2)) (W₀ : Waits sig (HIx 2)) (fP : Buf (Elt F) ((aPtab).view.loc (thr1 d L)))
    (k : ℕ) (Fst : Buf (Elt F) ((sStg).view.loc (thr1 d L))) (Fwin : Buf (Elt F) ((sRc).view.loc (thr1 d L)))
    (j : ℕ) (acc : FVec F S16 .f32 × FVec F S16 .f32) : sProp 𝕄 :=
  iprop(⌜acc = lossAcc m d (wL L) (64 * k + 16 * j)⌝
    ∗ Transfers.MayWaits (thr1 d L) (none : HIx 2) O
    ∗ ((aPtab).view.loc (thr1 d L) ↦{rd (wL L)} fP) ∗ ((aOrn).view.loc (thr1 d L) ↦{rd (wL L)} tOrn m d)
    ∗ (∃ f, (sGv).view.loc (thr1 d L) ↦{fullShare} f) ∗ (∃ f, (sGb).view.loc (thr1 d L) ↦{fullShare} f)
    ∗ (∃ f, (sRv).view.loc (thr1 d L) ↦{fullShare} f) ∗ (∃ f, (sRb).view.loc (thr1 d L) ↦{fullShare} f)
    ∗ ((sRc).view.loc (thr1 d L) ↦{fullShare} Fwin) ∗ ((sStg).view.loc (thr1 d L) ↦{fullShare} Fst)
    ∗ semVal (thr1 d L, SemLoc.dma cc1_scratch12.sem) 0 ∗ semVal (thr1 d L, SemLoc.dma cc1_scratch13.sem) 0
    ∗ semVal (thr1 d L, SemLoc.dma cc1_scoped18.sem) 0 ∗ semVal (thr1 d L, SemLoc.dma cc1_scoped19.sem) 0
    ∗ ∃ W', ⌜∀ p ∈ W', p ∈ W₀ ∨ p.2 = none⌝ ∗ owes (thr1 d L) O W')

set_option maxHeartbeats 4000000 in
theorem t14_trip (hRg : RangesOK m) (O : CellTallies nD τ sig (HIx 2)) (W₀ : Waits sig (HIx 2))
    (fP : Buf (Elt F) ((aPtab).view.loc (thr1 d L))) (hP : PtabOK m d fP)
    (k : Fin k1_t13_loop.trips) (v77 : BitVec 32) (hv77 : v77.toNat = eRow (wL L) k.val)
    (Fst : Buf (Elt F) ((sStg).view.loc (thr1 d L))) (Fwin : Buf (Elt F) ((sRc).view.loc (thr1 d L)))
    (hst : StgOK m d (wL L) k.val Fst) (hwin : RowsAt m d id (eRow (wL L) k.val) Fwin)
    (j : Fin k1_t14_loop.trips) (acc : FVec F S16 .f32 × FVec F S16 .f32) :
    edgeInv14 m d L O W₀ fP k.val Fst Fwin j.val acc
      ⊢ wp frame (wpE (defs₀ (F := F)) 𝒱₀ (thr1 d L) none) Set.univ
          ((k1at% k1_t14_body L) (bv1 L) bv2 k1_pay111 (bv5 L) k v77 j acc)
          (edgeInv14 m d L O W₀ fP k.val Fst Fwin (j.val + 1)) := by
  have hinv := orn_gv_inb m d L hRg
  have hinb := orn_gb_inb m d L hRg
  unfold edgeInv14 k1_t14_body
  iintro ⟨%hacc, #Hmw, HP, Horn, ⟨%fgv, Hgv⟩, ⟨%fgb, Hgb⟩, ⟨%frv, Hrv⟩, ⟨%frb, Hrb⟩, Hrc, Hst, Hs12, Hs13, Hs18, Hs19, %W', %hW', HO⟩
  ihave HP2 := ((pointsTo_share (PosShare.mem_left_op_right (rd (wL L)))).1) $$ HP
  icases HP2 with ⟨HPl, HPr⟩
  sl_exec
  iapply (wp_inner_bind d L (t15_wp' m d L hRg k j v77 _ hv77 Fst Fwin _ hst hwin ?hrv (acc.1, acc.2) hacc)) $$ [Hst Hrc Hrv]
  rotate_left
  · isplitl [Hst]; · iexact Hst
    isplitl [Hrc]; · iexact Hrc
    iexact Hrv
  case hrv =>
    rw [← show (k1_off22 L k j) 0 = ePos (wL L) k.val + 256 * j.val from by rw [off22_eq']; rfl]
    exact orn_rows_v m d L hRg fP hP _ fgv _ (k1_off22 L k j) (Gen.k1_off22_inb L k j) rfl _ _ _
  iintro %acc1 H1
  rcases acc1 with ⟨a1, a2⟩
  icases H1 with ⟨%hacc1, Hst, Hrc, Hrv⟩
  sl_exec
  iapply (wp_inner_bind d L (t16_wp' m d L hRg k j v77 _ hv77 Fst Fwin _ hst hwin ?hrb (a1, a2) hacc1)) $$ [Hst Hrc Hrb]
  rotate_left
  · isplitl [Hst]; · iexact Hst
    isplitl [Hrc]; · iexact Hrc
    iexact Hrb
  case hrb =>
    rw [← show (k1_off23 L k j) 0 = ePos (wL L) k.val + 256 * j.val + 128 from by rw [off23_eq']; rfl]
    exact orn_rows_b m d L hRg fP hP _ fgb _ (k1_off23 L k j) (Gen.k1_off23_inb L k j) rfl _ _ _
  iintro %acc2 H2
  rcases acc2 with ⟨b1, b2⟩
  icases H2 with ⟨%hacc2, Hst, Hrc, Hrb⟩
  sl_exec
  sl_step
  ihave HP := ((pointsTo_share (PosShare.mem_left_op_right (rd (wL L)))).2) $$ [HPl HPr]
  · isplitl [HPl]; · iexact HPl
    iexact HPr
  isplitr
  · ipureintro; exact hacc2.trans (congrArg (lossAcc m d (wL L)) (by omega))
  isplitr; · iexact Hmw
  isplitl [HP]; · iexact HP
  isplitl [Horn]; · iexact Horn
  isplitl [Hgv]; · iexists _; iexact Hgv
  isplitl [Hgb]; · iexists _; iexact Hgb
  isplitl [Hrv]; · iexists _; iexact Hrv
  isplitl [Hrb]; · iexists _; iexact Hrb
  isplitl [Hrc]; · iexact Hrc
  isplitl [Hst]; · iexact Hst
  isplitl [Hs12]; · iexact Hs12
  isplitl [Hs13]; · iexact Hs13
  isplitl [Hs18]; · iexact Hs18
  isplitl [Hs19]; · iexact Hs19
  iexists _; isplitr
  rotate_left
  · iexact HO
  · ipureintro; exact waits_ins _ (waits_ins _ (waits_ins _ (waits_ins _ hW')))

set_option maxHeartbeats 4000000 in
theorem t13_trip (hRg : RangesOK m) (O : CellTallies nD τ sig (HIx 2)) (W₀ : Waits sig (HIx 2))
    (fP : Buf (Elt F) ((aPtab).view.loc (thr1 d L))) (hP : PtabOK m d fP)
    (k : Fin k1_t13_loop.trips) (acc : FVec F S16 .f32 × FVec F S16 .f32) :
    edgeInv m d L O W₀ fP k.val acc
      ⊢ wp frame (wpE (defs₀ (F := F)) 𝒱₀ (thr1 d L) none) Set.univ
          ((k1at% k1_t13_body L) (bv1 L) bv2 k1_pay111 (bv5 L) (Scalar.muli (bv1 L) 7168#32) k acc)
          (edgeInv m d L O W₀ fP (k.val + 1)) := by
  unfold edgeInv k1_t13_body
  iintro ⟨%hacc, #Hmw, HP, Horn, Hmrep, ⟨%fgv, Hgv⟩, ⟨%fgb, Hgb⟩, ⟨%frv, Hrv⟩, ⟨%frb, Hrb⟩, ⟨%frc, Hrc⟩, ⟨%fst, Hst⟩, Hs12, Hs13, Hs16, Hs17, Hs18, Hs19, %W', %hW', HO⟩
  sl_exec
  sl_for (edgeInv14 m d L O W₀ fP k.val (View.write (Elt F) (sStg).view fst (t13_trip.sl.dma0 m d L k) Finset.univ)
      (View.write (Elt F) (sRc).view frc (t13_trip.sl.dma0_1 d L fP k) Finset.univ)) $$ [HP Horn Hgv Hgb Hrv Hrb Hrc Hst Hs12 Hs13 Hs18 Hs19 HO]
  case region =>
    intro j acc'
    exact t14_trip m d L hRg O W₀ fP hP k _ (mult1_toNat L k) _ _ (stg_ok m d L k fst _ rfl) (win_ok m d L fP hP k frc _ rfl) j acc'
  · unfold edgeInv14
    isplitr
    · ipureintro; exact hacc.trans (congrArg (lossAcc m d (wL L)) (by omega))
    isplitr; · iexact Hmw
    isplitl [HP]; · iexact HP
    isplitl [Horn]; · iexact Horn
    isplitl [Hgv]; · iexists _; iexact Hgv
    isplitl [Hgb]; · iexists _; iexact Hgb
    isplitl [Hrv]; · iexists _; iexact Hrv
    isplitl [Hrb]; · iexists _; iexact Hrb
    isplitl [Hrc]; · iexact Hrc
    isplitl [Hst]; · iexact Hst
    isplitl [Hs12]; · iexact Hs12
    isplitl [Hs13]; · iexact Hs13
    isplitl [Hs18]; · iexact Hs18
    isplitl [Hs19]; · iexact Hs19
    iexists _; isplitr
    rotate_left
    · iexact HO
    · ipureintro; exact waits_ins _ (waits_ins _ hW')
  iintro %acc2 HI
  rcases acc2 with ⟨b1, b2⟩
  unfold edgeInv14
  icases HI with ⟨%hacc2, -, HP, Horn, ⟨%fgv', Hgv⟩, ⟨%fgb', Hgb⟩, ⟨%frv', Hrv⟩, ⟨%frb', Hrb⟩, Hrc, Hst, Hs12, Hs13, Hs18, Hs19, %W'', %hW'', HO⟩
  sl_exec
  sl_step
  isplitr
  · ipureintro; exact hacc2.trans (congrArg (lossAcc m d (wL L)) (by simp only [show k1_t14_loop.trips = 4 from rfl]; omega))
  isplitr; · iexact Hmw
  isplitl [HP]; · iexact HP
  isplitl [Horn]; · iexact Horn
  isplitl [Hmrep]; · iexact Hmrep
  isplitl [Hgv]; · iexists _; iexact Hgv
  isplitl [Hgb]; · iexists _; iexact Hgb
  isplitl [Hrv]; · iexists _; iexact Hrv
  isplitl [Hrb]; · iexists _; iexact Hrb
  isplitl [Hrc]; · iexists _; iexact Hrc
  isplitl [Hst]; · iexists _; iexact Hst
  isplitl [Hs12]; · iexact Hs12
  isplitl [Hs13]; · iexact Hs13
  isplitl [Hs16]; · iexact Hs16
  isplitl [Hs17]; · iexact Hs17
  isplitl [Hs18]; · iexact Hs18
  isplitl [Hs19]; · iexact Hs19
  iexists _; isplitr
  · ipureintro; exact hW''
  · iexact HO

set_option maxHeartbeats 4000000 in
theorem edge_wp' (hRg : RangesOK m) (O : CellTallies nD τ sig (HIx 2)) (W₀ W : Waits sig (HIx 2))
    (hW : ∀ p ∈ W, p ∈ W₀ ∨ p.2 = none)
    (fP : Buf (Elt F) ((aPtab).view.loc (thr1 d L))) (hP : PtabOK m d fP) :
    iprop(Transfers.MayWaits (thr1 d L) (none : HIx 2) O
        ∗ ((aPtab).view.loc (thr1 d L) ↦{rd (wL L)} fP) ∗ ((aOrn).view.loc (thr1 d L) ↦{rd (wL L)} tOrn m d) ∗ ((aMrep).view.loc (thr1 d L) ↦{rd (wL L)} tMrep m d)
        ∗ (∃ f, (sGv).view.loc (thr1 d L) ↦{fullShare} f) ∗ (∃ f, (sGb).view.loc (thr1 d L) ↦{fullShare} f)
        ∗ (∃ f, (sRv).view.loc (thr1 d L) ↦{fullShare} f) ∗ (∃ f, (sRb).view.loc (thr1 d L) ↦{fullShare} f) ∗ (∃ f, (sRc).view.loc (thr1 d L) ↦{fullShare} f)
        ∗ (∃ f, (sStg).view.loc (thr1 d L) ↦{fullShare} f)
        ∗ semVal (thr1 d L, SemLoc.dma cc1_scratch12.sem) 0 ∗ semVal (thr1 d L, SemLoc.dma cc1_scratch13.sem) 0
        ∗ semVal (thr1 d L, SemLoc.dma cc1_scoped16.sem) 0 ∗ semVal (thr1 d L, SemLoc.dma cc1_scoped17.sem) 0
        ∗ semVal (thr1 d L, SemLoc.dma cc1_scoped18.sem) 0 ∗ semVal (thr1 d L, SemLoc.dma cc1_scoped19.sem) 0
        ∗ owes (thr1 d L) O W)
      ⊢ (wp frame (wpE (defs₀ (F := F)) 𝒱₀ (thr1 d L) none) Set.univ
          (Scf.Loop.for k1_t13_loop Facts₀.k1_t13_ok (k1_pay112 (F := F), k1_pay113 (F := F))
            ((k1at% k1_t13_body L) (bv1 L) bv2 k1_pay111 (bv5 L) (Scalar.muli (bv1 L) 7168#32)))
          fun acc => iprop(⌜acc = lossAcc m d (wL L) 448⌝
            ∗ Transfers.MayWaits (thr1 d L) (none : HIx 2) O
            ∗ ((aPtab).view.loc (thr1 d L) ↦{rd (wL L)} fP) ∗ ((aOrn).view.loc (thr1 d L) ↦{rd (wL L)} tOrn m d) ∗ ((aMrep).view.loc (thr1 d L) ↦{rd (wL L)} tMrep m d)
            ∗ (∃ f, (sGv).view.loc (thr1 d L) ↦{fullShare} f) ∗ (∃ f, (sGb).view.loc (thr1 d L) ↦{fullShare} f)
            ∗ (∃ f, (sRv).view.loc (thr1 d L) ↦{fullShare} f) ∗ (∃ f, (sRb).view.loc (thr1 d L) ↦{fullShare} f) ∗ (∃ f, (sRc).view.loc (thr1 d L) ↦{fullShare} f)
            ∗ (∃ f, (sStg).view.loc (thr1 d L) ↦{fullShare} f)
            ∗ semVal (thr1 d L, SemLoc.dma cc1_scratch12.sem) 0 ∗ semVal (thr1 d L, SemLoc.dma cc1_scratch13.sem) 0
            ∗ semVal (thr1 d L, SemLoc.dma cc1_scoped16.sem) 0 ∗ semVal (thr1 d L, SemLoc.dma cc1_scoped17.sem) 0
            ∗ semVal (thr1 d L, SemLoc.dma cc1_scoped18.sem) 0 ∗ semVal (thr1 d L, SemLoc.dma cc1_scoped19.sem) 0
            ∗ ∃ W', ⌜∀ p ∈ W', p ∈ W₀ ∨ p.2 = none⌝ ∗ owes (thr1 d L) O W') : sProp 𝕄) := by
  iintro ⟨#Hmw, HP, Horn, Hmrep, Hgv, Hgb, Hrv, Hrb, Hrc, Hst, Hs12, Hs13, Hs16, Hs17, Hs18, Hs19, HO⟩
  sl_for (edgeInv m d L O W₀ fP) $$ [HP Horn Hmrep Hgv Hgb Hrv Hrb Hrc Hst Hs12 Hs13 Hs16 Hs17 Hs18 Hs19 HO]
  case region =>
    intro k acc
    exact t13_trip m d L hRg O W₀ fP hP k acc
  isplitl [HP Horn Hmrep Hgv Hgb Hrv Hrb Hrc Hst Hs12 Hs13 Hs16 Hs17 Hs18 Hs19 HO]
  · unfold edgeInv
    isplitr; · ipureintro; rfl
    isplitr; · iexact Hmw
    isplitl [HP]; · iexact HP
    isplitl [Horn]; · iexact Horn
    isplitl [Hmrep]; · iexact Hmrep
    isplitl [Hgv]; · iexact Hgv
    isplitl [Hgb]; · iexact Hgb
    isplitl [Hrv]; · iexact Hrv
    isplitl [Hrb]; · iexact Hrb
    isplitl [Hrc]; · iexact Hrc
    isplitl [Hst]; · iexact Hst
    isplitl [Hs12]; · iexact Hs12
    isplitl [Hs13]; · iexact Hs13
    isplitl [Hs16]; · iexact Hs16
    isplitl [Hs17]; · iexact Hs17
    isplitl [Hs18]; · iexact Hs18
    isplitl [Hs19]; · iexact Hs19
    iexists W; isplitr
    · ipureintro; exact hW
    · iexact HO
  iintro %acc HI
  unfold edgeInv
  icases HI with ⟨%hacc, Hrest⟩
  isplitr
  · ipureintro; exact hacc.trans (congrArg (lossAcc m d (wL L)) (by simp only [show k1_t13_loop.trips = 7 from rfl]))
  · iexact Hrest

end Tile

end Cert.KI

end
-- ==== Proof.Body1Blend_t4.lean ====
import proofs.«205348_g71287867179597_cont_9to1c4b_113_38_alg».proof.Proof.Body1Blend

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F] [Facts]
open Facts₀ Facts

variable (m : (ℓ : Loc nD τ sig) → Buf (Elt F) ℓ)

local notation "𝕄" => MT nD τ sig (HIx 2) (Elt F) ℕ UU ℕ
variable (d : Dev nD) (L : grid1.Coords)

local macro:max "k1at% " f:term:max L:term:max : term =>
  `($f $L aPtab (Memref.isWhole_whole _) aVt (Memref.isWhole_whole _) aInf (Memref.isWhole_whole _) aWt (Memref.isWhole_whole _)
      aOrn (Memref.isWhole_whole _) aMrep (Memref.isWhole_whole _) aOut0 (Memref.isWhole_whole _) aOut1 (Memref.isWhole_whole _)
      sGv (Memref.isWhole_whole _) sGb (Memref.isWhole_whole _) sVx (Memref.isWhole_whole _) sVy (Memref.isWhole_whole _)
      sVz (Memref.isWhole_whole _) sWt (Memref.isWhole_whole _) sRv (Memref.isWhole_whole _) sRb (Memref.isWhole_whole _)
      sRc (Memref.isWhole_whole _) sOut (Memref.isWhole_whole _) sStg (Memref.isWhole_whole _) sAcc (Memref.isWhole_whole _)
      cc1_scratch12 cc1_scratch13 cc1_scoped0 cc1_scoped1 cc1_scoped2 cc1_scoped3 cc1_scoped4 cc1_scoped5 cc1_scoped6 cc1_scoped7
      cc1_scoped8 cc1_scoped9 cc1_scoped10 cc1_scoped11 cc1_scoped12 cc1_scoped13 cc1_scoped14 cc1_scoped15 cc1_scoped16
      cc1_scoped17 cc1_scoped18 cc1_scoped19 cc1_scoped20)

theorem t4_trip
    (R : Buf (Elt F) ((sRv).view.loc (thr1 d L))) (X : Buf (Elt F) ((sVx).view.loc (thr1 d L))) (Y : Buf (Elt F) ((sVy).view.loc (thr1 d L)))
    (Z : Buf (Elt F) ((sVz).view.loc (thr1 d L))) (W : Buf (Elt F) ((sWt).view.loc (thr1 d L))) (g : Buf (Elt F) ((sOut).view.loc (thr1 d L)))
    (hR : RowsAt m d (infId m d) (0 * 53248 + (wL L).val * 1664 + 128 * (12)) R) (hC : CoordsOK m d L 0 X Y Z W)
    (n : Fin k1_t4_loop.trips) (u : Unit) :
    blendInv m d L sRv false 0 (12) R X Y Z W g n.val u
      ⊢ wp frame (wpE (defs₀ (F := F)) 𝒱₀ (thr1 d L) none) Set.univ
          ((k1at% k1_t4_body L) bv2 k1_pay111 (bv5 L) n u)
          (blendInv m d L sRv false 0 (12) R X Y Z W g (n.val + 1)) := by
  have hn : n.val < 8 := lt_of_lt_of_le n.isLt k1_t4_abs.2.1
  unfold k1_t4_body
  simp only [k1_part5_eq_skeleton, k1_part6_eq_skeleton]
  unfold k1_part5_skel k1_part6_skel
  simp only [Prog.lift, Prog.bind_op, Prog.bind_ret, Prog.pure_eq_ret, bind_assoc, pure_bind]
  have hb := base_tail n.val hn
  have flat0 := fun x => flatIdx_toNat _ (128 * (12) + 16 * n.val) (by omega) hb x
  have flat1 := fun x => flatIdx1_toNat _ _ (by have hx : (x 0).val < 16 := (x 0).isLt; omega) x (flat0 x)
  have flat2 := fun x => flatIdx2_toNat _ _ (by have hx : (x 0).val < 16 := (x 0).isLt; omega) x (flat0 x)
  have hrow := fun x => rowIdx_toNat n.val hn x
  unfold blendInv
  iintro ⟨HR, HX, HY, HZ, HW, %g', %hP, HO⟩
  iterate 12 (iapply (wp_rowWord m d L 0 (12) n.val _ hR (Memref.read_access_whole (Elt F) (cc1_scratch6 : Ref sig .scVector) R) ?hc hn hrow) $$ HR; (case hc => omega); iintro HR)
  iapply (wp_assume 𝒱₀ (thr1 d L) none Set.univ (rows_inb _ _ (fun x => (hrow x).trans_lt (by have hx : (x 0).val < 16 := (x 0).isLt; omega)) (fun x => (colIdx_toNat 12 (by omega) x).trans_lt (by omega))))
  iapply (wp_rowWord' m d L 0 (12) n.val 12 hR (Memref.read_access_whole (Elt F) (cc1_scratch6 : Ref sig .scVector) R) (by omega) hn hrow) $$ HR; iintro HR
  iterate 2 (iapply (wp_rowWord m d L 0 (12) n.val _ hR (Memref.read_access_whole (Elt F) (cc1_scratch6 : Ref sig .scVector) R) ?hc hn hrow) $$ HR; (case hc => omega); iintro HR)
  iapply (wp_slice16 d L _ _ _ ((wL L).val * 1664 + (128 * (12) + 16 * n.val)) hC.1 (by omega) (k1_off8_eq n)) $$ HX; iintro HX
  iapply (wp_slice16 d L _ _ _ (53248 + ((wL L).val * 1664 + (128 * (12) + 16 * n.val))) hC.2.1 (by omega) (k1_off8_eq n)) $$ HY; iintro HY
  iapply (wp_slice16 d L _ _ _ (2 * 53248 + ((wL L).val * 1664 + (128 * (12) + 16 * n.val))) hC.2.2.1 (by omega) (k1_off8_eq n)) $$ HZ; iintro HZ
  iapply (wp_slice16 d L _ _ _ (0 * 53248 + ((wL L).val * 1664 + (128 * (12) + 16 * n.val))) hC.2.2.2 (by omega) (k1_off8_eq n)) $$ HW; iintro HW
  iapply (wp_outStore d L (fun x => (flat0 x).trans_lt (by have hx : (x 0).val < 16 := (x 0).isLt; omega))) $$ HO; iintro HO
  iapply (wp_outStore d L (fun x => (flat1 x).trans_lt (by have hx : (x 0).val < 16 := (x 0).isLt; omega))) $$ HO; iintro HO
  iapply (wp_outStore d L (fun x => (flat2 x).trans_lt (by have hx : (x 0).val < 16 := (x 0).isLt; omega))) $$ HO; iintro HO
  rw [wp_ret]; imodintro
  iframe HR HX HY HZ HW
  iexists _; isplitr; swap; · iexact HO
  ipureintro
  exact partDone_step m d L false 0 (12) n.val (by omega) hn g g' _ _ _ _ _ _ flat0 flat1 flat2 _ _ _ rfl rfl rfl hP

theorem k1_t4_trips : k1_t4_loop.trips = 8 := by decide

end Cert.KI

end
-- ==== Proof.Body1Blend_t8.lean ====
import proofs.«205348_g71287867179597_cont_9to1c4b_113_38_alg».proof.Proof.Body1Blend

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F] [Facts]
open Facts₀ Facts

variable (m : (ℓ : Loc nD τ sig) → Buf (Elt F) ℓ)

local notation "𝕄" => MT nD τ sig (HIx 2) (Elt F) ℕ UU ℕ
variable (d : Dev nD) (L : grid1.Coords)

local macro:max "k1at% " f:term:max L:term:max : term =>
  `($f $L aPtab (Memref.isWhole_whole _) aVt (Memref.isWhole_whole _) aInf (Memref.isWhole_whole _) aWt (Memref.isWhole_whole _)
      aOrn (Memref.isWhole_whole _) aMrep (Memref.isWhole_whole _) aOut0 (Memref.isWhole_whole _) aOut1 (Memref.isWhole_whole _)
      sGv (Memref.isWhole_whole _) sGb (Memref.isWhole_whole _) sVx (Memref.isWhole_whole _) sVy (Memref.isWhole_whole _)
      sVz (Memref.isWhole_whole _) sWt (Memref.isWhole_whole _) sRv (Memref.isWhole_whole _) sRb (Memref.isWhole_whole _)
      sRc (Memref.isWhole_whole _) sOut (Memref.isWhole_whole _) sStg (Memref.isWhole_whole _) sAcc (Memref.isWhole_whole _)
      cc1_scratch12 cc1_scratch13 cc1_scoped0 cc1_scoped1 cc1_scoped2 cc1_scoped3 cc1_scoped4 cc1_scoped5 cc1_scoped6 cc1_scoped7
      cc1_scoped8 cc1_scoped9 cc1_scoped10 cc1_scoped11 cc1_scoped12 cc1_scoped13 cc1_scoped14 cc1_scoped15 cc1_scoped16
      cc1_scoped17 cc1_scoped18 cc1_scoped19 cc1_scoped20)

theorem t8_trip
    (R : Buf (Elt F) ((sRv).view.loc (thr1 d L))) (X : Buf (Elt F) ((sVx).view.loc (thr1 d L))) (Y : Buf (Elt F) ((sVy).view.loc (thr1 d L)))
    (Z : Buf (Elt F) ((sVz).view.loc (thr1 d L))) (W : Buf (Elt F) ((sWt).view.loc (thr1 d L))) (g : Buf (Elt F) ((sOut).view.loc (thr1 d L)))
    (hR : RowsAt m d (infId m d) (1 * 53248 + (wL L).val * 1664 + 128 * (12)) R) (hC : CoordsOK m d L 1 X Y Z W)
    (n : Fin k1_t8_loop.trips) (u : Unit) :
    blendInv m d L sRv true 1 (12) R X Y Z W g n.val u
      ⊢ wp frame (wpE (defs₀ (F := F)) 𝒱₀ (thr1 d L) none) Set.univ
          ((k1at% k1_t8_body L) bv2 k1_pay111 (bv5 L) n u)
          (blendInv m d L sRv true 1 (12) R X Y Z W g (n.val + 1)) := by
  have hn : n.val < 8 := lt_of_lt_of_le n.isLt k1_t8_abs.2.1
  unfold k1_t8_body
  simp only [k1_part11_eq_skeleton, k1_part12_eq_skeleton]
  unfold k1_part11_skel k1_part12_skel
  simp only [Prog.lift, Prog.bind_op, Prog.bind_ret, Prog.pure_eq_ret, bind_assoc, pure_bind]
  have hb := base_tail n.val hn
  have flat0 := fun x => flatIdx_toNat _ (128 * (12) + 16 * n.val) (by omega) hb x
  have flat1 := fun x => flatIdx1_toNat _ _ (by have hx : (x 0).val < 16 := (x 0).isLt; omega) x (flat0 x)
  have flat2 := fun x => flatIdx2_toNat _ _ (by have hx : (x 0).val < 16 := (x 0).isLt; omega) x (flat0 x)
  have hrow := fun x => rowIdx_toNat n.val hn x
  unfold blendInv
  iintro ⟨HR, HX, HY, HZ, HW, %g', %hP, HO⟩
  iterate 12 (iapply (wp_rowWord m d L 1 (12) n.val _ hR (Memref.read_access_whole (Elt F) (cc1_scratch6 : Ref sig .scVector) R) ?hc hn hrow) $$ HR; (case hc => omega); iintro HR)
  iapply (wp_assume 𝒱₀ (thr1 d L) none Set.univ (rows_inb _ _ (fun x => (hrow x).trans_lt (by have hx : (x 0).val < 16 := (x 0).isLt; omega)) (fun x => (colIdx_toNat 12 (by omega) x).trans_lt (by omega))))
  iapply (wp_rowWord' m d L 1 (12) n.val 12 hR (Memref.read_access_whole (Elt F) (cc1_scratch6 : Ref sig .scVector) R) (by omega) hn hrow) $$ HR; iintro HR
  iterate 2 (iapply (wp_rowWord m d L 1 (12) n.val _ hR (Memref.read_access_whole (Elt F) (cc1_scratch6 : Ref sig .scVector) R) ?hc hn hrow) $$ HR; (case hc => omega); iintro HR)
  iapply (wp_slice16 d L _ _ _ ((wL L).val * 1664 + (128 * (12) + 16 * n.val)) hC.1 (by omega) (k1_off13_eq n)) $$ HX; iintro HX
  iapply (wp_slice16 d L _ _ _ (53248 + ((wL L).val * 1664 + (128 * (12) + 16 * n.val))) hC.2.1 (by omega) (k1_off13_eq n)) $$ HY; iintro HY
  iapply (wp_slice16 d L _ _ _ (2 * 53248 + ((wL L).val * 1664 + (128 * (12) + 16 * n.val))) hC.2.2.1 (by omega) (k1_off13_eq n)) $$ HZ; iintro HZ
  iapply (wp_slice16 d L _ _ _ (1 * 53248 + ((wL L).val * 1664 + (128 * (12) + 16 * n.val))) hC.2.2.2 (by omega) (k1_off13_eq n)) $$ HW; iintro HW
  iapply (wp_outStore d L (fun x => (flat0 x).trans_lt (by have hx : (x 0).val < 16 := (x 0).isLt; omega))) $$ HO; iintro HO
  iapply (wp_outStore d L (fun x => (flat1 x).trans_lt (by have hx : (x 0).val < 16 := (x 0).isLt; omega))) $$ HO; iintro HO
  iapply (wp_outStore d L (fun x => (flat2 x).trans_lt (by have hx : (x 0).val < 16 := (x 0).isLt; omega))) $$ HO; iintro HO
  rw [wp_ret]; imodintro
  iframe HR HX HY HZ HW
  iexists _; isplitr; swap; · iexact HO
  ipureintro
  exact partDone_step m d L true 1 (12) n.val (by omega) hn g g' _ _ _ _ _ _ flat0 flat1 flat2 _ _ _ rfl rfl rfl hP

theorem k1_t8_trips : k1_t8_loop.trips = 8 := by decide

end Cert.KI

end
-- ==== Proof.Body1Blend_t12.lean ====
import proofs.«205348_g71287867179597_cont_9to1c4b_113_38_alg».proof.Proof.Body1Blend

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F] [Facts]
open Facts₀ Facts

variable (m : (ℓ : Loc nD τ sig) → Buf (Elt F) ℓ)

local notation "𝕄" => MT nD τ sig (HIx 2) (Elt F) ℕ UU ℕ
variable (d : Dev nD) (L : grid1.Coords)

local macro:max "k1at% " f:term:max L:term:max : term =>
  `($f $L aPtab (Memref.isWhole_whole _) aVt (Memref.isWhole_whole _) aInf (Memref.isWhole_whole _) aWt (Memref.isWhole_whole _)
      aOrn (Memref.isWhole_whole _) aMrep (Memref.isWhole_whole _) aOut0 (Memref.isWhole_whole _) aOut1 (Memref.isWhole_whole _)
      sGv (Memref.isWhole_whole _) sGb (Memref.isWhole_whole _) sVx (Memref.isWhole_whole _) sVy (Memref.isWhole_whole _)
      sVz (Memref.isWhole_whole _) sWt (Memref.isWhole_whole _) sRv (Memref.isWhole_whole _) sRb (Memref.isWhole_whole _)
      sRc (Memref.isWhole_whole _) sOut (Memref.isWhole_whole _) sStg (Memref.isWhole_whole _) sAcc (Memref.isWhole_whole _)
      cc1_scratch12 cc1_scratch13 cc1_scoped0 cc1_scoped1 cc1_scoped2 cc1_scoped3 cc1_scoped4 cc1_scoped5 cc1_scoped6 cc1_scoped7
      cc1_scoped8 cc1_scoped9 cc1_scoped10 cc1_scoped11 cc1_scoped12 cc1_scoped13 cc1_scoped14 cc1_scoped15 cc1_scoped16
      cc1_scoped17 cc1_scoped18 cc1_scoped19 cc1_scoped20)

theorem t12_trip
    (R : Buf (Elt F) ((sRv).view.loc (thr1 d L))) (X : Buf (Elt F) ((sVx).view.loc (thr1 d L))) (Y : Buf (Elt F) ((sVy).view.loc (thr1 d L)))
    (Z : Buf (Elt F) ((sVz).view.loc (thr1 d L))) (W : Buf (Elt F) ((sWt).view.loc (thr1 d L))) (g : Buf (Elt F) ((sOut).view.loc (thr1 d L)))
    (hR : RowsAt m d (infId m d) (2 * 53248 + (wL L).val * 1664 + 128 * (12)) R) (hC : CoordsOK m d L 2 X Y Z W)
    (n : Fin k1_t12_loop.trips) (u : Unit) :
    blendInv m d L sRv true 2 (12) R X Y Z W g n.val u
      ⊢ wp frame (wpE (defs₀ (F := F)) 𝒱₀ (thr1 d L) none) Set.univ
          ((k1at% k1_t12_body L) (bv1 L) bv2 k1_pay111 (bv5 L) n u)
          (blendInv m d L sRv true 2 (12) R X Y Z W g (n.val + 1)) := by
  have hn : n.val < 8 := lt_of_lt_of_le n.isLt k1_t12_abs.2.1
  unfold k1_t12_body
  simp only [k1_part17_eq_skeleton, k1_part18_eq_skeleton]
  unfold k1_part17_skel k1_part18_skel
  simp only [Prog.lift, Prog.bind_op, Prog.bind_ret, Prog.pure_eq_ret, bind_assoc, pure_bind]
  have hb := base_tail n.val hn
  have flat0 := fun x => flatIdx_toNat _ (128 * (12) + 16 * n.val) (by omega) hb x
  have flat1 := fun x => flatIdx1_toNat _ _ (by have hx : (x 0).val < 16 := (x 0).isLt; omega) x (flat0 x)
  have flat2 := fun x => flatIdx2_toNat _ _ (by have hx : (x 0).val < 16 := (x 0).isLt; omega) x (flat0 x)
  have hrow := fun x => rowIdx_toNat n.val hn x
  unfold blendInv
  iintro ⟨HR, HX, HY, HZ, HW, %g', %hP, HO⟩
  iterate 12 (iapply (wp_rowWord m d L 2 (12) n.val _ hR (Memref.read_access_whole (Elt F) (cc1_scratch6 : Ref sig .scVector) R) ?hc hn hrow) $$ HR; (case hc => omega); iintro HR)
  iapply (wp_assume 𝒱₀ (thr1 d L) none Set.univ (rows_inb _ _ (fun x => (hrow x).trans_lt (by have hx : (x 0).val < 16 := (x 0).isLt; omega)) (fun x => (colIdx_toNat 12 (by omega) x).trans_lt (by omega))))
  iapply (wp_rowWord' m d L 2 (12) n.val 12 hR (Memref.read_access_whole (Elt F) (cc1_scratch6 : Ref sig .scVector) R) (by omega) hn hrow) $$ HR; iintro HR
  iterate 2 (iapply (wp_rowWord m d L 2 (12) n.val _ hR (Memref.read_access_whole (Elt F) (cc1_scratch6 : Ref sig .scVector) R) ?hc hn hrow) $$ HR; (case hc => omega); iintro HR)
  iapply (wp_slice16 d L _ _ _ ((wL L).val * 1664 + (128 * (12) + 16 * n.val)) hC.1 (by omega) (k1_off18_eq n)) $$ HX; iintro HX
  iapply (wp_slice16 d L _ _ _ (53248 + ((wL L).val * 1664 + (128 * (12) + 16 * n.val))) hC.2.1 (by omega) (k1_off18_eq n)) $$ HY; iintro HY
  iapply (wp_slice16 d L _ _ _ (2 * 53248 + ((wL L).val * 1664 + (128 * (12) + 16 * n.val))) hC.2.2.1 (by omega) (k1_off18_eq n)) $$ HZ; iintro HZ
  iapply (wp_slice16 d L _ _ _ (2 * 53248 + ((wL L).val * 1664 + (128 * (12) + 16 * n.val))) hC.2.2.2 (by omega) (k1_off18_eq n)) $$ HW; iintro HW
  iapply (wp_outStore d L (fun x => (flat0 x).trans_lt (by have hx : (x 0).val < 16 := (x 0).isLt; omega))) $$ HO; iintro HO
  iapply (wp_outStore d L (fun x => (flat1 x).trans_lt (by have hx : (x 0).val < 16 := (x 0).isLt; omega))) $$ HO; iintro HO
  iapply (wp_outStore d L (fun x => (flat2 x).trans_lt (by have hx : (x 0).val < 16 := (x 0).isLt; omega))) $$ HO; iintro HO
  rw [wp_ret]; imodintro
  iframe HR HX HY HZ HW
  iexists _; isplitr; swap; · iexact HO
  ipureintro
  exact partDone_step m d L true 2 (12) n.val (by omega) hn g g' _ _ _ _ _ _ flat0 flat1 flat2 _ _ _ rfl rfl rfl hP

theorem k1_t12_trips : k1_t12_loop.trips = 8 := by decide

end Cert.KI

end
-- ==== Proof.Body1Fin.lean ====
import proofs.«205348_g71287867179597_cont_9to1c4b_113_38_alg».proof.Proof.Body1Val
import proofs.«205348_g71287867179597_cont_9to1c4b_113_38_alg».proof.Proof.Body1Out

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F] [Facts]
open Facts₀ Facts

variable (m : (ℓ : Loc nD τ sig) → Buf (Elt F) ℓ)

local notation "𝕄" => MT nD τ sig (HIx 2) (Elt F) ℕ UU ℕ

section Tile

variable (d : Dev nD) (L : grid1.Coords)

theorem blendTile_of {g : S4992.Idx → Elt F .f32} (h : BlendInv m d L 2 13 g) (base : Buf (Elt F) ((out0K L).view.loc (thr1 d L))) :
    BlendTile m d (wL L) ((out0K L).view.writes (Elt F) base [⟨Rect.whole S4992, ReadAs.same.apply (View.read (Elt F) (sOut).view g)⟩]) := by
  intro u i hu hi
  have hw := (wL L).isLt
  have hp : (wL L).val * 4992 + 3 * u + i < 159744 := by omega
  have hj : 3 * u + i < 4992 := by omega
  rw [at1_of_lt _ _ _ hp]
  have e' : ValueIdx.ix1 (⟨(wL L).val * 4992 + 3 * u + i, hp⟩ : Fin 159744) = (out0K L).view.emb (ValueIdx.ix1 ⟨3 * u + i, hj⟩) := by
    rw [out0K_emb L ⟨3 * u + i, hj⟩]
    congr 1
    exact Fin.ext (by show (wL L).val * 4992 + 3 * u + i = (wL L).val * 4992 + (3 * u + i); omega)
  rw [e']
  have key := View.read_writes_cons_emb (out0K L).view base (Rect.whole S4992) (ReadAs.same.apply (View.read (Elt F) (sOut).view g)) []
    (ValueIdx.ix1 ⟨3 * u + i, hj⟩)
  rw [Rect.emb_whole_apply, View.read_apply] at key
  have key2 := eq_of_heq ((cast_heq _ _).symm.trans (heq_of_eq key))
  rw [key2]
  exact BlendInv_done m d L h u i hu hi

theorem lossTile_of {a0 a1 : Vec F S16 .f32} (hacc : (a0, a1) = lossAcc m d (wL L) 448) (A : Buf (Elt F) ((sAcc).view.loc (thr1 d L)))
    (hA0 : ∀ l : Fin 16, A (ValueIdx.ix1 ⟨l.val, by omega⟩) = a0 (ValueIdx.ix1 l)) (hA1 : ∀ l : Fin 16, A (ValueIdx.ix1 ⟨16 + l.val, by omega⟩) = a1 (ValueIdx.ix1 l))
    (base : Buf (Elt F) ((out1K L).view.loc (thr1 d L))) :
    LossTile m d (wL L) ((out1K L).view.writes (Elt F) base [⟨Rect.whole S32, ReadAs.same.apply (View.read (Elt F) (sAcc).view A)⟩]) := by
  intro l
  have hw := (wL L).isLt
  have hl := l.isLt
  have h0 : a0 = (lossAcc m d (wL L) 448).1 := congrArg Prod.fst hacc
  have h1 : a1 = (lossAcc m d (wL L) 448).2 := congrArg Prod.snd hacc
  constructor
  · have hp : (wL L).val * 32 + l.val < 1024 := by omega
    have hj : l.val < 32 := by omega
    rw [at1_of_lt _ _ _ hp]
    have e' : ValueIdx.ix1 (⟨(wL L).val * 32 + l.val, hp⟩ : Fin 1024) = (out1K L).view.emb (ValueIdx.ix1 ⟨l.val, hj⟩) :=
      (out1K_emb L ⟨l.val, hj⟩).symm
    rw [e']
    have key := View.read_writes_cons_emb (out1K L).view base (Rect.whole S32) (ReadAs.same.apply (View.read (Elt F) (sAcc).view A)) []
      (ValueIdx.ix1 ⟨l.val, hj⟩)
    rw [Rect.emb_whole_apply, View.read_apply] at key
    have key2 := eq_of_heq ((cast_heq _ _).symm.trans (heq_of_eq key))
    rw [key2, ← h0]
    exact hA0 l
  · have hp : (wL L).val * 32 + 16 + l.val < 1024 := by omega
    have hj : 16 + l.val < 32 := by omega
    rw [at1_of_lt _ _ _ hp]
    have e' : ValueIdx.ix1 (⟨(wL L).val * 32 + 16 + l.val, hp⟩ : Fin 1024) = (out1K L).view.emb (ValueIdx.ix1 ⟨16 + l.val, hj⟩) := by
      rw [out1K_emb L ⟨16 + l.val, hj⟩]
      congr 1
      exact Fin.ext (by show (wL L).val * 32 + 16 + l.val = (wL L).val * 32 + (16 + l.val); omega)
    rw [e']
    have key := View.read_writes_cons_emb (out1K L).view base (Rect.whole S32) (ReadAs.same.apply (View.read (Elt F) (sAcc).view A)) []
      (ValueIdx.ix1 ⟨16 + l.val, hj⟩)
    rw [Rect.emb_whole_apply, View.read_apply] at key
    have key2 := eq_of_heq ((cast_heq _ _).symm.trans (heq_of_eq key))
    rw [key2, ← h1]
    exact hA1 l

end Tile

end Cert.KI

end
-- ==== Proof.Body1Acc.lean ====
import proofs.«205348_g71287867179597_cont_9to1c4b_113_38_alg».proof.Proof.Body1Ifc
import Idealize.ShloMosaic.Lib.Writes

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F] [Facts]
open Facts₀ Facts

local notation "𝕄" => MT nD τ sig (HIx 2) (Elt F) ℕ UU ℕ

omit [FloatOps F] [Facts] in
theorem lo_emb (l : Fin 16) :
    (Rect.unit (s := S32) ![0] S16.size Gen.inb_S32_S16_0).emb (ValueIdx.ix1 l) = ValueIdx.ix1 ⟨l.val, by omega⟩ := by
  funext a
  obtain rfl : a = 0 := Subsingleton.elim _ _
  exact Fin.ext (by show 0 + 1 * l.val = l.val; omega)

omit [FloatOps F] [Facts] in
theorem hi_emb (l : Fin 16) :
    (Rect.unit (s := S32) ![16] S16.size Gen.inb_S32_S16_16).emb (ValueIdx.ix1 l) = ValueIdx.ix1 ⟨16 + l.val, by omega⟩ := by
  funext a
  obtain rfl : a = 0 := Subsingleton.elim _ _
  exact Fin.ext (by show 16 + 1 * l.val = 16 + l.val; omega)

omit [FloatOps F] [Facts] in
theorem lo_not_mem_hi (l : Fin 16) :
    (ValueIdx.ix1 ⟨l.val, by omega⟩ : S32.Idx) ∉ (Finset.univ : Finset (Rect.unit (s := S32) ![16] S16.size Gen.inb_S32_S16_16).shape.Idx).map (Rect.unit (s := S32) ![16] S16.size Gen.inb_S32_S16_16).emb := by
  rw [Rect.map_emb_univ, Rect.mem_set_unit]
  intro h
  have h' : 16 ≤ l.val ∧ l.val < 16 + 16 := h 0
  omega

omit [FloatOps F] [Facts] in
theorem hi_not_mem_lo (l : Fin 16) :
    (ValueIdx.ix1 ⟨16 + l.val, by omega⟩ : S32.Idx) ∉ (Finset.univ : Finset (Rect.unit (s := S32) ![0] S16.size Gen.inb_S32_S16_0).shape.Idx).map (Rect.unit (s := S32) ![0] S16.size Gen.inb_S32_S16_0).emb := by
  rw [Rect.map_emb_univ, Rect.mem_set_unit]
  intro h
  have h' : 0 ≤ 16 + l.val ∧ 16 + l.val < 0 + 16 := h 0
  omega

section Tile

variable (d : Dev nD) (L : grid1.Coords)

theorem acc_lo (f : Buf (Elt F) ((sAcc).view.loc (thr1 d L))) (a0 a1 : Vec F S16 .f32) (l : Fin 16) :
    (sAcc).view.writes (Elt F) f [⟨(Rect.unit (s := S32) ![16] S16.size Gen.inb_S32_S16_16), a1⟩, ⟨(Rect.unit (s := S32) ![0] S16.size Gen.inb_S32_S16_0), a0⟩] (ValueIdx.ix1 ⟨l.val, by omega⟩) = a0 (ValueIdx.ix1 l) := by
  show (sAcc).view.read (Elt F) ((sAcc).view.writes (Elt F) f [⟨(Rect.unit (s := S32) ![16] S16.size Gen.inb_S32_S16_16), a1⟩, ⟨(Rect.unit (s := S32) ![0] S16.size Gen.inb_S32_S16_0), a0⟩]) (ValueIdx.ix1 ⟨l.val, by omega⟩) = _
  rw [View.writes_cons, View.read_slice_write_of_not_mem _ _ _ _ (lo_not_mem_hi l), ← lo_emb l]
  exact View.read_writes_cons_emb (sAcc).view f (Rect.unit (s := S32) ![0] S16.size Gen.inb_S32_S16_0) a0 [] (ValueIdx.ix1 l)

theorem acc_hi (f : Buf (Elt F) ((sAcc).view.loc (thr1 d L))) (a0 a1 : Vec F S16 .f32) (l : Fin 16) :
    (sAcc).view.writes (Elt F) f [⟨(Rect.unit (s := S32) ![16] S16.size Gen.inb_S32_S16_16), a1⟩, ⟨(Rect.unit (s := S32) ![0] S16.size Gen.inb_S32_S16_0), a0⟩] (ValueIdx.ix1 ⟨16 + l.val, by omega⟩) = a1 (ValueIdx.ix1 l) := by
  show (sAcc).view.read (Elt F) ((sAcc).view.writes (Elt F) f [⟨(Rect.unit (s := S32) ![16] S16.size Gen.inb_S32_S16_16), a1⟩, ⟨(Rect.unit (s := S32) ![0] S16.size Gen.inb_S32_S16_0), a0⟩]) (ValueIdx.ix1 ⟨16 + l.val, by omega⟩) = _
  rw [← hi_emb l]
  exact View.read_writes_cons_emb (sAcc).view f (Rect.unit (s := S32) ![16] S16.size Gen.inb_S32_S16_16) a1 _ (ValueIdx.ix1 l)

theorem acc_lo' (f : Buf (Elt F) ((sAcc).view.loc (thr1 d L))) (a0 a1 : Vec F S16 .f32) (l : Fin 16) :
    (sAcc).view.writes (Elt F) f [⟨(Rect.unit (s := S32) ![0] S16.size Gen.inb_S32_S16_0), a0⟩, ⟨(Rect.unit (s := S32) ![16] S16.size Gen.inb_S32_S16_16), a1⟩] (ValueIdx.ix1 ⟨l.val, by omega⟩) = a0 (ValueIdx.ix1 l) := by
  show (sAcc).view.read (Elt F) ((sAcc).view.writes (Elt F) f [⟨(Rect.unit (s := S32) ![0] S16.size Gen.inb_S32_S16_0), a0⟩, ⟨(Rect.unit (s := S32) ![16] S16.size Gen.inb_S32_S16_16), a1⟩]) (ValueIdx.ix1 ⟨l.val, by omega⟩) = _
  rw [← lo_emb l]
  exact View.read_writes_cons_emb (sAcc).view f (Rect.unit (s := S32) ![0] S16.size Gen.inb_S32_S16_0) a0 _ (ValueIdx.ix1 l)

theorem acc_hi' (f : Buf (Elt F) ((sAcc).view.loc (thr1 d L))) (a0 a1 : Vec F S16 .f32) (l : Fin 16) :
    (sAcc).view.writes (Elt F) f [⟨(Rect.unit (s := S32) ![0] S16.size Gen.inb_S32_S16_0), a0⟩, ⟨(Rect.unit (s := S32) ![16] S16.size Gen.inb_S32_S16_16), a1⟩] (ValueIdx.ix1 ⟨16 + l.val, by omega⟩) = a1 (ValueIdx.ix1 l) := by
  show (sAcc).view.read (Elt F) ((sAcc).view.writes (Elt F) f [⟨(Rect.unit (s := S32) ![0] S16.size Gen.inb_S32_S16_0), a0⟩, ⟨(Rect.unit (s := S32) ![16] S16.size Gen.inb_S32_S16_16), a1⟩]) (ValueIdx.ix1 ⟨16 + l.val, by omega⟩) = _
  rw [View.writes_cons, View.read_slice_write_of_not_mem _ _ _ _ (hi_not_mem_lo l), ← hi_emb l]
  exact View.read_writes_cons_emb (sAcc).view f (Rect.unit (s := S32) ![16] S16.size Gen.inb_S32_S16_16) a1 [] (ValueIdx.ix1 l)

end Tile

end Cert.KI

end
-- ==== Proof.Body1.lean ====
import proofs.«205348_g71287867179597_cont_9to1c4b_113_38_alg».proof.Proof.Body1Pair
import proofs.«205348_g71287867179597_cont_9to1c4b_113_38_alg».proof.Proof.Body1Res
import proofs.«205348_g71287867179597_cont_9to1c4b_113_38_alg».proof.Proof.Body1Coord
import proofs.«205348_g71287867179597_cont_9to1c4b_113_38_alg».proof.Proof.Body1EdgesOuter
import proofs.«205348_g71287867179597_cont_9to1c4b_113_38_alg».proof.Proof.Body1Blend_t4
import proofs.«205348_g71287867179597_cont_9to1c4b_113_38_alg».proof.Proof.Body1Blend_t8
import proofs.«205348_g71287867179597_cont_9to1c4b_113_38_alg».proof.Proof.Body1Blend_t12
import proofs.«205348_g71287867179597_cont_9to1c4b_113_38_alg».proof.Proof.Body1Fin
import proofs.«205348_g71287867179597_cont_9to1c4b_113_38_alg».proof.Proof.Body1Acc

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F] [Facts]
open Facts₀ Facts

variable (m : (ℓ : Loc nD τ sig) → Buf (Elt F) ℓ)

local notation "𝕄" => MT nD τ sig (HIx 2) (Elt F) ℕ UU ℕ

local macro:max "k1at% " f:term:max L:term:max : term =>
  `($f $L aPtab (Memref.isWhole_whole _) aVt (Memref.isWhole_whole _) aInf (Memref.isWhole_whole _) aWt (Memref.isWhole_whole _)
      aOrn (Memref.isWhole_whole _) aMrep (Memref.isWhole_whole _) aOut0 (Memref.isWhole_whole _) aOut1 (Memref.isWhole_whole _)
      sGv (Memref.isWhole_whole _) sGb (Memref.isWhole_whole _) sVx (Memref.isWhole_whole _) sVy (Memref.isWhole_whole _)
      sVz (Memref.isWhole_whole _) sWt (Memref.isWhole_whole _) sRv (Memref.isWhole_whole _) sRb (Memref.isWhole_whole _)
      sRc (Memref.isWhole_whole _) sOut (Memref.isWhole_whole _) sStg (Memref.isWhole_whole _) sAcc (Memref.isWhole_whole _)
      cc1_scratch12 cc1_scratch13 cc1_scoped0 cc1_scoped1 cc1_scoped2 cc1_scoped3 cc1_scoped4 cc1_scoped5 cc1_scoped6 cc1_scoped7
      cc1_scoped8 cc1_scoped9 cc1_scoped10 cc1_scoped11 cc1_scoped12 cc1_scoped13 cc1_scoped14 cc1_scoped15 cc1_scoped16
      cc1_scoped17 cc1_scoped18 cc1_scoped19 cc1_scoped20)

section Tile

variable (d : Dev nD) (L : grid1.Coords)

theorem k1_off7_pos (k : Fin 3) : k1_off7 L (BitVec.ofNat 32 (53248 * k.val)) 0 = k.val * 53248 + (wL L).val * 1664 + 128 * 12 := by
  rw [Gen.k1_off7_eq L k, wL_val]; simp only [Matrix.cons_val_zero]; omega

theorem edge_call (hRg : RangesOK m) (O : CellTallies nD τ sig (HIx 2)) (W₀ : Waits sig (HIx 2))
    (fP : Buf (Elt F) ((aPtab).view.loc (thr1 d L))) (hP : PtabOK m d fP) :
    iprop(Transfers.MayWaits (thr1 d L) (none : HIx 2) O
        ∗ ((aPtab).view.loc (thr1 d L) ↦{rd (wL L)} fP) ∗ ((aOrn).view.loc (thr1 d L) ↦{rd (wL L)} tOrn m d) ∗ ((aMrep).view.loc (thr1 d L) ↦{rd (wL L)} tMrep m d)
        ∗ (∃ f, (sGv).view.loc (thr1 d L) ↦{fullShare} f) ∗ (∃ f, (sGb).view.loc (thr1 d L) ↦{fullShare} f)
        ∗ (∃ f, (sRv).view.loc (thr1 d L) ↦{fullShare} f) ∗ (∃ f, (sRb).view.loc (thr1 d L) ↦{fullShare} f) ∗ (∃ f, (sRc).view.loc (thr1 d L) ↦{fullShare} f)
        ∗ (∃ f, (sStg).view.loc (thr1 d L) ↦{fullShare} f)
        ∗ semVal (thr1 d L, SemLoc.dma cc1_scratch12.sem) 0 ∗ semVal (thr1 d L, SemLoc.dma cc1_scratch13.sem) 0
        ∗ semVal (thr1 d L, SemLoc.dma cc1_scoped16.sem) 0 ∗ semVal (thr1 d L, SemLoc.dma cc1_scoped17.sem) 0
        ∗ semVal (thr1 d L, SemLoc.dma cc1_scoped18.sem) 0 ∗ semVal (thr1 d L, SemLoc.dma cc1_scoped19.sem) 0
        ∗ ∃ Wc, ⌜∀ p ∈ Wc, p ∈ W₀ ∨ p.2 = none⌝ ∗ owes (thr1 d L) O Wc)
      ⊢ (wp frame (wpE (defs₀ (F := F)) 𝒱₀ (thr1 d L) none) Set.univ
          (Scf.Loop.for k1_t13_loop Facts₀.k1_t13_ok (k1_pay112 (F := F), k1_pay113 (F := F))
            ((k1at% k1_t13_body L) (bv1 L) bv2 k1_pay111 (bv5 L) (Scalar.muli (bv1 L) 7168#32)))
          fun acc => iprop(⌜acc = lossAcc m d (wL L) 448⌝
            ∗ Transfers.MayWaits (thr1 d L) (none : HIx 2) O
            ∗ ((aPtab).view.loc (thr1 d L) ↦{rd (wL L)} fP) ∗ ((aOrn).view.loc (thr1 d L) ↦{rd (wL L)} tOrn m d) ∗ ((aMrep).view.loc (thr1 d L) ↦{rd (wL L)} tMrep m d)
            ∗ (∃ f, (sGv).view.loc (thr1 d L) ↦{fullShare} f) ∗ (∃ f, (sGb).view.loc (thr1 d L) ↦{fullShare} f)
            ∗ (∃ f, (sRv).view.loc (thr1 d L) ↦{fullShare} f) ∗ (∃ f, (sRb).view.loc (thr1 d L) ↦{fullShare} f) ∗ (∃ f, (sRc).view.loc (thr1 d L) ↦{fullShare} f)
            ∗ (∃ f, (sStg).view.loc (thr1 d L) ↦{fullShare} f)
            ∗ semVal (thr1 d L, SemLoc.dma cc1_scratch12.sem) 0 ∗ semVal (thr1 d L, SemLoc.dma cc1_scratch13.sem) 0
            ∗ semVal (thr1 d L, SemLoc.dma cc1_scoped16.sem) 0 ∗ semVal (thr1 d L, SemLoc.dma cc1_scoped17.sem) 0
            ∗ semVal (thr1 d L, SemLoc.dma cc1_scoped18.sem) 0 ∗ semVal (thr1 d L, SemLoc.dma cc1_scoped19.sem) 0
            ∗ ∃ W', ⌜∀ p ∈ W', p ∈ W₀ ∨ p.2 = none⌝ ∗ owes (thr1 d L) O W') : sProp 𝕄) := by
  iintro ⟨Hmw, Hpt, Horn, Hmrep, Hgv, Hgb, Hrv, Hrb, Hrc, Hstg, Hs12, Hs13, Hc16, Hc17, Hc18, Hc19, %Wc, %hWc, HO⟩
  iapply (edge_wp' m d L hRg O W₀ Wc hWc fP hP)
  isplitl [Hmw]; · iexact Hmw
  isplitl [Hpt]; · iexact Hpt
  isplitl [Horn]; · iexact Horn
  isplitl [Hmrep]; · iexact Hmrep
  isplitl [Hgv]; · iexact Hgv
  isplitl [Hgb]; · iexact Hgb
  isplitl [Hrv]; · iexact Hrv
  isplitl [Hrb]; · iexact Hrb
  isplitl [Hrc]; · iexact Hrc
  isplitl [Hstg]; · iexact Hstg
  isplitl [Hs12]; · iexact Hs12
  isplitl [Hs13]; · iexact Hs13
  isplitl [Hc16]; · iexact Hc16
  isplitl [Hc17]; · iexact Hc17
  isplitl [Hc18]; · iexact Hc18
  isplitl [Hc19]; · iexact Hc19
  iexact HO

abbrev wtRead (k : Fin 3) : S1664.Idx → Elt F .f32 :=
  ((aWt).slice (Rect.unit (s := S159744) (k1_off2 L (BitVec.ofNat 32 (53248 * k.val))) S1664.size (Gen.k1_off2_inb L k)) (fun _ => rfl)).view.read (Elt F) (tWt m d)

set_option maxHeartbeats 16000000 in
theorem tile_body1 (hRg : RangesOK m) (O : CellTallies nD τ sig (HIx 2)) (W : Waits sig (HIx 2)) (hO : ∀ g, O g none = 0) :
    iprop(levAts (K (F := F)).L (K (F := F)).lev ∗ emp ∗ go1 m d (wL L) ∗ scopedBufs (thr1 d L) ∗ scopedSems0 (thr1 d L) ∗ owes (thr1 d L) O W)
      ⊢ (wp frame (wpE (defs₀ (F := F)) 𝒱₀ (thr1 d L) none) Set.univ (k1at% cc1__warp_losses L)
          fun _ => iprop(td1 m d (wL L) ∗ scopedBufs (thr1 d L) ∗ scopedSems0 (thr1 d L)
            ∗ ∃ W', ⌜∀ p ∈ W', p ∈ W ∨ p.2 = none⌝ ∗ owes (thr1 d L) O W') : sProp 𝕄) := by
  simp only [cc1__warp_losses_eq_skeleton]; unfold cc1__warp_losses_skel
  simp only [k1_part26_eq_skeleton, k1_part27_eq_skeleton, k1_part28_eq_skeleton]; unfold k1_part26_skel k1_part27_skel k1_part28_skel
  rw [(K (F := F)).scopedBufs_V facts d (cV1 L) (jV1 L), SparseCore.Cfg.scopedSems0_V (Val := Elt F) d (cV1 L) (jV1 L), ownSems0_V1, ownBufs_V1]
  unfold go1
  iintro ⟨#Hlv, -, ⟨⟨%fP, %hP, Hpt⟩, Hvt, Hinf, Hwt, Horn, Hmrep, Ho0, Ho1⟩,
    ⟨⟨%f0, Hgv⟩, ⟨%f1, Hgb⟩, ⟨%f2, Hx⟩, ⟨%f3, Hy⟩, ⟨%f4, Hz⟩, ⟨%f5, Hw⟩, ⟨%f6, Hrv⟩, ⟨%f7, Hrb⟩, ⟨%f8, Hrc⟩, ⟨%f9, Hout⟩, ⟨%f10, Hstg⟩, ⟨%f11, Hacc⟩, Hbufs⟩,
    ⟨Hs12, Hs13, Hc0, Hc1, Hc2, Hc3, Hc4, Hc5, Hc6, Hc7, Hc8, Hc9, Hc10, Hc11, Hc12, Hc13, Hc14, Hc15, Hc16, Hc17, Hc18, Hc19, Hc20, Hsems⟩, HO⟩
  ihave Hmw := ((K (F := F)).mayWaits_none (thr := thr1 d L) hO) $$ Hlv
  ihave Hpt' := (Entails.of_eq (pts_aPtab (F := F) d L _ _).symm) $$ Hpt
  ihave Hvt' := (Entails.of_eq (pts_aVt (F := F) d L _ _).symm) $$ Hvt
  ihave Hinf' := (Entails.of_eq (pts_aInf (F := F) d L _ _).symm) $$ Hinf
  ihave Hwt' := (Entails.of_eq (pts_aWt (F := F) d L _ _).symm) $$ Hwt
  ihave Horn' := (Entails.of_eq (pts_aOrn (F := F) d L _ _).symm) $$ Horn
  ihave Hmrep' := (Entails.of_eq (pts_aMrep (F := F) d L _ _).symm) $$ Hmrep
  ihave Ho0' := (Entails.of_eq (pts_out0 (F := F) d L _).symm) $$ Ho0
  ihave Ho1' := (Entails.of_eq (pts_out1 (F := F) d L _).symm) $$ Ho1
  sl_exec
  have hC0 := coordsOK_of m d L 0 f2 f3 f4 f5 _ _ _ _ rfl rfl rfl rfl
  repeat (sl_rw [bind_assoc])
  iapply (wp_call_bind (t1_wp m d L hRg O W fP _ _ _ _ hP hC0)) $$ [Hinf' Hpt' Hgv Hgb Hrv Hrb Hx Hy Hz Hw Hout Hc4 Hc5 Hs12 Hs13 HO]
  · unfold inv1
    isplitr; · iexact Hmw
    isplitl [Hinf']; · iexact Hinf'
    isplitl [Hpt']; · iexact Hpt'
    isplitl [Hgv]; · iexists _; iexact Hgv
    isplitl [Hgb]; · iexists _; iexact Hgb
    isplitl [Hrv]; · iexists _; iexact Hrv
    isplitl [Hrb]; · iexists _; iexact Hrb
    isplitl [Hx]; · iexact Hx
    isplitl [Hy]; · iexact Hy
    isplitl [Hz]; · iexact Hz
    isplitl [Hw]; · iexact Hw
    isplitl [Hout]
    · iexists _; isplitr
      rotate_left
      · iexact Hout
      · ipureintro; exact BlendInv_start m d L _
    isplitl [Hc4]; · iexact Hc4
    isplitl [Hc5]; · iexact Hc5
    isplitl [Hs12]; · iexact Hs12
    isplitl [Hs13]; · iexact Hs13
    iexists _; isplitr
    rotate_left
    · iexact HO
    · ipureintro; intro p hp
      simp only [Finset.mem_insert] at hp
      aesop

  iintro %_ HI
  unfold inv1
  icases HI with ⟨-, Hinf', Hpt', ⟨%fgv0, Hgv⟩, ⟨%fgb0, Hgb⟩, ⟨%frv0, Hrv⟩, ⟨%frb0, Hrb⟩, Hx, Hy, Hz, Hw, ⟨%g0, %hg0, Hout⟩, Hc4, Hc5, Hs12, Hs13, %W0, %hW0, HO⟩

  have hg0' : BlendInv m d L 0 12 g0 := hg0
  sl_exec
  have hinT0 := gv_inb m d L hRg fgv0 _ (k1_off7 L 0#32) (Gen.k1_off7_inb L 0) rfl
  sl_exec
  have hRT0 := fun (fr : Buf (Elt F) ((sRv).view.loc (thr1 d L))) =>
    rows_v m d L hRg fP hP fr fgv0 _ (k1_off7 L 0#32) (Gen.k1_off7_inb L 0) rfl (fun _ => rfl) (by decide) hinT0
  have hposT0 : k1_off7 L 0#32 0 = 0 * 53248 + (wL L).val * 1664 + 128 * 12 := k1_off7_pos L 0
  rw [hposT0] at hRT0
  repeat (sl_rw [bind_assoc])
  iapply (wp_call_bind (blend_for m d L sRv false 0 12 k1_t4_loop Facts₀.k1_t4_ok k1_t4_trips _ _ _ _ _ _ g0 (t4_trip m d L _ _ _ _ _ g0 (hRT0 _) hC0))) $$ [Hrv Hx Hy Hz Hw Hout]
  · isplitl [Hrv]; · iexact Hrv
    isplitl [Hx]; · iexact Hx
    isplitl [Hy]; · iexact Hy
    isplitl [Hz]; · iexact Hz
    isplitl [Hw]; · iexact Hw
    iexact Hout
  iintro %_ ⟨Hrv, Hx, Hy, Hz, Hw, %gT0, %hgT0', Hout⟩
  have hgT0 : BlendInv m d L 0 13 gT0 := BlendInv_step m d L hg0' hgT0'

  sl_exec
  have hC1 := coordsOK_next m d L 1 hC0 (View.write (Elt F) sWt.view f5 (wtRead m d L 0) Finset.univ) _ rfl
  repeat (sl_rw [bind_assoc])
  iapply (wp_call_bind (t5_wp m d L hRg O W fP _ _ _ _ hP hC1)) $$ [Hinf' Hpt' Hgv Hgb Hrv Hrb Hx Hy Hz Hw Hout Hc8 Hc9 Hs12 Hs13 HO]
  · unfold inv5
    isplitr; · iexact Hmw
    isplitl [Hinf']; · iexact Hinf'
    isplitl [Hpt']; · iexact Hpt'
    isplitl [Hgv]; · iexists _; iexact Hgv
    isplitl [Hgb]; · iexists _; iexact Hgb
    isplitl [Hrv]; · iexists _; iexact Hrv
    isplitl [Hrb]; · iexists _; iexact Hrb
    isplitl [Hx]; · iexact Hx
    isplitl [Hy]; · iexact Hy
    isplitl [Hz]; · iexact Hz
    isplitl [Hw]; · iexact Hw
    isplitl [Hout]
    · iexists _; isplitr
      rotate_left
      · iexact Hout
      · ipureintro; exact BlendInv_next m d L hgT0
    isplitl [Hc8]; · iexact Hc8
    isplitl [Hc9]; · iexact Hc9
    isplitl [Hs12]; · iexact Hs12
    isplitl [Hs13]; · iexact Hs13
    iexists _; isplitr
    rotate_left
    · iexact HO
    · ipureintro; intro p hp
      simp only [Finset.mem_insert] at hp
      aesop

  iintro %_ HI
  unfold inv5
  icases HI with ⟨-, Hinf', Hpt', ⟨%fgv1, Hgv⟩, ⟨%fgb1, Hgb⟩, ⟨%frv1, Hrv⟩, ⟨%frb1, Hrb⟩, Hx, Hy, Hz, Hw, ⟨%g1, %hg1, Hout⟩, Hc8, Hc9, Hs12, Hs13, %W1, %hW1, HO⟩

  have hg1' : BlendInv m d L 1 12 g1 := hg1
  sl_exec

  have hinT1 := gv_inb m d L hRg fgv1 _ (k1_off7 L 53248#32) (Gen.k1_off7_inb L 1) rfl
  sl_exec
  have hRT1 := fun (fr : Buf (Elt F) ((sRv).view.loc (thr1 d L))) =>
    rows_v m d L hRg fP hP fr fgv1 _ (k1_off7 L 53248#32) (Gen.k1_off7_inb L 1) rfl (fun _ => rfl) (by decide) hinT1
  have hposT1 : k1_off7 L 53248#32 0 = 1 * 53248 + (wL L).val * 1664 + 128 * 12 := k1_off7_pos L 1
  rw [hposT1] at hRT1
  repeat (sl_rw [bind_assoc])
  iapply (wp_call_bind (blend_for m d L sRv true 1 12 k1_t8_loop Facts₀.k1_t8_ok k1_t8_trips _ _ _ _ _ _ g1 (t8_trip m d L _ _ _ _ _ g1 (hRT1 _) hC1))) $$ [Hrv Hx Hy Hz Hw Hout]
  · isplitl [Hrv]; · iexact Hrv
    isplitl [Hx]; · iexact Hx
    isplitl [Hy]; · iexact Hy
    isplitl [Hz]; · iexact Hz
    isplitl [Hw]; · iexact Hw
    iexact Hout
  iintro %_ ⟨Hrv, Hx, Hy, Hz, Hw, %gT1, %hgT1', Hout⟩
  have hgT1 : BlendInv m d L 1 13 gT1 := BlendInv_step m d L hg1' hgT1'

  sl_exec
  have hC2 := coordsOK_next m d L 2 hC1 (View.write (Elt F) sWt.view (View.write (Elt F) sWt.view f5 (wtRead m d L 0) Finset.univ) (wtRead m d L 1) Finset.univ) _ rfl
  repeat (sl_rw [bind_assoc])
  iapply (wp_call_bind (t9_wp m d L hRg O W fP _ _ _ _ hP hC2)) $$ [Hinf' Hpt' Hgv Hgb Hrv Hrb Hx Hy Hz Hw Hout Hc12 Hc13 Hs12 Hs13 HO]
  · unfold inv9
    isplitr; · iexact Hmw
    isplitl [Hinf']; · iexact Hinf'
    isplitl [Hpt']; · iexact Hpt'
    isplitl [Hgv]; · iexists _; iexact Hgv
    isplitl [Hgb]; · iexists _; iexact Hgb
    isplitl [Hrv]; · iexists _; iexact Hrv
    isplitl [Hrb]; · iexists _; iexact Hrb
    isplitl [Hx]; · iexact Hx
    isplitl [Hy]; · iexact Hy
    isplitl [Hz]; · iexact Hz
    isplitl [Hw]; · iexact Hw
    isplitl [Hout]
    · iexists _; isplitr
      rotate_left
      · iexact Hout
      · ipureintro; exact BlendInv_next m d L hgT1
    isplitl [Hc12]; · iexact Hc12
    isplitl [Hc13]; · iexact Hc13
    isplitl [Hs12]; · iexact Hs12
    isplitl [Hs13]; · iexact Hs13
    iexists _; isplitr
    rotate_left
    · iexact HO
    · ipureintro; intro p hp
      simp only [Finset.mem_insert] at hp
      aesop

  iintro %_ HI
  unfold inv9
  icases HI with ⟨-, Hinf', Hpt', ⟨%fgv2, Hgv⟩, ⟨%fgb2, Hgb⟩, ⟨%frv2, Hrv⟩, ⟨%frb2, Hrb⟩, Hx, Hy, Hz, Hw, ⟨%g2, %hg2, Hout⟩, Hc12, Hc13, Hs12, Hs13, %W2, %hW2, HO⟩

  have hg2' : BlendInv m d L 2 12 g2 := hg2
  sl_exec

  have hinT2 := gv_inb m d L hRg fgv2 _ (k1_off7 L 106496#32) (Gen.k1_off7_inb L 2) rfl
  sl_exec
  have hRT2 := fun (fr : Buf (Elt F) ((sRv).view.loc (thr1 d L))) =>
    rows_v m d L hRg fP hP fr fgv2 _ (k1_off7 L 106496#32) (Gen.k1_off7_inb L 2) rfl (fun _ => rfl) (by decide) hinT2
  have hposT2 : k1_off7 L 106496#32 0 = 2 * 53248 + (wL L).val * 1664 + 128 * 12 := k1_off7_pos L 2
  rw [hposT2] at hRT2
  repeat (sl_rw [bind_assoc])
  iapply (wp_call_bind (blend_for m d L sRv true 2 12 k1_t12_loop Facts₀.k1_t12_ok k1_t12_trips _ _ _ _ _ _ g2 (t12_trip m d L _ _ _ _ _ g2 (hRT2 _) hC2))) $$ [Hrv Hx Hy Hz Hw Hout]
  · isplitl [Hrv]; · iexact Hrv
    isplitl [Hx]; · iexact Hx
    isplitl [Hy]; · iexact Hy
    isplitl [Hz]; · iexact Hz
    isplitl [Hw]; · iexact Hw
    iexact Hout
  iintro %_ ⟨Hrv, Hx, Hy, Hz, Hw, %gT2, %hgT2', Hout⟩
  have hgT2 : BlendInv m d L 2 13 gT2 := BlendInv_step m d L hg2' hgT2'

  sl_exec
  repeat (sl_rw [bind_assoc])
  iapply (wp_call_bind (edge_call m d L hRg O W fP hP)) $$ [Hpt' Horn' Hmrep' Hgv Hgb Hrv Hrb Hrc Hstg Hs12 Hs13 Hc16 Hc17 Hc18 Hc19 HO]
  · isplitr; · iexact Hmw
    isplitl [Hpt']; · iexact Hpt'
    isplitl [Horn']; · iexact Horn'
    isplitl [Hmrep']; · iexact Hmrep'
    isplitl [Hgv]; · iexists _; iexact Hgv
    isplitl [Hgb]; · iexists _; iexact Hgb
    isplitl [Hrv]; · iexists _; iexact Hrv
    isplitl [Hrb]; · iexists _; iexact Hrb
    isplitl [Hrc]; · iexists _; iexact Hrc
    isplitl [Hstg]; · iexists _; iexact Hstg
    isplitl [Hs12]; · iexact Hs12
    isplitl [Hs13]; · iexact Hs13
    isplitl [Hc16]; · iexact Hc16
    isplitl [Hc17]; · iexact Hc17
    isplitl [Hc18]; · iexact Hc18
    isplitl [Hc19]; · iexact Hc19
    iexists _; isplitr
    rotate_left
    · iexact HO
    · ipureintro; intro p hp
      simp only [Finset.mem_insert] at hp
      aesop
  iintro %acc ⟨%hacc, -, Hpt', Horn', Hmrep', ⟨%e0, Hgv⟩, ⟨%e1, Hgb⟩, ⟨%e2, Hrv⟩, ⟨%e3, Hrb⟩, ⟨%e4, Hrc⟩, ⟨%e5, Hstg⟩, Hs12, Hs13, Hc16, Hc17, Hc18, Hc19, %We, %hWe, HO⟩
  rcases acc with ⟨a0, a1⟩
  sl_exec
  sl_step
  unfold td1
  isplitl [Ho0' Ho1']
  · isplitl [Ho0']
    · iexists _; isplitr
      rotate_left
      · iapply (Entails.of_eq (pts_out0 (F := F) d L _)); iexact Ho0'
      · ipureintro; exact blendTile_of m d L hgT2 _
    · iexists _; isplitr
      rotate_left
      · iapply (Entails.of_eq (pts_out1 (F := F) d L _)); iexact Ho1'
      · ipureintro
        first
        | exact lossTile_of m d L hacc _ (acc_lo d L f11 a0 a1) (acc_hi d L f11 a0 a1) _
        | exact lossTile_of m d L hacc _ (acc_lo' d L f11 a0 a1) (acc_hi' d L f11 a0 a1) _
  isplitl [Hgv Hgb Hx Hy Hz Hw Hrv Hrb Hrc Hout Hstg Hacc Hbufs]
  · isplitl [Hgv]; · iexists _; iexact Hgv
    isplitl [Hgb]; · iexists _; iexact Hgb
    isplitl [Hx]; · iexists _; iexact Hx
    isplitl [Hy]; · iexists _; iexact Hy
    isplitl [Hz]; · iexists _; iexact Hz
    isplitl [Hw]; · iexists _; iexact Hw
    isplitl [Hrv]; · iexists _; iexact Hrv
    isplitl [Hrb]; · iexists _; iexact Hrb
    isplitl [Hrc]; · iexists _; iexact Hrc
    isplitl [Hout]; · iexists _; iexact Hout
    isplitl [Hstg]; · iexists _; iexact Hstg
    isplitl [Hacc]; · iexists _; iexact Hacc
    iexact Hbufs
  isplitl [Hs12 Hs13 Hc0 Hc1 Hc2 Hc3 Hc4 Hc5 Hc6 Hc7 Hc8 Hc9 Hc10 Hc11 Hc12 Hc13 Hc14 Hc15 Hc16 Hc17 Hc18 Hc19 Hc20 Hsems]
  · isplitl [Hs12]; · iexact Hs12
    isplitl [Hs13]; · iexact Hs13
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [Hc13]; · iexact Hc13
    isplitl [Hc14]; · iexact Hc14
    isplitl [Hc15]; · iexact Hc15
    isplitl [Hc16]; · iexact Hc16
    isplitl [Hc17]; · iexact Hc17
    isplitl [Hc18]; · iexact Hc18
    isplitl [Hc19]; · iexact Hc19
    isplitl [Hc20]; · iexact Hc20
    iexact Hsems
  iexists _; isplitr
  rotate_left
  · iexact HO
  · ipureintro; intro p hp
    simp only [Finset.mem_insert] at hp
    aesop

end Tile

def coordsV1 (c : Fin (grid1.bound 0)) (s : Fin (grid1.bound 1)) : grid1.Coords :=
  fun | 0 => c | 1 => s | ⟨_ + 2, h⟩ => absurd h (Nat.not_lt.2 (Nat.le_add_left _ _))

theorem defs₀_vector1 (c : Fin τ.nSC) (s : Fin τ.nSub) :
    defs₀ (F := F) (.scVector c s) 1 ()
      = SparseCore.onTile Facts₀.hcore1 Facts₀.hsub1 (fun c s => (k1at% cc1__warp_losses (coordsV1 c s))) ⟨⟩ c s := rfl

omit [FloatOps F] [Facts] in
theorem obl_post1 {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl1 (hR : RangesOK m) : (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [defs₀_vector1]; simp only [SparseCore.onTile, hc, and_self, ↓reduceDIte]
  exact (tile_body1 m d (coordsV1 ⟨_, hc.1⟩ ⟨_, hc.2⟩) hR O W hO).trans (wp_mono frame _ _ fun _ => obl_post1)

end Cert.KI

end
-- ==== Proof.TablesIdeal.lean ====
import proofs.«205348_g71287867179597_cont_9to1c4b_113_38_alg».proof.Proof.Tables

noncomputable section

namespace Cert.KI

open Cert.KernelIdeal Cert.KernelIdeal.Gen

open Idealize.ShloMosaic
open Idealize.ShloMosaic.SparseCore (S V T)
open Idealize.ShloMosaic.StableHlo
open Idealize.ShloMosaic.ValueIdx

variable [Facts]
open Facts₀ Facts

theorem padF_ideal : (padF : Ideal .f32) = 0 := by
  show ((((0#32 : BitVec 32).toInt : ℤ) : ℝ) : EReal) = 0
  simp

section Pre
variable [Cert.Pre_input_domain.Facts]

theorem preAt_of_pre (m : (ℓ : Loc nD τ sig) → Buf (Elt Ideal) ℓ) (hpre : Cert.Pre_KernelIdeal m) : PreAt m := hpre

theorem rangesOK_of_pre (m : (ℓ : Loc nD τ sig) → Buf (Elt Ideal) ℓ) (hpre : Cert.Pre_KernelIdeal m) : RangesOK m :=
  rangesOK_of_preAt m hpre

theorem real_of_abs_lt_inf (x : EReal)
    (e : Ideal.cmp .olt (max x (-x)) (Ideal.ofBits .f32 0x7F800000#32) = 1#1) : ∃ y : ℝ, x = (y : EReal) := by
  have htop : Ideal.ofBits .f32 0x7F800000#32 = ⊤ := by simp [Ideal.ofBits, Ideal.ieee]
  rw [htop] at e
  have h : max x (-x) < ⊤ := of_decide_eq_true ((Predicate.ofBool_eq_one_iff _).1 e)
  induction x using EReal.rec with
  | bot => exact absurd h (by simp)
  | coe y => exact ⟨y, rfl⟩
  | top => exact absurd h (by simp)

theorem finite_of_pre (m : (ℓ : Loc nD τ sig) → Buf (Elt Ideal) ℓ) (hpre : Cert.Pre_KernelIdeal m) (d : Dev nD) :
    (∀ i, ∃ x : ℝ, (m (locOf d main_arg0) : FVec Ideal S50000x3 .f32) i = (x : EReal))
    ∧ (∀ i, ∃ x : ℝ, (m (locOf d main_arg1) : FVec Ideal S1x25000x3x3 .f32) i = (x : EReal))
    ∧ (∀ i, ∃ x : ℝ, (m (locOf d main_arg2) : FVec Ideal S1x25000x3 .f32) i = (x : EReal))
    ∧ (∀ i, ∃ x : ℝ, (m (locOf d main_arg3) : FVec Ideal S50000x3 .f32) i = (x : EReal)) := by
  obtain ⟨h0, h1, h2, h3, -, -, -⟩ := pre_entries m hpre d
  exact ⟨fun i => real_of_abs_lt_inf _ (h0 i), fun i => real_of_abs_lt_inf _ (h1 i), fun i => real_of_abs_lt_inf _ (h2 i),
    fun i => real_of_abs_lt_inf _ (h3 i)⟩

end Pre

end Cert.KI

end
-- ==== Proof.MainOpsBits.lean ====
import proofs.«205348_g71287867179597_cont_9to1c4b_113_38_alg».proof.Kernel
import Idealize.ShloMosaic.Lib.StableHlo.Run

noncomputable section

namespace Cert.KB

open Cert.Kernel Idealize.ShloMosaic Idealize.ShloMosaic.StableHlo

variable {F : FTy → Type} [FloatOps F]

-- the operations cite the program's stated side conditions by name, as @main does
variable [Facts]
open Facts₀ Facts

abbrev opsPre : List (HloOp τ sig (Elt F)) :=
  [
    reshape main_arg1 main_v0 rfl shapeCasts_S1x25000x3x3_S25000x3x3,
    reshape main_v0 main_v1 rfl shapeCasts_S25000x3x3_S25000x9,
    nullary main_c (constantI S_ 32 0#32),
    TRef.unary (.of main_c : TRef sig ⟨S_, .i32⟩) main_call0.v0 (sitofp .f32),
    TRef.binary (.of main_v1 : TRef sig ⟨S25000x9, .f32⟩) main_call0.v0 main_call0.v1 (fun x v => pad S28672x9 ![0, 0] ![3672, 0] ![0, 0] x v pads_S25000x9_S28672x9_036720_000 h_S_),
    reshape main_v2 main_v3 rfl shapeCasts_S28672x9_S258048,
    reshape main_arg2 main_v4 rfl shapeCasts_S1x25000x3_S25000x3,
    nullary main_c_0 (constantI S_ 32 0#32),
    TRef.unary (.of main_c_0 : TRef sig ⟨S_, .i32⟩) main_call1.v0 (sitofp .f32),
    TRef.binary (.of main_v4 : TRef sig ⟨S25000x3, .f32⟩) main_call1.v0 main_call1.v1 (fun x v => pad S28672x3 ![0, 0] ![3672, 0] ![0, 0] x v pads_S25000x3_S28672x3_036720_000 h_S_),
    reshape main_v5 main_v6 rfl shapeCasts_S28672x3_S86016,
    nullary main_c_1 (constantI S_ 32 0#32),
    TRef.unary (.of main_c_1 : TRef sig ⟨S_, .i32⟩) main_call2.v0 id,
    TRef.binary (.of main_arg4 : TRef sig ⟨S25000, .i32⟩) main_call2.v0 main_call2.v1 (fun x v => pad S28672 ![0] ![3672] ![0] x v pads_S25000_S28672_036720 h_S_),
    nullary main_c_2 (constantI S_ 32 0#32),
    TRef.unary (.of main_c_2 : TRef sig ⟨S_, .i32⟩) main_call3.v0 (sitofp .f32),
    TRef.binary (.of main_arg0 : TRef sig ⟨S50000x3, .f32⟩) main_call3.v0 main_call3.v1 (fun x v => pad S53248x3 ![0, 0] ![3248, 0] ![0, 0] x v pads_S50000x3_S53248x3_032480_000 h_S_),
    unary main_v8 main_v9 ((transpose S3x53248 [1, 0] · transposes_S53248x3_S3x53248_1_0) : (⟨S53248x3, .f32⟩ : BufTy).Contents (Elt F) → (⟨S3x53248, .f32⟩ : BufTy).Contents (Elt F)),
    reshape main_v9 main_v10 rfl shapeCasts_S3x53248_S159744,
    nullary main_c_3 (constantI S_ 32 0#32),
    TRef.unary (.of main_c_3 : TRef sig ⟨S_, .i32⟩) main_call4.v0 id,
    TRef.binary (.of main_arg5 : TRef sig ⟨S50000x3, .i32⟩) main_call4.v0 main_call4.v1 (fun x v => pad S53248x3 ![0, 0] ![3248, 0] ![0, 0] x v pads_S50000x3_S53248x3_032480_000 h_S_),
    unary main_v11 main_v12 ((transpose S3x53248 [1, 0] · transposes_S53248x3_S3x53248_1_0) : (⟨S53248x3, .i32⟩ : BufTy).Contents (Elt F) → (⟨S3x53248, .i32⟩ : BufTy).Contents (Elt F)),
    reshape main_v12 main_v13 rfl shapeCasts_S3x53248_S159744,
    nullary main_c_4 (constantI S_ 32 0#32),
    TRef.unary (.of main_c_4 : TRef sig ⟨S_, .i32⟩) main_call5.v0 (sitofp .f32),
    TRef.binary (.of main_arg3 : TRef sig ⟨S50000x3, .f32⟩) main_call5.v0 main_call5.v1 (fun x v => pad S53248x3 ![0, 0] ![3248, 0] ![0, 0] x v pads_S50000x3_S53248x3_032480_000 h_S_),
    unary main_v14 main_v15 ((transpose S3x53248 [1, 0] · transposes_S53248x3_S3x53248_1_0) : (⟨S53248x3, .f32⟩ : BufTy).Contents (Elt F) → (⟨S3x53248, .f32⟩ : BufTy).Contents (Elt F)),
    reshape main_v15 main_v16 rfl shapeCasts_S3x53248_S159744,
    reshape main_arg6 main_v17 rfl shapeCasts_S25000x9_S225000,
    nullary main_c_5 (constantI S_ 32 24999#32),
    TRef.unary (.of main_c_5 : TRef sig ⟨S_, .i32⟩) main_call6.v0 id,
    TRef.binary (.of main_v17 : TRef sig ⟨S225000, .i32⟩) main_call6.v0 main_call6.v1 (fun x v => pad S229376 ![0] ![4376] ![0] x v pads_S225000_S229376_043760 h_S_),
    nullary main_v19 (iotaInDim S25000 32 0),
    unary main_v19 main_v20 (broadcastInDim S25000x9 ![0] bcast_S25000_S25000x9_0 : (⟨S25000, .i32⟩ : BufTy).Contents (Elt F) → (⟨S25000x9, .i32⟩ : BufTy).Contents (Elt F)),
    reshape main_v20 main_v21 rfl shapeCasts_S25000x9_S225000,
    nullary main_c_6 (constantI S_ 32 24999#32),
    TRef.unary (.of main_c_6 : TRef sig ⟨S_, .i32⟩) main_call7.v0 id,
    TRef.binary (.of main_v21 : TRef sig ⟨S225000, .i32⟩) main_call7.v0 main_call7.v1 (fun x v => pad S229376 ![0] ![4376] ![0] x v pads_S225000_S229376_043760 h_S_) ]

abbrev opsPost : List (HloOp τ sig (Elt F)) :=
  [
    reshape main_v24_0 main_v25 rfl shapeCasts_S159744_S53248x3,
    unary main_v25 main_v26 ((extractStridedSlice S50000x3 ![0, 0] · slices_S53248x3_S50000x3_0_0) : (⟨S53248x3, .f32⟩ : BufTy).Contents (Elt F) → (⟨S50000x3, .f32⟩ : BufTy).Contents (Elt F)),
    unary main_v26 main_v27 (broadcastInDim S1x50000x3 ![1, 2] bcast_S50000x3_S1x50000x3_1_2 : (⟨S50000x3, .f32⟩ : BufTy).Contents (Elt F) → (⟨S1x50000x3, .f32⟩ : BufTy).Contents (Elt F)),
    reshape main_v24_1 main_v28 rfl shapeCasts_S1024_S32x32,
    unary main_v28 main_v29 ((extractStridedSlice S32x16 ![0, 0] · slices_S32x32_S32x16_0_0) : (⟨S32x32, .f32⟩ : BufTy).Contents (Elt F) → (⟨S32x16, .f32⟩ : BufTy).Contents (Elt F)),
    nullary main_cst (constant S_ .f32 0x00000000#32),
    binary main_v29 main_cst main_v30 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
    nullary main_cst_7 (constant S_ .f32 0x46C35000#32),
    binary main_v30 main_cst_7 main_v31 (Host.divf : (⟨S_, .f32⟩ : BufTy).Contents (Elt F) → (⟨S_, .f32⟩ : BufTy).Contents (Elt F) → (⟨S_, .f32⟩ : BufTy).Contents (Elt F)),
    unary main_v28 main_v32 ((extractStridedSlice S32x16 ![0, 16] · slices_S32x32_S32x16_0_16) : (⟨S32x32, .f32⟩ : BufTy).Contents (Elt F) → (⟨S32x16, .f32⟩ : BufTy).Contents (Elt F)),
    nullary main_cst_8 (constant S_ .f32 0x00000000#32),
    binary main_v32 main_cst_8 main_v33 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
    nullary main_cst_9 (constant S_ .f32 0x49F73140#32),
    binary main_v33 main_cst_9 main_v34 (Host.divf : (⟨S_, .f32⟩ : BufTy).Contents (Elt F) → (⟨S_, .f32⟩ : BufTy).Contents (Elt F) → (⟨S_, .f32⟩ : BufTy).Contents (Elt F)) ]

end Cert.KB

end
-- ==== Proof.CommonBits.lean ====
import proofs.«205348_g71287867179597_cont_9to1c4b_113_38_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx
import proofs.«205348_g71287867179597_cont_9to1c4b_113_38_alg».proof.Proof.Gen.Kernel
import proofs.«205348_g71287867179597_cont_9to1c4b_113_38_alg».proof.Proof.Gen.Kernel.Skeleton
import proofs.«205348_g71287867179597_cont_9to1c4b_113_38_alg».proof.Proof.MainOpsBits

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type}

abbrev ΛP : Labels := Pipeline.Sig Λ₀ (Fin 0) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

abbrev EH : Emb UH (MT nD τ sig (HIx 2) (Elt F) ℕ UU ℕ) := embL

variable [FloatOps F]

variable [Facts]
open Facts₀ Facts

set_option maxRecDepth 4096 in
theorem main_eq (d : Dev nD) :
    main (F := F) d = (do seq (opsPre (F := F)); (K (F := F)).run d 0; (K (F := F)).run d 1; seq (opsPost (F := F))) := by
  simp only [main, fn_pad.body, fn_pad_0.body, fn_pad_1.body, fn_pad_2.body, fn_pad_3.body, fn_pad_4.body, seq, bind_assoc, pure_bind]

variable (m : (ℓ : Loc nD τ sig) → Buf (Elt F) ℓ) (ρ : Dev nD → PrngReg)

def V0 (d : Dev nD) : Valuation τ sig (Elt F) := fun b => m (d, b)
def Vpre (d : Dev nD) : Valuation τ sig (Elt F) := after (opsPre (F := F)) (V0 m d)

abbrev locOf (d : Dev nD) (b : Ref sig .tc) : Loc nD τ sig := (SparseCore.T d).loc b

abbrev tNidx (d : Dev nD) : Buf (Elt F) (locOf d main_v7) := Vpre m d (Proc.devRef .tc main_v7)
abbrev tRot (d : Dev nD) : Buf (Elt F) (locOf d main_v3) := Vpre m d (Proc.devRef .tc main_v3)
abbrev tTr (d : Dev nD) : Buf (Elt F) (locOf d main_v6) := Vpre m d (Proc.devRef .tc main_v6)
abbrev tVt (d : Dev nD) : Buf (Elt F) (locOf d main_v10) := Vpre m d (Proc.devRef .tc main_v10)
abbrev tInf (d : Dev nD) : Buf (Elt F) (locOf d main_v13) := Vpre m d (Proc.devRef .tc main_v13)
abbrev tWt (d : Dev nD) : Buf (Elt F) (locOf d main_v16) := Vpre m d (Proc.devRef .tc main_v16)
abbrev tOrn (d : Dev nD) : Buf (Elt F) (locOf d main_v18) := Vpre m d (Proc.devRef .tc main_v18)
abbrev tMrep (d : Dev nD) : Buf (Elt F) (locOf d main_v22) := Vpre m d (Proc.devRef .tc main_v22)

def wid (c : Fin 2) (s : Fin 16) : Fin 32 := ⟨s.val * 2 + c.val, by omega⟩

def at1 {n : ℕ} {α : Type} (f : (⟨1, ![n]⟩ : Shape).Idx → α) (h0 : 0 < n := by decide) (k : ℕ) : α :=
  f (ValueIdx.ix1 ⟨if k < n then k else 0, by split <;> omega⟩)

def ptRows (w : Fin 32) : Finset S28672x128.Idx :=
  Finset.univ.filter fun j => w.val * 896 ≤ (j 0).val ∧ (j 0).val < (w.val + 1) * 896
def owSet (w : Fin 32) : Finset S159744.Idx :=
  Finset.univ.filter fun j => w.val * 4992 ≤ (j 0).val ∧ (j 0).val < (w.val + 1) * 4992
def olSet (w : Fin 32) : Finset S1024.Idx :=
  Finset.univ.filter fun j => w.val * 32 ≤ (j 0).val ∧ (j 0).val < (w.val + 1) * 32

def nodeWord (d : Dev nD) (r col : ℕ) : Elt F .f32 :=
  if col < 3 then at1 (tVt m d) (k := col * 53248 + (at1 (tNidx m d) (k := r) : BitVec 32).toNat)
  else if col < 6 then at1 (tTr m d) (k := r * 3 + (col - 3))
  else at1 (tRot m d) (k := r * 9 + (col - 6))

def PtabOK (d : Dev nD) (f : Buf (Elt F) (locOf d main_v23)) : Prop :=
  ∀ (r : Fin 28672) (col : Fin 128), col.val < 15 → f (ValueIdx.ix2 r col) = nodeWord m d r.val col.val
def PtabTile (d : Dev nD) (w : Fin 32) (f : Buf (Elt F) (locOf d main_v23)) : Prop :=
  ∀ (r : Fin 28672) (col : Fin 128), w.val * 896 ≤ r.val → r.val < (w.val + 1) * 896 → col.val < 15 →
    f (ValueIdx.ix2 r col) = nodeWord m d r.val col.val

def lanes16 {α : Type} (g : ℕ → α) (p : ℕ) : S16.Idx → α := fun x => g (p + (x 0).val)
def rowVec (d : Dev nD) (ids : ℕ → ℕ) (p col : ℕ) : Vec F S16 .f32 := fun x => nodeWord m d (ids (p + (x 0).val)) col

def infId (d : Dev nD) (q : ℕ) : ℕ := (at1 (tInf m d) (k := q) : BitVec 32).toNat
def srcId (d : Dev nD) (q : ℕ) : ℕ := (at1 (tMrep m d) (k := q) : BitVec 32).toNat
def tgtId (d : Dev nD) (q : ℕ) : ℕ := (at1 (tOrn m d) (k := q) : BitVec 32).toNat

def blendTerm (d : Dev nD) (w : Fin 32) (k b i : ℕ) : Vec F S16 .f32 :=
  let v0 := w.val * 1664 + b
  let pc := fun col => rowVec m d (infId m d) (k * 53248 + v0) col
  let vx : Vec F S16 .f32 := lanes16 (fun q => at1 (tVt m d) (k := q)) v0
  let vy : Vec F S16 .f32 := lanes16 (fun q => at1 (tVt m d) (k := q)) (53248 + v0)
  let vz : Vec F S16 .f32 := lanes16 (fun q => at1 (tVt m d) (k := q)) (2 * 53248 + v0)
  let wt : Vec F S16 .f32 := lanes16 (fun q => at1 (tWt m d) (k := q)) (k * 53248 + v0)
  match i with
  | 0 => k1_pay6 (pc 0) (pc 1) (pc 2) (pc 3) (pc 6) (pc 7) (pc 8) vx vy vz wt
  | 1 => k1_pay7 (pc 0) (pc 1) (pc 2) (pc 4) (pc 9) (pc 10) (pc 11) vx vy vz wt
  | _ => k1_pay8 (pc 0) (pc 1) (pc 2) (pc 5) (pc 12) (pc 13) (pc 14) vx vy vz wt

def BlendTile (d : Dev nD) (w : Fin 32) (f : Buf (Elt F) (locOf d main_v24_0)) : Prop :=
  ∀ u i : ℕ, u < 1664 → i < 3 →
    at1 f (k := w.val * 4992 + 3 * u + i)
      = Elt.idxAdd .f32 (Elt.idxAdd .f32 (blendTerm m d w 0 (u / 16 * 16) i (ValueIdx.ix1 ⟨u % 16, Nat.mod_lt _ (by decide)⟩))
          (blendTerm m d w 1 (u / 16 * 16) i (ValueIdx.ix1 ⟨u % 16, Nat.mod_lt _ (by decide)⟩)))
          (blendTerm m d w 2 (u / 16 * 16) i (ValueIdx.ix1 ⟨u % 16, Nat.mod_lt _ (by decide)⟩))

def lossStep (d : Dev nD) (p : ℕ) (acc : Vec F S16 .f32 × Vec F S16 .f32) : Vec F S16 .f32 × Vec F S16 .f32 :=
  let mc := fun col => rowVec m d (srcId m d) p col
  let nc := fun col => rowVec m d (tgtId m d) p col
  (k1_pay101 acc.1 (mc 0) (mc 1) (mc 2) (mc 3) (mc 4) (mc 5) (mc 6) (mc 7) (mc 8) (mc 9) (mc 10) (mc 11) (mc 12) (mc 13) (mc 14)
      (nc 0) (nc 1) (nc 2) (nc 3) (nc 4) (nc 5),
   k1_pay114 (mc 11) (mc 12) (mc 13) (mc 14) (nc 11) (nc 12) (nc 13) (nc 14)
      (k1_pay102 acc.2 (mc 6) (mc 7) (mc 8) (mc 9) (nc 6) (nc 7) (nc 8) (nc 9)) (k1_pay103 (mc 10) (nc 10)))

def lossAcc (d : Dev nD) (w : Fin 32) : ℕ → Vec F S16 .f32 × Vec F S16 .f32
  | 0 => (k1_pay112, k1_pay113)
  | n + 1 => lossStep m d (w.val * 7168 + 16 * n) (lossAcc d w n)

def LossTile (d : Dev nD) (w : Fin 32) (f : Buf (Elt F) (locOf d main_v24_1)) : Prop :=
  ∀ l : Fin 16, at1 f (k := w.val * 32 + l.val) = (lossAcc m d w 448).1 (ValueIdx.ix1 l)
    ∧ at1 f (k := w.val * 32 + 16 + l.val) = (lossAcc m d w 448).2 (ValueIdx.ix1 l)

def RangesOK : Prop :=
  ∀ d : Dev nD,
    (∀ r, r < 28672 → (at1 (tNidx m d) (k := r) : BitVec 32).toNat < 50000)
    ∧ (∀ q, q < 159744 → infId m d q < 25000)
    ∧ (∀ q, q < 229376 → tgtId m d q < 25000)
    ∧ (∀ q, q < 229376 → srcId m d q = min (q / 9) 24999)

local notation "𝕄" => MT nD τ sig (HIx 2) (Elt F) ℕ UU ℕ

abbrev rd (w : Fin 32) : PosShare TreeShare := Transfers.shareTok fullShare 32 w

def go0 (d : Dev nD) (w : Fin 32) : sProp 𝕄 :=
  iprop((locOf d main_v7 ↦{rd w} tNidx m d) ∗ (locOf d main_v3 ↦{rd w} tRot m d) ∗ (locOf d main_v6 ↦{rd w} tTr m d)
    ∗ (locOf d main_v10 ↦{rd w} tVt m d) ∗ (locOf d main_v23 ↦[ptRows w]{fullShare} m (locOf d main_v23)))
def td0 (d : Dev nD) (w : Fin 32) : sProp 𝕄 :=
  iprop((locOf d main_v7 ↦{rd w} tNidx m d) ∗ (locOf d main_v3 ↦{rd w} tRot m d) ∗ (locOf d main_v6 ↦{rd w} tTr m d)
    ∗ (locOf d main_v10 ↦{rd w} tVt m d) ∗ ∃ f, ⌜PtabTile m d w f⌝ ∗ locOf d main_v23 ↦[ptRows w]{fullShare} f)

def go1 (d : Dev nD) (w : Fin 32) : sProp 𝕄 :=
  iprop((∃ f, ⌜PtabOK m d f⌝ ∗ locOf d main_v23 ↦{rd w} f) ∗ (locOf d main_v10 ↦{rd w} tVt m d) ∗ (locOf d main_v13 ↦{rd w} tInf m d)
    ∗ (locOf d main_v16 ↦{rd w} tWt m d) ∗ (locOf d main_v18 ↦{rd w} tOrn m d) ∗ (locOf d main_v22 ↦{rd w} tMrep m d)
    ∗ (locOf d main_v24_0 ↦[owSet w]{fullShare} m (locOf d main_v24_0)) ∗ (locOf d main_v24_1 ↦[olSet w]{fullShare} m (locOf d main_v24_1)))
def td1 (d : Dev nD) (w : Fin 32) : sProp 𝕄 :=
  iprop((∃ f, ⌜BlendTile m d w f⌝ ∗ (locOf d main_v24_0 ↦[owSet w]{fullShare} f)) ∗ (∃ f, ⌜LossTile m d w f⌝ ∗ (locOf d main_v24_1 ↦[olSet w]{fullShare} f)))

theorem nCore_eq (q : Fin 2) : (K (F := F)).nCore q = 2 := by fin_cases q <;> rfl
theorem nSub_eq (q : Fin 2) : (K (F := F)).nSub q = 16 := by fin_cases q <;> rfl

def tileGo (q : Fin 2) (d : Dev nD) (w : Fin 32) : sProp 𝕄 := match q with | 0 => go0 m d w | 1 => go1 m d w
def tileTd (q : Fin 2) (d : Dev nD) (w : Fin 32) : sProp 𝕄 := match q with | 0 => td0 m d w | 1 => td1 m d w

def P : (K (F := F)).Pay (nD := nD) (Val := Elt F) (Name := ℕ) (U := UU) where
  st := fun q d c => bigSep Finset.univ fun i : Fin ((K (F := F)).nSub q) => tileGo m q d (wid (Fin.cast (nCore_eq q) c) (Fin.cast (nSub_eq q) i))
  dn := fun q d c => bigSep Finset.univ fun i : Fin ((K (F := F)).nSub q) => tileTd m q d (wid (Fin.cast (nCore_eq q) c) (Fin.cast (nSub_eq q) i))
  go := fun q d c i => tileGo m q d (wid (Fin.cast (nCore_eq q) c) (Fin.cast (nSub_eq q) i))
  td := fun q d c i => tileTd m q d (wid (Fin.cast (nCore_eq q) c) (Fin.cast (nSub_eq q) i))
  x := fun _ _ => iprop(emp)

def post27 (f0 : FVec F S159744 .f32) : FVec F S1x50000x3 .f32 :=
  broadcastInDim S1x50000x3 ![1, 2] Facts₀.bcast_S50000x3_S1x50000x3_1_2
    (extractStridedSlice S50000x3 ![0, 0] (shapeCast S53248x3 f0 Facts₀.shapeCasts_S159744_S53248x3) Facts₀.slices_S53248x3_S50000x3_0_0)
def post31 (f1 : FVec F S1024 .f32) : FVec F S_ .f32 :=
  Host.divf (Host.reduceAdd (extractStridedSlice S32x16 ![0, 0] (shapeCast S32x32 f1 Facts₀.shapeCasts_S1024_S32x32) Facts₀.slices_S32x32_S32x16_0_0)
      (constant S_ .f32 0x00000000#32) Facts₀.reducesTo_S32x16_S_d0_1 Facts₀.h_S_)
    (constant S_ .f32 0x46C35000#32)
def post34 (f1 : FVec F S1024 .f32) : FVec F S_ .f32 :=
  Host.divf (Host.reduceAdd (extractStridedSlice S32x16 ![0, 16] (shapeCast S32x32 f1 Facts₀.shapeCasts_S1024_S32x32) Facts₀.slices_S32x32_S32x16_0_16)
      (constant S_ .f32 0x00000000#32) Facts₀.reducesTo_S32x16_S_d0_1 Facts₀.h_S_)
    (constant S_ .f32 0x49F73140#32)

def RunPost (d : Dev nD) (mem : (ℓ : Loc nD τ sig) → Buf (Elt F) ℓ) : Prop :=
  (∃ (f0 : Buf (Elt F) (locOf d main_v24_0)) (f1 : Buf (Elt F) (locOf d main_v24_1)),
      (∀ w, BlendTile m d w f0) ∧ (∀ w, LossTile m d w f1)
      ∧ mem (locOf d main_v27) = post27 f0 ∧ mem (locOf d main_v31) = post31 f1 ∧ mem (locOf d main_v34) = post34 f1)
  ∧ mem (locOf d main_arg0) = m (locOf d main_arg0) ∧ mem (locOf d main_arg1) = m (locOf d main_arg1)
  ∧ mem (locOf d main_arg2) = m (locOf d main_arg2) ∧ mem (locOf d main_arg3) = m (locOf d main_arg3)
  ∧ mem (locOf d main_arg4) = m (locOf d main_arg4) ∧ mem (locOf d main_arg5) = m (locOf d main_arg5)
  ∧ mem (locOf d main_arg6) = m (locOf d main_arg6)

end Cert.KB

end
-- ==== Proof.LaunchBits.lean ====
import proofs.«205348_g71287867179597_cont_9to1c4b_113_38_alg».proof.Proof.CommonBits

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F]
variable [Facts]
open Facts₀ Facts

variable (m : (ℓ : Loc nD τ sig) → Buf (Elt F) ℓ) (ρ : Dev nD → PrngReg)

local notation "𝕄" => MT nD τ sig (HIx 2) (Elt F) ℕ UU ℕ

theorem tileGo_storable (q : Fin 2) (d : Dev nD) (w : Fin 32) : BI.Storable (upEmb : UEmb _ 𝕄) (tileGo m q d w) := by
  match q with
  | 0 => show BI.Storable upEmb (go0 m d w); unfold go0; infer_instance
  | 1 => show BI.Storable upEmb (go1 m d w); unfold go1; infer_instance
theorem tileTd_storable (q : Fin 2) (d : Dev nD) (w : Fin 32) : BI.Storable (upEmb : UEmb _ 𝕄) (tileTd m q d w) := by
  match q with
  | 0 => show BI.Storable upEmb (td0 m d w); unfold td0; infer_instance
  | 1 => show BI.Storable upEmb (td1 m d w); unfold td1; infer_instance

instance P_storable : (P (F := F) m).IsStorable where
  st q d c := by
    have := tileGo_storable m q d
    unfold P; dsimp only; infer_instance
  dn q d c := by
    have := tileTd_storable m q d
    unfold P; dsimp only; infer_instance
  go q d c i := by unfold P; dsimp only; exact tileGo_storable m q d _
  td q d c i := by unfold P; dsimp only; exact tileTd_storable m q d _

theorem vecSplit0 : (K (F := F)).VecSplit' (P m) 0 := by
  intro d c
  have e1 : (P m).st 0 d c = bigSep Finset.univ fun i : Fin ((K (F := F)).nSub 0) => (P m).go 0 d c i := rfl
  have e2 : (P m).dn 0 d c = bigSep Finset.univ fun i : Fin ((K (F := F)).nSub 0) => (P m).td 0 d c i := rfl
  rw [e1, e2]
  iintro H; imodintro
  isplitl [H]; · iexact H
  iintro H; iexact H
theorem vecSplit1 : (K (F := F)).VecSplit' (P m) 1 := by
  intro d c
  have e1 : (P m).st 1 d c = bigSep Finset.univ fun i : Fin ((K (F := F)).nSub 1) => (P m).go 1 d c i := rfl
  have e2 : (P m).dn 1 d c = bigSep Finset.univ fun i : Fin ((K (F := F)).nSub 1) => (P m).td 1 d c i := rfl
  rw [e1, e2]
  iintro H; imodintro
  isplitl [H]; · iexact H
  iintro H; iexact H

def u₀ : UU := (initOf (K (F := F)).hsCells (K (F := F)).hsToks, 1)

omit [FloatOps F] [Facts] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 2 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

abbrev FIN (d : Dev nD) : sProp 𝕄 :=
  iprop((locOf d main_arg0 ↦{fullShare} m (locOf d main_arg0)) ∗ (locOf d main_arg1 ↦{fullShare} m (locOf d main_arg1))
    ∗ (locOf d main_arg2 ↦{fullShare} m (locOf d main_arg2)) ∗ (locOf d main_arg3 ↦{fullShare} m (locOf d main_arg3))
    ∗ (locOf d main_arg4 ↦{fullShare} m (locOf d main_arg4)) ∗ (locOf d main_arg5 ↦{fullShare} m (locOf d main_arg5))
    ∗ (locOf d main_arg6 ↦{fullShare} m (locOf d main_arg6))
    ∗ ∃ (f0 : Buf (Elt F) (locOf d main_v24_0)) (f1 : Buf (Elt F) (locOf d main_v24_1)),
        ⌜(∀ w, BlendTile m d w f0) ∧ (∀ w, LossTile m d w f1)⌝
        ∗ (locOf d main_v27 ↦{fullShare} post27 f0) ∗ (locOf d main_v31 ↦{fullShare} post31 f1) ∗ (locOf d main_v34 ↦{fullShare} post34 f1))

omit [FloatOps F] [Facts] in
theorem regroup (Φ : Fin 32 → sProp 𝕄) :
    (bigSep Finset.univ fun c : Fin 2 => bigSep Finset.univ fun i : Fin 16 => Φ (wid c i)) = bigSep Finset.univ Φ := by
  have hinj : Function.Injective fun p : Fin 2 × Fin 16 => wid p.1 p.2 := by
    rintro ⟨c, s⟩ ⟨c', s'⟩ h
    have h' : s.val * 2 + c.val = s'.val * 2 + c'.val := congrArg Fin.val h
    have hc := c.isLt; have hc' := c'.isLt
    exact Prod.ext (Fin.ext (show c.val = c'.val by omega)) (Fin.ext (show s.val = s'.val by omega))
  have huniv : (Finset.univ : Finset (Fin 32)) = (Finset.univ ×ˢ Finset.univ : Finset (Fin 2 × Fin 16)).map ⟨_, hinj⟩ := by
    refine Finset.ext fun w => ⟨fun _ => ?_, fun _ => Finset.mem_univ _⟩
    have hw := w.isLt
    exact Finset.mem_map.mpr ⟨(⟨w.val % 2, by omega⟩, ⟨w.val / 2, by omega⟩), Finset.mem_product.mpr ⟨Finset.mem_univ _, Finset.mem_univ _⟩,
      Fin.ext (show w.val / 2 * 2 + w.val % 2 = w.val by omega)⟩
  rw [huniv, bigSep_map, SparseCore.bigSep_product]
  rfl

omit [FloatOps F] [Facts] in
theorem ptRows_disjoint : ∀ w ∈ (Finset.univ : Finset (Fin 32)), ∀ w' ∈ (Finset.univ : Finset (Fin 32)), w ≠ w' → Disjoint (ptRows w) (ptRows w') := by
  intro w _ w' _ h
  refine Finset.disjoint_left.mpr fun j h1 h2 => h (Fin.ext ?_)
  have a := (Finset.mem_filter.mp h1).2; have b := (Finset.mem_filter.mp h2).2
  omega
omit [FloatOps F] [Facts] in
theorem ptRows_cover : (Finset.univ : Finset (Fin 32)).biUnion ptRows = Finset.univ := by
  ext j
  simp only [Finset.mem_biUnion, Finset.mem_univ, true_and, iff_true]
  have hj : (j 0).val < 28672 := ValueIdx.idx2_lt0 j
  exact ⟨⟨(j 0).val / 896, by omega⟩, Finset.mem_filter.mpr ⟨Finset.mem_univ _, by show (j 0).val / 896 * 896 ≤ _ ∧ _ < ((j 0).val / 896 + 1) * 896; omega⟩⟩
omit [FloatOps F] [Facts] in
theorem owSet_disjoint : ∀ w ∈ (Finset.univ : Finset (Fin 32)), ∀ w' ∈ (Finset.univ : Finset (Fin 32)), w ≠ w' → Disjoint (owSet w) (owSet w') := by
  intro w _ w' _ h
  refine Finset.disjoint_left.mpr fun j h1 h2 => h (Fin.ext ?_)
  have a := (Finset.mem_filter.mp h1).2; have b := (Finset.mem_filter.mp h2).2
  omega
omit [FloatOps F] [Facts] in
theorem owSet_cover : (Finset.univ : Finset (Fin 32)).biUnion owSet = Finset.univ := by
  ext j
  simp only [Finset.mem_biUnion, Finset.mem_univ, true_and, iff_true]
  have hj : (j 0).val < 159744 := (j 0).isLt
  exact ⟨⟨(j 0).val / 4992, by omega⟩, Finset.mem_filter.mpr ⟨Finset.mem_univ _, by show (j 0).val / 4992 * 4992 ≤ _ ∧ _ < ((j 0).val / 4992 + 1) * 4992; omega⟩⟩
omit [FloatOps F] [Facts] in
theorem olSet_disjoint : ∀ w ∈ (Finset.univ : Finset (Fin 32)), ∀ w' ∈ (Finset.univ : Finset (Fin 32)), w ≠ w' → Disjoint (olSet w) (olSet w') := by
  intro w _ w' _ h
  refine Finset.disjoint_left.mpr fun j h1 h2 => h (Fin.ext ?_)
  have a := (Finset.mem_filter.mp h1).2; have b := (Finset.mem_filter.mp h2).2
  omega
omit [FloatOps F] [Facts] in
theorem olSet_cover : (Finset.univ : Finset (Fin 32)).biUnion olSet = Finset.univ := by
  ext j
  simp only [Finset.mem_biUnion, Finset.mem_univ, true_and, iff_true]
  have hj : (j 0).val < 1024 := (j 0).isLt
  exact ⟨⟨(j 0).val / 32, by omega⟩, Finset.mem_filter.mpr ⟨Finset.mem_univ _, by show (j 0).val / 32 * 32 ≤ _ ∧ _ < ((j 0).val / 32 + 1) * 32; omega⟩⟩

theorem whole_cut {ℓ : Loc nD τ sig} (Kw : Fin 32 → Finset (Idx ℓ))
    (hd : ∀ w ∈ (Finset.univ : Finset (Fin 32)), ∀ w' ∈ (Finset.univ : Finset (Fin 32)), w ≠ w' → Disjoint (Kw w) (Kw w'))
    (hc : (Finset.univ : Finset (Fin 32)).biUnion Kw = Finset.univ) (f : Buf (Elt F) ℓ) :
    (ℓ ↦{fullShare} f : sProp 𝕄) = bigSep Finset.univ fun w : Fin 32 => ℓ ↦[Kw w]{fullShare} f := by
  rw [← pointsTo_biUnion Finset.univ (ℓ := ℓ) Kw hd, hc]

theorem rows_join {ℓ : Loc nD τ sig} (Kw : Fin 32 → Finset (Idx ℓ))
    (hd : ∀ w ∈ (Finset.univ : Finset (Fin 32)), ∀ w' ∈ (Finset.univ : Finset (Fin 32)), w ≠ w' → Disjoint (Kw w) (Kw w'))
    (hc : (Finset.univ : Finset (Fin 32)).biUnion Kw = Finset.univ)
    (φ : Fin 32 → Buf (Elt F) ℓ → Prop) (ψ : Buf (Elt F) ℓ → Prop)
    (h : ∀ (fs : Fin 32 → Buf (Elt F) ℓ) (g : Buf (Elt F) ℓ), (∀ w, φ w (fs w)) → (∀ w, ∀ i ∈ Kw w, g i = fs w i) → ψ g) :
    (bigSep Finset.univ fun w : Fin 32 => iprop(∃ f, ⌜φ w f⌝ ∗ ℓ ↦[Kw w]{fullShare} f)) ⊢ (iprop(∃ g, ⌜ψ g⌝ ∗ ℓ ↦{fullShare} g) : sProp 𝕄) := by
  refine (bigSep_exists_pi Finset.univ (fun w (f : Buf (Elt F) ℓ) => iprop(⌜φ w f⌝ ∗ ℓ ↦[Kw w]{fullShare} f))).trans ?_
  iintro ⟨%fs, H⟩
  ihave H' := (bigSep_pure_sep Finset.univ (fun w => φ w (fs w)) (fun w => (ℓ ↦[Kw w]{fullShare} fs w : sProp 𝕄))) $$ H
  icases H' with ⟨%hφ, H⟩
  ihave H' := (pointsTo_biUnion_join Finset.univ Kw fs (fs 0) hd) $$ H
  icases H' with ⟨%g, %hg, Hg⟩
  rw [hc]
  iexists g
  isplitr
  · ipureintro; exact h fs g (fun w => hφ w (Finset.mem_univ w)) (fun w => hg w (Finset.mem_univ w))
  · iexact Hg

theorem ptab_join (d : Dev nD) :
    (bigSep Finset.univ fun w : Fin 32 => iprop(∃ f, ⌜PtabTile m d w f⌝ ∗ locOf d main_v23 ↦[ptRows w]{fullShare} f))
      ⊢ (iprop(∃ g, ⌜PtabOK m d g⌝ ∗ locOf d main_v23 ↦{fullShare} g) : sProp 𝕄) := by
  refine rows_join (ℓ := locOf d main_v23) ptRows ptRows_disjoint ptRows_cover (fun w f => PtabTile m d w f) (fun g => PtabOK m d g) ?_
  intro fs g hφ hg r col hcol
  have hr := r.isLt
  have hlo : r.val / 896 * 896 ≤ r.val := by omega
  have hhi : r.val < (r.val / 896 + 1) * 896 := by omega
  rw [hg ⟨r.val / 896, by omega⟩ (ValueIdx.ix2 r col) (Finset.mem_filter.mpr ⟨Finset.mem_univ _, hlo, hhi⟩)]
  exact hφ ⟨r.val / 896, by omega⟩ r col hlo hhi hcol

omit [Facts] in
theorem at1_congr {n : ℕ} {α : Type} (f g : (⟨1, ![n]⟩ : Shape).Idx → α) (h0 : 0 < n) (k : ℕ) (hk : k < n)
    (h : g (ValueIdx.ix1 ⟨k, hk⟩) = f (ValueIdx.ix1 ⟨k, hk⟩)) : at1 g h0 k = at1 f h0 k := by
  unfold at1
  have e : (⟨if k < n then k else 0, by split <;> omega⟩ : Fin n) = ⟨k, hk⟩ := Fin.ext (if_pos hk)
  rw [e]; exact h

theorem blend_join (d : Dev nD) :
    (bigSep Finset.univ fun w : Fin 32 => iprop(∃ f, ⌜BlendTile m d w f⌝ ∗ locOf d main_v24_0 ↦[owSet w]{fullShare} f))
      ⊢ (iprop(∃ g, ⌜∀ w, BlendTile m d w g⌝ ∗ locOf d main_v24_0 ↦{fullShare} g) : sProp 𝕄) := by
  refine rows_join (ℓ := locOf d main_v24_0) owSet owSet_disjoint owSet_cover (fun w f => BlendTile m d w f) (fun g => ∀ w, BlendTile m d w g) ?_
  intro fs g hφ hg w u i hu hi
  have hw := w.isLt
  have hk : w.val * 4992 + 3 * u + i < 159744 := by omega
  rw [at1_congr (fs w) g (by decide) _ hk (hg w _ (Finset.mem_filter.mpr ⟨Finset.mem_univ _, by show w.val * 4992 ≤ w.val * 4992 + 3 * u + i; omega, by show w.val * 4992 + 3 * u + i < _; omega⟩))]
  exact hφ w u i hu hi

theorem loss_join (d : Dev nD) :
    (bigSep Finset.univ fun w : Fin 32 => iprop(∃ f, ⌜LossTile m d w f⌝ ∗ locOf d main_v24_1 ↦[olSet w]{fullShare} f))
      ⊢ (iprop(∃ g, ⌜∀ w, LossTile m d w g⌝ ∗ locOf d main_v24_1 ↦{fullShare} g) : sProp 𝕄) := by
  refine rows_join (ℓ := locOf d main_v24_1) olSet olSet_disjoint olSet_cover (fun w f => LossTile m d w f) (fun g => ∀ w, LossTile m d w g) ?_
  intro fs g hφ hg w l
  have hw := w.isLt; have hl := l.isLt
  have hk1 : w.val * 32 + l.val < 1024 := by omega
  have hk2 : w.val * 32 + 16 + l.val < 1024 := by omega
  rw [at1_congr (fs w) g (by decide) _ hk1 (hg w _ (Finset.mem_filter.mpr ⟨Finset.mem_univ _, by show w.val * 32 ≤ w.val * 32 + l.val; omega, by show w.val * 32 + l.val < _; omega⟩)),
    at1_congr (fs w) g (by decide) _ hk2 (hg w _ (Finset.mem_filter.mpr ⟨Finset.mem_univ _, by show w.val * 32 ≤ w.val * 32 + 16 + l.val; omega, by show w.val * 32 + 16 + l.val < _; omega⟩))]
  exact hφ w l

local notation "r'" => Proc.devRef (τ := τ) (sig := sig) Proc.tc

abbrev rE : Ref sig .tc ↪ DevRef τ sig := ⟨Proc.devRef (τ := τ) (sig := sig) Proc.tc, Proc.devRef_injective _⟩

omit [FloatOps F] [Facts] in
theorem held_map (d : Dev nD) (R : Finset (Ref sig .tc)) (W : Valuation τ sig (Elt F)) :
    (held (T d) (R.map rE) W : sProp 𝕄) = bigSep R fun b => locOf d b ↦{fullShare} W (r' b) := by
  unfold held; rw [bigSep_map]; rfl

omit [FloatOps F] [Facts] in
theorem bigSep_cut {R R' : Finset (Ref sig .tc)} (h : R' ⊆ R) (Φ : Ref sig .tc → sProp 𝕄) :
    bigSep R Φ = iprop(bigSep R' Φ ∗ bigSep (R \ R') Φ) := by
  conv_lhs => rw [← Finset.union_sdiff_of_subset h]
  exact bigSep_union Finset.disjoint_sdiff

theorem all_unscoped : ∀ b : Ref sig .tc, ¬ b.isScoped := by decide

omit [FloatOps F] [Facts] in
theorem unscoped_held (d : Dev nD) : (unscopedBufs d (fun b => m ((SparseCore.T d).loc b)) : sProp 𝕄) = held (T d) (tcRefs τ sig) (V0 m d) := by
  unfold unscopedBufs
  rw [Finset.filter_true_of_mem (fun b _ => all_unscoped b)]
  exact (held_map d Finset.univ (V0 m d)).symm

abbrev R11 : Finset (Ref sig .tc) := {main_v7, main_v3, main_v6, main_v10, main_v13, main_v16, main_v18, main_v22, main_v23, main_v24_0, main_v24_1}
abbrev Rrest : Finset (Ref sig .tc) := Finset.univ \ R11
abbrev Rsuf : Finset (Ref sig .tc) := insert main_v24_0 (insert main_v24_1 Rrest)
abbrev R10 : Finset (Ref sig .tc) := {main_arg0, main_arg1, main_arg2, main_arg3, main_arg4, main_arg5, main_arg6, main_v27, main_v31, main_v34}

omit [FloatOps F] [Facts] in
theorem bigSep_R11 (Φ : Ref sig .tc → sProp 𝕄) :
    bigSep R11 Φ = iprop(Φ main_v7 ∗ Φ main_v3 ∗ Φ main_v6 ∗ Φ main_v10 ∗ Φ main_v13 ∗ Φ main_v16 ∗ Φ main_v18 ∗ Φ main_v22 ∗ Φ main_v23 ∗ Φ main_v24_0 ∗ Φ main_v24_1) := by
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
omit [FloatOps F] [Facts] in
theorem bigSep_R10 (Φ : Ref sig .tc → sProp 𝕄) :
    bigSep R10 Φ = iprop(Φ main_arg0 ∗ Φ main_arg1 ∗ Φ main_arg2 ∗ Φ main_arg3 ∗ Φ main_arg4 ∗ Φ main_arg5 ∗ Φ main_arg6 ∗ Φ main_v27 ∗ Φ main_v31 ∗ Φ main_v34) := by
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] [Facts] in
theorem held_all (d : Dev nD) (W : Valuation τ sig (Elt F)) :
    (held (T d) (tcRefs τ sig) W : sProp 𝕄)
      = iprop(((locOf d main_v7 ↦{fullShare} W (r' main_v7))
          ∗ (locOf d main_v3 ↦{fullShare} W (r' main_v3))
          ∗ (locOf d main_v6 ↦{fullShare} W (r' main_v6))
          ∗ (locOf d main_v10 ↦{fullShare} W (r' main_v10))
          ∗ (locOf d main_v13 ↦{fullShare} W (r' main_v13))
          ∗ (locOf d main_v16 ↦{fullShare} W (r' main_v16))
          ∗ (locOf d main_v18 ↦{fullShare} W (r' main_v18))
          ∗ (locOf d main_v22 ↦{fullShare} W (r' main_v22))
          ∗ (locOf d main_v23 ↦{fullShare} W (r' main_v23))
          ∗ (locOf d main_v24_0 ↦{fullShare} W (r' main_v24_0))
          ∗ (locOf d main_v24_1 ↦{fullShare} W (r' main_v24_1)))
          ∗ bigSep Rrest fun b => locOf d b ↦{fullShare} W (r' b)) := by
  show (held (T d) (Finset.univ.map rE) W : sProp 𝕄) = _
  rw [held_map, bigSep_cut (Finset.subset_univ R11), bigSep_R11]

theorem opsPre_sub : (opsPre (F := F)).Forall fun op => op.bufs ⊆ tcRefs τ sig :=
  ⟨reshape_bufs_sub .., reshape_bufs_sub .., nullary_bufs_sub .., unary_bufs_sub .., binary_bufs_sub .., reshape_bufs_sub .., reshape_bufs_sub .., nullary_bufs_sub .., unary_bufs_sub .., binary_bufs_sub .., reshape_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., unary_bufs_sub .., reshape_bufs_sub .., nullary_bufs_sub .., unary_bufs_sub .., binary_bufs_sub .., unary_bufs_sub .., reshape_bufs_sub .., reshape_bufs_sub .., nullary_bufs_sub .., unary_bufs_sub .., binary_bufs_sub .., nullary_bufs_sub .., unary_bufs_sub .., reshape_bufs_sub .., nullary_bufs_sub .., unary_bufs_sub .., binary_bufs_sub ..⟩
theorem opsPre_fresh : (opsPre (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

omit [FloatOps F] [Facts] in
theorem sub1 {R : Finset (Ref sig .tc)} {y : Ref sig .tc} (hy : y ∈ R) : ({r' y} : Finset (DevRef τ sig)) ⊆ R.map rE :=
  Finset.singleton_subset_iff.mpr (Finset.mem_map_of_mem rE hy)
omit [FloatOps F] [Facts] in
theorem sub2 {R : Finset (Ref sig .tc)} {x y : Ref sig .tc} (hx : x ∈ R) (hy : y ∈ R) : ({r' x, r' y} : Finset (DevRef τ sig)) ⊆ R.map rE :=
  Finset.insert_subset (Finset.mem_map_of_mem rE hx) (sub1 hy)
omit [FloatOps F] [Facts] in
theorem sub3 {R : Finset (Ref sig .tc)} {a b y : Ref sig .tc} (ha : a ∈ R) (hb : b ∈ R) (hy : y ∈ R) :
    ({r' a, r' b, r' y} : Finset (DevRef τ sig)) ⊆ R.map rE :=
  Finset.insert_subset (Finset.mem_map_of_mem rE ha) (sub2 hb hy)

theorem opsPost_sub : (opsPost (F := F)).Forall fun op => op.bufs ⊆ Rsuf.map rE :=
  ⟨sub2 (x := main_v24_0) (y := main_v25) (by decide) (by decide),
    sub2 (x := main_v25) (y := main_v26) (by decide) (by decide),
    sub2 (x := main_v26) (y := main_v27) (by decide) (by decide),
    sub2 (x := main_v24_1) (y := main_v28) (by decide) (by decide),
    sub2 (x := main_v28) (y := main_v29) (by decide) (by decide),
    sub1 (y := main_cst) (by decide),
    sub3 (a := main_v29) (b := main_cst) (y := main_v30) (by decide) (by decide) (by decide),
    sub1 (y := main_cst_7) (by decide),
    sub3 (a := main_v30) (b := main_cst_7) (y := main_v31) (by decide) (by decide) (by decide),
    sub2 (x := main_v28) (y := main_v32) (by decide) (by decide),
    sub1 (y := main_cst_8) (by decide),
    sub3 (a := main_v32) (b := main_cst_8) (y := main_v33) (by decide) (by decide) (by decide),
    sub1 (y := main_cst_9) (by decide),
    sub3 (a := main_v33) (b := main_cst_9) (y := main_v34) (by decide) (by decide) (by decide)⟩
theorem opsPost_fresh : (opsPost (F := F)).Forall fun op => op.fresh = ∅ :=
  ⟨rfl, rfl, rfl, rfl, rfl, rfl, rfl, rfl, rfl, rfl, rfl, rfl, rfl, rfl⟩

set_option maxRecDepth 4096 in
theorem Vpre_keep_arg0 (d : Dev nD) : Vpre m d (r' main_arg0) = m (locOf d main_arg0) := by
  unfold Vpre; after_results; rfl
set_option maxRecDepth 4096 in
theorem Vpre_keep_arg1 (d : Dev nD) : Vpre m d (r' main_arg1) = m (locOf d main_arg1) := by
  unfold Vpre; after_results; rfl
set_option maxRecDepth 4096 in
theorem Vpre_keep_arg2 (d : Dev nD) : Vpre m d (r' main_arg2) = m (locOf d main_arg2) := by
  unfold Vpre; after_results; rfl
set_option maxRecDepth 4096 in
theorem Vpre_keep_arg3 (d : Dev nD) : Vpre m d (r' main_arg3) = m (locOf d main_arg3) := by
  unfold Vpre; after_results; rfl
set_option maxRecDepth 4096 in
theorem Vpre_keep_arg4 (d : Dev nD) : Vpre m d (r' main_arg4) = m (locOf d main_arg4) := by
  unfold Vpre; after_results; rfl
set_option maxRecDepth 4096 in
theorem Vpre_keep_arg5 (d : Dev nD) : Vpre m d (r' main_arg5) = m (locOf d main_arg5) := by
  unfold Vpre; after_results; rfl
set_option maxRecDepth 4096 in
theorem Vpre_keep_arg6 (d : Dev nD) : Vpre m d (r' main_arg6) = m (locOf d main_arg6) := by
  unfold Vpre; after_results; rfl
set_option maxRecDepth 4096 in
theorem Vpre_keep_v23 (d : Dev nD) : Vpre m d (r' main_v23) = m (locOf d main_v23) := by
  unfold Vpre; after_results; rfl
set_option maxRecDepth 4096 in
theorem Vpre_keep_v24_0 (d : Dev nD) : Vpre m d (r' main_v24_0) = m (locOf d main_v24_0) := by
  unfold Vpre; after_results; rfl
set_option maxRecDepth 4096 in
theorem Vpre_keep_v24_1 (d : Dev nD) : Vpre m d (r' main_v24_1) = m (locOf d main_v24_1) := by
  unfold Vpre; after_results; rfl

set_option maxRecDepth 4096 in
theorem post_keep_arg0 (W : Valuation τ sig (Elt F)) : after (opsPost (F := F)) W (r' main_arg0) = W (r' main_arg0) := by
  after_results
set_option maxRecDepth 4096 in
theorem post_keep_arg1 (W : Valuation τ sig (Elt F)) : after (opsPost (F := F)) W (r' main_arg1) = W (r' main_arg1) := by
  after_results
set_option maxRecDepth 4096 in
theorem post_keep_arg2 (W : Valuation τ sig (Elt F)) : after (opsPost (F := F)) W (r' main_arg2) = W (r' main_arg2) := by
  after_results
set_option maxRecDepth 4096 in
theorem post_keep_arg3 (W : Valuation τ sig (Elt F)) : after (opsPost (F := F)) W (r' main_arg3) = W (r' main_arg3) := by
  after_results
set_option maxRecDepth 4096 in
theorem post_keep_arg4 (W : Valuation τ sig (Elt F)) : after (opsPost (F := F)) W (r' main_arg4) = W (r' main_arg4) := by
  after_results
set_option maxRecDepth 4096 in
theorem post_keep_arg5 (W : Valuation τ sig (Elt F)) : after (opsPost (F := F)) W (r' main_arg5) = W (r' main_arg5) := by
  after_results
set_option maxRecDepth 4096 in
theorem post_keep_arg6 (W : Valuation τ sig (Elt F)) : after (opsPost (F := F)) W (r' main_arg6) = W (r' main_arg6) := by
  after_results

set_option maxRecDepth 4096 in
theorem post_v27 (W : Valuation τ sig (Elt F)) : after (opsPost (F := F)) W (r' main_v27) = post27 (W (r' main_v24_0)) := by
  after_results; rfl
set_option maxRecDepth 4096 in
theorem post_v31 (W : Valuation τ sig (Elt F)) : after (opsPost (F := F)) W (r' main_v31) = post31 (W (r' main_v24_1)) := by
  after_results; rfl
set_option maxRecDepth 4096 in
theorem post_v34 (W : Valuation τ sig (Elt F)) : after (opsPost (F := F)) W (r' main_v34) = post34 (W (r' main_v24_1)) := by
  after_results; rfl

def V2 (d : Dev nD) (f0 : Buf (Elt F) (locOf d main_v24_0)) (f1 : Buf (Elt F) (locOf d main_v24_1)) : Valuation τ sig (Elt F) :=
  Function.update (Function.update (Vpre m d) (r' main_v24_0) f0) (r' main_v24_1) f1

theorem V2_0 (d : Dev nD) (f0 : Buf (Elt F) (locOf d main_v24_0)) (f1 : Buf (Elt F) (locOf d main_v24_1)) : V2 m d f0 f1 (r' main_v24_0) = f0 := by
  unfold V2; rw [Function.update_of_ne (devRef_ne_of_ne (by decide)), Function.update_self]
theorem V2_1 (d : Dev nD) (f0 : Buf (Elt F) (locOf d main_v24_0)) (f1 : Buf (Elt F) (locOf d main_v24_1)) : V2 m d f0 f1 (r' main_v24_1) = f1 :=
  Function.update_self _ _ _
theorem V2_rest (d : Dev nD) (f0 : Buf (Elt F) (locOf d main_v24_0)) (f1 : Buf (Elt F) (locOf d main_v24_1)) (b : Ref sig .tc) (hb : b ∈ Rrest) :
    V2 m d f0 f1 (r' b) = Vpre m d (r' b) := by
  have h0 : b ≠ main_v24_0 := fun h => (Finset.mem_sdiff.mp hb).2 (by rw [h]; decide)
  have h1 : b ≠ main_v24_1 := fun h => (Finset.mem_sdiff.mp hb).2 (by rw [h]; decide)
  unfold V2; rw [Function.update_of_ne (devRef_ne_of_ne h1), Function.update_of_ne (devRef_ne_of_ne h0)]

theorem held_pre (d : Dev nD) :
    (held (T d) (tcRefs τ sig) (Vpre m d) : sProp 𝕄)
      = iprop(((locOf d main_v7 ↦{fullShare} tNidx m d) ∗ (locOf d main_v3 ↦{fullShare} tRot m d) ∗ (locOf d main_v6 ↦{fullShare} tTr m d)
          ∗ (locOf d main_v10 ↦{fullShare} tVt m d) ∗ (locOf d main_v13 ↦{fullShare} tInf m d) ∗ (locOf d main_v16 ↦{fullShare} tWt m d)
          ∗ (locOf d main_v18 ↦{fullShare} tOrn m d) ∗ (locOf d main_v22 ↦{fullShare} tMrep m d)
          ∗ (locOf d main_v23 ↦{fullShare} m (locOf d main_v23)) ∗ (locOf d main_v24_0 ↦{fullShare} m (locOf d main_v24_0))
          ∗ (locOf d main_v24_1 ↦{fullShare} m (locOf d main_v24_1)))
          ∗ bigSep Rrest fun b => locOf d b ↦{fullShare} Vpre m d (r' b)) := by
  rw [held_all, Vpre_keep_v23, Vpre_keep_v24_0, Vpre_keep_v24_1]

theorem held_suf (d : Dev nD) (f0 : Buf (Elt F) (locOf d main_v24_0)) (f1 : Buf (Elt F) (locOf d main_v24_1)) :
    (iprop((locOf d main_v24_0 ↦{fullShare} f0) ∗ (locOf d main_v24_1 ↦{fullShare} f1) ∗ bigSep Rrest fun b => locOf d b ↦{fullShare} Vpre m d (r' b)) : sProp 𝕄)
      = held (T d) (Rsuf.map rE) (V2 m d f0 f1) := by
  have e : (bigSep Rrest fun b => (locOf d b ↦{fullShare} V2 m d f0 f1 (r' b) : sProp 𝕄)) = bigSep Rrest fun b => locOf d b ↦{fullShare} Vpre m d (r' b) :=
    bigSep_congr fun b hb => by rw [V2_rest m d f0 f1 b hb]
  rw [held_map, SparseCore.bigSep_insert' (by decide), SparseCore.bigSep_insert' (by decide), V2_0, V2_1, e]

theorem held_fin (d : Dev nD) (f0 : Buf (Elt F) (locOf d main_v24_0)) (f1 : Buf (Elt F) (locOf d main_v24_1)) :
    (held (T d) (Rsuf.map rE) (after (opsPost (F := F)) (V2 m d f0 f1)) : sProp 𝕄)
      = iprop(((locOf d main_arg0 ↦{fullShare} m (locOf d main_arg0)) ∗ (locOf d main_arg1 ↦{fullShare} m (locOf d main_arg1)) ∗ (locOf d main_arg2 ↦{fullShare} m (locOf d main_arg2)) ∗ (locOf d main_arg3 ↦{fullShare} m (locOf d main_arg3)) ∗ (locOf d main_arg4 ↦{fullShare} m (locOf d main_arg4)) ∗ (locOf d main_arg5 ↦{fullShare} m (locOf d main_arg5)) ∗ (locOf d main_arg6 ↦{fullShare} m (locOf d main_arg6))
          ∗ (locOf d main_v27 ↦{fullShare} post27 f0) ∗ (locOf d main_v31 ↦{fullShare} post31 f1) ∗ (locOf d main_v34 ↦{fullShare} post34 f1))
          ∗ bigSep (Rsuf \ R10) fun b => locOf d b ↦{fullShare} after (opsPost (F := F)) (V2 m d f0 f1) (r' b)) := by
  rw [held_map, bigSep_cut (show R10 ⊆ Rsuf by decide), bigSep_R10,
    post_keep_arg0, post_keep_arg1, post_keep_arg2, post_keep_arg3, post_keep_arg4, post_keep_arg5, post_keep_arg6, post_v27, post_v31, post_v34, V2_0, V2_1,
    V2_rest m d f0 f1 main_arg0 (by decide), Vpre_keep_arg0, V2_rest m d f0 f1 main_arg1 (by decide), Vpre_keep_arg1, V2_rest m d f0 f1 main_arg2 (by decide), Vpre_keep_arg2, V2_rest m d f0 f1 main_arg3 (by decide), Vpre_keep_arg3, V2_rest m d f0 f1 main_arg4 (by decide), Vpre_keep_arg4, V2_rest m d f0 f1 main_arg5 (by decide), Vpre_keep_arg5, V2_rest m d f0 f1 main_arg6 (by decide), Vpre_keep_arg6]

theorem st0_eq (d : Dev nD) : (bigSep Finset.univ fun c : Fin ((K (F := F)).nCore 0) => (P m).st 0 d c) = bigSep Finset.univ fun w : Fin 32 => go0 m d w := by
  rw [← regroup]; rfl
theorem dn0_eq (d : Dev nD) : (bigSep Finset.univ fun c : Fin ((K (F := F)).nCore 0) => (P m).dn 0 d c) = bigSep Finset.univ fun w : Fin 32 => td0 m d w := by
  rw [← regroup]; rfl
theorem st1_eq (d : Dev nD) : (bigSep Finset.univ fun c : Fin ((K (F := F)).nCore 1) => (P m).st 1 d c) = bigSep Finset.univ fun w : Fin 32 => go1 m d w := by
  rw [← regroup]; rfl
theorem dn1_eq (d : Dev nD) : (bigSep Finset.univ fun c : Fin ((K (F := F)).nCore 1) => (P m).dn 1 d c) = bigSep Finset.univ fun w : Fin 32 => td1 m d w := by
  rw [← regroup]; rfl

local notation "drop32" => Transfers.shareDrop fullShare 32

theorem cut0 (d : Dev nD) :
    iprop((locOf d main_v7 ↦{fullShare} tNidx m d) ∗ (locOf d main_v3 ↦{fullShare} tRot m d) ∗ (locOf d main_v6 ↦{fullShare} tTr m d)
        ∗ (locOf d main_v10 ↦{fullShare} tVt m d) ∗ (locOf d main_v23 ↦{fullShare} m (locOf d main_v23)))
      ⊢ (iprop((bigSep Finset.univ fun c : Fin ((K (F := F)).nCore 0) => (P m).st 0 d c) ∗ (locOf d main_v10 ↦{drop32} tVt m d)) : sProp 𝕄) := by
  rw [st0_eq]; unfold go0
  rw [bigSep_sep', bigSep_sep', bigSep_sep', bigSep_sep', whole_cut (ℓ := locOf d main_v23) ptRows ptRows_disjoint ptRows_cover]
  iintro ⟨H7, H3, H6, H10, H23⟩
  ihave H7' := (Transfers.pointsTo_toks_split fullShare 32) $$ H7
  icases H7' with ⟨-, H7⟩
  ihave H3' := (Transfers.pointsTo_toks_split fullShare 32) $$ H3
  icases H3' with ⟨-, H3⟩
  ihave H6' := (Transfers.pointsTo_toks_split fullShare 32) $$ H6
  icases H6' with ⟨-, H6⟩
  ihave H10' := (Transfers.pointsTo_toks_split fullShare 32) $$ H10
  icases H10' with ⟨H10d, H10⟩
  isplitr [H10d]
  · isplitl [H7]; · iexact H7
    isplitl [H3]; · iexact H3
    isplitl [H6]; · iexact H6
    isplitl [H10]; · iexact H10
    iexact H23
  · iexact H10d

theorem join0 (d : Dev nD) :
    iprop((bigSep Finset.univ fun c : Fin ((K (F := F)).nCore 0) => (P m).dn 0 d c) ∗ (locOf d main_v10 ↦{drop32} tVt m d))
      ⊢ (iprop((locOf d main_v10 ↦{fullShare} tVt m d) ∗ ∃ g, ⌜PtabOK m d g⌝ ∗ locOf d main_v23 ↦{fullShare} g) : sProp 𝕄) := by
  rw [dn0_eq]; unfold td0
  rw [bigSep_sep', bigSep_sep', bigSep_sep', bigSep_sep']
  iintro ⟨⟨-, -, -, H10, H23⟩, H10d⟩
  isplitl [H10 H10d]
  · iapply (Transfers.pointsTo_toks_join fullShare 32)
    isplitl [H10d]; · iexact H10d
    iexact H10
  · iapply (ptab_join m d); iexact H23

theorem cut1 (d : Dev nD) (g : Buf (Elt F) (locOf d main_v23)) (hg : PtabOK m d g) :
    iprop((locOf d main_v23 ↦{fullShare} g) ∗ (locOf d main_v10 ↦{fullShare} tVt m d) ∗ (locOf d main_v13 ↦{fullShare} tInf m d)
        ∗ (locOf d main_v16 ↦{fullShare} tWt m d) ∗ (locOf d main_v18 ↦{fullShare} tOrn m d) ∗ (locOf d main_v22 ↦{fullShare} tMrep m d)
        ∗ (locOf d main_v24_0 ↦{fullShare} m (locOf d main_v24_0)) ∗ (locOf d main_v24_1 ↦{fullShare} m (locOf d main_v24_1)))
      ⊢ (bigSep Finset.univ fun c : Fin ((K (F := F)).nCore 1) => (P m).st 1 d c : sProp 𝕄) := by
  rw [st1_eq]; unfold go1
  rw [bigSep_sep', bigSep_sep', bigSep_sep', bigSep_sep', bigSep_sep', bigSep_sep', bigSep_sep',
    whole_cut (ℓ := locOf d main_v24_0) owSet owSet_disjoint owSet_cover, whole_cut (ℓ := locOf d main_v24_1) olSet olSet_disjoint olSet_cover]
  have hex : ∀ w : Fin 32, (locOf d main_v23 ↦{rd w} g : sProp 𝕄) ⊢ iprop(∃ f, ⌜PtabOK m d f⌝ ∗ locOf d main_v23 ↦{rd w} f) := fun w => by
    iintro H; iexists g
    isplitr; · ipureintro; exact hg
    iexact H
  have hmono : (bigSep Finset.univ fun w : Fin 32 => (locOf d main_v23 ↦{rd w} g : sProp 𝕄))
      ⊢ bigSep Finset.univ fun w : Fin 32 => iprop(∃ f, ⌜PtabOK m d f⌝ ∗ locOf d main_v23 ↦{rd w} f) :=
    bigSep_mono fun w _ => hex w
  iintro ⟨H23, H10, H13, H16, H18, H22, H240, H241⟩
  ihave H23' := (Transfers.pointsTo_toks_split fullShare 32) $$ H23
  icases H23' with ⟨-, H23⟩
  ihave H10' := (Transfers.pointsTo_toks_split fullShare 32) $$ H10
  icases H10' with ⟨-, H10⟩
  ihave H13' := (Transfers.pointsTo_toks_split fullShare 32) $$ H13
  icases H13' with ⟨-, H13⟩
  ihave H16' := (Transfers.pointsTo_toks_split fullShare 32) $$ H16
  icases H16' with ⟨-, H16⟩
  ihave H18' := (Transfers.pointsTo_toks_split fullShare 32) $$ H18
  icases H18' with ⟨-, H18⟩
  ihave H22' := (Transfers.pointsTo_toks_split fullShare 32) $$ H22
  icases H22' with ⟨-, H22⟩
  isplitl [H23]
  · iapply hmono; iexact H23
  isplitl [H10]; · iexact H10
  isplitl [H13]; · iexact H13
  isplitl [H16]; · iexact H16
  isplitl [H18]; · iexact H18
  isplitl [H22]; · iexact H22
  isplitl [H240]; · iexact H240
  iexact H241

theorem join1 (d : Dev nD) :
    (bigSep Finset.univ fun c : Fin ((K (F := F)).nCore 1) => (P m).dn 1 d c)
      ⊢ (iprop(∃ (f0 : Buf (Elt F) (locOf d main_v24_0)) (f1 : Buf (Elt F) (locOf d main_v24_1)),
          ⌜(∀ w, BlendTile m d w f0) ∧ (∀ w, LossTile m d w f1)⌝ ∗ (locOf d main_v24_0 ↦{fullShare} f0) ∗ (locOf d main_v24_1 ↦{fullShare} f1)) : sProp 𝕄) := by
  rw [dn1_eq]; unfold td1
  rw [bigSep_sep']
  iintro ⟨H0, H1⟩
  ihave H0' := (blend_join m d) $$ H0
  icases H0' with ⟨%f0, %h0, H0⟩
  ihave H1' := (loss_join m d) $$ H1
  icases H1' with ⟨%f1, %h1, H1⟩
  iexists f0; iexists f1
  isplitr; · ipureintro; exact ⟨h0, h1⟩
  isplitl [H0]; · iexact H0
  iexact H1

theorem main_eq' (d : Dev nD) :
    main (F := F) d = (seq (opsPre (F := F)) >>= fun _ => (K (F := F)).run d 0 >>= fun _ => (K (F := F)).run d 1 >>= fun _ =>
      seq (opsPost (F := F)) >>= fun _ => pure ⟨⟩) := by
  rw [main_eq]; simp only [bind_pure_unit]

set_option backward.isDefEq.respectTransparency.types false in
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ FIN m d) := by
  unfold SparseCore.Cfg.tcRes
  rw [unscoped_held, main_eq']
  iintro ⟨#Hctx, Hst, ⟨Hb, Hheld, -, -⟩, -⟩
  iapply (wp_seq (𝒱 := 𝒱) (bd := none) (E := Set.univ) d (tcRefs τ sig) _ (opsPre (F := F))
      (List.forall_iff_forall_mem.mp opsPre_sub) (List.forall_iff_forall_mem.mp opsPre_fresh) (V0 m d)) $$ [Hb Hheld]
  · isplitl [Hb]; · iexact Hb
    iexact Hheld
  iintro ⟨Hb, Hheld⟩
  rw [show after (opsPre (F := F)) (V0 m d) = Vpre m d from rfl]
  ihave Hh := (Entails.of_eq (held_pre m d)) $$ Hheld
  icases Hh with ⟨⟨H7, H3, H6, H10, H13, H16, H18, H22, H23, H240, H241⟩, Hrest⟩
  ihave Hc := (cut0 m d) $$ [H7 H3 H6 H10 H23]
  · isplitl [H7]; · iexact H7
    isplitl [H3]; · iexact H3
    isplitl [H6]; · iexact H6
    isplitl [H10]; · iexact H10
    iexact H23
  icases Hc with ⟨Hgo, H10d⟩
  rw [wp_bind]
  iapply ((K (F := F)).wp_run (D (F := F)) 𝒱 (EH := EH) (P := P m) κ d 0) $$ [Hst Hgo Hb H10d H13 H16 H18 H22 H240 H241 Hrest]
  isplitr; · iexact Hctx
  isplitl [Hst]; · iexact Hst
  isplitl [Hgo]; · iexact Hgo
  iintro ⟨Hst, Hdn⟩
  ihave Hj := (join0 m d) $$ [Hdn H10d]
  · isplitl [Hdn]; · iexact Hdn
    iexact H10d
  icases Hj with ⟨H10, %g, %hg, H23⟩
  ihave Hgo := (cut1 m d g hg) $$ [H23 H10 H13 H16 H18 H22 H240 H241]
  · isplitl [H23]; · iexact H23
    isplitl [H10]; · iexact H10
    isplitl [H13]; · iexact H13
    isplitl [H16]; · iexact H16
    isplitl [H18]; · iexact H18
    isplitl [H22]; · iexact H22
    isplitl [H240]; · iexact H240
    iexact H241
  rw [wp_bind]
  iapply ((K (F := F)).wp_run (D (F := F)) 𝒱 (EH := EH) (P := P m) κ d 1) $$ [Hst Hgo Hb Hrest]
  isplitr; · iexact Hctx
  isplitl [Hst]; · iexact Hst
  isplitl [Hgo]; · iexact Hgo
  iintro ⟨Hst, Hdn⟩
  ihave Hj := (join1 m d) $$ Hdn
  icases Hj with ⟨%f0, %f1, %hT, H240, H241⟩
  ihave Hheld := (Entails.of_eq (held_suf m d f0 f1)) $$ [H240 H241 Hrest]
  · isplitl [H240]; · iexact H240
    isplitl [H241]; · iexact H241
    iexact Hrest
  iapply (wp_seq (𝒱 := 𝒱) (bd := none) (E := Set.univ) d (Rsuf.map rE) _ (opsPost (F := F))
      (List.forall_iff_forall_mem.mp opsPost_sub) (List.forall_iff_forall_mem.mp opsPost_fresh) (V2 m d f0 f1)) $$ [Hb Hheld]
  · isplitl [Hb]; · iexact Hb
    iexact Hheld
  iintro ⟨Hb, Hheld⟩
  ihave Hh := (Entails.of_eq (held_fin m d f0 f1)) $$ Hheld
  icases Hh with ⟨⟨A0, A1, A2, A3, A4, A5, A6, H27, H31, H34⟩, -⟩
  rw [wp_pure]; imodintro
  isplitl [Hst]; · iexact Hst
  isplitl [A0]; · iexact A0
  isplitl [A1]; · iexact A1
  isplitl [A2]; · iexact A2
  isplitl [A3]; · iexact A3
  isplitl [A4]; · iexact A4
  isplitl [A5]; · iexact A5
  isplitl [A6]; · iexact A6
  iexists f0; iexists f1
  isplitr; · ipureintro; exact hT
  isplitl [H27]; · iexact H27
  isplitl [H31]; · iexact H31
  iexact H34

omit [FloatOps F] [Facts] in
theorem SI_whole {ℓ : Loc nD τ sig} (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜RunPost m d s'.mem.mem⌝ : sProp 𝕄) := by
  iintro ⟨⟨H0, H1, H2, H3, H4, H5, H6, %f0, %f1, %hT, H27, H31, H34⟩, HSI⟩
  ihave H := (SI_whole _ s') $$ [H0 HSI]
  · isplitl [H0] <;> iassumption
  icases H with ⟨%h0, HSI⟩
  ihave H := (SI_whole _ s') $$ [H1 HSI]
  · isplitl [H1] <;> iassumption
  icases H with ⟨%h1, HSI⟩
  ihave H := (SI_whole _ s') $$ [H2 HSI]
  · isplitl [H2] <;> iassumption
  icases H with ⟨%h2, HSI⟩
  ihave H := (SI_whole _ s') $$ [H3 HSI]
  · isplitl [H3] <;> iassumption
  icases H with ⟨%h3, HSI⟩
  ihave H := (SI_whole _ s') $$ [H4 HSI]
  · isplitl [H4] <;> iassumption
  icases H with ⟨%h4, HSI⟩
  ihave H := (SI_whole _ s') $$ [H5 HSI]
  · isplitl [H5] <;> iassumption
  icases H with ⟨%h5, HSI⟩
  ihave H := (SI_whole _ s') $$ [H6 HSI]
  · isplitl [H6] <;> iassumption
  icases H with ⟨%h6, HSI⟩
  ihave H := (SI_whole _ s') $$ [H27 HSI]
  · isplitl [H27] <;> iassumption
  icases H with ⟨%h27, HSI⟩
  ihave H := (SI_whole _ s') $$ [H31 HSI]
  · isplitl [H31] <;> iassumption
  icases H with ⟨%h31, HSI⟩
  ihave H := (SI_whole _ s') $$ [H34 HSI]
  · isplitl [H34] <;> iassumption
  icases H with ⟨%h34, HSI⟩
  ipureintro
  exact ⟨⟨f0, f1, hT.1, hT.2, h27, h31, h34⟩, h0, h1, h2, h3, h4, h5, h6⟩

theorem run_main [∀ e, Nonempty (Elt F e)] (hR : RangesOK m)
    (h0 : (K (F := F)).TileObl (D (F := F)) 𝒱 (P m) v₀ 0) (h1 : (K (F := F)).TileObl (D (F := F)) 𝒱 (P m) v₀ 1) :
    θ_run (Cert.Kernel.defs (F := F)) (Cert.Kernel.threads (F := F)) ⟨m, fun _ => 0, ρ⟩ (fun r => ∀ c : Dev nD, RunPost m c r.2.mem) :=
  SparseCore.Cfg.θ_run_sc (K := K (F := F)) (D := D (F := F)) (𝒱 := 𝒱) (EH := EH) (P := P m) facts v₀
    (fun q hq => match q with | 0 => nomatch hq | 1 => nomatch hq)
    (fun q _ => match q with | 0 => h0 | 1 => h1)
    (fun q _ => match q with | 0 => SparseCore.Cfg.VecSplit.of_plain (vecSplit0 m) | 1 => SparseCore.Cfg.VecSplit.of_plain (vecSplit1 m))
    m ρ main (fun _ => iprop(emp)) (FIN m) (u₀ (F := F)) (sep_elim_left.trans (hu₀ m)) (hmain m ρ)
    (fun d s' => RunPost m d s'.mem.mem) (hfin m) (fun r => ∀ c : Dev nD, RunPost m c r.2.mem) (fun _ h => h)

end Cert.KB

end
-- ==== Proof.Body0ValBits.lean ====
import proofs.«205348_g71287867179597_cont_9to1c4b_113_38_alg».proof.Proof.CommonBits
import proofs.«205348_g71287867179597_cont_9to1c4b_113_38_alg».proof.Proof.LibStoreIdx
import Idealize.ShloMosaic.Lib.SparseCore.Threads
import Idealize.ShloMosaic.Lib.SparseCore.Cells
import Idealize.ShloMosaic.Lib.Transfers
import Idealize.ShloMosaic.Lib.Writes

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F] [Facts]
open Facts₀ Facts

variable (m : (ℓ : Loc nD τ sig) → Buf (Elt F) ℓ) (ρ : Dev nD → PrngReg)

local notation "𝕄" => MT nD τ sig (HIx 2) (Elt F) ℕ UU ℕ

section Tile

variable (d : Dev nD) (L : grid0.Coords)

abbrev cV (L : grid0.Coords) : Fin τ.nSC := (L 0).castLE Facts₀.hcore0
abbrev jV (L : grid0.Coords) : Fin τ.nSub := (L 1).castLE Facts₀.hsub0

theorem bound_zero : grid0.bound 0 = 2 := rfl
theorem bound_one : grid0.bound 1 = 16 := rfl

def wL0 (L : grid0.Coords) : Fin 32 := wid (Fin.cast bound_zero (L 0)) (Fin.cast bound_one (L 1))
theorem wL0_val : (wL0 L).val = (L 1).val * 2 + (L 0).val := rfl

theorem trips1 : k0_t1_loop.trips = 56 := by decide
theorem trips2 : k0_t2_loop.trips = 56 := by decide
theorem trips3 : k0_t3_loop.trips = 56 := by decide
theorem trips4 : k0_t4_loop.trips = 7 := by decide
theorem trips5 : k0_t5_loop.trips = 8 := by decide

abbrev aN : Memref sig .scVector .hbm S28672 .i32 := Memref.whole main_v7_scv
abbrev aR : Memref sig .scVector .hbm S258048 .f32 := Memref.whole main_v3_scv
abbrev aT : Memref sig .scVector .hbm S86016 .f32 := Memref.whole main_v6_scv
abbrev aV : Memref sig .scVector .hbm S159744 .f32 := Memref.whole main_v10_scv
abbrev aP : Memref sig .scVector .hbm S28672x128 .f32 := Memref.whole main_v23_scv
abbrev b0 : Memref sig .scVector .vmem S51200 .f32 := Memref.whole cc0_scratch0
abbrev b1 : Memref sig .scVector .vmem S896 .i32 := Memref.whole cc0_scratch1
abbrev b2 : Memref sig .scVector .vmem S896 .f32 := Memref.whole cc0_scratch2
abbrev b3 : Memref sig .scVector .vmem S896 .f32 := Memref.whole cc0_scratch3
abbrev b4 : Memref sig .scVector .vmem S896 .f32 := Memref.whole cc0_scratch4
abbrev b5 : Memref sig .scVector .vmem S8064 .f32 := Memref.whole cc0_scratch5
abbrev b6 : Memref sig .scVector .vmem S2688 .f32 := Memref.whole cc0_scratch6
abbrev b7 : Memref sig .scVector .vmem S128x128 .f32 := Memref.whole cc0_scratch7

theorem at1_eq {n : ℕ} {α : Type} (f : (⟨1, ![n]⟩ : Shape).Idx → α) (h0 : 0 < n) (j : (⟨1, ![n]⟩ : Shape).Idx) (k : ℕ)
    (hk : k = (j 0).val) : at1 f h0 k = f j := by
  subst hk
  have hlt : (j 0).val < n := (j 0).isLt
  unfold at1
  have e : (⟨if (j 0).val < n then (j 0).val else 0, by split <;> omega⟩ : Fin n) = j 0 := Fin.ext (if_pos hlt)
  rw [e]
  exact congrArg f (ValueIdx.eq_ix1 j).symm

omit [FloatOps F] [Facts] in
theorem read_access_whole {κ : Kind} {sp : Space} {s : Shape} {e : EltTy} (v : View sig κ sp s e) (f : v.ty.Contents (Elt F)) :
    (v.slice (Rect.whole s)).read (Elt F) f = v.read (Elt F) f := by
  funext x
  show v.read (Elt F) f ((Rect.whole s).emb x) = _
  rw [Rect.emb_whole_apply]

theorem nidx_read (f1 g1 : (b1).view.ty.Contents (Elt F))
    (h : View.write (Elt F) (b1).view f1 (ReadAs.same.apply (View.read (Elt F)
        ((aN).slice (Rect.unit (s := S28672) (k0_off1 L) S896.size (Facts₀.k0_off1_inb L)) (fun _ => rfl)).view (tNidx m d))) Finset.univ = g1)
    (j : S896.Idx) : (b1).view.read (Elt F) g1 j = at1 (tNidx m d) (k := (wL0 L).val * 896 + (j 0).val) := by
  subst h
  rw [View.read_write_univ, ReadAs.apply_same]
  have key : ∀ J : S28672.Idx, (J 0).val = (wL0 L).val * 896 + (j 0).val →
      at1 (tNidx m d) (k := (wL0 L).val * 896 + (j 0).val) = tNidx m d J :=
    fun J hJ => at1_eq (tNidx m d) (by decide) J _ hJ.symm
  refine (key (((aN).slice (Rect.unit (s := S28672) (k0_off1 L) S896.size (Facts₀.k0_off1_inb L)) (fun _ => rfl)).view.emb j) ?_).symm
  show k0_off1 L 0 + 1 * (j 0).val = _
  rw [k0_off1_eq, wL0_val]; simp only [Matrix.cons_val_zero]; omega

theorem vt_read (f0 g0 : (b0).view.ty.Contents (Elt F)) (off : Fin 1 → ℕ) (inb : ∀ a, off a + S51200.size a ≤ S159744.size a)
    (hr : ∀ a, (Rect.unit (s := S159744) off S51200.size inb).stride a = 1)
    (h : View.write (Elt F) (b0).view f0 (ReadAs.same.apply (View.read (Elt F)
        ((aV).slice (Rect.unit (s := S159744) off S51200.size inb) hr).view (tVt m d))) Finset.univ = g0)
    (j : S51200.Idx) : ((b0).access (Rect.whole S51200)).read (Elt F) g0 j = at1 (tVt m d) (k := off 0 + (j 0).val) := by
  subst h
  rw [read_access_whole, View.read_write_univ, ReadAs.apply_same]
  have key : ∀ J : S159744.Idx, (J 0).val = off 0 + (j 0).val → at1 (tVt m d) (k := off 0 + (j 0).val) = tVt m d J :=
    fun J hJ => at1_eq (tVt m d) (by decide) J _ hJ.symm
  refine (key (((aV).slice (Rect.unit (s := S159744) off S51200.size inb) hr).view.emb j) ?_).symm
  show off 0 + 1 * (j 0).val = _
  omega

theorem chk_gather (hR : RangesOK m) (g1 : (b1).view.ty.Contents (Elt F))
    (hN : ∀ j : S896.Idx, (b1).view.read (Elt F) g1 j = at1 (tNidx m d) (k := (wL0 L).val * 896 + (j 0).val))
    (off : Fin 1 → ℕ) (inb : ∀ a, off a + S16.size a ≤ S896.size a) :
    ∀ a x, ((![View.readAt (Elt F) (b1).view (Rect.unit (s := S896) off S16.size inb).toLoadRect g1] : Fin 1 → IVec S16 32) a x).toNat
      < S51200.size a := by
  intro a x
  obtain rfl : a = 0 := Fin.eq_zero a
  show (View.readAt (Elt F) (b1).view (Rect.unit (s := S896) off S16.size inb).toLoadRect g1 x : BitVec 32).toNat < 51200
  rw [View.readAt_apply, hN]
  have hw := (wL0 L).isLt
  have hj := ((Rect.unit (s := S896) off S16.size inb).toLoadRect.idx x 0).isLt
  have := (hR d).1 ((wL0 L).val * 896 + ((Rect.unit (s := S896) off S16.size inb).toLoadRect.idx x 0).val)
    (by have : ((Rect.unit (s := S896) off S16.size inb).toLoadRect.idx x 0).val < 896 := hj; omega)
  omega

def gWord (c p : ℕ) : Elt F .f32 :=
  at1 (tVt m d) (k := c * 53248 + (at1 (tNidx m d) (k := (wL0 L).val * 896 + p) : BitVec 32).toNat)

theorem gather_step (dst : Memref sig .scVector .vmem S896 .f32) (c k : ℕ) (off2 off3 : Fin 1 → ℕ)
    (inb2 : ∀ a, off2 a + S16.size a ≤ S896.size a) (inb3 : ∀ a, off3 a + S16.size a ≤ S896.size a)
    (h2 : off2 0 = 16 * k) (h3 : off3 0 = 16 * k)
    (g0 : (b0).view.ty.Contents (Elt F)) (g1 : (b1).view.ty.Contents (Elt F)) (g : dst.view.ty.Contents (Elt F))
    (hidx : ∀ a x, ((![View.readAt (Elt F) (b1).view (Rect.unit (s := S896) off2 S16.size inb2).toLoadRect g1] : Fin 1 → IVec S16 32) a x).toNat < S51200.size a)
    (hN : ∀ j : S896.Idx, (b1).view.read (Elt F) g1 j = at1 (tNidx m d) (k := (wL0 L).val * 896 + (j 0).val))
    (hV : ∀ j : S51200.Idx, ((b0).access (Rect.whole S51200)).read (Elt F) g0 j = at1 (tVt m d) (k := c * 53248 + (j 0).val))
    (hg : ∀ j : S896.Idx, (j 0).val < 16 * k → dst.view.read (Elt F) g j = gWord m d L c (j 0).val) :
    ∀ j : S896.Idx, (j 0).val < 16 * (k + 1) →
      dst.view.read (Elt F) (dst.view.writes (Elt F) g [⟨Rect.unit (s := S896) off3 S16.size inb3,
        loadIdx (((b0).access (Rect.whole S51200)).read (Elt F) g0)
          ![View.readAt (Elt F) (b1).view (Rect.unit (s := S896) off2 S16.size inb2).toLoadRect g1] hidx⟩]) j
        = gWord m d L c (j 0).val := by
  intro j hj
  by_cases hlt : (j 0).val < 16 * k
  · rw [View.read_writes_apply_of_forall_not_mem _ _ j _ (by
      intro p hp; rw [List.mem_singleton] at hp; subst hp
      rw [Rect.mem_set_unit]; intro hc; have := (hc 0).1; omega)]
    exact hg j hlt
  · have hx : (j 0).val - 16 * k < 16 := by omega
    have hje : j = (Rect.unit (s := S896) off3 S16.size inb3).emb (ValueIdx.ix1 ⟨(j 0).val - 16 * k, hx⟩) := by
      funext a; obtain rfl : a = 0 := Fin.eq_zero a; apply Fin.ext
      show (j 0).val = off3 0 + 1 * ((j 0).val - 16 * k); omega
    rw [hje, View.read_writes_cons_emb]
    unfold loadIdx
    rw [hV]
    unfold gWord
    congr 2
    show (View.readAt (Elt F) (b1).view (Rect.unit (s := S896) off2 S16.size inb2).toLoadRect g1 (ValueIdx.ix1 ⟨(j 0).val - 16 * k, hx⟩) : BitVec 32).toNat = _
    rw [View.readAt_apply, hN]
    congr 3
    show off2 0 + 1 * ((j 0).val - 16 * k) = off3 0 + 1 * ((j 0).val - 16 * k)
    omega

abbrev IOTA : IVec S16 32 := iota .scVector S16 32 [0] Gen.iota_S16_d0_w32_scVector

omit [FloatOps F] [Facts] in
theorem w_row : ∀ (t5 : Fin k0_t5_loop.trips) (x : S16.Idx), ((k0_pay4 IOTA 0#32 1#32 t5) x).toNat = 16 * t5.val + (x 0).val := by decide +kernel
omit [FloatOps F] [Facts] in
theorem w_tr0 : ∀ (t4 : Fin k0_t4_loop.trips) (t5 : Fin k0_t5_loop.trips) (x : S16.Idx), ((k0_pay8 IOTA (Scf.iv 0#32 1#32 t4) 0#32 1#32 t5) x).toNat = 3 * (128 * t4.val + 16 * t5.val + (x 0).val) + 0 := by decide +kernel
omit [FloatOps F] [Facts] in
theorem w_tr1 : ∀ (t4 : Fin k0_t4_loop.trips) (t5 : Fin k0_t5_loop.trips) (x : S16.Idx), ((k0_pay9 IOTA (Scf.iv 0#32 1#32 t4) 0#32 1#32 t5) x).toNat = 3 * (128 * t4.val + 16 * t5.val + (x 0).val) + 1 := by decide +kernel
omit [FloatOps F] [Facts] in
theorem w_tr2 : ∀ (t4 : Fin k0_t4_loop.trips) (t5 : Fin k0_t5_loop.trips) (x : S16.Idx), ((k0_pay10 IOTA (Scf.iv 0#32 1#32 t4) 0#32 1#32 t5) x).toNat = 3 * (128 * t4.val + 16 * t5.val + (x 0).val) + 2 := by decide +kernel
omit [FloatOps F] [Facts] in
theorem w_rot0 : ∀ (t4 : Fin k0_t4_loop.trips) (t5 : Fin k0_t5_loop.trips) (x : S16.Idx), ((k0_pay11 (k0_pay7 IOTA (Scf.iv 0#32 1#32 t4) 0#32 1#32 t5)) x).toNat = 9 * (128 * t4.val + 16 * t5.val + (x 0).val) + 0 := by decide +kernel
omit [FloatOps F] [Facts] in
theorem w_rot1 : ∀ (t4 : Fin k0_t4_loop.trips) (t5 : Fin k0_t5_loop.trips) (x : S16.Idx), ((k0_pay12 (k0_pay7 IOTA (Scf.iv 0#32 1#32 t4) 0#32 1#32 t5)) x).toNat = 9 * (128 * t4.val + 16 * t5.val + (x 0).val) + 1 := by decide +kernel
omit [FloatOps F] [Facts] in
theorem w_rot2 : ∀ (t4 : Fin k0_t4_loop.trips) (t5 : Fin k0_t5_loop.trips) (x : S16.Idx), ((k0_pay13 (k0_pay7 IOTA (Scf.iv 0#32 1#32 t4) 0#32 1#32 t5)) x).toNat = 9 * (128 * t4.val + 16 * t5.val + (x 0).val) + 2 := by decide +kernel
omit [FloatOps F] [Facts] in
theorem w_rot3 : ∀ (t4 : Fin k0_t4_loop.trips) (t5 : Fin k0_t5_loop.trips) (x : S16.Idx), ((k0_pay14 (k0_pay7 IOTA (Scf.iv 0#32 1#32 t4) 0#32 1#32 t5)) x).toNat = 9 * (128 * t4.val + 16 * t5.val + (x 0).val) + 3 := by decide +kernel
omit [FloatOps F] [Facts] in
theorem w_rot4 : ∀ (t4 : Fin k0_t4_loop.trips) (t5 : Fin k0_t5_loop.trips) (x : S16.Idx), ((k0_pay15 (k0_pay7 IOTA (Scf.iv 0#32 1#32 t4) 0#32 1#32 t5)) x).toNat = 9 * (128 * t4.val + 16 * t5.val + (x 0).val) + 4 := by decide +kernel
omit [FloatOps F] [Facts] in
theorem w_rot5 : ∀ (t4 : Fin k0_t4_loop.trips) (t5 : Fin k0_t5_loop.trips) (x : S16.Idx), ((k0_pay16 (k0_pay7 IOTA (Scf.iv 0#32 1#32 t4) 0#32 1#32 t5)) x).toNat = 9 * (128 * t4.val + 16 * t5.val + (x 0).val) + 5 := by decide +kernel
omit [FloatOps F] [Facts] in
theorem w_rot6 : ∀ (t4 : Fin k0_t4_loop.trips) (t5 : Fin k0_t5_loop.trips) (x : S16.Idx), ((k0_pay1 (k0_pay7 IOTA (Scf.iv 0#32 1#32 t4) 0#32 1#32 t5)) x).toNat = 9 * (128 * t4.val + 16 * t5.val + (x 0).val) + 6 := by decide +kernel
omit [FloatOps F] [Facts] in
theorem w_rot7 : ∀ (t4 : Fin k0_t4_loop.trips) (t5 : Fin k0_t5_loop.trips) (x : S16.Idx), ((k0_pay2 (k0_pay7 IOTA (Scf.iv 0#32 1#32 t4) 0#32 1#32 t5)) x).toNat = 9 * (128 * t4.val + 16 * t5.val + (x 0).val) + 7 := by decide +kernel
omit [FloatOps F] [Facts] in
theorem w_rot8 : ∀ (t4 : Fin k0_t4_loop.trips) (t5 : Fin k0_t5_loop.trips) (x : S16.Idx), ((k0_pay3 (k0_pay7 IOTA (Scf.iv 0#32 1#32 t4) 0#32 1#32 t5)) x).toNat = 9 * (128 * t4.val + 16 * t5.val + (x 0).val) + 8 := by decide +kernel
omit [FloatOps F] [Facts] in
theorem c_st0 : ∀ (t5 : Fin k0_t5_loop.trips), k0_chk4 (k0_pay4 IOTA 0#32 1#32 t5) (broadcast S16 0#32) := by decide +kernel
omit [FloatOps F] [Facts] in
theorem c_st1 : ∀ (t5 : Fin k0_t5_loop.trips), k0_chk5 (k0_pay4 IOTA 0#32 1#32 t5) (broadcast S16 1#32) := by decide +kernel
omit [FloatOps F] [Facts] in
theorem c_st2 : ∀ (t5 : Fin k0_t5_loop.trips), k0_chk6 (k0_pay4 IOTA 0#32 1#32 t5) (broadcast S16 2#32) := by decide +kernel
omit [FloatOps F] [Facts] in
theorem c_st3 : ∀ (t5 : Fin k0_t5_loop.trips), k0_chk8 (k0_pay4 IOTA 0#32 1#32 t5) (broadcast S16 3#32) := by decide +kernel
omit [FloatOps F] [Facts] in
theorem c_st4 : ∀ (t5 : Fin k0_t5_loop.trips), k0_chk10 (k0_pay4 IOTA 0#32 1#32 t5) (broadcast S16 4#32) := by decide +kernel
omit [FloatOps F] [Facts] in
theorem c_st5 : ∀ (t5 : Fin k0_t5_loop.trips), k0_chk12 (k0_pay4 IOTA 0#32 1#32 t5) (broadcast S16 5#32) := by decide +kernel
omit [FloatOps F] [Facts] in
theorem c_st6 : ∀ (t5 : Fin k0_t5_loop.trips), k0_chk14 (k0_pay4 IOTA 0#32 1#32 t5) (broadcast S16 6#32) := by decide +kernel
omit [FloatOps F] [Facts] in
theorem c_st7 : ∀ (t5 : Fin k0_t5_loop.trips), k0_chk16 (k0_pay4 IOTA 0#32 1#32 t5) (broadcast S16 7#32) := by decide +kernel
omit [FloatOps F] [Facts] in
theorem c_st8 : ∀ (t5 : Fin k0_t5_loop.trips), k0_chk18 (k0_pay4 IOTA 0#32 1#32 t5) (broadcast S16 8#32) := by decide +kernel
omit [FloatOps F] [Facts] in
theorem c_st9 : ∀ (t5 : Fin k0_t5_loop.trips), k0_chk20 (k0_pay4 IOTA 0#32 1#32 t5) (broadcast S16 9#32) := by decide +kernel
omit [FloatOps F] [Facts] in
theorem c_st10 : ∀ (t5 : Fin k0_t5_loop.trips), k0_chk22 (k0_pay4 IOTA 0#32 1#32 t5) (broadcast S16 10#32) := by decide +kernel
omit [FloatOps F] [Facts] in
theorem c_st11 : ∀ (t5 : Fin k0_t5_loop.trips), k0_chk24 (k0_pay4 IOTA 0#32 1#32 t5) (broadcast S16 11#32) := by decide +kernel
omit [FloatOps F] [Facts] in
theorem c_st12 : ∀ (t5 : Fin k0_t5_loop.trips), k0_chk26 (k0_pay4 IOTA 0#32 1#32 t5) (broadcast S16 12#32) := by decide +kernel
omit [FloatOps F] [Facts] in
theorem c_st13 : ∀ (t5 : Fin k0_t5_loop.trips), k0_chk28 (k0_pay4 IOTA 0#32 1#32 t5) (broadcast S16 13#32) := by decide +kernel
omit [FloatOps F] [Facts] in
theorem c_st14 : ∀ (t5 : Fin k0_t5_loop.trips), k0_chk30 (k0_pay4 IOTA 0#32 1#32 t5) (broadcast S16 14#32) := by decide +kernel
omit [FloatOps F] [Facts] in
theorem c_tr0 : ∀ (t4 : Fin k0_t4_loop.trips) (t5 : Fin k0_t5_loop.trips), k0_chk7 (k0_pay8 IOTA (Scf.iv 0#32 1#32 t4) 0#32 1#32 t5) := by decide +kernel
omit [FloatOps F] [Facts] in
theorem c_tr1 : ∀ (t4 : Fin k0_t4_loop.trips) (t5 : Fin k0_t5_loop.trips), k0_chk9 (k0_pay9 IOTA (Scf.iv 0#32 1#32 t4) 0#32 1#32 t5) := by decide +kernel
omit [FloatOps F] [Facts] in
theorem c_tr2 : ∀ (t4 : Fin k0_t4_loop.trips) (t5 : Fin k0_t5_loop.trips), k0_chk11 (k0_pay10 IOTA (Scf.iv 0#32 1#32 t4) 0#32 1#32 t5) := by decide +kernel
omit [FloatOps F] [Facts] in
theorem c_rot0 : ∀ (t4 : Fin k0_t4_loop.trips) (t5 : Fin k0_t5_loop.trips), k0_chk13 (k0_pay11 (k0_pay7 IOTA (Scf.iv 0#32 1#32 t4) 0#32 1#32 t5)) := by decide +kernel
omit [FloatOps F] [Facts] in
theorem c_rot1 : ∀ (t4 : Fin k0_t4_loop.trips) (t5 : Fin k0_t5_loop.trips), k0_chk15 (k0_pay12 (k0_pay7 IOTA (Scf.iv 0#32 1#32 t4) 0#32 1#32 t5)) := by decide +kernel
omit [FloatOps F] [Facts] in
theorem c_rot2 : ∀ (t4 : Fin k0_t4_loop.trips) (t5 : Fin k0_t5_loop.trips), k0_chk17 (k0_pay13 (k0_pay7 IOTA (Scf.iv 0#32 1#32 t4) 0#32 1#32 t5)) := by decide +kernel
omit [FloatOps F] [Facts] in
theorem c_rot3 : ∀ (t4 : Fin k0_t4_loop.trips) (t5 : Fin k0_t5_loop.trips), k0_chk19 (k0_pay14 (k0_pay7 IOTA (Scf.iv 0#32 1#32 t4) 0#32 1#32 t5)) := by decide +kernel
omit [FloatOps F] [Facts] in
theorem c_rot4 : ∀ (t4 : Fin k0_t4_loop.trips) (t5 : Fin k0_t5_loop.trips), k0_chk21 (k0_pay15 (k0_pay7 IOTA (Scf.iv 0#32 1#32 t4) 0#32 1#32 t5)) := by decide +kernel
omit [FloatOps F] [Facts] in
theorem c_rot5 : ∀ (t4 : Fin k0_t4_loop.trips) (t5 : Fin k0_t5_loop.trips), k0_chk23 (k0_pay16 (k0_pay7 IOTA (Scf.iv 0#32 1#32 t4) 0#32 1#32 t5)) := by decide +kernel
omit [FloatOps F] [Facts] in
theorem c_rot6 : ∀ (t4 : Fin k0_t4_loop.trips) (t5 : Fin k0_t5_loop.trips), k0_chk25 (k0_pay1 (k0_pay7 IOTA (Scf.iv 0#32 1#32 t4) 0#32 1#32 t5)) := by decide +kernel
omit [FloatOps F] [Facts] in
theorem c_rot7 : ∀ (t4 : Fin k0_t4_loop.trips) (t5 : Fin k0_t5_loop.trips), k0_chk27 (k0_pay2 (k0_pay7 IOTA (Scf.iv 0#32 1#32 t4) 0#32 1#32 t5)) := by decide +kernel
omit [FloatOps F] [Facts] in
theorem c_rot8 : ∀ (t4 : Fin k0_t4_loop.trips) (t5 : Fin k0_t5_loop.trips), k0_chk29 (k0_pay3 (k0_pay7 IOTA (Scf.iv 0#32 1#32 t4) 0#32 1#32 t5)) := by decide +kernel

def StageOK (base k c : ℕ) (f : (b7).view.ty.Contents (Elt F)) : Prop :=
  ∀ (r col : Fin 128), col.val < 15 → (r.val < 16 * k ∨ (r.val < 16 * (k + 1) ∧ col.val < c)) →
    (b7).view.read (Elt F) f (ValueIdx.ix2 r col) = nodeWord m d (base + r.val) col.val

theorem stageOK_zero (base : ℕ) (f : (b7).view.ty.Contents (Elt F)) : StageOK m d base 0 0 f := by
  intro r col _ h; rcases h with h | ⟨_, h⟩ <;> omega

theorem stageOK_next (base k : ℕ) (f : (b7).view.ty.Contents (Elt F)) (h : StageOK m d base k 15 f) : StageOK m d base (k + 1) 0 f := by
  intro r col hc hr
  rcases hr with hr | ⟨_, hr⟩
  · exact h r col hc (by by_cases h1 : r.val < 16 * k; exact .inl h1; exact .inr ⟨by omega, hc⟩)
  · omega

theorem stageOK_store (base k c : ℕ) (hc : c < 15) (hk : k < 8) (f : (b7).view.ty.Contents (Elt F)) (rowv colv : IVec S16 32) (v : Vec F S16 .f32)
    (h : ∀ a x, ((![rowv, colv] : Fin 2 → IVec S16 32) a x).toNat < S128x128.size a)
    (hf : StageOK m d base k c f)
    (hrow : ∀ x : S16.Idx, (rowv x).toNat = 16 * k + (x 0).val) (hcol : ∀ x : S16.Idx, (colv x).toNat = c)
    (hv : ∀ x : S16.Idx, v x = nodeWord m d (base + 16 * k + (x 0).val) c) :
    StageOK m d base k (c + 1) (((b7).access (Rect.whole S128x128)).write (Elt F) f
      (storeIdx (((b7).access (Rect.whole S128x128)).read (Elt F) f) ![rowv, colv] v (fun _ => 1#1) false h) Finset.univ) := by
  intro r col hc15 hr
  have hread : (b7).view.read (Elt F) (((b7).access (Rect.whole S128x128)).write (Elt F) f
      (storeIdx (((b7).access (Rect.whole S128x128)).read (Elt F) f) ![rowv, colv] v (fun _ => 1#1) false h) Finset.univ)
      = storeIdx (((b7).access (Rect.whole S128x128)).read (Elt F) f) ![rowv, colv] v (fun _ => 1#1) false h := by
    rw [← read_access_whole (b7).view]
    exact View.read_write_univ _ _
  have hg : ((b7).access (Rect.whole S128x128)).read (Elt F) f = (b7).view.read (Elt F) f := read_access_whole _ _
  rw [hread]
  by_cases hin : 16 * k ≤ r.val ∧ r.val < 16 * (k + 1) ∧ col.val = c
  ·
    obtain ⟨h1, h2, h3⟩ := hin
    have hx : r.val - 16 * k < (![16] : Fin 1 → ℕ) 0 := by show _ < 16; omega
    have hinj : ∀ k₁ k₂ : Fin ((![16] : Fin 1 → ℕ) 0), k₁ ≠ k₂ →
        ¬ ∀ a, ((![rowv, colv] : Fin 2 → IVec S16 32) a (Shape.ofLane (d := ![16]) k₁)).toNat
          = ((![rowv, colv] : Fin 2 → IVec S16 32) a (Shape.ofLane (d := ![16]) k₂)).toNat := by
      intro k₁ k₂ hne hall
      have h0 : (rowv (Shape.ofLane (d := ![16]) k₁)).toNat = (rowv (Shape.ofLane (d := ![16]) k₂)).toNat := hall 0
      have e1 : (rowv (Shape.ofLane (d := ![16]) k₁)).toNat = 16 * k + k₁.val := hrow _
      have e2 : (rowv (Shape.ofLane (d := ![16]) k₂)).toNat = 16 * k + k₂.val := hrow _
      exact hne (Fin.ext (by omega))
    have hjk : ∀ a, ((ValueIdx.ix2 r col : S128x128.Idx) a).val
        = ((![rowv, colv] : Fin 2 → IVec S16 32) a (Shape.ofLane (d := ![16]) ⟨r.val - 16 * k, hx⟩)).toNat := by
      intro a
      match a with
      | ⟨0, _⟩ =>
        have e : (rowv (Shape.ofLane (d := ![16]) ⟨r.val - 16 * k, hx⟩)).toNat = 16 * k + (r.val - 16 * k) := hrow _
        show r.val = (rowv (Shape.ofLane (d := ![16]) ⟨r.val - 16 * k, hx⟩)).toNat
        omega
      | ⟨1, _⟩ =>
        show col.val = (colv (Shape.ofLane (d := ![16]) ⟨r.val - 16 * k, hx⟩)).toNat
        rw [hcol]; exact h3
    rw [storeIdx_at_lane_store _ ![rowv, colv] v (fun _ => 1#1) h (fun _ => rfl) hinj (ValueIdx.ix2 r col)
      ⟨r.val - 16 * k, hx⟩ hjk, hv]
    show nodeWord m d (base + 16 * k + (r.val - 16 * k)) c = nodeWord m d (base + r.val) col.val
    have h16 : r.val - 16 * k < 16 := hx
    rw [h3, show base + 16 * k + (r.val - 16 * k) = base + r.val by omega]
  ·
    have hne : ∀ kk : Fin ((![16] : Fin 1 → ℕ) 0), ¬ ∀ a, ((ValueIdx.ix2 r col : S128x128.Idx) a).val
        = ((![rowv, colv] : Fin 2 → IVec S16 32) a (Shape.ofLane (d := ![16]) kk)).toNat := by
      intro kk hall
      have h0 : r.val = (rowv (Shape.ofLane (d := ![16]) kk)).toNat := hall 0
      have h1 : col.val = (colv (Shape.ofLane (d := ![16]) kk)).toNat := hall 1
      have e0 : (rowv (Shape.ofLane (d := ![16]) kk)).toNat = 16 * k + kk.val := hrow _
      rw [hcol] at h1
      have hkk : kk.val < 16 := kk.isLt
      exact hin ⟨by omega, by omega, h1⟩
    rw [storeIdx_of_ne _ ![rowv, colv] v (fun _ => 1#1) false h (ValueIdx.ix2 r col) hne, hg]
    refine hf r col hc15 ?_
    rcases hr with hr | ⟨hr1, hr2⟩
    · exact .inl hr
    · by_cases h16 : r.val < 16 * k
      · exact .inl h16
      · have hcc : col.val ≠ c := fun e => hin ⟨by omega, hr1, e⟩
        exact .inr ⟨hr1, by omega⟩

theorem tr_read (f6 g6 : (b6).view.ty.Contents (Elt F))
    (h : View.write (Elt F) (b6).view f6 (ReadAs.same.apply (View.read (Elt F)
        ((aT).slice (Rect.unit (s := S86016) (k0_off9 L) S2688.size (Facts₀.k0_off9_inb L)) (fun _ => rfl)).view (tTr m d))) Finset.univ = g6)
    (j : S2688.Idx) : ((b6).access (Rect.whole S2688)).read (Elt F) g6 j = at1 (tTr m d) (k := (wL0 L).val * 2688 + (j 0).val) := by
  subst h
  rw [read_access_whole, View.read_write_univ, ReadAs.apply_same]
  have key : ∀ J : S86016.Idx, (J 0).val = (wL0 L).val * 2688 + (j 0).val →
      at1 (tTr m d) (k := (wL0 L).val * 2688 + (j 0).val) = tTr m d J :=
    fun J hJ => at1_eq (tTr m d) (by decide) J _ hJ.symm
  refine (key (((aT).slice (Rect.unit (s := S86016) (k0_off9 L) S2688.size (Facts₀.k0_off9_inb L)) (fun _ => rfl)).view.emb j) ?_).symm
  show k0_off9 L 0 + 1 * (j 0).val = _
  rw [k0_off9_eq, wL0_val]; simp only [Matrix.cons_val_zero]; omega

theorem rot_read (f5 g5 : (b5).view.ty.Contents (Elt F))
    (h : View.write (Elt F) (b5).view f5 (ReadAs.same.apply (View.read (Elt F)
        ((aR).slice (Rect.unit (s := S258048) (k0_off8 L) S8064.size (Facts₀.k0_off8_inb L)) (fun _ => rfl)).view (tRot m d))) Finset.univ = g5)
    (j : S8064.Idx) : ((b5).access (Rect.whole S8064)).read (Elt F) g5 j = at1 (tRot m d) (k := (wL0 L).val * 8064 + (j 0).val) := by
  subst h
  rw [read_access_whole, View.read_write_univ, ReadAs.apply_same]
  have key : ∀ J : S258048.Idx, (J 0).val = (wL0 L).val * 8064 + (j 0).val →
      at1 (tRot m d) (k := (wL0 L).val * 8064 + (j 0).val) = tRot m d J :=
    fun J hJ => at1_eq (tRot m d) (by decide) J _ hJ.symm
  refine (key (((aR).slice (Rect.unit (s := S258048) (k0_off8 L) S8064.size (Facts₀.k0_off8_inb L)) (fun _ => rfl)).view.emb j) ?_).symm
  show k0_off8 L 0 + 1 * (j 0).val = _
  rw [k0_off8_eq, wL0_val]; simp only [Matrix.cons_val_zero]; omega

theorem val_plain (c : ℕ) (hc : c < 3) (src : Memref sig .scVector .vmem S896 .f32) (g : src.view.ty.Contents (Elt F))
    (hg : ∀ j : S896.Idx, (j 0).val < 16 * 56 → src.view.read (Elt F) g j = gWord m d L c (j 0).val)
    (p : ℕ) (off : Fin 1 → ℕ) (inb : ∀ a, off a + S16.size a ≤ S896.size a) (hoff : off 0 = p) (x : S16.Idx) :
    View.readAt (Elt F) src.view (Rect.unit (s := S896) off S16.size inb).toLoadRect g x
      = nodeWord m d ((wL0 L).val * 896 + p + (x 0).val) c := by
  have hj : ((Rect.unit (s := S896) off S16.size inb).toLoadRect.idx x 0).val = p + (x 0).val := by
    show off 0 + 1 * (x 0).val = _; omega
  have hlt : ((Rect.unit (s := S896) off S16.size inb).toLoadRect.idx x 0).val < 16 * 56 :=
    ((Rect.unit (s := S896) off S16.size inb).toLoadRect.idx x 0).isLt
  rw [View.readAt_apply, hg _ hlt, hj]
  unfold gWord nodeWord
  rw [if_pos hc, Nat.add_assoc]

theorem val_tr (c : ℕ) (hc3 : 3 ≤ c) (hc6 : c < 6) (g6 : (b6).view.ty.Contents (Elt F))
    (hT : ∀ j : S2688.Idx, ((b6).access (Rect.whole S2688)).read (Elt F) g6 j = at1 (tTr m d) (k := (wL0 L).val * 2688 + (j 0).val))
    (idxv : IVec S16 32) (hidx : ∀ a x, ((![idxv] : Fin 1 → IVec S16 32) a x).toNat < S2688.size a)
    (p : ℕ) (hp : p + 16 ≤ 896) (hi : ∀ x : S16.Idx, (idxv x).toNat = 3 * (p + (x 0).val) + (c - 3)) (x : S16.Idx) :
    loadIdx (((b6).access (Rect.whole S2688)).read (Elt F) g6) ![idxv] hidx x
      = nodeWord m d ((wL0 L).val * 896 + p + (x 0).val) c := by
  unfold loadIdx
  rw [hT]
  unfold nodeWord
  rw [if_neg (by omega), if_pos hc6]
  congr 1
  show (wL0 L).val * 2688 + (idxv x).toNat = _
  rw [hi]
  omega

theorem val_rot (c : ℕ) (hc6 : 6 ≤ c) (hc15 : c < 15) (g5 : (b5).view.ty.Contents (Elt F))
    (hRt : ∀ j : S8064.Idx, ((b5).access (Rect.whole S8064)).read (Elt F) g5 j = at1 (tRot m d) (k := (wL0 L).val * 8064 + (j 0).val))
    (idxv : IVec S16 32) (hidx : ∀ a x, ((![idxv] : Fin 1 → IVec S16 32) a x).toNat < S8064.size a)
    (p : ℕ) (hp : p + 16 ≤ 896) (hi : ∀ x : S16.Idx, (idxv x).toNat = 9 * (p + (x 0).val) + (c - 6)) (x : S16.Idx) :
    loadIdx (((b5).access (Rect.whole S8064)).read (Elt F) g5) ![idxv] hidx x
      = nodeWord m d ((wL0 L).val * 896 + p + (x 0).val) c := by
  unfold loadIdx
  rw [hRt]
  unfold nodeWord
  rw [if_neg (by omega), if_neg (by omega)]
  congr 1
  show (wL0 L).val * 8064 + (idxv x).toNat = _
  rw [hi]
  omega

end Tile
end Cert.KB
end
-- ==== Proof.Body0RowsBits.lean ====
import proofs.«205348_g71287867179597_cont_9to1c4b_113_38_alg».proof.Proof.CommonBits
import proofs.«205348_g71287867179597_cont_9to1c4b_113_38_alg».proof.Proof.LibStoreIdx
import proofs.«205348_g71287867179597_cont_9to1c4b_113_38_alg».proof.Proof.Body0ValBits
import Idealize.ShloMosaic.Lib.SparseCore.Threads
import Idealize.ShloMosaic.Lib.SparseCore.Cells
import Idealize.ShloMosaic.Lib.Transfers
import Idealize.ShloMosaic.Lib.Writes

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F] [Facts]
open Facts₀ Facts

variable (m : (ℓ : Loc nD τ sig) → Buf (Elt F) ℓ) (ρ : Dev nD → PrngReg)

local notation "𝕄" => MT nD τ sig (HIx 2) (Elt F) ℕ UU ℕ

section Tile

variable (d : Dev nD) (L : grid0.Coords)

abbrev pRect (L : grid0.Coords) (t : Fin k0_t4_loop.trips) : Rect S28672x128 :=
  Rect.unit (s := S28672x128) (k0_off13 L t) S128x128.size (Facts₀.k0_off13_inb L t)
abbrev pSl (L : grid0.Coords) (t : Fin k0_t4_loop.trips) : Memref sig .scVector .hbm S128x128 .f32 :=
  (aP).slice (pRect L t) (fun _ => rfl)

theorem set_pSl (t : Fin k0_t4_loop.trips) : (pSl L t).view.set = (pRect L t).set := by
  simp only [Memref.view_slice, Memref.view_whole, View.set_slice_whole]

theorem mem_pRect (t : Fin k0_t4_loop.trips) (j : S28672x128.Idx) :
    j ∈ (pRect L t).set ↔ (wL0 L).val * 896 + 128 * t.val ≤ (j 0).val ∧ (j 0).val < (wL0 L).val * 896 + 128 * t.val + 128 := by
  rw [Rect.mem_set_unit, k0_off13_eq, Fin.forall_fin_two, wL0_val]
  have h1 : (j 1).val < 128 := (j 1).isLt
  simp only [Matrix.cons_val_zero, Matrix.cons_val_one, Matrix.head_cons]
  show (_ ≤ (j 0).val ∧ (j 0).val < _ + 128) ∧ (0 ≤ (j 1).val ∧ (j 1).val < 0 + 128) ↔ _
  omega

theorem pRect_disjoint (t t' : Fin k0_t4_loop.trips) (h : t ≠ t') : Disjoint (pRect L t).set (pRect L t').set := by
  rw [Finset.disjoint_left]
  intro j hj hj'
  rw [mem_pRect] at hj hj'
  exact h (Fin.ext (by omega))

theorem ptRows_eq : ptRows (wL0 L) = Finset.univ.biUnion fun t : Fin k0_t4_loop.trips => (pRect L t).set := by
  ext j
  simp only [ptRows, Finset.mem_filter, Finset.mem_univ, true_and, Finset.mem_biUnion, mem_pRect]
  constructor
  · intro ⟨h1, h2⟩
    exact ⟨⟨((j 0).val - (wL0 L).val * 896) / 128, by rw [trips4]; omega⟩, by dsimp only; omega, by dsimp only; omega⟩
  · rintro ⟨t, h1, h2⟩
    have h7 : t.val < 7 := lt_of_lt_of_eq t.isLt trips4
    omega

def RowsDone (k : ℕ) (G : Buf (Elt F) (locOf d main_v23)) : Prop :=
  ∀ (r : Fin 28672) (col : Fin 128), (wL0 L).val * 896 ≤ r.val → r.val < (wL0 L).val * 896 + 128 * k → col.val < 15 →
    G (ValueIdx.ix2 r col) = nodeWord m d r.val col.val

theorem rowsDone_zero (G : Buf (Elt F) (locOf d main_v23)) : RowsDone m d L 0 G := by
  intro r col h1 h2 _; omega

theorem rowsDone_ptabTile (G : Buf (Elt F) (locOf d main_v23)) (h : RowsDone m d L 7 G) : PtabTile m d (wL0 L) G := by
  intro r col h1 h2 h3
  exact h r col h1 (by omega) h3

theorem rows_step (t : Fin k0_t4_loop.trips) (G : Buf (Elt F) (locOf d main_v23)) (fS : (b7).view.ty.Contents (Elt F))
    (pay : S128x128.Idx → Elt F .f32) (hpay : ∀ x, pay x = (b7).view.read (Elt F) fS x)
    (hG : RowsDone m d L t.val G) (hS : StageOK m d ((wL0 L).val * 896 + 128 * t.val) 8 0 fS) :
    RowsDone m d L (t.val + 1) ((pSl L t).view.writes (Elt F) G [⟨Rect.whole S128x128, pay⟩]) := by
  intro r col h1 h2 hc15
  by_cases hlo : r.val < (wL0 L).val * 896 + 128 * t.val
  ·
    have hoff : (pSl L t).view.writes (Elt F) G [⟨Rect.whole S128x128, pay⟩] (ValueIdx.ix2 r col) = G (ValueIdx.ix2 r col) := by
      refine View.writes_apply_of_forall_ne _ _ _ (fun y hy => ?_)
      have hmem : (ValueIdx.ix2 r col : S28672x128.Idx) ∈ (pRect L t).set := by
        rw [← set_pSl, ← hy]; exact View.emb_mem_set _ y
      rw [mem_pRect] at hmem
      have : ((ValueIdx.ix2 r col : S28672x128.Idx) 0).val = r.val := rfl
      omega
    rw [hoff]
    exact hG r col h1 hlo hc15
  ·
    have hr' : r.val - ((wL0 L).val * 896 + 128 * t.val) < 128 := by omega
    have hemb : (pSl L t).view.emb ((Rect.whole S128x128).emb
        (ValueIdx.ix2 ⟨r.val - ((wL0 L).val * 896 + 128 * t.val), hr'⟩ col)) = (ValueIdx.ix2 r col : S28672x128.Idx) := by
      rw [Rect.emb_whole_apply]
      funext a
      apply Fin.ext
      match a with
      | ⟨0, _⟩ =>
        show k0_off13 L t 0 + 1 * (r.val - ((wL0 L).val * 896 + 128 * t.val)) = r.val
        rw [k0_off13_eq, wL0_val]; simp only [Matrix.cons_val_zero]; rw [wL0_val] at hlo h1; omega
      | ⟨1, _⟩ =>
        show k0_off13 L t 1 + 1 * col.val = col.val
        rw [k0_off13_eq]
        show 0 + 1 * col.val = col.val
        omega
    have hw := View.read_writes_cons_emb (pSl L t).view G (Rect.whole S128x128) pay []
      (ValueIdx.ix2 ⟨r.val - ((wL0 L).val * 896 + 128 * t.val), hr'⟩ col)
    rw [View.read_apply, hemb] at hw
    have hw' : (pSl L t).view.writes (Elt F) G [⟨Rect.whole S128x128, pay⟩] (ValueIdx.ix2 r col)
        = pay (ValueIdx.ix2 ⟨r.val - ((wL0 L).val * 896 + 128 * t.val), hr'⟩ col) := hw
    rw [hw', hpay, hS ⟨r.val - ((wL0 L).val * 896 + 128 * t.val), hr'⟩ col hc15 (.inl (by show _ < 16 * 8; omega))]
    show nodeWord m d ((wL0 L).val * 896 + 128 * t.val + (r.val - ((wL0 L).val * 896 + 128 * t.val))) col.val = _
    rw [show (wL0 L).val * 896 + 128 * t.val + (r.val - ((wL0 L).val * 896 + 128 * t.val)) = r.val by omega]

theorem rows_off (t t' : Fin k0_t4_loop.trips) (h : t' ≠ t) (G : Buf (Elt F) (locOf d main_v23)) (pay : S128x128.Idx → Elt F .f32) :
    ∀ i ∈ (pSl L t').view.set, G i = (pSl L t).view.writes (Elt F) G [⟨Rect.whole S128x128, pay⟩] i := by
  intro i hi
  symm
  refine View.writes_apply_of_forall_ne _ _ _ (fun y hy => ?_)
  have h1 : i ∈ (pRect L t).set := by rw [← set_pSl, ← hy]; exact View.emb_mem_set _ y
  have h2 : i ∈ (pRect L t').set := by rw [← set_pSl]; exact hi
  exact Finset.disjoint_left.mp (pRect_disjoint L t t' (Ne.symm h)) h1 h2

end Tile
end Cert.KB
end
-- ==== Proof.Body0Bits.lean ====
import proofs.«205348_g71287867179597_cont_9to1c4b_113_38_alg».proof.Proof.CommonBits
import proofs.«205348_g71287867179597_cont_9to1c4b_113_38_alg».proof.Proof.LibStoreIdx
import proofs.«205348_g71287867179597_cont_9to1c4b_113_38_alg».proof.Proof.Body0ValBits
import proofs.«205348_g71287867179597_cont_9to1c4b_113_38_alg».proof.Proof.Body0RowsBits
import Idealize.ShloMosaic.Lib.SparseCore.Threads
import Idealize.ShloMosaic.Lib.SparseCore.Cells
import Idealize.ShloMosaic.Lib.Transfers
import Idealize.ShloMosaic.Lib.Writes

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F] [Facts]
open Facts₀ Facts

variable (m : (ℓ : Loc nD τ sig) → Buf (Elt F) ℓ) (ρ : Dev nD → PrngReg)

local notation "𝕄" => MT nD τ sig (HIx 2) (Elt F) ℕ UU ℕ

section Tile

variable (d : Dev nD) (L : grid0.Coords)
abbrev sc0 (d : Dev nD) (L : grid0.Coords) : GSem nD τ sig := (V d (cV L) (jV L), .dma cc0_scoped0.sem)
abbrev sc1 (d : Dev nD) (L : grid0.Coords) : GSem nD τ sig := (V d (cV L) (jV L), .dma cc0_scoped1.sem)
abbrev sc2 (d : Dev nD) (L : grid0.Coords) : GSem nD τ sig := (V d (cV L) (jV L), .dma cc0_scoped2.sem)
abbrev sc3 (d : Dev nD) (L : grid0.Coords) : GSem nD τ sig := (V d (cV L) (jV L), .dma cc0_scoped3.sem)
abbrev sc4 (d : Dev nD) (L : grid0.Coords) : GSem nD τ sig := (V d (cV L) (jV L), .dma cc0_scoped4.sem)
abbrev sc5 (d : Dev nD) (L : grid0.Coords) : GSem nD τ sig := (V d (cV L) (jV L), .dma cc0_scoped5.sem)
abbrev sc6 (d : Dev nD) (L : grid0.Coords) : GSem nD τ sig := (V d (cV L) (jV L), .dma cc0_scoped6.sem)

omit [FloatOps F] [Facts] in
theorem ownSems0_V :
    (ownSems0 (V d (cV L) (jV L)) : sProp 𝕄)
      = iprop(semVal (sc0 d L) 0 ∗ semVal (sc1 d L) 0 ∗ semVal (sc2 d L) 0 ∗ semVal (sc3 d L) 0 ∗ semVal (sc4 d L) 0 ∗ semVal (sc5 d L) 0 ∗ semVal (sc6 d L) 0
          ∗ bigSep ((((((((ownCells (V d (cV L) (jV L))).erase (sc0 d L)).erase (sc1 d L)).erase (sc2 d L)).erase (sc3 d L)).erase (sc4 d L)).erase (sc5 d L)).erase (sc6 d L)) fun g => semVal g 0) := by
  unfold SparseCore.Cfg.ownSems0
  rw [SparseCore.bigSep_erase' ((mem_ownCells (g := sc0 d L)).mpr ⟨rfl, by show (SemLoc.dma cc0_scoped0.sem : SemLoc sig).isScoped .scVector = true; decide⟩),
    SparseCore.bigSep_erase' (Finset.mem_erase.mpr ⟨fun e => absurd (congrArg Prod.snd e) (show (SemLoc.dma cc0_scoped1.sem : SemLoc sig) ≠ SemLoc.dma cc0_scoped0.sem by decide), (mem_ownCells (g := sc1 d L)).mpr ⟨rfl, by show (SemLoc.dma cc0_scoped1.sem : SemLoc sig).isScoped .scVector = true; decide⟩⟩),
    SparseCore.bigSep_erase' (Finset.mem_erase.mpr ⟨fun e => absurd (congrArg Prod.snd e) (show (SemLoc.dma cc0_scoped2.sem : SemLoc sig) ≠ SemLoc.dma cc0_scoped1.sem by decide), Finset.mem_erase.mpr ⟨fun e => absurd (congrArg Prod.snd e) (show (SemLoc.dma cc0_scoped2.sem : SemLoc sig) ≠ SemLoc.dma cc0_scoped0.sem by decide), (mem_ownCells (g := sc2 d L)).mpr ⟨rfl, by show (SemLoc.dma cc0_scoped2.sem : SemLoc sig).isScoped .scVector = true; decide⟩⟩⟩),
    SparseCore.bigSep_erase' (Finset.mem_erase.mpr ⟨fun e => absurd (congrArg Prod.snd e) (show (SemLoc.dma cc0_scoped3.sem : SemLoc sig) ≠ SemLoc.dma cc0_scoped2.sem by decide), Finset.mem_erase.mpr ⟨fun e => absurd (congrArg Prod.snd e) (show (SemLoc.dma cc0_scoped3.sem : SemLoc sig) ≠ SemLoc.dma cc0_scoped1.sem by decide), Finset.mem_erase.mpr ⟨fun e => absurd (congrArg Prod.snd e) (show (SemLoc.dma cc0_scoped3.sem : SemLoc sig) ≠ SemLoc.dma cc0_scoped0.sem by decide), (mem_ownCells (g := sc3 d L)).mpr ⟨rfl, by show (SemLoc.dma cc0_scoped3.sem : SemLoc sig).isScoped .scVector = true; decide⟩⟩⟩⟩),
    SparseCore.bigSep_erase' (Finset.mem_erase.mpr ⟨fun e => absurd (congrArg Prod.snd e) (show (SemLoc.dma cc0_scoped4.sem : SemLoc sig) ≠ SemLoc.dma cc0_scoped3.sem by decide), Finset.mem_erase.mpr ⟨fun e => absurd (congrArg Prod.snd e) (show (SemLoc.dma cc0_scoped4.sem : SemLoc sig) ≠ SemLoc.dma cc0_scoped2.sem by decide), Finset.mem_erase.mpr ⟨fun e => absurd (congrArg Prod.snd e) (show (SemLoc.dma cc0_scoped4.sem : SemLoc sig) ≠ SemLoc.dma cc0_scoped1.sem by decide), Finset.mem_erase.mpr ⟨fun e => absurd (congrArg Prod.snd e) (show (SemLoc.dma cc0_scoped4.sem : SemLoc sig) ≠ SemLoc.dma cc0_scoped0.sem by decide), (mem_ownCells (g := sc4 d L)).mpr ⟨rfl, by show (SemLoc.dma cc0_scoped4.sem : SemLoc sig).isScoped .scVector = true; decide⟩⟩⟩⟩⟩),
    SparseCore.bigSep_erase' (Finset.mem_erase.mpr ⟨fun e => absurd (congrArg Prod.snd e) (show (SemLoc.dma cc0_scoped5.sem : SemLoc sig) ≠ SemLoc.dma cc0_scoped4.sem by decide), Finset.mem_erase.mpr ⟨fun e => absurd (congrArg Prod.snd e) (show (SemLoc.dma cc0_scoped5.sem : SemLoc sig) ≠ SemLoc.dma cc0_scoped3.sem by decide), Finset.mem_erase.mpr ⟨fun e => absurd (congrArg Prod.snd e) (show (SemLoc.dma cc0_scoped5.sem : SemLoc sig) ≠ SemLoc.dma cc0_scoped2.sem by decide), Finset.mem_erase.mpr ⟨fun e => absurd (congrArg Prod.snd e) (show (SemLoc.dma cc0_scoped5.sem : SemLoc sig) ≠ SemLoc.dma cc0_scoped1.sem by decide), Finset.mem_erase.mpr ⟨fun e => absurd (congrArg Prod.snd e) (show (SemLoc.dma cc0_scoped5.sem : SemLoc sig) ≠ SemLoc.dma cc0_scoped0.sem by decide), (mem_ownCells (g := sc5 d L)).mpr ⟨rfl, by show (SemLoc.dma cc0_scoped5.sem : SemLoc sig).isScoped .scVector = true; decide⟩⟩⟩⟩⟩⟩),
    SparseCore.bigSep_erase' (Finset.mem_erase.mpr ⟨fun e => absurd (congrArg Prod.snd e) (show (SemLoc.dma cc0_scoped6.sem : SemLoc sig) ≠ SemLoc.dma cc0_scoped5.sem by decide), Finset.mem_erase.mpr ⟨fun e => absurd (congrArg Prod.snd e) (show (SemLoc.dma cc0_scoped6.sem : SemLoc sig) ≠ SemLoc.dma cc0_scoped4.sem by decide), Finset.mem_erase.mpr ⟨fun e => absurd (congrArg Prod.snd e) (show (SemLoc.dma cc0_scoped6.sem : SemLoc sig) ≠ SemLoc.dma cc0_scoped3.sem by decide), Finset.mem_erase.mpr ⟨fun e => absurd (congrArg Prod.snd e) (show (SemLoc.dma cc0_scoped6.sem : SemLoc sig) ≠ SemLoc.dma cc0_scoped2.sem by decide), Finset.mem_erase.mpr ⟨fun e => absurd (congrArg Prod.snd e) (show (SemLoc.dma cc0_scoped6.sem : SemLoc sig) ≠ SemLoc.dma cc0_scoped1.sem by decide), Finset.mem_erase.mpr ⟨fun e => absurd (congrArg Prod.snd e) (show (SemLoc.dma cc0_scoped6.sem : SemLoc sig) ≠ SemLoc.dma cc0_scoped0.sem by decide), (mem_ownCells (g := sc6 d L)).mpr ⟨rfl, by show (SemLoc.dma cc0_scoped6.sem : SemLoc sig).isScoped .scVector = true; decide⟩⟩⟩⟩⟩⟩⟩)]

omit [FloatOps F] [Facts] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f) ∗ (∃ f, (V d (cV L) (jV L)).loc cc0_scratch6 ↦{fullShare} f) ∗ (∃ f, (V d (cV L) (jV L)).loc cc0_scratch7 ↦{fullShare} f)
          ∗ bigSep (((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)).erase ((Proc.scVector (cV L) (jV L)).devRef cc0_scratch7))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := ((Proc.scVector (cV L) (jV L)).devRef cc0_scratch5)) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := Proc.scVector (cV L) (jV L)) (b := ((Proc.scVector (cV L) (jV L)).devRef cc0_scratch6)) rfl⟩⟩⟩⟩⟩⟩),
    SparseCore.bigSep_erase' (Finset.mem_erase.mpr ⟨fun e => absurd (Proc.devRef_injective _ e) (show (cc0_scratch7 : Ref sig .scVector) ≠ cc0_scratch6 by decide), Finset.mem_erase.mpr ⟨fun e => absurd (Proc.devRef_injective _ e) (show (cc0_scratch7 : Ref sig .scVector) ≠ cc0_scratch5 by decide), Finset.mem_erase.mpr ⟨fun e => absurd (Proc.devRef_injective _ e) (show (cc0_scratch7 : Ref sig .scVector) ≠ cc0_scratch4 by decide), Finset.mem_erase.mpr ⟨fun e => absurd (Proc.devRef_injective _ e) (show (cc0_scratch7 : Ref sig .scVector) ≠ cc0_scratch3 by decide), Finset.mem_erase.mpr ⟨fun e => absurd (Proc.devRef_injective _ e) (show (cc0_scratch7 : Ref sig .scVector) ≠ cc0_scratch2 by decide), Finset.mem_erase.mpr ⟨fun e => absurd (Proc.devRef_injective _ e) (show (cc0_scratch7 : Ref sig .scVector) ≠ cc0_scratch1 by decide), Finset.mem_erase.mpr ⟨fun e => absurd (Proc.devRef_injective _ e) (show (cc0_scratch7 : Ref sig .scVector) ≠ cc0_scratch0 by decide), SparseCore.Cfg.mem_ownRefs_of_owner (p := Proc.scVector (cV L) (jV L)) (b := ((Proc.scVector (cV L) (jV L)).devRef cc0_scratch7)) rfl⟩⟩⟩⟩⟩⟩⟩)]
omit [FloatOps F] [Facts] in
theorem pts_aN (q : PosShare TreeShare) (f : Buf (Elt F) (locOf d main_v7)) :
    ((aN).view.loc (V d (cV L) (jV L)) ↦{q} f : sProp 𝕄) = locOf d main_v7 ↦{q} f := by
  simp only [Memref.view_whole, View.set_whole]
omit [FloatOps F] [Facts] in
theorem pts_aR (q : PosShare TreeShare) (f : Buf (Elt F) (locOf d main_v3)) :
    ((aR).view.loc (V d (cV L) (jV L)) ↦{q} f : sProp 𝕄) = locOf d main_v3 ↦{q} f := by
  simp only [Memref.view_whole, View.set_whole]
omit [FloatOps F] [Facts] in
theorem pts_aT (q : PosShare TreeShare) (f : Buf (Elt F) (locOf d main_v6)) :
    ((aT).view.loc (V d (cV L) (jV L)) ↦{q} f : sProp 𝕄) = locOf d main_v6 ↦{q} f := by
  simp only [Memref.view_whole, View.set_whole]
omit [FloatOps F] [Facts] in
theorem pts_aV (q : PosShare TreeShare) (f : Buf (Elt F) (locOf d main_v10)) :
    ((aV).view.loc (V d (cV L) (jV L)) ↦{q} f : sProp 𝕄) = locOf d main_v10 ↦{q} f := by
  simp only [Memref.view_whole, View.set_whole]
omit [FloatOps F] [Facts] in
theorem pts_b0 (f : Buf (Elt F) ((V d (cV L) (jV L)).loc cc0_scratch0)) :
    ((b0).view.loc (V d (cV L) (jV L)) ↦{fullShare} f : sProp 𝕄) = (V d (cV L) (jV L)).loc cc0_scratch0 ↦{fullShare} f := rfl
omit [FloatOps F] [Facts] in
theorem pts_b1 (f : Buf (Elt F) ((V d (cV L) (jV L)).loc cc0_scratch1)) :
    ((b1).view.loc (V d (cV L) (jV L)) ↦{fullShare} f : sProp 𝕄) = (V d (cV L) (jV L)).loc cc0_scratch1 ↦{fullShare} f := rfl
omit [FloatOps F] [Facts] in
theorem pts_b2 (f : Buf (Elt F) ((V d (cV L) (jV L)).loc cc0_scratch2)) :
    ((b2).view.loc (V d (cV L) (jV L)) ↦{fullShare} f : sProp 𝕄) = (V d (cV L) (jV L)).loc cc0_scratch2 ↦{fullShare} f := rfl
omit [FloatOps F] [Facts] in
theorem pts_b3 (f : Buf (Elt F) ((V d (cV L) (jV L)).loc cc0_scratch3)) :
    ((b3).view.loc (V d (cV L) (jV L)) ↦{fullShare} f : sProp 𝕄) = (V d (cV L) (jV L)).loc cc0_scratch3 ↦{fullShare} f := rfl
omit [FloatOps F] [Facts] in
theorem pts_b4 (f : Buf (Elt F) ((V d (cV L) (jV L)).loc cc0_scratch4)) :
    ((b4).view.loc (V d (cV L) (jV L)) ↦{fullShare} f : sProp 𝕄) = (V d (cV L) (jV L)).loc cc0_scratch4 ↦{fullShare} f := rfl
omit [FloatOps F] [Facts] in
theorem pts_b5 (f : Buf (Elt F) ((V d (cV L) (jV L)).loc cc0_scratch5)) :
    ((b5).view.loc (V d (cV L) (jV L)) ↦{fullShare} f : sProp 𝕄) = (V d (cV L) (jV L)).loc cc0_scratch5 ↦{fullShare} f := rfl
omit [FloatOps F] [Facts] in
theorem pts_b6 (f : Buf (Elt F) ((V d (cV L) (jV L)).loc cc0_scratch6)) :
    ((b6).view.loc (V d (cV L) (jV L)) ↦{fullShare} f : sProp 𝕄) = (V d (cV L) (jV L)).loc cc0_scratch6 ↦{fullShare} f := rfl
omit [FloatOps F] [Facts] in
theorem pts_b7 (f : Buf (Elt F) ((V d (cV L) (jV L)).loc cc0_scratch7)) :
    ((b7).view.loc (V d (cV L) (jV L)) ↦{fullShare} f : sProp 𝕄) = (V d (cV L) (jV L)).loc cc0_scratch7 ↦{fullShare} f := rfl

def gInv (dst : Memref sig .scVector .vmem S896 .f32)
    (g0 : Buf (Elt F) ((b0).view.loc (V d (cV L) (jV L)))) (g1 : Buf (Elt F) ((b1).view.loc (V d (cV L) (jV L))))
    (Pd : ℕ → Buf (Elt F) (dst.view.loc (V d (cV L) (jV L))) → Prop) (k : ℕ) (_ : PUnit) : sProp 𝕄 :=
  iprop(((b1).view.loc (V d (cV L) (jV L)) ↦{fullShare} g1) ∗ ((b0).view.loc (V d (cV L) (jV L)) ↦{fullShare} g0)
    ∗ ∃ g, ⌜Pd k g⌝ ∗ dst.view.loc (V d (cV L) (jV L)) ↦{fullShare} g)

omit [FloatOps F] [Facts] in
theorem set_b7_access : ((b7).access (Rect.whole S128x128)).set = Finset.univ := by
  simp only [Memref.access, Memref.view_whole, View.set_slice_whole]
  exact Rect.set_whole _

omit [FloatOps F] [Facts] in
theorem pts_b7_access (f : (b7).view.ty.Contents (Elt F)) :
    ((((b7).access (Rect.whole S128x128)).loc (V d (cV L) (jV L)) ↦[((b7).access (Rect.whole S128x128)).set]{fullShare} f : sProp 𝕄))
      = ((b7).view.loc (V d (cV L) (jV L)) ↦{fullShare} f) := by
  rw [set_b7_access]

theorem wp_colStore {α : Type} (base k c : ℕ) (hc : c < 15) (hk : k < 8)
    {rowv colv : IVec S16 32} {v : Vec F S16 .f32}
    {h : ∀ a x, ((![rowv, colv] : Fin 2 → IVec S16 32) a x).toNat < S128x128.size a}
    {hs : ((b7).access (Rect.whole S128x128)).Stores Finset.univ}
    {kk : PUnit → Prog (TpuEff nD τ sig (Elt F) Λ₀ (V d (cV L) (jV L)).2) α} {Φ : α → sProp 𝕄}
    (f : (b7).view.ty.Contents (Elt F)) (hf : StageOK m d base k c f)
    (hrow : ∀ x : S16.Idx, (rowv x).toNat = 16 * k + (x 0).val) (hcol : ∀ x : S16.Idx, (colv x).toNat = c)
    (hv : ∀ x : S16.Idx, v x = nodeWord m d (base + 16 * k + (x 0).val) c) :
    ((b7).view.loc (V d (cV L) (jV L)) ↦{fullShare} f : sProp 𝕄)
      ⊢ iprop((∀ f', iprop(⌜StageOK m d base k (c + 1) f'⌝ -∗ ((b7).view.loc (V d (cV L) (jV L)) ↦{fullShare} f')
              -∗ wp frame (wpE (defs₀ (F := F)) 𝒱₀ (V d (cV L) (jV L)) none) Set.univ (kk ⟨⟩) Φ))
          -∗ wp frame (wpE (defs₀ (F := F)) 𝒱₀ (V d (cV L) (jV L)) none) Set.univ
              (SparseCore.vectorStoreIdx (b7) ![rowv, colv] v (fun _ => 1#1) false h hs >>= kk) Φ) := by
  iintro H Hk
  ihave H := (Entails.of_eq (pts_b7_access (F := F) d L f).symm) $$ H
  iapply (SparseCore.wp_vectorStoreIdx (defs := defs₀ (F := F)) 𝒱₀ (V d (cV L) (jV L)) none Set.univ (base := b7) (f := f)) $$ H
  iintro H
  ihave H := (Entails.of_eq (pts_b7_access (F := F) d L _)) $$ H
  iapply Hk $$ %_ %(stageOK_store m d base k c hc hk f rowv colv v h hf hrow hcol hv) [H]
  iexact H

def sInv (base : ℕ) (g2 : (b2).view.ty.Contents (Elt F)) (g3 : (b3).view.ty.Contents (Elt F)) (g4 : (b4).view.ty.Contents (Elt F))
    (g5 : (b5).view.ty.Contents (Elt F)) (g6 : (b6).view.ty.Contents (Elt F)) (k : ℕ) (_ : PUnit) : sProp 𝕄 :=
  iprop(((b2).view.loc (V d (cV L) (jV L)) ↦{fullShare} g2) ∗ ((b3).view.loc (V d (cV L) (jV L)) ↦{fullShare} g3) ∗ ((b4).view.loc (V d (cV L) (jV L)) ↦{fullShare} g4)
    ∗ ((b5).view.loc (V d (cV L) (jV L)) ↦{fullShare} g5) ∗ ((b6).view.loc (V d (cV L) (jV L)) ↦{fullShare} g6)
    ∗ ∃ f, ⌜StageOK m d base k 0 f⌝ ∗ (b7).view.loc (V d (cV L) (jV L)) ↦{fullShare} f)

set_option maxRecDepth 8192 in
theorem cut_rows (G : Buf (Elt F) (locOf d main_v23)) :
    (locOf d main_v23 ↦[ptRows (wL0 L)]{fullShare} G : sProp 𝕄)
      = bigSep Finset.univ fun t : Fin k0_t4_loop.trips => (pSl L t).view.loc (V d (cV L) (jV L)) ↦[(pSl L t).view.set]{fullShare} G := by
  rw [ptRows_eq, pointsTo_biUnion _ _ (fun t _ t' _ h => pRect_disjoint L t t' h)]
  refine bigSep_congr (fun t _ => ?_)
  rw [set_pSl]

def oInv (O : CellTallies nD τ sig (HIx 2)) (W0 : Waits sig (HIx 2))
    (g2 : (b2).view.ty.Contents (Elt F)) (g3 : (b3).view.ty.Contents (Elt F)) (g4 : (b4).view.ty.Contents (Elt F))
    (g5 : (b5).view.ty.Contents (Elt F)) (g6 : (b6).view.ty.Contents (Elt F)) (k : ℕ) (_ : PUnit) : sProp 𝕄 :=
  iprop(Transfers.MayWaits (V d (cV L) (jV L)) (none : HIx 2) O
    ∗ ((b2).view.loc (V d (cV L) (jV L)) ↦{fullShare} g2) ∗ ((b3).view.loc (V d (cV L) (jV L)) ↦{fullShare} g3) ∗ ((b4).view.loc (V d (cV L) (jV L)) ↦{fullShare} g4)
    ∗ ((b5).view.loc (V d (cV L) (jV L)) ↦{fullShare} g5) ∗ ((b6).view.loc (V d (cV L) (jV L)) ↦{fullShare} g6)
    ∗ (∃ f, (b7).view.loc (V d (cV L) (jV L)) ↦{fullShare} f)
    ∗ semVal (sc6 d L) 0
    ∗ (∃ G, ⌜RowsDone m d L k G⌝ ∗ bigSep Finset.univ fun t : Fin k0_t4_loop.trips =>
          (pSl L t).view.loc (V d (cV L) (jV L)) ↦[(pSl L t).view.set]{fullShare} G)
    ∗ ∃ W', ⌜∀ p ∈ W', p ∈ W0 ∨ p.2 = none⌝ ∗ owes (V d (cV L) (jV L)) O W')

omit [FloatOps F] [Facts] in
theorem mem_ins6 {W : Waits sig (HIx 2)} {a0 a1 a2 a3 a4 a5 : SemLoc sig} {p : SemLoc sig × HIx 2}
    (h : p ∈ insert (a5, (default : HIx 2)) (insert (a4, default) (insert (a3, default) (insert (a2, default)
      (insert (a1, default) (insert (a0, default) W)))))) :
    p ∈ W ∨ p.2 = none := by
  simp only [Finset.mem_insert] at h
  rcases h with rfl | rfl | rfl | rfl | rfl | rfl | h
  all_goals first | exact .inr rfl | exact .inl h
set_option maxHeartbeats 40000000 in
set_option maxRecDepth 8192 in
theorem tile_body (hR : RangesOK m) (O : CellTallies nD τ sig (HIx 2)) (W : Waits sig (HIx 2)) (hO : ∀ g, O g none = 0) :
    iprop(levAts (K (F := F)).L (K (F := F)).lev ∗ emp ∗ go0 m d (wL0 L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__build_table L (Memref.whole main_v7_scv) (Memref.isWhole_whole _) (Memref.whole main_v3_scv) (Memref.isWhole_whole _) (Memref.whole main_v6_scv) (Memref.isWhole_whole _) (Memref.whole main_v10_scv) (Memref.isWhole_whole _) (Memref.whole main_v23_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scoped0 cc0_scoped1 cc0_scoped2 cc0_scoped3 cc0_scoped4 cc0_scoped5 cc0_scoped6)
          fun _ => iprop(td0 m d (wL0 L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__build_table_eq_skeleton]; unfold cc0__build_table_skel
  simp only [k0_part3_eq_skeleton]; unfold k0_part3_skel
  simp only [bind_assoc]
  rw [(K (F := F)).scopedBufs_V facts d (cV L) (jV L), SparseCore.Cfg.scopedSems0_V (Val := Elt F) d (cV L) (jV L), ownSems0_V, ownBufs_V]
  unfold go0
  iintro ⟨#Hlv, -, ⟨Hn, Hr, Ht, Hv, Hp⟩, ⟨⟨%f0, Hb0⟩, ⟨%f1, Hb1⟩, ⟨%f2, Hb2⟩, ⟨%f3, Hb3⟩, ⟨%f4, Hb4⟩, ⟨%f5, Hb5⟩, ⟨%f6, Hb6⟩, ⟨%f7, Hb7⟩, Hbufs⟩,
    ⟨Hs0, Hs1, Hs2, Hs3, Hs4, Hs5, Hs6, Hsems⟩, HO⟩
  ihave Hmw := ((K (F := F)).mayWaits_none (thr := V d (cV L) (jV L)) hO) $$ Hlv
  ihave Hn := (Entails.of_eq (pts_aN (F := F) d L _ _).symm) $$ Hn
  ihave Hr := (Entails.of_eq (pts_aR (F := F) d L _ _).symm) $$ Hr
  ihave Ht := (Entails.of_eq (pts_aT (F := F) d L _ _).symm) $$ Ht
  ihave Hv := (Entails.of_eq (pts_aV (F := F) d L _ _).symm) $$ Hv
  ihave Hb0 := (Entails.of_eq (pts_b0 (F := F) d L _).symm) $$ Hb0
  ihave Hb1 := (Entails.of_eq (pts_b1 (F := F) d L _).symm) $$ Hb1
  ihave Hb2 := (Entails.of_eq (pts_b2 (F := F) d L _).symm) $$ Hb2
  ihave Hb3 := (Entails.of_eq (pts_b3 (F := F) d L _).symm) $$ Hb3
  ihave Hb4 := (Entails.of_eq (pts_b4 (F := F) d L _).symm) $$ Hb4
  ihave Hb5 := (Entails.of_eq (pts_b5 (F := F) d L _).symm) $$ Hb5
  ihave Hb6 := (Entails.of_eq (pts_b6 (F := F) d L _).symm) $$ Hb6
  ihave Hb7 := (Entails.of_eq (pts_b7 (F := F) d L _).symm) $$ Hb7
  sl_exec
  generalize hg1 : View.write (Elt F) (Memref.whole cc0_scratch1).view f1 _ Finset.univ = g1
  have hN := nidx_read m d L f1 g1 hg1
  generalize hg0_0 : View.write (Elt F) (Memref.whole cc0_scratch0).view f0 _ Finset.univ = g0_0

  have hV0 : ∀ j : S51200.Idx, ((b0).access (Rect.whole S51200)).read (Elt F) g0_0 j = at1 (tVt m d) (k := 0 * 53248 + (j 0).val) := fun j => by
    rw [vt_read m d f0 g0_0 _ _ _ hg0_0 j]; simp
  sl_for (gInv d L b2 g0_0 g1 (fun k g => ∀ j : S896.Idx, (j 0).val < 16 * k → (b2).view.read (Elt F) g j = gWord m d L 0 (j 0).val)) $$ [Hb1 Hb0 Hb2]
  case region =>
    intro k _
    unfold gInv
    iintro ⟨H1, H0, %g, %hg, H2⟩
    have hchk : k0_chk1 (View.readAt (Elt F) (b1).view (Rect.unit (s := S896) (k0_off2 k) S16.size (Facts₀.k0_off2_inb k)).toLoadRect g1) :=
      chk_gather m d L hR g1 hN _ _
    sl_exec
    iapply (SparseCore.wp_vectorLoadIdx (defs := defs₀ (F := F)) 𝒱₀ (V d (cV L) (jV L)) none Set.univ (base := b0)
      (S := Finset.univ) (q := fullShare) (f := g0_0) (Finset.subset_univ _)) $$ H0
    iintro H0
    sl_exec
    sl_step
    isplitl [H1]; · iexact H1
    isplitl [H0]; · iexact H0
    iexists _; isplitr
    rotate_left
    · iexact H2
    · ipureintro
      exact gather_step m d L b2 0 k.val (k0_off2 k) (k0_off3 k) _ _ (by rw [k0_off2_eq]; rfl) (by rw [k0_off3_eq]; rfl) g0_0 g1 g _ hN hV0 hg
  · unfold gInv
    isplitl [Hb1]; · iexact Hb1
    isplitl [Hb0]; · iexact Hb0
    iexists f2; isplitr
    · ipureintro; intro j hj; omega
    · iexact Hb2
  iintro %_ HI
  unfold gInv
  icases HI with ⟨Hb1, Hb0, %g2, %hg2, Hb2⟩

  sl_exec
  generalize hg0_1 : View.write (Elt F) (Memref.whole cc0_scratch0).view g0_0 _ Finset.univ = g0_1

  have hV1 : ∀ j : S51200.Idx, ((b0).access (Rect.whole S51200)).read (Elt F) g0_1 j = at1 (tVt m d) (k := 1 * 53248 + (j 0).val) := fun j => by
    rw [vt_read m d g0_0 g0_1 _ _ _ hg0_1 j]; simp
  sl_for (gInv d L b3 g0_1 g1 (fun k g => ∀ j : S896.Idx, (j 0).val < 16 * k → (b3).view.read (Elt F) g j = gWord m d L 1 (j 0).val)) $$ [Hb1 Hb0 Hb3]
  case region =>
    intro k _
    unfold gInv
    iintro ⟨H1, H0, %g, %hg, H2⟩
    have hchk : k0_chk2 (View.readAt (Elt F) (b1).view (Rect.unit (s := S896) (k0_off4 k) S16.size (Facts₀.k0_off4_inb k)).toLoadRect g1) :=
      chk_gather m d L hR g1 hN _ _
    sl_exec
    iapply (SparseCore.wp_vectorLoadIdx (defs := defs₀ (F := F)) 𝒱₀ (V d (cV L) (jV L)) none Set.univ (base := b0)
      (S := Finset.univ) (q := fullShare) (f := g0_1) (Finset.subset_univ _)) $$ H0
    iintro H0
    sl_exec
    sl_step
    isplitl [H1]; · iexact H1
    isplitl [H0]; · iexact H0
    iexists _; isplitr
    rotate_left
    · iexact H2
    · ipureintro
      exact gather_step m d L b3 1 k.val (k0_off4 k) (k0_off5 k) _ _ (by rw [k0_off4_eq]; rfl) (by rw [k0_off5_eq]; rfl) g0_1 g1 g _ hN hV1 hg
  · unfold gInv
    isplitl [Hb1]; · iexact Hb1
    isplitl [Hb0]; · iexact Hb0
    iexists f3; isplitr
    · ipureintro; intro j hj; omega
    · iexact Hb3
  iintro %_ HI
  unfold gInv
  icases HI with ⟨Hb1, Hb0, %g3, %hg3, Hb3⟩

  sl_exec
  generalize hg0_2 : View.write (Elt F) (Memref.whole cc0_scratch0).view g0_1 _ Finset.univ = g0_2

  have hV2 : ∀ j : S51200.Idx, ((b0).access (Rect.whole S51200)).read (Elt F) g0_2 j = at1 (tVt m d) (k := 2 * 53248 + (j 0).val) := fun j => by
    rw [vt_read m d g0_1 g0_2 _ _ _ hg0_2 j]; simp
  sl_for (gInv d L b4 g0_2 g1 (fun k g => ∀ j : S896.Idx, (j 0).val < 16 * k → (b4).view.read (Elt F) g j = gWord m d L 2 (j 0).val)) $$ [Hb1 Hb0 Hb4]
  case region =>
    intro k _
    unfold gInv
    iintro ⟨H1, H0, %g, %hg, H2⟩
    have hchk : k0_chk3 (View.readAt (Elt F) (b1).view (Rect.unit (s := S896) (k0_off6 k) S16.size (Facts₀.k0_off6_inb k)).toLoadRect g1) :=
      chk_gather m d L hR g1 hN _ _
    sl_exec
    iapply (SparseCore.wp_vectorLoadIdx (defs := defs₀ (F := F)) 𝒱₀ (V d (cV L) (jV L)) none Set.univ (base := b0)
      (S := Finset.univ) (q := fullShare) (f := g0_2) (Finset.subset_univ _)) $$ H0
    iintro H0
    sl_exec
    sl_step
    isplitl [H1]; · iexact H1
    isplitl [H0]; · iexact H0
    iexists _; isplitr
    rotate_left
    · iexact H2
    · ipureintro
      exact gather_step m d L b4 2 k.val (k0_off6 k) (k0_off7 k) _ _ (by rw [k0_off6_eq]; rfl) (by rw [k0_off7_eq]; rfl) g0_2 g1 g _ hN hV2 hg
  · unfold gInv
    isplitl [Hb1]; · iexact Hb1
    isplitl [Hb0]; · iexact Hb0
    iexists f4; isplitr
    · ipureintro; intro j hj; omega
    · iexact Hb4
  iintro %_ HI
  unfold gInv
  icases HI with ⟨Hb1, Hb0, %g4, %hg4, Hb4⟩

  sl_exec
  generalize hg5 : View.write (Elt F) (Memref.whole cc0_scratch5).view f5 _ Finset.univ = g5
  have hRt := rot_read m d L f5 g5 hg5
  generalize hg6 : View.write (Elt F) (Memref.whole cc0_scratch6).view f6 _ Finset.univ = g6
  have hT := tr_read m d L f6 g6 hg6
  have hg2' : ∀ j : S896.Idx, (j 0).val < 16 * 56 → (b2).view.read (Elt F) g2 j = gWord m d L 0 (j 0).val :=
    fun j hj => hg2 j (by have e : Scf.trips k0_t1_loop.lb k0_t1_loop.ub k0_t1_loop.st = 56 := trips1; omega)
  have hg3' : ∀ j : S896.Idx, (j 0).val < 16 * 56 → (b3).view.read (Elt F) g3 j = gWord m d L 1 (j 0).val :=
    fun j hj => hg3 j (by have e : Scf.trips k0_t2_loop.lb k0_t2_loop.ub k0_t2_loop.st = 56 := trips2; omega)
  have hg4' : ∀ j : S896.Idx, (j 0).val < 16 * 56 → (b4).view.read (Elt F) g4 j = gWord m d L 2 (j 0).val :=
    fun j hj => hg4 j (by have e : Scf.trips k0_t3_loop.lb k0_t3_loop.ub k0_t3_loop.st = 56 := trips3; omega)
  ihave Hp := (Entails.of_eq (cut_rows (F := F) d L _)) $$ Hp
  sl_for (oInv m d L O (insert (SemLoc.dma cc0_scoped5.sem, (default : HIx 2)) (insert (SemLoc.dma cc0_scoped4.sem, default) (insert (SemLoc.dma cc0_scoped3.sem, default)
      (insert (SemLoc.dma cc0_scoped2.sem, default) (insert (SemLoc.dma cc0_scoped1.sem, default) (insert (SemLoc.dma cc0_scoped0.sem, default) W))))))
      g2 g3 g4 g5 g6) $$ [Hmw Hb2 Hb3 Hb4 Hb5 Hb6 Hb7 Hs6 Hp HO]
  case region =>
    intro t _
    unfold oInv
    iintro ⟨#Hmw, H2, H3, H4, H5, H6, ⟨%f7', H7⟩, Hs6, ⟨%G, %hG, Hsl⟩, %W', %hW', HO⟩
    have ht7 : t.val < 7 := lt_of_lt_of_eq t.isLt trips4
    sl_exec
    sl_for (sInv m d L ((wL0 L).val * 896 + 128 * t.val) g2 g3 g4 g5 g6) $$ [H2 H3 H4 H5 H6 H7]
    case region =>
      intro k _
      unfold sInv
      iintro ⟨H2, H3, H4, H5, H6, %fs, %hfs, H7⟩
      have hk8 : k.val < 8 := lt_of_lt_of_eq k.isLt trips5
      sl_exec (disch := first | (guard_target = k0_chk4 _ _; exact c_st0 k))
      iapply (wp_colStore m d L ((wL0 L).val * 896 + 128 * t.val) k.val 0 (by omega) hk8 fs hfs (w_row k) (fun _ => rfl) (fun x => (val_plain m d L 0 (by omega) b2 g2 hg2' (128 * t.val + 16 * k.val) _ _ (by rw [k0_off10_eq]; rfl) x).trans (congrArg (fun r => nodeWord m d r 0) (by omega)))) $$ H7
      iintro %fc0 %hfc0 H7
      sl_exec (disch := first | (guard_target = k0_chk5 _ _; exact c_st1 k))
      iapply (wp_colStore m d L ((wL0 L).val * 896 + 128 * t.val) k.val 1 (by omega) hk8 fc0 hfc0 (w_row k) (fun _ => rfl) (fun x => (val_plain m d L 1 (by omega) b3 g3 hg3' (128 * t.val + 16 * k.val) _ _ (by rw [k0_off11_eq]; rfl) x).trans (congrArg (fun r => nodeWord m d r 1) (by omega)))) $$ H7
      iintro %fc1 %hfc1 H7
      sl_exec (disch := first | (guard_target = k0_chk6 _ _; exact c_st2 k))
      iapply (wp_colStore m d L ((wL0 L).val * 896 + 128 * t.val) k.val 2 (by omega) hk8 fc1 hfc1 (w_row k) (fun _ => rfl) (fun x => (val_plain m d L 2 (by omega) b4 g4 hg4' (128 * t.val + 16 * k.val) _ _ (by rw [k0_off12_eq]; rfl) x).trans (congrArg (fun r => nodeWord m d r 2) (by omega)))) $$ H7
      iintro %fc2 %hfc2 H7
      sl_exec (disch := first | (guard_target = k0_chk8 _ _; exact c_st3 k) | (guard_target = k0_chk7 _; exact c_tr0 t k))
      iapply (SparseCore.wp_vectorLoadIdx (defs := defs₀ (F := F)) 𝒱₀ (V d (cV L) (jV L)) none Set.univ (base := b6)
        (S := Finset.univ) (q := fullShare) (f := g6) (Finset.subset_univ _)) $$ H6
      iintro H6
      iapply (wp_colStore m d L ((wL0 L).val * 896 + 128 * t.val) k.val 3 (by omega) hk8 fc2 hfc2 (w_row k) (fun _ => rfl) (fun x => (val_tr m d L 3 (by omega) (by omega) g6 hT _ _ (128 * t.val + 16 * k.val) (by omega) (w_tr0 t k) x).trans (congrArg (fun r => nodeWord m d r 3) (by omega)))) $$ H7
      iintro %fc3 %hfc3 H7
      sl_exec (disch := first | (guard_target = k0_chk10 _ _; exact c_st4 k) | (guard_target = k0_chk9 _; exact c_tr1 t k))
      iapply (SparseCore.wp_vectorLoadIdx (defs := defs₀ (F := F)) 𝒱₀ (V d (cV L) (jV L)) none Set.univ (base := b6)
        (S := Finset.univ) (q := fullShare) (f := g6) (Finset.subset_univ _)) $$ H6
      iintro H6
      iapply (wp_colStore m d L ((wL0 L).val * 896 + 128 * t.val) k.val 4 (by omega) hk8 fc3 hfc3 (w_row k) (fun _ => rfl) (fun x => (val_tr m d L 4 (by omega) (by omega) g6 hT _ _ (128 * t.val + 16 * k.val) (by omega) (w_tr1 t k) x).trans (congrArg (fun r => nodeWord m d r 4) (by omega)))) $$ H7
      iintro %fc4 %hfc4 H7
      sl_exec (disch := first | (guard_target = k0_chk12 _ _; exact c_st5 k) | (guard_target = k0_chk11 _; exact c_tr2 t k))
      iapply (SparseCore.wp_vectorLoadIdx (defs := defs₀ (F := F)) 𝒱₀ (V d (cV L) (jV L)) none Set.univ (base := b6)
        (S := Finset.univ) (q := fullShare) (f := g6) (Finset.subset_univ _)) $$ H6
      iintro H6
      iapply (wp_colStore m d L ((wL0 L).val * 896 + 128 * t.val) k.val 5 (by omega) hk8 fc4 hfc4 (w_row k) (fun _ => rfl) (fun x => (val_tr m d L 5 (by omega) (by omega) g6 hT _ _ (128 * t.val + 16 * k.val) (by omega) (w_tr2 t k) x).trans (congrArg (fun r => nodeWord m d r 5) (by omega)))) $$ H7
      iintro %fc5 %hfc5 H7
      sl_exec (disch := first | (guard_target = k0_chk14 _ _; exact c_st6 k) | (guard_target = k0_chk13 _; exact c_rot0 t k))
      iapply (SparseCore.wp_vectorLoadIdx (defs := defs₀ (F := F)) 𝒱₀ (V d (cV L) (jV L)) none Set.univ (base := b5)
        (S := Finset.univ) (q := fullShare) (f := g5) (Finset.subset_univ _)) $$ H5
      iintro H5
      iapply (wp_colStore m d L ((wL0 L).val * 896 + 128 * t.val) k.val 6 (by omega) hk8 fc5 hfc5 (w_row k) (fun _ => rfl) (fun x => (val_rot m d L 6 (by omega) (by omega) g5 hRt _ _ (128 * t.val + 16 * k.val) (by omega) (w_rot0 t k) x).trans (congrArg (fun r => nodeWord m d r 6) (by omega)))) $$ H7
      iintro %fc6 %hfc6 H7
      sl_exec (disch := first | (guard_target = k0_chk16 _ _; exact c_st7 k) | (guard_target = k0_chk15 _; exact c_rot1 t k))
      iapply (SparseCore.wp_vectorLoadIdx (defs := defs₀ (F := F)) 𝒱₀ (V d (cV L) (jV L)) none Set.univ (base := b5)
        (S := Finset.univ) (q := fullShare) (f := g5) (Finset.subset_univ _)) $$ H5
      iintro H5
      iapply (wp_colStore m d L ((wL0 L).val * 896 + 128 * t.val) k.val 7 (by omega) hk8 fc6 hfc6 (w_row k) (fun _ => rfl) (fun x => (val_rot m d L 7 (by omega) (by omega) g5 hRt _ _ (128 * t.val + 16 * k.val) (by omega) (w_rot1 t k) x).trans (congrArg (fun r => nodeWord m d r 7) (by omega)))) $$ H7
      iintro %fc7 %hfc7 H7
      sl_exec (disch := first | (guard_target = k0_chk18 _ _; exact c_st8 k) | (guard_target = k0_chk17 _; exact c_rot2 t k))
      iapply (SparseCore.wp_vectorLoadIdx (defs := defs₀ (F := F)) 𝒱₀ (V d (cV L) (jV L)) none Set.univ (base := b5)
        (S := Finset.univ) (q := fullShare) (f := g5) (Finset.subset_univ _)) $$ H5
      iintro H5
      iapply (wp_colStore m d L ((wL0 L).val * 896 + 128 * t.val) k.val 8 (by omega) hk8 fc7 hfc7 (w_row k) (fun _ => rfl) (fun x => (val_rot m d L 8 (by omega) (by omega) g5 hRt _ _ (128 * t.val + 16 * k.val) (by omega) (w_rot2 t k) x).trans (congrArg (fun r => nodeWord m d r 8) (by omega)))) $$ H7
      iintro %fc8 %hfc8 H7
      sl_exec (disch := first | (guard_target = k0_chk20 _ _; exact c_st9 k) | (guard_target = k0_chk19 _; exact c_rot3 t k))
      iapply (SparseCore.wp_vectorLoadIdx (defs := defs₀ (F := F)) 𝒱₀ (V d (cV L) (jV L)) none Set.univ (base := b5)
        (S := Finset.univ) (q := fullShare) (f := g5) (Finset.subset_univ _)) $$ H5
      iintro H5
      iapply (wp_colStore m d L ((wL0 L).val * 896 + 128 * t.val) k.val 9 (by omega) hk8 fc8 hfc8 (w_row k) (fun _ => rfl) (fun x => (val_rot m d L 9 (by omega) (by omega) g5 hRt _ _ (128 * t.val + 16 * k.val) (by omega) (w_rot3 t k) x).trans (congrArg (fun r => nodeWord m d r 9) (by omega)))) $$ H7
      iintro %fc9 %hfc9 H7
      sl_exec (disch := first | (guard_target = k0_chk22 _ _; exact c_st10 k) | (guard_target = k0_chk21 _; exact c_rot4 t k))
      iapply (SparseCore.wp_vectorLoadIdx (defs := defs₀ (F := F)) 𝒱₀ (V d (cV L) (jV L)) none Set.univ (base := b5)
        (S := Finset.univ) (q := fullShare) (f := g5) (Finset.subset_univ _)) $$ H5
      iintro H5
      iapply (wp_colStore m d L ((wL0 L).val * 896 + 128 * t.val) k.val 10 (by omega) hk8 fc9 hfc9 (w_row k) (fun _ => rfl) (fun x => (val_rot m d L 10 (by omega) (by omega) g5 hRt _ _ (128 * t.val + 16 * k.val) (by omega) (w_rot4 t k) x).trans (congrArg (fun r => nodeWord m d r 10) (by omega)))) $$ H7
      iintro %fc10 %hfc10 H7
      sl_exec (disch := first | (guard_target = k0_chk24 _ _; exact c_st11 k) | (guard_target = k0_chk23 _; exact c_rot5 t k))
      iapply (SparseCore.wp_vectorLoadIdx (defs := defs₀ (F := F)) 𝒱₀ (V d (cV L) (jV L)) none Set.univ (base := b5)
        (S := Finset.univ) (q := fullShare) (f := g5) (Finset.subset_univ _)) $$ H5
      iintro H5
      iapply (wp_colStore m d L ((wL0 L).val * 896 + 128 * t.val) k.val 11 (by omega) hk8 fc10 hfc10 (w_row k) (fun _ => rfl) (fun x => (val_rot m d L 11 (by omega) (by omega) g5 hRt _ _ (128 * t.val + 16 * k.val) (by omega) (w_rot5 t k) x).trans (congrArg (fun r => nodeWord m d r 11) (by omega)))) $$ H7
      iintro %fc11 %hfc11 H7
      sl_exec (disch := first | (guard_target = k0_chk26 _ _; exact c_st12 k) | (guard_target = k0_chk25 _; exact c_rot6 t k))
      iapply (SparseCore.wp_vectorLoadIdx (defs := defs₀ (F := F)) 𝒱₀ (V d (cV L) (jV L)) none Set.univ (base := b5)
        (S := Finset.univ) (q := fullShare) (f := g5) (Finset.subset_univ _)) $$ H5
      iintro H5
      iapply (wp_colStore m d L ((wL0 L).val * 896 + 128 * t.val) k.val 12 (by omega) hk8 fc11 hfc11 (w_row k) (fun _ => rfl) (fun x => (val_rot m d L 12 (by omega) (by omega) g5 hRt _ _ (128 * t.val + 16 * k.val) (by omega) (w_rot6 t k) x).trans (congrArg (fun r => nodeWord m d r 12) (by omega)))) $$ H7
      iintro %fc12 %hfc12 H7
      sl_exec (disch := first | (guard_target = k0_chk28 _ _; exact c_st13 k) | (guard_target = k0_chk27 _; exact c_rot7 t k))
      iapply (SparseCore.wp_vectorLoadIdx (defs := defs₀ (F := F)) 𝒱₀ (V d (cV L) (jV L)) none Set.univ (base := b5)
        (S := Finset.univ) (q := fullShare) (f := g5) (Finset.subset_univ _)) $$ H5
      iintro H5
      iapply (wp_colStore m d L ((wL0 L).val * 896 + 128 * t.val) k.val 13 (by omega) hk8 fc12 hfc12 (w_row k) (fun _ => rfl) (fun x => (val_rot m d L 13 (by omega) (by omega) g5 hRt _ _ (128 * t.val + 16 * k.val) (by omega) (w_rot7 t k) x).trans (congrArg (fun r => nodeWord m d r 13) (by omega)))) $$ H7
      iintro %fc13 %hfc13 H7
      sl_exec (disch := first | (guard_target = k0_chk30 _ _; exact c_st14 k) | (guard_target = k0_chk29 _; exact c_rot8 t k))
      iapply (SparseCore.wp_vectorLoadIdx (defs := defs₀ (F := F)) 𝒱₀ (V d (cV L) (jV L)) none Set.univ (base := b5)
        (S := Finset.univ) (q := fullShare) (f := g5) (Finset.subset_univ _)) $$ H5
      iintro H5
      iapply (wp_colStore m d L ((wL0 L).val * 896 + 128 * t.val) k.val 14 (by omega) hk8 fc13 hfc13 (w_row k) (fun _ => rfl) (fun x => (val_rot m d L 14 (by omega) (by omega) g5 hRt _ _ (128 * t.val + 16 * k.val) (by omega) (w_rot8 t k) x).trans (congrArg (fun r => nodeWord m d r 14) (by omega)))) $$ H7
      iintro %fc14 %hfc14 H7
      sl_exec
      sl_step
      isplitl [H2]; · iexact H2
      isplitl [H3]; · iexact H3
      isplitl [H4]; · iexact H4
      isplitl [H5]; · iexact H5
      isplitl [H6]; · iexact H6
      iexists fc14; isplitr
      · ipureintro; exact stageOK_next m d ((wL0 L).val * 896 + 128 * t.val) k.val fc14 hfc14
      · iexact H7

    · unfold sInv
      isplitl [H2]; · iexact H2
      isplitl [H3]; · iexact H3
      isplitl [H4]; · iexact H4
      isplitl [H5]; · iexact H5
      isplitl [H6]; · iexact H6
      iexists f7'; isplitr
      · ipureintro; exact stageOK_zero m d _ _
      · iexact H7
    iintro %_ HI
    unfold sInv
    icases HI with ⟨H2, H3, H4, H5, H6, %fS, %hfS, H7⟩
    ihave Hsl := (Entails.of_eq (SparseCore.bigSep_erase' (Finset.mem_univ t))) $$ Hsl
    icases Hsl with ⟨Hpt, Hrest⟩
    sl_exec
    sl_step
    have hS8 : StageOK m d ((wL0 L).val * 896 + 128 * t.val) 8 0 fS := by
      have e : Scf.trips k0_t5_loop.lb k0_t5_loop.ub k0_t5_loop.st = 8 := trips5
      rw [← e]; exact hfS
    isplitl []; · iexact Hmw
    isplitl [H2]; · iexact H2
    isplitl [H3]; · iexact H3
    isplitl [H4]; · iexact H4
    isplitl [H5]; · iexact H5
    isplitl [H6]; · iexact H6
    isplitl [H7]; · iexists fS; iexact H7
    isplitl [Hs6]; · iexact Hs6
    isplitl [Hpt Hrest]
    · iexists _; isplitr
      rotate_left
      · iapply (Entails.of_eq (SparseCore.bigSep_erase' (Finset.mem_univ t)).symm)
        isplitl [Hpt]; · iexact Hpt
        iapply (Entails.of_eq (bigSep_congr (fun t' ht' => pointsTo_congr (rows_off (F := F) d L t t' (Finset.ne_of_mem_erase ht') G _))))
        iexact Hrest
      · ipureintro; exact rows_step m d L t G fS _ (fun _ => rfl) hG hS8
    iexists _; isplitr
    rotate_left
    · iexact HO
    · ipureintro; intro p hp
      rcases Finset.mem_insert.mp hp with hp | hp
      · exact .inr (hp ▸ rfl)
      · exact hW' p hp
  · unfold oInv
    isplitl []; · iexact Hmw
    isplitl [Hb2]; · iexact Hb2
    isplitl [Hb3]; · iexact Hb3
    isplitl [Hb4]; · iexact Hb4
    isplitl [Hb5]; · iexact Hb5
    isplitl [Hb6]; · iexact Hb6
    isplitl [Hb7]; · iexists f7; iexact Hb7
    isplitl [Hs6]; · iexact Hs6
    isplitl [Hp]
    · iexists _; isplitr
      rotate_left
      · iexact Hp
      · ipureintro; exact rowsDone_zero m d L _
    iexists _; isplitr
    rotate_left
    · iexact HO
    · ipureintro; exact fun p hp => .inl hp
  iintro %_ HI
  unfold oInv
  icases HI with ⟨-, Hb2, Hb3, Hb4, Hb5, Hb6, ⟨%f7e, Hb7⟩, Hs6, ⟨%G, %hG, Hsl⟩, %W', %hW', HO⟩
  sl_exec
  sl_step
  have hG7 : RowsDone m d L 7 G := by
    have e : Scf.trips k0_t4_loop.lb k0_t4_loop.ub k0_t4_loop.st = 7 := trips4
    rw [← e]; exact hG
  unfold td0
  isplitl [Hn Hr Ht Hv Hsl]
  · isplitl [Hn]; · iapply (Entails.of_eq (pts_aN (F := F) d L _ _)); iexact Hn
    isplitl [Hr]; · iapply (Entails.of_eq (pts_aR (F := F) d L _ _)); iexact Hr
    isplitl [Ht]; · iapply (Entails.of_eq (pts_aT (F := F) d L _ _)); iexact Ht
    isplitl [Hv]; · iapply (Entails.of_eq (pts_aV (F := F) d L _ _)); iexact Hv
    iexists G; isplitr
    · ipureintro; exact rowsDone_ptabTile m d L G hG7
    · iapply (Entails.of_eq (cut_rows (F := F) d L G).symm); iexact Hsl
  isplitl [Hb0 Hb1 Hb2 Hb3 Hb4 Hb5 Hb6 Hb7 Hbufs]
  · isplitl [Hb0]; · iexists _; iexact Hb0
    isplitl [Hb1]; · iexists _; iexact Hb1
    isplitl [Hb2]; · iexists _; iexact Hb2
    isplitl [Hb3]; · iexists _; iexact Hb3
    isplitl [Hb4]; · iexists _; iexact Hb4
    isplitl [Hb5]; · iexists _; iexact Hb5
    isplitl [Hb6]; · iexists _; iexact Hb6
    isplitl [Hb7]; · iexists _; iexact Hb7
    iexact Hbufs
  isplitl [Hs0 Hs1 Hs2 Hs3 Hs4 Hs5 Hs6 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    iexact Hsems
  iexists W'; isplitr
  · ipureintro; intro p hp
    rcases hW' p hp with h | h
    · exact mem_ins6 h
    · exact .inr h
  · iexact HO

end Tile

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile Facts₀.hcore0 Facts₀.hsub0 (fun c s => cc0__build_table (coordsV c s) (Memref.whole main_v7_scv) (Memref.isWhole_whole _) (Memref.whole main_v3_scv) (Memref.isWhole_whole _) (Memref.whole main_v6_scv) (Memref.isWhole_whole _) (Memref.whole main_v10_scv) (Memref.isWhole_whole _) (Memref.whole main_v23_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scoped0 cc0_scoped1 cc0_scoped2 cc0_scoped3 cc0_scoped4 cc0_scoped5 cc0_scoped6) ⟨⟩ c s := rfl

omit [FloatOps F] [Facts] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl0 (hR : RangesOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hR O W hO).trans (wp_mono frame _ _ fun _ => obl_post)

end Cert.KB

end
-- ==== Proof.Body1IfcBits.lean ====
import proofs.«205348_g71287867179597_cont_9to1c4b_113_38_alg».proof.Proof.CommonBits

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F] [Facts]
open Facts₀ Facts

variable (m : (ℓ : Loc nD τ sig) → Buf (Elt F) ℓ)

local notation "𝕄" => MT nD τ sig (HIx 2) (Elt F) ℕ UU ℕ

abbrev aPtab : Memref sig .scVector .hbm S28672x128 .f32 := Memref.whole main_v23_scv
abbrev aVt : Memref sig .scVector .hbm S159744 .f32 := Memref.whole main_v10_scv
abbrev aInf : Memref sig .scVector .hbm S159744 .i32 := Memref.whole main_v13_scv
abbrev aWt : Memref sig .scVector .hbm S159744 .f32 := Memref.whole main_v16_scv
abbrev aOrn : Memref sig .scVector .hbm S229376 .i32 := Memref.whole main_v18_scv
abbrev aMrep : Memref sig .scVector .hbm S229376 .i32 := Memref.whole main_v22_scv
abbrev aOut0 : Memref sig .scVector .hbm S159744 .f32 := Memref.whole main_v24_0_scv
abbrev aOut1 : Memref sig .scVector .hbm S1024 .f32 := Memref.whole main_v24_1_scv
abbrev sGv : Memref sig .scVector .vmem S128 .i32 := Memref.whole cc1_scratch0
abbrev sGb : Memref sig .scVector .vmem S128 .i32 := Memref.whole cc1_scratch1
abbrev sVx : Memref sig .scVector .vmem S1664 .f32 := Memref.whole cc1_scratch2
abbrev sVy : Memref sig .scVector .vmem S1664 .f32 := Memref.whole cc1_scratch3
abbrev sVz : Memref sig .scVector .vmem S1664 .f32 := Memref.whole cc1_scratch4
abbrev sWt : Memref sig .scVector .vmem S1664 .f32 := Memref.whole cc1_scratch5
abbrev sRv : Memref sig .scVector .vmem S128x128 .f32 := Memref.whole cc1_scratch6
abbrev sRb : Memref sig .scVector .vmem S128x128 .f32 := Memref.whole cc1_scratch7
abbrev sRc : Memref sig .scVector .vmem S128x128 .f32 := Memref.whole cc1_scratch8
abbrev sOut : Memref sig .scVector .vmem S4992 .f32 := Memref.whole cc1_scratch9
abbrev sStg : Memref sig .scVector .vmem S1024 .i32 := Memref.whole cc1_scratch10
abbrev sAcc : Memref sig .scVector .vmem S32 .f32 := Memref.whole cc1_scratch11

section Tile

variable (d : Dev nD) (L : grid1.Coords)

abbrev cV1 (L : grid1.Coords) : Fin τ.nSC := (L 0).castLE Facts₀.hcore1
abbrev jV1 (L : grid1.Coords) : Fin τ.nSub := (L 1).castLE Facts₀.hsub1
abbrev thr1 : Thread nD τ := V d (cV1 L) (jV1 L)
def wL (L : grid1.Coords) : Fin 32 := wid (Fin.cast (show grid1.bound 0 = 2 from rfl) (L 0)) (Fin.cast (show grid1.bound 1 = 16 from rfl) (L 1))

abbrev bv1 (L : grid1.Coords) : BitVec 32 := Scalar.addi (Scalar.muli (BitVec.ofNat 32 (L 1).val) 2#32) (BitVec.ofNat 32 (L 0).val)
abbrev bv2 : IVec S16 32 := iota .scVector S16 32 [0] Facts₀.iota_S16_d0_w32_scVector
abbrev bv5 (L : grid1.Coords) : BitVec 32 := Scalar.muli (bv1 L) 1664#32

def RowsAt (ids : ℕ → ℕ) (p : ℕ) (R : S128x128.Idx → Elt F .f32) : Prop :=
  ∀ r col : Fin 128, col.val < 15 → R (ValueIdx.ix2 r col) = nodeWord m d (ids (p + r.val)) col.val
def SliceAt (g : ℕ → Elt F .f32) (p : ℕ) (X : S1664.Idx → Elt F .f32) : Prop :=
  ∀ j : Fin 1664, X (ValueIdx.ix1 j) = g (p + j.val)

def CoordsOK (k : ℕ) (X Y Z W : S1664.Idx → Elt F .f32) : Prop :=
  SliceAt (fun q => at1 (tVt m d) (k := q)) ((wL L).val * 1664) X
  ∧ SliceAt (fun q => at1 (tVt m d) (k := q)) (53248 + (wL L).val * 1664) Y
  ∧ SliceAt (fun q => at1 (tVt m d) (k := q)) (2 * 53248 + (wL L).val * 1664) Z
  ∧ SliceAt (fun q => at1 (tWt m d) (k := q)) (k * 53248 + (wL L).val * 1664) W

def ChunkDone (add : Bool) (k c : ℕ) (g g' : S4992.Idx → Elt F .f32) : Prop :=
  ∀ q : Fin 4992, g' (ValueIdx.ix1 q) =
    if 128 * c ≤ q.val / 3 ∧ q.val / 3 < 128 * (c + 1) then
      (let t := blendTerm m d (wL L) k (q.val / 3 / 16 * 16) (q.val % 3) (ValueIdx.ix1 ⟨q.val / 3 % 16, Nat.mod_lt _ (by decide)⟩)
       if add then Elt.idxAdd .f32 (g (ValueIdx.ix1 q)) t else t)
    else g (ValueIdx.ix1 q)

end Tile

end Cert.KB

end
-- ==== Proof.TablesBits.lean ====
import proofs.«205348_g71287867179597_cont_9to1c4b_113_38_alg».proof.Proof.CommonBits
import proofs.«205348_g71287867179597_cont_9to1c4b_113_38_alg».proof.Proof.Gen.Pre_input_domain
import proofs.«205348_g71287867179597_cont_9to1c4b_113_38_alg».proof.Proof.LibPadRead
import Idealize.ShloMosaic.Lib.KernelVsHost
import Idealize.ShloMosaic.Lib.Pipeline.Value
import Idealize.ShloMosaic.Lib.ValueLayout
import Idealize.ShloMosaic.Lib.IdealHost
import Idealize.ShloMosaic.Lib.ReduceAll
import Idealize.ShloMosaic.Lib.StableHlo.Predicate

noncomputable section

namespace Cert.KB

open Cert.Kernel Cert.Kernel.Gen

open Idealize.ShloMosaic
open Idealize.ShloMosaic.SparseCore (S V T)
open Idealize.ShloMosaic.StableHlo
open Idealize.ShloMosaic.ValueIdx
open Cert.LibPadRead

variable {F : FTy → Type} [FloatOps F] [Facts]
open Facts₀ Facts

variable (m : (ℓ : Loc nD τ sig) → Buf (Elt F) ℓ) (ρ : Dev nD → PrngReg)

def padF : F .f32 := FloatOps.sitofp .f32 (0#32 : BitVec 32)

theorem at1_of_lt {n : ℕ} {α : Type} (f : (⟨1, ![n]⟩ : Shape).Idx → α) (h0 : 0 < n) (k : ℕ) (hk : k < n) :
    at1 f h0 k = f (ix1 ⟨k, hk⟩) := by
  have e : (⟨if k < n then k else 0, by split <;> omega⟩ : Fin n) = ⟨k, hk⟩ := Fin.ext (if_pos hk)
  unfold at1
  rw [e]

set_option maxRecDepth 8192 in
theorem tNidx_eq (d : Dev nD) :
    tNidx m d = pad S28672 ![0] ![3672] ![0] (m (locOf d main_arg4) : IVec S25000 32) (constantI S_ 32 0#32)
      Facts₀.pads_S25000_S28672_036720 Facts₀.h_S_ := by
  unfold tNidx Vpre
  after_results_simp
  rfl

set_option maxRecDepth 8192 in
theorem tRot_eq (d : Dev nD) :
    tRot m d = shapeCast S258048 (pad S28672x9 ![0, 0] ![3672, 0] ![0, 0]
        (shapeCast S25000x9 (shapeCast S25000x3x3 (m (locOf d main_arg1) : FVec F S1x25000x3x3 .f32)
          Facts₀.shapeCasts_S1x25000x3x3_S25000x3x3) Facts₀.shapeCasts_S25000x3x3_S25000x9)
        (sitofp .f32 (constantI S_ 32 0#32) : FVec F S_ .f32) Facts₀.pads_S25000x9_S28672x9_036720_000 Facts₀.h_S_)
      Facts₀.shapeCasts_S28672x9_S258048 := by
  unfold tRot Vpre
  after_results_simp
  rfl

set_option maxRecDepth 8192 in
theorem tTr_eq (d : Dev nD) :
    tTr m d = shapeCast S86016 (pad S28672x3 ![0, 0] ![3672, 0] ![0, 0]
        (shapeCast S25000x3 (m (locOf d main_arg2) : FVec F S1x25000x3 .f32) Facts₀.shapeCasts_S1x25000x3_S25000x3)
        (sitofp .f32 (constantI S_ 32 0#32) : FVec F S_ .f32) Facts₀.pads_S25000x3_S28672x3_036720_000 Facts₀.h_S_)
      Facts₀.shapeCasts_S28672x3_S86016 := by
  unfold tTr Vpre
  after_results_simp
  rfl

set_option maxRecDepth 8192 in
theorem tVt_eq (d : Dev nD) :
    tVt m d = shapeCast S159744 (transpose S3x53248 [1, 0] (pad S53248x3 ![0, 0] ![3248, 0] ![0, 0]
        (m (locOf d main_arg0) : FVec F S50000x3 .f32) (sitofp .f32 (constantI S_ 32 0#32) : FVec F S_ .f32)
        Facts₀.pads_S50000x3_S53248x3_032480_000 Facts₀.h_S_) Facts₀.transposes_S53248x3_S3x53248_1_0)
      Facts₀.shapeCasts_S3x53248_S159744 := by
  unfold tVt Vpre
  after_results_simp
  rfl

set_option maxRecDepth 8192 in
theorem tInf_eq (d : Dev nD) :
    tInf m d = shapeCast S159744 (transpose S3x53248 [1, 0] (pad S53248x3 ![0, 0] ![3248, 0] ![0, 0]
        (m (locOf d main_arg5) : IVec S50000x3 32) (constantI S_ 32 0#32)
        Facts₀.pads_S50000x3_S53248x3_032480_000 Facts₀.h_S_) Facts₀.transposes_S53248x3_S3x53248_1_0)
      Facts₀.shapeCasts_S3x53248_S159744 := by
  unfold tInf Vpre
  after_results_simp
  rfl

set_option maxRecDepth 8192 in
theorem tWt_eq (d : Dev nD) :
    tWt m d = shapeCast S159744 (transpose S3x53248 [1, 0] (pad S53248x3 ![0, 0] ![3248, 0] ![0, 0]
        (m (locOf d main_arg3) : FVec F S50000x3 .f32) (sitofp .f32 (constantI S_ 32 0#32) : FVec F S_ .f32)
        Facts₀.pads_S50000x3_S53248x3_032480_000 Facts₀.h_S_) Facts₀.transposes_S53248x3_S3x53248_1_0)
      Facts₀.shapeCasts_S3x53248_S159744 := by
  unfold tWt Vpre
  after_results_simp
  rfl

set_option maxRecDepth 8192 in
theorem tOrn_eq (d : Dev nD) :
    tOrn m d = pad S229376 ![0] ![4376] ![0]
      (shapeCast S225000 (m (locOf d main_arg6) : IVec S25000x9 32) Facts₀.shapeCasts_S25000x9_S225000)
      (constantI S_ 32 24999#32) Facts₀.pads_S225000_S229376_043760 Facts₀.h_S_ := by
  unfold tOrn Vpre
  after_results_simp
  rfl

set_option maxRecDepth 8192 in
theorem tMrep_eq (d : Dev nD) :
    tMrep m d = pad S229376 ![0] ![4376] ![0]
      (shapeCast S225000 (broadcastInDim S25000x9 ![0] Facts₀.bcast_S25000_S25000x9_0 (iotaInDim S25000 32 0))
        Facts₀.shapeCasts_S25000x9_S225000)
      (constantI S_ 32 24999#32) Facts₀.pads_S225000_S229376_043760 Facts₀.h_S_ := by
  unfold tMrep Vpre
  after_results_simp
  rfl

theorem tNidx_at (d : Dev nD) (r : ℕ) (hr : r < 28672) :
    (at1 (tNidx m d) (k := r) : BitVec 32)
      = if h : r < 25000 then (m (locOf d main_arg4) : IVec S25000 32) (ix1 ⟨r, h⟩) else 0#32 := by
  rw [at1_of_lt _ _ _ hr, tNidx_eq]
  exact pad_high_ix1 _ _ _ _ _ ⟨r, hr⟩

theorem tRot_at (d : Dev nD) (r c : ℕ) (hr : r < 28672) (hc : c < 9) :
    (at1 (tRot m d) (k := r * 9 + c) : F .f32)
      = if h : r < 25000 then
          (m (locOf d main_arg1) : FVec F S1x25000x3x3 .f32) (ix4 0 ⟨r, h⟩ ⟨c / 3, by omega⟩ ⟨c % 3, Nat.mod_lt _ (by decide)⟩)
        else padF := by
  have hk : r * 9 + c < 258048 := by omega
  rw [at1_of_lt _ _ _ hk, tRot_eq]
  refine (shapeCast_ab_flat_apply _ _ ⟨r, hr⟩ ⟨c, hc⟩ ⟨r * 9 + c, hk⟩ rfl).trans ?_
  refine (pad_high_rows_ix2 _ _ _ _ _ ⟨r, hr⟩ ⟨c, hc⟩).trans ?_
  by_cases h : r < 25000
  · rw [dif_pos h, dif_pos h]
    refine (shapeCast_abc_ab_apply _ _ rfl ⟨r, h⟩ ⟨c / 3, by omega⟩ ⟨c % 3, Nat.mod_lt _ (by decide)⟩ ⟨c, hc⟩
      (by show c = c / 3 * 3 + c % 3; omega)).trans ?_
    exact shapeCast_1abc_abc_apply _ _ _ _ _
  · rw [dif_neg h, dif_neg h]
    rfl

theorem tTr_at (d : Dev nD) (r c : ℕ) (hr : r < 28672) (hc : c < 3) :
    (at1 (tTr m d) (k := r * 3 + c) : F .f32)
      = if h : r < 25000 then (m (locOf d main_arg2) : FVec F S1x25000x3 .f32) (ix3 0 ⟨r, h⟩ ⟨c, hc⟩) else padF := by
  have hk : r * 3 + c < 86016 := by omega
  rw [at1_of_lt _ _ _ hk, tTr_eq]
  refine (shapeCast_ab_flat_apply _ _ ⟨r, hr⟩ ⟨c, hc⟩ ⟨r * 3 + c, hk⟩ rfl).trans ?_
  refine (pad_high_rows_ix2 _ _ _ _ _ ⟨r, hr⟩ ⟨c, hc⟩).trans ?_
  by_cases h : r < 25000
  · rw [dif_pos h, dif_pos h]
    exact shapeCast_1ab_ab_apply _ _ _ _
  · rw [dif_neg h, dif_neg h]
    rfl

theorem tVt_at (d : Dev nD) (k v : ℕ) (hk : k < 3) (hv : v < 53248) :
    (at1 (tVt m d) (k := k * 53248 + v) : F .f32)
      = if h : v < 50000 then (m (locOf d main_arg0) : FVec F S50000x3 .f32) (ix2 ⟨v, h⟩ ⟨k, hk⟩) else padF := by
  have hk' : k * 53248 + v < 159744 := by omega
  rw [at1_of_lt _ _ _ hk', tVt_eq]
  refine (shapeCast_ab_flat_apply _ _ ⟨k, hk⟩ ⟨v, hv⟩ ⟨k * 53248 + v, hk'⟩ rfl).trans ?_
  refine (transpose_ix2_apply _ _ _ _).trans ?_
  exact pad_high_rows_ix2 _ _ _ _ _ ⟨v, hv⟩ ⟨k, hk⟩

theorem tWt_at (d : Dev nD) (k v : ℕ) (hk : k < 3) (hv : v < 53248) :
    (at1 (tWt m d) (k := k * 53248 + v) : F .f32)
      = if h : v < 50000 then (m (locOf d main_arg3) : FVec F S50000x3 .f32) (ix2 ⟨v, h⟩ ⟨k, hk⟩) else padF := by
  have hk' : k * 53248 + v < 159744 := by omega
  rw [at1_of_lt _ _ _ hk', tWt_eq]
  refine (shapeCast_ab_flat_apply _ _ ⟨k, hk⟩ ⟨v, hv⟩ ⟨k * 53248 + v, hk'⟩ rfl).trans ?_
  refine (transpose_ix2_apply _ _ _ _).trans ?_
  exact pad_high_rows_ix2 _ _ _ _ _ ⟨v, hv⟩ ⟨k, hk⟩

theorem tInf_at (d : Dev nD) (k v : ℕ) (hk : k < 3) (hv : v < 53248) :
    (at1 (tInf m d) (k := k * 53248 + v) : BitVec 32)
      = if h : v < 50000 then (m (locOf d main_arg5) : IVec S50000x3 32) (ix2 ⟨v, h⟩ ⟨k, hk⟩) else 0#32 := by
  have hk' : k * 53248 + v < 159744 := by omega
  rw [at1_of_lt _ _ _ hk', tInf_eq]
  refine (shapeCast_ab_flat_apply _ _ ⟨k, hk⟩ ⟨v, hv⟩ ⟨k * 53248 + v, hk'⟩ rfl).trans ?_
  refine (transpose_ix2_apply _ _ _ _).trans ?_
  exact pad_high_rows_ix2 _ _ _ _ _ ⟨v, hv⟩ ⟨k, hk⟩

theorem tOrn_at (d : Dev nD) (q : ℕ) (hq : q < 229376) :
    (at1 (tOrn m d) (k := q) : BitVec 32)
      = if h : q < 225000 then
          (m (locOf d main_arg6) : IVec S25000x9 32) (ix2 ⟨q / 9, by omega⟩ ⟨q % 9, Nat.mod_lt _ (by decide)⟩)
        else 24999#32 := by
  rw [at1_of_lt _ _ _ hq, tOrn_eq]
  refine (pad_high_ix1 _ _ _ _ _ ⟨q, hq⟩).trans ?_
  by_cases h : q < 225000
  · rw [dif_pos h, dif_pos h]
    exact shapeCast_ab_flat_apply _ _ ⟨q / 9, by omega⟩ ⟨q % 9, Nat.mod_lt _ (by decide)⟩ ⟨q, h⟩
      (by show q = q / 9 * 9 + q % 9; omega)
  · rw [dif_neg h, dif_neg h]
    rfl

theorem tMrep_at (d : Dev nD) (q : ℕ) (hq : q < 229376) :
    (at1 (tMrep m d) (k := q) : BitVec 32) = BitVec.ofNat 32 (min (q / 9) 24999) := by
  rw [at1_of_lt _ _ _ hq, tMrep_eq]
  refine (pad_high_ix1 _ _ _ _ _ ⟨q, hq⟩).trans ?_
  by_cases h : q < 225000
  · rw [dif_pos h]
    refine (shapeCast_ab_flat_apply _ _ ⟨q / 9, by omega⟩ ⟨q % 9, Nat.mod_lt _ (by decide)⟩ ⟨q, h⟩
      (by show q = q / 9 * 9 + q % 9; omega)).trans ?_
    refine (broadcastInDim_rows_ix2 (by decide) _ _ _ _).trans ?_
    show BitVec.ofNat 32 (q / 9) = BitVec.ofNat 32 (min (q / 9) 24999)
    rw [Nat.min_eq_left (by omega)]
  · rw [dif_neg h]
    show 24999#32 = BitVec.ofNat 32 (min (q / 9) 24999)
    rw [Nat.min_eq_right (by omega)]

section Pre
variable [Cert.Pre_input_domain.Facts]

def PreAt : Prop :=
  ∀ d : Dev nD,
    Cert.Pre_input_domain.fn (F := F) (m (locOf d main_arg0)) (m (locOf d main_arg1)) (m (locOf d main_arg2))
      (m (locOf d main_arg3)) (m (locOf d main_arg4)) (m (locOf d main_arg5)) (m (locOf d main_arg6)) = fun _ => 1#1

instance subsingleton_scalarIdx : Subsingleton (⟨0, ![]⟩ : Shape).Idx := ⟨fun a b => funext fun d => d.elim0⟩

theorem toNat_le_of_signed_range (hi : BitVec 32) (hhi : hi.toNat < 2 ^ 31) (v : BitVec 32)
    (e : IntOp.andi (IntOp.cmpi .sge v 0#32) (IntOp.cmpi .sle v hi) = 1#1) : v.toNat ≤ hi.toNat := by
  obtain ⟨e0, e1⟩ := IntOp.andi_eq_one.1 e
  have hv : v.toNat < 2 ^ 31 := by
    have h0 : (0#32 : BitVec 32).sle v = true := (Predicate.ofBool_eq_one_iff _).1 e0
    rw [BitVec.sle_eq_decide, decide_eq_true_eq, BitVec.toInt_eq_toNat_cond, BitVec.toInt_eq_toNat_cond] at h0
    have := v.isLt
    simp only [BitVec.toNat_ofNat] at h0
    split at h0 <;> omega
  exact (Predicate.sle_iff_toNat hv hhi).1 e1

theorem pre_entries (hpre : PreAt m) (d : Dev nD) :
    (∀ i, cmpf .olt (Host.absf (m (locOf d main_arg0) : FVec F S50000x3 .f32))
        (broadcastInDim S50000x3 ![] Cert.Pre_input_domain.Facts.bcast_S_S50000x3 (constant S_ .f32 0x7F800000#32)) i = 1#1)
    ∧ (∀ i, cmpf .olt (Host.absf (m (locOf d main_arg1) : FVec F S1x25000x3x3 .f32))
        (broadcastInDim S1x25000x3x3 ![] Cert.Pre_input_domain.Facts.bcast_S_S1x25000x3x3 (constant S_ .f32 0x7F800000#32)) i = 1#1)
    ∧ (∀ i, cmpf .olt (Host.absf (m (locOf d main_arg2) : FVec F S1x25000x3 .f32))
        (broadcastInDim S1x25000x3 ![] Cert.Pre_input_domain.Facts.bcast_S_S1x25000x3 (constant S_ .f32 0x7F800000#32)) i = 1#1)
    ∧ (∀ i, cmpf .olt (Host.absf (m (locOf d main_arg3) : FVec F S50000x3 .f32))
        (broadcastInDim S50000x3 ![] Cert.Pre_input_domain.Facts.bcast_S_S50000x3 (constant S_ .f32 0x7F800000#32)) i = 1#1)
    ∧ (∀ i, ((m (locOf d main_arg4) : IVec S25000 32) i).toNat ≤ 49999)
    ∧ (∀ i, ((m (locOf d main_arg5) : IVec S50000x3 32) i).toNat ≤ 24999)
    ∧ (∀ i, ((m (locOf d main_arg6) : IVec S25000x9 32) i).toNat ≤ 24999) := by
  have e := congrFun (hpre d) ix0
  dsimp only [Cert.Pre_input_domain.fn, Cert.Pre_input_domain.fn_part1, Cert.Pre_input_domain.fn_part2] at e
  simp only [andi, IntOp.andi_eq_one] at e
  obtain ⟨⟨⟨⟨⟨⟨e0, e1⟩, e2⟩, e3⟩, e4⟩, e5⟩, e6⟩ := e
  refine ⟨Host.reduce_andi_all _ _ _ _ _ e0, Host.reduce_andi_all _ _ _ _ _ e1, Host.reduce_andi_all _ _ _ _ _ e2,
    Host.reduce_andi_all _ _ _ _ _ e3, fun i => ?_, fun i => ?_, fun i => ?_⟩
  · exact toNat_le_of_signed_range 49999#32 (by decide) _ (Host.reduce_andi_all _ _ _ _ _ e4 i)
  · exact toNat_le_of_signed_range 24999#32 (by decide) _ (Host.reduce_andi_all _ _ _ _ _ e5 i)
  · exact toNat_le_of_signed_range 24999#32 (by decide) _ (Host.reduce_andi_all _ _ _ _ _ e6 i)

theorem rangesOK_of_preAt (hpre : PreAt m) : RangesOK m := by
  intro d
  obtain ⟨-, -, -, -, h4, h5, h6⟩ := pre_entries m hpre d
  refine ⟨fun r hr => ?_, fun q hq => ?_, fun q hq => ?_, fun q hq => ?_⟩
  · rw [tNidx_at m d r hr]
    split
    · exact Nat.lt_succ_of_le (h4 _)
    · decide
  · have e : q = q / 53248 * 53248 + q % 53248 := by omega
    unfold infId
    rw [e, tInf_at m d (q / 53248) (q % 53248) (by omega) (Nat.mod_lt _ (by decide))]
    split
    · exact Nat.lt_succ_of_le (h5 _)
    · decide
  · unfold tgtId
    rw [tOrn_at m d q hq]
    split
    · exact Nat.lt_succ_of_le (h6 _)
    · decide
  · unfold srcId
    rw [tMrep_at m d q hq, BitVec.toNat_ofNat]
    exact Nat.mod_eq_of_lt (by omega)

end Pre

end Cert.KB

end
-- ==== Proof.Body1ValBits.lean ====
import proofs.«205348_g71287867179597_cont_9to1c4b_113_38_alg».proof.Proof.Body1IfcBits
import proofs.«205348_g71287867179597_cont_9to1c4b_113_38_alg».proof.Proof.TablesBits
import Idealize.ShloMosaic.Lib.SparseCore.Stream

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F] [Facts]
open Facts₀ Facts

variable (m : (ℓ : Loc nD τ sig) → Buf (Elt F) ℓ)

local notation "𝕄" => MT nD τ sig (HIx 2) (Elt F) ℕ UU ℕ

section Tile

variable (d : Dev nD) (L : grid1.Coords)

def bT (k u i : ℕ) : Elt F .f32 := blendTerm m d (wL L) k (u / 16 * 16) i (ValueIdx.ix1 ⟨u % 16, Nat.mod_lt _ (by decide)⟩)
def blendSum : ℕ → ℕ → ℕ → Elt F .f32
  | 0, u, i => bT m d L 0 u i
  | 1, u, i => bT m d L 0 u i
  | (n + 2), u, i => Elt.idxAdd .f32 (blendSum (n + 1) u i) (bT m d L (n + 1) u i)
def BlendInv (k nch : ℕ) (g : S4992.Idx → Elt F .f32) : Prop :=
  ∀ q : Fin 4992, (q.val / 3 / 128 < nch → g (ValueIdx.ix1 q) = blendSum m d L (k + 1) (q.val / 3) (q.val % 3))
    ∧ (nch ≤ q.val / 3 / 128 → 0 < k → g (ValueIdx.ix1 q) = blendSum m d L k (q.val / 3) (q.val % 3))

theorem BlendInv_start (g : S4992.Idx → Elt F .f32) : BlendInv m d L 0 0 g := fun q => ⟨fun h0 => absurd h0 (Nat.not_lt_zero _), fun _ h0 => absurd h0 (Nat.lt_irrefl 0)⟩

theorem BlendInv_step {k c : ℕ} {g g' : S4992.Idx → Elt F .f32} (h : BlendInv m d L k c g)
    (h' : ChunkDone m d L (decide (0 < k)) k c g g') : BlendInv m d L k (c + 1) g' := by
  intro q
  have hq := h q
  have hq' := h' q
  by_cases hc : 128 * c ≤ q.val / 3 ∧ q.val / 3 < 128 * (c + 1)
  · rw [if_pos hc] at hq'
    refine ⟨fun _ => ?_, fun hge _ => absurd hge (by omega)⟩
    rcases Nat.eq_zero_or_pos k with rfl | hk
    · rw [hq']; rfl
    · have hg := hq.2 (by omega) hk
      obtain ⟨n, rfl⟩ : ∃ n, k = n + 1 := ⟨k - 1, by omega⟩
      rw [hq', hg, decide_eq_true (Nat.succ_pos n)]
      rfl
  · rw [if_neg hc] at hq'
    rw [hq']
    exact ⟨fun hlt => hq.1 (by omega), fun hge hk => hq.2 (by omega) hk⟩

theorem BlendInv_next {k : ℕ} {g : S4992.Idx → Elt F .f32} (h : BlendInv m d L k 13 g) : BlendInv m d L (k + 1) 0 g := fun q => ⟨fun h0 => absurd h0 (Nat.not_lt_zero _), fun _ _ => (h q).1 (by have := q.isLt; omega)⟩

theorem BlendInv_done {g : S4992.Idx → Elt F .f32} (h : BlendInv m d L 2 13 g) (u i : ℕ) (hu : u < 1664) (hi : i < 3) :
    g (ValueIdx.ix1 ⟨3 * u + i, by omega⟩)
      = Elt.idxAdd .f32 (Elt.idxAdd .f32 (blendTerm m d (wL L) 0 (u / 16 * 16) i (ValueIdx.ix1 ⟨u % 16, Nat.mod_lt _ (by decide)⟩))
          (blendTerm m d (wL L) 1 (u / 16 * 16) i (ValueIdx.ix1 ⟨u % 16, Nat.mod_lt _ (by decide)⟩)))
          (blendTerm m d (wL L) 2 (u / 16 * 16) i (ValueIdx.ix1 ⟨u % 16, Nat.mod_lt _ (by decide)⟩)) := by
  have h1 := (h ⟨3 * u + i, by omega⟩).1 (by show (3 * u + i) / 3 / 128 < 13; omega)
  have e1 : (3 * u + i) / 3 = u := by omega
  have e2 : (3 * u + i) % 3 = i := by omega
  dsimp only at h1
  rw [e1, e2] at h1
  exact h1

end Tile

theorem inf_inb (d : Dev nD) (hRg : RangesOK m) : ∀ q, q < 159744 → infId m d q < 28672 := fun q hq => lt_of_lt_of_le ((hRg d).2.1 q hq) (by norm_num)
theorem tgt_inb (d : Dev nD) (hRg : RangesOK m) : ∀ q, q < 229376 → tgtId m d q < 28672 := fun q hq => lt_of_lt_of_le ((hRg d).2.2.1 q hq) (by norm_num)
theorem src_inb (d : Dev nD) (hRg : RangesOK m) : ∀ q, q < 229376 → srcId m d q < 28672 := fun q hq => by
  rw [(hRg d).2.2.2 q hq]
  exact lt_of_le_of_lt (Nat.min_le_right _ _) (by norm_num)

theorem inf_slice_read (d : Dev nD) (o : Fin S159744.rank → ℕ) (hb : ∀ a, o a + S128.size a ≤ S159744.size a) (j : Fin 128) :
    (((aInf).slice (Rect.unit (s := S159744) o S128.size hb) (fun _ => rfl)).view.read (Elt F) (tInf m d) (ValueIdx.ix1 j) : BitVec 32).toNat
      = infId m d (o 0 + j.val) := by
  have hle : o 0 + 128 ≤ 159744 := hb 0
  have hk : o 0 + j.val < 159744 := by have := j.isLt; omega
  have hemb : (Rect.unit (s := S159744) o S128.size hb).emb (ValueIdx.ix1 j) = ValueIdx.ix1 ⟨o 0 + j.val, hk⟩ := by
    funext a
    obtain rfl : a = 0 := Subsingleton.elim _ _
    exact Fin.ext (by show o 0 + 1 * j.val = o 0 + j.val; omega)
  unfold infId
  rw [at1_of_lt _ _ _ hk]
  show ((tInf m d) ((Rect.unit (s := S159744) o S128.size hb).emb (ValueIdx.ix1 j)) : BitVec 32).toNat = _
  rw [hemb]
theorem orn_slice_read (d : Dev nD) (o : Fin S229376.rank → ℕ) (hb : ∀ a, o a + S128.size a ≤ S229376.size a) (j : Fin 128) :
    (((aOrn).slice (Rect.unit (s := S229376) o S128.size hb) (fun _ => rfl)).view.read (Elt F) (tOrn m d) (ValueIdx.ix1 j) : BitVec 32).toNat
      = tgtId m d (o 0 + j.val) := by
  have hle : o 0 + 128 ≤ 229376 := hb 0
  have hk : o 0 + j.val < 229376 := by have := j.isLt; omega
  have hemb : (Rect.unit (s := S229376) o S128.size hb).emb (ValueIdx.ix1 j) = ValueIdx.ix1 ⟨o 0 + j.val, hk⟩ := by
    funext a
    obtain rfl : a = 0 := Subsingleton.elim _ _
    exact Fin.ext (by show o 0 + 1 * j.val = o 0 + j.val; omega)
  unfold tgtId
  rw [at1_of_lt _ _ _ hk]
  show ((tOrn m d) ((Rect.unit (s := S229376) o S128.size hb).emb (ValueIdx.ix1 j)) : BitVec 32).toNat = _
  rw [hemb]
theorem mrep_slice_read (d : Dev nD) (o : Fin S229376.rank → ℕ) (hb : ∀ a, o a + S128.size a ≤ S229376.size a) (j : Fin 128) :
    (((aMrep).slice (Rect.unit (s := S229376) o S128.size hb) (fun _ => rfl)).view.read (Elt F) (tMrep m d) (ValueIdx.ix1 j) : BitVec 32).toNat
      = srcId m d (o 0 + j.val) := by
  have hle : o 0 + 128 ≤ 229376 := hb 0
  have hk : o 0 + j.val < 229376 := by have := j.isLt; omega
  have hemb : (Rect.unit (s := S229376) o S128.size hb).emb (ValueIdx.ix1 j) = ValueIdx.ix1 ⟨o 0 + j.val, hk⟩ := by
    funext a
    obtain rfl : a = 0 := Subsingleton.elim _ _
    exact Fin.ext (by show o 0 + 1 * j.val = o 0 + j.val; omega)
  unfold srcId
  rw [at1_of_lt _ _ _ hk]
  show ((tMrep m d) ((Rect.unit (s := S229376) o S128.size hb).emb (ValueIdx.ix1 j)) : BitVec 32).toNat = _
  rw [hemb]

theorem gather_rowsAt (d : Dev nD) (ids : ℕ → ℕ) (p : ℕ) (fP : Buf (Elt F) (locOf d main_v23)) (hP : PtabOK m d fP)
    (fo : S128.Idx → Elt F .i32) (hn : S128.numel = S128x128.size (Facts₀.gathers_S28672x128_S128x128).axis')
    (hin : ∀ x, (fo x).toNat < S28672x128.size (Facts₀.gathers_S28672x128_S128x128).axis)
    (hids : ∀ j : Fin 128, (fo (ValueIdx.ix1 j) : BitVec 32).toNat = ids (p + j.val)) :
    RowsAt m d ids p (SparseCore.gatherPayload Facts₀.gathers_S28672x128_S128x128 fP (SparseCore.rows fo hn hin)) := by
  intro r col hcol
  have hrow : ∀ k : Fin 128, (SparseCore.rows fo hn hin k).val = ids (p + k.val) := by
    intro k
    have e : S128.rowMajor.symm (Fin.cast hn.symm k) = ValueIdx.ix1 k := by
      rw [Equiv.symm_apply_eq]
      exact Fin.ext (by rw [Shape.rowMajor_val_one]; rfl)
    show (fo (S128.rowMajor.symm (Fin.cast hn.symm k))).toNat = _
    rw [e, hids]
  have hlt : ids (p + r.val) < 28672 := by rw [← hrow r]; exact (SparseCore.rows fo hn hin r).isLt
  have h0 : (Facts₀.gathers_S28672x128_S128x128).idx (SparseCore.rows fo hn hin) (ValueIdx.ix2 r col) 0 = ⟨ids (p + r.val), hlt⟩ :=
    Fin.ext (hrow r)
  have h1 : (Facts₀.gathers_S28672x128_S128x128).idx (SparseCore.rows fo hn hin) (ValueIdx.ix2 r col) 1 = col := Fin.ext rfl
  show fP ((Facts₀.gathers_S28672x128_S128x128).idx (SparseCore.rows fo hn hin) (ValueIdx.ix2 r col)) = _
  rw [ValueIdx.eq_ix2 ((Facts₀.gathers_S28672x128_S128x128).idx (SparseCore.rows fo hn hin) (ValueIdx.ix2 r col)), h0, h1]
  exact hP ⟨_, hlt⟩ col hcol

theorem ptab_slice_read (d : Dev nD) (fP : Buf (Elt F) (locOf d main_v23)) :
    ((aPtab).slice (Rect.unit (s := S28672x128) ![0, 0] S28672x128.size Facts₀.inb_S28672x128_S28672x128_0_0) (fun _ => rfl)).view.read (Elt F) fP
      = fP := by
  funext x
  show fP ((Rect.unit (s := S28672x128) ![0, 0] S28672x128.size Facts₀.inb_S28672x128_S28672x128_0_0).emb x) = fP x
  congr 1
  funext a
  have h0 : ∀ b : Fin 2, (![0, 0] : Fin 2 → ℕ) b = 0 := by decide
  exact Fin.ext (by show ![0, 0] a + 1 * (x a).val = (x a).val; rw [h0 a]; omega)

theorem gather_rowsAt_sRv (d : Dev nD) (ids : ℕ → ℕ) (p : ℕ) (fP : Buf (Elt F) (locOf d main_v23)) (hP : PtabOK m d fP)
    (fo : S128.Idx → Elt F .i32) (hn : S128.numel = S128x128.size (Facts₀.gathers_S28672x128_S128x128).axis')
    (hin : ∀ x, (fo x).toNat < S28672x128.size (Facts₀.gathers_S28672x128_S128x128).axis)
    (hids : ∀ j : Fin 128, (fo (ValueIdx.ix1 j) : BitVec 32).toNat = ids (p + j.val)) (fr : (sRv).view.ty.Contents (Elt F)) :
    RowsAt m d ids p ((sRv).view.write (Elt F) fr
      (SparseCore.gatherPayload Facts₀.gathers_S28672x128_S128x128 fP (SparseCore.rows fo hn hin)) Finset.univ) := by
  rw [View.write_whole_univ]
  exact gather_rowsAt m d ids p fP hP fo hn hin hids
theorem gather_rowsAt_sRb (d : Dev nD) (ids : ℕ → ℕ) (p : ℕ) (fP : Buf (Elt F) (locOf d main_v23)) (hP : PtabOK m d fP)
    (fo : S128.Idx → Elt F .i32) (hn : S128.numel = S128x128.size (Facts₀.gathers_S28672x128_S128x128).axis')
    (hin : ∀ x, (fo x).toNat < S28672x128.size (Facts₀.gathers_S28672x128_S128x128).axis)
    (hids : ∀ j : Fin 128, (fo (ValueIdx.ix1 j) : BitVec 32).toNat = ids (p + j.val)) (fr : (sRb).view.ty.Contents (Elt F)) :
    RowsAt m d ids p ((sRb).view.write (Elt F) fr
      (SparseCore.gatherPayload Facts₀.gathers_S28672x128_S128x128 fP (SparseCore.rows fo hn hin)) Finset.univ) := by
  rw [View.write_whole_univ]
  exact gather_rowsAt m d ids p fP hP fo hn hin hids

section Tile2

variable (d : Dev nD) (L : grid1.Coords)

theorem gv_inb (hRg : RangesOK m) (fs : Buf (Elt F) ((sGv).view.loc (thr1 d L))) (pay : S128.Idx → Elt F .i32) (off : Fin 1 → ℕ)
    (hb : ∀ a, off a + S128.size a ≤ S159744.size a)
    (hpay : pay = ((aInf).slice (Rect.unit (s := S159744) off S128.size hb) (fun _ => rfl)).view.read (Elt F) (tInf m d)) :
    ∀ x, ((sGv).view.read (Elt F) (View.write (Elt F) (sGv).view fs pay Finset.univ) x).toNat
      < S28672x128.size Gen.gathers_S28672x128_S128x128.axis := by
  intro x
  subst hpay
  rw [View.write_whole_univ]
  obtain ⟨j, rfl⟩ : ∃ j : Fin 128, x = ValueIdx.ix1 j := ⟨x 0, ValueIdx.eq_ix1 x⟩
  have hle : off 0 + 128 ≤ 159744 := hb 0
  show (((aInf).slice (Rect.unit (s := S159744) off S128.size hb) (fun _ => rfl)).view.read (Elt F) (tInf m d) (ValueIdx.ix1 j) : BitVec 32).toNat < 28672
  rw [inf_slice_read m d off hb j]
  exact inf_inb m d hRg _ (by have := j.isLt; omega)
theorem gb_inb (hRg : RangesOK m) (fs : Buf (Elt F) ((sGb).view.loc (thr1 d L))) (pay : S128.Idx → Elt F .i32) (off : Fin 1 → ℕ)
    (hb : ∀ a, off a + S128.size a ≤ S159744.size a)
    (hpay : pay = ((aInf).slice (Rect.unit (s := S159744) off S128.size hb) (fun _ => rfl)).view.read (Elt F) (tInf m d)) :
    ∀ x, ((sGb).view.read (Elt F) (View.write (Elt F) (sGb).view fs pay Finset.univ) x).toNat
      < S28672x128.size Gen.gathers_S28672x128_S128x128.axis := by
  intro x
  subst hpay
  rw [View.write_whole_univ]
  obtain ⟨j, rfl⟩ : ∃ j : Fin 128, x = ValueIdx.ix1 j := ⟨x 0, ValueIdx.eq_ix1 x⟩
  have hle : off 0 + 128 ≤ 159744 := hb 0
  show (((aInf).slice (Rect.unit (s := S159744) off S128.size hb) (fun _ => rfl)).view.read (Elt F) (tInf m d) (ValueIdx.ix1 j) : BitVec 32).toNat < 28672
  rw [inf_slice_read m d off hb j]
  exact inf_inb m d hRg _ (by have := j.isLt; omega)

theorem rows_v (hRg : RangesOK m) (fP : Buf (Elt F) ((aPtab).view.loc (thr1 d L))) (hP : PtabOK m d fP)
    (fr : Buf (Elt F) ((sRv).view.loc (thr1 d L))) (fs : Buf (Elt F) ((sGv).view.loc (thr1 d L))) (pay : S128.Idx → Elt F .i32)
    (off : Fin 1 → ℕ) (hb : ∀ a, off a + S128.size a ≤ S159744.size a)
    (hpay : pay = ((aInf).slice (Rect.unit (s := S159744) off S128.size hb) (fun _ => rfl)).view.read (Elt F) (tInf m d))
    (hpr2 : ∀ a, (Rect.unit (s := S28672x128) ![0, 0] S28672x128.size Gen.inb_S28672x128_S28672x128_0_0).stride a = 1)
    (hn : S128.numel = S128x128.size Gen.gathers_S28672x128_S128x128.axis')
    (hin : ∀ x, ((sGv).view.read (Elt F) (View.write (Elt F) (sGv).view fs pay Finset.univ) x).toNat
      < S28672x128.size Gen.gathers_S28672x128_S128x128.axis) :
    RowsAt m d (infId m d) (off 0) ((sRv).view.writes (Elt F) fr
      [⟨Rect.whole S128x128, SparseCore.gatherPayload Gen.gathers_S28672x128_S128x128
        (View.read (Elt F) ((aPtab).slice (Rect.unit ![0, 0] S28672x128.size Gen.inb_S28672x128_S28672x128_0_0) hpr2).view fP)
        (SparseCore.rows (View.read (Elt F) (sGv).view (View.write (Elt F) (sGv).view fs pay Finset.univ)) hn hin)⟩]) := by
  subst hpay
  have hPr : PtabOK m d (View.read (Elt F)
      ((aPtab).slice (Rect.unit ![0, 0] S28672x128.size Gen.inb_S28672x128_S28672x128_0_0) hpr2).view fP) := by
    rw [show View.read (Elt F) ((aPtab).slice (Rect.unit ![0, 0] S28672x128.size Gen.inb_S28672x128_S28672x128_0_0) hpr2).view fP = fP
      from ptab_slice_read d fP]
    exact hP
  have hids : ∀ j : Fin 128, (View.read (Elt F) (sGv).view (View.write (Elt F) (sGv).view fs
      (((aInf).slice (Rect.unit (s := S159744) off S128.size hb) (fun _ => rfl)).view.read (Elt F) (tInf m d)) Finset.univ)
        (ValueIdx.ix1 j) : BitVec 32).toNat = infId m d (off 0 + j.val) := by
    intro j
    rw [View.write_whole_univ]
    exact inf_slice_read m d off hb j
  have G := gather_rowsAt m d (infId m d) (off 0) _ hPr _ hn hin hids
  intro r col hcol
  refine Eq.trans ?_ (G r col hcol)
  have e := Rect.emb_whole_apply S128x128 (ValueIdx.ix2 r col)
  conv_lhs => rw [← e]
  exact View.read_writes_cons_emb (sRv).view fr (Rect.whole S128x128) _ [] (ValueIdx.ix2 r col)
theorem rows_b (hRg : RangesOK m) (fP : Buf (Elt F) ((aPtab).view.loc (thr1 d L))) (hP : PtabOK m d fP)
    (fr : Buf (Elt F) ((sRb).view.loc (thr1 d L))) (fs : Buf (Elt F) ((sGb).view.loc (thr1 d L))) (pay : S128.Idx → Elt F .i32)
    (off : Fin 1 → ℕ) (hb : ∀ a, off a + S128.size a ≤ S159744.size a)
    (hpay : pay = ((aInf).slice (Rect.unit (s := S159744) off S128.size hb) (fun _ => rfl)).view.read (Elt F) (tInf m d))
    (hpr2 : ∀ a, (Rect.unit (s := S28672x128) ![0, 0] S28672x128.size Gen.inb_S28672x128_S28672x128_0_0).stride a = 1)
    (hn : S128.numel = S128x128.size Gen.gathers_S28672x128_S128x128.axis')
    (hin : ∀ x, ((sGb).view.read (Elt F) (View.write (Elt F) (sGb).view fs pay Finset.univ) x).toNat
      < S28672x128.size Gen.gathers_S28672x128_S128x128.axis) :
    RowsAt m d (infId m d) (off 0) ((sRb).view.writes (Elt F) fr
      [⟨Rect.whole S128x128, SparseCore.gatherPayload Gen.gathers_S28672x128_S128x128
        (View.read (Elt F) ((aPtab).slice (Rect.unit ![0, 0] S28672x128.size Gen.inb_S28672x128_S28672x128_0_0) hpr2).view fP)
        (SparseCore.rows (View.read (Elt F) (sGb).view (View.write (Elt F) (sGb).view fs pay Finset.univ)) hn hin)⟩]) := by
  subst hpay
  have hPr : PtabOK m d (View.read (Elt F)
      ((aPtab).slice (Rect.unit ![0, 0] S28672x128.size Gen.inb_S28672x128_S28672x128_0_0) hpr2).view fP) := by
    rw [show View.read (Elt F) ((aPtab).slice (Rect.unit ![0, 0] S28672x128.size Gen.inb_S28672x128_S28672x128_0_0) hpr2).view fP = fP
      from ptab_slice_read d fP]
    exact hP
  have hids : ∀ j : Fin 128, (View.read (Elt F) (sGb).view (View.write (Elt F) (sGb).view fs
      (((aInf).slice (Rect.unit (s := S159744) off S128.size hb) (fun _ => rfl)).view.read (Elt F) (tInf m d)) Finset.univ)
        (ValueIdx.ix1 j) : BitVec 32).toNat = infId m d (off 0 + j.val) := by
    intro j
    rw [View.write_whole_univ]
    exact inf_slice_read m d off hb j
  have G := gather_rowsAt m d (infId m d) (off 0) _ hPr _ hn hin hids
  intro r col hcol
  refine Eq.trans ?_ (G r col hcol)
  have e := Rect.emb_whole_apply S128x128 (ValueIdx.ix2 r col)
  conv_lhs => rw [← e]
  exact View.read_writes_cons_emb (sRb).view fr (Rect.whole S128x128) _ [] (ValueIdx.ix2 r col)

end Tile2

end Cert.KB

end
-- ==== Proof.Body1OutBits.lean ====
import proofs.«205348_g71287867179597_cont_9to1c4b_113_38_alg».proof.Proof.Body1IfcBits

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F] [Facts]
open Facts₀ Facts

local notation "𝕄" => MT nD τ sig (HIx 2) (Elt F) ℕ UU ℕ

section Tile

variable (d : Dev nD) (L : grid1.Coords)

abbrev out0K (L : grid1.Coords) : Memref sig .scVector .hbm S4992 .f32 :=
  (aOut0).slice (Rect.unit (s := S159744) (k1_off19 L) S4992.size (Gen.k1_off19_inb L)) (fun _ => rfl)
abbrev out1K (L : grid1.Coords) : Memref sig .scVector .hbm S32 .f32 :=
  (aOut1).slice (Rect.unit (s := S1024) (k1_off26 L) S32.size (Gen.k1_off26_inb L)) (fun _ => rfl)

omit [FloatOps F] [Facts] in
theorem wL_val : (wL L).val = (L 1).val * 2 + (L 0).val := rfl

omit [FloatOps F] in
theorem set_out0 : (out0K L).view.set = owSet (wL L) := by
  show ((View.whole main_v24_0_scv).slice (Rect.unit (s := S159744) (k1_off19 L) S4992.size (Gen.k1_off19_inb L))).set = _
  rw [View.set_slice_whole]
  ext j
  rw [Rect.mem_set_unit, Gen.k1_off19_eq L]
  simp only [owSet, Finset.mem_filter, Finset.mem_univ, true_and]
  have hw := wL_val L
  have h0 : (L 0).val < 2 := (L 0).isLt
  have h1 : (L 1).val < 16 := (L 1).isLt
  constructor
  · intro h
    have h' : 9984 * (L 1).val + 4992 * (L 0).val ≤ (j 0).val
        ∧ (j 0).val < 9984 * (L 1).val + 4992 * (L 0).val + 4992 := h 0
    omega
  · intro h a
    obtain rfl : a = (0 : Fin 1) := Subsingleton.elim (α := Fin 1) _ _
    show 9984 * (L 1).val + 4992 * (L 0).val ≤ (j 0).val ∧ (j 0).val < 9984 * (L 1).val + 4992 * (L 0).val + 4992
    omega

omit [FloatOps F] in
theorem set_out1 : (out1K L).view.set = olSet (wL L) := by
  show ((View.whole main_v24_1_scv).slice (Rect.unit (s := S1024) (k1_off26 L) S32.size (Gen.k1_off26_inb L))).set = _
  rw [View.set_slice_whole]
  ext j
  rw [Rect.mem_set_unit, Gen.k1_off26_eq L]
  simp only [olSet, Finset.mem_filter, Finset.mem_univ, true_and]
  have hw := wL_val L
  have h0 : (L 0).val < 2 := (L 0).isLt
  have h1 : (L 1).val < 16 := (L 1).isLt
  constructor
  · intro h
    have h' : 64 * (L 1).val + 32 * (L 0).val ≤ (j 0).val
        ∧ (j 0).val < 64 * (L 1).val + 32 * (L 0).val + 32 := h 0
    omega
  · intro h a
    obtain rfl : a = (0 : Fin 1) := Subsingleton.elim (α := Fin 1) _ _
    show 64 * (L 1).val + 32 * (L 0).val ≤ (j 0).val ∧ (j 0).val < 64 * (L 1).val + 32 * (L 0).val + 32
    omega

theorem pts_out0 (f : Buf (Elt F) (locOf d main_v24_0)) :
    ((out0K L).view.loc (thr1 d L) ↦[(out0K L).view.set]{fullShare} f : sProp 𝕄) = (locOf d main_v24_0 ↦[owSet (wL L)]{fullShare} f) := by
  rw [set_out0]

theorem pts_out1 (f : Buf (Elt F) (locOf d main_v24_1)) :
    ((out1K L).view.loc (thr1 d L) ↦[(out1K L).view.set]{fullShare} f : sProp 𝕄) = (locOf d main_v24_1 ↦[olSet (wL L)]{fullShare} f) := by
  rw [set_out1]

omit [FloatOps F] in
theorem out0K_emb (j : Fin 4992) :
    (out0K L).view.emb (ValueIdx.ix1 j) = ValueIdx.ix1 ⟨(wL L).val * 4992 + j.val, by have := (wL L).isLt; omega⟩ := by
  funext a
  obtain rfl : a = (0 : Fin 1) := Subsingleton.elim (α := Fin 1) _ _
  apply Fin.ext
  show k1_off19 L 0 + 1 * j.val = (wL L).val * 4992 + j.val
  rw [Gen.k1_off19_eq L]
  have hw := wL_val L
  show (9984 * (L 1).val + 4992 * (L 0).val) + 1 * j.val = (wL L).val * 4992 + j.val
  omega

omit [FloatOps F] in
theorem out1K_emb (j : Fin 32) :
    (out1K L).view.emb (ValueIdx.ix1 j) = ValueIdx.ix1 ⟨(wL L).val * 32 + j.val, by have := (wL L).isLt; omega⟩ := by
  funext a
  obtain rfl : a = (0 : Fin 1) := Subsingleton.elim (α := Fin 1) _ _
  apply Fin.ext
  show k1_off26 L 0 + 1 * j.val = (wL L).val * 32 + j.val
  rw [Gen.k1_off26_eq L]
  have hw := wL_val L
  show (64 * (L 1).val + 32 * (L 0).val) + 1 * j.val = (wL L).val * 32 + j.val
  omega

end Tile

end Cert.KB

end
-- ==== Proof.Body1BlendBits.lean ====
-- The inner blend loops of the second call: eight trips a chunk, each storing or adding three terms for sixteen vertices.
import proofs.«205348_g71287867179597_cont_9to1c4b_113_38_alg».proof.Proof.CommonBits
import proofs.«205348_g71287867179597_cont_9to1c4b_113_38_alg».proof.Proof.LibStoreIdx
import proofs.«205348_g71287867179597_cont_9to1c4b_113_38_alg».proof.Proof.Body1IfcBits

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F] [Facts]
open Facts₀ Facts

variable (m : (ℓ : Loc nD τ sig) → Buf (Elt F) ℓ)

local notation "𝕄" => MT nD τ sig (HIx 2) (Elt F) ℕ UU ℕ
variable (d : Dev nD) (L : grid1.Coords)

theorem bv2_toNat (x : S16.Idx) : ((bv2 : IVec S16 32) x).toNat = (x 0).val := by
  have hx : (x 0).val < 16 := (x 0).isLt
  show (BitVec.ofNat 32 (([0] : List (Fin S16.rank)).foldl (fun n a => n * S16.size a + (x a).val) 0)).toNat = (x 0).val
  simp only [List.foldl_cons, List.foldl_nil, BitVec.toNat_ofNat]
  omega

theorem iv01_toNat (n : ℕ) (hn : n < 2 ^ 32) : (Scf.iv (0#32) (1#32) n).toNat = n := by
  unfold Scf.iv
  simp only [BitVec.toNat_add, BitVec.toNat_mul, BitVec.toNat_ofNat]
  omega

theorem rowIdx_toNat (n : ℕ) (hn : n < 8) (x : S16.Idx) :
    ((addi (broadcast S16 (Scalar.muli (Scf.iv (0#32) (1#32) n) 16#32)) (bv2 : IVec S16 32)) x).toNat = 16 * n + (x 0).val := by
  have hx : (x 0).val < 16 := (x 0).isLt
  have h2 := bv2_toNat x
  have hi := iv01_toNat n (by omega)
  show (IntOp.addi (Scalar.muli (Scf.iv (0#32) (1#32) n) 16#32) ((bv2 : IVec S16 32) x)).toNat = _
  simp only [IntOp.addi, Scalar.muli, IntOp.muli, BitVec.toNat_add, BitVec.toNat_mul, BitVec.toNat_ofNat, h2, hi]
  omega

theorem colIdx_toNat (col : ℕ) (hcol : col < 2 ^ 32) (x : S16.Idx) : ((broadcast S16 (BitVec.ofNat 32 col) : IVec S16 32) x).toNat = col := by
  show (BitVec.ofNat 32 col).toNat = col
  simp only [BitVec.toNat_ofNat]; omega

theorem base_pair (v39 : BitVec 32) (c n : ℕ) (hv : v39.toNat = c) (hc : c ≤ 12) (hn : n < 8) :
    (Scalar.addi (Scalar.muli v39 128#32) (Scalar.muli (Scf.iv (0#32) (1#32) n) 16#32)).toNat = 128 * c + 16 * n := by
  have hi := iv01_toNat n (by omega)
  simp only [Scalar.addi, IntOp.addi, Scalar.muli, IntOp.muli, BitVec.toNat_add, BitVec.toNat_mul, BitVec.toNat_ofNat, hv, hi]
  omega

theorem base_tail (n : ℕ) (hn : n < 8) :
    (Scalar.addi 1536#32 (Scalar.muli (Scf.iv (0#32) (1#32) n) 16#32)).toNat = 128 * 12 + 16 * n := by
  have hi := iv01_toNat n (by omega)
  simp only [Scalar.addi, IntOp.addi, Scalar.muli, IntOp.muli, BitVec.toNat_add, BitVec.toNat_mul, BitVec.toNat_ofNat, hi]
  omega

theorem chunk_even (t : ℕ) (ht : t < 6) : (Scalar.muli (Scf.iv (0#32) (1#32) t) 2#32).toNat = 2 * t := by
  have hi := iv01_toNat t (by omega)
  simp only [Scalar.muli, IntOp.muli, BitVec.toNat_mul, BitVec.toNat_ofNat, hi]
  omega
theorem chunk_odd (t : ℕ) (ht : t < 6) : (Scalar.addi (Scalar.muli (Scf.iv (0#32) (1#32) t) 2#32) 1#32).toNat = 2 * t + 1 := by
  have hi := iv01_toNat t (by omega)
  simp only [Scalar.addi, IntOp.addi, Scalar.muli, IntOp.muli, BitVec.toNat_add, BitVec.toNat_mul, BitVec.toNat_ofNat, hi]
  omega

theorem flatIdx_toNat (v55 : BitVec 32) (b : ℕ) (hb : b ≤ 1648) (hv : v55.toNat = b) (x : S16.Idx) :
    ((addi (muli (bv2 : IVec S16 32) (broadcast S16 3#32)) (broadcast S16 (Scalar.muli v55 3#32))) x).toNat = 3 * (x 0).val + 3 * b := by
  have hx : (x 0).val < 16 := (x 0).isLt
  have h2 := bv2_toNat x
  show (IntOp.addi (IntOp.muli ((bv2 : IVec S16 32) x) 3#32) (Scalar.muli v55 3#32)).toNat = _
  simp only [IntOp.addi, Scalar.muli, IntOp.muli, BitVec.toNat_add, BitVec.toNat_mul, BitVec.toNat_ofNat, h2, hv]
  omega
theorem flatIdx1_toNat (i0 : IVec S16 32) (a : ℕ) (ha : a ≤ 4989) (x : S16.Idx) (h : (i0 x).toNat = a) :
    ((addi i0 (broadcast S16 1#32)) x).toNat = a + 1 := by
  show (IntOp.addi (i0 x) 1#32).toNat = _
  simp only [IntOp.addi, BitVec.toNat_add, BitVec.toNat_ofNat, h]; omega
theorem flatIdx2_toNat (i0 : IVec S16 32) (a : ℕ) (ha : a ≤ 4989) (x : S16.Idx) (h : (i0 x).toNat = a) :
    ((addi i0 (broadcast S16 2#32)) x).toNat = a + 2 := by
  show (IntOp.addi (i0 x) 2#32).toNat = _
  simp only [IntOp.addi, BitVec.toNat_add, BitVec.toNat_ofNat, h]; omega

theorem rows_inb (v58 v59 : IVec S16 32) (h58 : ∀ x, (v58 x).toNat < 128) (h59 : ∀ x, (v59 x).toNat < 128) :
    ∀ a x, ((![v58, v59] : Fin 2 → IVec S16 32) a x).toNat < S128x128.size a := by
  intro a x
  match a with
  | ⟨0, _⟩ => exact h58 x
  | ⟨1, _⟩ => exact h59 x

theorem out_inb (i : IVec S16 32) (hi : ∀ x, (i x).toNat < 4992) :
    ∀ a x, ((![i] : Fin 1 → IVec S16 32) a x).toNat < S4992.size a := by
  intro a x
  match a with
  | ⟨0, _⟩ => exact hi x

theorem rows_load (k c n col : ℕ) (R : S128x128.Idx → Elt F .f32)
    (hR : RowsAt m d (infId m d) (k * 53248 + (wL L).val * 1664 + 128 * c) R) (hcol : col < 15) (hn : n < 8)
    (v58 v59 : IVec S16 32) (h58 : ∀ x, (v58 x).toNat = 16 * n + (x 0).val) (h59 : ∀ x, (v59 x).toNat = col)
    (h : ∀ a x, ((![v58, v59] : Fin 2 → IVec S16 32) a x).toNat < S128x128.size a) :
    loadIdx (F := F) R ![v58, v59] h = rowVec m d (infId m d) (k * 53248 + ((wL L).val * 1664 + (128 * c + 16 * n))) col := by
  funext x
  have hx : (x 0).val < 16 := (x 0).isLt
  have e : R (ValueIdx.ix2 (⟨16 * n + (x 0).val, by omega⟩ : Fin 128) (⟨col, by omega⟩ : Fin 128))
      = nodeWord m d (infId m d (k * 53248 + (wL L).val * 1664 + 128 * c + (16 * n + (x 0).val))) col :=
    hR ⟨16 * n + (x 0).val, by omega⟩ ⟨col, by omega⟩ hcol
  have hi : idxAt (![v58, v59] : Fin 2 → IVec S16 32) h x = ValueIdx.ix2 (⟨16 * n + (x 0).val, by omega⟩ : Fin 128) (⟨col, by omega⟩ : Fin 128) := by
    funext a
    match a with
    | ⟨0, _⟩ => exact Fin.ext (h58 x)
    | ⟨1, _⟩ => exact Fin.ext (h59 x)
  have hp : k * 53248 + (wL L).val * 1664 + 128 * c + (16 * n + (x 0).val) = k * 53248 + ((wL L).val * 1664 + (128 * c + 16 * n)) + (x 0).val := by
    simp only [Nat.add_assoc]
  show R (idxAt _ h x) = nodeWord m d (infId m d (k * 53248 + ((wL L).val * 1664 + (128 * c + 16 * n)) + (x 0).val)) col
  rw [hi, e, hp]

theorem slice_load {sc : Memref sig .scVector .vmem S1664 .f32} (gf : ℕ → Elt F .f32) (p b pos : ℕ)
    (X : Buf (Elt F) (sc.view.loc (thr1 d L))) (hX : SliceAt gf p (sc.view.read (Elt F) X)) (hpos : pos = p + b)
    (off : Fin 1 → ℕ) (hoff : off = ![b]) (inb : ∀ a, off a + S16.size a ≤ S1664.size a) :
    sc.view.readAt (Elt F) (Rect.unit (s := S1664) off S16.size inb).toLoadRect X = lanes16 gf pos := by
  subst hoff hpos
  funext x
  have hx : (x 0).val < 16 := (x 0).isLt
  have hb : b + 16 ≤ 1664 := inb 0
  have hi : (Rect.unit (s := S1664) ![b] S16.size inb).toLoadRect.idx x = ValueIdx.ix1 (⟨b + (x 0).val, by omega⟩ : Fin 1664) := by
    funext a
    match a with
    | ⟨0, _⟩ => exact Fin.ext (show b + 1 * (x 0).val = b + (x 0).val by omega)
  show sc.view.read (Elt F) X ((Rect.unit (s := S1664) ![b] S16.size inb).toLoadRect.idx x) = gf (p + b + (x 0).val)
  rw [hi, hX ⟨b + (x 0).val, by omega⟩, Nat.add_assoc]

theorem ofLane_eq_ix1 (l : Fin 16) : (Shape.ofLane (d := ![16]) l : S16.Idx) = ValueIdx.ix1 l := by
  funext a
  match a with
  | ⟨0, _⟩ => rfl

theorem store_hit (add : Bool) (f : S4992.Idx → Elt F .f32) (i : IVec S16 32) (v : Vec F S16 .f32) (base : ℕ)
    (hi : ∀ x, (i x).toNat = 3 * (x 0).val + base) (h : ∀ a x, ((![i] : Fin 1 → IVec S16 32) a x).toNat < S4992.size a)
    (q : Fin 4992) (l : Fin 16) (hq : q.val = 3 * l.val + base) :
    storeIdx (F := F) f ![i] v (fun _ => 1#1) add h (ValueIdx.ix1 q)
      = if add then Elt.idxAdd .f32 (f (ValueIdx.ix1 q)) (v (ValueIdx.ix1 l)) else v (ValueIdx.ix1 l) := by
  have hinj : ∀ k₁ k₂ : Fin 16, k₁ ≠ k₂ →
      ¬ ∀ a, ((![i] : Fin 1 → IVec S16 32) a (Shape.ofLane k₁)).toNat = ((![i] : Fin 1 → IVec S16 32) a (Shape.ofLane k₂)).toNat := by
    intro k₁ k₂ hne hall
    have e : (i (Shape.ofLane k₁)).toNat = (i (Shape.ofLane k₂)).toNat := hall 0
    rw [hi, hi] at e
    have e' : 3 * k₁.val + base = 3 * k₂.val + base := e
    exact hne (Fin.ext (by omega))
  have hjk : ∀ a, ((ValueIdx.ix1 q : S4992.Idx) a).val = ((![i] : Fin 1 → IVec S16 32) a (Shape.ofLane l)).toNat := by
    intro a
    match a with
    | ⟨0, _⟩ =>
      show q.val = (i (Shape.ofLane l)).toNat
      rw [hi]; exact hq
  have e := storeIdx_at_lane (F := F) f (![i] : Fin 1 → IVec S16 32) v (fun _ => 1#1) add h (fun _ => rfl) hinj (ValueIdx.ix1 q) l hjk
  rw [ofLane_eq_ix1] at e
  exact e

theorem store_miss (add : Bool) (f : S4992.Idx → Elt F .f32) (i : IVec S16 32) (v : Vec F S16 .f32) (base : ℕ)
    (hi : ∀ x, (i x).toNat = 3 * (x 0).val + base) (h : ∀ a x, ((![i] : Fin 1 → IVec S16 32) a x).toNat < S4992.size a)
    (q : Fin 4992) (hq : ∀ l : Fin 16, q.val ≠ 3 * l.val + base) :
    storeIdx (F := F) f ![i] v (fun _ => 1#1) add h (ValueIdx.ix1 q) = f (ValueIdx.ix1 q) := by
  refine storeIdx_of_ne (F := F) f (![i] : Fin 1 → IVec S16 32) v (fun _ => 1#1) add h (ValueIdx.ix1 q) ?_
  intro l hall
  have e : q.val = (i (Shape.ofLane l)).toNat := hall 0
  rw [hi] at e
  exact hq l e

def PartDone (add : Bool) (k c n : ℕ) (g g' : S4992.Idx → Elt F .f32) : Prop :=
  ∀ q : Fin 4992, g' (ValueIdx.ix1 q) =
    if 128 * c ≤ q.val / 3 ∧ q.val / 3 < 128 * c + 16 * n then
      (let t := blendTerm m d (wL L) k (q.val / 3 / 16 * 16) (q.val % 3) (ValueIdx.ix1 ⟨q.val / 3 % 16, Nat.mod_lt _ (by decide)⟩)
       if add then Elt.idxAdd .f32 (g (ValueIdx.ix1 q)) t else t)
    else g (ValueIdx.ix1 q)

theorem partDone_zero (add : Bool) (k c : ℕ) (g : S4992.Idx → Elt F .f32) : PartDone m d L add k c 0 g g := by
  intro q
  rw [if_neg (by omega)]

theorem partDone_eight (add : Bool) (k c : ℕ) (g g' : S4992.Idx → Elt F .f32) (h : PartDone m d L add k c 8 g g') :
    ChunkDone m d L add k c g g' := by
  intro q
  have hc : (128 * c ≤ q.val / 3 ∧ q.val / 3 < 128 * c + 16 * 8) ↔ (128 * c ≤ q.val / 3 ∧ q.val / 3 < 128 * (c + 1)) := by omega
  rw [h q]
  simp only [hc]

theorem blendTerm_at (k b b' i : ℕ) (l l' : Fin 16) (hb : b' = b) (hl : l'.val = l.val) :
    blendTerm m d (wL L) k b' i (ValueIdx.ix1 l') = blendTerm m d (wL L) k b i (ValueIdx.ix1 l) := by
  subst hb; rw [Fin.ext hl]

theorem partDone_step (add : Bool) (k c n : ℕ) (hc : c ≤ 12) (hn : n < 8) (g g' : S4992.Idx → Elt F .f32)
    (i0 i1 i2 : IVec S16 32) (v0 v1 v2 : Vec F S16 .f32)
    (hi0 : ∀ x, (i0 x).toNat = 3 * (x 0).val + 3 * (128 * c + 16 * n))
    (hi1 : ∀ x, (i1 x).toNat = 3 * (x 0).val + (3 * (128 * c + 16 * n) + 1))
    (hi2 : ∀ x, (i2 x).toNat = 3 * (x 0).val + (3 * (128 * c + 16 * n) + 2))
    (h0 : ∀ a x, ((![i0] : Fin 1 → IVec S16 32) a x).toNat < S4992.size a)
    (h1 : ∀ a x, ((![i1] : Fin 1 → IVec S16 32) a x).toNat < S4992.size a)
    (h2 : ∀ a x, ((![i2] : Fin 1 → IVec S16 32) a x).toNat < S4992.size a)
    (hv0 : v0 = blendTerm m d (wL L) k (128 * c + 16 * n) 0) (hv1 : v1 = blendTerm m d (wL L) k (128 * c + 16 * n) 1)
    (hv2 : v2 = blendTerm m d (wL L) k (128 * c + 16 * n) 2)
    (hP : PartDone m d L add k c n g g') :
    PartDone m d L add k c (n + 1) g
      (storeIdx (F := F) (storeIdx (F := F) (storeIdx (F := F) g' ![i0] v0 (fun _ => 1#1) add h0) ![i1] v1 (fun _ => 1#1) add h1)
        ![i2] v2 (fun _ => 1#1) add h2) := by
  subst hv0 hv1 hv2
  intro q
  have hq := q.isLt
  have hP' := hP q
  by_cases hblk : 128 * c + 16 * n ≤ q.val / 3 ∧ q.val / 3 < 128 * c + 16 * n + 16
  · have hold : ¬ (128 * c ≤ q.val / 3 ∧ q.val / 3 < 128 * c + 16 * n) := by omega
    have hnew : 128 * c ≤ q.val / 3 ∧ q.val / 3 < 128 * c + 16 * (n + 1) := by omega
    rw [if_neg hold] at hP'
    rw [if_pos hnew]
    have hl : q.val / 3 - (128 * c + 16 * n) < 16 := by omega
    have hb : q.val / 3 / 16 * 16 = 128 * c + 16 * n := by omega
    have hlm : q.val / 3 % 16 = q.val / 3 - (128 * c + 16 * n) := by omega
    have hT : ∀ i, blendTerm m d (wL L) k (q.val / 3 / 16 * 16) i (ValueIdx.ix1 ⟨q.val / 3 % 16, Nat.mod_lt _ (by decide)⟩)
        = blendTerm m d (wL L) k (128 * c + 16 * n) i (ValueIdx.ix1 ⟨q.val / 3 - (128 * c + 16 * n), hl⟩) :=
      fun i => blendTerm_at m d L k _ _ i ⟨_, hl⟩ ⟨_, _⟩ hb hlm
    show _ = if add then Elt.idxAdd .f32 (g (ValueIdx.ix1 q)) (blendTerm m d (wL L) k (q.val / 3 / 16 * 16) (q.val % 3) (ValueIdx.ix1 ⟨q.val / 3 % 16, Nat.mod_lt _ (by decide)⟩))
      else blendTerm m d (wL L) k (q.val / 3 / 16 * 16) (q.val % 3) (ValueIdx.ix1 ⟨q.val / 3 % 16, Nat.mod_lt _ (by decide)⟩)
    rw [hT]
    rcases (show q.val % 3 = 0 ∨ q.val % 3 = 1 ∨ q.val % 3 = 2 by omega) with hr | hr | hr
    · rw [store_miss add _ i2 _ _ hi2 h2 q (by intro l'; have := l'.isLt; omega),
        store_miss add _ i1 _ _ hi1 h1 q (by intro l'; have := l'.isLt; omega),
        store_hit add _ i0 _ _ hi0 h0 q ⟨_, hl⟩ (by show q.val = 3 * (q.val / 3 - (128 * c + 16 * n)) + _; omega), hP', hr]
    · rw [store_miss add _ i2 _ _ hi2 h2 q (by intro l'; have := l'.isLt; omega),
        store_hit add _ i1 _ _ hi1 h1 q ⟨_, hl⟩ (by show q.val = 3 * (q.val / 3 - (128 * c + 16 * n)) + _; omega),
        store_miss add _ i0 _ _ hi0 h0 q (by intro l'; have := l'.isLt; omega), hP', hr]
    · rw [store_hit add _ i2 _ _ hi2 h2 q ⟨_, hl⟩ (by show q.val = 3 * (q.val / 3 - (128 * c + 16 * n)) + _; omega),
        store_miss add _ i1 _ _ hi1 h1 q (by intro l'; have := l'.isLt; omega),
        store_miss add _ i0 _ _ hi0 h0 q (by intro l'; have := l'.isLt; omega), hP', hr]
  · have hcnd : (128 * c ≤ q.val / 3 ∧ q.val / 3 < 128 * c + 16 * n) ↔ (128 * c ≤ q.val / 3 ∧ q.val / 3 < 128 * c + 16 * (n + 1)) := by omega
    rw [store_miss add _ i2 _ _ hi2 h2 q (by intro l'; have := l'.isLt; omega),
      store_miss add _ i1 _ _ hi1 h1 q (by intro l'; have := l'.isLt; omega),
      store_miss add _ i0 _ _ hi0 h0 q (by intro l'; have := l'.isLt; omega), hP']
    simp only [hcnd]

local macro:max "k1at% " f:term:max L:term:max : term =>
  `($f $L aPtab (Memref.isWhole_whole _) aVt (Memref.isWhole_whole _) aInf (Memref.isWhole_whole _) aWt (Memref.isWhole_whole _)
      aOrn (Memref.isWhole_whole _) aMrep (Memref.isWhole_whole _) aOut0 (Memref.isWhole_whole _) aOut1 (Memref.isWhole_whole _)
      sGv (Memref.isWhole_whole _) sGb (Memref.isWhole_whole _) sVx (Memref.isWhole_whole _) sVy (Memref.isWhole_whole _)
      sVz (Memref.isWhole_whole _) sWt (Memref.isWhole_whole _) sRv (Memref.isWhole_whole _) sRb (Memref.isWhole_whole _)
      sRc (Memref.isWhole_whole _) sOut (Memref.isWhole_whole _) sStg (Memref.isWhole_whole _) sAcc (Memref.isWhole_whole _)
      cc1_scratch12 cc1_scratch13 cc1_scoped0 cc1_scoped1 cc1_scoped2 cc1_scoped3 cc1_scoped4 cc1_scoped5 cc1_scoped6 cc1_scoped7
      cc1_scoped8 cc1_scoped9 cc1_scoped10 cc1_scoped11 cc1_scoped12 cc1_scoped13 cc1_scoped14 cc1_scoped15 cc1_scoped16
      cc1_scoped17 cc1_scoped18 cc1_scoped19 cc1_scoped20)

def blendInv (rows : Memref sig .scVector .vmem S128x128 .f32) (add : Bool) (k c : ℕ)
    (R : Buf (Elt F) (rows.view.loc (thr1 d L))) (X : Buf (Elt F) ((sVx).view.loc (thr1 d L))) (Y : Buf (Elt F) ((sVy).view.loc (thr1 d L)))
    (Z : Buf (Elt F) ((sVz).view.loc (thr1 d L))) (W : Buf (Elt F) ((sWt).view.loc (thr1 d L))) (g : Buf (Elt F) ((sOut).view.loc (thr1 d L)))
    (n : ℕ) (_ : Unit) : sProp 𝕄 :=
  iprop((rows.view.loc (thr1 d L) ↦{fullShare} R) ∗ ((sVx).view.loc (thr1 d L) ↦{fullShare} X) ∗ ((sVy).view.loc (thr1 d L) ↦{fullShare} Y)
    ∗ ((sVz).view.loc (thr1 d L) ↦{fullShare} Z) ∗ ((sWt).view.loc (thr1 d L) ↦{fullShare} W)
    ∗ ∃ g', ⌜PartDone m d L add k c n g g'⌝ ∗ ((sOut).view.loc (thr1 d L) ↦{fullShare} g'))

theorem pts_out_whole (f : Buf (Elt F) ((sOut).view.loc (thr1 d L))) :
    (((sOut : Memref sig .scVector .vmem S4992 .f32).access (.whole S4992)).loc (thr1 d L) ↦[((sOut : Memref sig .scVector .vmem S4992 .f32).access (.whole S4992)).set]{fullShare} f : sProp 𝕄)
      = ((sOut).view.loc (thr1 d L) ↦{fullShare} f) := by
  rw [show ((sOut : Memref sig .scVector .vmem S4992 .f32).access (.whole S4992)).set = Finset.univ from Memref.set_access_whole (cc1_scratch9 : Ref sig .scVector)]

theorem out_read (f : S4992.Idx → Elt F .f32) :
    View.read (Elt F) ((sOut : Memref sig .scVector .vmem S4992 .f32).access (Rect.whole S4992)) f = f :=
  Memref.read_access_whole (Elt F) (cc1_scratch9 : Ref sig .scVector) f
theorem out_write (f w : S4992.Idx → Elt F .f32) :
    View.write (Elt F) ((sOut : Memref sig .scVector .vmem S4992 .f32).access (Rect.whole S4992)) f w Finset.univ = w :=
  Memref.write_access_whole_univ (Elt F) (cc1_scratch9 : Ref sig .scVector) f w

theorem wp_rowWord {rows : Memref sig .scVector .vmem S128x128 .f32} {R : Buf (Elt F) ((rows.access (.whole S128x128)).loc (thr1 d L))}
    (k c n col : ℕ) {R' : S128x128.Idx → Elt F .f32} (hR : RowsAt m d (infId m d) (k * 53248 + (wL L).val * 1664 + 128 * c) R')
    (hRd : View.read (Elt F) (rows.access (Rect.whole S128x128)) R = R')
    (hcol : col < 15) (hn : n < 8) {v58 : IVec S16 32} (h58 : ∀ x, (v58 x).toNat = 16 * n + (x 0).val)
    {dec : Decidable (∀ a x, ((![v58, broadcast S16 (BitVec.ofNat 32 col)] : Fin 2 → IVec S16 32) a x).toNat < S128x128.size a)}
    {hl : rows.view.Loads} {α : Type} {kont : Vec F S16 .f32 → Prog (TpuEff nD τ sig (Elt F) Λ₀ (thr1 d L).2) α} {Q : α → sProp 𝕄} :
    ((rows.access (.whole S128x128)).loc (thr1 d L) ↦{fullShare} R)
      ⊢ iprop((((rows.access (.whole S128x128)).loc (thr1 d L) ↦{fullShare} R)
          -∗ wp frame (wpE (defs₀ (F := F)) 𝒱₀ (thr1 d L) none) Set.univ (kont (rowVec m d (infId m d) (k * 53248 + ((wL L).val * 1664 + (128 * c + 16 * n))) col)) Q)
        -∗ wp frame (wpE (defs₀ (F := F)) 𝒱₀ (thr1 d L) none) Set.univ
            (.op (.assume _ dec) fun hw => SparseCore.vectorLoadIdx rows ![v58, broadcast S16 (BitVec.ofNat 32 col)] hw.down hl >>= kont) Q) := by
  subst hRd
  have h59 := fun x => colIdx_toNat col (by omega) x
  have hin := rows_inb v58 _ (fun x => (h58 x).trans_lt (by have hx : (x 0).val < 16 := (x 0).isLt; omega)) (fun x => (h59 x).trans_lt (by omega))
  iintro HR Hk
  iapply (wp_assume 𝒱₀ (thr1 d L) none Set.univ hin)
  iapply (SparseCore.wp_vectorLoadIdx 𝒱₀ (thr1 d L) none Set.univ (base := rows) (S := Finset.univ) (Finset.subset_univ _)) $$ HR; iintro HR
  rw [rows_load m d L k c n col _ hR hcol hn _ _ h58 h59 hin]
  iapply Hk $$ HR

theorem wp_rowWord' {rows : Memref sig .scVector .vmem S128x128 .f32} {R : Buf (Elt F) ((rows.access (.whole S128x128)).loc (thr1 d L))}
    (k c n col : ℕ) {R' : S128x128.Idx → Elt F .f32} (hR : RowsAt m d (infId m d) (k * 53248 + (wL L).val * 1664 + 128 * c) R')
    (hRd : View.read (Elt F) (rows.access (Rect.whole S128x128)) R = R')
    (hcol : col < 15) (hn : n < 8) {v58 : IVec S16 32} (h58 : ∀ x, (v58 x).toNat = 16 * n + (x 0).val)
    {hin : ∀ a x, ((![v58, broadcast S16 (BitVec.ofNat 32 col)] : Fin 2 → IVec S16 32) a x).toNat < S128x128.size a}
    {hl : rows.view.Loads} {α : Type} {kont : Vec F S16 .f32 → Prog (TpuEff nD τ sig (Elt F) Λ₀ (thr1 d L).2) α} {Q : α → sProp 𝕄} :
    ((rows.access (.whole S128x128)).loc (thr1 d L) ↦{fullShare} R)
      ⊢ iprop((((rows.access (.whole S128x128)).loc (thr1 d L) ↦{fullShare} R)
          -∗ wp frame (wpE (defs₀ (F := F)) 𝒱₀ (thr1 d L) none) Set.univ (kont (rowVec m d (infId m d) (k * 53248 + ((wL L).val * 1664 + (128 * c + 16 * n))) col)) Q)
        -∗ wp frame (wpE (defs₀ (F := F)) 𝒱₀ (thr1 d L) none) Set.univ (SparseCore.vectorLoadIdx rows ![v58, broadcast S16 (BitVec.ofNat 32 col)] hin hl >>= kont) Q) := by
  subst hRd
  iintro HR Hk
  iapply (SparseCore.wp_vectorLoadIdx 𝒱₀ (thr1 d L) none Set.univ (base := rows) (S := Finset.univ) (Finset.subset_univ _)) $$ HR; iintro HR
  rw [rows_load m d L k c n col _ hR hcol hn _ _ h58 (fun x => colIdx_toNat col (by omega) x) hin]
  iapply Hk $$ HR

theorem wp_slice16 {sc : Memref sig .scVector .vmem S1664 .f32} {X : Buf (Elt F) (sc.view.loc (thr1 d L))} (gf : ℕ → Elt F .f32) (p b pos : ℕ)
    (hX : SliceAt gf p (sc.view.read (Elt F) X)) (hpos : pos = p + b) {off : Fin 1 → ℕ} (hoff : off = ![b])
    {inb : ∀ a, off a + S16.size a ≤ S1664.size a} {hl : sc.view.LoadsAt (Rect.unit (s := S1664) off S16.size inb).toLoadRect}
    {α : Type} {kont : (S16.Idx → Elt F .f32) → Prog (TpuEff nD τ sig (Elt F) Λ₀ (thr1 d L).2) α} {Q : α → sProp 𝕄} :
    (sc.view.loc (thr1 d L) ↦{fullShare} X)
      ⊢ iprop(((sc.view.loc (thr1 d L) ↦{fullShare} X) -∗ wp frame (wpE (defs₀ (F := F)) 𝒱₀ (thr1 d L) none) Set.univ (kont (lanes16 gf pos)) Q)
        -∗ wp frame (wpE (defs₀ (F := F)) 𝒱₀ (thr1 d L) none) Set.univ (.op (.load sc (Rect.unit (s := S1664) off S16.size inb).toLoadRect hl) kont) Q) := by
  iintro HX Hk
  iapply (wp_load 𝒱₀ (thr1 d L) none Set.univ (m := sc) (S := Finset.univ) (Finset.subset_univ _)) $$ HX; iintro HX
  rw [slice_load d L gf p b pos X hX hpos off hoff inb]
  iapply Hk $$ HX

theorem wp_outStore {g : Buf (Elt F) ((sOut).view.loc (thr1 d L))} {i : IVec S16 32} (hi : ∀ x, (i x).toNat < 4992)
    {v : Vec F S16 .f32} {add : Bool} {dec : Decidable (∀ a x, ((![i] : Fin 1 → IVec S16 32) a x).toNat < S4992.size a)}
    {hs : ((sOut : Memref sig .scVector .vmem S4992 .f32).access (.whole S4992)).Stores Finset.univ}
    {α : Type} {kont : PUnit → Prog (TpuEff nD τ sig (Elt F) Λ₀ (thr1 d L).2) α} {Q : α → sProp 𝕄} :
    ((sOut).view.loc (thr1 d L) ↦{fullShare} g)
      ⊢ iprop((((sOut).view.loc (thr1 d L) ↦{fullShare} storeIdx (F := F) g ![i] v (fun _ => 1#1) add (out_inb i hi)) -∗ wp frame (wpE (defs₀ (F := F)) 𝒱₀ (thr1 d L) none) Set.univ (kont ⟨⟩) Q)
        -∗ wp frame (wpE (defs₀ (F := F)) 𝒱₀ (thr1 d L) none) Set.univ
            (.op (.assume _ dec) fun hw => SparseCore.vectorStoreIdx sOut ![i] v (fun _ => 1#1) add hw.down hs >>= kont) Q) := by
  iintro HO Hk
  iapply (wp_assume 𝒱₀ (thr1 d L) none Set.univ (out_inb i hi))
  ihave HO' := (Entails.of_eq (pts_out_whole (F := F) d L _).symm) $$ HO
  iapply (SparseCore.wp_vectorStoreIdx 𝒱₀ (thr1 d L) none Set.univ (base := sOut)) $$ HO'; iintro HO'
  ihave HO := (Entails.of_eq (pts_out_whole (F := F) d L _)) $$ HO'
  simp only [out_write, out_read]
  iapply Hk $$ HO

-- Eight trips by the invariant: from no block done to the chunk done.
theorem blend_for (rows : Memref sig .scVector .vmem S128x128 .f32) (add : Bool) (k c : ℕ) (lp : Scf.Loop 32) (ok : lp.OK) (h8 : lp.trips = 8)
    (body : Fin lp.trips → Unit → Prog (TpuEff nD τ sig (Elt F) Λ₀ (thr1 d L).2) Unit)
    (R : Buf (Elt F) ((rows).view.loc (thr1 d L))) (X : Buf (Elt F) ((sVx).view.loc (thr1 d L))) (Y : Buf (Elt F) ((sVy).view.loc (thr1 d L)))
    (Z : Buf (Elt F) ((sVz).view.loc (thr1 d L))) (W : Buf (Elt F) ((sWt).view.loc (thr1 d L))) (g : Buf (Elt F) ((sOut).view.loc (thr1 d L)))
    (htrip : ∀ n u, blendInv m d L rows add k c R X Y Z W g n.val u
      ⊢ wp frame (wpE (defs₀ (F := F)) 𝒱₀ (thr1 d L) none) Set.univ (body n u) (blendInv m d L rows add k c R X Y Z W g (n.val + 1))) :
    iprop(((rows).view.loc (thr1 d L) ↦{fullShare} R) ∗ ((sVx).view.loc (thr1 d L) ↦{fullShare} X) ∗ ((sVy).view.loc (thr1 d L) ↦{fullShare} Y)
        ∗ ((sVz).view.loc (thr1 d L) ↦{fullShare} Z) ∗ ((sWt).view.loc (thr1 d L) ↦{fullShare} W) ∗ ((sOut).view.loc (thr1 d L) ↦{fullShare} g))
      ⊢ (wp frame (wpE (defs₀ (F := F)) 𝒱₀ (thr1 d L) none) Set.univ (Scf.Loop.for lp ok ⟨⟩ body)
          fun _ => iprop(((rows).view.loc (thr1 d L) ↦{fullShare} R) ∗ ((sVx).view.loc (thr1 d L) ↦{fullShare} X) ∗ ((sVy).view.loc (thr1 d L) ↦{fullShare} Y)
        ∗ ((sVz).view.loc (thr1 d L) ↦{fullShare} Z) ∗ ((sWt).view.loc (thr1 d L) ↦{fullShare} W)
            ∗ ∃ g', ⌜ChunkDone m d L add k c g g'⌝ ∗ ((sOut).view.loc (thr1 d L) ↦{fullShare} g')) : sProp 𝕄) := by
  iintro ⟨HR, HX, HY, HZ, HW, HO⟩
  iapply (Scf.wp_for frame (wpE (defs₀ (F := F)) 𝒱₀ (thr1 d L) none) Set.univ lp.lb lp.ub lp.st ok ⟨⟩ _
    (blendInv m d L rows add k c R X Y Z W g) htrip)
  isplitl [HR HX HY HZ HW HO]
  · unfold blendInv
    iframe HR HX HY HZ HW
    iexists g; isplitr
    · ipureintro; exact partDone_zero m d L add k c g
    · iexact HO
  · iintro %acc HI
    unfold blendInv
    icases HI with ⟨HR, HX, HY, HZ, HW, %g', %hP, HO⟩
    iframe HR HX HY HZ HW
    iexists g'; isplitr
    · ipureintro; exact partDone_eight m d L add k c g g' (h8 ▸ hP)
    · iexact HO

theorem t2_trip (t₁ : Fin k1_t1_loop.trips)
    (R : Buf (Elt F) ((sRv).view.loc (thr1 d L))) (X : Buf (Elt F) ((sVx).view.loc (thr1 d L))) (Y : Buf (Elt F) ((sVy).view.loc (thr1 d L)))
    (Z : Buf (Elt F) ((sVz).view.loc (thr1 d L))) (W : Buf (Elt F) ((sWt).view.loc (thr1 d L))) (g : Buf (Elt F) ((sOut).view.loc (thr1 d L)))
    (hR : RowsAt m d (infId m d) (0 * 53248 + (wL L).val * 1664 + 128 * (2 * t₁.val)) R) (hC : CoordsOK m d L 0 X Y Z W)
    (n : Fin k1_t2_loop.trips) (u : Unit) :
    blendInv m d L sRv false 0 (2 * t₁.val) R X Y Z W g n.val u
      ⊢ wp frame (wpE (defs₀ (F := F)) 𝒱₀ (thr1 d L) none) Set.univ
          ((k1at% k1_t2_body L) bv2 t₁ (Scalar.muli (Scf.iv 0#32 1#32 t₁) 2#32) n u)
          (blendInv m d L sRv false 0 (2 * t₁.val) R X Y Z W g (n.val + 1)) := by
  have hn : n.val < 8 := lt_of_lt_of_le n.isLt k1_t2_abs.2.1
  have ht : t₁.val < 6 := lt_of_lt_of_le t₁.isLt k1_t1_abs.2.1
  unfold k1_t2_body
  simp only [k1_part1_eq_skeleton, k1_part2_eq_skeleton]
  unfold k1_part1_skel k1_part2_skel
  simp only [Prog.lift, Prog.bind_op, Prog.bind_ret, Prog.pure_eq_ret, bind_assoc, pure_bind]
  have hb := base_pair (Scalar.muli (Scf.iv 0#32 1#32 t₁) 2#32) (2 * t₁.val) n.val (chunk_even t₁.val ht) (by omega) hn
  have flat0 := fun x => flatIdx_toNat _ (128 * (2 * t₁.val) + 16 * n.val) (by omega) hb x
  have flat1 := fun x => flatIdx1_toNat _ _ (by have hx : (x 0).val < 16 := (x 0).isLt; omega) x (flat0 x)
  have flat2 := fun x => flatIdx2_toNat _ _ (by have hx : (x 0).val < 16 := (x 0).isLt; omega) x (flat0 x)
  have hrow := fun x => rowIdx_toNat n.val hn x
  unfold blendInv
  iintro ⟨HR, HX, HY, HZ, HW, %g', %hP, HO⟩
  iterate 12 (iapply (wp_rowWord m d L 0 (2 * t₁.val) n.val _ hR (Memref.read_access_whole (Elt F) (cc1_scratch6 : Ref sig .scVector) R) ?hc hn hrow) $$ HR; (case hc => omega); iintro HR)
  iterate 3 (iapply (wp_rowWord m d L 0 (2 * t₁.val) n.val _ hR (Memref.read_access_whole (Elt F) (cc1_scratch6 : Ref sig .scVector) R) ?hc hn hrow) $$ HR; (case hc => omega); iintro HR)
  iapply (wp_slice16 d L _ _ _ ((wL L).val * 1664 + (128 * (2 * t₁.val) + 16 * n.val)) hC.1 (by omega) (k1_off5_eq t₁ n)) $$ HX; iintro HX
  iapply (wp_slice16 d L _ _ _ (53248 + ((wL L).val * 1664 + (128 * (2 * t₁.val) + 16 * n.val))) hC.2.1 (by omega) (k1_off5_eq t₁ n)) $$ HY; iintro HY
  iapply (wp_slice16 d L _ _ _ (2 * 53248 + ((wL L).val * 1664 + (128 * (2 * t₁.val) + 16 * n.val))) hC.2.2.1 (by omega) (k1_off5_eq t₁ n)) $$ HZ; iintro HZ
  iapply (wp_slice16 d L _ _ _ (0 * 53248 + ((wL L).val * 1664 + (128 * (2 * t₁.val) + 16 * n.val))) hC.2.2.2 (by omega) (k1_off5_eq t₁ n)) $$ HW; iintro HW
  iapply (wp_outStore d L (fun x => (flat0 x).trans_lt (by have hx : (x 0).val < 16 := (x 0).isLt; omega))) $$ HO; iintro HO
  iapply (wp_outStore d L (fun x => (flat1 x).trans_lt (by have hx : (x 0).val < 16 := (x 0).isLt; omega))) $$ HO; iintro HO
  iapply (wp_outStore d L (fun x => (flat2 x).trans_lt (by have hx : (x 0).val < 16 := (x 0).isLt; omega))) $$ HO; iintro HO
  rw [wp_ret]; imodintro
  iframe HR HX HY HZ HW
  iexists _; isplitr; swap; · iexact HO
  ipureintro
  exact partDone_step m d L false 0 (2 * t₁.val) n.val (by omega) hn g g' _ _ _ _ _ _ flat0 flat1 flat2 _ _ _ rfl rfl rfl hP

theorem k1_t2_trips : k1_t2_loop.trips = 8 := by decide

theorem t6_trip (t₁ : Fin k1_t5_loop.trips)
    (R : Buf (Elt F) ((sRv).view.loc (thr1 d L))) (X : Buf (Elt F) ((sVx).view.loc (thr1 d L))) (Y : Buf (Elt F) ((sVy).view.loc (thr1 d L)))
    (Z : Buf (Elt F) ((sVz).view.loc (thr1 d L))) (W : Buf (Elt F) ((sWt).view.loc (thr1 d L))) (g : Buf (Elt F) ((sOut).view.loc (thr1 d L)))
    (hR : RowsAt m d (infId m d) (1 * 53248 + (wL L).val * 1664 + 128 * (2 * t₁.val)) R) (hC : CoordsOK m d L 1 X Y Z W)
    (n : Fin k1_t6_loop.trips) (u : Unit) :
    blendInv m d L sRv true 1 (2 * t₁.val) R X Y Z W g n.val u
      ⊢ wp frame (wpE (defs₀ (F := F)) 𝒱₀ (thr1 d L) none) Set.univ
          ((k1at% k1_t6_body L) bv2 k1_pay111 (bv5 L) t₁ (Scalar.muli (Scf.iv 0#32 1#32 t₁) 2#32) n u)
          (blendInv m d L sRv true 1 (2 * t₁.val) R X Y Z W g (n.val + 1)) := by
  have hn : n.val < 8 := lt_of_lt_of_le n.isLt k1_t6_abs.2.1
  have ht : t₁.val < 6 := lt_of_lt_of_le t₁.isLt k1_t5_abs.2.1
  unfold k1_t6_body
  simp only [k1_part7_eq_skeleton, k1_part8_eq_skeleton]
  unfold k1_part7_skel k1_part8_skel
  simp only [Prog.lift, Prog.bind_op, Prog.bind_ret, Prog.pure_eq_ret, bind_assoc, pure_bind]
  have hb := base_pair (Scalar.muli (Scf.iv 0#32 1#32 t₁) 2#32) (2 * t₁.val) n.val (chunk_even t₁.val ht) (by omega) hn
  have flat0 := fun x => flatIdx_toNat _ (128 * (2 * t₁.val) + 16 * n.val) (by omega) hb x
  have flat1 := fun x => flatIdx1_toNat _ _ (by have hx : (x 0).val < 16 := (x 0).isLt; omega) x (flat0 x)
  have flat2 := fun x => flatIdx2_toNat _ _ (by have hx : (x 0).val < 16 := (x 0).isLt; omega) x (flat0 x)
  have hrow := fun x => rowIdx_toNat n.val hn x
  unfold blendInv
  iintro ⟨HR, HX, HY, HZ, HW, %g', %hP, HO⟩
  iterate 12 (iapply (wp_rowWord m d L 1 (2 * t₁.val) n.val _ hR (Memref.read_access_whole (Elt F) (cc1_scratch6 : Ref sig .scVector) R) ?hc hn hrow) $$ HR; (case hc => omega); iintro HR)
  iterate 3 (iapply (wp_rowWord m d L 1 (2 * t₁.val) n.val _ hR (Memref.read_access_whole (Elt F) (cc1_scratch6 : Ref sig .scVector) R) ?hc hn hrow) $$ HR; (case hc => omega); iintro HR)
  iapply (wp_slice16 d L _ _ _ ((wL L).val * 1664 + (128 * (2 * t₁.val) + 16 * n.val)) hC.1 (by omega) (k1_off11_eq t₁ n)) $$ HX; iintro HX
  iapply (wp_slice16 d L _ _ _ (53248 + ((wL L).val * 1664 + (128 * (2 * t₁.val) + 16 * n.val))) hC.2.1 (by omega) (k1_off11_eq t₁ n)) $$ HY; iintro HY
  iapply (wp_slice16 d L _ _ _ (2 * 53248 + ((wL L).val * 1664 + (128 * (2 * t₁.val) + 16 * n.val))) hC.2.2.1 (by omega) (k1_off11_eq t₁ n)) $$ HZ; iintro HZ
  iapply (wp_slice16 d L _ _ _ (1 * 53248 + ((wL L).val * 1664 + (128 * (2 * t₁.val) + 16 * n.val))) hC.2.2.2 (by omega) (k1_off11_eq t₁ n)) $$ HW; iintro HW
  iapply (wp_outStore d L (fun x => (flat0 x).trans_lt (by have hx : (x 0).val < 16 := (x 0).isLt; omega))) $$ HO; iintro HO
  iapply (wp_outStore d L (fun x => (flat1 x).trans_lt (by have hx : (x 0).val < 16 := (x 0).isLt; omega))) $$ HO; iintro HO
  iapply (wp_outStore d L (fun x => (flat2 x).trans_lt (by have hx : (x 0).val < 16 := (x 0).isLt; omega))) $$ HO; iintro HO
  rw [wp_ret]; imodintro
  iframe HR HX HY HZ HW
  iexists _; isplitr; swap; · iexact HO
  ipureintro
  exact partDone_step m d L true 1 (2 * t₁.val) n.val (by omega) hn g g' _ _ _ _ _ _ flat0 flat1 flat2 _ _ _ rfl rfl rfl hP

theorem k1_t6_trips : k1_t6_loop.trips = 8 := by decide

end Cert.KB

end
-- ==== Proof.Body1Blend_t3Bits.lean ====
import proofs.«205348_g71287867179597_cont_9to1c4b_113_38_alg».proof.Proof.Body1BlendBits

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F] [Facts]
open Facts₀ Facts

variable (m : (ℓ : Loc nD τ sig) → Buf (Elt F) ℓ)

local notation "𝕄" => MT nD τ sig (HIx 2) (Elt F) ℕ UU ℕ
variable (d : Dev nD) (L : grid1.Coords)

local macro:max "k1at% " f:term:max L:term:max : term =>
  `($f $L aPtab (Memref.isWhole_whole _) aVt (Memref.isWhole_whole _) aInf (Memref.isWhole_whole _) aWt (Memref.isWhole_whole _)
      aOrn (Memref.isWhole_whole _) aMrep (Memref.isWhole_whole _) aOut0 (Memref.isWhole_whole _) aOut1 (Memref.isWhole_whole _)
      sGv (Memref.isWhole_whole _) sGb (Memref.isWhole_whole _) sVx (Memref.isWhole_whole _) sVy (Memref.isWhole_whole _)
      sVz (Memref.isWhole_whole _) sWt (Memref.isWhole_whole _) sRv (Memref.isWhole_whole _) sRb (Memref.isWhole_whole _)
      sRc (Memref.isWhole_whole _) sOut (Memref.isWhole_whole _) sStg (Memref.isWhole_whole _) sAcc (Memref.isWhole_whole _)
      cc1_scratch12 cc1_scratch13 cc1_scoped0 cc1_scoped1 cc1_scoped2 cc1_scoped3 cc1_scoped4 cc1_scoped5 cc1_scoped6 cc1_scoped7
      cc1_scoped8 cc1_scoped9 cc1_scoped10 cc1_scoped11 cc1_scoped12 cc1_scoped13 cc1_scoped14 cc1_scoped15 cc1_scoped16
      cc1_scoped17 cc1_scoped18 cc1_scoped19 cc1_scoped20)

theorem t3_trip (t₁ : Fin k1_t1_loop.trips)
    (R : Buf (Elt F) ((sRb).view.loc (thr1 d L))) (X : Buf (Elt F) ((sVx).view.loc (thr1 d L))) (Y : Buf (Elt F) ((sVy).view.loc (thr1 d L)))
    (Z : Buf (Elt F) ((sVz).view.loc (thr1 d L))) (W : Buf (Elt F) ((sWt).view.loc (thr1 d L))) (g : Buf (Elt F) ((sOut).view.loc (thr1 d L)))
    (hR : RowsAt m d (infId m d) (0 * 53248 + (wL L).val * 1664 + 128 * (2 * t₁.val + 1)) R) (hC : CoordsOK m d L 0 X Y Z W)
    (n : Fin k1_t3_loop.trips) (u : Unit) :
    blendInv m d L sRb false 0 (2 * t₁.val + 1) R X Y Z W g n.val u
      ⊢ wp frame (wpE (defs₀ (F := F)) 𝒱₀ (thr1 d L) none) Set.univ
          ((k1at% k1_t3_body L) bv2 t₁ (Scalar.addi (Scalar.muli (Scf.iv 0#32 1#32 t₁) 2#32) 1#32) n u)
          (blendInv m d L sRb false 0 (2 * t₁.val + 1) R X Y Z W g (n.val + 1)) := by
  have hn : n.val < 8 := lt_of_lt_of_le n.isLt k1_t3_abs.2.1
  have ht : t₁.val < 6 := lt_of_lt_of_le t₁.isLt k1_t1_abs.2.1
  unfold k1_t3_body
  simp only [k1_part3_eq_skeleton, k1_part4_eq_skeleton]
  unfold k1_part3_skel k1_part4_skel
  simp only [Prog.lift, Prog.bind_op, Prog.bind_ret, Prog.pure_eq_ret, bind_assoc, pure_bind]
  have hb := base_pair (Scalar.addi (Scalar.muli (Scf.iv 0#32 1#32 t₁) 2#32) 1#32) (2 * t₁.val + 1) n.val (chunk_odd t₁.val ht) (by omega) hn
  have flat0 := fun x => flatIdx_toNat _ (128 * (2 * t₁.val + 1) + 16 * n.val) (by omega) hb x
  have flat1 := fun x => flatIdx1_toNat _ _ (by have hx : (x 0).val < 16 := (x 0).isLt; omega) x (flat0 x)
  have flat2 := fun x => flatIdx2_toNat _ _ (by have hx : (x 0).val < 16 := (x 0).isLt; omega) x (flat0 x)
  have hrow := fun x => rowIdx_toNat n.val hn x
  unfold blendInv
  iintro ⟨HR, HX, HY, HZ, HW, %g', %hP, HO⟩
  iterate 12 (iapply (wp_rowWord m d L 0 (2 * t₁.val + 1) n.val _ hR (Memref.read_access_whole (Elt F) (cc1_scratch7 : Ref sig .scVector) R) ?hc hn hrow) $$ HR; (case hc => omega); iintro HR)
  iterate 3 (iapply (wp_rowWord m d L 0 (2 * t₁.val + 1) n.val _ hR (Memref.read_access_whole (Elt F) (cc1_scratch7 : Ref sig .scVector) R) ?hc hn hrow) $$ HR; (case hc => omega); iintro HR)
  iapply (wp_slice16 d L _ _ _ ((wL L).val * 1664 + (128 * (2 * t₁.val + 1) + 16 * n.val)) hC.1 (by omega) (k1_off6_eq t₁ n)) $$ HX; iintro HX
  iapply (wp_slice16 d L _ _ _ (53248 + ((wL L).val * 1664 + (128 * (2 * t₁.val + 1) + 16 * n.val))) hC.2.1 (by omega) (k1_off6_eq t₁ n)) $$ HY; iintro HY
  iapply (wp_slice16 d L _ _ _ (2 * 53248 + ((wL L).val * 1664 + (128 * (2 * t₁.val + 1) + 16 * n.val))) hC.2.2.1 (by omega) (k1_off6_eq t₁ n)) $$ HZ; iintro HZ
  iapply (wp_slice16 d L _ _ _ (0 * 53248 + ((wL L).val * 1664 + (128 * (2 * t₁.val + 1) + 16 * n.val))) hC.2.2.2 (by omega) (k1_off6_eq t₁ n)) $$ HW; iintro HW
  iapply (wp_outStore d L (fun x => (flat0 x).trans_lt (by have hx : (x 0).val < 16 := (x 0).isLt; omega))) $$ HO; iintro HO
  iapply (wp_outStore d L (fun x => (flat1 x).trans_lt (by have hx : (x 0).val < 16 := (x 0).isLt; omega))) $$ HO; iintro HO
  iapply (wp_outStore d L (fun x => (flat2 x).trans_lt (by have hx : (x 0).val < 16 := (x 0).isLt; omega))) $$ HO; iintro HO
  rw [wp_ret]; imodintro
  iframe HR HX HY HZ HW
  iexists _; isplitr; swap; · iexact HO
  ipureintro
  exact partDone_step m d L false 0 (2 * t₁.val + 1) n.val (by omega) hn g g' _ _ _ _ _ _ flat0 flat1 flat2 _ _ _ rfl rfl rfl hP

theorem k1_t3_trips : k1_t3_loop.trips = 8 := by decide

end Cert.KB

end
-- ==== Proof.Body1Blend_t7Bits.lean ====
import proofs.«205348_g71287867179597_cont_9to1c4b_113_38_alg».proof.Proof.Body1BlendBits

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F] [Facts]
open Facts₀ Facts

variable (m : (ℓ : Loc nD τ sig) → Buf (Elt F) ℓ)

local notation "𝕄" => MT nD τ sig (HIx 2) (Elt F) ℕ UU ℕ
variable (d : Dev nD) (L : grid1.Coords)

local macro:max "k1at% " f:term:max L:term:max : term =>
  `($f $L aPtab (Memref.isWhole_whole _) aVt (Memref.isWhole_whole _) aInf (Memref.isWhole_whole _) aWt (Memref.isWhole_whole _)
      aOrn (Memref.isWhole_whole _) aMrep (Memref.isWhole_whole _) aOut0 (Memref.isWhole_whole _) aOut1 (Memref.isWhole_whole _)
      sGv (Memref.isWhole_whole _) sGb (Memref.isWhole_whole _) sVx (Memref.isWhole_whole _) sVy (Memref.isWhole_whole _)
      sVz (Memref.isWhole_whole _) sWt (Memref.isWhole_whole _) sRv (Memref.isWhole_whole _) sRb (Memref.isWhole_whole _)
      sRc (Memref.isWhole_whole _) sOut (Memref.isWhole_whole _) sStg (Memref.isWhole_whole _) sAcc (Memref.isWhole_whole _)
      cc1_scratch12 cc1_scratch13 cc1_scoped0 cc1_scoped1 cc1_scoped2 cc1_scoped3 cc1_scoped4 cc1_scoped5 cc1_scoped6 cc1_scoped7
      cc1_scoped8 cc1_scoped9 cc1_scoped10 cc1_scoped11 cc1_scoped12 cc1_scoped13 cc1_scoped14 cc1_scoped15 cc1_scoped16
      cc1_scoped17 cc1_scoped18 cc1_scoped19 cc1_scoped20)

theorem t7_trip (t₁ : Fin k1_t5_loop.trips)
    (R : Buf (Elt F) ((sRb).view.loc (thr1 d L))) (X : Buf (Elt F) ((sVx).view.loc (thr1 d L))) (Y : Buf (Elt F) ((sVy).view.loc (thr1 d L)))
    (Z : Buf (Elt F) ((sVz).view.loc (thr1 d L))) (W : Buf (Elt F) ((sWt).view.loc (thr1 d L))) (g : Buf (Elt F) ((sOut).view.loc (thr1 d L)))
    (hR : RowsAt m d (infId m d) (1 * 53248 + (wL L).val * 1664 + 128 * (2 * t₁.val + 1)) R) (hC : CoordsOK m d L 1 X Y Z W)
    (n : Fin k1_t7_loop.trips) (u : Unit) :
    blendInv m d L sRb true 1 (2 * t₁.val + 1) R X Y Z W g n.val u
      ⊢ wp frame (wpE (defs₀ (F := F)) 𝒱₀ (thr1 d L) none) Set.univ
          ((k1at% k1_t7_body L) bv2 k1_pay111 (bv5 L) t₁ (Scalar.addi (Scalar.muli (Scf.iv 0#32 1#32 t₁) 2#32) 1#32) n u)
          (blendInv m d L sRb true 1 (2 * t₁.val + 1) R X Y Z W g (n.val + 1)) := by
  have hn : n.val < 8 := lt_of_lt_of_le n.isLt k1_t7_abs.2.1
  have ht : t₁.val < 6 := lt_of_lt_of_le t₁.isLt k1_t5_abs.2.1
  unfold k1_t7_body
  simp only [k1_part9_eq_skeleton, k1_part10_eq_skeleton]
  unfold k1_part9_skel k1_part10_skel
  simp only [Prog.lift, Prog.bind_op, Prog.bind_ret, Prog.pure_eq_ret, bind_assoc, pure_bind]
  have hb := base_pair (Scalar.addi (Scalar.muli (Scf.iv 0#32 1#32 t₁) 2#32) 1#32) (2 * t₁.val + 1) n.val (chunk_odd t₁.val ht) (by omega) hn
  have flat0 := fun x => flatIdx_toNat _ (128 * (2 * t₁.val + 1) + 16 * n.val) (by omega) hb x
  have flat1 := fun x => flatIdx1_toNat _ _ (by have hx : (x 0).val < 16 := (x 0).isLt; omega) x (flat0 x)
  have flat2 := fun x => flatIdx2_toNat _ _ (by have hx : (x 0).val < 16 := (x 0).isLt; omega) x (flat0 x)
  have hrow := fun x => rowIdx_toNat n.val hn x
  unfold blendInv
  iintro ⟨HR, HX, HY, HZ, HW, %g', %hP, HO⟩
  iterate 12 (iapply (wp_rowWord m d L 1 (2 * t₁.val + 1) n.val _ hR (Memref.read_access_whole (Elt F) (cc1_scratch7 : Ref sig .scVector) R) ?hc hn hrow) $$ HR; (case hc => omega); iintro HR)
  iterate 3 (iapply (wp_rowWord m d L 1 (2 * t₁.val + 1) n.val _ hR (Memref.read_access_whole (Elt F) (cc1_scratch7 : Ref sig .scVector) R) ?hc hn hrow) $$ HR; (case hc => omega); iintro HR)
  iapply (wp_slice16 d L _ _ _ ((wL L).val * 1664 + (128 * (2 * t₁.val + 1) + 16 * n.val)) hC.1 (by omega) (k1_off12_eq t₁ n)) $$ HX; iintro HX
  iapply (wp_slice16 d L _ _ _ (53248 + ((wL L).val * 1664 + (128 * (2 * t₁.val + 1) + 16 * n.val))) hC.2.1 (by omega) (k1_off12_eq t₁ n)) $$ HY; iintro HY
  iapply (wp_slice16 d L _ _ _ (2 * 53248 + ((wL L).val * 1664 + (128 * (2 * t₁.val + 1) + 16 * n.val))) hC.2.2.1 (by omega) (k1_off12_eq t₁ n)) $$ HZ; iintro HZ
  iapply (wp_slice16 d L _ _ _ (1 * 53248 + ((wL L).val * 1664 + (128 * (2 * t₁.val + 1) + 16 * n.val))) hC.2.2.2 (by omega) (k1_off12_eq t₁ n)) $$ HW; iintro HW
  iapply (wp_outStore d L (fun x => (flat0 x).trans_lt (by have hx : (x 0).val < 16 := (x 0).isLt; omega))) $$ HO; iintro HO
  iapply (wp_outStore d L (fun x => (flat1 x).trans_lt (by have hx : (x 0).val < 16 := (x 0).isLt; omega))) $$ HO; iintro HO
  iapply (wp_outStore d L (fun x => (flat2 x).trans_lt (by have hx : (x 0).val < 16 := (x 0).isLt; omega))) $$ HO; iintro HO
  rw [wp_ret]; imodintro
  iframe HR HX HY HZ HW
  iexists _; isplitr; swap; · iexact HO
  ipureintro
  exact partDone_step m d L true 1 (2 * t₁.val + 1) n.val (by omega) hn g g' _ _ _ _ _ _ flat0 flat1 flat2 _ _ _ rfl rfl rfl hP

theorem k1_t7_trips : k1_t7_loop.trips = 8 := by decide

end Cert.KB

end
-- ==== Proof.Body1Blend_t10Bits.lean ====
import proofs.«205348_g71287867179597_cont_9to1c4b_113_38_alg».proof.Proof.Body1BlendBits

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F] [Facts]
open Facts₀ Facts

variable (m : (ℓ : Loc nD τ sig) → Buf (Elt F) ℓ)

local notation "𝕄" => MT nD τ sig (HIx 2) (Elt F) ℕ UU ℕ
variable (d : Dev nD) (L : grid1.Coords)

local macro:max "k1at% " f:term:max L:term:max : term =>
  `($f $L aPtab (Memref.isWhole_whole _) aVt (Memref.isWhole_whole _) aInf (Memref.isWhole_whole _) aWt (Memref.isWhole_whole _)
      aOrn (Memref.isWhole_whole _) aMrep (Memref.isWhole_whole _) aOut0 (Memref.isWhole_whole _) aOut1 (Memref.isWhole_whole _)
      sGv (Memref.isWhole_whole _) sGb (Memref.isWhole_whole _) sVx (Memref.isWhole_whole _) sVy (Memref.isWhole_whole _)
      sVz (Memref.isWhole_whole _) sWt (Memref.isWhole_whole _) sRv (Memref.isWhole_whole _) sRb (Memref.isWhole_whole _)
      sRc (Memref.isWhole_whole _) sOut (Memref.isWhole_whole _) sStg (Memref.isWhole_whole _) sAcc (Memref.isWhole_whole _)
      cc1_scratch12 cc1_scratch13 cc1_scoped0 cc1_scoped1 cc1_scoped2 cc1_scoped3 cc1_scoped4 cc1_scoped5 cc1_scoped6 cc1_scoped7
      cc1_scoped8 cc1_scoped9 cc1_scoped10 cc1_scoped11 cc1_scoped12 cc1_scoped13 cc1_scoped14 cc1_scoped15 cc1_scoped16
      cc1_scoped17 cc1_scoped18 cc1_scoped19 cc1_scoped20)

theorem t10_trip (t₁ : Fin k1_t9_loop.trips)
    (R : Buf (Elt F) ((sRv).view.loc (thr1 d L))) (X : Buf (Elt F) ((sVx).view.loc (thr1 d L))) (Y : Buf (Elt F) ((sVy).view.loc (thr1 d L)))
    (Z : Buf (Elt F) ((sVz).view.loc (thr1 d L))) (W : Buf (Elt F) ((sWt).view.loc (thr1 d L))) (g : Buf (Elt F) ((sOut).view.loc (thr1 d L)))
    (hR : RowsAt m d (infId m d) (2 * 53248 + (wL L).val * 1664 + 128 * (2 * t₁.val)) R) (hC : CoordsOK m d L 2 X Y Z W)
    (n : Fin k1_t10_loop.trips) (u : Unit) :
    blendInv m d L sRv true 2 (2 * t₁.val) R X Y Z W g n.val u
      ⊢ wp frame (wpE (defs₀ (F := F)) 𝒱₀ (thr1 d L) none) Set.univ
          ((k1at% k1_t10_body L) (bv1 L) bv2 k1_pay111 (bv5 L) t₁ (Scalar.muli (Scf.iv 0#32 1#32 t₁) 2#32) n u)
          (blendInv m d L sRv true 2 (2 * t₁.val) R X Y Z W g (n.val + 1)) := by
  have hn : n.val < 8 := lt_of_lt_of_le n.isLt k1_t10_abs.2.1
  have ht : t₁.val < 6 := lt_of_lt_of_le t₁.isLt k1_t9_abs.2.1
  unfold k1_t10_body
  simp only [k1_part13_eq_skeleton, k1_part14_eq_skeleton]
  unfold k1_part13_skel k1_part14_skel
  simp only [Prog.lift, Prog.bind_op, Prog.bind_ret, Prog.pure_eq_ret, bind_assoc, pure_bind]
  have hb := base_pair (Scalar.muli (Scf.iv 0#32 1#32 t₁) 2#32) (2 * t₁.val) n.val (chunk_even t₁.val ht) (by omega) hn
  have flat0 := fun x => flatIdx_toNat _ (128 * (2 * t₁.val) + 16 * n.val) (by omega) hb x
  have flat1 := fun x => flatIdx1_toNat _ _ (by have hx : (x 0).val < 16 := (x 0).isLt; omega) x (flat0 x)
  have flat2 := fun x => flatIdx2_toNat _ _ (by have hx : (x 0).val < 16 := (x 0).isLt; omega) x (flat0 x)
  have hrow := fun x => rowIdx_toNat n.val hn x
  unfold blendInv
  iintro ⟨HR, HX, HY, HZ, HW, %g', %hP, HO⟩
  iterate 12 (iapply (wp_rowWord m d L 2 (2 * t₁.val) n.val _ hR (Memref.read_access_whole (Elt F) (cc1_scratch6 : Ref sig .scVector) R) ?hc hn hrow) $$ HR; (case hc => omega); iintro HR)
  iterate 3 (iapply (wp_rowWord m d L 2 (2 * t₁.val) n.val _ hR (Memref.read_access_whole (Elt F) (cc1_scratch6 : Ref sig .scVector) R) ?hc hn hrow) $$ HR; (case hc => omega); iintro HR)
  iapply (wp_slice16 d L _ _ _ ((wL L).val * 1664 + (128 * (2 * t₁.val) + 16 * n.val)) hC.1 (by omega) (k1_off16_eq t₁ n)) $$ HX; iintro HX
  iapply (wp_slice16 d L _ _ _ (53248 + ((wL L).val * 1664 + (128 * (2 * t₁.val) + 16 * n.val))) hC.2.1 (by omega) (k1_off16_eq t₁ n)) $$ HY; iintro HY
  iapply (wp_slice16 d L _ _ _ (2 * 53248 + ((wL L).val * 1664 + (128 * (2 * t₁.val) + 16 * n.val))) hC.2.2.1 (by omega) (k1_off16_eq t₁ n)) $$ HZ; iintro HZ
  iapply (wp_slice16 d L _ _ _ (2 * 53248 + ((wL L).val * 1664 + (128 * (2 * t₁.val) + 16 * n.val))) hC.2.2.2 (by omega) (k1_off16_eq t₁ n)) $$ HW; iintro HW
  iapply (wp_outStore d L (fun x => (flat0 x).trans_lt (by have hx : (x 0).val < 16 := (x 0).isLt; omega))) $$ HO; iintro HO
  iapply (wp_outStore d L (fun x => (flat1 x).trans_lt (by have hx : (x 0).val < 16 := (x 0).isLt; omega))) $$ HO; iintro HO
  iapply (wp_outStore d L (fun x => (flat2 x).trans_lt (by have hx : (x 0).val < 16 := (x 0).isLt; omega))) $$ HO; iintro HO
  rw [wp_ret]; imodintro
  iframe HR HX HY HZ HW
  iexists _; isplitr; swap; · iexact HO
  ipureintro
  exact partDone_step m d L true 2 (2 * t₁.val) n.val (by omega) hn g g' _ _ _ _ _ _ flat0 flat1 flat2 _ _ _ rfl rfl rfl hP

theorem k1_t10_trips : k1_t10_loop.trips = 8 := by decide

end Cert.KB

end
-- ==== Proof.Body1Blend_t11Bits.lean ====
import proofs.«205348_g71287867179597_cont_9to1c4b_113_38_alg».proof.Proof.Body1BlendBits

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F] [Facts]
open Facts₀ Facts

variable (m : (ℓ : Loc nD τ sig) → Buf (Elt F) ℓ)

local notation "𝕄" => MT nD τ sig (HIx 2) (Elt F) ℕ UU ℕ
variable (d : Dev nD) (L : grid1.Coords)

local macro:max "k1at% " f:term:max L:term:max : term =>
  `($f $L aPtab (Memref.isWhole_whole _) aVt (Memref.isWhole_whole _) aInf (Memref.isWhole_whole _) aWt (Memref.isWhole_whole _)
      aOrn (Memref.isWhole_whole _) aMrep (Memref.isWhole_whole _) aOut0 (Memref.isWhole_whole _) aOut1 (Memref.isWhole_whole _)
      sGv (Memref.isWhole_whole _) sGb (Memref.isWhole_whole _) sVx (Memref.isWhole_whole _) sVy (Memref.isWhole_whole _)
      sVz (Memref.isWhole_whole _) sWt (Memref.isWhole_whole _) sRv (Memref.isWhole_whole _) sRb (Memref.isWhole_whole _)
      sRc (Memref.isWhole_whole _) sOut (Memref.isWhole_whole _) sStg (Memref.isWhole_whole _) sAcc (Memref.isWhole_whole _)
      cc1_scratch12 cc1_scratch13 cc1_scoped0 cc1_scoped1 cc1_scoped2 cc1_scoped3 cc1_scoped4 cc1_scoped5 cc1_scoped6 cc1_scoped7
      cc1_scoped8 cc1_scoped9 cc1_scoped10 cc1_scoped11 cc1_scoped12 cc1_scoped13 cc1_scoped14 cc1_scoped15 cc1_scoped16
      cc1_scoped17 cc1_scoped18 cc1_scoped19 cc1_scoped20)

theorem t11_trip (t₁ : Fin k1_t9_loop.trips)
    (R : Buf (Elt F) ((sRb).view.loc (thr1 d L))) (X : Buf (Elt F) ((sVx).view.loc (thr1 d L))) (Y : Buf (Elt F) ((sVy).view.loc (thr1 d L)))
    (Z : Buf (Elt F) ((sVz).view.loc (thr1 d L))) (W : Buf (Elt F) ((sWt).view.loc (thr1 d L))) (g : Buf (Elt F) ((sOut).view.loc (thr1 d L)))
    (hR : RowsAt m d (infId m d) (2 * 53248 + (wL L).val * 1664 + 128 * (2 * t₁.val + 1)) R) (hC : CoordsOK m d L 2 X Y Z W)
    (n : Fin k1_t11_loop.trips) (u : Unit) :
    blendInv m d L sRb true 2 (2 * t₁.val + 1) R X Y Z W g n.val u
      ⊢ wp frame (wpE (defs₀ (F := F)) 𝒱₀ (thr1 d L) none) Set.univ
          ((k1at% k1_t11_body L) (bv1 L) bv2 k1_pay111 (bv5 L) t₁ (Scalar.addi (Scalar.muli (Scf.iv 0#32 1#32 t₁) 2#32) 1#32) n u)
          (blendInv m d L sRb true 2 (2 * t₁.val + 1) R X Y Z W g (n.val + 1)) := by
  have hn : n.val < 8 := lt_of_lt_of_le n.isLt k1_t11_abs.2.1
  have ht : t₁.val < 6 := lt_of_lt_of_le t₁.isLt k1_t9_abs.2.1
  unfold k1_t11_body
  simp only [k1_part15_eq_skeleton, k1_part16_eq_skeleton]
  unfold k1_part15_skel k1_part16_skel
  simp only [Prog.lift, Prog.bind_op, Prog.bind_ret, Prog.pure_eq_ret, bind_assoc, pure_bind]
  have hb := base_pair (Scalar.addi (Scalar.muli (Scf.iv 0#32 1#32 t₁) 2#32) 1#32) (2 * t₁.val + 1) n.val (chunk_odd t₁.val ht) (by omega) hn
  have flat0 := fun x => flatIdx_toNat _ (128 * (2 * t₁.val + 1) + 16 * n.val) (by omega) hb x
  have flat1 := fun x => flatIdx1_toNat _ _ (by have hx : (x 0).val < 16 := (x 0).isLt; omega) x (flat0 x)
  have flat2 := fun x => flatIdx2_toNat _ _ (by have hx : (x 0).val < 16 := (x 0).isLt; omega) x (flat0 x)
  have hrow := fun x => rowIdx_toNat n.val hn x
  unfold blendInv
  iintro ⟨HR, HX, HY, HZ, HW, %g', %hP, HO⟩
  iterate 12 (iapply (wp_rowWord m d L 2 (2 * t₁.val + 1) n.val _ hR (Memref.read_access_whole (Elt F) (cc1_scratch7 : Ref sig .scVector) R) ?hc hn hrow) $$ HR; (case hc => omega); iintro HR)
  iterate 3 (iapply (wp_rowWord m d L 2 (2 * t₁.val + 1) n.val _ hR (Memref.read_access_whole (Elt F) (cc1_scratch7 : Ref sig .scVector) R) ?hc hn hrow) $$ HR; (case hc => omega); iintro HR)
  iapply (wp_slice16 d L _ _ _ ((wL L).val * 1664 + (128 * (2 * t₁.val + 1) + 16 * n.val)) hC.1 (by omega) (k1_off17_eq t₁ n)) $$ HX; iintro HX
  iapply (wp_slice16 d L _ _ _ (53248 + ((wL L).val * 1664 + (128 * (2 * t₁.val + 1) + 16 * n.val))) hC.2.1 (by omega) (k1_off17_eq t₁ n)) $$ HY; iintro HY
  iapply (wp_slice16 d L _ _ _ (2 * 53248 + ((wL L).val * 1664 + (128 * (2 * t₁.val + 1) + 16 * n.val))) hC.2.2.1 (by omega) (k1_off17_eq t₁ n)) $$ HZ; iintro HZ
  iapply (wp_slice16 d L _ _ _ (2 * 53248 + ((wL L).val * 1664 + (128 * (2 * t₁.val + 1) + 16 * n.val))) hC.2.2.2 (by omega) (k1_off17_eq t₁ n)) $$ HW; iintro HW
  iapply (wp_outStore d L (fun x => (flat0 x).trans_lt (by have hx : (x 0).val < 16 := (x 0).isLt; omega))) $$ HO; iintro HO
  iapply (wp_outStore d L (fun x => (flat1 x).trans_lt (by have hx : (x 0).val < 16 := (x 0).isLt; omega))) $$ HO; iintro HO
  iapply (wp_outStore d L (fun x => (flat2 x).trans_lt (by have hx : (x 0).val < 16 := (x 0).isLt; omega))) $$ HO; iintro HO
  rw [wp_ret]; imodintro
  iframe HR HX HY HZ HW
  iexists _; isplitr; swap; · iexact HO
  ipureintro
  exact partDone_step m d L true 2 (2 * t₁.val + 1) n.val (by omega) hn g g' _ _ _ _ _ _ flat0 flat1 flat2 _ _ _ rfl rfl rfl hP

theorem k1_t11_trips : k1_t11_loop.trips = 8 := by decide

end Cert.KB

end
-- ==== Proof.Body1PairBits.lean ====
import proofs.«205348_g71287867179597_cont_9to1c4b_113_38_alg».proof.Proof.Body1ValBits
import proofs.«205348_g71287867179597_cont_9to1c4b_113_38_alg».proof.Proof.Body1OutBits
import proofs.«205348_g71287867179597_cont_9to1c4b_113_38_alg».proof.Proof.Body1BlendBits
import proofs.«205348_g71287867179597_cont_9to1c4b_113_38_alg».proof.Proof.Body1Blend_t3Bits
import proofs.«205348_g71287867179597_cont_9to1c4b_113_38_alg».proof.Proof.Body1Blend_t7Bits
import proofs.«205348_g71287867179597_cont_9to1c4b_113_38_alg».proof.Proof.Body1Blend_t10Bits
import proofs.«205348_g71287867179597_cont_9to1c4b_113_38_alg».proof.Proof.Body1Blend_t11Bits

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F] [Facts]
open Facts₀ Facts

variable (m : (ℓ : Loc nD τ sig) → Buf (Elt F) ℓ)

local notation "𝕄" => MT nD τ sig (HIx 2) (Elt F) ℕ UU ℕ

local macro:max "k1at% " f:term:max L:term:max : term =>
  `($f $L aPtab (Memref.isWhole_whole _) aVt (Memref.isWhole_whole _) aInf (Memref.isWhole_whole _) aWt (Memref.isWhole_whole _)
      aOrn (Memref.isWhole_whole _) aMrep (Memref.isWhole_whole _) aOut0 (Memref.isWhole_whole _) aOut1 (Memref.isWhole_whole _)
      sGv (Memref.isWhole_whole _) sGb (Memref.isWhole_whole _) sVx (Memref.isWhole_whole _) sVy (Memref.isWhole_whole _)
      sVz (Memref.isWhole_whole _) sWt (Memref.isWhole_whole _) sRv (Memref.isWhole_whole _) sRb (Memref.isWhole_whole _)
      sRc (Memref.isWhole_whole _) sOut (Memref.isWhole_whole _) sStg (Memref.isWhole_whole _) sAcc (Memref.isWhole_whole _)
      cc1_scratch12 cc1_scratch13 cc1_scoped0 cc1_scoped1 cc1_scoped2 cc1_scoped3 cc1_scoped4 cc1_scoped5 cc1_scoped6 cc1_scoped7
      cc1_scoped8 cc1_scoped9 cc1_scoped10 cc1_scoped11 cc1_scoped12 cc1_scoped13 cc1_scoped14 cc1_scoped15 cc1_scoped16
      cc1_scoped17 cc1_scoped18 cc1_scoped19 cc1_scoped20)

theorem wp_call_bind {thr : Thread nD τ} {α β : Type} {p : Prog (TpuEff nD τ sig (Elt F) Λ₀ thr.2) α} {kk : α → Prog (TpuEff nD τ sig (Elt F) Λ₀ thr.2) β}
    {Pre : sProp 𝕄} {Q : α → sProp 𝕄} {Φ : β → sProp 𝕄}
    (h : Pre ⊢ wp frame (wpE (defs₀ (F := F)) 𝒱₀ thr none) Set.univ p Q) :
    Pre ⊢ iprop((∀ a, Q a -∗ wp frame (wpE (defs₀ (F := F)) 𝒱₀ thr none) Set.univ (kk a) Φ)
      -∗ wp frame (wpE (defs₀ (F := F)) 𝒱₀ thr none) Set.univ (p >>= kk) Φ) := by
  rw [wp_bind]
  iintro HP HK
  iapply (wp_wand_r frame _ Set.univ)
  isplitl [HP]
  · iapply h; iexact HP
  · iexact HK

section Tile
variable (d : Dev nD) (L : grid1.Coords)

def inv1 (O : CellTallies nD τ sig (HIx 2)) (W : Waits sig (HIx 2)) (fP : Buf (Elt F) ((aPtab).view.loc (thr1 d L)))
    (X : Buf (Elt F) ((sVx).view.loc (thr1 d L))) (Y : Buf (Elt F) ((sVy).view.loc (thr1 d L)))
    (Z : Buf (Elt F) ((sVz).view.loc (thr1 d L))) (Wt : Buf (Elt F) ((sWt).view.loc (thr1 d L))) (t : ℕ) (_ : PUnit.{1}) : sProp 𝕄 :=
  iprop(Transfers.MayWaits (thr1 d L) (none : HIx 2) O
    ∗ ((aInf).view.loc (thr1 d L) ↦{rd (wL L)} tInf m d) ∗ ((aPtab).view.loc (thr1 d L) ↦{rd (wL L)} fP)
    ∗ (∃ f, (sGv).view.loc (thr1 d L) ↦{fullShare} f) ∗ (∃ f, (sGb).view.loc (thr1 d L) ↦{fullShare} f)
    ∗ (∃ f, (sRv).view.loc (thr1 d L) ↦{fullShare} f) ∗ (∃ f, (sRb).view.loc (thr1 d L) ↦{fullShare} f)
    ∗ ((sVx).view.loc (thr1 d L) ↦{fullShare} X) ∗ ((sVy).view.loc (thr1 d L) ↦{fullShare} Y)
    ∗ ((sVz).view.loc (thr1 d L) ↦{fullShare} Z) ∗ ((sWt).view.loc (thr1 d L) ↦{fullShare} Wt)
    ∗ (∃ g, ⌜BlendInv m d L 0 (2 * t) g⌝ ∗ (sOut).view.loc (thr1 d L) ↦{fullShare} g)
    ∗ semVal (thr1 d L, SemLoc.dma cc1_scoped4.sem) 0 ∗ semVal (thr1 d L, SemLoc.dma cc1_scoped5.sem) 0
    ∗ semVal (thr1 d L, SemLoc.dma cc1_scratch12.sem) 0 ∗ semVal (thr1 d L, SemLoc.dma cc1_scratch13.sem) 0
    ∗ ∃ W', ⌜∀ p ∈ W', p ∈ W ∨ p.2 = none⌝ ∗ owes (thr1 d L) O W')

theorem k1_off3_pos (t : Fin k1_t1_loop.trips) : k1_off3 L t 0 = 0 * 53248 + (wL L).val * 1664 + 128 * (2 * t.val) := by
  have hw : (wL L).val = (L 1).val * 2 + (L 0).val := rfl
  rw [Gen.k1_off3_eq L t, hw]; simp only [Matrix.cons_val_zero]; omega
theorem k1_off4_pos (t : Fin k1_t1_loop.trips) : k1_off4 L t 0 = 0 * 53248 + (wL L).val * 1664 + 128 * (2 * t.val + 1) := by
  have hw : (wL L).val = (L 1).val * 2 + (L 0).val := rfl
  rw [Gen.k1_off4_eq L t, hw]; simp only [Matrix.cons_val_zero]; omega

set_option maxHeartbeats 4000000 in
theorem t1_region (hRg : RangesOK m) (O : CellTallies nD τ sig (HIx 2)) (W : Waits sig (HIx 2))
    (fP : Buf (Elt F) ((aPtab).view.loc (thr1 d L)))
    (X : Buf (Elt F) ((sVx).view.loc (thr1 d L))) (Y : Buf (Elt F) ((sVy).view.loc (thr1 d L)))
    (Z : Buf (Elt F) ((sVz).view.loc (thr1 d L))) (Wt : Buf (Elt F) ((sWt).view.loc (thr1 d L))) (hP : PtabOK m d fP)
    (hC : CoordsOK m d L 0 X Y Z Wt) (t : Fin k1_t1_loop.trips) :
    inv1 m d L O W fP X Y Z Wt t.val ⟨⟩
      ⊢ wp frame (wpE (defs₀ (F := F)) 𝒱₀ (thr1 d L) none) Set.univ ((k1at% k1_t1_body L) bv2 t ⟨⟩)
          (inv1 m d L O W fP X Y Z Wt (t.val + 1)) := by
  unfold inv1 k1_t1_body
  iintro ⟨Hmw, Hinf, Hpt, ⟨%fgv, Hgv⟩, ⟨%fgb, Hgb⟩, ⟨%frv, Hrv⟩, ⟨%frb, Hrb⟩, Hx, Hy, Hz, Hw, ⟨%g, %hg, Hout⟩, Hs4, Hs5, Hs12, Hs13, %W', %hW', HO⟩
  ihave Hpt2 := (pointsTo_share (PosShare.mem_left_op_right (rd (wL L)))).1 $$ Hpt
  icases Hpt2 with ⟨HptL, HptR⟩
  sl_exec
  have hin1 := gv_inb m d L hRg fgv (t1_region.sl.dma0 m d L t) (k1_off3 L t) (Gen.k1_off3_inb L t) rfl
  sl_exec
  have hin2 := gb_inb m d L hRg fgb (t1_region.sl.dma0_1 m d L t) (k1_off4 L t) (Gen.k1_off4_inb L t) rfl
  sl_exec
  have hRv : RowsAt m d (infId m d) (0 * 53248 + (wL L).val * 1664 + 128 * (2 * t.val))
      (sRv.view.writes (Elt F) sRv.view.junk [⟨Rect.whole S128x128, t1_region.sl.gather0 m d L fP t fgv hin1⟩]) := by
    rw [← k1_off3_pos L t]
    exact rows_v m d L hRg fP hP _ fgv _ (k1_off3 L t) (Gen.k1_off3_inb L t) rfl (fun _ => rfl) (by decide) hin1
  iapply (wp_call_bind (blend_for m d L sRv false 0 (2 * t.val) k1_t2_loop Facts₀.k1_t2_ok k1_t2_trips _ _ X Y Z Wt g (t2_trip m d L t _ X Y Z Wt g hRv hC))) $$ [Hrv Hx Hy Hz Hw Hout]
  · isplitl [Hrv]; · iexact Hrv
    isplitl [Hx]; · iexact Hx
    isplitl [Hy]; · iexact Hy
    isplitl [Hz]; · iexact Hz
    isplitl [Hw]; · iexact Hw
    iexact Hout
  iintro %_ ⟨Hrv, Hx, Hy, Hz, Hw, %g1, %hg1, Hout⟩
  sl_exec
  have hRb : RowsAt m d (infId m d) (0 * 53248 + (wL L).val * 1664 + 128 * (2 * t.val + 1))
      (sRb.view.writes (Elt F) sRb.view.junk [⟨Rect.whole S128x128, t1_region.sl.gather0_1 m d L fP t fgb hin2⟩]) := by
    rw [← k1_off4_pos L t]
    exact rows_b m d L hRg fP hP _ fgb _ (k1_off4 L t) (Gen.k1_off4_inb L t) rfl (fun _ => rfl) (by decide) hin2
  iapply (wp_call_bind (blend_for m d L sRb false 0 (2 * t.val + 1) k1_t3_loop Facts₀.k1_t3_ok k1_t3_trips _ _ X Y Z Wt g1 (t3_trip m d L t _ X Y Z Wt g1 hRb hC))) $$ [Hrb Hx Hy Hz Hw Hout]
  · isplitl [Hrb]; · iexact Hrb
    isplitl [Hx]; · iexact Hx
    isplitl [Hy]; · iexact Hy
    isplitl [Hz]; · iexact Hz
    isplitl [Hw]; · iexact Hw
    iexact Hout
  iintro %_ ⟨Hrb, Hx, Hy, Hz, Hw, %g2, %hg2, Hout⟩
  sl_step
  ihave Hpt := (pointsTo_share (PosShare.mem_left_op_right (rd (wL L)))).2 $$ [HptL HptR]
  · isplitl [HptL] <;> iassumption
  isplitl [Hmw]; · iexact Hmw
  isplitl [Hinf]; · iexact Hinf
  isplitl [Hpt]; · iexact Hpt
  isplitl [Hgv]; · iexists _; iexact Hgv
  isplitl [Hgb]; · iexists _; iexact Hgb
  isplitl [Hrv]; · iexists _; iexact Hrv
  isplitl [Hrb]; · iexists _; iexact Hrb
  isplitl [Hx]; · iexact Hx
  isplitl [Hy]; · iexact Hy
  isplitl [Hz]; · iexact Hz
  isplitl [Hw]; · iexact Hw
  isplitl [Hout]
  · iexists g2; isplitr
    · ipureintro
      have h1 := BlendInv_step m d L hg hg1
      have h2 := BlendInv_step m d L h1 hg2
      rw [show 2 * (t.val + 1) = 2 * t.val + 1 + 1 by omega]; exact h2
    · iexact Hout
  isplitl [Hs4]; · iexact Hs4
  isplitl [Hs5]; · iexact Hs5
  isplitl [Hs12]; · iexact Hs12
  isplitl [Hs13]; · iexact Hs13
  iexists _; isplitr
  rotate_left
  · iexact HO
  · ipureintro; intro p hp
    simp only [Finset.mem_insert] at hp
    rcases hp with hp | hp | hp | hp | hp
    · exact .inr (hp ▸ rfl)
    · exact .inr (hp ▸ rfl)
    · exact .inr (hp ▸ rfl)
    · exact .inr (hp ▸ rfl)
    · exact hW' p hp

theorem t1_wp (hRg : RangesOK m) (O : CellTallies nD τ sig (HIx 2)) (W : Waits sig (HIx 2))
    (fP : Buf (Elt F) ((aPtab).view.loc (thr1 d L)))
    (X : Buf (Elt F) ((sVx).view.loc (thr1 d L))) (Y : Buf (Elt F) ((sVy).view.loc (thr1 d L)))
    (Z : Buf (Elt F) ((sVz).view.loc (thr1 d L))) (Wt : Buf (Elt F) ((sWt).view.loc (thr1 d L))) (hP : PtabOK m d fP)
    (hC : CoordsOK m d L 0 X Y Z Wt) :
    inv1 m d L O W fP X Y Z Wt 0 ⟨⟩
      ⊢ wp frame (wpE (defs₀ (F := F)) 𝒱₀ (thr1 d L) none) Set.univ
          (Scf.Loop.for k1_t1_loop Facts₀.k1_t1_ok ⟨⟩ ((k1at% k1_t1_body L) bv2))
          (inv1 m d L O W fP X Y Z Wt k1_t1_loop.trips) := by
  iintro HI
  sl_for (inv1 m d L O W fP X Y Z Wt) $$ [HI]
  case region => exact fun t _ => t1_region m d L hRg O W fP X Y Z Wt hP hC t
  isplitl [HI]
  · iexact HI
  iintro %_ HI
  iexact HI

def inv5 (O : CellTallies nD τ sig (HIx 2)) (W : Waits sig (HIx 2)) (fP : Buf (Elt F) ((aPtab).view.loc (thr1 d L)))
    (X : Buf (Elt F) ((sVx).view.loc (thr1 d L))) (Y : Buf (Elt F) ((sVy).view.loc (thr1 d L)))
    (Z : Buf (Elt F) ((sVz).view.loc (thr1 d L))) (Wt : Buf (Elt F) ((sWt).view.loc (thr1 d L))) (t : ℕ) (_ : PUnit.{1}) : sProp 𝕄 :=
  iprop(Transfers.MayWaits (thr1 d L) (none : HIx 2) O
    ∗ ((aInf).view.loc (thr1 d L) ↦{rd (wL L)} tInf m d) ∗ ((aPtab).view.loc (thr1 d L) ↦{rd (wL L)} fP)
    ∗ (∃ f, (sGv).view.loc (thr1 d L) ↦{fullShare} f) ∗ (∃ f, (sGb).view.loc (thr1 d L) ↦{fullShare} f)
    ∗ (∃ f, (sRv).view.loc (thr1 d L) ↦{fullShare} f) ∗ (∃ f, (sRb).view.loc (thr1 d L) ↦{fullShare} f)
    ∗ ((sVx).view.loc (thr1 d L) ↦{fullShare} X) ∗ ((sVy).view.loc (thr1 d L) ↦{fullShare} Y)
    ∗ ((sVz).view.loc (thr1 d L) ↦{fullShare} Z) ∗ ((sWt).view.loc (thr1 d L) ↦{fullShare} Wt)
    ∗ (∃ g, ⌜BlendInv m d L 1 (2 * t) g⌝ ∗ (sOut).view.loc (thr1 d L) ↦{fullShare} g)
    ∗ semVal (thr1 d L, SemLoc.dma cc1_scoped8.sem) 0 ∗ semVal (thr1 d L, SemLoc.dma cc1_scoped9.sem) 0
    ∗ semVal (thr1 d L, SemLoc.dma cc1_scratch12.sem) 0 ∗ semVal (thr1 d L, SemLoc.dma cc1_scratch13.sem) 0
    ∗ ∃ W', ⌜∀ p ∈ W', p ∈ W ∨ p.2 = none⌝ ∗ owes (thr1 d L) O W')

theorem k1_off9_pos (t : Fin k1_t5_loop.trips) : k1_off9 L t 0 = 1 * 53248 + (wL L).val * 1664 + 128 * (2 * t.val) := by
  have hw : (wL L).val = (L 1).val * 2 + (L 0).val := rfl
  rw [Gen.k1_off9_eq L t, hw]; simp only [Matrix.cons_val_zero]; omega
theorem k1_off10_pos (t : Fin k1_t5_loop.trips) : k1_off10 L t 0 = 1 * 53248 + (wL L).val * 1664 + 128 * (2 * t.val + 1) := by
  have hw : (wL L).val = (L 1).val * 2 + (L 0).val := rfl
  rw [Gen.k1_off10_eq L t, hw]; simp only [Matrix.cons_val_zero]; omega

set_option maxHeartbeats 4000000 in
theorem t5_region (hRg : RangesOK m) (O : CellTallies nD τ sig (HIx 2)) (W : Waits sig (HIx 2))
    (fP : Buf (Elt F) ((aPtab).view.loc (thr1 d L)))
    (X : Buf (Elt F) ((sVx).view.loc (thr1 d L))) (Y : Buf (Elt F) ((sVy).view.loc (thr1 d L)))
    (Z : Buf (Elt F) ((sVz).view.loc (thr1 d L))) (Wt : Buf (Elt F) ((sWt).view.loc (thr1 d L))) (hP : PtabOK m d fP)
    (hC : CoordsOK m d L 1 X Y Z Wt) (t : Fin k1_t5_loop.trips) :
    inv5 m d L O W fP X Y Z Wt t.val ⟨⟩
      ⊢ wp frame (wpE (defs₀ (F := F)) 𝒱₀ (thr1 d L) none) Set.univ ((k1at% k1_t5_body L) bv2 k1_pay111 (bv5 L) t ⟨⟩)
          (inv5 m d L O W fP X Y Z Wt (t.val + 1)) := by
  unfold inv5 k1_t5_body
  iintro ⟨Hmw, Hinf, Hpt, ⟨%fgv, Hgv⟩, ⟨%fgb, Hgb⟩, ⟨%frv, Hrv⟩, ⟨%frb, Hrb⟩, Hx, Hy, Hz, Hw, ⟨%g, %hg, Hout⟩, Hs4, Hs5, Hs12, Hs13, %W', %hW', HO⟩
  ihave Hpt2 := (pointsTo_share (PosShare.mem_left_op_right (rd (wL L)))).1 $$ Hpt
  icases Hpt2 with ⟨HptL, HptR⟩
  sl_exec
  have hin1 := gv_inb m d L hRg fgv (t5_region.sl.dma0 m d L t) (k1_off9 L t) (Gen.k1_off9_inb L t) rfl
  sl_exec
  have hin2 := gb_inb m d L hRg fgb (t5_region.sl.dma0_1 m d L t) (k1_off10 L t) (Gen.k1_off10_inb L t) rfl
  sl_exec
  have hRv : RowsAt m d (infId m d) (1 * 53248 + (wL L).val * 1664 + 128 * (2 * t.val))
      (sRv.view.writes (Elt F) sRv.view.junk [⟨Rect.whole S128x128, t5_region.sl.gather0 m d L fP t fgv hin1⟩]) := by
    rw [← k1_off9_pos L t]
    exact rows_v m d L hRg fP hP _ fgv _ (k1_off9 L t) (Gen.k1_off9_inb L t) rfl (fun _ => rfl) (by decide) hin1
  iapply (wp_call_bind (blend_for m d L sRv true 1 (2 * t.val) k1_t6_loop Facts₀.k1_t6_ok k1_t6_trips _ _ X Y Z Wt g (t6_trip m d L t _ X Y Z Wt g hRv hC))) $$ [Hrv Hx Hy Hz Hw Hout]
  · isplitl [Hrv]; · iexact Hrv
    isplitl [Hx]; · iexact Hx
    isplitl [Hy]; · iexact Hy
    isplitl [Hz]; · iexact Hz
    isplitl [Hw]; · iexact Hw
    iexact Hout
  iintro %_ ⟨Hrv, Hx, Hy, Hz, Hw, %g1, %hg1, Hout⟩
  sl_exec
  have hRb : RowsAt m d (infId m d) (1 * 53248 + (wL L).val * 1664 + 128 * (2 * t.val + 1))
      (sRb.view.writes (Elt F) sRb.view.junk [⟨Rect.whole S128x128, t5_region.sl.gather0_1 m d L fP t fgb hin2⟩]) := by
    rw [← k1_off10_pos L t]
    exact rows_b m d L hRg fP hP _ fgb _ (k1_off10 L t) (Gen.k1_off10_inb L t) rfl (fun _ => rfl) (by decide) hin2
  iapply (wp_call_bind (blend_for m d L sRb true 1 (2 * t.val + 1) k1_t7_loop Facts₀.k1_t7_ok k1_t7_trips _ _ X Y Z Wt g1 (t7_trip m d L t _ X Y Z Wt g1 hRb hC))) $$ [Hrb Hx Hy Hz Hw Hout]
  · isplitl [Hrb]; · iexact Hrb
    isplitl [Hx]; · iexact Hx
    isplitl [Hy]; · iexact Hy
    isplitl [Hz]; · iexact Hz
    isplitl [Hw]; · iexact Hw
    iexact Hout
  iintro %_ ⟨Hrb, Hx, Hy, Hz, Hw, %g2, %hg2, Hout⟩
  sl_step
  ihave Hpt := (pointsTo_share (PosShare.mem_left_op_right (rd (wL L)))).2 $$ [HptL HptR]
  · isplitl [HptL] <;> iassumption
  isplitl [Hmw]; · iexact Hmw
  isplitl [Hinf]; · iexact Hinf
  isplitl [Hpt]; · iexact Hpt
  isplitl [Hgv]; · iexists _; iexact Hgv
  isplitl [Hgb]; · iexists _; iexact Hgb
  isplitl [Hrv]; · iexists _; iexact Hrv
  isplitl [Hrb]; · iexists _; iexact Hrb
  isplitl [Hx]; · iexact Hx
  isplitl [Hy]; · iexact Hy
  isplitl [Hz]; · iexact Hz
  isplitl [Hw]; · iexact Hw
  isplitl [Hout]
  · iexists g2; isplitr
    · ipureintro
      have h1 := BlendInv_step m d L hg hg1
      have h2 := BlendInv_step m d L h1 hg2
      rw [show 2 * (t.val + 1) = 2 * t.val + 1 + 1 by omega]; exact h2
    · iexact Hout
  isplitl [Hs4]; · iexact Hs4
  isplitl [Hs5]; · iexact Hs5
  isplitl [Hs12]; · iexact Hs12
  isplitl [Hs13]; · iexact Hs13
  iexists _; isplitr
  rotate_left
  · iexact HO
  · ipureintro; intro p hp
    simp only [Finset.mem_insert] at hp
    rcases hp with hp | hp | hp | hp | hp
    · exact .inr (hp ▸ rfl)
    · exact .inr (hp ▸ rfl)
    · exact .inr (hp ▸ rfl)
    · exact .inr (hp ▸ rfl)
    · exact hW' p hp

theorem t5_wp (hRg : RangesOK m) (O : CellTallies nD τ sig (HIx 2)) (W : Waits sig (HIx 2))
    (fP : Buf (Elt F) ((aPtab).view.loc (thr1 d L)))
    (X : Buf (Elt F) ((sVx).view.loc (thr1 d L))) (Y : Buf (Elt F) ((sVy).view.loc (thr1 d L)))
    (Z : Buf (Elt F) ((sVz).view.loc (thr1 d L))) (Wt : Buf (Elt F) ((sWt).view.loc (thr1 d L))) (hP : PtabOK m d fP)
    (hC : CoordsOK m d L 1 X Y Z Wt) :
    inv5 m d L O W fP X Y Z Wt 0 ⟨⟩
      ⊢ wp frame (wpE (defs₀ (F := F)) 𝒱₀ (thr1 d L) none) Set.univ
          (Scf.Loop.for k1_t5_loop Facts₀.k1_t5_ok ⟨⟩ ((k1at% k1_t5_body L) bv2 k1_pay111 (bv5 L)))
          (inv5 m d L O W fP X Y Z Wt k1_t5_loop.trips) := by
  iintro HI
  sl_for (inv5 m d L O W fP X Y Z Wt) $$ [HI]
  case region => exact fun t _ => t5_region m d L hRg O W fP X Y Z Wt hP hC t
  isplitl [HI]
  · iexact HI
  iintro %_ HI
  iexact HI

def inv9 (O : CellTallies nD τ sig (HIx 2)) (W : Waits sig (HIx 2)) (fP : Buf (Elt F) ((aPtab).view.loc (thr1 d L)))
    (X : Buf (Elt F) ((sVx).view.loc (thr1 d L))) (Y : Buf (Elt F) ((sVy).view.loc (thr1 d L)))
    (Z : Buf (Elt F) ((sVz).view.loc (thr1 d L))) (Wt : Buf (Elt F) ((sWt).view.loc (thr1 d L))) (t : ℕ) (_ : PUnit.{1}) : sProp 𝕄 :=
  iprop(Transfers.MayWaits (thr1 d L) (none : HIx 2) O
    ∗ ((aInf).view.loc (thr1 d L) ↦{rd (wL L)} tInf m d) ∗ ((aPtab).view.loc (thr1 d L) ↦{rd (wL L)} fP)
    ∗ (∃ f, (sGv).view.loc (thr1 d L) ↦{fullShare} f) ∗ (∃ f, (sGb).view.loc (thr1 d L) ↦{fullShare} f)
    ∗ (∃ f, (sRv).view.loc (thr1 d L) ↦{fullShare} f) ∗ (∃ f, (sRb).view.loc (thr1 d L) ↦{fullShare} f)
    ∗ ((sVx).view.loc (thr1 d L) ↦{fullShare} X) ∗ ((sVy).view.loc (thr1 d L) ↦{fullShare} Y)
    ∗ ((sVz).view.loc (thr1 d L) ↦{fullShare} Z) ∗ ((sWt).view.loc (thr1 d L) ↦{fullShare} Wt)
    ∗ (∃ g, ⌜BlendInv m d L 2 (2 * t) g⌝ ∗ (sOut).view.loc (thr1 d L) ↦{fullShare} g)
    ∗ semVal (thr1 d L, SemLoc.dma cc1_scoped12.sem) 0 ∗ semVal (thr1 d L, SemLoc.dma cc1_scoped13.sem) 0
    ∗ semVal (thr1 d L, SemLoc.dma cc1_scratch12.sem) 0 ∗ semVal (thr1 d L, SemLoc.dma cc1_scratch13.sem) 0
    ∗ ∃ W', ⌜∀ p ∈ W', p ∈ W ∨ p.2 = none⌝ ∗ owes (thr1 d L) O W')

theorem k1_off14_pos (t : Fin k1_t9_loop.trips) : k1_off14 L t 0 = 2 * 53248 + (wL L).val * 1664 + 128 * (2 * t.val) := by
  have hw : (wL L).val = (L 1).val * 2 + (L 0).val := rfl
  rw [Gen.k1_off14_eq L t, hw]; simp only [Matrix.cons_val_zero]; omega
theorem k1_off15_pos (t : Fin k1_t9_loop.trips) : k1_off15 L t 0 = 2 * 53248 + (wL L).val * 1664 + 128 * (2 * t.val + 1) := by
  have hw : (wL L).val = (L 1).val * 2 + (L 0).val := rfl
  rw [Gen.k1_off15_eq L t, hw]; simp only [Matrix.cons_val_zero]; omega

set_option maxHeartbeats 4000000 in
theorem t9_region (hRg : RangesOK m) (O : CellTallies nD τ sig (HIx 2)) (W : Waits sig (HIx 2))
    (fP : Buf (Elt F) ((aPtab).view.loc (thr1 d L)))
    (X : Buf (Elt F) ((sVx).view.loc (thr1 d L))) (Y : Buf (Elt F) ((sVy).view.loc (thr1 d L)))
    (Z : Buf (Elt F) ((sVz).view.loc (thr1 d L))) (Wt : Buf (Elt F) ((sWt).view.loc (thr1 d L))) (hP : PtabOK m d fP)
    (hC : CoordsOK m d L 2 X Y Z Wt) (t : Fin k1_t9_loop.trips) :
    inv9 m d L O W fP X Y Z Wt t.val ⟨⟩
      ⊢ wp frame (wpE (defs₀ (F := F)) 𝒱₀ (thr1 d L) none) Set.univ ((k1at% k1_t9_body L) (bv1 L) bv2 k1_pay111 (bv5 L) t ⟨⟩)
          (inv9 m d L O W fP X Y Z Wt (t.val + 1)) := by
  unfold inv9 k1_t9_body
  iintro ⟨Hmw, Hinf, Hpt, ⟨%fgv, Hgv⟩, ⟨%fgb, Hgb⟩, ⟨%frv, Hrv⟩, ⟨%frb, Hrb⟩, Hx, Hy, Hz, Hw, ⟨%g, %hg, Hout⟩, Hs4, Hs5, Hs12, Hs13, %W', %hW', HO⟩
  ihave Hpt2 := (pointsTo_share (PosShare.mem_left_op_right (rd (wL L)))).1 $$ Hpt
  icases Hpt2 with ⟨HptL, HptR⟩
  sl_exec
  have hin1 := gv_inb m d L hRg fgv (t9_region.sl.dma0 m d L t) (k1_off14 L t) (Gen.k1_off14_inb L t) rfl
  sl_exec
  have hin2 := gb_inb m d L hRg fgb (t9_region.sl.dma0_1 m d L t) (k1_off15 L t) (Gen.k1_off15_inb L t) rfl
  sl_exec
  have hRv : RowsAt m d (infId m d) (2 * 53248 + (wL L).val * 1664 + 128 * (2 * t.val))
      (sRv.view.writes (Elt F) sRv.view.junk [⟨Rect.whole S128x128, t9_region.sl.gather0 m d L fP t fgv hin1⟩]) := by
    rw [← k1_off14_pos L t]
    exact rows_v m d L hRg fP hP _ fgv _ (k1_off14 L t) (Gen.k1_off14_inb L t) rfl (fun _ => rfl) (by decide) hin1
  iapply (wp_call_bind (blend_for m d L sRv true 2 (2 * t.val) k1_t10_loop Facts₀.k1_t10_ok k1_t10_trips _ _ X Y Z Wt g (t10_trip m d L t _ X Y Z Wt g hRv hC))) $$ [Hrv Hx Hy Hz Hw Hout]
  · isplitl [Hrv]; · iexact Hrv
    isplitl [Hx]; · iexact Hx
    isplitl [Hy]; · iexact Hy
    isplitl [Hz]; · iexact Hz
    isplitl [Hw]; · iexact Hw
    iexact Hout
  iintro %_ ⟨Hrv, Hx, Hy, Hz, Hw, %g1, %hg1, Hout⟩
  sl_exec
  have hRb : RowsAt m d (infId m d) (2 * 53248 + (wL L).val * 1664 + 128 * (2 * t.val + 1))
      (sRb.view.writes (Elt F) sRb.view.junk [⟨Rect.whole S128x128, t9_region.sl.gather0_1 m d L fP t fgb hin2⟩]) := by
    rw [← k1_off15_pos L t]
    exact rows_b m d L hRg fP hP _ fgb _ (k1_off15 L t) (Gen.k1_off15_inb L t) rfl (fun _ => rfl) (by decide) hin2
  iapply (wp_call_bind (blend_for m d L sRb true 2 (2 * t.val + 1) k1_t11_loop Facts₀.k1_t11_ok k1_t11_trips _ _ X Y Z Wt g1 (t11_trip m d L t _ X Y Z Wt g1 hRb hC))) $$ [Hrb Hx Hy Hz Hw Hout]
  · isplitl [Hrb]; · iexact Hrb
    isplitl [Hx]; · iexact Hx
    isplitl [Hy]; · iexact Hy
    isplitl [Hz]; · iexact Hz
    isplitl [Hw]; · iexact Hw
    iexact Hout
  iintro %_ ⟨Hrb, Hx, Hy, Hz, Hw, %g2, %hg2, Hout⟩
  sl_step
  ihave Hpt := (pointsTo_share (PosShare.mem_left_op_right (rd (wL L)))).2 $$ [HptL HptR]
  · isplitl [HptL] <;> iassumption
  isplitl [Hmw]; · iexact Hmw
  isplitl [Hinf]; · iexact Hinf
  isplitl [Hpt]; · iexact Hpt
  isplitl [Hgv]; · iexists _; iexact Hgv
  isplitl [Hgb]; · iexists _; iexact Hgb
  isplitl [Hrv]; · iexists _; iexact Hrv
  isplitl [Hrb]; · iexists _; iexact Hrb
  isplitl [Hx]; · iexact Hx
  isplitl [Hy]; · iexact Hy
  isplitl [Hz]; · iexact Hz
  isplitl [Hw]; · iexact Hw
  isplitl [Hout]
  · iexists g2; isplitr
    · ipureintro
      have h1 := BlendInv_step m d L hg hg1
      have h2 := BlendInv_step m d L h1 hg2
      rw [show 2 * (t.val + 1) = 2 * t.val + 1 + 1 by omega]; exact h2
    · iexact Hout
  isplitl [Hs4]; · iexact Hs4
  isplitl [Hs5]; · iexact Hs5
  isplitl [Hs12]; · iexact Hs12
  isplitl [Hs13]; · iexact Hs13
  iexists _; isplitr
  rotate_left
  · iexact HO
  · ipureintro; intro p hp
    simp only [Finset.mem_insert] at hp
    rcases hp with hp | hp | hp | hp | hp
    · exact .inr (hp ▸ rfl)
    · exact .inr (hp ▸ rfl)
    · exact .inr (hp ▸ rfl)
    · exact .inr (hp ▸ rfl)
    · exact hW' p hp

theorem t9_wp (hRg : RangesOK m) (O : CellTallies nD τ sig (HIx 2)) (W : Waits sig (HIx 2))
    (fP : Buf (Elt F) ((aPtab).view.loc (thr1 d L)))
    (X : Buf (Elt F) ((sVx).view.loc (thr1 d L))) (Y : Buf (Elt F) ((sVy).view.loc (thr1 d L)))
    (Z : Buf (Elt F) ((sVz).view.loc (thr1 d L))) (Wt : Buf (Elt F) ((sWt).view.loc (thr1 d L))) (hP : PtabOK m d fP)
    (hC : CoordsOK m d L 2 X Y Z Wt) :
    inv9 m d L O W fP X Y Z Wt 0 ⟨⟩
      ⊢ wp frame (wpE (defs₀ (F := F)) 𝒱₀ (thr1 d L) none) Set.univ
          (Scf.Loop.for k1_t9_loop Facts₀.k1_t9_ok ⟨⟩ ((k1at% k1_t9_body L) (bv1 L) bv2 k1_pay111 (bv5 L)))
          (inv9 m d L O W fP X Y Z Wt k1_t9_loop.trips) := by
  iintro HI
  sl_for (inv9 m d L O W fP X Y Z Wt) $$ [HI]
  case region => exact fun t _ => t9_region m d L hRg O W fP X Y Z Wt hP hC t
  isplitl [HI]
  · iexact HI
  iintro %_ HI
  iexact HI

end Tile
end Cert.KB
end
-- ==== Proof.Body1ResBits.lean ====
import proofs.«205348_g71287867179597_cont_9to1c4b_113_38_alg».proof.Proof.Body1IfcBits

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F] [Facts]
open Facts₀ Facts

local notation "𝕄" => MT nD τ sig (HIx 2) (Elt F) ℕ UU ℕ

section ListSplit

variable {M : Type} [URA M] {I : Type} [DecidableEq I]

theorem bigSep_split_list (Φ : I → sProp M) : ∀ (l : List I) (s : Finset I), l.Nodup → (∀ i ∈ l, i ∈ s) →
    bigSep s Φ = l.foldr (fun i R => iprop(Φ i ∗ R)) (bigSep (s \ l.toFinset) Φ)
  | [], s, _, _ => by rw [List.toFinset_nil, Finset.sdiff_empty, List.foldr_nil]
  | a :: l, s, hnd, hs => by
    have hnd' := List.nodup_cons.1 hnd
    rw [SparseCore.bigSep_erase' (hs a List.mem_cons_self),
      bigSep_split_list Φ l (s.erase a) hnd'.2 fun i hi =>
        Finset.mem_erase.2 ⟨fun e => hnd'.1 (e ▸ hi), hs i (List.mem_cons_of_mem _ hi)⟩,
      List.toFinset_cons, List.foldr_cons, Finset.sdiff_insert, Finset.erase_sdiff_comm]

end ListSplit

theorem scratchRefs_nodup :
    ([cc1_scratch0, cc1_scratch1, cc1_scratch2, cc1_scratch3, cc1_scratch4, cc1_scratch5, cc1_scratch6, cc1_scratch7,
      cc1_scratch8, cc1_scratch9, cc1_scratch10, cc1_scratch11] : List (Ref sig .scVector)).Nodup := by decide

def usedDmaSems : List (DmaSem sig) :=
  [cc1_scratch12.sem, cc1_scratch13.sem, cc1_scoped0.sem, cc1_scoped1.sem, cc1_scoped2.sem, cc1_scoped3.sem, cc1_scoped4.sem,
    cc1_scoped5.sem, cc1_scoped6.sem, cc1_scoped7.sem, cc1_scoped8.sem, cc1_scoped9.sem, cc1_scoped10.sem, cc1_scoped11.sem,
    cc1_scoped12.sem, cc1_scoped13.sem, cc1_scoped14.sem, cc1_scoped15.sem, cc1_scoped16.sem, cc1_scoped17.sem,
    cc1_scoped18.sem, cc1_scoped19.sem, cc1_scoped20.sem]

theorem usedDmaSems_nodup : (usedDmaSems : List (DmaSem sig)).Nodup := by
  have h : (usedDmaSems : List (DmaSem sig)).map Fin.val
      = [7, 8, 9, 10, 11, 12, 13, 14, 15, 16, 17, 18, 19, 20, 21, 22, 23, 24, 25, 26, 27, 28, 29] := rfl
  exact List.Nodup.of_map Fin.val (h ▸ by decide)

section Tile

variable (d : Dev nD) (L : grid1.Coords)

def usedBufs (L : grid1.Coords) : List (DevRef τ sig) :=
  ([cc1_scratch0, cc1_scratch1, cc1_scratch2, cc1_scratch3, cc1_scratch4, cc1_scratch5, cc1_scratch6, cc1_scratch7,
    cc1_scratch8, cc1_scratch9, cc1_scratch10, cc1_scratch11] : List (Ref sig .scVector)).map
    (Proc.scVector (cV1 L) (jV1 L)).devRef

def restBufs : sProp 𝕄 :=
  bigSep (ownRefs (τ := τ) (.scVector (cV1 L) (jV1 L)) \ (usedBufs L).toFinset)
    fun b => iprop(∃ f, ((d, b) : Loc nD τ sig) ↦{fullShare} f)

theorem usedBufs_nodup : (usedBufs L).Nodup :=
  List.Nodup.map (Proc.devRef_injective _) scratchRefs_nodup

theorem usedBufs_own : ∀ b ∈ usedBufs L, b ∈ ownRefs (τ := τ) (.scVector (cV1 L) (jV1 L)) := by
  intro b hb
  simp only [usedBufs, List.map_cons, List.map_nil, List.mem_cons, List.not_mem_nil, or_false] at hb
  rcases hb with rfl | rfl | rfl | rfl | rfl | rfl | rfl | rfl | rfl | rfl | rfl | rfl <;>
    exact SparseCore.Cfg.mem_ownRefs_of_owner rfl

theorem ownBufs_V1 : (ownBufs (thr1 d L) : sProp 𝕄)
    = iprop((∃ f, (sGv).view.loc (thr1 d L) ↦{fullShare} f) ∗ (∃ f, (sGb).view.loc (thr1 d L) ↦{fullShare} f) ∗ (∃ f, (sVx).view.loc (thr1 d L) ↦{fullShare} f) ∗ (∃ f, (sVy).view.loc (thr1 d L) ↦{fullShare} f) ∗ (∃ f, (sVz).view.loc (thr1 d L) ↦{fullShare} f) ∗ (∃ f, (sWt).view.loc (thr1 d L) ↦{fullShare} f) ∗ (∃ f, (sRv).view.loc (thr1 d L) ↦{fullShare} f) ∗ (∃ f, (sRb).view.loc (thr1 d L) ↦{fullShare} f) ∗ (∃ f, (sRc).view.loc (thr1 d L) ↦{fullShare} f) ∗ (∃ f, (sOut).view.loc (thr1 d L) ↦{fullShare} f) ∗ (∃ f, (sStg).view.loc (thr1 d L) ↦{fullShare} f) ∗ (∃ f, (sAcc).view.loc (thr1 d L) ↦{fullShare} f) ∗ restBufs d L) := by
  have h := bigSep_split_list (M := 𝕄) (fun b => iprop(∃ f, ((d, b) : Loc nD τ sig) ↦{fullShare} f)) (usedBufs L) _
    (usedBufs_nodup L) (usedBufs_own L)
  change _ = (usedBufs L).foldr _ (restBufs d L) at h
  refine h.trans ?_
  simp only [usedBufs, List.map_cons, List.map_nil, List.foldr_cons, List.foldr_nil]

def usedSems : List (GSem nD τ sig) := (usedDmaSems.map SemLoc.dma).map fun sm => (thr1 d L, sm)

def restSems : sProp 𝕄 := bigSep (ownCells (thr1 d L) \ (usedSems d L).toFinset) fun g => semVal g 0

theorem usedSems_nodup : (usedSems d L).Nodup :=
  ((usedDmaSems_nodup.map fun _ _ e => SemLoc.dma.inj e).map fun _ _ e => (Prod.mk.inj e).2)

theorem usedSems_own : ∀ g ∈ usedSems d L, g ∈ ownCells (thr1 d L) := by
  intro g hg
  obtain ⟨sm, hsm, rfl⟩ := List.mem_map.1 hg
  obtain ⟨s, -, rfl⟩ := List.mem_map.1 hsm
  exact mem_ownCells.2 ⟨rfl, show sig.isScopedDmaSem .scVector s = true from sig.sc_scopedDmaSem .scVector s (by decide)⟩

theorem ownSems0_V1 : (ownSems0 (thr1 d L) : sProp 𝕄)
    = iprop(semVal (thr1 d L, SemLoc.dma cc1_scratch12.sem) 0 ∗ semVal (thr1 d L, SemLoc.dma cc1_scratch13.sem) 0 ∗ semVal (thr1 d L, SemLoc.dma cc1_scoped0.sem) 0 ∗ semVal (thr1 d L, SemLoc.dma cc1_scoped1.sem) 0 ∗ semVal (thr1 d L, SemLoc.dma cc1_scoped2.sem) 0 ∗ semVal (thr1 d L, SemLoc.dma cc1_scoped3.sem) 0 ∗ semVal (thr1 d L, SemLoc.dma cc1_scoped4.sem) 0 ∗ semVal (thr1 d L, SemLoc.dma cc1_scoped5.sem) 0 ∗ semVal (thr1 d L, SemLoc.dma cc1_scoped6.sem) 0 ∗ semVal (thr1 d L, SemLoc.dma cc1_scoped7.sem) 0 ∗ semVal (thr1 d L, SemLoc.dma cc1_scoped8.sem) 0 ∗ semVal (thr1 d L, SemLoc.dma cc1_scoped9.sem) 0 ∗ semVal (thr1 d L, SemLoc.dma cc1_scoped10.sem) 0 ∗ semVal (thr1 d L, SemLoc.dma cc1_scoped11.sem) 0 ∗ semVal (thr1 d L, SemLoc.dma cc1_scoped12.sem) 0 ∗ semVal (thr1 d L, SemLoc.dma cc1_scoped13.sem) 0 ∗ semVal (thr1 d L, SemLoc.dma cc1_scoped14.sem) 0 ∗ semVal (thr1 d L, SemLoc.dma cc1_scoped15.sem) 0 ∗ semVal (thr1 d L, SemLoc.dma cc1_scoped16.sem) 0 ∗ semVal (thr1 d L, SemLoc.dma cc1_scoped17.sem) 0 ∗ semVal (thr1 d L, SemLoc.dma cc1_scoped18.sem) 0 ∗ semVal (thr1 d L, SemLoc.dma cc1_scoped19.sem) 0 ∗ semVal (thr1 d L, SemLoc.dma cc1_scoped20.sem) 0 ∗ restSems d L) := by
  have h := bigSep_split_list (M := 𝕄) (fun g : GSem nD τ sig => semVal g 0) (usedSems d L) _
    (usedSems_nodup d L) (usedSems_own d L)
  change _ = (usedSems d L).foldr _ (restSems d L) at h
  refine h.trans ?_
  simp only [usedSems, usedDmaSems, List.map_cons, List.map_nil, List.foldr_cons, List.foldr_nil]

theorem pts_aPtab (q : PosShare TreeShare) (f : Buf (Elt F) ((aPtab).view.loc (thr1 d L))) :
    ((aPtab).view.loc (thr1 d L) ↦{q} f : sProp 𝕄) = (locOf d main_v23 ↦{q} f) := rfl
theorem pts_aVt (q : PosShare TreeShare) (f : Buf (Elt F) ((aVt).view.loc (thr1 d L))) :
    ((aVt).view.loc (thr1 d L) ↦{q} f : sProp 𝕄) = (locOf d main_v10 ↦{q} f) := rfl
theorem pts_aInf (q : PosShare TreeShare) (f : Buf (Elt F) ((aInf).view.loc (thr1 d L))) :
    ((aInf).view.loc (thr1 d L) ↦{q} f : sProp 𝕄) = (locOf d main_v13 ↦{q} f) := rfl
theorem pts_aWt (q : PosShare TreeShare) (f : Buf (Elt F) ((aWt).view.loc (thr1 d L))) :
    ((aWt).view.loc (thr1 d L) ↦{q} f : sProp 𝕄) = (locOf d main_v16 ↦{q} f) := rfl
theorem pts_aOrn (q : PosShare TreeShare) (f : Buf (Elt F) ((aOrn).view.loc (thr1 d L))) :
    ((aOrn).view.loc (thr1 d L) ↦{q} f : sProp 𝕄) = (locOf d main_v18 ↦{q} f) := rfl
theorem pts_aMrep (q : PosShare TreeShare) (f : Buf (Elt F) ((aMrep).view.loc (thr1 d L))) :
    ((aMrep).view.loc (thr1 d L) ↦{q} f : sProp 𝕄) = (locOf d main_v22 ↦{q} f) := rfl

end Tile

end Cert.KB

end
-- ==== Proof.Body1CoordBits.lean ====
import proofs.«205348_g71287867179597_cont_9to1c4b_113_38_alg».proof.Proof.Body1ValBits
import proofs.«205348_g71287867179597_cont_9to1c4b_113_38_alg».proof.Proof.Body1OutBits

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F] [Facts]
open Facts₀ Facts

variable (m : (ℓ : Loc nD τ sig) → Buf (Elt F) ℓ)

local notation "𝕄" => MT nD τ sig (HIx 2) (Elt F) ℕ UU ℕ

theorem vt_slice_read (d : Dev nD) (o : Fin S159744.rank → ℕ) (hb : ∀ a, o a + S1664.size a ≤ S159744.size a) (j : Fin 1664) :
    ((aVt).slice (Rect.unit (s := S159744) o S1664.size hb) (fun _ => rfl)).view.read (Elt F) (tVt m d) (ValueIdx.ix1 j)
      = at1 (tVt m d) (k := o 0 + j.val) := by
  have hle : o 0 + 1664 ≤ 159744 := hb 0
  have hk : o 0 + j.val < 159744 := by have := j.isLt; omega
  have hemb : (Rect.unit (s := S159744) o S1664.size hb).emb (ValueIdx.ix1 j) = ValueIdx.ix1 ⟨o 0 + j.val, hk⟩ := by
    funext a
    obtain rfl : a = 0 := Subsingleton.elim _ _
    exact Fin.ext (by show o 0 + 1 * j.val = o 0 + j.val; omega)
  rw [at1_of_lt _ _ _ hk]
  show (tVt m d) ((Rect.unit (s := S159744) o S1664.size hb).emb (ValueIdx.ix1 j)) = _
  rw [hemb]

theorem wt_slice_read (d : Dev nD) (o : Fin S159744.rank → ℕ) (hb : ∀ a, o a + S1664.size a ≤ S159744.size a) (j : Fin 1664) :
    ((aWt).slice (Rect.unit (s := S159744) o S1664.size hb) (fun _ => rfl)).view.read (Elt F) (tWt m d) (ValueIdx.ix1 j)
      = at1 (tWt m d) (k := o 0 + j.val) := by
  have hle : o 0 + 1664 ≤ 159744 := hb 0
  have hk : o 0 + j.val < 159744 := by have := j.isLt; omega
  have hemb : (Rect.unit (s := S159744) o S1664.size hb).emb (ValueIdx.ix1 j) = ValueIdx.ix1 ⟨o 0 + j.val, hk⟩ := by
    funext a
    obtain rfl : a = 0 := Subsingleton.elim _ _
    exact Fin.ext (by show o 0 + 1 * j.val = o 0 + j.val; omega)
  rw [at1_of_lt _ _ _ hk]
  show (tWt m d) ((Rect.unit (s := S159744) o S1664.size hb).emb (ValueIdx.ix1 j)) = _
  rw [hemb]

section Tile

variable (d : Dev nD) (L : grid1.Coords)

omit [FloatOps F] in
theorem off1_val : k1_off1 L 0 = (wL L).val * 1664 := by
  have hw := wL_val L
  refine (congrFun (Gen.k1_off1_eq L) 0).trans ?_
  show 3328 * (L 1).val + 1664 * (L 0).val = (wL L).val * 1664
  omega

omit [FloatOps F] in
theorem off2_val (k : Fin 3) : k1_off2 L (BitVec.ofNat 32 (53248 * k.val)) 0 = k.val * 53248 + (wL L).val * 1664 := by
  have hw := wL_val L
  refine (congrFun (Gen.k1_off2_eq L k) 0).trans ?_
  show 53248 * k.val + 3328 * (L 1).val + 1664 * (L 0).val = k.val * 53248 + (wL L).val * 1664
  omega

theorem sliceAt_wt (k : Fin 3) (f5 : Buf (Elt F) ((sWt).view.loc (thr1 d L))) (pW : S1664.Idx → Elt F .f32)
    (hW : pW = ((aWt).slice (Rect.unit (s := S159744) (k1_off2 L (BitVec.ofNat 32 (53248 * k.val))) S1664.size (Gen.k1_off2_inb L k)) (fun _ => rfl)).view.read (Elt F) (tWt m d)) :
    SliceAt (fun q => at1 (tWt m d) (k := q)) (k.val * 53248 + (wL L).val * 1664) (View.write (Elt F) (sWt).view f5 pW Finset.univ) := by
  subst hW
  rw [View.write_whole_univ]
  intro j
  rw [wt_slice_read, off2_val]

theorem coordsOK_of (k : Fin 3) (f2 : Buf (Elt F) ((sVx).view.loc (thr1 d L))) (f3 : Buf (Elt F) ((sVy).view.loc (thr1 d L)))
    (f4 : Buf (Elt F) ((sVz).view.loc (thr1 d L))) (f5 : Buf (Elt F) ((sWt).view.loc (thr1 d L)))
    (pX pY pZ pW : S1664.Idx → Elt F .f32)
    (hX : pX = ((aVt).slice (Rect.unit (s := S159744) (k1_off1 L) S1664.size (Gen.k1_off1_inb L)) (fun _ => rfl)).view.read (Elt F) (tVt m d))
    (hY : pY = ((aVt).slice (Rect.unit (s := S159744) (k1_off2 L (BitVec.ofNat 32 (53248 * 1))) S1664.size (Gen.k1_off2_inb L 1)) (fun _ => rfl)).view.read (Elt F) (tVt m d))
    (hZ : pZ = ((aVt).slice (Rect.unit (s := S159744) (k1_off2 L (BitVec.ofNat 32 (53248 * 2))) S1664.size (Gen.k1_off2_inb L 2)) (fun _ => rfl)).view.read (Elt F) (tVt m d))
    (hW : pW = ((aWt).slice (Rect.unit (s := S159744) (k1_off2 L (BitVec.ofNat 32 (53248 * k.val))) S1664.size (Gen.k1_off2_inb L k)) (fun _ => rfl)).view.read (Elt F) (tWt m d)) :
    CoordsOK m d L k.val (View.write (Elt F) (sVx).view f2 pX Finset.univ) (View.write (Elt F) (sVy).view f3 pY Finset.univ)
      (View.write (Elt F) (sVz).view f4 pZ Finset.univ) (View.write (Elt F) (sWt).view f5 pW Finset.univ) := by
  subst hX hY hZ
  refine ⟨?_, ?_, ?_, sliceAt_wt m d L k f5 pW hW⟩
  · rw [View.write_whole_univ]
    intro j
    rw [vt_slice_read, off1_val]
  · rw [View.write_whole_univ]
    intro j
    rw [vt_slice_read]
    have e := off2_val L 1
    show at1 (tVt m d) (k := k1_off2 L (BitVec.ofNat 32 (53248 * (1 : Fin 3).val)) 0 + j.val) = _
    rw [e]
    rfl
  · rw [View.write_whole_univ]
    intro j
    rw [vt_slice_read]
    have e := off2_val L 2
    show at1 (tVt m d) (k := k1_off2 L (BitVec.ofNat 32 (53248 * (2 : Fin 3).val)) 0 + j.val) = _
    rw [e]
    rfl

theorem coordsOK_next (k : Fin 3) {k₀ : ℕ} {X Y Z W₀ : S1664.Idx → Elt F .f32} (h : CoordsOK m d L k₀ X Y Z W₀)
    (f5 : Buf (Elt F) ((sWt).view.loc (thr1 d L))) (pW : S1664.Idx → Elt F .f32)
    (hW : pW = ((aWt).slice (Rect.unit (s := S159744) (k1_off2 L (BitVec.ofNat 32 (53248 * k.val))) S1664.size (Gen.k1_off2_inb L k)) (fun _ => rfl)).view.read (Elt F) (tWt m d)) :
    CoordsOK m d L k.val X Y Z (View.write (Elt F) (sWt).view f5 pW Finset.univ) :=
  ⟨h.1, h.2.1, h.2.2.1, sliceAt_wt m d L k f5 pW hW⟩

end Tile

end Cert.KB

end
-- ==== Proof.Body1EdgesBits.lean ====
import proofs.«205348_g71287867179597_cont_9to1c4b_113_38_alg».proof.Proof.Body1IfcBits

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Tactic

variable {F : FTy → Type} [FloatOps F] [Facts]
open Facts₀ Facts

variable (m : (ℓ : Loc nD τ sig) → Buf (Elt F) ℓ)

local notation "𝕄" => MT nD τ sig (HIx 2) (Elt F) ℕ UU ℕ

local macro:max "k1at% " f:term:max L:term:max : term =>
  `($f $L aPtab (Memref.isWhole_whole _) aVt (Memref.isWhole_whole _) aInf (Memref.isWhole_whole _) aWt (Memref.isWhole_whole _)
      aOrn (Memref.isWhole_whole _) aMrep (Memref.isWhole_whole _) aOut0 (Memref.isWhole_whole _) aOut1 (Memref.isWhole_whole _)
      sGv (Memref.isWhole_whole _) sGb (Memref.isWhole_whole _) sVx (Memref.isWhole_whole _) sVy (Memref.isWhole_whole _)
      sVz (Memref.isWhole_whole _) sWt (Memref.isWhole_whole _) sRv (Memref.isWhole_whole _) sRb (Memref.isWhole_whole _)
      sRc (Memref.isWhole_whole _) sOut (Memref.isWhole_whole _) sStg (Memref.isWhole_whole _) sAcc (Memref.isWhole_whole _)
      cc1_scratch12 cc1_scratch13 cc1_scoped0 cc1_scoped1 cc1_scoped2 cc1_scoped3 cc1_scoped4 cc1_scoped5 cc1_scoped6 cc1_scoped7
      cc1_scoped8 cc1_scoped9 cc1_scoped10 cc1_scoped11 cc1_scoped12 cc1_scoped13 cc1_scoped14 cc1_scoped15 cc1_scoped16
      cc1_scoped17 cc1_scoped18 cc1_scoped19 cc1_scoped20)

section Tile

variable (d : Dev nD) (L : grid1.Coords)

def ePos (w : Fin 32) (si : ℕ) : ℕ := w.val * 7168 + 1024 * si
def eRow (w : Fin 32) (si : ℕ) : ℕ := min (ePos w si / 9 / 8 * 8) 24992

omit [Facts] in
theorem off20_eq' (L : grid1.Coords) (k : Fin k1_t13_loop.trips) : k1_off20 L k = ![ePos (wL L) k.val] := by
  revert L k; decide +kernel
omit [Facts] in
theorem off21_eq' (L : grid1.Coords) (k : Fin k1_t13_loop.trips) : k1_off21 L k = ![eRow (wL L) k.val, 0] := by
  revert L k; decide +kernel
omit [Facts] in
theorem mult1_toNat (L : grid1.Coords) (k : Fin k1_t13_loop.trips) : (k1_mult1 L k).toNat = eRow (wL L) k.val := by
  revert L k; decide +kernel
omit [Facts] in
theorem off22_eq' (L : grid1.Coords) (k : Fin k1_t13_loop.trips) (j : Fin k1_t14_loop.trips) : k1_off22 L k j = ![ePos (wL L) k.val + 256 * j.val] := by
  rw [k1_off22_eq]; revert L k j; decide +kernel
omit [Facts] in
theorem off23_eq' (L : grid1.Coords) (k : Fin k1_t13_loop.trips) (j : Fin k1_t14_loop.trips) : k1_off23 L k j = ![ePos (wL L) k.val + 256 * j.val + 128] := by
  rw [k1_off23_eq]; revert L k j; decide +kernel

theorem src_in_window (w : Fin 32) (si q : ℕ) (hsi : si < 7) (hq : q < 1024) :
    eRow w si ≤ min ((ePos w si + q) / 9) 24999 ∧ min ((ePos w si + q) / 9) 24999 < eRow w si + 128 := by
  unfold eRow ePos; omega

def StgOK (w : Fin 32) (k : ℕ) (X : S1024.Idx → Elt F .i32) : Prop :=
  ∀ q : Fin 1024, (X (ValueIdx.ix1 q) : BitVec 32).toNat = srcId m d (ePos w k + q.val)

omit [FloatOps F] [Facts] in
theorem chk2 (a : IVec S16 32) (c : BitVec 32) (ha : ∀ x, (a x).toNat < 128) (hc : c.toNat < 128) :
    ∀ a' x, ((![a, broadcast S16 c] : Fin 2 → IVec S16 32) a' x).toNat < S128x128.size a' := by
  intro a' x
  match a' with
  | ⟨0, _⟩ => exact ha x
  | ⟨1, _⟩ => exact hc

theorem loadIdx_at (R : S128x128.Idx → Elt F .f32) (a : IVec S16 32) (c : BitVec 32)
    (h : ∀ a' x, ((![a, broadcast S16 c] : Fin 2 → IVec S16 32) a' x).toNat < S128x128.size a') (x : S16.Idx) :
    loadIdx R ![a, broadcast S16 c] h x = R (ValueIdx.ix2 ⟨(a x).toNat, h 0 x⟩ ⟨c.toNat, h 1 x⟩) := by
  unfold loadIdx idxAt
  congr 1
  funext a'
  match a' with
  | ⟨0, _⟩ => rfl
  | ⟨1, _⟩ => rfl

theorem load_rows (ids : ℕ → ℕ) (p : ℕ) (R : S128x128.Idx → Elt F .f32) (hR : RowsAt m d ids p R) (a : IVec S16 32) (c : BitVec 32)
    (h : ∀ a' x, ((![a, broadcast S16 c] : Fin 2 → IVec S16 32) a' x).toNat < S128x128.size a') (hc : c.toNat < 15)
    (ids' : ℕ → ℕ) (p' : ℕ) (ha : ∀ x : S16.Idx, ids (p + (a x).toNat) = ids' (p' + (x 0).val)) :
    loadIdx R ![a, broadcast S16 c] h = rowVec m d ids' p' c.toNat := by
  funext x
  rw [loadIdx_at, hR _ _ hc]
  show nodeWord m d (ids (p + (a x).toNat)) c.toNat = nodeWord m d (ids' (p' + (x 0).val)) c.toNat
  rw [ha x]

omit [FloatOps F] in
theorem pay97_toNat (g : Fin k1_t15_loop.trips) (x : S16.Idx) : (k1_pay97 bv2 0#32 1#32 g x).toNat = 16 * g.val + (x 0).val := by
  have h : ∀ (g : Fin k1_t15_loop.trips) (x : S16.Idx),
      (k1_pay97 (iota .scVector S16 32 [0] (by decide)) 0#32 1#32 g x).toNat = 16 * g.val + (x 0).val := by decide +kernel
  exact h g x
omit [FloatOps F] in
theorem pay104_toNat (g : Fin k1_t16_loop.trips) (x : S16.Idx) : (k1_pay104 bv2 0#32 1#32 g x).toNat = 16 * g.val + (x 0).val := by
  have h : ∀ (g : Fin k1_t16_loop.trips) (x : S16.Idx),
      (k1_pay104 (iota .scVector S16 32 [0] (by decide)) 0#32 1#32 g x).toNat = 16 * g.val + (x 0).val := by decide +kernel
  exact h g x

theorem src_lane (hRg : RangesOK m) (k : Fin k1_t13_loop.trips) (v77 : BitVec 32) (hv77 : v77.toNat = eRow (wL L) k.val)
    (Fst : Buf (Elt F) ((sStg).view.loc (thr1 d L))) (hst : StgOK m d (wL L) k.val Fst)
    (off : Fin 1 → ℕ) (inb : ∀ a, off a + S16.size a ≤ S1024.size a) (x : S16.Idx) :
    ((subi (sStg.view.readAt (Elt F) (Rect.unit (s := S1024) off S16.size inb).toLoadRect Fst) (broadcast S16 v77) : IVec S16 32) x).toNat < 128
    ∧ eRow (wL L) k.val + ((subi (sStg.view.readAt (Elt F) (Rect.unit (s := S1024) off S16.size inb).toLoadRect Fst) (broadcast S16 v77) : IVec S16 32) x).toNat
        = srcId m d (ePos (wL L) k.val + (off 0 + (x 0).val)) := by
  have hx : (x 0).val < 16 := (x 0).isLt
  have hi : off 0 + 16 ≤ 1024 := inb 0
  have hk : k.val < 7 := Nat.lt_of_lt_of_le k.isLt (by decide)
  have hw : (wL L).val < 32 := (wL L).isLt
  have hread : ((sStg.view.readAt (Elt F) (Rect.unit (s := S1024) off S16.size inb).toLoadRect Fst x : Elt F .i32) : BitVec 32).toNat
      = srcId m d (ePos (wL L) k.val + (off 0 + (x 0).val)) := by
    have hidx : (Rect.unit (s := S1024) off S16.size inb).toLoadRect.idx x = ValueIdx.ix1 ⟨off 0 + (x 0).val, by omega⟩ := by
      funext a'; apply Fin.ext; rw [Subsingleton.elim a' 0]
      show off 0 + 1 * (x 0).val = off 0 + (x 0).val; omega
    show ((Fst ((Rect.unit (s := S1024) off S16.size inb).toLoadRect.idx x) : Elt F .i32) : BitVec 32).toNat = _
    rw [hidx]; exact hst ⟨off 0 + (x 0).val, by omega⟩
  have hs := (hRg d).2.2.2 (ePos (wL L) k.val + (off 0 + (x 0).val)) (by unfold ePos; omega)
  have hwin := src_in_window (wL L) k.val (off 0 + (x 0).val) hk (by omega)
  rw [← hs] at hwin
  have hle : (broadcast S16 v77 x : BitVec 32) ≤ (sStg.view.readAt (Elt F) (Rect.unit (s := S1024) off S16.size inb).toLoadRect Fst x : BitVec 32) := by
    rw [BitVec.le_def]; show v77.toNat ≤ _; rw [hread, hv77]; exact hwin.1
  have hsub : ((subi (sStg.view.readAt (Elt F) (Rect.unit (s := S1024) off S16.size inb).toLoadRect Fst) (broadcast S16 v77) : IVec S16 32) x).toNat
      = (sStg.view.readAt (Elt F) (Rect.unit (s := S1024) off S16.size inb).toLoadRect Fst x : BitVec 32).toNat - v77.toNat :=
    BitVec.toNat_sub_of_le hle
  rw [hsub, hread, hv77]; omega

theorem wp_assume_ret {α : Type} {Q : α → sProp 𝕄} (thr : Thread nD τ) {P : Prop} {dc : Decidable P}
    {kk : PLift P → Prog (TpuEff nD τ sig (Elt F) Λ₀ thr.2) α} (h : P) :
    wp (M := 𝕄) frame (wpE (defs₀ (F := F)) 𝒱₀ thr none) Set.univ (kk ⟨h⟩) Q
      ⊢ wp frame (wpE (defs₀ (F := F)) 𝒱₀ thr none) Set.univ (Prog.op (TpuEff.assume P dc) fun x => (Prog.ret x).bind kk) Q :=
  wp_assume 𝒱₀ thr none Set.univ h

theorem wp_rows_c {α : Type} {Q : α → sProp 𝕄} (ids : ℕ → ℕ) (p : ℕ) (R : Buf (Elt F) ((sRc).view.loc (thr1 d L))) (hR : RowsAt m d ids p R)
    (ids' : ℕ → ℕ) (p' : ℕ) (a : IVec S16 32) (ha : ∀ x : S16.Idx, ids (p + (a x).toNat) = ids' (p' + (x 0).val))
    (c : BitVec 32) (hc : c.toNat < 15)
    (h : ∀ a' x, ((![a, broadcast S16 c] : Fin 2 → IVec S16 32) a' x).toNat < S128x128.size a') (hl : (sRc).view.Loads)
    (K : Vec F S16 .f32 → Prog (TpuEff nD τ sig (Elt F) Λ₀ (thr1 d L).2) α) :
    (((sRc).access (.whole S128x128)).loc (thr1 d L) ↦{fullShare} R)
      ⊢ iprop(((((sRc).access (.whole S128x128)).loc (thr1 d L) ↦{fullShare} R)
            -∗ wp frame (wpE (defs₀ (F := F)) 𝒱₀ (thr1 d L) none) Set.univ (K (rowVec m d ids' p' c.toNat)) Q)
          -∗ wp frame (wpE (defs₀ (F := F)) 𝒱₀ (thr1 d L) none) Set.univ (SparseCore.vectorLoadIdx sRc ![a, broadcast S16 c] h hl >>= K) Q) := by
  have e : loadIdx (((sRc).access (.whole S128x128)).read (Elt F) R) ![a, broadcast S16 c] h = rowVec m d ids' p' c.toNat := by
    have hr : ((sRc).access (.whole S128x128)).read (Elt F) R = R := Memref.read_access_whole (Elt F) cc1_scratch8 R
    rw [hr]; exact load_rows m d ids p R hR a c h hc ids' p' ha
  rw [← e]
  exact SparseCore.wp_vectorLoadIdx 𝒱₀ (thr1 d L) none Set.univ (base := sRc) (S := Finset.univ) (q := fullShare) (Finset.subset_univ _)

theorem wp_rows_v {α : Type} {Q : α → sProp 𝕄} (ids : ℕ → ℕ) (p : ℕ) (R : Buf (Elt F) ((sRv).view.loc (thr1 d L))) (hR : RowsAt m d ids p R)
    (ids' : ℕ → ℕ) (p' : ℕ) (a : IVec S16 32) (ha : ∀ x : S16.Idx, ids (p + (a x).toNat) = ids' (p' + (x 0).val))
    (c : BitVec 32) (hc : c.toNat < 15)
    (h : ∀ a' x, ((![a, broadcast S16 c] : Fin 2 → IVec S16 32) a' x).toNat < S128x128.size a') (hl : (sRv).view.Loads)
    (K : Vec F S16 .f32 → Prog (TpuEff nD τ sig (Elt F) Λ₀ (thr1 d L).2) α) :
    (((sRv).access (.whole S128x128)).loc (thr1 d L) ↦{fullShare} R)
      ⊢ iprop(((((sRv).access (.whole S128x128)).loc (thr1 d L) ↦{fullShare} R)
            -∗ wp frame (wpE (defs₀ (F := F)) 𝒱₀ (thr1 d L) none) Set.univ (K (rowVec m d ids' p' c.toNat)) Q)
          -∗ wp frame (wpE (defs₀ (F := F)) 𝒱₀ (thr1 d L) none) Set.univ (SparseCore.vectorLoadIdx sRv ![a, broadcast S16 c] h hl >>= K) Q) := by
  have e : loadIdx (((sRv).access (.whole S128x128)).read (Elt F) R) ![a, broadcast S16 c] h = rowVec m d ids' p' c.toNat := by
    have hr : ((sRv).access (.whole S128x128)).read (Elt F) R = R := Memref.read_access_whole (Elt F) cc1_scratch6 R
    rw [hr]; exact load_rows m d ids p R hR a c h hc ids' p' ha
  rw [← e]
  exact SparseCore.wp_vectorLoadIdx 𝒱₀ (thr1 d L) none Set.univ (base := sRv) (S := Finset.univ) (q := fullShare) (Finset.subset_univ _)

theorem wp_rows_b {α : Type} {Q : α → sProp 𝕄} (ids : ℕ → ℕ) (p : ℕ) (R : Buf (Elt F) ((sRb).view.loc (thr1 d L))) (hR : RowsAt m d ids p R)
    (ids' : ℕ → ℕ) (p' : ℕ) (a : IVec S16 32) (ha : ∀ x : S16.Idx, ids (p + (a x).toNat) = ids' (p' + (x 0).val))
    (c : BitVec 32) (hc : c.toNat < 15)
    (h : ∀ a' x, ((![a, broadcast S16 c] : Fin 2 → IVec S16 32) a' x).toNat < S128x128.size a') (hl : (sRb).view.Loads)
    (K : Vec F S16 .f32 → Prog (TpuEff nD τ sig (Elt F) Λ₀ (thr1 d L).2) α) :
    (((sRb).access (.whole S128x128)).loc (thr1 d L) ↦{fullShare} R)
      ⊢ iprop(((((sRb).access (.whole S128x128)).loc (thr1 d L) ↦{fullShare} R)
            -∗ wp frame (wpE (defs₀ (F := F)) 𝒱₀ (thr1 d L) none) Set.univ (K (rowVec m d ids' p' c.toNat)) Q)
          -∗ wp frame (wpE (defs₀ (F := F)) 𝒱₀ (thr1 d L) none) Set.univ (SparseCore.vectorLoadIdx sRb ![a, broadcast S16 c] h hl >>= K) Q) := by
  have e : loadIdx (((sRb).access (.whole S128x128)).read (Elt F) R) ![a, broadcast S16 c] h = rowVec m d ids' p' c.toNat := by
    have hr : ((sRb).access (.whole S128x128)).read (Elt F) R = R := Memref.read_access_whole (Elt F) cc1_scratch7 R
    rw [hr]; exact load_rows m d ids p R hR a c h hc ids' p' ha
  rw [← e]
  exact SparseCore.wp_vectorLoadIdx 𝒱₀ (thr1 d L) none Set.univ (base := sRb) (S := Finset.univ) (q := fullShare) (Finset.subset_univ _)

local macro "ld0 " H:ident h:term:max lem:term:max thr:term:max : tactic => `(tactic| (
  iapply (wp_assume 𝒱₀ $thr none Set.univ (chk2 _ _ $h (by decide)))
  sl_whnfR []
  iapply ($lem) $$ $H:ident
  iintro $H:ident
  sl_whnfR []))
local macro "ld " H:ident h:term:max lem:term:max thr:term:max : tactic => `(tactic| (
  iapply (wp_assume_ret $thr (chk2 _ _ $h (by decide)))
  sl_whnfR []
  iapply ($lem) $$ $H:ident
  iintro $H:ident
  sl_whnfR []))
local macro "ldL " H:ident h:term:max lem:term:max thr:term:max : tactic => `(tactic| (
  iapply (wp_assume_ret $thr (chk2 _ _ $h (by decide)))
  sl_whnfR []
  iapply ($lem) $$ $H:ident
  iintro $H:ident))

def inv15 (n0 : ℕ) (Fst : Buf (Elt F) ((sStg).view.loc (thr1 d L))) (Fwin : Buf (Elt F) ((sRc).view.loc (thr1 d L))) (Frv : Buf (Elt F) ((sRv).view.loc (thr1 d L)))
    (g : ℕ) (acc : FVec F S16 .f32 × FVec F S16 .f32) : sProp 𝕄 :=
  iprop(⌜acc = lossAcc m d (wL L) (n0 + g)⌝
    ∗ ((sStg).view.loc (thr1 d L) ↦{fullShare} Fst) ∗ ((sRc).view.loc (thr1 d L) ↦{fullShare} Fwin) ∗ ((sRv).view.loc (thr1 d L) ↦{fullShare} Frv))
def inv16 (n0 : ℕ) (Fst : Buf (Elt F) ((sStg).view.loc (thr1 d L))) (Fwin : Buf (Elt F) ((sRc).view.loc (thr1 d L))) (Frb : Buf (Elt F) ((sRb).view.loc (thr1 d L)))
    (g : ℕ) (acc : FVec F S16 .f32 × FVec F S16 .f32) : sProp 𝕄 :=
  iprop(⌜acc = lossAcc m d (wL L) (n0 + g)⌝
    ∗ ((sStg).view.loc (thr1 d L) ↦{fullShare} Fst) ∗ ((sRc).view.loc (thr1 d L) ↦{fullShare} Fwin) ∗ ((sRb).view.loc (thr1 d L) ↦{fullShare} Frb))

set_option maxHeartbeats 16000000 in
theorem t15_trip (hRg : RangesOK m) (k : Fin k1_t13_loop.trips) (j : Fin k1_t14_loop.trips) (v77 v80 : BitVec 32) (hv77 : v77.toNat = eRow (wL L) k.val)
    (Fst : Buf (Elt F) ((sStg).view.loc (thr1 d L))) (Fwin : Buf (Elt F) ((sRc).view.loc (thr1 d L))) (Frv : Buf (Elt F) ((sRv).view.loc (thr1 d L)))
    (hst : StgOK m d (wL L) k.val Fst) (hwin : RowsAt m d id (eRow (wL L) k.val) Fwin)
    (hrv : RowsAt m d (tgtId m d) (ePos (wL L) k.val + 256 * j.val) Frv)
    (g : Fin k1_t15_loop.trips) (acc : FVec F S16 .f32 × FVec F S16 .f32) (hacc : acc = lossAcc m d (wL L) (64 * k.val + 16 * j.val + g.val)) :
    iprop(((sStg).view.loc (thr1 d L) ↦{fullShare} Fst) ∗ ((sRc).view.loc (thr1 d L) ↦{fullShare} Fwin) ∗ ((sRv).view.loc (thr1 d L) ↦{fullShare} Frv))
      ⊢ (wp frame (wpE (defs₀ (F := F)) 𝒱₀ (thr1 d L) none) Set.univ
          ((k1at% k1_t15_body L) (bv1 L) bv2 k1_pay111 (bv5 L) v77 j v80 g acc)
          (inv15 m d L (64 * k.val + 16 * j.val) Fst Fwin Frv (g.val + 1)) : sProp 𝕄) := by
  unfold k1_t15_body inv15
  iintro ⟨Hst, Hrc, Hrv⟩
  sl_exec
  have hg : g.val < 8 := Nat.lt_of_lt_of_le g.isLt (by decide)
  have hj : j.val < 4 := Nat.lt_of_lt_of_le j.isLt (by decide)
  have h0 : k1_off24 j g 0 = 256 * j.val + 16 * g.val := by rw [k1_off24_eq]; rfl
  have hrow : ∀ x, (k1_pay97 bv2 0#32 1#32 g x).toNat < 128 := by
    intro x; rw [pay97_toNat]; have hx : (x 0).val < 16 := (x 0).isLt; omega
  have hta : ∀ x : S16.Idx, tgtId m d (ePos (wL L) k.val + 256 * j.val + (k1_pay97 bv2 0#32 1#32 g x).toNat) = tgtId m d (ePos (wL L) k.val + 256 * j.val + 16 * g.val + (x 0).val) := by
    intro x; rw [pay97_toNat]; congr 1; omega
  have hsl := src_lane m d L hRg k v77 hv77 Fst hst (k1_off24 j g) (Facts₀.k1_off24_inb j g)
  have hml : ∀ x, (t15_trip.sl.v104 d L j v77 Fst g x).toNat < 128 := fun x => (hsl x).1
  have hsa : ∀ x : S16.Idx, id (eRow (wL L) k.val + (t15_trip.sl.v104 d L j v77 Fst g x).toNat) = srcId m d (ePos (wL L) k.val + 256 * j.val + 16 * g.val + (x 0).val) := by
    intro x
    have h2 : eRow (wL L) k.val + (t15_trip.sl.v104 d L j v77 Fst g x).toNat = srcId m d (ePos (wL L) k.val + (k1_off24 j g 0 + (x 0).val)) := (hsl x).2
    rw [h0] at h2
    show eRow (wL L) k.val + _ = _
    rw [h2]; congr 1; omega
  ihave Hrc := (Entails.of_eq (show ((sRc).view.loc (thr1 d L) ↦{fullShare} Fwin : sProp 𝕄) = ((sRc.access (.whole S128x128)).loc (thr1 d L) ↦{fullShare} Fwin) from rfl)) $$ Hrc
  ihave Hrv := (Entails.of_eq (show ((sRv).view.loc (thr1 d L) ↦{fullShare} Frv : sProp 𝕄) = ((sRv.access (.whole S128x128)).loc (thr1 d L) ↦{fullShare} Frv) from rfl)) $$ Hrv
  ld0 Hrc hml (wp_rows_c m d L id (eRow (wL L) k.val) Fwin hwin (srcId m d) (ePos (wL L) k.val + 256 * j.val + 16 * g.val) _ hsa _ (by decide) _ _ _) (thr1 d L)
  ld Hrc hml (wp_rows_c m d L id (eRow (wL L) k.val) Fwin hwin (srcId m d) (ePos (wL L) k.val + 256 * j.val + 16 * g.val) _ hsa _ (by decide) _ _ _) (thr1 d L)
  ld Hrc hml (wp_rows_c m d L id (eRow (wL L) k.val) Fwin hwin (srcId m d) (ePos (wL L) k.val + 256 * j.val + 16 * g.val) _ hsa _ (by decide) _ _ _) (thr1 d L)
  ld Hrc hml (wp_rows_c m d L id (eRow (wL L) k.val) Fwin hwin (srcId m d) (ePos (wL L) k.val + 256 * j.val + 16 * g.val) _ hsa _ (by decide) _ _ _) (thr1 d L)
  ld Hrc hml (wp_rows_c m d L id (eRow (wL L) k.val) Fwin hwin (srcId m d) (ePos (wL L) k.val + 256 * j.val + 16 * g.val) _ hsa _ (by decide) _ _ _) (thr1 d L)
  ld Hrc hml (wp_rows_c m d L id (eRow (wL L) k.val) Fwin hwin (srcId m d) (ePos (wL L) k.val + 256 * j.val + 16 * g.val) _ hsa _ (by decide) _ _ _) (thr1 d L)
  ld Hrc hml (wp_rows_c m d L id (eRow (wL L) k.val) Fwin hwin (srcId m d) (ePos (wL L) k.val + 256 * j.val + 16 * g.val) _ hsa _ (by decide) _ _ _) (thr1 d L)
  ld Hrc hml (wp_rows_c m d L id (eRow (wL L) k.val) Fwin hwin (srcId m d) (ePos (wL L) k.val + 256 * j.val + 16 * g.val) _ hsa _ (by decide) _ _ _) (thr1 d L)
  ld Hrc hml (wp_rows_c m d L id (eRow (wL L) k.val) Fwin hwin (srcId m d) (ePos (wL L) k.val + 256 * j.val + 16 * g.val) _ hsa _ (by decide) _ _ _) (thr1 d L)
  ld Hrc hml (wp_rows_c m d L id (eRow (wL L) k.val) Fwin hwin (srcId m d) (ePos (wL L) k.val + 256 * j.val + 16 * g.val) _ hsa _ (by decide) _ _ _) (thr1 d L)
  ld Hrc hml (wp_rows_c m d L id (eRow (wL L) k.val) Fwin hwin (srcId m d) (ePos (wL L) k.val + 256 * j.val + 16 * g.val) _ hsa _ (by decide) _ _ _) (thr1 d L)
  sl_exec
  ld0 Hrc hml (wp_rows_c m d L id (eRow (wL L) k.val) Fwin hwin (srcId m d) (ePos (wL L) k.val + 256 * j.val + 16 * g.val) _ hsa _ (by decide) _ _ _) (thr1 d L)
  ld Hrc hml (wp_rows_c m d L id (eRow (wL L) k.val) Fwin hwin (srcId m d) (ePos (wL L) k.val + 256 * j.val + 16 * g.val) _ hsa _ (by decide) _ _ _) (thr1 d L)
  ld Hrc hml (wp_rows_c m d L id (eRow (wL L) k.val) Fwin hwin (srcId m d) (ePos (wL L) k.val + 256 * j.val + 16 * g.val) _ hsa _ (by decide) _ _ _) (thr1 d L)
  ld Hrc hml (wp_rows_c m d L id (eRow (wL L) k.val) Fwin hwin (srcId m d) (ePos (wL L) k.val + 256 * j.val + 16 * g.val) _ hsa _ (by decide) _ _ _) (thr1 d L)
  ld Hrv hrow (wp_rows_v m d L (tgtId m d) (ePos (wL L) k.val + 256 * j.val) Frv hrv (tgtId m d) (ePos (wL L) k.val + 256 * j.val + 16 * g.val) _ hta _ (by decide) _ _ _) (thr1 d L)
  ld Hrv hrow (wp_rows_v m d L (tgtId m d) (ePos (wL L) k.val + 256 * j.val) Frv hrv (tgtId m d) (ePos (wL L) k.val + 256 * j.val + 16 * g.val) _ hta _ (by decide) _ _ _) (thr1 d L)
  ld Hrv hrow (wp_rows_v m d L (tgtId m d) (ePos (wL L) k.val + 256 * j.val) Frv hrv (tgtId m d) (ePos (wL L) k.val + 256 * j.val + 16 * g.val) _ hta _ (by decide) _ _ _) (thr1 d L)
  ld Hrv hrow (wp_rows_v m d L (tgtId m d) (ePos (wL L) k.val + 256 * j.val) Frv hrv (tgtId m d) (ePos (wL L) k.val + 256 * j.val + 16 * g.val) _ hta _ (by decide) _ _ _) (thr1 d L)
  ld Hrv hrow (wp_rows_v m d L (tgtId m d) (ePos (wL L) k.val + 256 * j.val) Frv hrv (tgtId m d) (ePos (wL L) k.val + 256 * j.val + 16 * g.val) _ hta _ (by decide) _ _ _) (thr1 d L)
  ld Hrv hrow (wp_rows_v m d L (tgtId m d) (ePos (wL L) k.val + 256 * j.val) Frv hrv (tgtId m d) (ePos (wL L) k.val + 256 * j.val + 16 * g.val) _ hta _ (by decide) _ _ _) (thr1 d L)
  ld Hrv hrow (wp_rows_v m d L (tgtId m d) (ePos (wL L) k.val + 256 * j.val) Frv hrv (tgtId m d) (ePos (wL L) k.val + 256 * j.val + 16 * g.val) _ hta _ (by decide) _ _ _) (thr1 d L)
  ld Hrv hrow (wp_rows_v m d L (tgtId m d) (ePos (wL L) k.val + 256 * j.val) Frv hrv (tgtId m d) (ePos (wL L) k.val + 256 * j.val + 16 * g.val) _ hta _ (by decide) _ _ _) (thr1 d L)
  ld Hrv hrow (wp_rows_v m d L (tgtId m d) (ePos (wL L) k.val + 256 * j.val) Frv hrv (tgtId m d) (ePos (wL L) k.val + 256 * j.val + 16 * g.val) _ hta _ (by decide) _ _ _) (thr1 d L)
  ld Hrv hrow (wp_rows_v m d L (tgtId m d) (ePos (wL L) k.val + 256 * j.val) Frv hrv (tgtId m d) (ePos (wL L) k.val + 256 * j.val + 16 * g.val) _ hta _ (by decide) _ _ _) (thr1 d L)
  ld Hrv hrow (wp_rows_v m d L (tgtId m d) (ePos (wL L) k.val + 256 * j.val) Frv hrv (tgtId m d) (ePos (wL L) k.val + 256 * j.val + 16 * g.val) _ hta _ (by decide) _ _ _) (thr1 d L)
  sl_exec
  ld0 Hrv hrow (wp_rows_v m d L (tgtId m d) (ePos (wL L) k.val + 256 * j.val) Frv hrv (tgtId m d) (ePos (wL L) k.val + 256 * j.val + 16 * g.val) _ hta _ (by decide) _ _ _) (thr1 d L)
  ld Hrv hrow (wp_rows_v m d L (tgtId m d) (ePos (wL L) k.val + 256 * j.val) Frv hrv (tgtId m d) (ePos (wL L) k.val + 256 * j.val + 16 * g.val) _ hta _ (by decide) _ _ _) (thr1 d L)
  ld Hrv hrow (wp_rows_v m d L (tgtId m d) (ePos (wL L) k.val + 256 * j.val) Frv hrv (tgtId m d) (ePos (wL L) k.val + 256 * j.val + 16 * g.val) _ hta _ (by decide) _ _ _) (thr1 d L)
  ldL Hrv hrow (wp_rows_v m d L (tgtId m d) (ePos (wL L) k.val + 256 * j.val) Frv hrv (tgtId m d) (ePos (wL L) k.val + 256 * j.val + 16 * g.val) _ hta _ (by decide) _ _ _) (thr1 d L)
  sl_exec
  sl_step
  isplitr
  · ipureintro
    have hP : (wL L).val * 7168 + 16 * (64 * k.val + 16 * j.val + g.val) = ePos (wL L) k.val + 256 * j.val + 16 * g.val := by unfold ePos; omega
    rw [show 64 * k.val + 16 * j.val + (g.val + 1) = (64 * k.val + 16 * j.val + g.val) + 1 by omega]
    show _ = lossStep m d _ (lossAcc m d (wL L) _)
    rw [← hacc, hP]
    unfold lossStep
    sl_unfold_run_names
    rfl
  ihave Hrc := (Entails.of_eq (show ((sRc.access (.whole S128x128)).loc (thr1 d L) ↦{fullShare} Fwin : sProp 𝕄) = ((sRc).view.loc (thr1 d L) ↦{fullShare} Fwin) from rfl)) $$ Hrc
  ihave Hrv := (Entails.of_eq (show ((sRv.access (.whole S128x128)).loc (thr1 d L) ↦{fullShare} Frv : sProp 𝕄) = ((sRv).view.loc (thr1 d L) ↦{fullShare} Frv) from rfl)) $$ Hrv
  isplitl [Hst]; · iexact Hst
  isplitl [Hrc]; · iexact Hrc
  iexact Hrv

set_option maxHeartbeats 16000000 in
theorem t16_trip (hRg : RangesOK m) (k : Fin k1_t13_loop.trips) (j : Fin k1_t14_loop.trips) (v77 v80 : BitVec 32) (hv77 : v77.toNat = eRow (wL L) k.val)
    (Fst : Buf (Elt F) ((sStg).view.loc (thr1 d L))) (Fwin : Buf (Elt F) ((sRc).view.loc (thr1 d L))) (Frv : Buf (Elt F) ((sRb).view.loc (thr1 d L)))
    (hst : StgOK m d (wL L) k.val Fst) (hwin : RowsAt m d id (eRow (wL L) k.val) Fwin)
    (hrv : RowsAt m d (tgtId m d) (ePos (wL L) k.val + 256 * j.val + 128) Frv)
    (g : Fin k1_t16_loop.trips) (acc : FVec F S16 .f32 × FVec F S16 .f32) (hacc : acc = lossAcc m d (wL L) (64 * k.val + 16 * j.val + 8 + g.val)) :
    iprop(((sStg).view.loc (thr1 d L) ↦{fullShare} Fst) ∗ ((sRc).view.loc (thr1 d L) ↦{fullShare} Fwin) ∗ ((sRb).view.loc (thr1 d L) ↦{fullShare} Frv))
      ⊢ (wp frame (wpE (defs₀ (F := F)) 𝒱₀ (thr1 d L) none) Set.univ
          ((k1at% k1_t16_body L) (bv1 L) bv2 k1_pay111 (bv5 L) v77 j v80 g acc)
          (inv16 m d L (64 * k.val + 16 * j.val + 8) Fst Fwin Frv (g.val + 1)) : sProp 𝕄) := by
  unfold k1_t16_body inv16
  iintro ⟨Hst, Hrc, Hrv⟩
  sl_exec
  have hg : g.val < 8 := Nat.lt_of_lt_of_le g.isLt (by decide)
  have hj : j.val < 4 := Nat.lt_of_lt_of_le j.isLt (by decide)
  have h0 : k1_off25 j g 0 = 256 * j.val + 16 * g.val + 128 := by rw [k1_off25_eq]; rfl
  have hrow : ∀ x, (k1_pay104 bv2 0#32 1#32 g x).toNat < 128 := by
    intro x; rw [pay104_toNat]; have hx : (x 0).val < 16 := (x 0).isLt; omega
  have hta : ∀ x : S16.Idx, tgtId m d (ePos (wL L) k.val + 256 * j.val + 128 + (k1_pay104 bv2 0#32 1#32 g x).toNat) = tgtId m d (ePos (wL L) k.val + 256 * j.val + 128 + 16 * g.val + (x 0).val) := by
    intro x; rw [pay104_toNat]; congr 1; omega
  have hsl := src_lane m d L hRg k v77 hv77 Fst hst (k1_off25 j g) (Facts₀.k1_off25_inb j g)
  have hml : ∀ x, (t16_trip.sl.v104 d L j v77 Fst g x).toNat < 128 := fun x => (hsl x).1
  have hsa : ∀ x : S16.Idx, id (eRow (wL L) k.val + (t16_trip.sl.v104 d L j v77 Fst g x).toNat) = srcId m d (ePos (wL L) k.val + 256 * j.val + 128 + 16 * g.val + (x 0).val) := by
    intro x
    have h2 : eRow (wL L) k.val + (t16_trip.sl.v104 d L j v77 Fst g x).toNat = srcId m d (ePos (wL L) k.val + (k1_off25 j g 0 + (x 0).val)) := (hsl x).2
    rw [h0] at h2
    show eRow (wL L) k.val + _ = _
    rw [h2]; congr 1; omega
  ihave Hrc := (Entails.of_eq (show ((sRc).view.loc (thr1 d L) ↦{fullShare} Fwin : sProp 𝕄) = ((sRc.access (.whole S128x128)).loc (thr1 d L) ↦{fullShare} Fwin) from rfl)) $$ Hrc
  ihave Hrv := (Entails.of_eq (show ((sRb).view.loc (thr1 d L) ↦{fullShare} Frv : sProp 𝕄) = ((sRb.access (.whole S128x128)).loc (thr1 d L) ↦{fullShare} Frv) from rfl)) $$ Hrv
  ld0 Hrc hml (wp_rows_c m d L id (eRow (wL L) k.val) Fwin hwin (srcId m d) (ePos (wL L) k.val + 256 * j.val + 128 + 16 * g.val) _ hsa _ (by decide) _ _ _) (thr1 d L)
  ld Hrc hml (wp_rows_c m d L id (eRow (wL L) k.val) Fwin hwin (srcId m d) (ePos (wL L) k.val + 256 * j.val + 128 + 16 * g.val) _ hsa _ (by decide) _ _ _) (thr1 d L)
  ld Hrc hml (wp_rows_c m d L id (eRow (wL L) k.val) Fwin hwin (srcId m d) (ePos (wL L) k.val + 256 * j.val + 128 + 16 * g.val) _ hsa _ (by decide) _ _ _) (thr1 d L)
  ld Hrc hml (wp_rows_c m d L id (eRow (wL L) k.val) Fwin hwin (srcId m d) (ePos (wL L) k.val + 256 * j.val + 128 + 16 * g.val) _ hsa _ (by decide) _ _ _) (thr1 d L)
  ld Hrc hml (wp_rows_c m d L id (eRow (wL L) k.val) Fwin hwin (srcId m d) (ePos (wL L) k.val + 256 * j.val + 128 + 16 * g.val) _ hsa _ (by decide) _ _ _) (thr1 d L)
  ld Hrc hml (wp_rows_c m d L id (eRow (wL L) k.val) Fwin hwin (srcId m d) (ePos (wL L) k.val + 256 * j.val + 128 + 16 * g.val) _ hsa _ (by decide) _ _ _) (thr1 d L)
  ld Hrc hml (wp_rows_c m d L id (eRow (wL L) k.val) Fwin hwin (srcId m d) (ePos (wL L) k.val + 256 * j.val + 128 + 16 * g.val) _ hsa _ (by decide) _ _ _) (thr1 d L)
  ld Hrc hml (wp_rows_c m d L id (eRow (wL L) k.val) Fwin hwin (srcId m d) (ePos (wL L) k.val + 256 * j.val + 128 + 16 * g.val) _ hsa _ (by decide) _ _ _) (thr1 d L)
  ld Hrc hml (wp_rows_c m d L id (eRow (wL L) k.val) Fwin hwin (srcId m d) (ePos (wL L) k.val + 256 * j.val + 128 + 16 * g.val) _ hsa _ (by decide) _ _ _) (thr1 d L)
  ld Hrc hml (wp_rows_c m d L id (eRow (wL L) k.val) Fwin hwin (srcId m d) (ePos (wL L) k.val + 256 * j.val + 128 + 16 * g.val) _ hsa _ (by decide) _ _ _) (thr1 d L)
  ld Hrc hml (wp_rows_c m d L id (eRow (wL L) k.val) Fwin hwin (srcId m d) (ePos (wL L) k.val + 256 * j.val + 128 + 16 * g.val) _ hsa _ (by decide) _ _ _) (thr1 d L)
  sl_exec
  ld0 Hrc hml (wp_rows_c m d L id (eRow (wL L) k.val) Fwin hwin (srcId m d) (ePos (wL L) k.val + 256 * j.val + 128 + 16 * g.val) _ hsa _ (by decide) _ _ _) (thr1 d L)
  ld Hrc hml (wp_rows_c m d L id (eRow (wL L) k.val) Fwin hwin (srcId m d) (ePos (wL L) k.val + 256 * j.val + 128 + 16 * g.val) _ hsa _ (by decide) _ _ _) (thr1 d L)
  ld Hrc hml (wp_rows_c m d L id (eRow (wL L) k.val) Fwin hwin (srcId m d) (ePos (wL L) k.val + 256 * j.val + 128 + 16 * g.val) _ hsa _ (by decide) _ _ _) (thr1 d L)
  ld Hrc hml (wp_rows_c m d L id (eRow (wL L) k.val) Fwin hwin (srcId m d) (ePos (wL L) k.val + 256 * j.val + 128 + 16 * g.val) _ hsa _ (by decide) _ _ _) (thr1 d L)
  ld Hrv hrow (wp_rows_b m d L (tgtId m d) (ePos (wL L) k.val + 256 * j.val + 128) Frv hrv (tgtId m d) (ePos (wL L) k.val + 256 * j.val + 128 + 16 * g.val) _ hta _ (by decide) _ _ _) (thr1 d L)
  ld Hrv hrow (wp_rows_b m d L (tgtId m d) (ePos (wL L) k.val + 256 * j.val + 128) Frv hrv (tgtId m d) (ePos (wL L) k.val + 256 * j.val + 128 + 16 * g.val) _ hta _ (by decide) _ _ _) (thr1 d L)
  ld Hrv hrow (wp_rows_b m d L (tgtId m d) (ePos (wL L) k.val + 256 * j.val + 128) Frv hrv (tgtId m d) (ePos (wL L) k.val + 256 * j.val + 128 + 16 * g.val) _ hta _ (by decide) _ _ _) (thr1 d L)
  ld Hrv hrow (wp_rows_b m d L (tgtId m d) (ePos (wL L) k.val + 256 * j.val + 128) Frv hrv (tgtId m d) (ePos (wL L) k.val + 256 * j.val + 128 + 16 * g.val) _ hta _ (by decide) _ _ _) (thr1 d L)
  ld Hrv hrow (wp_rows_b m d L (tgtId m d) (ePos (wL L) k.val + 256 * j.val + 128) Frv hrv (tgtId m d) (ePos (wL L) k.val + 256 * j.val + 128 + 16 * g.val) _ hta _ (by decide) _ _ _) (thr1 d L)
  ld Hrv hrow (wp_rows_b m d L (tgtId m d) (ePos (wL L) k.val + 256 * j.val + 128) Frv hrv (tgtId m d) (ePos (wL L) k.val + 256 * j.val + 128 + 16 * g.val) _ hta _ (by decide) _ _ _) (thr1 d L)
  ld Hrv hrow (wp_rows_b m d L (tgtId m d) (ePos (wL L) k.val + 256 * j.val + 128) Frv hrv (tgtId m d) (ePos (wL L) k.val + 256 * j.val + 128 + 16 * g.val) _ hta _ (by decide) _ _ _) (thr1 d L)
  ld Hrv hrow (wp_rows_b m d L (tgtId m d) (ePos (wL L) k.val + 256 * j.val + 128) Frv hrv (tgtId m d) (ePos (wL L) k.val + 256 * j.val + 128 + 16 * g.val) _ hta _ (by decide) _ _ _) (thr1 d L)
  ld Hrv hrow (wp_rows_b m d L (tgtId m d) (ePos (wL L) k.val + 256 * j.val + 128) Frv hrv (tgtId m d) (ePos (wL L) k.val + 256 * j.val + 128 + 16 * g.val) _ hta _ (by decide) _ _ _) (thr1 d L)
  ld Hrv hrow (wp_rows_b m d L (tgtId m d) (ePos (wL L) k.val + 256 * j.val + 128) Frv hrv (tgtId m d) (ePos (wL L) k.val + 256 * j.val + 128 + 16 * g.val) _ hta _ (by decide) _ _ _) (thr1 d L)
  ld Hrv hrow (wp_rows_b m d L (tgtId m d) (ePos (wL L) k.val + 256 * j.val + 128) Frv hrv (tgtId m d) (ePos (wL L) k.val + 256 * j.val + 128 + 16 * g.val) _ hta _ (by decide) _ _ _) (thr1 d L)
  sl_exec
  ld0 Hrv hrow (wp_rows_b m d L (tgtId m d) (ePos (wL L) k.val + 256 * j.val + 128) Frv hrv (tgtId m d) (ePos (wL L) k.val + 256 * j.val + 128 + 16 * g.val) _ hta _ (by decide) _ _ _) (thr1 d L)
  ld Hrv hrow (wp_rows_b m d L (tgtId m d) (ePos (wL L) k.val + 256 * j.val + 128) Frv hrv (tgtId m d) (ePos (wL L) k.val + 256 * j.val + 128 + 16 * g.val) _ hta _ (by decide) _ _ _) (thr1 d L)
  ld Hrv hrow (wp_rows_b m d L (tgtId m d) (ePos (wL L) k.val + 256 * j.val + 128) Frv hrv (tgtId m d) (ePos (wL L) k.val + 256 * j.val + 128 + 16 * g.val) _ hta _ (by decide) _ _ _) (thr1 d L)
  ldL Hrv hrow (wp_rows_b m d L (tgtId m d) (ePos (wL L) k.val + 256 * j.val + 128) Frv hrv (tgtId m d) (ePos (wL L) k.val + 256 * j.val + 128 + 16 * g.val) _ hta _ (by decide) _ _ _) (thr1 d L)
  sl_exec
  sl_step
  isplitr
  · ipureintro
    have hP : (wL L).val * 7168 + 16 * (64 * k.val + 16 * j.val + 8 + g.val) = ePos (wL L) k.val + 256 * j.val + 128 + 16 * g.val := by unfold ePos; omega
    rw [show 64 * k.val + 16 * j.val + 8 + (g.val + 1) = (64 * k.val + 16 * j.val + 8 + g.val) + 1 by omega]
    show _ = lossStep m d _ (lossAcc m d (wL L) _)
    rw [← hacc, hP]
    unfold lossStep
    sl_unfold_run_names
    rfl
  ihave Hrc := (Entails.of_eq (show ((sRc.access (.whole S128x128)).loc (thr1 d L) ↦{fullShare} Fwin : sProp 𝕄) = ((sRc).view.loc (thr1 d L) ↦{fullShare} Fwin) from rfl)) $$ Hrc
  ihave Hrv := (Entails.of_eq (show ((sRb.access (.whole S128x128)).loc (thr1 d L) ↦{fullShare} Frv : sProp 𝕄) = ((sRb).view.loc (thr1 d L) ↦{fullShare} Frv) from rfl)) $$ Hrv
  isplitl [Hst]; · iexact Hst
  isplitl [Hrc]; · iexact Hrc
  iexact Hrv

theorem t15_wp' (hRg : RangesOK m) (k : Fin k1_t13_loop.trips) (j : Fin k1_t14_loop.trips) (v77 v80 : BitVec 32) (hv77 : v77.toNat = eRow (wL L) k.val)
    (Fst : Buf (Elt F) ((sStg).view.loc (thr1 d L))) (Fwin : Buf (Elt F) ((sRc).view.loc (thr1 d L))) (Frv : Buf (Elt F) ((sRv).view.loc (thr1 d L)))
    (hst : StgOK m d (wL L) k.val Fst) (hwin : RowsAt m d id (eRow (wL L) k.val) Fwin)
    (hrv : RowsAt m d (tgtId m d) (ePos (wL L) k.val + 256 * j.val) Frv)
    (init : FVec F S16 .f32 × FVec F S16 .f32) (hinit : init = lossAcc m d (wL L) (64 * k.val + 16 * j.val)) :
    iprop(((sStg).view.loc (thr1 d L) ↦{fullShare} Fst) ∗ ((sRc).view.loc (thr1 d L) ↦{fullShare} Fwin) ∗ ((sRv).view.loc (thr1 d L) ↦{fullShare} Frv))
      ⊢ (wp frame (wpE (defs₀ (F := F)) 𝒱₀ (thr1 d L) none) Set.univ
          (Scf.Loop.for k1_t15_loop Facts₀.k1_t15_ok init ((k1at% k1_t15_body L) (bv1 L) bv2 k1_pay111 (bv5 L) v77 j v80))
          fun acc => iprop(⌜acc = lossAcc m d (wL L) (64 * k.val + 16 * j.val + 8)⌝
            ∗ ((sStg).view.loc (thr1 d L) ↦{fullShare} Fst) ∗ ((sRc).view.loc (thr1 d L) ↦{fullShare} Fwin) ∗ ((sRv).view.loc (thr1 d L) ↦{fullShare} Frv)) : sProp 𝕄) := by
  iintro ⟨Hst, Hrc, Hrv⟩
  sl_for (inv15 m d L (64 * k.val + 16 * j.val) Fst Fwin Frv) $$ [Hst Hrc Hrv]
  case region =>
    intro g acc
    rw [show inv15 m d L (64 * k.val + 16 * j.val) Fst Fwin Frv g.val acc
        = iprop(⌜acc = lossAcc m d (wL L) (64 * k.val + 16 * j.val + g.val)⌝
            ∗ ((sStg).view.loc (thr1 d L) ↦{fullShare} Fst) ∗ ((sRc).view.loc (thr1 d L) ↦{fullShare} Fwin) ∗ ((sRv).view.loc (thr1 d L) ↦{fullShare} Frv)) from rfl]
    iintro ⟨%hacc, H⟩
    iapply (t15_trip m d L hRg k j v77 v80 hv77 Fst Fwin Frv hst hwin hrv g acc hacc)
    iexact H
  · unfold inv15
    isplitl [Hst Hrc Hrv]
    · isplitr
      · ipureintro; subst hinit; rfl
      isplitl [Hst]; · iexact Hst
      isplitl [Hrc]; · iexact Hrc
      iexact Hrv
    iintro %acc HI
    icases HI with ⟨%h, Hst, Hrc, Hrv⟩
    isplitr
    · ipureintro
      have ht : Scf.trips k1_t15_loop.lb k1_t15_loop.ub k1_t15_loop.st = 8 := by decide
      rw [h, ht]
    isplitl [Hst]; · iexact Hst
    isplitl [Hrc]; · iexact Hrc
    iexact Hrv

theorem t16_wp' (hRg : RangesOK m) (k : Fin k1_t13_loop.trips) (j : Fin k1_t14_loop.trips) (v77 v92 : BitVec 32) (hv77 : v77.toNat = eRow (wL L) k.val)
    (Fst : Buf (Elt F) ((sStg).view.loc (thr1 d L))) (Fwin : Buf (Elt F) ((sRc).view.loc (thr1 d L))) (Frb : Buf (Elt F) ((sRb).view.loc (thr1 d L)))
    (hst : StgOK m d (wL L) k.val Fst) (hwin : RowsAt m d id (eRow (wL L) k.val) Fwin)
    (hrb : RowsAt m d (tgtId m d) (ePos (wL L) k.val + 256 * j.val + 128) Frb)
    (init : FVec F S16 .f32 × FVec F S16 .f32) (hinit : init = lossAcc m d (wL L) (64 * k.val + 16 * j.val + 8)) :
    iprop(((sStg).view.loc (thr1 d L) ↦{fullShare} Fst) ∗ ((sRc).view.loc (thr1 d L) ↦{fullShare} Fwin) ∗ ((sRb).view.loc (thr1 d L) ↦{fullShare} Frb))
      ⊢ (wp frame (wpE (defs₀ (F := F)) 𝒱₀ (thr1 d L) none) Set.univ
          (Scf.Loop.for k1_t16_loop Facts₀.k1_t16_ok init ((k1at% k1_t16_body L) (bv1 L) bv2 k1_pay111 (bv5 L) v77 j v92))
          fun acc => iprop(⌜acc = lossAcc m d (wL L) (64 * k.val + 16 * j.val + 8 + 8)⌝
            ∗ ((sStg).view.loc (thr1 d L) ↦{fullShare} Fst) ∗ ((sRc).view.loc (thr1 d L) ↦{fullShare} Fwin) ∗ ((sRb).view.loc (thr1 d L) ↦{fullShare} Frb)) : sProp 𝕄) := by
  iintro ⟨Hst, Hrc, Hrv⟩
  sl_for (inv16 m d L (64 * k.val + 16 * j.val + 8) Fst Fwin Frb) $$ [Hst Hrc Hrv]
  case region =>
    intro g acc
    rw [show inv16 m d L (64 * k.val + 16 * j.val + 8) Fst Fwin Frb g.val acc
        = iprop(⌜acc = lossAcc m d (wL L) (64 * k.val + 16 * j.val + 8 + g.val)⌝
            ∗ ((sStg).view.loc (thr1 d L) ↦{fullShare} Fst) ∗ ((sRc).view.loc (thr1 d L) ↦{fullShare} Fwin) ∗ ((sRb).view.loc (thr1 d L) ↦{fullShare} Frb)) from rfl]
    iintro ⟨%hacc, H⟩
    iapply (t16_trip m d L hRg k j v77 v92 hv77 Fst Fwin Frb hst hwin hrb g acc hacc)
    iexact H
  · unfold inv16
    isplitl [Hst Hrc Hrv]
    · isplitr
      · ipureintro; subst hinit; rfl
      isplitl [Hst]; · iexact Hst
      isplitl [Hrc]; · iexact Hrc
      iexact Hrv
    iintro %acc HI
    icases HI with ⟨%h, Hst, Hrc, Hrv⟩
    isplitr
    · ipureintro
      have ht : Scf.trips k1_t16_loop.lb k1_t16_loop.ub k1_t16_loop.st = 8 := by decide
      rw [h, ht]
    isplitl [Hst]; · iexact Hst
    isplitl [Hrc]; · iexact Hrc
    iexact Hrv

end Tile

end Cert.KB

end
-- ==== Proof.Body1ValEBits.lean ====
import proofs.«205348_g71287867179597_cont_9to1c4b_113_38_alg».proof.Proof.Body1EdgesBits
import proofs.«205348_g71287867179597_cont_9to1c4b_113_38_alg».proof.Proof.Body1ValBits

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Tactic

variable {F : FTy → Type} [FloatOps F] [Facts]
open Facts₀ Facts

variable (m : (ℓ : Loc nD τ sig) → Buf (Elt F) ℓ)

local notation "𝕄" => MT nD τ sig (HIx 2) (Elt F) ℕ UU ℕ

section Tile

variable (d : Dev nD) (L : grid1.Coords)

theorem mrep_slice_read_1024 (o : Fin S229376.rank → ℕ) (hb : ∀ a, o a + S1024.size a ≤ S229376.size a) (j : Fin 1024) :
    (((aMrep).slice (Rect.unit (s := S229376) o S1024.size hb) (fun _ => rfl)).view.read (Elt F) (tMrep m d) (ValueIdx.ix1 j) : BitVec 32).toNat
      = srcId m d (o 0 + j.val) := by
  have hle : o 0 + 1024 ≤ 229376 := hb 0
  have hk : o 0 + j.val < 229376 := by have := j.isLt; omega
  have hemb : (Rect.unit (s := S229376) o S1024.size hb).emb (ValueIdx.ix1 j) = ValueIdx.ix1 ⟨o 0 + j.val, hk⟩ := by
    funext a
    obtain rfl : a = 0 := Subsingleton.elim _ _
    exact Fin.ext (by show o 0 + 1 * j.val = o 0 + j.val; omega)
  unfold srcId
  rw [at1_of_lt _ _ _ hk]
  show ((tMrep m d) ((Rect.unit (s := S229376) o S1024.size hb).emb (ValueIdx.ix1 j)) : BitVec 32).toNat = _
  rw [hemb]

theorem stg_ok (k : Fin k1_t13_loop.trips) (fst : Buf (Elt F) ((sStg).view.loc (thr1 d L))) (pay : S1024.Idx → Elt F .i32)
    (hpay : pay = ReadAs.same.apply (View.read (Elt F) ((aMrep).slice (Rect.unit (s := S229376) (k1_off20 L k) S1024.size (Gen.k1_off20_inb L k)) (fun _ => rfl)).view (tMrep m d))) :
    StgOK m d (wL L) k.val (View.write (Elt F) (sStg).view fst pay Finset.univ) := by
  subst hpay
  intro q
  rw [View.write_whole_univ]
  have e0 : k1_off20 L k 0 = ePos (wL L) k.val := by rw [off20_eq']; rfl
  rw [← e0]
  exact mrep_slice_read_1024 m d (k1_off20 L k) (Gen.k1_off20_inb L k) q

theorem win_ok (fP : Buf (Elt F) ((aPtab).view.loc (thr1 d L))) (hP : PtabOK m d fP) (k : Fin k1_t13_loop.trips)
    (frc : Buf (Elt F) ((sRc).view.loc (thr1 d L))) (pay : S128x128.Idx → Elt F .f32)
    (hpay : pay = ReadAs.same.apply (View.read (Elt F) ((aPtab).slice (Rect.unit (s := S28672x128) (k1_off21 L k) S128x128.size (Gen.k1_off21_inb L k)) (fun _ => rfl)).view fP)) :
    RowsAt m d id (eRow (wL L) k.val) (View.write (Elt F) (sRc).view frc pay Finset.univ) := by
  subst hpay
  intro r col hcol
  rw [View.write_whole_univ]
  have e0 : k1_off21 L k 0 = eRow (wL L) k.val := by rw [off21_eq']; rfl
  have e1 : k1_off21 L k 1 = 0 := by rw [off21_eq']; rfl
  have hrow : eRow (wL L) k.val + r.val < 28672 := by
    have : eRow (wL L) k.val ≤ 24992 := Nat.min_le_right _ _
    have := r.isLt; omega
  have h0 : (Rect.unit (s := S28672x128) (k1_off21 L k) S128x128.size (Gen.k1_off21_inb L k)).emb (ValueIdx.ix2 r col) 0
      = ⟨eRow (wL L) k.val + r.val, hrow⟩ :=
    Fin.ext (by show k1_off21 L k 0 + 1 * r.val = eRow (wL L) k.val + r.val; rw [e0]; omega)
  have h1 : (Rect.unit (s := S28672x128) (k1_off21 L k) S128x128.size (Gen.k1_off21_inb L k)).emb (ValueIdx.ix2 r col) 1 = col :=
    Fin.ext (by show k1_off21 L k 1 + 1 * col.val = col.val; rw [e1]; omega)
  show fP ((Rect.unit (s := S28672x128) (k1_off21 L k) S128x128.size (Gen.k1_off21_inb L k)).emb (ValueIdx.ix2 r col)) = _
  rw [ValueIdx.eq_ix2 ((Rect.unit (s := S28672x128) (k1_off21 L k) S128x128.size (Gen.k1_off21_inb L k)).emb (ValueIdx.ix2 r col)), h0, h1]
  exact hP ⟨_, hrow⟩ col hcol

theorem orn_gv_inb (hRg : RangesOK m) :
    ∀ (g : Buf (Elt F) ((sGv).view.loc (thr1 d L))) (off : Fin 1 → ℕ) (inb : ∀ a, off a + S128.size a ≤ S229376.size a)
      (hr : ∀ a, (Rect.unit (s := S229376) off S128.size inb).stride a = 1) (x : S128.Idx),
      ((sGv).view.read (Elt F) (View.write (Elt F) sGv.view g (ReadAs.same.apply (View.read (Elt F) (aOrn.slice (Rect.unit (s := S229376) off S128.size inb) hr).view (tOrn m d))) Finset.univ) x).toNat < 28672 := by
  intro g off inb hr x
  rw [View.write_whole_univ]
  obtain ⟨j, rfl⟩ : ∃ j : Fin 128, x = ValueIdx.ix1 j := ⟨x 0, ValueIdx.eq_ix1 x⟩
  have hle : off 0 + 128 ≤ 229376 := inb 0
  show (((aOrn).slice (Rect.unit (s := S229376) off S128.size inb) (fun _ => rfl)).view.read (Elt F) (tOrn m d) (ValueIdx.ix1 j) : BitVec 32).toNat < 28672
  rw [orn_slice_read m d off inb j]
  exact tgt_inb m d hRg _ (by have := j.isLt; omega)
theorem orn_gb_inb (hRg : RangesOK m) :
    ∀ (g : Buf (Elt F) ((sGb).view.loc (thr1 d L))) (off : Fin 1 → ℕ) (inb : ∀ a, off a + S128.size a ≤ S229376.size a)
      (hr : ∀ a, (Rect.unit (s := S229376) off S128.size inb).stride a = 1) (x : S128.Idx),
      ((sGb).view.read (Elt F) (View.write (Elt F) sGb.view g (ReadAs.same.apply (View.read (Elt F) (aOrn.slice (Rect.unit (s := S229376) off S128.size inb) hr).view (tOrn m d))) Finset.univ) x).toNat < 28672 := by
  intro g off inb hr x
  rw [View.write_whole_univ]
  obtain ⟨j, rfl⟩ : ∃ j : Fin 128, x = ValueIdx.ix1 j := ⟨x 0, ValueIdx.eq_ix1 x⟩
  have hle : off 0 + 128 ≤ 229376 := inb 0
  show (((aOrn).slice (Rect.unit (s := S229376) off S128.size inb) (fun _ => rfl)).view.read (Elt F) (tOrn m d) (ValueIdx.ix1 j) : BitVec 32).toNat < 28672
  rw [orn_slice_read m d off inb j]
  exact tgt_inb m d hRg _ (by have := j.isLt; omega)

theorem orn_rows_v (hRg : RangesOK m) (fP : Buf (Elt F) ((aPtab).view.loc (thr1 d L))) (hP : PtabOK m d fP)
    (fr : Buf (Elt F) ((sRv).view.loc (thr1 d L))) (fs : Buf (Elt F) ((sGv).view.loc (thr1 d L))) (pay : S128.Idx → Elt F .i32)
    (off : Fin 1 → ℕ) (hb : ∀ a, off a + S128.size a ≤ S229376.size a)
    (hpay : pay = ReadAs.same.apply (View.read (Elt F) ((aOrn).slice (Rect.unit (s := S229376) off S128.size hb) (fun _ => rfl)).view (tOrn m d)))
    (hpr2 : ∀ a, (Rect.unit (s := S28672x128) ![0, 0] S28672x128.size Gen.inb_S28672x128_S28672x128_0_0).stride a = 1)
    (hn : S128.numel = S128x128.size Gen.gathers_S28672x128_S128x128.axis')
    (hin : ∀ x, ((sGv).view.read (Elt F) (View.write (Elt F) (sGv).view fs pay Finset.univ) x).toNat
      < S28672x128.size Gen.gathers_S28672x128_S128x128.axis) :
    RowsAt m d (tgtId m d) (off 0) ((sRv).view.writes (Elt F) fr
      [⟨Rect.whole S128x128, SparseCore.gatherPayload Gen.gathers_S28672x128_S128x128
        (View.read (Elt F) ((aPtab).slice (Rect.unit ![0, 0] S28672x128.size Gen.inb_S28672x128_S28672x128_0_0) hpr2).view fP)
        (SparseCore.rows (View.read (Elt F) (sGv).view (View.write (Elt F) (sGv).view fs pay Finset.univ)) hn hin)⟩]) := by
  subst hpay
  have hPr : PtabOK m d (View.read (Elt F)
      ((aPtab).slice (Rect.unit ![0, 0] S28672x128.size Gen.inb_S28672x128_S28672x128_0_0) hpr2).view fP) := by
    rw [show View.read (Elt F) ((aPtab).slice (Rect.unit ![0, 0] S28672x128.size Gen.inb_S28672x128_S28672x128_0_0) hpr2).view fP = fP
      from ptab_slice_read d fP]
    exact hP
  have hids : ∀ j : Fin 128, (View.read (Elt F) (sGv).view (View.write (Elt F) (sGv).view fs
      (ReadAs.same.apply (View.read (Elt F) ((aOrn).slice (Rect.unit (s := S229376) off S128.size hb) (fun _ => rfl)).view (tOrn m d))) Finset.univ)
        (ValueIdx.ix1 j) : BitVec 32).toNat = tgtId m d (off 0 + j.val) := by
    intro j
    rw [View.write_whole_univ]
    exact orn_slice_read m d off hb j
  have G := gather_rowsAt m d (tgtId m d) (off 0) _ hPr _ hn hin hids
  intro r col hcol
  refine Eq.trans ?_ (G r col hcol)
  have e := Rect.emb_whole_apply S128x128 (ValueIdx.ix2 r col)
  conv_lhs => rw [← e]
  exact View.read_writes_cons_emb (sRv).view fr (Rect.whole S128x128) _ [] (ValueIdx.ix2 r col)
theorem orn_rows_b (hRg : RangesOK m) (fP : Buf (Elt F) ((aPtab).view.loc (thr1 d L))) (hP : PtabOK m d fP)
    (fr : Buf (Elt F) ((sRb).view.loc (thr1 d L))) (fs : Buf (Elt F) ((sGb).view.loc (thr1 d L))) (pay : S128.Idx → Elt F .i32)
    (off : Fin 1 → ℕ) (hb : ∀ a, off a + S128.size a ≤ S229376.size a)
    (hpay : pay = ReadAs.same.apply (View.read (Elt F) ((aOrn).slice (Rect.unit (s := S229376) off S128.size hb) (fun _ => rfl)).view (tOrn m d)))
    (hpr2 : ∀ a, (Rect.unit (s := S28672x128) ![0, 0] S28672x128.size Gen.inb_S28672x128_S28672x128_0_0).stride a = 1)
    (hn : S128.numel = S128x128.size Gen.gathers_S28672x128_S128x128.axis')
    (hin : ∀ x, ((sGb).view.read (Elt F) (View.write (Elt F) (sGb).view fs pay Finset.univ) x).toNat
      < S28672x128.size Gen.gathers_S28672x128_S128x128.axis) :
    RowsAt m d (tgtId m d) (off 0) ((sRb).view.writes (Elt F) fr
      [⟨Rect.whole S128x128, SparseCore.gatherPayload Gen.gathers_S28672x128_S128x128
        (View.read (Elt F) ((aPtab).slice (Rect.unit ![0, 0] S28672x128.size Gen.inb_S28672x128_S28672x128_0_0) hpr2).view fP)
        (SparseCore.rows (View.read (Elt F) (sGb).view (View.write (Elt F) (sGb).view fs pay Finset.univ)) hn hin)⟩]) := by
  subst hpay
  have hPr : PtabOK m d (View.read (Elt F)
      ((aPtab).slice (Rect.unit ![0, 0] S28672x128.size Gen.inb_S28672x128_S28672x128_0_0) hpr2).view fP) := by
    rw [show View.read (Elt F) ((aPtab).slice (Rect.unit ![0, 0] S28672x128.size Gen.inb_S28672x128_S28672x128_0_0) hpr2).view fP = fP
      from ptab_slice_read d fP]
    exact hP
  have hids : ∀ j : Fin 128, (View.read (Elt F) (sGb).view (View.write (Elt F) (sGb).view fs
      (ReadAs.same.apply (View.read (Elt F) ((aOrn).slice (Rect.unit (s := S229376) off S128.size hb) (fun _ => rfl)).view (tOrn m d))) Finset.univ)
        (ValueIdx.ix1 j) : BitVec 32).toNat = tgtId m d (off 0 + j.val) := by
    intro j
    rw [View.write_whole_univ]
    exact orn_slice_read m d off hb j
  have G := gather_rowsAt m d (tgtId m d) (off 0) _ hPr _ hn hin hids
  intro r col hcol
  refine Eq.trans ?_ (G r col hcol)
  have e := Rect.emb_whole_apply S128x128 (ValueIdx.ix2 r col)
  conv_lhs => rw [← e]
  exact View.read_writes_cons_emb (sRb).view fr (Rect.whole S128x128) _ [] (ValueIdx.ix2 r col)

end Tile

end Cert.KB

end
-- ==== Proof.Body1EdgesOuterBits.lean ====
import proofs.«205348_g71287867179597_cont_9to1c4b_113_38_alg».proof.Proof.Body1EdgesBits
import proofs.«205348_g71287867179597_cont_9to1c4b_113_38_alg».proof.Proof.Body1ValBits
import proofs.«205348_g71287867179597_cont_9to1c4b_113_38_alg».proof.Proof.Body1ValEBits

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Tactic

variable {F : FTy → Type} [FloatOps F] [Facts]
open Facts₀ Facts

variable (m : (ℓ : Loc nD τ sig) → Buf (Elt F) ℓ)

local notation "𝕄" => MT nD τ sig (HIx 2) (Elt F) ℕ UU ℕ

local macro:max "k1at% " f:term:max L:term:max : term =>
  `($f $L aPtab (Memref.isWhole_whole _) aVt (Memref.isWhole_whole _) aInf (Memref.isWhole_whole _) aWt (Memref.isWhole_whole _)
      aOrn (Memref.isWhole_whole _) aMrep (Memref.isWhole_whole _) aOut0 (Memref.isWhole_whole _) aOut1 (Memref.isWhole_whole _)
      sGv (Memref.isWhole_whole _) sGb (Memref.isWhole_whole _) sVx (Memref.isWhole_whole _) sVy (Memref.isWhole_whole _)
      sVz (Memref.isWhole_whole _) sWt (Memref.isWhole_whole _) sRv (Memref.isWhole_whole _) sRb (Memref.isWhole_whole _)
      sRc (Memref.isWhole_whole _) sOut (Memref.isWhole_whole _) sStg (Memref.isWhole_whole _) sAcc (Memref.isWhole_whole _)
      cc1_scratch12 cc1_scratch13 cc1_scoped0 cc1_scoped1 cc1_scoped2 cc1_scoped3 cc1_scoped4 cc1_scoped5 cc1_scoped6 cc1_scoped7
      cc1_scoped8 cc1_scoped9 cc1_scoped10 cc1_scoped11 cc1_scoped12 cc1_scoped13 cc1_scoped14 cc1_scoped15 cc1_scoped16
      cc1_scoped17 cc1_scoped18 cc1_scoped19 cc1_scoped20)

section Tile

variable (d : Dev nD) (L : grid1.Coords)

theorem wp_inner_bind {α β : Type} {p : Prog (TpuEff nD τ sig (Elt F) Λ₀ (thr1 d L).2) α} {kk : α → Prog (TpuEff nD τ sig (Elt F) Λ₀ (thr1 d L).2) β}
    {Pre : sProp 𝕄} {Q : α → sProp 𝕄} {Φ : β → sProp 𝕄}
    (h : Pre ⊢ wp frame (wpE (defs₀ (F := F)) 𝒱₀ (thr1 d L) none) Set.univ p Q) :
    Pre ⊢ iprop((∀ a, Q a -∗ wp frame (wpE (defs₀ (F := F)) 𝒱₀ (thr1 d L) none) Set.univ (kk a) Φ)
      -∗ wp frame (wpE (defs₀ (F := F)) 𝒱₀ (thr1 d L) none) Set.univ (p >>= kk) Φ) := by
  rw [wp_bind]
  iintro HP HK
  iapply (wp_wand_r frame _ Set.univ)
  isplitl [HP]
  · iapply h; iexact HP
  · iexact HK

omit [FloatOps F] [Facts] in
theorem waits_ins {W' W₀ : Waits sig (HIx 2)} (s : SemLoc sig) (h : ∀ p ∈ W', p ∈ W₀ ∨ p.2 = none) :
    ∀ p ∈ insert (s, (default : HIx 2)) W', p ∈ W₀ ∨ p.2 = none := by
  intro p hp
  rcases Finset.mem_insert.mp hp with hp | hp
  · exact .inr (hp ▸ rfl)
  · exact h p hp

def edgeInv (O : CellTallies nD τ sig (HIx 2)) (W₀ : Waits sig (HIx 2)) (fP : Buf (Elt F) ((aPtab).view.loc (thr1 d L)))
    (n : ℕ) (acc : FVec F S16 .f32 × FVec F S16 .f32) : sProp 𝕄 :=
  iprop(⌜acc = lossAcc m d (wL L) (64 * n)⌝
    ∗ Transfers.MayWaits (thr1 d L) (none : HIx 2) O
    ∗ ((aPtab).view.loc (thr1 d L) ↦{rd (wL L)} fP) ∗ ((aOrn).view.loc (thr1 d L) ↦{rd (wL L)} tOrn m d) ∗ ((aMrep).view.loc (thr1 d L) ↦{rd (wL L)} tMrep m d)
    ∗ (∃ f, (sGv).view.loc (thr1 d L) ↦{fullShare} f) ∗ (∃ f, (sGb).view.loc (thr1 d L) ↦{fullShare} f)
    ∗ (∃ f, (sRv).view.loc (thr1 d L) ↦{fullShare} f) ∗ (∃ f, (sRb).view.loc (thr1 d L) ↦{fullShare} f) ∗ (∃ f, (sRc).view.loc (thr1 d L) ↦{fullShare} f)
    ∗ (∃ f, (sStg).view.loc (thr1 d L) ↦{fullShare} f)
    ∗ semVal (thr1 d L, SemLoc.dma cc1_scratch12.sem) 0 ∗ semVal (thr1 d L, SemLoc.dma cc1_scratch13.sem) 0
    ∗ semVal (thr1 d L, SemLoc.dma cc1_scoped16.sem) 0 ∗ semVal (thr1 d L, SemLoc.dma cc1_scoped17.sem) 0
    ∗ semVal (thr1 d L, SemLoc.dma cc1_scoped18.sem) 0 ∗ semVal (thr1 d L, SemLoc.dma cc1_scoped19.sem) 0
    ∗ ∃ W', ⌜∀ p ∈ W', p ∈ W₀ ∨ p.2 = none⌝ ∗ owes (thr1 d L) O W')

def edgeInv14 (O : CellTallies nD τ sig (HIx 2)) (W₀ : Waits sig (HIx 2)) (fP : Buf (Elt F) ((aPtab).view.loc (thr1 d L)))
    (k : ℕ) (Fst : Buf (Elt F) ((sStg).view.loc (thr1 d L))) (Fwin : Buf (Elt F) ((sRc).view.loc (thr1 d L)))
    (j : ℕ) (acc : FVec F S16 .f32 × FVec F S16 .f32) : sProp 𝕄 :=
  iprop(⌜acc = lossAcc m d (wL L) (64 * k + 16 * j)⌝
    ∗ Transfers.MayWaits (thr1 d L) (none : HIx 2) O
    ∗ ((aPtab).view.loc (thr1 d L) ↦{rd (wL L)} fP) ∗ ((aOrn).view.loc (thr1 d L) ↦{rd (wL L)} tOrn m d)
    ∗ (∃ f, (sGv).view.loc (thr1 d L) ↦{fullShare} f) ∗ (∃ f, (sGb).view.loc (thr1 d L) ↦{fullShare} f)
    ∗ (∃ f, (sRv).view.loc (thr1 d L) ↦{fullShare} f) ∗ (∃ f, (sRb).view.loc (thr1 d L) ↦{fullShare} f)
    ∗ ((sRc).view.loc (thr1 d L) ↦{fullShare} Fwin) ∗ ((sStg).view.loc (thr1 d L) ↦{fullShare} Fst)
    ∗ semVal (thr1 d L, SemLoc.dma cc1_scratch12.sem) 0 ∗ semVal (thr1 d L, SemLoc.dma cc1_scratch13.sem) 0
    ∗ semVal (thr1 d L, SemLoc.dma cc1_scoped18.sem) 0 ∗ semVal (thr1 d L, SemLoc.dma cc1_scoped19.sem) 0
    ∗ ∃ W', ⌜∀ p ∈ W', p ∈ W₀ ∨ p.2 = none⌝ ∗ owes (thr1 d L) O W')

set_option maxHeartbeats 4000000 in
theorem t14_trip (hRg : RangesOK m) (O : CellTallies nD τ sig (HIx 2)) (W₀ : Waits sig (HIx 2))
    (fP : Buf (Elt F) ((aPtab).view.loc (thr1 d L))) (hP : PtabOK m d fP)
    (k : Fin k1_t13_loop.trips) (v77 : BitVec 32) (hv77 : v77.toNat = eRow (wL L) k.val)
    (Fst : Buf (Elt F) ((sStg).view.loc (thr1 d L))) (Fwin : Buf (Elt F) ((sRc).view.loc (thr1 d L)))
    (hst : StgOK m d (wL L) k.val Fst) (hwin : RowsAt m d id (eRow (wL L) k.val) Fwin)
    (j : Fin k1_t14_loop.trips) (acc : FVec F S16 .f32 × FVec F S16 .f32) :
    edgeInv14 m d L O W₀ fP k.val Fst Fwin j.val acc
      ⊢ wp frame (wpE (defs₀ (F := F)) 𝒱₀ (thr1 d L) none) Set.univ
          ((k1at% k1_t14_body L) (bv1 L) bv2 k1_pay111 (bv5 L) k v77 j acc)
          (edgeInv14 m d L O W₀ fP k.val Fst Fwin (j.val + 1)) := by
  have hinv := orn_gv_inb m d L hRg
  have hinb := orn_gb_inb m d L hRg
  unfold edgeInv14 k1_t14_body
  iintro ⟨%hacc, #Hmw, HP, Horn, ⟨%fgv, Hgv⟩, ⟨%fgb, Hgb⟩, ⟨%frv, Hrv⟩, ⟨%frb, Hrb⟩, Hrc, Hst, Hs12, Hs13, Hs18, Hs19, %W', %hW', HO⟩
  ihave HP2 := ((pointsTo_share (PosShare.mem_left_op_right (rd (wL L)))).1) $$ HP
  icases HP2 with ⟨HPl, HPr⟩
  sl_exec
  iapply (wp_inner_bind d L (t15_wp' m d L hRg k j v77 _ hv77 Fst Fwin _ hst hwin ?hrv (acc.1, acc.2) hacc)) $$ [Hst Hrc Hrv]
  rotate_left
  · isplitl [Hst]; · iexact Hst
    isplitl [Hrc]; · iexact Hrc
    iexact Hrv
  case hrv =>
    rw [← show (k1_off22 L k j) 0 = ePos (wL L) k.val + 256 * j.val from by rw [off22_eq']; rfl]
    exact orn_rows_v m d L hRg fP hP _ fgv _ (k1_off22 L k j) (Gen.k1_off22_inb L k j) rfl _ _ _
  iintro %acc1 H1
  rcases acc1 with ⟨a1, a2⟩
  icases H1 with ⟨%hacc1, Hst, Hrc, Hrv⟩
  sl_exec
  iapply (wp_inner_bind d L (t16_wp' m d L hRg k j v77 _ hv77 Fst Fwin _ hst hwin ?hrb (a1, a2) hacc1)) $$ [Hst Hrc Hrb]
  rotate_left
  · isplitl [Hst]; · iexact Hst
    isplitl [Hrc]; · iexact Hrc
    iexact Hrb
  case hrb =>
    rw [← show (k1_off23 L k j) 0 = ePos (wL L) k.val + 256 * j.val + 128 from by rw [off23_eq']; rfl]
    exact orn_rows_b m d L hRg fP hP _ fgb _ (k1_off23 L k j) (Gen.k1_off23_inb L k j) rfl _ _ _
  iintro %acc2 H2
  rcases acc2 with ⟨b1, b2⟩
  icases H2 with ⟨%hacc2, Hst, Hrc, Hrb⟩
  sl_exec
  sl_step
  ihave HP := ((pointsTo_share (PosShare.mem_left_op_right (rd (wL L)))).2) $$ [HPl HPr]
  · isplitl [HPl]; · iexact HPl
    iexact HPr
  isplitr
  · ipureintro; exact hacc2.trans (congrArg (lossAcc m d (wL L)) (by omega))
  isplitr; · iexact Hmw
  isplitl [HP]; · iexact HP
  isplitl [Horn]; · iexact Horn
  isplitl [Hgv]; · iexists _; iexact Hgv
  isplitl [Hgb]; · iexists _; iexact Hgb
  isplitl [Hrv]; · iexists _; iexact Hrv
  isplitl [Hrb]; · iexists _; iexact Hrb
  isplitl [Hrc]; · iexact Hrc
  isplitl [Hst]; · iexact Hst
  isplitl [Hs12]; · iexact Hs12
  isplitl [Hs13]; · iexact Hs13
  isplitl [Hs18]; · iexact Hs18
  isplitl [Hs19]; · iexact Hs19
  iexists _; isplitr
  rotate_left
  · iexact HO
  · ipureintro; exact waits_ins _ (waits_ins _ (waits_ins _ (waits_ins _ hW')))

set_option maxHeartbeats 4000000 in
theorem t13_trip (hRg : RangesOK m) (O : CellTallies nD τ sig (HIx 2)) (W₀ : Waits sig (HIx 2))
    (fP : Buf (Elt F) ((aPtab).view.loc (thr1 d L))) (hP : PtabOK m d fP)
    (k : Fin k1_t13_loop.trips) (acc : FVec F S16 .f32 × FVec F S16 .f32) :
    edgeInv m d L O W₀ fP k.val acc
      ⊢ wp frame (wpE (defs₀ (F := F)) 𝒱₀ (thr1 d L) none) Set.univ
          ((k1at% k1_t13_body L) (bv1 L) bv2 k1_pay111 (bv5 L) (Scalar.muli (bv1 L) 7168#32) k acc)
          (edgeInv m d L O W₀ fP (k.val + 1)) := by
  unfold edgeInv k1_t13_body
  iintro ⟨%hacc, #Hmw, HP, Horn, Hmrep, ⟨%fgv, Hgv⟩, ⟨%fgb, Hgb⟩, ⟨%frv, Hrv⟩, ⟨%frb, Hrb⟩, ⟨%frc, Hrc⟩, ⟨%fst, Hst⟩, Hs12, Hs13, Hs16, Hs17, Hs18, Hs19, %W', %hW', HO⟩
  sl_exec
  sl_for (edgeInv14 m d L O W₀ fP k.val (View.write (Elt F) (sStg).view fst (t13_trip.sl.dma0 m d L k) Finset.univ)
      (View.write (Elt F) (sRc).view frc (t13_trip.sl.dma0_1 d L fP k) Finset.univ)) $$ [HP Horn Hgv Hgb Hrv Hrb Hrc Hst Hs12 Hs13 Hs18 Hs19 HO]
  case region =>
    intro j acc'
    exact t14_trip m d L hRg O W₀ fP hP k _ (mult1_toNat L k) _ _ (stg_ok m d L k fst _ rfl) (win_ok m d L fP hP k frc _ rfl) j acc'
  · unfold edgeInv14
    isplitr
    · ipureintro; exact hacc.trans (congrArg (lossAcc m d (wL L)) (by omega))
    isplitr; · iexact Hmw
    isplitl [HP]; · iexact HP
    isplitl [Horn]; · iexact Horn
    isplitl [Hgv]; · iexists _; iexact Hgv
    isplitl [Hgb]; · iexists _; iexact Hgb
    isplitl [Hrv]; · iexists _; iexact Hrv
    isplitl [Hrb]; · iexists _; iexact Hrb
    isplitl [Hrc]; · iexact Hrc
    isplitl [Hst]; · iexact Hst
    isplitl [Hs12]; · iexact Hs12
    isplitl [Hs13]; · iexact Hs13
    isplitl [Hs18]; · iexact Hs18
    isplitl [Hs19]; · iexact Hs19
    iexists _; isplitr
    rotate_left
    · iexact HO
    · ipureintro; exact waits_ins _ (waits_ins _ hW')
  iintro %acc2 HI
  rcases acc2 with ⟨b1, b2⟩
  unfold edgeInv14
  icases HI with ⟨%hacc2, -, HP, Horn, ⟨%fgv', Hgv⟩, ⟨%fgb', Hgb⟩, ⟨%frv', Hrv⟩, ⟨%frb', Hrb⟩, Hrc, Hst, Hs12, Hs13, Hs18, Hs19, %W'', %hW'', HO⟩
  sl_exec
  sl_step
  isplitr
  · ipureintro; exact hacc2.trans (congrArg (lossAcc m d (wL L)) (by simp only [show k1_t14_loop.trips = 4 from rfl]; omega))
  isplitr; · iexact Hmw
  isplitl [HP]; · iexact HP
  isplitl [Horn]; · iexact Horn
  isplitl [Hmrep]; · iexact Hmrep
  isplitl [Hgv]; · iexists _; iexact Hgv
  isplitl [Hgb]; · iexists _; iexact Hgb
  isplitl [Hrv]; · iexists _; iexact Hrv
  isplitl [Hrb]; · iexists _; iexact Hrb
  isplitl [Hrc]; · iexists _; iexact Hrc
  isplitl [Hst]; · iexists _; iexact Hst
  isplitl [Hs12]; · iexact Hs12
  isplitl [Hs13]; · iexact Hs13
  isplitl [Hs16]; · iexact Hs16
  isplitl [Hs17]; · iexact Hs17
  isplitl [Hs18]; · iexact Hs18
  isplitl [Hs19]; · iexact Hs19
  iexists _; isplitr
  · ipureintro; exact hW''
  · iexact HO

set_option maxHeartbeats 4000000 in
theorem edge_wp' (hRg : RangesOK m) (O : CellTallies nD τ sig (HIx 2)) (W₀ W : Waits sig (HIx 2))
    (hW : ∀ p ∈ W, p ∈ W₀ ∨ p.2 = none)
    (fP : Buf (Elt F) ((aPtab).view.loc (thr1 d L))) (hP : PtabOK m d fP) :
    iprop(Transfers.MayWaits (thr1 d L) (none : HIx 2) O
        ∗ ((aPtab).view.loc (thr1 d L) ↦{rd (wL L)} fP) ∗ ((aOrn).view.loc (thr1 d L) ↦{rd (wL L)} tOrn m d) ∗ ((aMrep).view.loc (thr1 d L) ↦{rd (wL L)} tMrep m d)
        ∗ (∃ f, (sGv).view.loc (thr1 d L) ↦{fullShare} f) ∗ (∃ f, (sGb).view.loc (thr1 d L) ↦{fullShare} f)
        ∗ (∃ f, (sRv).view.loc (thr1 d L) ↦{fullShare} f) ∗ (∃ f, (sRb).view.loc (thr1 d L) ↦{fullShare} f) ∗ (∃ f, (sRc).view.loc (thr1 d L) ↦{fullShare} f)
        ∗ (∃ f, (sStg).view.loc (thr1 d L) ↦{fullShare} f)
        ∗ semVal (thr1 d L, SemLoc.dma cc1_scratch12.sem) 0 ∗ semVal (thr1 d L, SemLoc.dma cc1_scratch13.sem) 0
        ∗ semVal (thr1 d L, SemLoc.dma cc1_scoped16.sem) 0 ∗ semVal (thr1 d L, SemLoc.dma cc1_scoped17.sem) 0
        ∗ semVal (thr1 d L, SemLoc.dma cc1_scoped18.sem) 0 ∗ semVal (thr1 d L, SemLoc.dma cc1_scoped19.sem) 0
        ∗ owes (thr1 d L) O W)
      ⊢ (wp frame (wpE (defs₀ (F := F)) 𝒱₀ (thr1 d L) none) Set.univ
          (Scf.Loop.for k1_t13_loop Facts₀.k1_t13_ok (k1_pay112 (F := F), k1_pay113 (F := F))
            ((k1at% k1_t13_body L) (bv1 L) bv2 k1_pay111 (bv5 L) (Scalar.muli (bv1 L) 7168#32)))
          fun acc => iprop(⌜acc = lossAcc m d (wL L) 448⌝
            ∗ Transfers.MayWaits (thr1 d L) (none : HIx 2) O
            ∗ ((aPtab).view.loc (thr1 d L) ↦{rd (wL L)} fP) ∗ ((aOrn).view.loc (thr1 d L) ↦{rd (wL L)} tOrn m d) ∗ ((aMrep).view.loc (thr1 d L) ↦{rd (wL L)} tMrep m d)
            ∗ (∃ f, (sGv).view.loc (thr1 d L) ↦{fullShare} f) ∗ (∃ f, (sGb).view.loc (thr1 d L) ↦{fullShare} f)
            ∗ (∃ f, (sRv).view.loc (thr1 d L) ↦{fullShare} f) ∗ (∃ f, (sRb).view.loc (thr1 d L) ↦{fullShare} f) ∗ (∃ f, (sRc).view.loc (thr1 d L) ↦{fullShare} f)
            ∗ (∃ f, (sStg).view.loc (thr1 d L) ↦{fullShare} f)
            ∗ semVal (thr1 d L, SemLoc.dma cc1_scratch12.sem) 0 ∗ semVal (thr1 d L, SemLoc.dma cc1_scratch13.sem) 0
            ∗ semVal (thr1 d L, SemLoc.dma cc1_scoped16.sem) 0 ∗ semVal (thr1 d L, SemLoc.dma cc1_scoped17.sem) 0
            ∗ semVal (thr1 d L, SemLoc.dma cc1_scoped18.sem) 0 ∗ semVal (thr1 d L, SemLoc.dma cc1_scoped19.sem) 0
            ∗ ∃ W', ⌜∀ p ∈ W', p ∈ W₀ ∨ p.2 = none⌝ ∗ owes (thr1 d L) O W') : sProp 𝕄) := by
  iintro ⟨#Hmw, HP, Horn, Hmrep, Hgv, Hgb, Hrv, Hrb, Hrc, Hst, Hs12, Hs13, Hs16, Hs17, Hs18, Hs19, HO⟩
  sl_for (edgeInv m d L O W₀ fP) $$ [HP Horn Hmrep Hgv Hgb Hrv Hrb Hrc Hst Hs12 Hs13 Hs16 Hs17 Hs18 Hs19 HO]
  case region =>
    intro k acc
    exact t13_trip m d L hRg O W₀ fP hP k acc
  isplitl [HP Horn Hmrep Hgv Hgb Hrv Hrb Hrc Hst Hs12 Hs13 Hs16 Hs17 Hs18 Hs19 HO]
  · unfold edgeInv
    isplitr; · ipureintro; rfl
    isplitr; · iexact Hmw
    isplitl [HP]; · iexact HP
    isplitl [Horn]; · iexact Horn
    isplitl [Hmrep]; · iexact Hmrep
    isplitl [Hgv]; · iexact Hgv
    isplitl [Hgb]; · iexact Hgb
    isplitl [Hrv]; · iexact Hrv
    isplitl [Hrb]; · iexact Hrb
    isplitl [Hrc]; · iexact Hrc
    isplitl [Hst]; · iexact Hst
    isplitl [Hs12]; · iexact Hs12
    isplitl [Hs13]; · iexact Hs13
    isplitl [Hs16]; · iexact Hs16
    isplitl [Hs17]; · iexact Hs17
    isplitl [Hs18]; · iexact Hs18
    isplitl [Hs19]; · iexact Hs19
    iexists W; isplitr
    · ipureintro; exact hW
    · iexact HO
  iintro %acc HI
  unfold edgeInv
  icases HI with ⟨%hacc, Hrest⟩
  isplitr
  · ipureintro; exact hacc.trans (congrArg (lossAcc m d (wL L)) (by simp only [show k1_t13_loop.trips = 7 from rfl]))
  · iexact Hrest

end Tile

end Cert.KB

end
-- ==== Proof.Body1Blend_t4Bits.lean ====
import proofs.«205348_g71287867179597_cont_9to1c4b_113_38_alg».proof.Proof.Body1BlendBits

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F] [Facts]
open Facts₀ Facts

variable (m : (ℓ : Loc nD τ sig) → Buf (Elt F) ℓ)

local notation "𝕄" => MT nD τ sig (HIx 2) (Elt F) ℕ UU ℕ
variable (d : Dev nD) (L : grid1.Coords)

local macro:max "k1at% " f:term:max L:term:max : term =>
  `($f $L aPtab (Memref.isWhole_whole _) aVt (Memref.isWhole_whole _) aInf (Memref.isWhole_whole _) aWt (Memref.isWhole_whole _)
      aOrn (Memref.isWhole_whole _) aMrep (Memref.isWhole_whole _) aOut0 (Memref.isWhole_whole _) aOut1 (Memref.isWhole_whole _)
      sGv (Memref.isWhole_whole _) sGb (Memref.isWhole_whole _) sVx (Memref.isWhole_whole _) sVy (Memref.isWhole_whole _)
      sVz (Memref.isWhole_whole _) sWt (Memref.isWhole_whole _) sRv (Memref.isWhole_whole _) sRb (Memref.isWhole_whole _)
      sRc (Memref.isWhole_whole _) sOut (Memref.isWhole_whole _) sStg (Memref.isWhole_whole _) sAcc (Memref.isWhole_whole _)
      cc1_scratch12 cc1_scratch13 cc1_scoped0 cc1_scoped1 cc1_scoped2 cc1_scoped3 cc1_scoped4 cc1_scoped5 cc1_scoped6 cc1_scoped7
      cc1_scoped8 cc1_scoped9 cc1_scoped10 cc1_scoped11 cc1_scoped12 cc1_scoped13 cc1_scoped14 cc1_scoped15 cc1_scoped16
      cc1_scoped17 cc1_scoped18 cc1_scoped19 cc1_scoped20)

theorem t4_trip
    (R : Buf (Elt F) ((sRv).view.loc (thr1 d L))) (X : Buf (Elt F) ((sVx).view.loc (thr1 d L))) (Y : Buf (Elt F) ((sVy).view.loc (thr1 d L)))
    (Z : Buf (Elt F) ((sVz).view.loc (thr1 d L))) (W : Buf (Elt F) ((sWt).view.loc (thr1 d L))) (g : Buf (Elt F) ((sOut).view.loc (thr1 d L)))
    (hR : RowsAt m d (infId m d) (0 * 53248 + (wL L).val * 1664 + 128 * (12)) R) (hC : CoordsOK m d L 0 X Y Z W)
    (n : Fin k1_t4_loop.trips) (u : Unit) :
    blendInv m d L sRv false 0 (12) R X Y Z W g n.val u
      ⊢ wp frame (wpE (defs₀ (F := F)) 𝒱₀ (thr1 d L) none) Set.univ
          ((k1at% k1_t4_body L) bv2 k1_pay111 (bv5 L) n u)
          (blendInv m d L sRv false 0 (12) R X Y Z W g (n.val + 1)) := by
  have hn : n.val < 8 := lt_of_lt_of_le n.isLt k1_t4_abs.2.1
  unfold k1_t4_body
  simp only [k1_part5_eq_skeleton, k1_part6_eq_skeleton]
  unfold k1_part5_skel k1_part6_skel
  simp only [Prog.lift, Prog.bind_op, Prog.bind_ret, Prog.pure_eq_ret, bind_assoc, pure_bind]
  have hb := base_tail n.val hn
  have flat0 := fun x => flatIdx_toNat _ (128 * (12) + 16 * n.val) (by omega) hb x
  have flat1 := fun x => flatIdx1_toNat _ _ (by have hx : (x 0).val < 16 := (x 0).isLt; omega) x (flat0 x)
  have flat2 := fun x => flatIdx2_toNat _ _ (by have hx : (x 0).val < 16 := (x 0).isLt; omega) x (flat0 x)
  have hrow := fun x => rowIdx_toNat n.val hn x
  unfold blendInv
  iintro ⟨HR, HX, HY, HZ, HW, %g', %hP, HO⟩
  iterate 12 (iapply (wp_rowWord m d L 0 (12) n.val _ hR (Memref.read_access_whole (Elt F) (cc1_scratch6 : Ref sig .scVector) R) ?hc hn hrow) $$ HR; (case hc => omega); iintro HR)
  iapply (wp_assume 𝒱₀ (thr1 d L) none Set.univ (rows_inb _ _ (fun x => (hrow x).trans_lt (by have hx : (x 0).val < 16 := (x 0).isLt; omega)) (fun x => (colIdx_toNat 12 (by omega) x).trans_lt (by omega))))
  iapply (wp_rowWord' m d L 0 (12) n.val 12 hR (Memref.read_access_whole (Elt F) (cc1_scratch6 : Ref sig .scVector) R) (by omega) hn hrow) $$ HR; iintro HR
  iterate 2 (iapply (wp_rowWord m d L 0 (12) n.val _ hR (Memref.read_access_whole (Elt F) (cc1_scratch6 : Ref sig .scVector) R) ?hc hn hrow) $$ HR; (case hc => omega); iintro HR)
  iapply (wp_slice16 d L _ _ _ ((wL L).val * 1664 + (128 * (12) + 16 * n.val)) hC.1 (by omega) (k1_off8_eq n)) $$ HX; iintro HX
  iapply (wp_slice16 d L _ _ _ (53248 + ((wL L).val * 1664 + (128 * (12) + 16 * n.val))) hC.2.1 (by omega) (k1_off8_eq n)) $$ HY; iintro HY
  iapply (wp_slice16 d L _ _ _ (2 * 53248 + ((wL L).val * 1664 + (128 * (12) + 16 * n.val))) hC.2.2.1 (by omega) (k1_off8_eq n)) $$ HZ; iintro HZ
  iapply (wp_slice16 d L _ _ _ (0 * 53248 + ((wL L).val * 1664 + (128 * (12) + 16 * n.val))) hC.2.2.2 (by omega) (k1_off8_eq n)) $$ HW; iintro HW
  iapply (wp_outStore d L (fun x => (flat0 x).trans_lt (by have hx : (x 0).val < 16 := (x 0).isLt; omega))) $$ HO; iintro HO
  iapply (wp_outStore d L (fun x => (flat1 x).trans_lt (by have hx : (x 0).val < 16 := (x 0).isLt; omega))) $$ HO; iintro HO
  iapply (wp_outStore d L (fun x => (flat2 x).trans_lt (by have hx : (x 0).val < 16 := (x 0).isLt; omega))) $$ HO; iintro HO
  rw [wp_ret]; imodintro
  iframe HR HX HY HZ HW
  iexists _; isplitr; swap; · iexact HO
  ipureintro
  exact partDone_step m d L false 0 (12) n.val (by omega) hn g g' _ _ _ _ _ _ flat0 flat1 flat2 _ _ _ rfl rfl rfl hP

theorem k1_t4_trips : k1_t4_loop.trips = 8 := by decide

end Cert.KB

end
-- ==== Proof.Body1Blend_t8Bits.lean ====
import proofs.«205348_g71287867179597_cont_9to1c4b_113_38_alg».proof.Proof.Body1BlendBits

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F] [Facts]
open Facts₀ Facts

variable (m : (ℓ : Loc nD τ sig) → Buf (Elt F) ℓ)

local notation "𝕄" => MT nD τ sig (HIx 2) (Elt F) ℕ UU ℕ
variable (d : Dev nD) (L : grid1.Coords)

local macro:max "k1at% " f:term:max L:term:max : term =>
  `($f $L aPtab (Memref.isWhole_whole _) aVt (Memref.isWhole_whole _) aInf (Memref.isWhole_whole _) aWt (Memref.isWhole_whole _)
      aOrn (Memref.isWhole_whole _) aMrep (Memref.isWhole_whole _) aOut0 (Memref.isWhole_whole _) aOut1 (Memref.isWhole_whole _)
      sGv (Memref.isWhole_whole _) sGb (Memref.isWhole_whole _) sVx (Memref.isWhole_whole _) sVy (Memref.isWhole_whole _)
      sVz (Memref.isWhole_whole _) sWt (Memref.isWhole_whole _) sRv (Memref.isWhole_whole _) sRb (Memref.isWhole_whole _)
      sRc (Memref.isWhole_whole _) sOut (Memref.isWhole_whole _) sStg (Memref.isWhole_whole _) sAcc (Memref.isWhole_whole _)
      cc1_scratch12 cc1_scratch13 cc1_scoped0 cc1_scoped1 cc1_scoped2 cc1_scoped3 cc1_scoped4 cc1_scoped5 cc1_scoped6 cc1_scoped7
      cc1_scoped8 cc1_scoped9 cc1_scoped10 cc1_scoped11 cc1_scoped12 cc1_scoped13 cc1_scoped14 cc1_scoped15 cc1_scoped16
      cc1_scoped17 cc1_scoped18 cc1_scoped19 cc1_scoped20)

theorem t8_trip
    (R : Buf (Elt F) ((sRv).view.loc (thr1 d L))) (X : Buf (Elt F) ((sVx).view.loc (thr1 d L))) (Y : Buf (Elt F) ((sVy).view.loc (thr1 d L)))
    (Z : Buf (Elt F) ((sVz).view.loc (thr1 d L))) (W : Buf (Elt F) ((sWt).view.loc (thr1 d L))) (g : Buf (Elt F) ((sOut).view.loc (thr1 d L)))
    (hR : RowsAt m d (infId m d) (1 * 53248 + (wL L).val * 1664 + 128 * (12)) R) (hC : CoordsOK m d L 1 X Y Z W)
    (n : Fin k1_t8_loop.trips) (u : Unit) :
    blendInv m d L sRv true 1 (12) R X Y Z W g n.val u
      ⊢ wp frame (wpE (defs₀ (F := F)) 𝒱₀ (thr1 d L) none) Set.univ
          ((k1at% k1_t8_body L) bv2 k1_pay111 (bv5 L) n u)
          (blendInv m d L sRv true 1 (12) R X Y Z W g (n.val + 1)) := by
  have hn : n.val < 8 := lt_of_lt_of_le n.isLt k1_t8_abs.2.1
  unfold k1_t8_body
  simp only [k1_part11_eq_skeleton, k1_part12_eq_skeleton]
  unfold k1_part11_skel k1_part12_skel
  simp only [Prog.lift, Prog.bind_op, Prog.bind_ret, Prog.pure_eq_ret, bind_assoc, pure_bind]
  have hb := base_tail n.val hn
  have flat0 := fun x => flatIdx_toNat _ (128 * (12) + 16 * n.val) (by omega) hb x
  have flat1 := fun x => flatIdx1_toNat _ _ (by have hx : (x 0).val < 16 := (x 0).isLt; omega) x (flat0 x)
  have flat2 := fun x => flatIdx2_toNat _ _ (by have hx : (x 0).val < 16 := (x 0).isLt; omega) x (flat0 x)
  have hrow := fun x => rowIdx_toNat n.val hn x
  unfold blendInv
  iintro ⟨HR, HX, HY, HZ, HW, %g', %hP, HO⟩
  iterate 12 (iapply (wp_rowWord m d L 1 (12) n.val _ hR (Memref.read_access_whole (Elt F) (cc1_scratch6 : Ref sig .scVector) R) ?hc hn hrow) $$ HR; (case hc => omega); iintro HR)
  iapply (wp_assume 𝒱₀ (thr1 d L) none Set.univ (rows_inb _ _ (fun x => (hrow x).trans_lt (by have hx : (x 0).val < 16 := (x 0).isLt; omega)) (fun x => (colIdx_toNat 12 (by omega) x).trans_lt (by omega))))
  iapply (wp_rowWord' m d L 1 (12) n.val 12 hR (Memref.read_access_whole (Elt F) (cc1_scratch6 : Ref sig .scVector) R) (by omega) hn hrow) $$ HR; iintro HR
  iterate 2 (iapply (wp_rowWord m d L 1 (12) n.val _ hR (Memref.read_access_whole (Elt F) (cc1_scratch6 : Ref sig .scVector) R) ?hc hn hrow) $$ HR; (case hc => omega); iintro HR)
  iapply (wp_slice16 d L _ _ _ ((wL L).val * 1664 + (128 * (12) + 16 * n.val)) hC.1 (by omega) (k1_off13_eq n)) $$ HX; iintro HX
  iapply (wp_slice16 d L _ _ _ (53248 + ((wL L).val * 1664 + (128 * (12) + 16 * n.val))) hC.2.1 (by omega) (k1_off13_eq n)) $$ HY; iintro HY
  iapply (wp_slice16 d L _ _ _ (2 * 53248 + ((wL L).val * 1664 + (128 * (12) + 16 * n.val))) hC.2.2.1 (by omega) (k1_off13_eq n)) $$ HZ; iintro HZ
  iapply (wp_slice16 d L _ _ _ (1 * 53248 + ((wL L).val * 1664 + (128 * (12) + 16 * n.val))) hC.2.2.2 (by omega) (k1_off13_eq n)) $$ HW; iintro HW
  iapply (wp_outStore d L (fun x => (flat0 x).trans_lt (by have hx : (x 0).val < 16 := (x 0).isLt; omega))) $$ HO; iintro HO
  iapply (wp_outStore d L (fun x => (flat1 x).trans_lt (by have hx : (x 0).val < 16 := (x 0).isLt; omega))) $$ HO; iintro HO
  iapply (wp_outStore d L (fun x => (flat2 x).trans_lt (by have hx : (x 0).val < 16 := (x 0).isLt; omega))) $$ HO; iintro HO
  rw [wp_ret]; imodintro
  iframe HR HX HY HZ HW
  iexists _; isplitr; swap; · iexact HO
  ipureintro
  exact partDone_step m d L true 1 (12) n.val (by omega) hn g g' _ _ _ _ _ _ flat0 flat1 flat2 _ _ _ rfl rfl rfl hP

theorem k1_t8_trips : k1_t8_loop.trips = 8 := by decide

end Cert.KB

end
-- ==== Proof.Body1Blend_t12Bits.lean ====
import proofs.«205348_g71287867179597_cont_9to1c4b_113_38_alg».proof.Proof.Body1BlendBits

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F] [Facts]
open Facts₀ Facts

variable (m : (ℓ : Loc nD τ sig) → Buf (Elt F) ℓ)

local notation "𝕄" => MT nD τ sig (HIx 2) (Elt F) ℕ UU ℕ
variable (d : Dev nD) (L : grid1.Coords)

local macro:max "k1at% " f:term:max L:term:max : term =>
  `($f $L aPtab (Memref.isWhole_whole _) aVt (Memref.isWhole_whole _) aInf (Memref.isWhole_whole _) aWt (Memref.isWhole_whole _)
      aOrn (Memref.isWhole_whole _) aMrep (Memref.isWhole_whole _) aOut0 (Memref.isWhole_whole _) aOut1 (Memref.isWhole_whole _)
      sGv (Memref.isWhole_whole _) sGb (Memref.isWhole_whole _) sVx (Memref.isWhole_whole _) sVy (Memref.isWhole_whole _)
      sVz (Memref.isWhole_whole _) sWt (Memref.isWhole_whole _) sRv (Memref.isWhole_whole _) sRb (Memref.isWhole_whole _)
      sRc (Memref.isWhole_whole _) sOut (Memref.isWhole_whole _) sStg (Memref.isWhole_whole _) sAcc (Memref.isWhole_whole _)
      cc1_scratch12 cc1_scratch13 cc1_scoped0 cc1_scoped1 cc1_scoped2 cc1_scoped3 cc1_scoped4 cc1_scoped5 cc1_scoped6 cc1_scoped7
      cc1_scoped8 cc1_scoped9 cc1_scoped10 cc1_scoped11 cc1_scoped12 cc1_scoped13 cc1_scoped14 cc1_scoped15 cc1_scoped16
      cc1_scoped17 cc1_scoped18 cc1_scoped19 cc1_scoped20)

theorem t12_trip
    (R : Buf (Elt F) ((sRv).view.loc (thr1 d L))) (X : Buf (Elt F) ((sVx).view.loc (thr1 d L))) (Y : Buf (Elt F) ((sVy).view.loc (thr1 d L)))
    (Z : Buf (Elt F) ((sVz).view.loc (thr1 d L))) (W : Buf (Elt F) ((sWt).view.loc (thr1 d L))) (g : Buf (Elt F) ((sOut).view.loc (thr1 d L)))
    (hR : RowsAt m d (infId m d) (2 * 53248 + (wL L).val * 1664 + 128 * (12)) R) (hC : CoordsOK m d L 2 X Y Z W)
    (n : Fin k1_t12_loop.trips) (u : Unit) :
    blendInv m d L sRv true 2 (12) R X Y Z W g n.val u
      ⊢ wp frame (wpE (defs₀ (F := F)) 𝒱₀ (thr1 d L) none) Set.univ
          ((k1at% k1_t12_body L) (bv1 L) bv2 k1_pay111 (bv5 L) n u)
          (blendInv m d L sRv true 2 (12) R X Y Z W g (n.val + 1)) := by
  have hn : n.val < 8 := lt_of_lt_of_le n.isLt k1_t12_abs.2.1
  unfold k1_t12_body
  simp only [k1_part17_eq_skeleton, k1_part18_eq_skeleton]
  unfold k1_part17_skel k1_part18_skel
  simp only [Prog.lift, Prog.bind_op, Prog.bind_ret, Prog.pure_eq_ret, bind_assoc, pure_bind]
  have hb := base_tail n.val hn
  have flat0 := fun x => flatIdx_toNat _ (128 * (12) + 16 * n.val) (by omega) hb x
  have flat1 := fun x => flatIdx1_toNat _ _ (by have hx : (x 0).val < 16 := (x 0).isLt; omega) x (flat0 x)
  have flat2 := fun x => flatIdx2_toNat _ _ (by have hx : (x 0).val < 16 := (x 0).isLt; omega) x (flat0 x)
  have hrow := fun x => rowIdx_toNat n.val hn x
  unfold blendInv
  iintro ⟨HR, HX, HY, HZ, HW, %g', %hP, HO⟩
  iterate 12 (iapply (wp_rowWord m d L 2 (12) n.val _ hR (Memref.read_access_whole (Elt F) (cc1_scratch6 : Ref sig .scVector) R) ?hc hn hrow) $$ HR; (case hc => omega); iintro HR)
  iapply (wp_assume 𝒱₀ (thr1 d L) none Set.univ (rows_inb _ _ (fun x => (hrow x).trans_lt (by have hx : (x 0).val < 16 := (x 0).isLt; omega)) (fun x => (colIdx_toNat 12 (by omega) x).trans_lt (by omega))))
  iapply (wp_rowWord' m d L 2 (12) n.val 12 hR (Memref.read_access_whole (Elt F) (cc1_scratch6 : Ref sig .scVector) R) (by omega) hn hrow) $$ HR; iintro HR
  iterate 2 (iapply (wp_rowWord m d L 2 (12) n.val _ hR (Memref.read_access_whole (Elt F) (cc1_scratch6 : Ref sig .scVector) R) ?hc hn hrow) $$ HR; (case hc => omega); iintro HR)
  iapply (wp_slice16 d L _ _ _ ((wL L).val * 1664 + (128 * (12) + 16 * n.val)) hC.1 (by omega) (k1_off18_eq n)) $$ HX; iintro HX
  iapply (wp_slice16 d L _ _ _ (53248 + ((wL L).val * 1664 + (128 * (12) + 16 * n.val))) hC.2.1 (by omega) (k1_off18_eq n)) $$ HY; iintro HY
  iapply (wp_slice16 d L _ _ _ (2 * 53248 + ((wL L).val * 1664 + (128 * (12) + 16 * n.val))) hC.2.2.1 (by omega) (k1_off18_eq n)) $$ HZ; iintro HZ
  iapply (wp_slice16 d L _ _ _ (2 * 53248 + ((wL L).val * 1664 + (128 * (12) + 16 * n.val))) hC.2.2.2 (by omega) (k1_off18_eq n)) $$ HW; iintro HW
  iapply (wp_outStore d L (fun x => (flat0 x).trans_lt (by have hx : (x 0).val < 16 := (x 0).isLt; omega))) $$ HO; iintro HO
  iapply (wp_outStore d L (fun x => (flat1 x).trans_lt (by have hx : (x 0).val < 16 := (x 0).isLt; omega))) $$ HO; iintro HO
  iapply (wp_outStore d L (fun x => (flat2 x).trans_lt (by have hx : (x 0).val < 16 := (x 0).isLt; omega))) $$ HO; iintro HO
  rw [wp_ret]; imodintro
  iframe HR HX HY HZ HW
  iexists _; isplitr; swap; · iexact HO
  ipureintro
  exact partDone_step m d L true 2 (12) n.val (by omega) hn g g' _ _ _ _ _ _ flat0 flat1 flat2 _ _ _ rfl rfl rfl hP

theorem k1_t12_trips : k1_t12_loop.trips = 8 := by decide

end Cert.KB

end
-- ==== Proof.Body1FinBits.lean ====
import proofs.«205348_g71287867179597_cont_9to1c4b_113_38_alg».proof.Proof.Body1ValBits
import proofs.«205348_g71287867179597_cont_9to1c4b_113_38_alg».proof.Proof.Body1OutBits

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F] [Facts]
open Facts₀ Facts

variable (m : (ℓ : Loc nD τ sig) → Buf (Elt F) ℓ)

local notation "𝕄" => MT nD τ sig (HIx 2) (Elt F) ℕ UU ℕ

section Tile

variable (d : Dev nD) (L : grid1.Coords)

theorem blendTile_of {g : S4992.Idx → Elt F .f32} (h : BlendInv m d L 2 13 g) (base : Buf (Elt F) ((out0K L).view.loc (thr1 d L))) :
    BlendTile m d (wL L) ((out0K L).view.writes (Elt F) base [⟨Rect.whole S4992, ReadAs.same.apply (View.read (Elt F) (sOut).view g)⟩]) := by
  intro u i hu hi
  have hw := (wL L).isLt
  have hp : (wL L).val * 4992 + 3 * u + i < 159744 := by omega
  have hj : 3 * u + i < 4992 := by omega
  rw [at1_of_lt _ _ _ hp]
  have e' : ValueIdx.ix1 (⟨(wL L).val * 4992 + 3 * u + i, hp⟩ : Fin 159744) = (out0K L).view.emb (ValueIdx.ix1 ⟨3 * u + i, hj⟩) := by
    rw [out0K_emb L ⟨3 * u + i, hj⟩]
    congr 1
    exact Fin.ext (by show (wL L).val * 4992 + 3 * u + i = (wL L).val * 4992 + (3 * u + i); omega)
  rw [e']
  have key := View.read_writes_cons_emb (out0K L).view base (Rect.whole S4992) (ReadAs.same.apply (View.read (Elt F) (sOut).view g)) []
    (ValueIdx.ix1 ⟨3 * u + i, hj⟩)
  rw [Rect.emb_whole_apply, View.read_apply] at key
  have key2 := eq_of_heq ((cast_heq _ _).symm.trans (heq_of_eq key))
  rw [key2]
  exact BlendInv_done m d L h u i hu hi

theorem lossTile_of {a0 a1 : Vec F S16 .f32} (hacc : (a0, a1) = lossAcc m d (wL L) 448) (A : Buf (Elt F) ((sAcc).view.loc (thr1 d L)))
    (hA0 : ∀ l : Fin 16, A (ValueIdx.ix1 ⟨l.val, by omega⟩) = a0 (ValueIdx.ix1 l)) (hA1 : ∀ l : Fin 16, A (ValueIdx.ix1 ⟨16 + l.val, by omega⟩) = a1 (ValueIdx.ix1 l))
    (base : Buf (Elt F) ((out1K L).view.loc (thr1 d L))) :
    LossTile m d (wL L) ((out1K L).view.writes (Elt F) base [⟨Rect.whole S32, ReadAs.same.apply (View.read (Elt F) (sAcc).view A)⟩]) := by
  intro l
  have hw := (wL L).isLt
  have hl := l.isLt
  have h0 : a0 = (lossAcc m d (wL L) 448).1 := congrArg Prod.fst hacc
  have h1 : a1 = (lossAcc m d (wL L) 448).2 := congrArg Prod.snd hacc
  constructor
  · have hp : (wL L).val * 32 + l.val < 1024 := by omega
    have hj : l.val < 32 := by omega
    rw [at1_of_lt _ _ _ hp]
    have e' : ValueIdx.ix1 (⟨(wL L).val * 32 + l.val, hp⟩ : Fin 1024) = (out1K L).view.emb (ValueIdx.ix1 ⟨l.val, hj⟩) :=
      (out1K_emb L ⟨l.val, hj⟩).symm
    rw [e']
    have key := View.read_writes_cons_emb (out1K L).view base (Rect.whole S32) (ReadAs.same.apply (View.read (Elt F) (sAcc).view A)) []
      (ValueIdx.ix1 ⟨l.val, hj⟩)
    rw [Rect.emb_whole_apply, View.read_apply] at key
    have key2 := eq_of_heq ((cast_heq _ _).symm.trans (heq_of_eq key))
    rw [key2, ← h0]
    exact hA0 l
  · have hp : (wL L).val * 32 + 16 + l.val < 1024 := by omega
    have hj : 16 + l.val < 32 := by omega
    rw [at1_of_lt _ _ _ hp]
    have e' : ValueIdx.ix1 (⟨(wL L).val * 32 + 16 + l.val, hp⟩ : Fin 1024) = (out1K L).view.emb (ValueIdx.ix1 ⟨16 + l.val, hj⟩) := by
      rw [out1K_emb L ⟨16 + l.val, hj⟩]
      congr 1
      exact Fin.ext (by show (wL L).val * 32 + 16 + l.val = (wL L).val * 32 + (16 + l.val); omega)
    rw [e']
    have key := View.read_writes_cons_emb (out1K L).view base (Rect.whole S32) (ReadAs.same.apply (View.read (Elt F) (sAcc).view A)) []
      (ValueIdx.ix1 ⟨16 + l.val, hj⟩)
    rw [Rect.emb_whole_apply, View.read_apply] at key
    have key2 := eq_of_heq ((cast_heq _ _).symm.trans (heq_of_eq key))
    rw [key2, ← h1]
    exact hA1 l

end Tile

end Cert.KB

end
-- ==== Proof.Body1AccBits.lean ====
import proofs.«205348_g71287867179597_cont_9to1c4b_113_38_alg».proof.Proof.Body1IfcBits
import Idealize.ShloMosaic.Lib.Writes

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F] [Facts]
open Facts₀ Facts

local notation "𝕄" => MT nD τ sig (HIx 2) (Elt F) ℕ UU ℕ

omit [FloatOps F] [Facts] in
theorem lo_emb (l : Fin 16) :
    (Rect.unit (s := S32) ![0] S16.size Gen.inb_S32_S16_0).emb (ValueIdx.ix1 l) = ValueIdx.ix1 ⟨l.val, by omega⟩ := by
  funext a
  obtain rfl : a = 0 := Subsingleton.elim _ _
  exact Fin.ext (by show 0 + 1 * l.val = l.val; omega)

omit [FloatOps F] [Facts] in
theorem hi_emb (l : Fin 16) :
    (Rect.unit (s := S32) ![16] S16.size Gen.inb_S32_S16_16).emb (ValueIdx.ix1 l) = ValueIdx.ix1 ⟨16 + l.val, by omega⟩ := by
  funext a
  obtain rfl : a = 0 := Subsingleton.elim _ _
  exact Fin.ext (by show 16 + 1 * l.val = 16 + l.val; omega)

omit [FloatOps F] [Facts] in
theorem lo_not_mem_hi (l : Fin 16) :
    (ValueIdx.ix1 ⟨l.val, by omega⟩ : S32.Idx) ∉ (Finset.univ : Finset (Rect.unit (s := S32) ![16] S16.size Gen.inb_S32_S16_16).shape.Idx).map (Rect.unit (s := S32) ![16] S16.size Gen.inb_S32_S16_16).emb := by
  rw [Rect.map_emb_univ, Rect.mem_set_unit]
  intro h
  have h' : 16 ≤ l.val ∧ l.val < 16 + 16 := h 0
  omega

omit [FloatOps F] [Facts] in
theorem hi_not_mem_lo (l : Fin 16) :
    (ValueIdx.ix1 ⟨16 + l.val, by omega⟩ : S32.Idx) ∉ (Finset.univ : Finset (Rect.unit (s := S32) ![0] S16.size Gen.inb_S32_S16_0).shape.Idx).map (Rect.unit (s := S32) ![0] S16.size Gen.inb_S32_S16_0).emb := by
  rw [Rect.map_emb_univ, Rect.mem_set_unit]
  intro h
  have h' : 0 ≤ 16 + l.val ∧ 16 + l.val < 0 + 16 := h 0
  omega

section Tile

variable (d : Dev nD) (L : grid1.Coords)

theorem acc_lo (f : Buf (Elt F) ((sAcc).view.loc (thr1 d L))) (a0 a1 : Vec F S16 .f32) (l : Fin 16) :
    (sAcc).view.writes (Elt F) f [⟨(Rect.unit (s := S32) ![16] S16.size Gen.inb_S32_S16_16), a1⟩, ⟨(Rect.unit (s := S32) ![0] S16.size Gen.inb_S32_S16_0), a0⟩] (ValueIdx.ix1 ⟨l.val, by omega⟩) = a0 (ValueIdx.ix1 l) := by
  show (sAcc).view.read (Elt F) ((sAcc).view.writes (Elt F) f [⟨(Rect.unit (s := S32) ![16] S16.size Gen.inb_S32_S16_16), a1⟩, ⟨(Rect.unit (s := S32) ![0] S16.size Gen.inb_S32_S16_0), a0⟩]) (ValueIdx.ix1 ⟨l.val, by omega⟩) = _
  rw [View.writes_cons, View.read_slice_write_of_not_mem _ _ _ _ (lo_not_mem_hi l), ← lo_emb l]
  exact View.read_writes_cons_emb (sAcc).view f (Rect.unit (s := S32) ![0] S16.size Gen.inb_S32_S16_0) a0 [] (ValueIdx.ix1 l)

theorem acc_hi (f : Buf (Elt F) ((sAcc).view.loc (thr1 d L))) (a0 a1 : Vec F S16 .f32) (l : Fin 16) :
    (sAcc).view.writes (Elt F) f [⟨(Rect.unit (s := S32) ![16] S16.size Gen.inb_S32_S16_16), a1⟩, ⟨(Rect.unit (s := S32) ![0] S16.size Gen.inb_S32_S16_0), a0⟩] (ValueIdx.ix1 ⟨16 + l.val, by omega⟩) = a1 (ValueIdx.ix1 l) := by
  show (sAcc).view.read (Elt F) ((sAcc).view.writes (Elt F) f [⟨(Rect.unit (s := S32) ![16] S16.size Gen.inb_S32_S16_16), a1⟩, ⟨(Rect.unit (s := S32) ![0] S16.size Gen.inb_S32_S16_0), a0⟩]) (ValueIdx.ix1 ⟨16 + l.val, by omega⟩) = _
  rw [← hi_emb l]
  exact View.read_writes_cons_emb (sAcc).view f (Rect.unit (s := S32) ![16] S16.size Gen.inb_S32_S16_16) a1 _ (ValueIdx.ix1 l)

theorem acc_lo' (f : Buf (Elt F) ((sAcc).view.loc (thr1 d L))) (a0 a1 : Vec F S16 .f32) (l : Fin 16) :
    (sAcc).view.writes (Elt F) f [⟨(Rect.unit (s := S32) ![0] S16.size Gen.inb_S32_S16_0), a0⟩, ⟨(Rect.unit (s := S32) ![16] S16.size Gen.inb_S32_S16_16), a1⟩] (ValueIdx.ix1 ⟨l.val, by omega⟩) = a0 (ValueIdx.ix1 l) := by
  show (sAcc).view.read (Elt F) ((sAcc).view.writes (Elt F) f [⟨(Rect.unit (s := S32) ![0] S16.size Gen.inb_S32_S16_0), a0⟩, ⟨(Rect.unit (s := S32) ![16] S16.size Gen.inb_S32_S16_16), a1⟩]) (ValueIdx.ix1 ⟨l.val, by omega⟩) = _
  rw [← lo_emb l]
  exact View.read_writes_cons_emb (sAcc).view f (Rect.unit (s := S32) ![0] S16.size Gen.inb_S32_S16_0) a0 _ (ValueIdx.ix1 l)

theorem acc_hi' (f : Buf (Elt F) ((sAcc).view.loc (thr1 d L))) (a0 a1 : Vec F S16 .f32) (l : Fin 16) :
    (sAcc).view.writes (Elt F) f [⟨(Rect.unit (s := S32) ![0] S16.size Gen.inb_S32_S16_0), a0⟩, ⟨(Rect.unit (s := S32) ![16] S16.size Gen.inb_S32_S16_16), a1⟩] (ValueIdx.ix1 ⟨16 + l.val, by omega⟩) = a1 (ValueIdx.ix1 l) := by
  show (sAcc).view.read (Elt F) ((sAcc).view.writes (Elt F) f [⟨(Rect.unit (s := S32) ![0] S16.size Gen.inb_S32_S16_0), a0⟩, ⟨(Rect.unit (s := S32) ![16] S16.size Gen.inb_S32_S16_16), a1⟩]) (ValueIdx.ix1 ⟨16 + l.val, by omega⟩) = _
  rw [View.writes_cons, View.read_slice_write_of_not_mem _ _ _ _ (hi_not_mem_lo l), ← hi_emb l]
  exact View.read_writes_cons_emb (sAcc).view f (Rect.unit (s := S32) ![16] S16.size Gen.inb_S32_S16_16) a1 [] (ValueIdx.ix1 l)

end Tile

end Cert.KB

end
-- ==== Proof.Body1Bits.lean ====
import proofs.«205348_g71287867179597_cont_9to1c4b_113_38_alg».proof.Proof.Body1PairBits
import proofs.«205348_g71287867179597_cont_9to1c4b_113_38_alg».proof.Proof.Body1ResBits
import proofs.«205348_g71287867179597_cont_9to1c4b_113_38_alg».proof.Proof.Body1CoordBits
import proofs.«205348_g71287867179597_cont_9to1c4b_113_38_alg».proof.Proof.Body1EdgesOuterBits
import proofs.«205348_g71287867179597_cont_9to1c4b_113_38_alg».proof.Proof.Body1Blend_t4Bits
import proofs.«205348_g71287867179597_cont_9to1c4b_113_38_alg».proof.Proof.Body1Blend_t8Bits
import proofs.«205348_g71287867179597_cont_9to1c4b_113_38_alg».proof.Proof.Body1Blend_t12Bits
import proofs.«205348_g71287867179597_cont_9to1c4b_113_38_alg».proof.Proof.Body1FinBits
import proofs.«205348_g71287867179597_cont_9to1c4b_113_38_alg».proof.Proof.Body1AccBits

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F] [Facts]
open Facts₀ Facts

variable (m : (ℓ : Loc nD τ sig) → Buf (Elt F) ℓ)

local notation "𝕄" => MT nD τ sig (HIx 2) (Elt F) ℕ UU ℕ

local macro:max "k1at% " f:term:max L:term:max : term =>
  `($f $L aPtab (Memref.isWhole_whole _) aVt (Memref.isWhole_whole _) aInf (Memref.isWhole_whole _) aWt (Memref.isWhole_whole _)
      aOrn (Memref.isWhole_whole _) aMrep (Memref.isWhole_whole _) aOut0 (Memref.isWhole_whole _) aOut1 (Memref.isWhole_whole _)
      sGv (Memref.isWhole_whole _) sGb (Memref.isWhole_whole _) sVx (Memref.isWhole_whole _) sVy (Memref.isWhole_whole _)
      sVz (Memref.isWhole_whole _) sWt (Memref.isWhole_whole _) sRv (Memref.isWhole_whole _) sRb (Memref.isWhole_whole _)
      sRc (Memref.isWhole_whole _) sOut (Memref.isWhole_whole _) sStg (Memref.isWhole_whole _) sAcc (Memref.isWhole_whole _)
      cc1_scratch12 cc1_scratch13 cc1_scoped0 cc1_scoped1 cc1_scoped2 cc1_scoped3 cc1_scoped4 cc1_scoped5 cc1_scoped6 cc1_scoped7
      cc1_scoped8 cc1_scoped9 cc1_scoped10 cc1_scoped11 cc1_scoped12 cc1_scoped13 cc1_scoped14 cc1_scoped15 cc1_scoped16
      cc1_scoped17 cc1_scoped18 cc1_scoped19 cc1_scoped20)

section Tile

variable (d : Dev nD) (L : grid1.Coords)

theorem k1_off7_pos (k : Fin 3) : k1_off7 L (BitVec.ofNat 32 (53248 * k.val)) 0 = k.val * 53248 + (wL L).val * 1664 + 128 * 12 := by
  rw [Gen.k1_off7_eq L k, wL_val]; simp only [Matrix.cons_val_zero]; omega

theorem edge_call (hRg : RangesOK m) (O : CellTallies nD τ sig (HIx 2)) (W₀ : Waits sig (HIx 2))
    (fP : Buf (Elt F) ((aPtab).view.loc (thr1 d L))) (hP : PtabOK m d fP) :
    iprop(Transfers.MayWaits (thr1 d L) (none : HIx 2) O
        ∗ ((aPtab).view.loc (thr1 d L) ↦{rd (wL L)} fP) ∗ ((aOrn).view.loc (thr1 d L) ↦{rd (wL L)} tOrn m d) ∗ ((aMrep).view.loc (thr1 d L) ↦{rd (wL L)} tMrep m d)
        ∗ (∃ f, (sGv).view.loc (thr1 d L) ↦{fullShare} f) ∗ (∃ f, (sGb).view.loc (thr1 d L) ↦{fullShare} f)
        ∗ (∃ f, (sRv).view.loc (thr1 d L) ↦{fullShare} f) ∗ (∃ f, (sRb).view.loc (thr1 d L) ↦{fullShare} f) ∗ (∃ f, (sRc).view.loc (thr1 d L) ↦{fullShare} f)
        ∗ (∃ f, (sStg).view.loc (thr1 d L) ↦{fullShare} f)
        ∗ semVal (thr1 d L, SemLoc.dma cc1_scratch12.sem) 0 ∗ semVal (thr1 d L, SemLoc.dma cc1_scratch13.sem) 0
        ∗ semVal (thr1 d L, SemLoc.dma cc1_scoped16.sem) 0 ∗ semVal (thr1 d L, SemLoc.dma cc1_scoped17.sem) 0
        ∗ semVal (thr1 d L, SemLoc.dma cc1_scoped18.sem) 0 ∗ semVal (thr1 d L, SemLoc.dma cc1_scoped19.sem) 0
        ∗ ∃ Wc, ⌜∀ p ∈ Wc, p ∈ W₀ ∨ p.2 = none⌝ ∗ owes (thr1 d L) O Wc)
      ⊢ (wp frame (wpE (defs₀ (F := F)) 𝒱₀ (thr1 d L) none) Set.univ
          (Scf.Loop.for k1_t13_loop Facts₀.k1_t13_ok (k1_pay112 (F := F), k1_pay113 (F := F))
            ((k1at% k1_t13_body L) (bv1 L) bv2 k1_pay111 (bv5 L) (Scalar.muli (bv1 L) 7168#32)))
          fun acc => iprop(⌜acc = lossAcc m d (wL L) 448⌝
            ∗ Transfers.MayWaits (thr1 d L) (none : HIx 2) O
            ∗ ((aPtab).view.loc (thr1 d L) ↦{rd (wL L)} fP) ∗ ((aOrn).view.loc (thr1 d L) ↦{rd (wL L)} tOrn m d) ∗ ((aMrep).view.loc (thr1 d L) ↦{rd (wL L)} tMrep m d)
            ∗ (∃ f, (sGv).view.loc (thr1 d L) ↦{fullShare} f) ∗ (∃ f, (sGb).view.loc (thr1 d L) ↦{fullShare} f)
            ∗ (∃ f, (sRv).view.loc (thr1 d L) ↦{fullShare} f) ∗ (∃ f, (sRb).view.loc (thr1 d L) ↦{fullShare} f) ∗ (∃ f, (sRc).view.loc (thr1 d L) ↦{fullShare} f)
            ∗ (∃ f, (sStg).view.loc (thr1 d L) ↦{fullShare} f)
            ∗ semVal (thr1 d L, SemLoc.dma cc1_scratch12.sem) 0 ∗ semVal (thr1 d L, SemLoc.dma cc1_scratch13.sem) 0
            ∗ semVal (thr1 d L, SemLoc.dma cc1_scoped16.sem) 0 ∗ semVal (thr1 d L, SemLoc.dma cc1_scoped17.sem) 0
            ∗ semVal (thr1 d L, SemLoc.dma cc1_scoped18.sem) 0 ∗ semVal (thr1 d L, SemLoc.dma cc1_scoped19.sem) 0
            ∗ ∃ W', ⌜∀ p ∈ W', p ∈ W₀ ∨ p.2 = none⌝ ∗ owes (thr1 d L) O W') : sProp 𝕄) := by
  iintro ⟨Hmw, Hpt, Horn, Hmrep, Hgv, Hgb, Hrv, Hrb, Hrc, Hstg, Hs12, Hs13, Hc16, Hc17, Hc18, Hc19, %Wc, %hWc, HO⟩
  iapply (edge_wp' m d L hRg O W₀ Wc hWc fP hP)
  isplitl [Hmw]; · iexact Hmw
  isplitl [Hpt]; · iexact Hpt
  isplitl [Horn]; · iexact Horn
  isplitl [Hmrep]; · iexact Hmrep
  isplitl [Hgv]; · iexact Hgv
  isplitl [Hgb]; · iexact Hgb
  isplitl [Hrv]; · iexact Hrv
  isplitl [Hrb]; · iexact Hrb
  isplitl [Hrc]; · iexact Hrc
  isplitl [Hstg]; · iexact Hstg
  isplitl [Hs12]; · iexact Hs12
  isplitl [Hs13]; · iexact Hs13
  isplitl [Hc16]; · iexact Hc16
  isplitl [Hc17]; · iexact Hc17
  isplitl [Hc18]; · iexact Hc18
  isplitl [Hc19]; · iexact Hc19
  iexact HO

abbrev wtRead (k : Fin 3) : S1664.Idx → Elt F .f32 :=
  ((aWt).slice (Rect.unit (s := S159744) (k1_off2 L (BitVec.ofNat 32 (53248 * k.val))) S1664.size (Gen.k1_off2_inb L k)) (fun _ => rfl)).view.read (Elt F) (tWt m d)

set_option maxHeartbeats 16000000 in
theorem tile_body1 (hRg : RangesOK m) (O : CellTallies nD τ sig (HIx 2)) (W : Waits sig (HIx 2)) (hO : ∀ g, O g none = 0) :
    iprop(levAts (K (F := F)).L (K (F := F)).lev ∗ emp ∗ go1 m d (wL L) ∗ scopedBufs (thr1 d L) ∗ scopedSems0 (thr1 d L) ∗ owes (thr1 d L) O W)
      ⊢ (wp frame (wpE (defs₀ (F := F)) 𝒱₀ (thr1 d L) none) Set.univ (k1at% cc1__warp_losses L)
          fun _ => iprop(td1 m d (wL L) ∗ scopedBufs (thr1 d L) ∗ scopedSems0 (thr1 d L)
            ∗ ∃ W', ⌜∀ p ∈ W', p ∈ W ∨ p.2 = none⌝ ∗ owes (thr1 d L) O W') : sProp 𝕄) := by
  simp only [cc1__warp_losses_eq_skeleton]; unfold cc1__warp_losses_skel
  simp only [k1_part26_eq_skeleton, k1_part27_eq_skeleton, k1_part28_eq_skeleton]; unfold k1_part26_skel k1_part27_skel k1_part28_skel
  rw [(K (F := F)).scopedBufs_V facts d (cV1 L) (jV1 L), SparseCore.Cfg.scopedSems0_V (Val := Elt F) d (cV1 L) (jV1 L), ownSems0_V1, ownBufs_V1]
  unfold go1
  iintro ⟨#Hlv, -, ⟨⟨%fP, %hP, Hpt⟩, Hvt, Hinf, Hwt, Horn, Hmrep, Ho0, Ho1⟩,
    ⟨⟨%f0, Hgv⟩, ⟨%f1, Hgb⟩, ⟨%f2, Hx⟩, ⟨%f3, Hy⟩, ⟨%f4, Hz⟩, ⟨%f5, Hw⟩, ⟨%f6, Hrv⟩, ⟨%f7, Hrb⟩, ⟨%f8, Hrc⟩, ⟨%f9, Hout⟩, ⟨%f10, Hstg⟩, ⟨%f11, Hacc⟩, Hbufs⟩,
    ⟨Hs12, Hs13, Hc0, Hc1, Hc2, Hc3, Hc4, Hc5, Hc6, Hc7, Hc8, Hc9, Hc10, Hc11, Hc12, Hc13, Hc14, Hc15, Hc16, Hc17, Hc18, Hc19, Hc20, Hsems⟩, HO⟩
  ihave Hmw := ((K (F := F)).mayWaits_none (thr := thr1 d L) hO) $$ Hlv
  ihave Hpt' := (Entails.of_eq (pts_aPtab (F := F) d L _ _).symm) $$ Hpt
  ihave Hvt' := (Entails.of_eq (pts_aVt (F := F) d L _ _).symm) $$ Hvt
  ihave Hinf' := (Entails.of_eq (pts_aInf (F := F) d L _ _).symm) $$ Hinf
  ihave Hwt' := (Entails.of_eq (pts_aWt (F := F) d L _ _).symm) $$ Hwt
  ihave Horn' := (Entails.of_eq (pts_aOrn (F := F) d L _ _).symm) $$ Horn
  ihave Hmrep' := (Entails.of_eq (pts_aMrep (F := F) d L _ _).symm) $$ Hmrep
  ihave Ho0' := (Entails.of_eq (pts_out0 (F := F) d L _).symm) $$ Ho0
  ihave Ho1' := (Entails.of_eq (pts_out1 (F := F) d L _).symm) $$ Ho1
  sl_exec
  have hC0 := coordsOK_of m d L 0 f2 f3 f4 f5 _ _ _ _ rfl rfl rfl rfl
  repeat (sl_rw [bind_assoc])
  iapply (wp_call_bind (t1_wp m d L hRg O W fP _ _ _ _ hP hC0)) $$ [Hinf' Hpt' Hgv Hgb Hrv Hrb Hx Hy Hz Hw Hout Hc4 Hc5 Hs12 Hs13 HO]
  · unfold inv1
    isplitr; · iexact Hmw
    isplitl [Hinf']; · iexact Hinf'
    isplitl [Hpt']; · iexact Hpt'
    isplitl [Hgv]; · iexists _; iexact Hgv
    isplitl [Hgb]; · iexists _; iexact Hgb
    isplitl [Hrv]; · iexists _; iexact Hrv
    isplitl [Hrb]; · iexists _; iexact Hrb
    isplitl [Hx]; · iexact Hx
    isplitl [Hy]; · iexact Hy
    isplitl [Hz]; · iexact Hz
    isplitl [Hw]; · iexact Hw
    isplitl [Hout]
    · iexists _; isplitr
      rotate_left
      · iexact Hout
      · ipureintro; exact BlendInv_start m d L _
    isplitl [Hc4]; · iexact Hc4
    isplitl [Hc5]; · iexact Hc5
    isplitl [Hs12]; · iexact Hs12
    isplitl [Hs13]; · iexact Hs13
    iexists _; isplitr
    rotate_left
    · iexact HO
    · ipureintro; intro p hp
      simp only [Finset.mem_insert] at hp
      aesop

  iintro %_ HI
  unfold inv1
  icases HI with ⟨-, Hinf', Hpt', ⟨%fgv0, Hgv⟩, ⟨%fgb0, Hgb⟩, ⟨%frv0, Hrv⟩, ⟨%frb0, Hrb⟩, Hx, Hy, Hz, Hw, ⟨%g0, %hg0, Hout⟩, Hc4, Hc5, Hs12, Hs13, %W0, %hW0, HO⟩

  have hg0' : BlendInv m d L 0 12 g0 := hg0
  sl_exec
  have hinT0 := gv_inb m d L hRg fgv0 _ (k1_off7 L 0#32) (Gen.k1_off7_inb L 0) rfl
  sl_exec
  have hRT0 := fun (fr : Buf (Elt F) ((sRv).view.loc (thr1 d L))) =>
    rows_v m d L hRg fP hP fr fgv0 _ (k1_off7 L 0#32) (Gen.k1_off7_inb L 0) rfl (fun _ => rfl) (by decide) hinT0
  have hposT0 : k1_off7 L 0#32 0 = 0 * 53248 + (wL L).val * 1664 + 128 * 12 := k1_off7_pos L 0
  rw [hposT0] at hRT0
  repeat (sl_rw [bind_assoc])
  iapply (wp_call_bind (blend_for m d L sRv false 0 12 k1_t4_loop Facts₀.k1_t4_ok k1_t4_trips _ _ _ _ _ _ g0 (t4_trip m d L _ _ _ _ _ g0 (hRT0 _) hC0))) $$ [Hrv Hx Hy Hz Hw Hout]
  · isplitl [Hrv]; · iexact Hrv
    isplitl [Hx]; · iexact Hx
    isplitl [Hy]; · iexact Hy
    isplitl [Hz]; · iexact Hz
    isplitl [Hw]; · iexact Hw
    iexact Hout
  iintro %_ ⟨Hrv, Hx, Hy, Hz, Hw, %gT0, %hgT0', Hout⟩
  have hgT0 : BlendInv m d L 0 13 gT0 := BlendInv_step m d L hg0' hgT0'

  sl_exec
  have hC1 := coordsOK_next m d L 1 hC0 (View.write (Elt F) sWt.view f5 (wtRead m d L 0) Finset.univ) _ rfl
  repeat (sl_rw [bind_assoc])
  iapply (wp_call_bind (t5_wp m d L hRg O W fP _ _ _ _ hP hC1)) $$ [Hinf' Hpt' Hgv Hgb Hrv Hrb Hx Hy Hz Hw Hout Hc8 Hc9 Hs12 Hs13 HO]
  · unfold inv5
    isplitr; · iexact Hmw
    isplitl [Hinf']; · iexact Hinf'
    isplitl [Hpt']; · iexact Hpt'
    isplitl [Hgv]; · iexists _; iexact Hgv
    isplitl [Hgb]; · iexists _; iexact Hgb
    isplitl [Hrv]; · iexists _; iexact Hrv
    isplitl [Hrb]; · iexists _; iexact Hrb
    isplitl [Hx]; · iexact Hx
    isplitl [Hy]; · iexact Hy
    isplitl [Hz]; · iexact Hz
    isplitl [Hw]; · iexact Hw
    isplitl [Hout]
    · iexists _; isplitr
      rotate_left
      · iexact Hout
      · ipureintro; exact BlendInv_next m d L hgT0
    isplitl [Hc8]; · iexact Hc8
    isplitl [Hc9]; · iexact Hc9
    isplitl [Hs12]; · iexact Hs12
    isplitl [Hs13]; · iexact Hs13
    iexists _; isplitr
    rotate_left
    · iexact HO
    · ipureintro; intro p hp
      simp only [Finset.mem_insert] at hp
      aesop

  iintro %_ HI
  unfold inv5
  icases HI with ⟨-, Hinf', Hpt', ⟨%fgv1, Hgv⟩, ⟨%fgb1, Hgb⟩, ⟨%frv1, Hrv⟩, ⟨%frb1, Hrb⟩, Hx, Hy, Hz, Hw, ⟨%g1, %hg1, Hout⟩, Hc8, Hc9, Hs12, Hs13, %W1, %hW1, HO⟩

  have hg1' : BlendInv m d L 1 12 g1 := hg1
  sl_exec

  have hinT1 := gv_inb m d L hRg fgv1 _ (k1_off7 L 53248#32) (Gen.k1_off7_inb L 1) rfl
  sl_exec
  have hRT1 := fun (fr : Buf (Elt F) ((sRv).view.loc (thr1 d L))) =>
    rows_v m d L hRg fP hP fr fgv1 _ (k1_off7 L 53248#32) (Gen.k1_off7_inb L 1) rfl (fun _ => rfl) (by decide) hinT1
  have hposT1 : k1_off7 L 53248#32 0 = 1 * 53248 + (wL L).val * 1664 + 128 * 12 := k1_off7_pos L 1
  rw [hposT1] at hRT1
  repeat (sl_rw [bind_assoc])
  iapply (wp_call_bind (blend_for m d L sRv true 1 12 k1_t8_loop Facts₀.k1_t8_ok k1_t8_trips _ _ _ _ _ _ g1 (t8_trip m d L _ _ _ _ _ g1 (hRT1 _) hC1))) $$ [Hrv Hx Hy Hz Hw Hout]
  · isplitl [Hrv]; · iexact Hrv
    isplitl [Hx]; · iexact Hx
    isplitl [Hy]; · iexact Hy
    isplitl [Hz]; · iexact Hz
    isplitl [Hw]; · iexact Hw
    iexact Hout
  iintro %_ ⟨Hrv, Hx, Hy, Hz, Hw, %gT1, %hgT1', Hout⟩
  have hgT1 : BlendInv m d L 1 13 gT1 := BlendInv_step m d L hg1' hgT1'

  sl_exec
  have hC2 := coordsOK_next m d L 2 hC1 (View.write (Elt F) sWt.view (View.write (Elt F) sWt.view f5 (wtRead m d L 0) Finset.univ) (wtRead m d L 1) Finset.univ) _ rfl
  repeat (sl_rw [bind_assoc])
  iapply (wp_call_bind (t9_wp m d L hRg O W fP _ _ _ _ hP hC2)) $$ [Hinf' Hpt' Hgv Hgb Hrv Hrb Hx Hy Hz Hw Hout Hc12 Hc13 Hs12 Hs13 HO]
  · unfold inv9
    isplitr; · iexact Hmw
    isplitl [Hinf']; · iexact Hinf'
    isplitl [Hpt']; · iexact Hpt'
    isplitl [Hgv]; · iexists _; iexact Hgv
    isplitl [Hgb]; · iexists _; iexact Hgb
    isplitl [Hrv]; · iexists _; iexact Hrv
    isplitl [Hrb]; · iexists _; iexact Hrb
    isplitl [Hx]; · iexact Hx
    isplitl [Hy]; · iexact Hy
    isplitl [Hz]; · iexact Hz
    isplitl [Hw]; · iexact Hw
    isplitl [Hout]
    · iexists _; isplitr
      rotate_left
      · iexact Hout
      · ipureintro; exact BlendInv_next m d L hgT1
    isplitl [Hc12]; · iexact Hc12
    isplitl [Hc13]; · iexact Hc13
    isplitl [Hs12]; · iexact Hs12
    isplitl [Hs13]; · iexact Hs13
    iexists _; isplitr
    rotate_left
    · iexact HO
    · ipureintro; intro p hp
      simp only [Finset.mem_insert] at hp
      aesop

  iintro %_ HI
  unfold inv9
  icases HI with ⟨-, Hinf', Hpt', ⟨%fgv2, Hgv⟩, ⟨%fgb2, Hgb⟩, ⟨%frv2, Hrv⟩, ⟨%frb2, Hrb⟩, Hx, Hy, Hz, Hw, ⟨%g2, %hg2, Hout⟩, Hc12, Hc13, Hs12, Hs13, %W2, %hW2, HO⟩

  have hg2' : BlendInv m d L 2 12 g2 := hg2
  sl_exec

  have hinT2 := gv_inb m d L hRg fgv2 _ (k1_off7 L 106496#32) (Gen.k1_off7_inb L 2) rfl
  sl_exec
  have hRT2 := fun (fr : Buf (Elt F) ((sRv).view.loc (thr1 d L))) =>
    rows_v m d L hRg fP hP fr fgv2 _ (k1_off7 L 106496#32) (Gen.k1_off7_inb L 2) rfl (fun _ => rfl) (by decide) hinT2
  have hposT2 : k1_off7 L 106496#32 0 = 2 * 53248 + (wL L).val * 1664 + 128 * 12 := k1_off7_pos L 2
  rw [hposT2] at hRT2
  repeat (sl_rw [bind_assoc])
  iapply (wp_call_bind (blend_for m d L sRv true 2 12 k1_t12_loop Facts₀.k1_t12_ok k1_t12_trips _ _ _ _ _ _ g2 (t12_trip m d L _ _ _ _ _ g2 (hRT2 _) hC2))) $$ [Hrv Hx Hy Hz Hw Hout]
  · isplitl [Hrv]; · iexact Hrv
    isplitl [Hx]; · iexact Hx
    isplitl [Hy]; · iexact Hy
    isplitl [Hz]; · iexact Hz
    isplitl [Hw]; · iexact Hw
    iexact Hout
  iintro %_ ⟨Hrv, Hx, Hy, Hz, Hw, %gT2, %hgT2', Hout⟩
  have hgT2 : BlendInv m d L 2 13 gT2 := BlendInv_step m d L hg2' hgT2'

  sl_exec
  repeat (sl_rw [bind_assoc])
  iapply (wp_call_bind (edge_call m d L hRg O W fP hP)) $$ [Hpt' Horn' Hmrep' Hgv Hgb Hrv Hrb Hrc Hstg Hs12 Hs13 Hc16 Hc17 Hc18 Hc19 HO]
  · isplitr; · iexact Hmw
    isplitl [Hpt']; · iexact Hpt'
    isplitl [Horn']; · iexact Horn'
    isplitl [Hmrep']; · iexact Hmrep'
    isplitl [Hgv]; · iexists _; iexact Hgv
    isplitl [Hgb]; · iexists _; iexact Hgb
    isplitl [Hrv]; · iexists _; iexact Hrv
    isplitl [Hrb]; · iexists _; iexact Hrb
    isplitl [Hrc]; · iexists _; iexact Hrc
    isplitl [Hstg]; · iexists _; iexact Hstg
    isplitl [Hs12]; · iexact Hs12
    isplitl [Hs13]; · iexact Hs13
    isplitl [Hc16]; · iexact Hc16
    isplitl [Hc17]; · iexact Hc17
    isplitl [Hc18]; · iexact Hc18
    isplitl [Hc19]; · iexact Hc19
    iexists _; isplitr
    rotate_left
    · iexact HO
    · ipureintro; intro p hp
      simp only [Finset.mem_insert] at hp
      aesop
  iintro %acc ⟨%hacc, -, Hpt', Horn', Hmrep', ⟨%e0, Hgv⟩, ⟨%e1, Hgb⟩, ⟨%e2, Hrv⟩, ⟨%e3, Hrb⟩, ⟨%e4, Hrc⟩, ⟨%e5, Hstg⟩, Hs12, Hs13, Hc16, Hc17, Hc18, Hc19, %We, %hWe, HO⟩
  rcases acc with ⟨a0, a1⟩
  sl_exec
  sl_step
  unfold td1
  isplitl [Ho0' Ho1']
  · isplitl [Ho0']
    · iexists _; isplitr
      rotate_left
      · iapply (Entails.of_eq (pts_out0 (F := F) d L _)); iexact Ho0'
      · ipureintro; exact blendTile_of m d L hgT2 _
    · iexists _; isplitr
      rotate_left
      · iapply (Entails.of_eq (pts_out1 (F := F) d L _)); iexact Ho1'
      · ipureintro
        first
        | exact lossTile_of m d L hacc _ (acc_lo d L f11 a0 a1) (acc_hi d L f11 a0 a1) _
        | exact lossTile_of m d L hacc _ (acc_lo' d L f11 a0 a1) (acc_hi' d L f11 a0 a1) _
  isplitl [Hgv Hgb Hx Hy Hz Hw Hrv Hrb Hrc Hout Hstg Hacc Hbufs]
  · isplitl [Hgv]; · iexists _; iexact Hgv
    isplitl [Hgb]; · iexists _; iexact Hgb
    isplitl [Hx]; · iexists _; iexact Hx
    isplitl [Hy]; · iexists _; iexact Hy
    isplitl [Hz]; · iexists _; iexact Hz
    isplitl [Hw]; · iexists _; iexact Hw
    isplitl [Hrv]; · iexists _; iexact Hrv
    isplitl [Hrb]; · iexists _; iexact Hrb
    isplitl [Hrc]; · iexists _; iexact Hrc
    isplitl [Hout]; · iexists _; iexact Hout
    isplitl [Hstg]; · iexists _; iexact Hstg
    isplitl [Hacc]; · iexists _; iexact Hacc
    iexact Hbufs
  isplitl [Hs12 Hs13 Hc0 Hc1 Hc2 Hc3 Hc4 Hc5 Hc6 Hc7 Hc8 Hc9 Hc10 Hc11 Hc12 Hc13 Hc14 Hc15 Hc16 Hc17 Hc18 Hc19 Hc20 Hsems]
  · isplitl [Hs12]; · iexact Hs12
    isplitl [Hs13]; · iexact Hs13
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [Hc13]; · iexact Hc13
    isplitl [Hc14]; · iexact Hc14
    isplitl [Hc15]; · iexact Hc15
    isplitl [Hc16]; · iexact Hc16
    isplitl [Hc17]; · iexact Hc17
    isplitl [Hc18]; · iexact Hc18
    isplitl [Hc19]; · iexact Hc19
    isplitl [Hc20]; · iexact Hc20
    iexact Hsems
  iexists _; isplitr
  rotate_left
  · iexact HO
  · ipureintro; intro p hp
    simp only [Finset.mem_insert] at hp
    aesop

end Tile

def coordsV1 (c : Fin (grid1.bound 0)) (s : Fin (grid1.bound 1)) : grid1.Coords :=
  fun | 0 => c | 1 => s | ⟨_ + 2, h⟩ => absurd h (Nat.not_lt.2 (Nat.le_add_left _ _))

theorem defs₀_vector1 (c : Fin τ.nSC) (s : Fin τ.nSub) :
    defs₀ (F := F) (.scVector c s) 1 ()
      = SparseCore.onTile Facts₀.hcore1 Facts₀.hsub1 (fun c s => (k1at% cc1__warp_losses (coordsV1 c s))) ⟨⟩ c s := rfl

omit [FloatOps F] [Facts] in
theorem obl_post1 {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl1 (hR : RangesOK m) : (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [defs₀_vector1]; simp only [SparseCore.onTile, hc, and_self, ↓reduceDIte]
  exact (tile_body1 m d (coordsV1 ⟨_, hc.1⟩ ⟨_, hc.2⟩) hR O W hO).trans (wp_mono frame _ _ fun _ => obl_post1)

end Cert.KB

end
-- ==== Proof.RefRun.lean ====
import proofs.«205348_g71287867179597_cont_9to1c4b_113_38_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

def wrapA (idx : IVec S25000 32) : IVec S25000 32 :=
  select (cmpi .slt idx (broadcastInDim S25000 ![] bcast_S_S25000 (constantI S_ 32 0#32)))
    (addi idx (broadcastInDim S25000 ![] bcast_S_S25000 (constantI S_ 32 50000#32))) idx
def colA (idx : IVec S25000 32) : IVec S25000x1 32 :=
  broadcastInDim S25000x1 ![0] bcast_S25000_S25000x1_0 (wrapA idx)
def inbA (idx : IVec S25000 32) : IVec S25000 1 :=
  Host.reduce IntOp.andi
    (andi (cmpi .sge (colA idx) (broadcastInDim S25000x1 ![] bcast_S_S25000x1 (constantI S_ 32 0#32)))
      (cmpi .sle (colA idx) (broadcastInDim S25000x1 ![0, 1] bcast_S1x1_S25000x1_0_1
        (broadcastInDim S1x1 ![1] bcast_S1_S1x1_1 (constantI S1 32 49999#32)))))
    (constantI S_ 1 1#1) reducesTo_S25000x1_S25000_d1 h_S_
def takeA (src : FVec F S50000x3 .f32) (idx : IVec S25000 32) : FVec F S25000x3 .f32 :=
  select (broadcastInDim S25000x3 ![0] bcast_S25000_S25000x3_0 (inbA idx))
    (Host.gather gather_S50000x3_S25000x1_S25000x3_1_0_n_n_0_1_13 src (colA idx))
    (broadcastInDim S25000x3 ![] bcast_S_S25000x3 (constant S_ .f32 0x7FC00000#32))

def wrapB (idx : IVec S150000 32) : IVec S150000 32 :=
  select (cmpi .slt idx (broadcastInDim S150000 ![] bcast_S_S150000 (constantI S_ 32 0#32)))
    (addi idx (broadcastInDim S150000 ![] bcast_S_S150000 (constantI S_ 32 25000#32))) idx
def colB (idx : IVec S150000 32) : IVec S150000x1 32 :=
  broadcastInDim S150000x1 ![0] bcast_S150000_S150000x1_0 (wrapB idx)
def inbB (idx : IVec S150000 32) : IVec S150000 1 :=
  Host.reduce IntOp.andi
    (andi (cmpi .sge (colB idx) (broadcastInDim S150000x1 ![] bcast_S_S150000x1 (constantI S_ 32 0#32)))
      (cmpi .sle (colB idx) (broadcastInDim S150000x1 ![0, 1] bcast_S1x1_S150000x1_0_1
        (broadcastInDim S1x1 ![1] bcast_S1_S1x1_1 (constantI S1 32 24999#32)))))
    (constantI S_ 1 1#1) reducesTo_S150000x1_S150000_d1 h_S_
def takeB3 (src : FVec F S25000x3 .f32) (idx : IVec S150000 32) : FVec F S150000x3 .f32 :=
  select (broadcastInDim S150000x3 ![0] bcast_S150000_S150000x3_0 (inbB idx))
    (Host.gather gather_S25000x3_S150000x1_S150000x3_1_0_n_n_0_1_13 src (colB idx))
    (broadcastInDim S150000x3 ![] bcast_S_S150000x3 (constant S_ .f32 0x7FC00000#32))
def takeB33 (src : FVec F S25000x3x3 .f32) (idx : IVec S150000 32) : FVec F S150000x3x3 .f32 :=
  select (broadcastInDim S150000x3x3 ![0] bcast_S150000_S150000x3x3_0 (inbB idx))
    (Host.gather gather_S25000x3x3_S150000x1_S150000x3x3_12_0_n_n_0_1_133 src (colB idx))
    (broadcastInDim S150000x3x3 ![] bcast_S_S150000x3x3 (constant S_ .f32 0x7FC00000#32))

def wrapC (idx : IVec S225000 32) : IVec S225000 32 :=
  select (cmpi .slt idx (broadcastInDim S225000 ![] bcast_S_S225000 (constantI S_ 32 0#32)))
    (addi idx (broadcastInDim S225000 ![] bcast_S_S225000 (constantI S_ 32 25000#32))) idx
def colC (idx : IVec S225000 32) : IVec S225000x1 32 :=
  broadcastInDim S225000x1 ![0] bcast_S225000_S225000x1_0 (wrapC idx)
def inbC (idx : IVec S225000 32) : IVec S225000 1 :=
  Host.reduce IntOp.andi
    (andi (cmpi .sge (colC idx) (broadcastInDim S225000x1 ![] bcast_S_S225000x1 (constantI S_ 32 0#32)))
      (cmpi .sle (colC idx) (broadcastInDim S225000x1 ![0, 1] bcast_S1x1_S225000x1_0_1
        (broadcastInDim S1x1 ![1] bcast_S1_S1x1_1 (constantI S1 32 24999#32)))))
    (constantI S_ 1 1#1) reducesTo_S225000x1_S225000_d1 h_S_
def takeC3 (src : FVec F S25000x3 .f32) (idx : IVec S225000 32) : FVec F S225000x3 .f32 :=
  select (broadcastInDim S225000x3 ![0] bcast_S225000_S225000x3_0 (inbC idx))
    (Host.gather gather_S25000x3_S225000x1_S225000x3_1_0_n_n_0_1_13 src (colC idx))
    (broadcastInDim S225000x3 ![] bcast_S_S225000x3 (constant S_ .f32 0x7FC00000#32))
def takeC33 (src : FVec F S25000x3x3 .f32) (idx : IVec S225000 32) : FVec F S225000x3x3 .f32 :=
  select (broadcastInDim S225000x3x3 ![0] bcast_S225000_S225000x3x3_0 (inbC idx))
    (Host.gather gather_S25000x3x3_S225000x1_S225000x3x3_12_0_n_n_0_1_133 src (colC idx))
    (broadcastInDim S225000x3x3 ![] bcast_S_S225000x3x3 (constant S_ .f32 0x7FC00000#32))

def st1 (a5 : IVec S50000x3 32) : IVec S150000 32 := shapeCast S150000 a5 shapeCasts_S50000x3_S150000
def st3 (a1 : FVec F S1x25000x3x3 .f32) : FVec F S25000x3x3 .f32 := shapeCast S25000x3x3 a1 shapeCasts_S1x25000x3x3_S25000x3x3
def st4 (a2 : FVec F S1x25000x3 .f32) : FVec F S25000x3 .f32 := shapeCast S25000x3 a2 shapeCasts_S1x25000x3_S25000x3
def st9 (a0 : FVec F S50000x3 .f32) (v2 : FVec F S150000x3 .f32) : FVec F S150000x3 .f32 :=
  subf (shapeCast S150000x3 (broadcastInDim S50000x3x3 ![0, 2] bcast_S50000x3_S50000x3x3_0_2 a0) shapeCasts_S50000x3x3_S150000x3) v2
def st12 (v5 : FVec F S150000x3x3 .f32) (v9 v2 v6 : FVec F S150000x3 .f32) : FVec F S150000x3 .f32 :=
  addf (addf (Host.dotGeneral dot_S150000x3x3_S150000x3_S150000x3_2_1_1_n_0_0 none v5 v9) v2) v6
def st16 (v12 : FVec F S150000x3 .f32) (a3 : FVec F S50000x3 .f32) : FVec F S50000x3x3 .f32 :=
  mulf (shapeCast S50000x3x3 v12 shapeCasts_S150000x3_S50000x3x3)
    (broadcastInDim S50000x3x3 ![0, 1, 2] bcast_S50000x3x1_S50000x3x3_0_1_2
      (broadcastInDim S50000x3x1 ![0, 1] bcast_S50000x3_S50000x3x1_0_1 a3))
def st17 (v16 : FVec F S50000x3x3 .f32) : FVec F S50000x3 .f32 :=
  Host.reduceAdd v16 (constant S_ .f32 0x00000000#32) reducesTo_S50000x3x3_S50000x3_d1 h_S_
def st41 (v17 : FVec F S50000x3 .f32) : FVec F S1x50000x3 .f32 :=
  broadcastInDim S1x50000x3 ![1, 2] bcast_S50000x3_S1x50000x3_1_2 v17
def st18 (a6 : IVec S25000x9 32) : IVec S225000 32 := shapeCast S225000 a6 shapeCasts_S25000x9_S225000
def st20 (v3 : FVec F S25000x3x3 .f32) : FVec F S225000x3x3 .f32 :=
  shapeCast S225000x3x3 (broadcastInDim S25000x9x3x3 ![0, 2, 3] bcast_S25000x3x3_S25000x9x3x3_0_2_3 v3) shapeCasts_S25000x9x3x3_S225000x3x3
def st22 (v0 : FVec F S25000x3 .f32) : FVec F S225000x3 .f32 :=
  shapeCast S225000x3 (broadcastInDim S25000x9x3 ![0, 2] bcast_S25000x3_S25000x9x3_0_2 v0) shapeCasts_S25000x9x3_S225000x3
def st32 (v20 : FVec F S225000x3x3 .f32) (v22 v23 v26 v27 : FVec F S225000x3 .f32) : FVec F S225000x3 .f32 :=
  subf (subf v26 (addf v23 v27)) (Host.dotGeneral dot_S225000x3x3_S225000x3_S225000x3_2_1_1_n_0_0 none v20 (subf v22 v23))
def st37 (v20 v33 : FVec F S225000x3x3 .f32) : FVec F S_ .f32 :=
  Host.divf (Host.reduceAdd (mulf (subf v20 v33) (subf v20 v33)) (constant S_ .f32 0x00000000#32) reducesTo_S225000x3x3_S_d0_1_2 h_S_)
    (constant S_ .f32 0x49F73140#32)
def st40 (v32 : FVec F S225000x3 .f32) : FVec F S_ .f32 :=
  Host.divf (Host.reduceAdd (mulf v32 v32) (constant S_ .f32 0x00000000#32) reducesTo_S225000x3_S_d0_1 h_S_)
    (constant S_ .f32 0x46C35000#32)

section Values
variable (a0 : FVec F S50000x3 .f32) (a1 : FVec F S1x25000x3x3 .f32) (a2 : FVec F S1x25000x3 .f32) (a3 : FVec F S50000x3 .f32)
  (a4 : IVec S25000 32) (a5 : IVec S50000x3 32) (a6 : IVec S25000x9 32)

def res_v0 : FVec F S25000x3 .f32 := takeA a0 a4
def res_v1 : IVec S150000 32 := st1 a5
def res_v2 : FVec F S150000x3 .f32 := takeB3 (res_v0 a0 a4) (res_v1 a5)
def res_v3 : FVec F S25000x3x3 .f32 := st3 a1
def res_v4 : FVec F S25000x3 .f32 := st4 a2
def res_v5 : FVec F S150000x3x3 .f32 := takeB33 (res_v3 a1) (res_v1 a5)
def res_v6 : FVec F S150000x3 .f32 := takeB3 (res_v4 a2) (res_v1 a5)
def res_v9 : FVec F S150000x3 .f32 := st9 a0 (res_v2 a0 a4 a5)
def res_v12 : FVec F S150000x3 .f32 := st12 (res_v5 a1 a5) (res_v9 a0 a4 a5) (res_v2 a0 a4 a5) (res_v6 a2 a5)
def res_v16 : FVec F S50000x3x3 .f32 := st16 (res_v12 a0 a1 a2 a4 a5) a3
def res_v17 : FVec F S50000x3 .f32 := st17 (res_v16 a0 a1 a2 a3 a4 a5)
def res_v18 : IVec S225000 32 := st18 a6
def res_v20 : FVec F S225000x3x3 .f32 := st20 (res_v3 a1)
def res_v22 : FVec F S225000x3 .f32 := st22 (res_v0 a0 a4)
def res_v23 : FVec F S225000x3 .f32 := takeC3 (res_v0 a0 a4) (res_v18 a6)
def res_v24 : FVec F S25000x3 .f32 := addf (res_v0 a0 a4) (res_v4 a2)
def res_v26 : FVec F S225000x3 .f32 := st22 (res_v24 a0 a2 a4)
def res_v27 : FVec F S225000x3 .f32 := takeC3 (res_v4 a2) (res_v18 a6)
def res_v32 : FVec F S225000x3 .f32 :=
  st32 (res_v20 a1) (res_v22 a0 a4) (res_v23 a0 a4 a6) (res_v26 a0 a2 a4) (res_v27 a2 a6)
def res_v33 : FVec F S225000x3x3 .f32 := takeC33 (res_v3 a1) (res_v18 a6)

end Values

def out41 (a0 : FVec F S50000x3 .f32) (a1 : FVec F S1x25000x3x3 .f32) (a2 : FVec F S1x25000x3 .f32) (a3 : FVec F S50000x3 .f32)
    (a4 : IVec S25000 32) (a5 : IVec S50000x3 32) (a6 : IVec S25000x9 32) : FVec F S1x50000x3 .f32 :=
  st41 (res_v17 a0 a1 a2 a3 a4 a5)
def out40 (a0 : FVec F S50000x3 .f32) (a1 : FVec F S1x25000x3x3 .f32) (a2 : FVec F S1x25000x3 .f32) (a3 : FVec F S50000x3 .f32)
    (a4 : IVec S25000 32) (a5 : IVec S50000x3 32) (a6 : IVec S25000x9 32) : FVec F S_ .f32 :=
  st40 (res_v32 a0 a1 a2 a4 a6)
def out37 (a0 : FVec F S50000x3 .f32) (a1 : FVec F S1x25000x3x3 .f32) (a2 : FVec F S1x25000x3 .f32) (a3 : FVec F S50000x3 .f32)
    (a4 : IVec S25000 32) (a5 : IVec S50000x3 32) (a6 : IVec S25000x9 32) : FVec F S_ .f32 :=
  st37 (res_v20 a1) (res_v33 a1 a6)

def takeOps (arg0 : TRef sig ⟨S50000x3, .f32⟩) (arg1 : TRef sig ⟨S25000, .i32⟩) (φ : fn_take.Bufs) : List (HloOp τ sig (Elt F)) :=
  [ TRef.nullary φ.c (constantI S_ 32 0#32),
    TRef.unary φ.c φ.v0 (broadcastInDim S25000 ![] bcast_S_S25000),
    TRef.binary arg1 φ.v0 φ.v1 (cmpi .slt),
    TRef.nullary φ.c_0 (constantI S_ 32 50000#32),
    TRef.unary φ.c_0 φ.v2 (broadcastInDim S25000 ![] bcast_S_S25000),
    TRef.binary arg1 φ.v2 φ.v3 addi,
    TRef.ternary φ.v1 φ.v3 arg1 φ.call0.v0 select,
    TRef.unary φ.call0.v0 φ.v5 (broadcastInDim S25000x1 ![0] bcast_S25000_S25000x1_0),
    TRef.nullary φ.c_1 (constantI S1 32 49999#32),
    TRef.nullary φ.c_2 (constantI S_ 32 0#32),
    TRef.unary φ.c_2 φ.v6 (broadcastInDim S25000x1 ![] bcast_S_S25000x1),
    TRef.binary φ.v5 φ.v6 φ.v7 (cmpi .sge),
    TRef.unary φ.c_1 φ.v8 (broadcastInDim S1x1 ![1] bcast_S1_S1x1_1),
    TRef.unary φ.v8 φ.v9 (broadcastInDim S25000x1 ![0, 1] bcast_S1x1_S25000x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S25000x1_S25000_d1 h_S_),
    TRef.binary arg0 φ.v5 φ.v13 (fun x i => Host.gather gather_S50000x3_S25000x1_S25000x3_1_0_n_n_0_1_13 x i),
    TRef.unary φ.v12 φ.v14 (broadcastInDim S25000x3 ![0] bcast_S25000_S25000x3_0),
    TRef.nullary φ.cst (constant S_ .f32 0x7FC00000#32),
    TRef.unary φ.cst φ.v15 (broadcastInDim S25000x3 ![] bcast_S_S25000x3),
    TRef.ternary φ.v14 φ.v13 φ.v15 φ.v16 select ]
def takeW (φ : fn_take.Bufs) : List (Ref sig .tc) :=
  [φ.c.ref, φ.v0.ref, φ.v1.ref, φ.c_0.ref, φ.v2.ref, φ.v3.ref, φ.call0.v0.ref, φ.v5.ref, φ.c_1.ref, φ.c_2.ref, φ.v6.ref, φ.v7.ref,
   φ.v8.ref, φ.v9.ref, φ.v10.ref, φ.v11.ref, φ.c_3.ref, φ.v12.ref, φ.v13.ref, φ.v14.ref, φ.cst.ref, φ.v15.ref, φ.v16.ref]

def takeOps_0 (arg0 : TRef sig ⟨S25000x3, .f32⟩) (arg1 : TRef sig ⟨S150000, .i32⟩) (φ : fn_take_0.Bufs) : List (HloOp τ sig (Elt F)) :=
  [ TRef.nullary φ.c (constantI S_ 32 0#32),
    TRef.unary φ.c φ.v0 (broadcastInDim S150000 ![] bcast_S_S150000),
    TRef.binary arg1 φ.v0 φ.v1 (cmpi .slt),
    TRef.nullary φ.c_0 (constantI S_ 32 25000#32),
    TRef.unary φ.c_0 φ.v2 (broadcastInDim S150000 ![] bcast_S_S150000),
    TRef.binary arg1 φ.v2 φ.v3 addi,
    TRef.ternary φ.v1 φ.v3 arg1 φ.call0.v0 select,
    TRef.unary φ.call0.v0 φ.v5 (broadcastInDim S150000x1 ![0] bcast_S150000_S150000x1_0),
    TRef.nullary φ.c_1 (constantI S1 32 24999#32),
    TRef.nullary φ.c_2 (constantI S_ 32 0#32),
    TRef.unary φ.c_2 φ.v6 (broadcastInDim S150000x1 ![] bcast_S_S150000x1),
    TRef.binary φ.v5 φ.v6 φ.v7 (cmpi .sge),
    TRef.unary φ.c_1 φ.v8 (broadcastInDim S1x1 ![1] bcast_S1_S1x1_1),
    TRef.unary φ.v8 φ.v9 (broadcastInDim S150000x1 ![0, 1] bcast_S1x1_S150000x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S150000x1_S150000_d1 h_S_),
    TRef.binary arg0 φ.v5 φ.v13 (fun x i => Host.gather gather_S25000x3_S150000x1_S150000x3_1_0_n_n_0_1_13 x i),
    TRef.unary φ.v12 φ.v14 (broadcastInDim S150000x3 ![0] bcast_S150000_S150000x3_0),
    TRef.nullary φ.cst (constant S_ .f32 0x7FC00000#32),
    TRef.unary φ.cst φ.v15 (broadcastInDim S150000x3 ![] bcast_S_S150000x3),
    TRef.ternary φ.v14 φ.v13 φ.v15 φ.v16 select ]
def takeW_0 (φ : fn_take_0.Bufs) : List (Ref sig .tc) :=
  [φ.c.ref, φ.v0.ref, φ.v1.ref, φ.c_0.ref, φ.v2.ref, φ.v3.ref, φ.call0.v0.ref, φ.v5.ref, φ.c_1.ref, φ.c_2.ref, φ.v6.ref, φ.v7.ref,
   φ.v8.ref, φ.v9.ref, φ.v10.ref, φ.v11.ref, φ.c_3.ref, φ.v12.ref, φ.v13.ref, φ.v14.ref, φ.cst.ref, φ.v15.ref, φ.v16.ref]

def takeOps_2 (arg0 : TRef sig ⟨S25000x3x3, .f32⟩) (arg1 : TRef sig ⟨S150000, .i32⟩) (φ : fn_take_2.Bufs) : List (HloOp τ sig (Elt F)) :=
  [ TRef.nullary φ.c (constantI S_ 32 0#32),
    TRef.unary φ.c φ.v0 (broadcastInDim S150000 ![] bcast_S_S150000),
    TRef.binary arg1 φ.v0 φ.v1 (cmpi .slt),
    TRef.nullary φ.c_0 (constantI S_ 32 25000#32),
    TRef.unary φ.c_0 φ.v2 (broadcastInDim S150000 ![] bcast_S_S150000),
    TRef.binary arg1 φ.v2 φ.v3 addi,
    TRef.ternary φ.v1 φ.v3 arg1 φ.call0.v0 select,
    TRef.unary φ.call0.v0 φ.v5 (broadcastInDim S150000x1 ![0] bcast_S150000_S150000x1_0),
    TRef.nullary φ.c_1 (constantI S1 32 24999#32),
    TRef.nullary φ.c_2 (constantI S_ 32 0#32),
    TRef.unary φ.c_2 φ.v6 (broadcastInDim S150000x1 ![] bcast_S_S150000x1),
    TRef.binary φ.v5 φ.v6 φ.v7 (cmpi .sge),
    TRef.unary φ.c_1 φ.v8 (broadcastInDim S1x1 ![1] bcast_S1_S1x1_1),
    TRef.unary φ.v8 φ.v9 (broadcastInDim S150000x1 ![0, 1] bcast_S1x1_S150000x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S150000x1_S150000_d1 h_S_),
    TRef.binary arg0 φ.v5 φ.v13 (fun x i => Host.gather gather_S25000x3x3_S150000x1_S150000x3x3_12_0_n_n_0_1_133 x i),
    TRef.unary φ.v12 φ.v14 (broadcastInDim S150000x3x3 ![0] bcast_S150000_S150000x3x3_0),
    TRef.nullary φ.cst (constant S_ .f32 0x7FC00000#32),
    TRef.unary φ.cst φ.v15 (broadcastInDim S150000x3x3 ![] bcast_S_S150000x3x3),
    TRef.ternary φ.v14 φ.v13 φ.v15 φ.v16 select ]
def takeW_2 (φ : fn_take_2.Bufs) : List (Ref sig .tc) :=
  [φ.c.ref, φ.v0.ref, φ.v1.ref, φ.c_0.ref, φ.v2.ref, φ.v3.ref, φ.call0.v0.ref, φ.v5.ref, φ.c_1.ref, φ.c_2.ref, φ.v6.ref, φ.v7.ref,
   φ.v8.ref, φ.v9.ref, φ.v10.ref, φ.v11.ref, φ.c_3.ref, φ.v12.ref, φ.v13.ref, φ.v14.ref, φ.cst.ref, φ.v15.ref, φ.v16.ref]

def takeOps_3 (arg0 : TRef sig ⟨S25000x3, .f32⟩) (arg1 : TRef sig ⟨S225000, .i32⟩) (φ : fn_take_3.Bufs) : List (HloOp τ sig (Elt F)) :=
  [ TRef.nullary φ.c (constantI S_ 32 0#32),
    TRef.unary φ.c φ.v0 (broadcastInDim S225000 ![] bcast_S_S225000),
    TRef.binary arg1 φ.v0 φ.v1 (cmpi .slt),
    TRef.nullary φ.c_0 (constantI S_ 32 25000#32),
    TRef.unary φ.c_0 φ.v2 (broadcastInDim S225000 ![] bcast_S_S225000),
    TRef.binary arg1 φ.v2 φ.v3 addi,
    TRef.ternary φ.v1 φ.v3 arg1 φ.call0.v0 select,
    TRef.unary φ.call0.v0 φ.v5 (broadcastInDim S225000x1 ![0] bcast_S225000_S225000x1_0),
    TRef.nullary φ.c_1 (constantI S1 32 24999#32),
    TRef.nullary φ.c_2 (constantI S_ 32 0#32),
    TRef.unary φ.c_2 φ.v6 (broadcastInDim S225000x1 ![] bcast_S_S225000x1),
    TRef.binary φ.v5 φ.v6 φ.v7 (cmpi .sge),
    TRef.unary φ.c_1 φ.v8 (broadcastInDim S1x1 ![1] bcast_S1_S1x1_1),
    TRef.unary φ.v8 φ.v9 (broadcastInDim S225000x1 ![0, 1] bcast_S1x1_S225000x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S225000x1_S225000_d1 h_S_),
    TRef.binary arg0 φ.v5 φ.v13 (fun x i => Host.gather gather_S25000x3_S225000x1_S225000x3_1_0_n_n_0_1_13 x i),
    TRef.unary φ.v12 φ.v14 (broadcastInDim S225000x3 ![0] bcast_S225000_S225000x3_0),
    TRef.nullary φ.cst (constant S_ .f32 0x7FC00000#32),
    TRef.unary φ.cst φ.v15 (broadcastInDim S225000x3 ![] bcast_S_S225000x3),
    TRef.ternary φ.v14 φ.v13 φ.v15 φ.v16 select ]
def takeW_3 (φ : fn_take_3.Bufs) : List (Ref sig .tc) :=
  [φ.c.ref, φ.v0.ref, φ.v1.ref, φ.c_0.ref, φ.v2.ref, φ.v3.ref, φ.call0.v0.ref, φ.v5.ref, φ.c_1.ref, φ.c_2.ref, φ.v6.ref, φ.v7.ref,
   φ.v8.ref, φ.v9.ref, φ.v10.ref, φ.v11.ref, φ.c_3.ref, φ.v12.ref, φ.v13.ref, φ.v14.ref, φ.cst.ref, φ.v15.ref, φ.v16.ref]

def takeOps_5 (arg0 : TRef sig ⟨S25000x3x3, .f32⟩) (arg1 : TRef sig ⟨S225000, .i32⟩) (φ : fn_take_5.Bufs) : List (HloOp τ sig (Elt F)) :=
  [ TRef.nullary φ.c (constantI S_ 32 0#32),
    TRef.unary φ.c φ.v0 (broadcastInDim S225000 ![] bcast_S_S225000),
    TRef.binary arg1 φ.v0 φ.v1 (cmpi .slt),
    TRef.nullary φ.c_0 (constantI S_ 32 25000#32),
    TRef.unary φ.c_0 φ.v2 (broadcastInDim S225000 ![] bcast_S_S225000),
    TRef.binary arg1 φ.v2 φ.v3 addi,
    TRef.ternary φ.v1 φ.v3 arg1 φ.call0.v0 select,
    TRef.unary φ.call0.v0 φ.v5 (broadcastInDim S225000x1 ![0] bcast_S225000_S225000x1_0),
    TRef.nullary φ.c_1 (constantI S1 32 24999#32),
    TRef.nullary φ.c_2 (constantI S_ 32 0#32),
    TRef.unary φ.c_2 φ.v6 (broadcastInDim S225000x1 ![] bcast_S_S225000x1),
    TRef.binary φ.v5 φ.v6 φ.v7 (cmpi .sge),
    TRef.unary φ.c_1 φ.v8 (broadcastInDim S1x1 ![1] bcast_S1_S1x1_1),
    TRef.unary φ.v8 φ.v9 (broadcastInDim S225000x1 ![0, 1] bcast_S1x1_S225000x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S225000x1_S225000_d1 h_S_),
    TRef.binary arg0 φ.v5 φ.v13 (fun x i => Host.gather gather_S25000x3x3_S225000x1_S225000x3x3_12_0_n_n_0_1_133 x i),
    TRef.unary φ.v12 φ.v14 (broadcastInDim S225000x3x3 ![0] bcast_S225000_S225000x3x3_0),
    TRef.nullary φ.cst (constant S_ .f32 0x7FC00000#32),
    TRef.unary φ.cst φ.v15 (broadcastInDim S225000x3x3 ![] bcast_S_S225000x3x3),
    TRef.ternary φ.v14 φ.v13 φ.v15 φ.v16 select ]
def takeW_5 (φ : fn_take_5.Bufs) : List (Ref sig .tc) :=
  [φ.c.ref, φ.v0.ref, φ.v1.ref, φ.c_0.ref, φ.v2.ref, φ.v3.ref, φ.call0.v0.ref, φ.v5.ref, φ.c_1.ref, φ.c_2.ref, φ.v6.ref, φ.v7.ref,
   φ.v8.ref, φ.v9.ref, φ.v10.ref, φ.v11.ref, φ.c_3.ref, φ.v12.ref, φ.v13.ref, φ.v14.ref, φ.cst.ref, φ.v15.ref, φ.v16.ref]

set_option maxRecDepth 2048 in
theorem take_body_eq (arg0 : TRef sig ⟨S50000x3, .f32⟩) (arg1 : TRef sig ⟨S25000, .i32⟩) (φ : fn_take.Bufs) :
    fn_take.body (F := F) arg0 arg1 φ = seq (takeOps arg0 arg1 φ) := by
  simp only [fn_take.body, fn_where.body, takeOps, seq, bind_assoc, pure_bind]

set_option maxRecDepth 2048 in
theorem take_0_body_eq (arg0 : TRef sig ⟨S25000x3, .f32⟩) (arg1 : TRef sig ⟨S150000, .i32⟩) (φ : fn_take_0.Bufs) :
    fn_take_0.body (F := F) arg0 arg1 φ = seq (takeOps_0 arg0 arg1 φ) := by
  simp only [fn_take_0.body, fn_where_1.body, takeOps_0, seq, bind_assoc, pure_bind]
set_option maxRecDepth 2048 in
theorem take_2_body_eq (arg0 : TRef sig ⟨S25000x3x3, .f32⟩) (arg1 : TRef sig ⟨S150000, .i32⟩) (φ : fn_take_2.Bufs) :
    fn_take_2.body (F := F) arg0 arg1 φ = seq (takeOps_2 arg0 arg1 φ) := by
  simp only [fn_take_2.body, fn_where_1.body, takeOps_2, seq, bind_assoc, pure_bind]
set_option maxRecDepth 2048 in
theorem take_3_body_eq (arg0 : TRef sig ⟨S25000x3, .f32⟩) (arg1 : TRef sig ⟨S225000, .i32⟩) (φ : fn_take_3.Bufs) :
    fn_take_3.body (F := F) arg0 arg1 φ = seq (takeOps_3 arg0 arg1 φ) := by
  simp only [fn_take_3.body, fn_where_4.body, takeOps_3, seq, bind_assoc, pure_bind]
set_option maxRecDepth 2048 in
theorem take_5_body_eq (arg0 : TRef sig ⟨S25000x3x3, .f32⟩) (arg1 : TRef sig ⟨S225000, .i32⟩) (φ : fn_take_5.Bufs) :
    fn_take_5.body (F := F) arg0 arg1 φ = seq (takeOps_5 arg0 arg1 φ) := by
  simp only [fn_take_5.body, fn_where_4.body, takeOps_5, seq, bind_assoc, pure_bind]

theorem writes_sub_of {op : HloOp τ sig (Elt F)} {W : List (Ref sig .tc)} (y : Ref sig .tc)
    (h : op.writes = {Proc.devRef .tc y}) (hy : y ∈ W) :
    op.writes ⊆ (W.map (Proc.devRef (τ := τ) .tc)).toFinset := by
  rw [h, Finset.singleton_subset_iff, List.mem_toFinset]; exact List.mem_map_of_mem hy

theorem takeOps_writes (arg0 : TRef sig ⟨S50000x3, .f32⟩) (arg1 : TRef sig ⟨S25000, .i32⟩) (φ : fn_take.Bufs) :
    (takeOps (F := F) arg0 arg1 φ).Forall fun op => op.writes ⊆ ((takeW φ).map (Proc.devRef (τ := τ) .tc)).toFinset := by
  simp only [takeOps, takeW, List.Forall]
  refine ⟨?_, ?_, ?_, ?_, ?_, ?_, ?_, ?_, ?_, ?_, ?_, ?_, ?_, ?_, ?_, ?_, ?_, ?_, ?_, ?_, ?_, ?_, ?_⟩ <;>
    exact writes_sub_of _ rfl (by simp only [List.mem_cons, true_or, or_true])
theorem takeOps_sub (arg0 : TRef sig ⟨S50000x3, .f32⟩) (arg1 : TRef sig ⟨S25000, .i32⟩) (φ : fn_take.Bufs) :
    (takeOps (F := F) arg0 arg1 φ).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩
theorem takeOps_fresh (arg0 : TRef sig ⟨S50000x3, .f32⟩) (arg1 : TRef sig ⟨S25000, .i32⟩) (φ : fn_take.Bufs) :
    (takeOps (F := F) arg0 arg1 φ).Forall fun op => op.fresh = ∅ :=
  ⟨rfl, rfl, rfl, rfl, rfl, rfl, rfl, rfl, rfl, rfl, rfl, rfl, rfl, rfl, rfl, rfl, rfl, rfl, rfl, rfl, rfl, rfl, rfl⟩

theorem takeOps_0_writes (arg0 : TRef sig ⟨S25000x3, .f32⟩) (arg1 : TRef sig ⟨S150000, .i32⟩) (φ : fn_take_0.Bufs) :
    (takeOps_0 (F := F) arg0 arg1 φ).Forall fun op => op.writes ⊆ ((takeW_0 φ).map (Proc.devRef (τ := τ) .tc)).toFinset := by
  simp only [takeOps_0, takeW_0, List.Forall]
  refine ⟨?_, ?_, ?_, ?_, ?_, ?_, ?_, ?_, ?_, ?_, ?_, ?_, ?_, ?_, ?_, ?_, ?_, ?_, ?_, ?_, ?_, ?_, ?_⟩ <;>
    exact writes_sub_of _ rfl (by simp only [List.mem_cons, true_or, or_true])
theorem takeOps_0_sub (arg0 : TRef sig ⟨S25000x3, .f32⟩) (arg1 : TRef sig ⟨S150000, .i32⟩) (φ : fn_take_0.Bufs) :
    (takeOps_0 (F := F) arg0 arg1 φ).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩
theorem takeOps_0_fresh (arg0 : TRef sig ⟨S25000x3, .f32⟩) (arg1 : TRef sig ⟨S150000, .i32⟩) (φ : fn_take_0.Bufs) :
    (takeOps_0 (F := F) arg0 arg1 φ).Forall fun op => op.fresh = ∅ :=
  ⟨rfl, rfl, rfl, rfl, rfl, rfl, rfl, rfl, rfl, rfl, rfl, rfl, rfl, rfl, rfl, rfl, rfl, rfl, rfl, rfl, rfl, rfl, rfl⟩

theorem takeOps_2_writes (arg0 : TRef sig ⟨S25000x3x3, .f32⟩) (arg1 : TRef sig ⟨S150000, .i32⟩) (φ : fn_take_2.Bufs) :
    (takeOps_2 (F := F) arg0 arg1 φ).Forall fun op => op.writes ⊆ ((takeW_2 φ).map (Proc.devRef (τ := τ) .tc)).toFinset := by
  simp only [takeOps_2, takeW_2, List.Forall]
  refine ⟨?_, ?_, ?_, ?_, ?_, ?_, ?_, ?_, ?_, ?_, ?_, ?_, ?_, ?_, ?_, ?_, ?_, ?_, ?_, ?_, ?_, ?_, ?_⟩ <;>
    exact writes_sub_of _ rfl (by simp only [List.mem_cons, true_or, or_true])
theorem takeOps_2_sub (arg0 : TRef sig ⟨S25000x3x3, .f32⟩) (arg1 : TRef sig ⟨S150000, .i32⟩) (φ : fn_take_2.Bufs) :
    (takeOps_2 (F := F) arg0 arg1 φ).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩
theorem takeOps_2_fresh (arg0 : TRef sig ⟨S25000x3x3, .f32⟩) (arg1 : TRef sig ⟨S150000, .i32⟩) (φ : fn_take_2.Bufs) :
    (takeOps_2 (F := F) arg0 arg1 φ).Forall fun op => op.fresh = ∅ :=
  ⟨rfl, rfl, rfl, rfl, rfl, rfl, rfl, rfl, rfl, rfl, rfl, rfl, rfl, rfl, rfl, rfl, rfl, rfl, rfl, rfl, rfl, rfl, rfl⟩

theorem takeOps_3_writes (arg0 : TRef sig ⟨S25000x3, .f32⟩) (arg1 : TRef sig ⟨S225000, .i32⟩) (φ : fn_take_3.Bufs) :
    (takeOps_3 (F := F) arg0 arg1 φ).Forall fun op => op.writes ⊆ ((takeW_3 φ).map (Proc.devRef (τ := τ) .tc)).toFinset := by
  simp only [takeOps_3, takeW_3, List.Forall]
  refine ⟨?_, ?_, ?_, ?_, ?_, ?_, ?_, ?_, ?_, ?_, ?_, ?_, ?_, ?_, ?_, ?_, ?_, ?_, ?_, ?_, ?_, ?_, ?_⟩ <;>
    exact writes_sub_of _ rfl (by simp only [List.mem_cons, true_or, or_true])
theorem takeOps_3_sub (arg0 : TRef sig ⟨S25000x3, .f32⟩) (arg1 : TRef sig ⟨S225000, .i32⟩) (φ : fn_take_3.Bufs) :
    (takeOps_3 (F := F) arg0 arg1 φ).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩
theorem takeOps_3_fresh (arg0 : TRef sig ⟨S25000x3, .f32⟩) (arg1 : TRef sig ⟨S225000, .i32⟩) (φ : fn_take_3.Bufs) :
    (takeOps_3 (F := F) arg0 arg1 φ).Forall fun op => op.fresh = ∅ :=
  ⟨rfl, rfl, rfl, rfl, rfl, rfl, rfl, rfl, rfl, rfl, rfl, rfl, rfl, rfl, rfl, rfl, rfl, rfl, rfl, rfl, rfl, rfl, rfl⟩

theorem takeOps_5_writes (arg0 : TRef sig ⟨S25000x3x3, .f32⟩) (arg1 : TRef sig ⟨S225000, .i32⟩) (φ : fn_take_5.Bufs) :
    (takeOps_5 (F := F) arg0 arg1 φ).Forall fun op => op.writes ⊆ ((takeW_5 φ).map (Proc.devRef (τ := τ) .tc)).toFinset := by
  simp only [takeOps_5, takeW_5, List.Forall]
  refine ⟨?_, ?_, ?_, ?_, ?_, ?_, ?_, ?_, ?_, ?_, ?_, ?_, ?_, ?_, ?_, ?_, ?_, ?_, ?_, ?_, ?_, ?_, ?_⟩ <;>
    exact writes_sub_of _ rfl (by simp only [List.mem_cons, true_or, or_true])
theorem takeOps_5_sub (arg0 : TRef sig ⟨S25000x3x3, .f32⟩) (arg1 : TRef sig ⟨S225000, .i32⟩) (φ : fn_take_5.Bufs) :
    (takeOps_5 (F := F) arg0 arg1 φ).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩
theorem takeOps_5_fresh (arg0 : TRef sig ⟨S25000x3x3, .f32⟩) (arg1 : TRef sig ⟨S225000, .i32⟩) (φ : fn_take_5.Bufs) :
    (takeOps_5 (F := F) arg0 arg1 φ).Forall fun op => op.fresh = ∅ :=
  ⟨rfl, rfl, rfl, rfl, rfl, rfl, rfl, rfl, rfl, rfl, rfl, rfl, rfl, rfl, rfl, rfl, rfl, rfl, rfl, rfl, rfl, rfl, rfl⟩

def opsT0 : List (HloOp τ sig (Elt F)) := takeOps (.of main_arg0) (.of main_arg4) main_call0
def opsM1 : List (HloOp τ sig (Elt F)) :=
  [ reshape main_arg5 main_v1 rfl shapeCasts_S50000x3_S150000 ]
def opsT1 : List (HloOp τ sig (Elt F)) := takeOps_0 (.of main_v0) (.of main_v1) main_call1
def opsM2 : List (HloOp τ sig (Elt F)) :=
  [ reshape main_arg1 main_v3 rfl shapeCasts_S1x25000x3x3_S25000x3x3,
    reshape main_arg2 main_v4 rfl shapeCasts_S1x25000x3_S25000x3 ]
def opsT2 : List (HloOp τ sig (Elt F)) := takeOps_2 (.of main_v3) (.of main_v1) main_call2
def opsT3 : List (HloOp τ sig (Elt F)) := takeOps_0 (.of main_v4) (.of main_v1) main_call3
def opsM3 : List (HloOp τ sig (Elt F)) :=
  [ unary main_arg0 main_v7 (broadcastInDim S50000x3x3 ![0, 2] bcast_S50000x3_S50000x3x3_0_2),
    reshape main_v7 main_v8 rfl shapeCasts_S50000x3x3_S150000x3,
    binary main_v8 main_v2 main_v9 subf,
    binary main_v5 main_v9 main_v10 (fun l r => Host.dotGeneral dot_S150000x3x3_S150000x3_S150000x3_2_1_1_n_0_0 none l r),
    binary main_v10 main_v2 main_v11 addf,
    binary main_v11 main_v6 main_v12 addf,
    reshape main_v12 main_v13 rfl shapeCasts_S150000x3_S50000x3x3,
    unary main_arg3 main_v14 (broadcastInDim S50000x3x1 ![0, 1] bcast_S50000x3_S50000x3x1_0_1),
    unary main_v14 main_v15 (broadcastInDim S50000x3x3 ![0, 1, 2] bcast_S50000x3x1_S50000x3x3_0_1_2),
    binary main_v13 main_v15 main_v16 mulf,
    nullary main_cst (constant S_ .f32 0x00000000#32),
    binary main_v16 main_cst main_v17 (fun x v => Host.reduceAdd x v reducesTo_S50000x3x3_S50000x3_d1 h_S_),
    reshape main_arg6 main_v18 rfl shapeCasts_S25000x9_S225000,
    unary main_v3 main_v19 (broadcastInDim S25000x9x3x3 ![0, 2, 3] bcast_S25000x3x3_S25000x9x3x3_0_2_3),
    reshape main_v19 main_v20 rfl shapeCasts_S25000x9x3x3_S225000x3x3,
    unary main_v0 main_v21 (broadcastInDim S25000x9x3 ![0, 2] bcast_S25000x3_S25000x9x3_0_2),
    reshape main_v21 main_v22 rfl shapeCasts_S25000x9x3_S225000x3 ]
def opsT4 : List (HloOp τ sig (Elt F)) := takeOps_3 (.of main_v0) (.of main_v18) main_call4
def opsM4 : List (HloOp τ sig (Elt F)) :=
  [ binary main_v0 main_v4 main_v24 addf,
    unary main_v24 main_v25 (broadcastInDim S25000x9x3 ![0, 2] bcast_S25000x3_S25000x9x3_0_2),
    reshape main_v25 main_v26 rfl shapeCasts_S25000x9x3_S225000x3 ]
def opsT5 : List (HloOp τ sig (Elt F)) := takeOps_3 (.of main_v4) (.of main_v18) main_call5
def opsM5 : List (HloOp τ sig (Elt F)) :=
  [ binary main_v23 main_v27 main_v28 addf,
    binary main_v26 main_v28 main_v29 subf,
    binary main_v22 main_v23 main_v30 subf,
    binary main_v20 main_v30 main_v31 (fun l r => Host.dotGeneral dot_S225000x3x3_S225000x3_S225000x3_2_1_1_n_0_0 none l r),
    binary main_v29 main_v31 main_v32 subf ]
def opsT6 : List (HloOp τ sig (Elt F)) := takeOps_5 (.of main_v3) (.of main_v18) main_call6
def opsM6 : List (HloOp τ sig (Elt F)) :=
  [ binary main_v20 main_v33 main_v34 subf,
    binary main_v34 main_v34 main_v35 mulf,
    nullary main_cst_0 (constant S_ .f32 0x00000000#32),
    binary main_v35 main_cst_0 main_v36 (fun x v => Host.reduceAdd x v reducesTo_S225000x3x3_S_d0_1_2 h_S_),
    nullary main_cst_1 (constant S_ .f32 0x49F73140#32),
    binary main_v36 main_cst_1 main_v37 Host.divf,
    binary main_v32 main_v32 main_v38 mulf,
    nullary main_cst_2 (constant S_ .f32 0x00000000#32),
    binary main_v38 main_cst_2 main_v39 (fun x v => Host.reduceAdd x v reducesTo_S225000x3_S_d0_1 h_S_),
    nullary main_cst_3 (constant S_ .f32 0x46C35000#32),
    binary main_v39 main_cst_3 main_v40 Host.divf,
    unary main_v17 main_v41 (broadcastInDim S1x50000x3 ![1, 2] bcast_S50000x3_S1x50000x3_1_2) ]

def ops : List (HloOp τ sig (Elt F)) :=
  opsT0 ++ (opsM1 ++ (opsT1 ++ (opsM2 ++ (opsT2 ++ (opsT3 ++ (opsM3 ++ (opsT4 ++ (opsM4 ++ (opsT5 ++ (opsM5 ++ (opsT6 ++ opsM6)))))))))))

theorem T0_eq : fn_take.body (F := F) (.of main_arg0) (.of main_arg4) main_call0 = seq opsT0 := take_body_eq _ _ _
theorem T1_eq : fn_take_0.body (F := F) (.of main_v0) (.of main_v1) main_call1 = seq opsT1 := take_0_body_eq _ _ _
theorem T2_eq : fn_take_2.body (F := F) (.of main_v3) (.of main_v1) main_call2 = seq opsT2 := take_2_body_eq _ _ _
theorem T3_eq : fn_take_0.body (F := F) (.of main_v4) (.of main_v1) main_call3 = seq opsT3 := take_0_body_eq _ _ _
theorem T4_eq : fn_take_3.body (F := F) (.of main_v0) (.of main_v18) main_call4 = seq opsT4 := take_3_body_eq _ _ _
theorem T5_eq : fn_take_3.body (F := F) (.of main_v4) (.of main_v18) main_call5 = seq opsT5 := take_3_body_eq _ _ _
theorem T6_eq : fn_take_5.body (F := F) (.of main_v3) (.of main_v18) main_call6 = seq opsT6 := take_5_body_eq _ _ _

set_option maxRecDepth 4096 in
theorem main_eq (c : Dev nD) : main (F := F) c = seq ops := by
  simp only [main, T0_eq, T1_eq, T2_eq, T3_eq, T4_eq, T5_eq, T6_eq, ops, seq_append, opsM1, opsM2, opsM3, opsM4, opsM5, opsM6,
    seq, bind_assoc, pure_bind]
  rfl

theorem keepT0 (V : Valuation τ sig (Elt F)) (r : Ref sig .tc) (h : r ∉ takeW main_call0) :
    after (opsT0 (F := F)) V (no_index (Proc.devRef .tc r)) = V (Proc.devRef .tc r) :=
  after_of_writes_sub _ V (takeOps_writes _ _ _) h
theorem keepT1 (V : Valuation τ sig (Elt F)) (r : Ref sig .tc) (h : r ∉ takeW_0 main_call1) :
    after (opsT1 (F := F)) V (no_index (Proc.devRef .tc r)) = V (Proc.devRef .tc r) :=
  after_of_writes_sub _ V (takeOps_0_writes _ _ _) h
theorem keepT2 (V : Valuation τ sig (Elt F)) (r : Ref sig .tc) (h : r ∉ takeW_2 main_call2) :
    after (opsT2 (F := F)) V (no_index (Proc.devRef .tc r)) = V (Proc.devRef .tc r) :=
  after_of_writes_sub _ V (takeOps_2_writes _ _ _) h
theorem keepT3 (V : Valuation τ sig (Elt F)) (r : Ref sig .tc) (h : r ∉ takeW_0 main_call3) :
    after (opsT3 (F := F)) V (no_index (Proc.devRef .tc r)) = V (Proc.devRef .tc r) :=
  after_of_writes_sub _ V (takeOps_0_writes _ _ _) h
theorem keepT4 (V : Valuation τ sig (Elt F)) (r : Ref sig .tc) (h : r ∉ takeW_3 main_call4) :
    after (opsT4 (F := F)) V (no_index (Proc.devRef .tc r)) = V (Proc.devRef .tc r) :=
  after_of_writes_sub _ V (takeOps_3_writes _ _ _) h
theorem keepT5 (V : Valuation τ sig (Elt F)) (r : Ref sig .tc) (h : r ∉ takeW_3 main_call5) :
    after (opsT5 (F := F)) V (no_index (Proc.devRef .tc r)) = V (Proc.devRef .tc r) :=
  after_of_writes_sub _ V (takeOps_3_writes _ _ _) h
theorem keepT6 (V : Valuation τ sig (Elt F)) (r : Ref sig .tc) (h : r ∉ takeW_5 main_call6) :
    after (opsT6 (F := F)) V (no_index (Proc.devRef .tc r)) = V (Proc.devRef .tc r) :=
  after_of_writes_sub _ V (takeOps_5_writes _ _ _) h

def W_M1 : List (Ref sig .tc) := [main_v1]
def W_M2 : List (Ref sig .tc) := [main_v3, main_v4]
def W_M3 : List (Ref sig .tc) :=
  [main_v7, main_v8, main_v9, main_v10, main_v11, main_v12, main_v13, main_v14, main_v15, main_v16, main_cst, main_v17, main_v18,
   main_v19, main_v20, main_v21, main_v22]
def W_M4 : List (Ref sig .tc) := [main_v24, main_v25, main_v26]
def W_M5 : List (Ref sig .tc) := [main_v28, main_v29, main_v30, main_v31, main_v32]
def W_M6 : List (Ref sig .tc) :=
  [main_v34, main_v35, main_cst_0, main_v36, main_cst_1, main_v37, main_v38, main_cst_2, main_v39, main_cst_3, main_v40, main_v41]

theorem opsM1_writes : (opsM1 (F := F)).Forall fun op => op.writes ⊆ (W_M1.map (Proc.devRef (τ := τ) .tc)).toFinset := by
  simp only [opsM1, W_M1, List.Forall]
  exact writes_sub_of _ rfl (by simp only [List.mem_cons, true_or, or_true])
theorem opsM2_writes : (opsM2 (F := F)).Forall fun op => op.writes ⊆ (W_M2.map (Proc.devRef (τ := τ) .tc)).toFinset := by
  simp only [opsM2, W_M2, List.Forall]
  refine ⟨?_, ?_⟩ <;> exact writes_sub_of _ rfl (by simp only [List.mem_cons, true_or, or_true])
theorem opsM3_writes : (opsM3 (F := F)).Forall fun op => op.writes ⊆ (W_M3.map (Proc.devRef (τ := τ) .tc)).toFinset := by
  simp only [opsM3, W_M3, List.Forall]
  refine ⟨?_, ?_, ?_, ?_, ?_, ?_, ?_, ?_, ?_, ?_, ?_, ?_, ?_, ?_, ?_, ?_, ?_⟩ <;>
    exact writes_sub_of _ rfl (by simp only [List.mem_cons, true_or, or_true])
theorem opsM4_writes : (opsM4 (F := F)).Forall fun op => op.writes ⊆ (W_M4.map (Proc.devRef (τ := τ) .tc)).toFinset := by
  simp only [opsM4, W_M4, List.Forall]
  refine ⟨?_, ?_, ?_⟩ <;> exact writes_sub_of _ rfl (by simp only [List.mem_cons, true_or, or_true])
theorem opsM5_writes : (opsM5 (F := F)).Forall fun op => op.writes ⊆ (W_M5.map (Proc.devRef (τ := τ) .tc)).toFinset := by
  simp only [opsM5, W_M5, List.Forall]
  refine ⟨?_, ?_, ?_, ?_, ?_⟩ <;> exact writes_sub_of _ rfl (by simp only [List.mem_cons, true_or, or_true])
theorem opsM6_writes : (opsM6 (F := F)).Forall fun op => op.writes ⊆ (W_M6.map (Proc.devRef (τ := τ) .tc)).toFinset := by
  simp only [opsM6, W_M6, List.Forall]
  refine ⟨?_, ?_, ?_, ?_, ?_, ?_, ?_, ?_, ?_, ?_, ?_, ?_⟩ <;>
    exact writes_sub_of _ rfl (by simp only [List.mem_cons, true_or, or_true])

theorem keepM1 (V : Valuation τ sig (Elt F)) (r : Ref sig .tc) (h : r ∉ W_M1) :
    after (opsM1 (F := F)) V (no_index (Proc.devRef .tc r)) = V (Proc.devRef .tc r) := after_of_writes_sub _ V opsM1_writes h
theorem keepM2 (V : Valuation τ sig (Elt F)) (r : Ref sig .tc) (h : r ∉ W_M2) :
    after (opsM2 (F := F)) V (no_index (Proc.devRef .tc r)) = V (Proc.devRef .tc r) := after_of_writes_sub _ V opsM2_writes h
theorem keepM3 (V : Valuation τ sig (Elt F)) (r : Ref sig .tc) (h : r ∉ W_M3) :
    after (opsM3 (F := F)) V (no_index (Proc.devRef .tc r)) = V (Proc.devRef .tc r) := after_of_writes_sub _ V opsM3_writes h
theorem keepM4 (V : Valuation τ sig (Elt F)) (r : Ref sig .tc) (h : r ∉ W_M4) :
    after (opsM4 (F := F)) V (no_index (Proc.devRef .tc r)) = V (Proc.devRef .tc r) := after_of_writes_sub _ V opsM4_writes h
theorem keepM5 (V : Valuation τ sig (Elt F)) (r : Ref sig .tc) (h : r ∉ W_M5) :
    after (opsM5 (F := F)) V (no_index (Proc.devRef .tc r)) = V (Proc.devRef .tc r) := after_of_writes_sub _ V opsM5_writes h
theorem keepM6 (V : Valuation τ sig (Elt F)) (r : Ref sig .tc) (h : r ∉ W_M6) :
    after (opsM6 (F := F)) V (no_index (Proc.devRef .tc r)) = V (Proc.devRef .tc r) := after_of_writes_sub _ V opsM6_writes h

theorem resT0 (V : Valuation τ sig (Elt F)) :
    after (opsT0 (F := F)) V (no_index (Proc.devRef .tc main_v0))
      = takeA (V (Proc.devRef .tc main_arg0)) (V (Proc.devRef .tc main_arg4)) := by
  simp only [opsT0, takeOps]
  after_results_simp
  simp only [TRef.toBuf, TRef.ofBuf, cast_eq]
  rfl
theorem resT1 (V : Valuation τ sig (Elt F)) :
    after (opsT1 (F := F)) V (no_index (Proc.devRef .tc main_v2))
      = takeB3 (V (Proc.devRef .tc main_v0)) (V (Proc.devRef .tc main_v1)) := by
  simp only [opsT1, takeOps_0]
  after_results_simp
  simp only [TRef.toBuf, TRef.ofBuf, cast_eq]
  rfl
theorem resT2 (V : Valuation τ sig (Elt F)) :
    after (opsT2 (F := F)) V (no_index (Proc.devRef .tc main_v5))
      = takeB33 (V (Proc.devRef .tc main_v3)) (V (Proc.devRef .tc main_v1)) := by
  simp only [opsT2, takeOps_2]
  after_results_simp
  simp only [TRef.toBuf, TRef.ofBuf, cast_eq]
  rfl
theorem resT3 (V : Valuation τ sig (Elt F)) :
    after (opsT3 (F := F)) V (no_index (Proc.devRef .tc main_v6))
      = takeB3 (V (Proc.devRef .tc main_v4)) (V (Proc.devRef .tc main_v1)) := by
  simp only [opsT3, takeOps_0]
  after_results_simp
  simp only [TRef.toBuf, TRef.ofBuf, cast_eq]
  rfl
theorem resT4 (V : Valuation τ sig (Elt F)) :
    after (opsT4 (F := F)) V (no_index (Proc.devRef .tc main_v23))
      = takeC3 (V (Proc.devRef .tc main_v0)) (V (Proc.devRef .tc main_v18)) := by
  simp only [opsT4, takeOps_3]
  after_results_simp
  simp only [TRef.toBuf, TRef.ofBuf, cast_eq]
  rfl
theorem resT5 (V : Valuation τ sig (Elt F)) :
    after (opsT5 (F := F)) V (no_index (Proc.devRef .tc main_v27))
      = takeC3 (V (Proc.devRef .tc main_v4)) (V (Proc.devRef .tc main_v18)) := by
  simp only [opsT5, takeOps_3]
  after_results_simp
  simp only [TRef.toBuf, TRef.ofBuf, cast_eq]
  rfl
theorem resT6 (V : Valuation τ sig (Elt F)) :
    after (opsT6 (F := F)) V (no_index (Proc.devRef .tc main_v33))
      = takeC33 (V (Proc.devRef .tc main_v3)) (V (Proc.devRef .tc main_v18)) := by
  simp only [opsT6, takeOps_5]
  after_results_simp
  simp only [TRef.toBuf, TRef.ofBuf, cast_eq]
  rfl

theorem resM1_v1 (V : Valuation τ sig (Elt F)) :
    after (opsM1 (F := F)) V (no_index (Proc.devRef .tc main_v1)) = st1 (V (Proc.devRef .tc main_arg5)) := by
  simp only [opsM1]
  after_results_simp
  rfl
theorem resM2_v3 (V : Valuation τ sig (Elt F)) :
    after (opsM2 (F := F)) V (no_index (Proc.devRef .tc main_v3)) = st3 (V (Proc.devRef .tc main_arg1)) := by
  simp only [opsM2]
  after_results_simp
  rfl
theorem resM2_v4 (V : Valuation τ sig (Elt F)) :
    after (opsM2 (F := F)) V (no_index (Proc.devRef .tc main_v4)) = st4 (V (Proc.devRef .tc main_arg2)) := by
  simp only [opsM2]
  after_results_simp
  rfl
theorem resM3_v17 (V : Valuation τ sig (Elt F)) :
    after (opsM3 (F := F)) V (no_index (Proc.devRef .tc main_v17))
      = st17 (st16 (st12 (V (Proc.devRef .tc main_v5)) (st9 (V (Proc.devRef .tc main_arg0)) (V (Proc.devRef .tc main_v2)))
          (V (Proc.devRef .tc main_v2)) (V (Proc.devRef .tc main_v6))) (V (Proc.devRef .tc main_arg3))) := by
  simp only [opsM3]
  after_results_simp
  rfl
theorem resM3_v18 (V : Valuation τ sig (Elt F)) :
    after (opsM3 (F := F)) V (no_index (Proc.devRef .tc main_v18)) = st18 (V (Proc.devRef .tc main_arg6)) := by
  simp only [opsM3]
  after_results_simp
  rfl
theorem resM3_v20 (V : Valuation τ sig (Elt F)) :
    after (opsM3 (F := F)) V (no_index (Proc.devRef .tc main_v20)) = st20 (V (Proc.devRef .tc main_v3)) := by
  simp only [opsM3]
  after_results_simp
  rfl
theorem resM3_v22 (V : Valuation τ sig (Elt F)) :
    after (opsM3 (F := F)) V (no_index (Proc.devRef .tc main_v22)) = st22 (V (Proc.devRef .tc main_v0)) := by
  simp only [opsM3]
  after_results_simp
  rfl
theorem resM4_v26 (V : Valuation τ sig (Elt F)) :
    after (opsM4 (F := F)) V (no_index (Proc.devRef .tc main_v26))
      = st22 (addf (V (Proc.devRef .tc main_v0)) (V (Proc.devRef .tc main_v4))) := by
  simp only [opsM4]
  after_results_simp
  rfl
theorem resM5_v32 (V : Valuation τ sig (Elt F)) :
    after (opsM5 (F := F)) V (no_index (Proc.devRef .tc main_v32))
      = st32 (V (Proc.devRef .tc main_v20)) (V (Proc.devRef .tc main_v22)) (V (Proc.devRef .tc main_v23))
          (V (Proc.devRef .tc main_v26)) (V (Proc.devRef .tc main_v27)) := by
  simp only [opsM5]
  after_results_simp
  rfl
theorem resM6_v41 (V : Valuation τ sig (Elt F)) :
    after (opsM6 (F := F)) V (no_index (Proc.devRef .tc main_v41)) = st41 (V (Proc.devRef .tc main_v17)) := by
  simp only [opsM6]
  after_results_simp
  rfl
theorem resM6_v40 (V : Valuation τ sig (Elt F)) :
    after (opsM6 (F := F)) V (no_index (Proc.devRef .tc main_v40)) = st40 (V (Proc.devRef .tc main_v32)) := by
  simp only [opsM6]
  after_results_simp
  rfl
theorem resM6_v37 (V : Valuation τ sig (Elt F)) :
    after (opsM6 (F := F)) V (no_index (Proc.devRef .tc main_v37))
      = st37 (V (Proc.devRef .tc main_v20)) (V (Proc.devRef .tc main_v33)) := by
  simp only [opsM6]
  after_results_simp
  rfl

theorem opsM1_sub : (opsM1 (F := F)).Forall fun op => op.bufs ⊆ tcRefs τ sig := reshape_bufs_sub ..
theorem opsM2_sub : (opsM2 (F := F)).Forall fun op => op.bufs ⊆ tcRefs τ sig := ⟨reshape_bufs_sub .., reshape_bufs_sub ..⟩
theorem opsM3_sub : (opsM3 (F := F)).Forall fun op => op.bufs ⊆ tcRefs τ sig :=
  ⟨unary_bufs_sub .., reshape_bufs_sub .., binary_bufs_sub .., binary_bufs_sub .., binary_bufs_sub .., binary_bufs_sub ..,
    reshape_bufs_sub .., unary_bufs_sub .., unary_bufs_sub .., binary_bufs_sub .., nullary_bufs_sub .., binary_bufs_sub ..,
    reshape_bufs_sub .., unary_bufs_sub .., reshape_bufs_sub .., unary_bufs_sub .., reshape_bufs_sub ..⟩
theorem opsM4_sub : (opsM4 (F := F)).Forall fun op => op.bufs ⊆ tcRefs τ sig :=
  ⟨binary_bufs_sub .., unary_bufs_sub .., reshape_bufs_sub ..⟩
theorem opsM5_sub : (opsM5 (F := F)).Forall fun op => op.bufs ⊆ tcRefs τ sig :=
  ⟨binary_bufs_sub .., binary_bufs_sub .., binary_bufs_sub .., binary_bufs_sub .., binary_bufs_sub ..⟩
theorem opsM6_sub : (opsM6 (F := F)).Forall fun op => op.bufs ⊆ tcRefs τ sig :=
  ⟨binary_bufs_sub .., binary_bufs_sub .., nullary_bufs_sub .., binary_bufs_sub .., nullary_bufs_sub .., binary_bufs_sub ..,
    binary_bufs_sub .., nullary_bufs_sub .., binary_bufs_sub .., nullary_bufs_sub .., binary_bufs_sub .., unary_bufs_sub ..⟩

theorem opsM1_fresh : (opsM1 (F := F)).Forall fun op => op.fresh = ∅ := rfl
theorem opsM2_fresh : (opsM2 (F := F)).Forall fun op => op.fresh = ∅ := ⟨rfl, rfl⟩
theorem opsM3_fresh : (opsM3 (F := F)).Forall fun op => op.fresh = ∅ :=
  ⟨rfl, rfl, rfl, rfl, rfl, rfl, rfl, rfl, rfl, rfl, rfl, rfl, rfl, rfl, rfl, rfl, rfl⟩
theorem opsM4_fresh : (opsM4 (F := F)).Forall fun op => op.fresh = ∅ := ⟨rfl, rfl, rfl⟩
theorem opsM5_fresh : (opsM5 (F := F)).Forall fun op => op.fresh = ∅ := ⟨rfl, rfl, rfl, rfl, rfl⟩
theorem opsM6_fresh : (opsM6 (F := F)).Forall fun op => op.fresh = ∅ :=
  ⟨rfl, rfl, rfl, rfl, rfl, rfl, rfl, rfl, rfl, rfl, rfl, rfl⟩

theorem ops_sub : (ops (F := F)).Forall fun op => op.bufs ⊆ tcRefs τ sig := by
  simp only [ops, List.forall_append]
  exact ⟨takeOps_sub _ _ _, opsM1_sub, takeOps_0_sub _ _ _, opsM2_sub, takeOps_2_sub _ _ _, takeOps_0_sub _ _ _, opsM3_sub,
    takeOps_3_sub _ _ _, opsM4_sub, takeOps_3_sub _ _ _, opsM5_sub, takeOps_5_sub _ _ _, opsM6_sub⟩
theorem ops_fresh : (ops (F := F)).Forall fun op => op.fresh = ∅ := by
  simp only [ops, List.forall_append]
  exact ⟨takeOps_fresh _ _ _, opsM1_fresh, takeOps_0_fresh _ _ _, opsM2_fresh, takeOps_2_fresh _ _ _, takeOps_0_fresh _ _ _, opsM3_fresh,
    takeOps_3_fresh _ _ _, opsM4_fresh, takeOps_3_fresh _ _ _, opsM5_fresh, takeOps_5_fresh _ _ _, opsM6_fresh⟩

theorem scopedRefs_eq : (Finset.univ.filter fun b : Ref sig .tc => b.isScoped) = ∅ := by decide
theorem scopedSems_eq : (Finset.univ.filter fun sm : SemLoc sig => sm.isScoped .tc) = ∅ := by decide

theorem after_append : ∀ (l₁ l₂ : List (HloOp τ sig (Elt F))) (V : Valuation τ sig (Elt F)), after (l₁ ++ l₂) V = after l₂ (after l₁ V)
  | [], _, _ => rfl
  | op :: l, l₂, V => by rw [List.cons_append, after_cons, after_cons, after_append l l₂]

section Results
variable (V : Valuation τ sig (Elt F))

theorem after_v41 : after (ops (F := F)) V (Proc.devRef .tc main_v41)
    = out41 (V (Proc.devRef .tc main_arg0)) (V (Proc.devRef .tc main_arg1)) (V (Proc.devRef .tc main_arg2)) (V (Proc.devRef .tc main_arg3))
        (V (Proc.devRef .tc main_arg4)) (V (Proc.devRef .tc main_arg5)) (V (Proc.devRef .tc main_arg6)) := by
  simp only [ops, after_append]
  simp (disch := decide) only [resM6_v41, keepT6, keepM5, keepT5, keepM4, keepT4, resM3_v17, keepT3, keepT2, keepM2, keepT1, keepM1, keepT0,
    resT3, resT2, resT1, resT0, resM2_v3, resM2_v4, resM1_v1]
  rfl
theorem after_v40 : after (ops (F := F)) V (Proc.devRef .tc main_v40)
    = out40 (V (Proc.devRef .tc main_arg0)) (V (Proc.devRef .tc main_arg1)) (V (Proc.devRef .tc main_arg2)) (V (Proc.devRef .tc main_arg3))
        (V (Proc.devRef .tc main_arg4)) (V (Proc.devRef .tc main_arg5)) (V (Proc.devRef .tc main_arg6)) := by
  simp only [ops, after_append]
  simp (disch := decide) only [resM6_v40, resM5_v32, resM4_v26, resM3_v18, resM3_v20, resM3_v22, resT5, resT4, resT0, resM2_v3, resM2_v4,
    keepT6, keepM5, keepT5, keepM4, keepT4, keepM3, keepT3, keepT2, keepM2, keepT1, keepM1, keepT0]
  rfl
theorem after_v37 : after (ops (F := F)) V (Proc.devRef .tc main_v37)
    = out37 (V (Proc.devRef .tc main_arg0)) (V (Proc.devRef .tc main_arg1)) (V (Proc.devRef .tc main_arg2)) (V (Proc.devRef .tc main_arg3))
        (V (Proc.devRef .tc main_arg4)) (V (Proc.devRef .tc main_arg5)) (V (Proc.devRef .tc main_arg6)) := by
  simp only [ops, after_append]
  simp (disch := decide) only [resM6_v37, resT6, resM3_v18, resM3_v20, resM2_v3,
    keepT6, keepM5, keepT5, keepM4, keepT4, keepM3, keepT3, keepT2, keepM2, keepT1, keepM1, keepT0]
  rfl
theorem after_arg (r : Ref sig .tc) (h0 : r ∉ takeW main_call0) (h1 : r ∉ W_M1) (h2 : r ∉ takeW_0 main_call1) (h3 : r ∉ W_M2)
    (h4 : r ∉ takeW_2 main_call2) (h5 : r ∉ takeW_0 main_call3) (h6 : r ∉ W_M3) (h7 : r ∉ takeW_3 main_call4) (h8 : r ∉ W_M4)
    (h9 : r ∉ takeW_3 main_call5) (h10 : r ∉ W_M5) (h11 : r ∉ takeW_5 main_call6) (h12 : r ∉ W_M6) :
    after (ops (F := F)) V (Proc.devRef .tc r) = V (Proc.devRef .tc r) := by
  simp only [ops, after_append]
  rw [keepM6 _ r h12, keepT6 _ r h11, keepM5 _ r h10, keepT5 _ r h9, keepM4 _ r h8, keepT4 _ r h7, keepM3 _ r h6, keepT3 _ r h5,
    keepT2 _ r h4, keepM2 _ r h3, keepT1 _ r h2, keepM1 _ r h1, keepT0 _ r h0]

end Results

theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v41)
          = out41 (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6))
      ∧ r.2.mem ((c.tc : Thread nD τ).loc main_v40)
          = out40 (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6))
      ∧ r.2.mem ((c.tc : Thread nD τ).loc main_v37)
          = out37 (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v41).trans (after_v41 _), (h c main_v40).trans (after_v40 _),
      (h c main_v37).trans (after_v37 _),
      (h c main_arg0).trans (after_arg _ main_arg0 (by decide) (by decide) (by decide) (by decide) (by decide) (by decide) (by decide) (by decide) (by decide) (by decide) (by decide) (by decide) (by decide)),
      (h c main_arg1).trans (after_arg _ main_arg1 (by decide) (by decide) (by decide) (by decide) (by decide) (by decide) (by decide) (by decide) (by decide) (by decide) (by decide) (by decide) (by decide)),
      (h c main_arg2).trans (after_arg _ main_arg2 (by decide) (by decide) (by decide) (by decide) (by decide) (by decide) (by decide) (by decide) (by decide) (by decide) (by decide) (by decide) (by decide)),
      (h c main_arg3).trans (after_arg _ main_arg3 (by decide) (by decide) (by decide) (by decide) (by decide) (by decide) (by decide) (by decide) (by decide) (by decide) (by decide) (by decide) (by decide)),
      (h c main_arg4).trans (after_arg _ main_arg4 (by decide) (by decide) (by decide) (by decide) (by decide) (by decide) (by decide) (by decide) (by decide) (by decide) (by decide) (by decide) (by decide)),
      (h c main_arg5).trans (after_arg _ main_arg5 (by decide) (by decide) (by decide) (by decide) (by decide) (by decide) (by decide) (by decide) (by decide) (by decide) (by decide) (by decide) (by decide)),
      (h c main_arg6).trans (after_arg _ main_arg6 (by decide) (by decide) (by decide) (by decide) (by decide) (by decide) (by decide) (by decide) (by decide) (by decide) (by decide) (by decide) (by decide))⟩)
    (run_seq scopedRefs_eq scopedSems_eq defs main (fun _ => ops) main_eq (fun _ => ops_sub) m ρ
      (fun _ => List.forall_iff_forall_mem.mp ops_fresh))

end Cert.ReferenceIdeal.RefRun

end
-- ==== Proof.SpecBlend.lean ====
import Idealize.ShloMosaic.PureOps.Ideal
import Idealize.ShloMosaic.Lib.ValueIdx

noncomputable section

namespace Cert.Spec

open Idealize.ShloMosaic Idealize.ShloMosaic.ValueIdx

def clampIx (N : ℕ) (n : ℕ) (hN : 0 < N := by decide) : Fin N := ⟨min n (N - 1), by omega⟩

theorem clampIx_of_lt {N n : ℕ} (h : n < N) (hN : 0 < N) : clampIx N n hN = ⟨n, h⟩ :=
  Fin.ext (show min n (N - 1) = n by omega)

def blendTermSpec
    (vertices : (⟨2, ![50000, 3]⟩ : Shape).Idx → EReal)
    (rot : (⟨4, ![1, 25000, 3, 3]⟩ : Shape).Idx → EReal)
    (tr : (⟨3, ![1, 25000, 3]⟩ : Shape).Idx → EReal)
    (weights : (⟨2, ![50000, 3]⟩ : Shape).Idx → EReal)
    (nodesIdx : (⟨1, ![25000]⟩ : Shape).Idx → BitVec 32)
    (infl : (⟨2, ![50000, 3]⟩ : Shape).Idx → BitVec 32)
    (v : Fin 50000) (i : Fin 3) (k : Fin 3) : EReal :=
  let n : Fin 25000 := clampIx 25000 (infl (ix2 v k)).toNat
  let p : Fin 50000 := clampIx 50000 (nodesIdx (ix1 n)).toNat
  weights (ix2 v k) *
    ((((rot (ix4 0 n i 0) * (vertices (ix2 v 0) - vertices (ix2 p 0))
          + rot (ix4 0 n i 1) * (vertices (ix2 v 1) - vertices (ix2 p 1)))
        + rot (ix4 0 n i 2) * (vertices (ix2 v 2) - vertices (ix2 p 2)))
      + vertices (ix2 p i))
    + tr (ix3 0 n i))

def blendSpec
    (vertices : (⟨2, ![50000, 3]⟩ : Shape).Idx → EReal)
    (rot : (⟨4, ![1, 25000, 3, 3]⟩ : Shape).Idx → EReal)
    (tr : (⟨3, ![1, 25000, 3]⟩ : Shape).Idx → EReal)
    (weights : (⟨2, ![50000, 3]⟩ : Shape).Idx → EReal)
    (nodesIdx : (⟨1, ![25000]⟩ : Shape).Idx → BitVec 32)
    (infl : (⟨2, ![50000, 3]⟩ : Shape).Idx → BitVec 32)
    (v : Fin 50000) (i : Fin 3) : EReal :=
  (blendTermSpec vertices rot tr weights nodesIdx infl v i 0 + blendTermSpec vertices rot tr weights nodesIdx infl v i 1)
    + blendTermSpec vertices rot tr weights nodesIdx infl v i 2

theorem blendSpec_eq_sum
    (vertices : (⟨2, ![50000, 3]⟩ : Shape).Idx → EReal)
    (rot : (⟨4, ![1, 25000, 3, 3]⟩ : Shape).Idx → EReal)
    (tr : (⟨3, ![1, 25000, 3]⟩ : Shape).Idx → EReal)
    (weights : (⟨2, ![50000, 3]⟩ : Shape).Idx → EReal)
    (nodesIdx : (⟨1, ![25000]⟩ : Shape).Idx → BitVec 32)
    (infl : (⟨2, ![50000, 3]⟩ : Shape).Idx → BitVec 32)
    (v : Fin 50000) (i : Fin 3) :
    blendSpec vertices rot tr weights nodesIdx infl v i
      = ∑ k : Fin 3, blendTermSpec vertices rot tr weights nodesIdx infl v i k := by
  rw [Fin.sum_univ_three]; rfl

end Cert.Spec

end
-- ==== Proof.ValueBlend.lean ====
import proofs.«205348_g71287867179597_cont_9to1c4b_113_38_alg».proof.Proof.Tables
import proofs.«205348_g71287867179597_cont_9to1c4b_113_38_alg».proof.Proof.SpecBlend
import Idealize.ShloMosaic.Lib.Pipeline.Value

noncomputable section

namespace Cert.KI.Blend

open Cert.KernelIdeal Cert.KernelIdeal.Gen
open Idealize.ShloMosaic
open Idealize.ShloMosaic.SparseCore (S V T)
open Idealize.ShloMosaic.StableHlo
open Idealize.ShloMosaic.ValueIdx
open Cert.Spec (clampIx clampIx_of_lt blendTermSpec blendSpec)

variable [Facts]
open Facts₀ Facts

section Generic
variable {F : FTy → Type} [FloatOps F]

theorem post27_apply (f0 : FVec F S159744 .f32) (v : Fin 50000) (i : Fin 3) :
    post27 f0 (ix3 0 v i) = f0 (ix1 ⟨3 * v.val + i.val, by omega⟩) := by
  unfold post27
  refine (broadcastInDim_apply _ _ _ _ (ix2 v i) ?_).trans ?_
  · intro a
    match a with
    | ⟨0, _⟩ => rfl
    | ⟨1, _⟩ => rfl
  refine (extractStridedSlice_apply _ _ _ _ (ix2 ⟨v.val, by omega⟩ i) ?_).trans ?_
  · intro a
    match a with
    | ⟨0, _⟩ => show v.val = 0 + v.val; omega
    | ⟨1, _⟩ => show i.val = 0 + i.val; omega
  refine shapeCast_apply _ _ _ (ix1 ⟨3 * v.val + i.val, by omega⟩) ?_
  rw [Shape.rowMajor_val_one, Shape.rowMajor_val_two]
  show 3 * v.val + i.val = v.val * 3 + i.val
  omega

end Generic

theorem ix4_congr {n0 n1 n2 n3 : ℕ} {a a' : Fin n0} {b b' : Fin n1} {c c' : Fin n2} {e e' : Fin n3}
    (ha : a = a') (hb : b = b') (hc : c = c') (he : e = e') : ix4 a b c e = ix4 a' b' c' e' := by
  subst ha hb hc he; rfl

variable (m : (ℓ : Loc nD τ sig) → Buf (Elt Ideal) ℓ)

abbrev A0 (d : Dev nD) : FVec Ideal S50000x3 .f32 := m (locOf d main_arg0)
abbrev A1 (d : Dev nD) : FVec Ideal S1x25000x3x3 .f32 := m (locOf d main_arg1)
abbrev A2 (d : Dev nD) : FVec Ideal S1x25000x3 .f32 := m (locOf d main_arg2)
abbrev A3 (d : Dev nD) : FVec Ideal S50000x3 .f32 := m (locOf d main_arg3)
abbrev A4 (d : Dev nD) : IVec S25000 32 := m (locOf d main_arg4)
abbrev A5 (d : Dev nD) : IVec S50000x3 32 := m (locOf d main_arg5)

theorem nodeWord_pos (hR : RangesOK m) (d : Dev nD) (r : Fin 25000) (col : ℕ) (c : Fin 3) (hc : col = c.val) :
    (nodeWord m d r.val col : EReal) = A0 m d (ix2 (clampIx 50000 (A4 m d (ix1 r)).toNat) c) := by
  subst hc
  have h1 : (at1 (tNidx m d) (k := r.val) : BitVec 32) = A4 m d (ix1 r) := by
    rw [tNidx_at m d r.val (by omega), dif_pos r.isLt]
  have h2 : (A4 m d (ix1 r)).toNat < 50000 := by rw [← h1]; exact (hR d).1 r.val (by omega)
  unfold nodeWord
  rw [if_pos c.isLt, h1, tVt_at m d c.val _ c.isLt (by omega), dif_pos h2, clampIx_of_lt h2]

theorem nodeWord_tr (d : Dev nD) (r : Fin 25000) (col : ℕ) (c : Fin 3) (hc : col = 3 + c.val) :
    (nodeWord m d r.val col : EReal) = A2 m d (ix3 0 r c) := by
  subst hc
  unfold nodeWord
  rw [if_neg (by omega), if_pos (by omega), show 3 + c.val - 3 = c.val by omega,
    tTr_at m d r.val c.val (by omega) c.isLt, dif_pos r.isLt]

theorem nodeWord_rot (d : Dev nD) (r : Fin 25000) (col : ℕ) (i j : Fin 3) (hc : col = 6 + 3 * i.val + j.val) :
    (nodeWord m d r.val col : EReal) = A1 m d (ix4 0 r i j) := by
  subst hc
  unfold nodeWord
  rw [if_neg (by omega), if_neg (by omega), show 6 + 3 * i.val + j.val - 6 = 3 * i.val + j.val by omega,
    tRot_at m d r.val _ (by omega) (by omega), dif_pos r.isLt]
  exact congrArg _ (ix4_congr rfl rfl (Fin.ext (by show (3 * i.val + j.val) / 3 = i.val; omega))
    (Fin.ext (by show (3 * i.val + j.val) % 3 = j.val; omega)))

def termAt (d : Dev nD) (pk px py pz : ℕ) (i : ℕ) : EReal :=
  let r := infId m d pk
  (at1 (tWt m d) (k := pk) : EReal) *
    (((((nodeWord m d r (6 + 3 * i) : EReal) * ((at1 (tVt m d) (k := px) : EReal) - nodeWord m d r 0)
        + (nodeWord m d r (7 + 3 * i) : EReal) * ((at1 (tVt m d) (k := py) : EReal) - nodeWord m d r 1))
       + (nodeWord m d r (8 + 3 * i) : EReal) * ((at1 (tVt m d) (k := pz) : EReal) - nodeWord m d r 2))
      + nodeWord m d r i)
     + nodeWord m d r (3 + i))

theorem blendTerm_eq_termAt (d : Dev nD) (w : Fin 32) (k b : ℕ) (i : Fin 3) (q : Fin 16) :
    blendTerm m d w k b i.val (ix1 q)
      = termAt m d (k * 53248 + (w.val * 1664 + b) + q.val) (w.val * 1664 + b + q.val)
          (53248 + (w.val * 1664 + b) + q.val) (2 * 53248 + (w.val * 1664 + b) + q.val) i.val := by
  fin_cases i <;> rfl

theorem termAt_spec (hR : RangesOK m) (d : Dev nD) (k i : Fin 3) (v : Fin 50000) (pk px py pz : ℕ)
    (hk : pk = k.val * 53248 + v.val) (hx : px = 0 * 53248 + v.val) (hy : py = 1 * 53248 + v.val)
    (hz : pz = 2 * 53248 + v.val) :
    termAt m d pk px py pz i.val = blendTermSpec (A0 m d) (A1 m d) (A2 m d) (A3 m d) (A4 m d) (A5 m d) v i k := by
  subst hk hx hy hz
  have hi1 : (at1 (tInf m d) (k := k.val * 53248 + v.val) : BitVec 32) = A5 m d (ix2 v k) := by
    rw [tInf_at m d k.val v.val k.isLt (by omega), dif_pos v.isLt]
  have hn : (A5 m d (ix2 v k)).toNat < 25000 := by
    have := (hR d).2.1 (k.val * 53248 + v.val) (by omega)
    unfold infId at this; rwa [hi1] at this
  have hr : infId m d (k.val * 53248 + v.val) = (clampIx 25000 (A5 m d (ix2 v k)).toNat).val := by
    unfold infId; rw [hi1, clampIx_of_lt hn]
  have tv : ∀ (c : ℕ) (hc : c < 3), (at1 (tVt m d) (k := c * 53248 + v.val) : EReal) = A0 m d (ix2 v ⟨c, hc⟩) := by
    intro c hc; rw [tVt_at m d c v.val hc (by omega), dif_pos v.isLt]
  have tw : (at1 (tWt m d) (k := k.val * 53248 + v.val) : EReal) = A3 m d (ix2 v k) := by
    rw [tWt_at m d k.val v.val k.isLt (by omega), dif_pos v.isLt]
  dsimp only [termAt, blendTermSpec]
  rw [hr]
  generalize clampIx 25000 (A5 m d (ix2 v k)).toNat = n
  rw [tw, tv 0 (by decide), tv 1 (by decide), tv 2 (by decide),
    nodeWord_pos m hR d n 0 0 rfl, nodeWord_pos m hR d n 1 1 rfl, nodeWord_pos m hR d n 2 2 rfl,
    nodeWord_pos m hR d n i.val i rfl, nodeWord_tr m d n (3 + i.val) i rfl,
    nodeWord_rot m d n (6 + 3 * i.val) i 0 rfl,
    nodeWord_rot m d n (7 + 3 * i.val) i 1 (by show 7 + 3 * i.val = 6 + 3 * i.val + 1; omega),
    nodeWord_rot m d n (8 + 3 * i.val) i 2 (by show 8 + 3 * i.val = 6 + 3 * i.val + 2; omega)]
  rfl

theorem blend_at (hR : RangesOK m) (d : Dev nD) (f0 : Buf (Elt Ideal) (locOf d main_v24_0))
    (hf : ∀ w, BlendTile m d w f0) (v : Fin 50000) (i : Fin 3) :
    (at1 f0 (k := 3 * v.val + i.val) : EReal)
      = blendSpec (A0 m d) (A1 m d) (A2 m d) (A3 m d) (A4 m d) (A5 m d) v i := by
  have hw : v.val / 1664 < 32 := by omega
  have hu : v.val % 1664 < 1664 := Nat.mod_lt _ (by decide)
  have h := hf ⟨v.val / 1664, hw⟩ (v.val % 1664) i.val hu i.isLt
  have e : (⟨v.val / 1664, hw⟩ : Fin 32).val * 4992 + 3 * (v.val % 1664) + i.val = 3 * v.val + i.val := by
    show v.val / 1664 * 4992 + 3 * (v.val % 1664) + i.val = 3 * v.val + i.val
    omega
  rw [e] at h
  have key : ∀ k : Fin 3,
      blendTerm m d ⟨v.val / 1664, hw⟩ k.val (v.val % 1664 / 16 * 16) i.val
          (ix1 ⟨v.val % 1664 % 16, Nat.mod_lt _ (by decide)⟩)
        = blendTermSpec (A0 m d) (A1 m d) (A2 m d) (A3 m d) (A4 m d) (A5 m d) v i k := by
    intro k
    rw [blendTerm_eq_termAt]
    refine termAt_spec m hR d k i v _ _ _ _ ?_ ?_ ?_ ?_
    · show k.val * 53248 + (v.val / 1664 * 1664 + v.val % 1664 / 16 * 16) + v.val % 1664 % 16 = k.val * 53248 + v.val
      omega
    · show v.val / 1664 * 1664 + v.val % 1664 / 16 * 16 + v.val % 1664 % 16 = 0 * 53248 + v.val
      omega
    · show 53248 + (v.val / 1664 * 1664 + v.val % 1664 / 16 * 16) + v.val % 1664 % 16 = 1 * 53248 + v.val
      omega
    · show 2 * 53248 + (v.val / 1664 * 1664 + v.val % 1664 / 16 * 16) + v.val % 1664 % 16 = 2 * 53248 + v.val
      omega
  rw [h]
  unfold blendSpec
  rw [← key 0, ← key 1, ← key 2]
  rfl

theorem post27_blend (hR : RangesOK m) (d : Dev nD) (f0 : Buf (Elt Ideal) (locOf d main_v24_0))
    (hf : ∀ w, BlendTile m d w f0) (v : Fin 50000) (i : Fin 3) :
    (post27 (F := Ideal) f0 (ix3 0 v i) : EReal)
      = blendSpec (A0 m d) (A1 m d) (A2 m d) (A3 m d) (A4 m d) (A5 m d) v i := by
  rw [post27_apply, ← blend_at m hR d f0 hf v i]
  unfold at1
  exact congrArg f0 (congrArg ix1 (Fin.ext (by show 3 * v.val + i.val = if 3 * v.val + i.val < 159744 then 3 * v.val + i.val else 0; rw [if_pos (by omega)])))

theorem post27_eq (hR : RangesOK m) (d : Dev nD) (f0 : Buf (Elt Ideal) (locOf d main_v24_0))
    (hf : ∀ w, BlendTile m d w f0) :
    post27 (F := Ideal) f0
      = fun j : S1x50000x3.Idx => blendSpec (A0 m d) (A1 m d) (A2 m d) (A3 m d) (A4 m d) (A5 m d) (j 1) (j 2) := by
  funext j
  have h0 : (j 0).val < 1 := (j 0).isLt
  have hj : ix3 (0 : Fin 1) (j 1) (j 2) = j := by
    conv_rhs => rw [eq_ix3 j]
    exact congrArg (fun a => ix3 a (j 1) (j 2)) (Fin.ext (by show 0 = (j 0).val; omega))
  have h := post27_blend m hR d f0 hf (j 1) (j 2)
  exact (congrArg (post27 (F := Ideal) f0) hj).symm.trans h

end Cert.KI.Blend

end
-- ==== Proof.SpecLoss.lean ====
import Idealize.ShloMosaic.Lib.ValueIdx

noncomputable section

namespace Cert.Spec

open Idealize.ShloMosaic
open Idealize.ShloMosaic.ValueIdx
open scoped BigOperators

section Loss

variable (vert : (⟨2, ![50000, 3]⟩ : Shape).Idx → EReal) (rot : (⟨4, ![1, 25000, 3, 3]⟩ : Shape).Idx → EReal)
  (tr : (⟨3, ![1, 25000, 3]⟩ : Shape).Idx → EReal) (nidx : (⟨1, ![25000]⟩ : Shape).Idx → BitVec 32)
  (orn : (⟨2, ![25000, 9]⟩ : Shape).Idx → BitVec 32)

def nodeR (μ : Fin 25000) (i : Fin 3) : ℝ :=
  (vert (ix2 ⟨min (nidx (ix1 μ)).toNat 49999, by omega⟩ i)).toReal

def trR (μ : Fin 25000) (i : Fin 3) : ℝ := (tr (ix3 0 μ i)).toReal

def rotR (μ : Fin 25000) (i k : Fin 3) : ℝ := (rot (ix4 0 μ i k)).toReal

def nbr (μ : Fin 25000) (j : Fin 9) : Fin 25000 := ⟨min (orn (ix2 μ j)).toNat 24999, by omega⟩

def arapTerm (μ ν : Fin 25000) (i : Fin 3) : ℝ :=
  (nodeR vert nidx μ i + trR tr μ i) - (nodeR vert nidx ν i + trR tr ν i)
    - ∑ k : Fin 3, rotR rot μ i k * (nodeR vert nidx μ k - nodeR vert nidx ν k)

def arapSpec : EReal :=
  (((∑ μ : Fin 25000, ∑ j : Fin 9, ∑ i : Fin 3, arapTerm vert rot tr nidx μ (nbr orn μ j) i ^ 2) / 25000 : ℝ) : EReal)

def srSpec : EReal :=
  (((∑ μ : Fin 25000, ∑ j : Fin 9, ∑ i : Fin 3, ∑ k : Fin 3, (rotR rot μ i k - rotR rot (nbr orn μ j) i k) ^ 2) / 2025000 : ℝ) : EReal)

end Loss

end Cert.Spec

end
-- ==== Proof.ValueLoss.lean ====
import proofs.«205348_g71287867179597_cont_9to1c4b_113_38_alg».proof.Proof.Common
import proofs.«205348_g71287867179597_cont_9to1c4b_113_38_alg».proof.Proof.Tables
import proofs.«205348_g71287867179597_cont_9to1c4b_113_38_alg».proof.Proof.TablesIdeal
import proofs.«205348_g71287867179597_cont_9to1c4b_113_38_alg».proof.Proof.SpecLoss
import Idealize.ShloMosaic.Lib.IdealHost
import Idealize.ShloMosaic.Lib.Pipeline.Value

noncomputable section

namespace Cert.KI.Loss

open Cert.KernelIdeal Cert.KernelIdeal.Gen

open Idealize.ShloMosaic
open Idealize.ShloMosaic.SparseCore (S V T)
open Idealize.ShloMosaic.StableHlo
open Idealize.ShloMosaic.ValueIdx
open Cert.KI
open scoped BigOperators

variable [Facts]
open Facts₀ Facts

variable (m : (ℓ : Loc nD τ sig) → Buf (Elt Ideal) ℓ)

def aK (d : Dev nD) (q : ℕ) : EReal :=
  let N : ℕ → ℕ → EReal := nodeWord m d
  let μ := srcId m d q
  let ν := tgtId m d q
  let dx := N μ 0 - N ν 0
  let dy := N μ 1 - N ν 1
  let dz := N μ 2 - N ν 2
  let ex := (dx + (N μ 3 - N ν 3)) - ((N μ 6 * dx + N μ 7 * dy) + N μ 8 * dz)
  let ey := (dy + (N μ 4 - N ν 4)) - ((N μ 9 * dx + N μ 10 * dy) + N μ 11 * dz)
  let ez := (dz + (N μ 5 - N ν 5)) - ((N μ 12 * dx + N μ 13 * dy) + N μ 14 * dz)
  ex * ex + ey * ey + ez * ez

def sK (d : Dev nD) (q : ℕ) : EReal :=
  let N : ℕ → ℕ → EReal := nodeWord m d
  let μ := srcId m d q
  let ν := tgtId m d q
  let s := fun c => (N μ c - N ν c) * (N μ c - N ν c)
  s 6 + s 7 + s 8 + s 9 + s 10 + s 11 + s 12 + s 13 + s 14

theorem lossStep_fst (d : Dev nD) (p : ℕ) (acc : Vec Ideal S16 .f32 × Vec Ideal S16 .f32) (x : S16.Idx) :
    (lossStep m d p acc).1 x = acc.1 x + aK m d (p + (x 0).val) := by
  simp only [lossStep, k1_pay101, rowVec, aK, addf_apply, subf_apply, mulf_apply, add_assoc]

theorem lossStep_snd (d : Dev nD) (p : ℕ) (acc : Vec Ideal S16 .f32 × Vec Ideal S16 .f32) (x : S16.Idx) :
    (lossStep m d p acc).2 x = acc.2 x + sK m d (p + (x 0).val) := by
  simp only [lossStep, k1_pay114, k1_pay102, k1_pay103, rowVec, sK, addf_apply, subf_apply, mulf_apply, add_assoc]

theorem lossAcc_fst (d : Dev nD) (w : Fin 32) (n : ℕ) (x : S16.Idx) :
    (lossAcc m d w n).1 x = ∑ t ∈ Finset.range n, aK m d (w.val * 7168 + 16 * t + (x 0).val) := by
  induction n with
  | zero =>
    rw [Finset.sum_range_zero]
    show Ideal.ofBits .f32 0x00000000#32 = 0
    exact Ideal.ofBits_zero_f32
  | succ n ih =>
    rw [Finset.sum_range_succ, ← ih]
    exact lossStep_fst m d _ _ x

theorem lossAcc_snd (d : Dev nD) (w : Fin 32) (n : ℕ) (x : S16.Idx) :
    (lossAcc m d w n).2 x = ∑ t ∈ Finset.range n, sK m d (w.val * 7168 + 16 * t + (x 0).val) := by
  induction n with
  | zero =>
    rw [Finset.sum_range_zero]
    show Ideal.ofBits .f32 0x00000000#32 = 0
    exact Ideal.ofBits_zero_f32
  | succ n ih =>
    rw [Finset.sum_range_succ, ← ih]
    exact lossStep_snd m d _ _ x

theorem sum_range_mul {M : Type} [AddCommMonoid M] (g : ℕ → M) (a b : ℕ) :
    ∑ q ∈ Finset.range (a * b), g q = ∑ i ∈ Finset.range a, ∑ j ∈ Finset.range b, g (i * b + j) := by
  induction a with
  | zero => simp
  | succ a ih => rw [Nat.succ_mul, Finset.sum_range_add, ih, Finset.sum_range_succ]

theorem sum_tiles {M : Type} [AddCommMonoid M] (g : ℕ → M) :
    ∑ w : Fin 32, ∑ l : Fin 16, ∑ t ∈ Finset.range 448, g (w.val * 7168 + 16 * t + l.val)
      = ∑ q ∈ Finset.range 229376, g q := by
  rw [show (229376 : ℕ) = 32 * 7168 from rfl, sum_range_mul g 32 7168, Finset.sum_range]
  refine Finset.sum_congr rfl fun w _ => ?_
  rw [show (7168 : ℕ) = 448 * 16 from rfl, sum_range_mul (fun r => g (w.val * (448 * 16) + r)) 448 16, Finset.sum_comm]
  refine Finset.sum_congr rfl fun t _ => ?_
  rw [Finset.sum_range]
  refine Finset.sum_congr rfl fun l _ => ?_
  congr 1; omega

theorem sum_edges {M : Type} [AddCommMonoid M] (g : ℕ → M) :
    ∑ q ∈ Finset.range 225000, g q = ∑ μ : Fin 25000, ∑ j : Fin 9, g (μ.val * 9 + j.val) := by
  rw [show (225000 : ℕ) = 25000 * 9 from rfl, sum_range_mul g 25000 9, Finset.sum_range]
  refine Finset.sum_congr rfl fun μ _ => ?_
  rw [Finset.sum_range]

theorem sum_pad {M : Type} [AddCommMonoid M] (g : ℕ → M) (h0 : ∀ q, 225000 ≤ q → q < 229376 → g q = 0) :
    ∑ q ∈ Finset.range 229376, g q = ∑ q ∈ Finset.range 225000, g q := by
  rw [show (229376 : ℕ) = 225000 + 4376 from rfl, Finset.sum_range_add,
    Finset.sum_eq_zero (s := Finset.range 4376) fun x hx => h0 _ (by omega) (by have := Finset.mem_range.mp hx; omega),
    add_zero]

theorem coe_sum {ι : Type} (s : Finset ι) (f : ι → ℝ) : ((∑ i ∈ s, f i : ℝ) : EReal) = ∑ i ∈ s, (f i : EReal) := by
  classical
  refine Finset.induction_on s (by simp) ?_
  intro a s ha ih
  rw [Finset.sum_insert ha, Finset.sum_insert ha, EReal.coe_add, ih]

abbrev aVert (d : Dev nD) : (⟨2, ![50000, 3]⟩ : Shape).Idx → EReal := m (locOf d main_arg0)
abbrev aRot (d : Dev nD) : (⟨4, ![1, 25000, 3, 3]⟩ : Shape).Idx → EReal := m (locOf d main_arg1)
abbrev aTr (d : Dev nD) : (⟨3, ![1, 25000, 3]⟩ : Shape).Idx → EReal := m (locOf d main_arg2)
abbrev aNidx (d : Dev nD) : (⟨1, ![25000]⟩ : Shape).Idx → BitVec 32 := m (locOf d main_arg4)
abbrev aOrn (d : Dev nD) : (⟨2, ![25000, 9]⟩ : Shape).Idx → BitVec 32 := m (locOf d main_arg6)

def Fin3 (d : Dev nD) : Prop :=
  (∀ i, ∃ x : ℝ, aVert m d i = (x : EReal)) ∧ (∀ i, ∃ x : ℝ, aRot m d i = (x : EReal)) ∧ (∀ i, ∃ x : ℝ, aTr m d i = (x : EReal))

theorem coe_toReal_of_exists {y : EReal} (h : ∃ x : ℝ, y = (x : EReal)) : y = ((y.toReal : ℝ) : EReal) := by
  obtain ⟨x, rfl⟩ := h; rw [EReal.toReal_coe]

def wR (d : Dev nD) (μ : Fin 25000) : ℕ → ℝ
  | 0 => Cert.Spec.nodeR (aVert m d) (aNidx m d) μ 0
  | 1 => Cert.Spec.nodeR (aVert m d) (aNidx m d) μ 1
  | 2 => Cert.Spec.nodeR (aVert m d) (aNidx m d) μ 2
  | 3 => Cert.Spec.trR (aTr m d) μ 0
  | 4 => Cert.Spec.trR (aTr m d) μ 1
  | 5 => Cert.Spec.trR (aTr m d) μ 2
  | 6 => Cert.Spec.rotR (aRot m d) μ 0 0
  | 7 => Cert.Spec.rotR (aRot m d) μ 0 1
  | 8 => Cert.Spec.rotR (aRot m d) μ 0 2
  | 9 => Cert.Spec.rotR (aRot m d) μ 1 0
  | 10 => Cert.Spec.rotR (aRot m d) μ 1 1
  | 11 => Cert.Spec.rotR (aRot m d) μ 1 2
  | 12 => Cert.Spec.rotR (aRot m d) μ 2 0
  | 13 => Cert.Spec.rotR (aRot m d) μ 2 1
  | 14 => Cert.Spec.rotR (aRot m d) μ 2 2
  | _ => 0

section Words
variable (hR : RangesOK m) (d : Dev nD) (hF : Fin3 m d)
include hR hF

theorem word_pos (μ : Fin 25000) (c : Fin 3) :
    nodeWord m d μ.val c.val = ((Cert.Spec.nodeR (aVert m d) (aNidx m d) μ c : ℝ) : EReal) := by
  have h1 := tNidx_at m d μ.val (by omega)
  rw [dif_pos μ.isLt] at h1
  have h2 : (at1 (tNidx m d) (k := μ.val) : BitVec 32).toNat < 50000 := (hR d).1 μ.val (by omega)
  have h3 := tVt_at m d c.val (at1 (tNidx m d) (k := μ.val) : BitVec 32).toNat c.isLt (by omega)
  rw [dif_pos h2] at h3
  unfold nodeWord
  rw [if_pos c.isLt, h3]
  unfold Cert.Spec.nodeR
  refine (coe_toReal_of_exists (hF.1 _)).trans ?_
  congr 3
  have h4 : (aNidx m d (ix1 μ)).toNat = (at1 (tNidx m d) (k := μ.val) : BitVec 32).toNat := by rw [h1]
  funext a
  match a with
  | ⟨0, _⟩ =>
    exact Fin.ext (by
      show (at1 (tNidx m d) (k := μ.val) : BitVec 32).toNat = min (aNidx m d (ix1 μ)).toNat 49999
      rw [h4]; omega)
  | ⟨1, _⟩ => rfl

theorem word_tr (μ : Fin 25000) (c : Fin 3) :
    nodeWord m d μ.val (3 + c.val) = ((Cert.Spec.trR (aTr m d) μ c : ℝ) : EReal) := by
  have h3 := tTr_at m d μ.val c.val (by omega) c.isLt
  rw [dif_pos μ.isLt] at h3
  unfold nodeWord
  rw [if_neg (by omega), if_pos (by omega), show 3 + c.val - 3 = c.val by omega, h3]
  exact coe_toReal_of_exists (hF.2.2 _)

theorem word_rot (μ : Fin 25000) (i k : Fin 3) :
    nodeWord m d μ.val (6 + 3 * i.val + k.val) = ((Cert.Spec.rotR (aRot m d) μ i k : ℝ) : EReal) := by
  have h3 := tRot_at m d μ.val (3 * i.val + k.val) (by omega) (by omega)
  rw [dif_pos μ.isLt] at h3
  unfold nodeWord
  rw [if_neg (by omega), if_neg (by omega), show 6 + 3 * i.val + k.val - 6 = 3 * i.val + k.val by omega, h3]
  unfold Cert.Spec.rotR
  refine (coe_toReal_of_exists (hF.2.1 _)).trans ?_
  congr 3
  funext a
  match a with
  | ⟨0, _⟩ => rfl
  | ⟨1, _⟩ => rfl
  | ⟨2, _⟩ => exact Fin.ext (by show (3 * i.val + k.val) / 3 = i.val; omega)
  | ⟨3, _⟩ => exact Fin.ext (by show (3 * i.val + k.val) % 3 = k.val; omega)

theorem word_real (μ : Fin 25000) (c : ℕ) (hc : c < 15) : nodeWord m d μ.val c = ((wR m d μ c : ℝ) : EReal) := by
  interval_cases c
  · exact word_pos m hR d hF μ 0
  · exact word_pos m hR d hF μ 1
  · exact word_pos m hR d hF μ 2
  · exact word_tr m hR d hF μ 0
  · exact word_tr m hR d hF μ 1
  · exact word_tr m hR d hF μ 2
  · exact word_rot m hR d hF μ 0 0
  · exact word_rot m hR d hF μ 0 1
  · exact word_rot m hR d hF μ 0 2
  · exact word_rot m hR d hF μ 1 0
  · exact word_rot m hR d hF μ 1 1
  · exact word_rot m hR d hF μ 1 2
  · exact word_rot m hR d hF μ 2 0
  · exact word_rot m hR d hF μ 2 1
  · exact word_rot m hR d hF μ 2 2

end Words

def srcN (q : ℕ) : Fin 25000 := ⟨min (q / 9) 24999, by omega⟩
def tgtN (d : Dev nD) (q : ℕ) : Fin 25000 := ⟨min (tgtId m d q) 24999, by omega⟩

theorem tgtN_pad (d : Dev nD) (q : ℕ) (h1 : 225000 ≤ q) (h2 : q < 229376) : tgtN m d q = srcN q := by
  have h : tgtId m d q = 24999 := by
    unfold tgtId; rw [tOrn_at m d q h2, dif_neg (by omega)]; rfl
  apply Fin.ext
  show min (tgtId m d q) 24999 = min (q / 9) 24999
  rw [h]; omega

theorem srcN_edge (μ : Fin 25000) (j : Fin 9) : srcN (μ.val * 9 + j.val) = μ :=
  Fin.ext (by show min ((μ.val * 9 + j.val) / 9) 24999 = μ.val; omega)

theorem tgtN_edge (d : Dev nD) (μ : Fin 25000) (j : Fin 9) :
    tgtN m d (μ.val * 9 + j.val) = Cert.Spec.nbr (aOrn m d) μ j := by
  have h : tgtId m d (μ.val * 9 + j.val) = (aOrn m d (ix2 μ j)).toNat := by
    unfold tgtId
    rw [tOrn_at m d _ (by omega), dif_pos (by omega)]
    refine congrArg (fun i => (aOrn m d i).toNat) ?_
    funext a
    match a with
    | ⟨0, _⟩ => exact Fin.ext (by show (μ.val * 9 + j.val) / 9 = μ.val; omega)
    | ⟨1, _⟩ => exact Fin.ext (by show (μ.val * 9 + j.val) % 9 = j.val; omega)
  apply Fin.ext
  show min (tgtId m d _) 24999 = min (aOrn m d (ix2 μ j)).toNat 24999
  rw [h]

section Edges
variable (hR : RangesOK m) (d : Dev nD) (hF : Fin3 m d)
include hR

theorem srcId_eq (q : ℕ) (hq : q < 229376) : srcId m d q = (srcN q).val := (hR d).2.2.2 q hq

theorem tgtId_eq (q : ℕ) (hq : q < 229376) : tgtId m d q = (tgtN m d q).val := by
  have := (hR d).2.2.1 q hq
  show _ = min (tgtId m d q) 24999
  omega

include hF

theorem aK_real (q : ℕ) (hq : q < 229376) :
    aK m d q = ((∑ i : Fin 3,
      Cert.Spec.arapTerm (aVert m d) (aRot m d) (aTr m d) (aNidx m d) (srcN q) (tgtN m d q) i ^ 2 : ℝ) : EReal) := by
  simp only [aK]
  rw [srcId_eq m hR d q hq, tgtId_eq m hR d q hq]
  rw [word_real m hR d hF (srcN q) 0 (by norm_num),
    word_real m hR d hF (srcN q) 1 (by norm_num),
    word_real m hR d hF (srcN q) 2 (by norm_num),
    word_real m hR d hF (srcN q) 3 (by norm_num),
    word_real m hR d hF (srcN q) 4 (by norm_num),
    word_real m hR d hF (srcN q) 5 (by norm_num),
    word_real m hR d hF (srcN q) 6 (by norm_num),
    word_real m hR d hF (srcN q) 7 (by norm_num),
    word_real m hR d hF (srcN q) 8 (by norm_num),
    word_real m hR d hF (srcN q) 9 (by norm_num),
    word_real m hR d hF (srcN q) 10 (by norm_num),
    word_real m hR d hF (srcN q) 11 (by norm_num),
    word_real m hR d hF (srcN q) 12 (by norm_num),
    word_real m hR d hF (srcN q) 13 (by norm_num),
    word_real m hR d hF (srcN q) 14 (by norm_num),
    word_real m hR d hF (tgtN m d q) 0 (by norm_num),
    word_real m hR d hF (tgtN m d q) 1 (by norm_num),
    word_real m hR d hF (tgtN m d q) 2 (by norm_num),
    word_real m hR d hF (tgtN m d q) 3 (by norm_num),
    word_real m hR d hF (tgtN m d q) 4 (by norm_num),
    word_real m hR d hF (tgtN m d q) 5 (by norm_num)]
  simp only [← EReal.coe_sub, ← EReal.coe_mul, ← EReal.coe_add]
  congr 1
  simp only [Cert.Spec.arapTerm, Fin.sum_univ_three, wR]
  ring

theorem sK_real (q : ℕ) (hq : q < 229376) :
    sK m d q = ((∑ i : Fin 3, ∑ k : Fin 3,
      (Cert.Spec.rotR (aRot m d) (srcN q) i k - Cert.Spec.rotR (aRot m d) (tgtN m d q) i k) ^ 2 : ℝ) : EReal) := by
  simp only [sK]
  rw [srcId_eq m hR d q hq, tgtId_eq m hR d q hq]
  rw [word_real m hR d hF (srcN q) 6 (by norm_num),
    word_real m hR d hF (srcN q) 7 (by norm_num),
    word_real m hR d hF (srcN q) 8 (by norm_num),
    word_real m hR d hF (srcN q) 9 (by norm_num),
    word_real m hR d hF (srcN q) 10 (by norm_num),
    word_real m hR d hF (srcN q) 11 (by norm_num),
    word_real m hR d hF (srcN q) 12 (by norm_num),
    word_real m hR d hF (srcN q) 13 (by norm_num),
    word_real m hR d hF (srcN q) 14 (by norm_num),
    word_real m hR d hF (tgtN m d q) 6 (by norm_num),
    word_real m hR d hF (tgtN m d q) 7 (by norm_num),
    word_real m hR d hF (tgtN m d q) 8 (by norm_num),
    word_real m hR d hF (tgtN m d q) 9 (by norm_num),
    word_real m hR d hF (tgtN m d q) 10 (by norm_num),
    word_real m hR d hF (tgtN m d q) 11 (by norm_num),
    word_real m hR d hF (tgtN m d q) 12 (by norm_num),
    word_real m hR d hF (tgtN m d q) 13 (by norm_num),
    word_real m hR d hF (tgtN m d q) 14 (by norm_num)]
  simp only [← EReal.coe_sub, ← EReal.coe_mul, ← EReal.coe_add]
  congr 1
  simp only [Fin.sum_univ_three, wR]
  ring

end Edges

theorem ofBits_25000 : Ideal.ofBits .f32 0x46C35000#32 = ((25000 : ℝ) : EReal) := by
  simp [Ideal.ofBits, Ideal.ieee, -EReal.coe_mul]; norm_num

theorem ofBits_2025000 : Ideal.ofBits .f32 0x49F73140#32 = ((2025000 : ℝ) : EReal) := by
  simp [Ideal.ofBits, Ideal.ieee, -EReal.coe_mul]; norm_num

theorem div_coe (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

theorem cast_at (f1 : FVec Ideal S1024 .f32) (w c : Fin 32) :
    shapeCast S32x32 f1 Facts₀.shapeCasts_S1024_S32x32 (ix2 w c) = at1 f1 (k := w.val * 32 + c.val) := by
  refine shapeCast_apply f1 _ _ _ ?_
  rw [Shape.rowMajor_val_one, Shape.rowMajor_val_two]
  show (if w.val * 32 + c.val < 1024 then w.val * 32 + c.val else 0) = w.val * 32 + c.val
  rw [if_pos (by omega)]

theorem slice_left (f1 : FVec Ideal S1024 .f32) (w : Fin 32) (l : Fin 16) :
    extractStridedSlice S32x16 ![0, 0] (shapeCast S32x32 f1 Facts₀.shapeCasts_S1024_S32x32) Facts₀.slices_S32x32_S32x16_0_0 (ix2 w l)
      = at1 f1 (k := w.val * 32 + l.val) := by
  refine (extractStridedSlice_apply _ _ _ (ix2 w l) (ix2 w ⟨l.val, by omega⟩) ?_).trans (cast_at f1 w _)
  intro a
  match a with
  | ⟨0, _⟩ => show w.val = 0 + w.val; omega
  | ⟨1, _⟩ => show l.val = 0 + l.val; omega

theorem slice_right (f1 : FVec Ideal S1024 .f32) (w : Fin 32) (l : Fin 16) :
    extractStridedSlice S32x16 ![0, 16] (shapeCast S32x32 f1 Facts₀.shapeCasts_S1024_S32x32) Facts₀.slices_S32x32_S32x16_0_16 (ix2 w l)
      = at1 f1 (k := w.val * 32 + 16 + l.val) := by
  refine (extractStridedSlice_apply _ _ _ (ix2 w l) (ix2 w ⟨16 + l.val, by omega⟩) ?_).trans ?_
  · intro a
    match a with
    | ⟨0, _⟩ => show w.val = 0 + w.val; omega
    | ⟨1, _⟩ => show 16 + l.val = 16 + l.val; rfl
  · rw [cast_at f1 w _]
    show at1 f1 (k := w.val * 32 + (16 + l.val)) = _
    rw [Nat.add_assoc]

theorem arapTerm_self (vert : (⟨2, ![50000, 3]⟩ : Shape).Idx → EReal) (rot : (⟨4, ![1, 25000, 3, 3]⟩ : Shape).Idx → EReal)
    (tr : (⟨3, ![1, 25000, 3]⟩ : Shape).Idx → EReal) (nidx : (⟨1, ![25000]⟩ : Shape).Idx → BitVec 32) (μ : Fin 25000) (i : Fin 3) :
    Cert.Spec.arapTerm vert rot tr nidx μ μ i = 0 := by
  simp [Cert.Spec.arapTerm]

section Post
variable (hR : RangesOK m) (d : Dev nD) (hF : Fin3 m d) (f1 : Buf (Elt Ideal) (locOf d main_v24_1)) (hL : ∀ w, LossTile m d w f1)
include hR hF hL

theorem post31_eq :
    post31 (F := Ideal) f1 = fun _ => Cert.Spec.arapSpec (aVert m d) (aRot m d) (aTr m d) (aNidx m d) (aOrn m d) := by
  funext j
  unfold post31
  rw [hostDivf_apply, hostReduceAdd_apply, Ideal.hostReduceAdd_total _ (fun b => b.elim0), constant_apply, constant_apply,
    Ideal.ofBits_zero_f32, zero_add, sum_idx2]
  have h1 : ∀ (w : Fin 32) (l : Fin 16),
      (extractStridedSlice S32x16 ![0, 0] (shapeCast S32x32 (f1 : FVec Ideal S1024 .f32) Facts₀.shapeCasts_S1024_S32x32)
          Facts₀.slices_S32x32_S32x16_0_0 (ix2 w l) : EReal)
        = ∑ t ∈ Finset.range 448, aK m d (w.val * 7168 + 16 * t + l.val) := fun w l => by
    rw [slice_left, (hL w l).1, lossAcc_fst]
  have h2 : (∑ w : Fin 32, ∑ l : Fin 16,
      (extractStridedSlice S32x16 ![0, 0] (shapeCast S32x32 (f1 : FVec Ideal S1024 .f32) Facts₀.shapeCasts_S1024_S32x32)
          Facts₀.slices_S32x32_S32x16_0_0 (ix2 w l) : EReal))
        = ((∑ μ : Fin 25000, ∑ j : Fin 9, ∑ i : Fin 3, Cert.Spec.arapTerm (aVert m d) (aRot m d) (aTr m d) (aNidx m d) μ (Cert.Spec.nbr (aOrn m d) μ j) i ^ 2 : ℝ) : EReal) := by
    calc _ = ∑ w : Fin 32, ∑ l : Fin 16, ∑ t ∈ Finset.range 448, aK m d (w.val * 7168 + 16 * t + l.val) :=
          Finset.sum_congr rfl fun w _ => Finset.sum_congr rfl fun l _ => h1 w l
      _ = ∑ q ∈ Finset.range 229376, aK m d q := sum_tiles (aK m d)
      _ = ∑ q ∈ Finset.range 229376, ((∑ i : Fin 3, Cert.Spec.arapTerm (aVert m d) (aRot m d) (aTr m d) (aNidx m d) (srcN q) (tgtN m d q) i ^ 2 : ℝ) : EReal) :=
          Finset.sum_congr rfl fun q hq => aK_real m hR d hF q (Finset.mem_range.mp hq)
      _ = ((∑ q ∈ Finset.range 229376, ∑ i : Fin 3, Cert.Spec.arapTerm (aVert m d) (aRot m d) (aTr m d) (aNidx m d) (srcN q) (tgtN m d q) i ^ 2 : ℝ) : EReal) := (coe_sum _ _).symm
      _ = ((∑ q ∈ Finset.range 225000, ∑ i : Fin 3, Cert.Spec.arapTerm (aVert m d) (aRot m d) (aTr m d) (aNidx m d) (srcN q) (tgtN m d q) i ^ 2 : ℝ) : EReal) := by
          rw [sum_pad]
          intro q h1 h2
          rw [tgtN_pad m d q h1 h2]
          simp [arapTerm_self]
      _ = _ := by
          rw [sum_edges]
          refine congrArg (fun r : ℝ => (r : EReal)) ?_
          refine Finset.sum_congr rfl fun μ _ => Finset.sum_congr rfl fun j _ => ?_
          rw [srcN_edge, tgtN_edge]
  rw [h2, ofBits_25000, div_coe _ _ (by norm_num)]
  rfl

theorem post34_eq :
    post34 (F := Ideal) f1 = fun _ => Cert.Spec.srSpec (aRot m d) (aOrn m d) := by
  funext j
  unfold post34
  rw [hostDivf_apply, hostReduceAdd_apply, Ideal.hostReduceAdd_total _ (fun b => b.elim0), constant_apply, constant_apply,
    Ideal.ofBits_zero_f32, zero_add, sum_idx2]
  have h1 : ∀ (w : Fin 32) (l : Fin 16),
      (extractStridedSlice S32x16 ![0, 16] (shapeCast S32x32 (f1 : FVec Ideal S1024 .f32) Facts₀.shapeCasts_S1024_S32x32)
          Facts₀.slices_S32x32_S32x16_0_16 (ix2 w l) : EReal)
        = ∑ t ∈ Finset.range 448, sK m d (w.val * 7168 + 16 * t + l.val) := fun w l => by
    rw [slice_right, (hL w l).2, lossAcc_snd]
  have h2 : (∑ w : Fin 32, ∑ l : Fin 16,
      (extractStridedSlice S32x16 ![0, 16] (shapeCast S32x32 (f1 : FVec Ideal S1024 .f32) Facts₀.shapeCasts_S1024_S32x32)
          Facts₀.slices_S32x32_S32x16_0_16 (ix2 w l) : EReal))
        = ((∑ μ : Fin 25000, ∑ j : Fin 9, ∑ i : Fin 3, ∑ k : Fin 3, (Cert.Spec.rotR (aRot m d) μ i k - Cert.Spec.rotR (aRot m d) (Cert.Spec.nbr (aOrn m d) μ j) i k) ^ 2 : ℝ) : EReal) := by
    calc _ = ∑ w : Fin 32, ∑ l : Fin 16, ∑ t ∈ Finset.range 448, sK m d (w.val * 7168 + 16 * t + l.val) :=
          Finset.sum_congr rfl fun w _ => Finset.sum_congr rfl fun l _ => h1 w l
      _ = ∑ q ∈ Finset.range 229376, sK m d q := sum_tiles (sK m d)
      _ = ∑ q ∈ Finset.range 229376, ((∑ i : Fin 3, ∑ k : Fin 3, (Cert.Spec.rotR (aRot m d) (srcN q) i k - Cert.Spec.rotR (aRot m d) (tgtN m d q) i k) ^ 2 : ℝ) : EReal) :=
          Finset.sum_congr rfl fun q hq => sK_real m hR d hF q (Finset.mem_range.mp hq)
      _ = ((∑ q ∈ Finset.range 229376, ∑ i : Fin 3, ∑ k : Fin 3, (Cert.Spec.rotR (aRot m d) (srcN q) i k - Cert.Spec.rotR (aRot m d) (tgtN m d q) i k) ^ 2 : ℝ) : EReal) := (coe_sum _ _).symm
      _ = ((∑ q ∈ Finset.range 225000, ∑ i : Fin 3, ∑ k : Fin 3, (Cert.Spec.rotR (aRot m d) (srcN q) i k - Cert.Spec.rotR (aRot m d) (tgtN m d q) i k) ^ 2 : ℝ) : EReal) := by
          rw [sum_pad]
          intro q h1 h2
          rw [tgtN_pad m d q h1 h2]
          simp
      _ = _ := by
          rw [sum_edges]
          refine congrArg (fun r : ℝ => (r : EReal)) ?_
          refine Finset.sum_congr rfl fun μ _ => Finset.sum_congr rfl fun j _ => ?_
          rw [srcN_edge, tgtN_edge]
  rw [h2, ofBits_2025000, div_coe _ _ (by norm_num)]
  rfl

end Post

section Pre
variable [Cert.Pre_input_domain.Facts]

theorem fin3_of_pre (hpre : Cert.Pre_KernelIdeal m) (d : Dev nD) : Fin3 m d :=
  ⟨(finite_of_pre m hpre d).1, (finite_of_pre m hpre d).2.1, (finite_of_pre m hpre d).2.2.1⟩

theorem losses_of_pre (hpre : Cert.Pre_KernelIdeal m) (d : Dev nD) (f1 : Buf (Elt Ideal) (locOf d main_v24_1))
    (hL : ∀ w, LossTile m d w f1) :
    post31 (F := Ideal) f1 = (fun _ => Cert.Spec.arapSpec (aVert m d) (aRot m d) (aTr m d) (aNidx m d) (aOrn m d))
    ∧ post34 (F := Ideal) f1 = (fun _ => Cert.Spec.srSpec (aRot m d) (aOrn m d)) :=
  ⟨post31_eq m (rangesOK_of_pre m hpre) d (fin3_of_pre m hpre d) f1 hL,
    post34_eq m (rangesOK_of_pre m hpre) d (fin3_of_pre m hpre d) f1 hL⟩

end Pre

end Cert.KI.Loss

end
-- ==== Proof.LibIdealConsts.lean ====
import Idealize.ShloMosaic.Lib.IdealHost
import Idealize.ShloMosaic.Lib.ValueIdx
import Idealize.ShloMosaic.PureOps.Ideal.Laws

noncomputable section

namespace Cert.LibIdealConsts

open Idealize.ShloMosaic Idealize.ShloMosaic.ValueIdx
open scoped BigOperators

theorem ofBits_25000_f32 : Ideal.ofBits .f32 0x46C35000#32 = ((25000 : ℝ) : EReal) := by
  simp [Ideal.ofBits, Ideal.ieee, -EReal.coe_mul]; norm_num

theorem ofBits_2025000_f32 : Ideal.ofBits .f32 0x49F73140#32 = ((2025000 : ℝ) : EReal) := by
  simp [Ideal.ofBits, Ideal.ieee, -EReal.coe_mul]; norm_num

theorem constant_25000_apply {s : Shape} (i : s.Idx) :
    constant (F := Ideal) s .f32 0x46C35000#32 i = ((25000 : ℝ) : EReal) := ofBits_25000_f32

theorem constant_2025000_apply {s : Shape} (i : s.Idx) :
    constant (F := Ideal) s .f32 0x49F73140#32 i = ((2025000 : ℝ) : EReal) := ofBits_2025000_f32

theorem div_coe_coe (x : ℝ) {y : ℝ} (hy : y ≠ 0) : Ideal.div (x : EReal) (y : EReal) = ((x / y : ℝ) : EReal) := by
  rw [Ideal.div_coe hy, ← EReal.coe_mul, mul_one_div]

theorem hostDivf_coe_apply {s : Shape} {φ : FTy} (a b : FVec Ideal s φ) (i : s.Idx) (x y : ℝ)
    (ha : a i = (x : EReal)) (hb : b i = (y : EReal)) (hy : y ≠ 0) : Host.divf a b i = ((x / y : ℝ) : EReal) := by
  rw [hostDivf_apply, ha, hb, div_coe_coe x hy]

theorem hostDivf_25000_apply {s : Shape} (a : FVec Ideal s .f32) (i : s.Idx) (x : ℝ) (ha : a i = (x : EReal)) :
    Host.divf a (constant s .f32 0x46C35000#32) i = ((x / 25000 : ℝ) : EReal) :=
  hostDivf_coe_apply a _ i x 25000 ha (constant_25000_apply i) (by norm_num)

theorem hostDivf_2025000_apply {s : Shape} (a : FVec Ideal s .f32) (i : s.Idx) (x : ℝ) (ha : a i = (x : EReal)) :
    Host.divf a (constant s .f32 0x49F73140#32) i = ((x / 2025000 : ℝ) : EReal) :=
  hostDivf_coe_apply a _ i x 2025000 ha (constant_2025000_apply i) (by norm_num)

theorem coe_finset_sum {ι : Type} (s : Finset ι) (f : ι → ℝ) :
    ∑ i ∈ s, ((f i : ℝ) : EReal) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

theorem sum_eq_coe_of_forall {ι : Type} (s : Finset ι) (g : ι → EReal) (f : ι → ℝ) (h : ∀ i ∈ s, g i = ((f i : ℝ) : EReal)) :
    ∑ i ∈ s, g i = ((∑ i ∈ s, f i : ℝ) : EReal) := by
  rw [Finset.sum_congr rfl h, coe_finset_sum]

end Cert.LibIdealConsts

end
-- ==== Proof.RefValue.lean ====
import proofs.«205348_g71287867179597_cont_9to1c4b_113_38_alg».proof.Proof.RefRun
import proofs.«205348_g71287867179597_cont_9to1c4b_113_38_alg».proof.Proof.SpecBlend
import proofs.«205348_g71287867179597_cont_9to1c4b_113_38_alg».proof.Proof.SpecLoss
import proofs.«205348_g71287867179597_cont_9to1c4b_113_38_alg».proof.Proof.LibIdealConsts
import proofs.«205348_g71287867179597_cont_9to1c4b_113_38_alg».proof.Pre_input_domain
import Idealize.ShloMosaic.PureOps.Ideal.Laws
import Idealize.ShloMosaic.Lib.ValueIdx
import Idealize.ShloMosaic.Lib.ValueLayout
import Idealize.ShloMosaic.Lib.ReduceAll
import Idealize.ShloMosaic.Lib.StableHlo.Predicate

noncomputable section

namespace Cert.ReferenceIdeal.RefValue

open Cert.ReferenceIdeal Cert.ReferenceIdeal.RefRun Idealize.ShloMosaic Idealize.ShloMosaic.ValueIdx
open scoped BigOperators

structure ArgsOK (a0 : FVec Ideal S50000x3 .f32) (a1 : FVec Ideal S1x25000x3x3 .f32) (a2 : FVec Ideal S1x25000x3 .f32)
    (a3 : FVec Ideal S50000x3 .f32) (a4 : IVec S25000 32) (a5 : IVec S50000x3 32) (a6 : IVec S25000x9 32) : Prop where
  fin0 : ∀ i, ∃ r : ℝ, a0 i = (r : EReal)
  fin1 : ∀ i, ∃ r : ℝ, a1 i = (r : EReal)
  fin2 : ∀ i, ∃ r : ℝ, a2 i = (r : EReal)
  fin3 : ∀ i, ∃ r : ℝ, a3 i = (r : EReal)
  rng4 : ∀ i, (a4 i).toNat < 50000
  rng5 : ∀ i, (a5 i).toNat < 25000
  rng6 : ∀ i, (a6 i).toNat < 25000

variable {α : Type}

theorem ofBits_inf : Ideal.ofBits .f32 0x7F800000#32 = ⊤ := by
  simp [Ideal.ofBits, Ideal.ieee]

theorem real_of_abs_lt_top (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

theorem range_of_mask (v : BitVec 32) (N : Nat) (hN : N < 2 ^ 31)
    (e : IntOp.andi (IntOp.cmpi .sge v 0#32) (IntOp.cmpi .sle v (BitVec.ofNat 32 N)) = 1#1) : v.toNat ≤ N := by
  obtain ⟨h1, h2⟩ := IntOp.andi_eq_one.1 e
  rw [IntOp.cmpi_sge] at h1
  rw [IntOp.cmpi_sle, StableHlo.Predicate.toInt_ofNat_small N hN] at h2
  have h0 : (0#32 : BitVec 32).toInt = 0 := by decide
  rw [h0] at h1
  have hv := BitVec.toInt_eq_toNat_cond v
  have hlt := v.isLt
  split at hv <;> omega

instance : Subsingleton Cert.Pre_input_domain.S_.Idx := ⟨fun a b => funext fun d => d.elim0⟩

theorem andi_apply {s : Shape} {w : Nat} (x y : IVec s w) (i : s.Idx) : andi x y i = IntOp.andi (x i) (y i) := rfl

section
variable [Cert.Pre_input_domain.Facts]
variable (a0 : FVec Ideal S50000x3 .f32) (a1 : FVec Ideal S1x25000x3x3 .f32) (a2 : FVec Ideal S1x25000x3 .f32)
    (a3 : FVec Ideal S50000x3 .f32) (a4 : IVec S25000 32) (a5 : IVec S50000x3 32) (a6 : IVec S25000x9 32)

theorem argsOK_of_pre (h : Cert.Pre_input_domain.fn (F := Ideal) a0 a1 a2 a3 a4 a5 a6 = fun _ => 1#1) :
    ArgsOK a0 a1 a2 a3 a4 a5 a6 := by
  have e := congrFun h ix0
  dsimp only [Cert.Pre_input_domain.fn, Cert.Pre_input_domain.fn_part1, Cert.Pre_input_domain.fn_part2] at e
  simp only [andi_apply, IntOp.andi_eq_one] at e
  obtain ⟨⟨⟨⟨⟨⟨e3, e7⟩, e12⟩, e17⟩, e24⟩, e31⟩, e38⟩ := e
  refine ⟨fun i => ?_, fun i => ?_, fun i => ?_, fun i => ?_, fun i => ?_, fun i => ?_, fun i => ?_⟩
  · have := Host.reduce_andi_all _ _ _ _ _ e3 i
    exact real_of_abs_lt_top _ (by rw [← ofBits_inf]; exact this)
  · have := Host.reduce_andi_all _ _ _ _ _ e7 i
    exact real_of_abs_lt_top _ (by rw [← ofBits_inf]; exact this)
  · have := Host.reduce_andi_all _ _ _ _ _ e12 i
    exact real_of_abs_lt_top _ (by rw [← ofBits_inf]; exact this)
  · have := Host.reduce_andi_all _ _ _ _ _ e17 i
    exact real_of_abs_lt_top _ (by rw [← ofBits_inf]; exact this)
  · have := Host.reduce_andi_all _ _ _ _ _ e24 i
    have := range_of_mask (a4 i) 49999 (by decide) this
    omega
  · have := Host.reduce_andi_all _ _ _ _ _ e31 i
    have := range_of_mask (a5 i) 24999 (by decide) this
    omega
  · have := Host.reduce_andi_all _ _ _ _ _ e38 i
    have := range_of_mask (a6 i) 24999 (by decide) this
    omega
end

abbrev rowDims (N n : Nat) (wf : GatherDims.WF ⟨2, ![N, 3]⟩ ⟨2, ![n, 1]⟩ ⟨2, ![n, 3]⟩ [1] [0] [] [0] [] 1 ![1, 3]) :
    GatherDims ⟨2, ![N, 3]⟩ ⟨2, ![n, 1]⟩ ⟨2, ![n, 3]⟩ where
  offsetDims := [1]
  collapsedSliceDims := [0]
  operandBatchingDims := []
  startIndicesBatchingDims := []
  startIndexMap := [0]
  indexVectorDim := 1
  sliceSizes := ![1, 3]
  wf := wf

theorem gather_rows_apply {N n w : Nat} (hN : 0 < N)
    (wf : GatherDims.WF ⟨2, ![N, 3]⟩ ⟨2, ![n, 1]⟩ ⟨2, ![n, 3]⟩ [1] [0] [] [0] [] 1 ![1, 3])
    (x : (⟨2, ![N, 3]⟩ : Shape).Idx → α) (idx : IVec ⟨2, ![n, 1]⟩ w) (r : Fin n) (c : Fin 3) :
    Host.gather (rowDims N n wf) x idx (ix2 r c)
      = x (ix2 ⟨min (idx (ix2 r 0)).toInt.toNat (N - 1), by omega⟩ c) := by
  unfold Host.gather
  congr 1
  funext a
  refine Fin.ext ?_
  match a with
  | ⟨0, _⟩ =>
    show (rowDims N n wf).start (ix2 r c) idx 0 + (rowDims N n wf).batchCoord (ix2 r c) 0 + (rowDims N n wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N n wf).startIndexMap from List.mem_singleton.mpr rfl)]
    have hsi : (rowDims N n wf).siIdx (ix2 r c) ⟨List.idxOf (0 : Fin 2) (rowDims N n wf).startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  | ⟨1, _⟩ =>
    show (rowDims N n wf).start (ix2 r c) idx 1 + (rowDims N n wf).batchCoord (ix2 r c) 1 + (rowDims N n wf).offCoord (ix2 r c) 1 = c.val
    rw [GatherDims.batchCoord_eq_zero _ _ _ List.not_mem_nil]
    unfold GatherDims.start
    rw [dif_neg (show (1 : Fin 2) ∉ ([0] : List (Fin 2)) from by decide)]
    simp only [Nat.add_zero, Nat.zero_add]
    rfl

abbrev blockDims (N n : Nat) (wf : GatherDims.WF ⟨3, ![N, 3, 3]⟩ ⟨2, ![n, 1]⟩ ⟨3, ![n, 3, 3]⟩ [1, 2] [0] [] [0] [] 1 ![1, 3, 3]) :
    GatherDims ⟨3, ![N, 3, 3]⟩ ⟨2, ![n, 1]⟩ ⟨3, ![n, 3, 3]⟩ where
  offsetDims := [1, 2]
  collapsedSliceDims := [0]
  operandBatchingDims := []
  startIndicesBatchingDims := []
  startIndexMap := [0]
  indexVectorDim := 1
  sliceSizes := ![1, 3, 3]
  wf := wf

theorem gather_blocks_apply {N n w : Nat} (hN : 0 < N)
    (wf : GatherDims.WF ⟨3, ![N, 3, 3]⟩ ⟨2, ![n, 1]⟩ ⟨3, ![n, 3, 3]⟩ [1, 2] [0] [] [0] [] 1 ![1, 3, 3])
    (x : (⟨3, ![N, 3, 3]⟩ : Shape).Idx → α) (idx : IVec ⟨2, ![n, 1]⟩ w) (r : Fin n) (c d : Fin 3) :
    Host.gather (blockDims N n wf) x idx (ix3 r c d)
      = x (ix3 ⟨min (idx (ix2 r 0)).toInt.toNat (N - 1), by omega⟩ c d) := by
  unfold Host.gather
  congr 1
  funext a
  refine Fin.ext ?_
  match a with
  | ⟨0, _⟩ =>
    show (blockDims N n wf).start (ix3 r c d) idx 0 + (blockDims N n wf).batchCoord (ix3 r c d) 0 + (blockDims N n wf).offCoord (ix3 r c d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (blockDims N n wf).startIndexMap from List.mem_singleton.mpr rfl)]
    have hsi : (blockDims N n wf).siIdx (ix3 r c d) ⟨List.idxOf (0 : Fin 3) (blockDims N n wf).startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  | ⟨1, _⟩ =>
    show (blockDims N n wf).start (ix3 r c d) idx 1 + (blockDims N n wf).batchCoord (ix3 r c d) 1 + (blockDims N n wf).offCoord (ix3 r c d) 1 = c.val
    rw [GatherDims.batchCoord_eq_zero _ _ _ List.not_mem_nil]
    unfold GatherDims.start
    rw [dif_neg (show (1 : Fin 3) ∉ ([0] : List (Fin 3)) from by decide)]
    simp only [Nat.add_zero, Nat.zero_add]
    rfl
  | ⟨2, _⟩ =>
    show (blockDims N n wf).start (ix3 r c d) idx 2 + (blockDims N n wf).batchCoord (ix3 r c d) 2 + (blockDims N n wf).offCoord (ix3 r c d) 2 = d.val
    rw [GatherDims.batchCoord_eq_zero _ _ _ List.not_mem_nil]
    unfold GatherDims.start
    rw [dif_neg (show (2 : Fin 3) ∉ ([0] : List (Fin 3)) from by decide)]
    simp only [Nat.add_zero, Nat.zero_add]
    rfl

theorem dotGeneral_matvec_apply {G : Nat} {φ₁ φ₂ : FTy}
    (w : DotDims.WF ⟨3, ![G, 3, 3]⟩ ⟨2, ![G, 3]⟩ ⟨2, ![G, 3]⟩ [2] [1] [1] [] [0] [0])
    (prec : Option ContractPrecision) (A : FVec Ideal ⟨3, ![G, 3, 3]⟩ φ₁) (B : FVec Ideal ⟨2, ![G, 3]⟩ φ₂)
    (g : Fin G) (a : Fin 3) :
    Host.dotGeneral (⟨[2], [1], [1], [], [0], [0], w⟩ : DotDims _ _ _) prec A B (ix2 g a)
      = ∑ c : Fin 3, A (ix3 g a c) * B (ix2 g c) := by
  show FloatOps.dotGeneral _ prec _ A B (ix2 g a) = _
  rw [Ideal.dotGeneral_apply,
    ← Equiv.sum_comp (contrEquiv1 (⟨[2], [1], [1], [], [0], [0], w⟩ : DotDims _ _ _) 3 rfl rfl).symm]
  refine Finset.sum_congr rfl fun c _ => ?_
  have c3 := contrEquiv1_symm_val
    (⟨[2], [1], [1], [], [0], [0], w⟩ : DotDims ⟨3, ![G, 3, 3]⟩ ⟨2, ![G, 3]⟩ ⟨2, ![G, 3]⟩) 3 rfl rfl c
  have l3 : (⟨[2], [1], [1], [], [0], [0], w⟩ : DotDims ⟨3, ![G, 3, 3]⟩ ⟨2, ![G, 3]⟩ ⟨2, ![G, 3]⟩).lhsIdx (ix2 g a)
      ((contrEquiv1 _ 3 rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [1], [1], [], [0], [0], w⟩ : DotDims ⟨3, ![G, 3, 3]⟩ ⟨2, ![G, 3]⟩ ⟨2, ![G, 3]⟩).rhsIdx (ix2 g a)
      ((contrEquiv1 _ 3 rfl rfl).symm c) = ix2 g c := by
    funext ax; apply Fin.ext
    match ax with
    | ⟨0, _⟩ => simp [DotDims.rhsIdx]; rfl
    | ⟨1, _⟩ => simp [DotDims.rhsIdx]; exact c3
  rw [l3, r3]

theorem wrap_word (w N : BitVec 32) (hw : w.toNat < 2 ^ 31) :
    Scalar.select (IntOp.cmpi .slt w 0#32) (IntOp.addi w N) w = w := by
  have h0 : IntOp.cmpi .slt w 0#32 = 0#1 := by
    apply eq_zero_of_ne_one
    rw [IntOp.cmpi_slt, StableHlo.Predicate.toInt_eq_toNat_of_lt hw]
    have : (0#32 : BitVec 32).toInt = 0 := by decide
    rw [this]; omega
  rw [h0, select_zero]

theorem inb_word (w : BitVec 32) (M : Nat) (hM : M < 2 ^ 31) (hw : w.toNat ≤ M) :
    IntOp.andi (IntOp.cmpi .sge w 0#32) (IntOp.cmpi .sle w (BitVec.ofNat 32 M)) = 1#1 := by
  rw [IntOp.andi_eq_one, IntOp.cmpi_sge, IntOp.cmpi_sle, StableHlo.Predicate.toInt_eq_toNat_of_lt (a := w) (by omega),
    StableHlo.Predicate.toInt_ofNat_small M hM]
  have : (0#32 : BitVec 32).toInt = 0 := by decide
  rw [this]; omega

theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

theorem reduce_andi_ones {s t u : Shape} {axes : List (Fin s.rank)} (x : s.Idx → BitVec 1) (hx : ∀ i, x i = 1#1)
    (h : s.ReducesTo axes t) (hu : 0 < u.numel) (j : t.Idx) :
    Host.reduce IntOp.andi x (constantI u 1 1#1) h hu j = 1#1 := by
  rw [Host.reduce_eq_foldl]
  exact foldl_andi_one x hx _

theorem col_apply {α : Type} {n : Nat} (h₁ : (⟨1, ![n]⟩ : Shape).BroadcastsInDim ⟨2, ![n, 1]⟩ ![0])
    (v : (⟨1, ![n]⟩ : Shape).Idx → α) (p : Fin n) :
    broadcastInDim ⟨2, ![n, 1]⟩ ![0] h₁ v (ix2 p 0) = v (ix1 p) := by
  refine broadcastInDim_apply _ h₁ v _ _ fun a => ?_
  match a with
  | ⟨0, _⟩ =>
    show p.val = if n = 1 then 0 else p.val
    split
    · have := p.isLt; omega
    · rfl

open Cert.Spec (clampIx)

theorem wrapA_eq (idx : IVec S25000 32) (h : ∀ i, (idx i).toNat < 50000) : wrapA idx = idx :=
  funext fun i => wrap_word (idx i) 50000#32 (by have := h i; omega)
theorem wrapB_eq (idx : IVec S150000 32) (h : ∀ i, (idx i).toNat < 25000) : wrapB idx = idx :=
  funext fun i => wrap_word (idx i) 25000#32 (by have := h i; omega)
theorem wrapC_eq (idx : IVec S225000 32) (h : ∀ i, (idx i).toNat < 25000) : wrapC idx = idx :=
  funext fun i => wrap_word (idx i) 25000#32 (by have := h i; omega)

theorem colA_apply (idx : IVec S25000 32) (h : ∀ i, (idx i).toNat < 50000) (r : Fin 25000) :
    colA idx (ix2 r 0) = idx (ix1 r) := by
  unfold colA; rw [col_apply, wrapA_eq idx h]
theorem colB_apply (idx : IVec S150000 32) (h : ∀ i, (idx i).toNat < 25000) (r : Fin 150000) :
    colB idx (ix2 r 0) = idx (ix1 r) := by
  unfold colB; rw [col_apply, wrapB_eq idx h]
theorem colC_apply (idx : IVec S225000 32) (h : ∀ i, (idx i).toNat < 25000) (r : Fin 225000) :
    colC idx (ix2 r 0) = idx (ix1 r) := by
  unfold colC; rw [col_apply, wrapC_eq idx h]

theorem inbA_eq (idx : IVec S25000 32) (h : ∀ i, (idx i).toNat < 50000) : inbA idx = fun _ => 1#1 := by
  funext j
  unfold inbA
  refine reduce_andi_ones _ (fun i => ?_) _ _ j
  obtain ⟨r, c, rfl⟩ : ∃ (r : Fin 25000) (c : Fin 1), i = ix2 r c := ⟨i 0, i 1, eq_ix2 i⟩
  obtain rfl : c = 0 := Subsingleton.elim _ _
  show IntOp.andi (IntOp.cmpi .sge (colA idx (ix2 r 0)) 0#32) (IntOp.cmpi .sle (colA idx (ix2 r 0)) 49999#32) = 1#1
  rw [colA_apply idx h]
  exact inb_word _ 49999 (by decide) (by have := h (ix1 r); omega)
theorem inbB_eq (idx : IVec S150000 32) (h : ∀ i, (idx i).toNat < 25000) : inbB idx = fun _ => 1#1 := by
  funext j
  unfold inbB
  refine reduce_andi_ones _ (fun i => ?_) _ _ j
  obtain ⟨r, c, rfl⟩ : ∃ (r : Fin 150000) (c : Fin 1), i = ix2 r c := ⟨i 0, i 1, eq_ix2 i⟩
  obtain rfl : c = 0 := Subsingleton.elim _ _
  show IntOp.andi (IntOp.cmpi .sge (colB idx (ix2 r 0)) 0#32) (IntOp.cmpi .sle (colB idx (ix2 r 0)) 24999#32) = 1#1
  rw [colB_apply idx h]
  exact inb_word _ 24999 (by decide) (by have := h (ix1 r); omega)
theorem inbC_eq (idx : IVec S225000 32) (h : ∀ i, (idx i).toNat < 25000) : inbC idx = fun _ => 1#1 := by
  funext j
  unfold inbC
  refine reduce_andi_ones _ (fun i => ?_) _ _ j
  obtain ⟨r, c, rfl⟩ : ∃ (r : Fin 225000) (c : Fin 1), i = ix2 r c := ⟨i 0, i 1, eq_ix2 i⟩
  obtain rfl : c = 0 := Subsingleton.elim _ _
  show IntOp.andi (IntOp.cmpi .sge (colC idx (ix2 r 0)) 0#32) (IntOp.cmpi .sle (colC idx (ix2 r 0)) 24999#32) = 1#1
  rw [colC_apply idx h]
  exact inb_word _ 24999 (by decide) (by have := h (ix1 r); omega)

theorem clamp_of_word (N : Nat) (hN : 0 < N) (w : BitVec 32) (hw : w.toNat < 2 ^ 31) :
    (⟨min w.toInt.toNat (N - 1), by omega⟩ : Fin N) = clampIx N w.toNat hN := by
  apply Fin.ext
  show min w.toInt.toNat (N - 1) = min w.toNat (N - 1)
  rw [StableHlo.Predicate.toInt_eq_toNat_of_lt hw, Int.toNat_natCast]

theorem takeA_apply (src : FVec Ideal S50000x3 .f32) (idx : IVec S25000 32) (h : ∀ i, (idx i).toNat < 50000)
    (r : Fin 25000) (c : Fin 3) :
    takeA src idx (ix2 r c) = src (ix2 (clampIx 50000 (idx (ix1 r)).toNat) c) := by
  unfold takeA
  rw [select_apply, inbA_eq idx h]
  show Scalar.select 1#1 _ _ = _
  rw [select_one]
  refine (gather_rows_apply (N := 50000) (n := 25000) (by decide) Facts₀.gather_S50000x3_S25000x1_S25000x3_1_0_n_n_0_1_13_wf
    src (colA idx) r c).trans ?_
  rw [clamp_of_word 50000 (by decide) _ (by rw [colA_apply idx h]; have := h (ix1 r); omega), colA_apply idx h]

theorem takeB3_apply (src : FVec Ideal S25000x3 .f32) (idx : IVec S150000 32) (h : ∀ i, (idx i).toNat < 25000)
    (r : Fin 150000) (c : Fin 3) :
    takeB3 src idx (ix2 r c) = src (ix2 (clampIx 25000 (idx (ix1 r)).toNat) c) := by
  unfold takeB3
  rw [select_apply, inbB_eq idx h]
  show Scalar.select 1#1 _ _ = _
  rw [select_one]
  refine (gather_rows_apply (N := 25000) (n := 150000) (by decide) Facts₀.gather_S25000x3_S150000x1_S150000x3_1_0_n_n_0_1_13_wf
    src (colB idx) r c).trans ?_
  rw [clamp_of_word 25000 (by decide) _ (by rw [colB_apply idx h]; have := h (ix1 r); omega), colB_apply idx h]

theorem takeB33_apply (src : FVec Ideal S25000x3x3 .f32) (idx : IVec S150000 32) (h : ∀ i, (idx i).toNat < 25000)
    (r : Fin 150000) (c d : Fin 3) :
    takeB33 src idx (ix3 r c d) = src (ix3 (clampIx 25000 (idx (ix1 r)).toNat) c d) := by
  unfold takeB33
  rw [select_apply, inbB_eq idx h]
  show Scalar.select 1#1 _ _ = _
  rw [select_one]
  refine (gather_blocks_apply (N := 25000) (n := 150000) (by decide) Facts₀.gather_S25000x3x3_S150000x1_S150000x3x3_12_0_n_n_0_1_133_wf
    src (colB idx) r c d).trans ?_
  rw [clamp_of_word 25000 (by decide) _ (by rw [colB_apply idx h]; have := h (ix1 r); omega), colB_apply idx h]

theorem takeC3_apply (src : FVec Ideal S25000x3 .f32) (idx : IVec S225000 32) (h : ∀ i, (idx i).toNat < 25000)
    (r : Fin 225000) (c : Fin 3) :
    takeC3 src idx (ix2 r c) = src (ix2 (clampIx 25000 (idx (ix1 r)).toNat) c) := by
  unfold takeC3
  rw [select_apply, inbC_eq idx h]
  show Scalar.select 1#1 _ _ = _
  rw [select_one]
  refine (gather_rows_apply (N := 25000) (n := 225000) (by decide) Facts₀.gather_S25000x3_S225000x1_S225000x3_1_0_n_n_0_1_13_wf
    src (colC idx) r c).trans ?_
  rw [clamp_of_word 25000 (by decide) _ (by rw [colC_apply idx h]; have := h (ix1 r); omega), colC_apply idx h]

theorem takeC33_apply (src : FVec Ideal S25000x3x3 .f32) (idx : IVec S225000 32) (h : ∀ i, (idx i).toNat < 25000)
    (r : Fin 225000) (c d : Fin 3) :
    takeC33 src idx (ix3 r c d) = src (ix3 (clampIx 25000 (idx (ix1 r)).toNat) c d) := by
  unfold takeC33
  rw [select_apply, inbC_eq idx h]
  show Scalar.select 1#1 _ _ = _
  rw [select_one]
  refine (gather_blocks_apply (N := 25000) (n := 225000) (by decide) Facts₀.gather_S25000x3x3_S225000x1_S225000x3x3_12_0_n_n_0_1_133_wf
    src (colC idx) r c d).trans ?_
  rw [clamp_of_word 25000 (by decide) _ (by rw [colC_apply idx h]; have := h (ix1 r); omega), colC_apply idx h]

theorem st1_apply (a5 : IVec S50000x3 32) (v : Fin 50000) (k : Fin 3) :
    st1 a5 (ix1 ⟨v.val * 3 + k.val, by omega⟩) = a5 (ix2 v k) :=
  shapeCast_apply a5 _ _ _ (by
    rw [Shape.rowMajor_val_two, Shape.rowMajor_val_one]
    show v.val * 3 + k.val = v.val * 3 + k.val
    rfl)

theorem st18_apply (a6 : IVec S25000x9 32) (μ : Fin 25000) (e : Fin 9) :
    st18 a6 (ix1 ⟨μ.val * 9 + e.val, by omega⟩) = a6 (ix2 μ e) :=
  shapeCast_apply a6 _ _ _ (by
    rw [Shape.rowMajor_val_two, Shape.rowMajor_val_one]
    show μ.val * 9 + e.val = μ.val * 9 + e.val
    rfl)

theorem st3_apply (a1 : FVec Ideal S1x25000x3x3 .f32) (n : Fin 25000) (i j : Fin 3) :
    st3 a1 (ix3 n i j) = a1 (ix4 0 n i j) :=
  shapeCast_1abc_abc_apply a1 _ n i j

theorem st4_apply (a2 : FVec Ideal S1x25000x3 .f32) (n : Fin 25000) (i : Fin 3) :
    st4 a2 (ix2 n i) = a2 (ix3 0 n i) :=
  shapeCast_1ab_ab_apply a2 _ n i

theorem rep3_apply (a0 : FVec Ideal S50000x3 .f32) (v : Fin 50000) (k j : Fin 3) :
    shapeCast S150000x3 (broadcastInDim S50000x3x3 ![0, 2] Gen.bcast_S50000x3_S50000x3x3_0_2 a0) Gen.shapeCasts_S50000x3x3_S150000x3
      (ix2 ⟨v.val * 3 + k.val, by omega⟩ j) = a0 (ix2 v j) := by
  refine (shapeCast_apply _ _ _ (ix3 v k j) (by
    rw [Shape.rowMajor_val_three, Shape.rowMajor_val_two]
    show (v.val * 3 + k.val) * 3 + j.val = (v.val * 3 + k.val) * 3 + j.val
    rfl)).trans ?_
  refine broadcastInDim_apply _ _ a0 _ (ix2 v j) fun a => ?_
  match a with
  | ⟨0, _⟩ => rfl
  | ⟨1, _⟩ => rfl

theorem st22_apply (x : FVec Ideal S25000x3 .f32) (μ : Fin 25000) (e : Fin 9) (i : Fin 3) :
    st22 x (ix2 ⟨μ.val * 9 + e.val, by omega⟩ i) = x (ix2 μ i) := by
  unfold st22
  refine (shapeCast_apply _ _ _ (ix3 μ e i) (by
    rw [Shape.rowMajor_val_three, Shape.rowMajor_val_two]
    show (μ.val * 9 + e.val) * 3 + i.val = (μ.val * 9 + e.val) * 3 + i.val
    rfl)).trans ?_
  refine broadcastInDim_apply _ _ x _ (ix2 μ i) fun a => ?_
  match a with
  | ⟨0, _⟩ => rfl
  | ⟨1, _⟩ => rfl

theorem st20_apply (x : FVec Ideal S25000x3x3 .f32) (μ : Fin 25000) (e : Fin 9) (i j : Fin 3) :
    st20 x (ix3 ⟨μ.val * 9 + e.val, by omega⟩ i j) = x (ix3 μ i j) := by
  unfold st20
  refine (shapeCast_apply _ _ _ (ix4 μ e i j) (by
    rw [Shape.rowMajor_val_four, Shape.rowMajor_val_three]
    show ((μ.val * 9 + e.val) * 3 + i.val) * 3 + j.val = ((μ.val * 9 + e.val) * 3 + i.val) * 3 + j.val
    rfl)).trans ?_
  refine broadcastInDim_apply _ _ x _ (ix3 μ i j) fun a => ?_
  match a with
  | ⟨0, _⟩ => rfl
  | ⟨1, _⟩ => rfl
  | ⟨2, _⟩ => rfl

theorem st16_apply (x : FVec Ideal S150000x3 .f32) (a3 : FVec Ideal S50000x3 .f32) (v : Fin 50000) (k i : Fin 3) :
    st16 x a3 (ix3 v k i) = x (ix2 ⟨v.val * 3 + k.val, by omega⟩ i) * a3 (ix2 v k) := by
  unfold st16
  rw [mulf_apply]
  congr 1
  · exact shapeCast_apply _ _ _ _ (by
      rw [Shape.rowMajor_val_two, Shape.rowMajor_val_three]
      show (v.val * 3 + k.val) * 3 + i.val = (v.val * 3 + k.val) * 3 + i.val
      rfl)
  · refine (broadcastInDim_apply _ _ _ _ (ix3 v k (0 : Fin 1)) fun a => ?_).trans
      (broadcastInDim_apply _ _ a3 _ (ix2 v k) fun a => ?_)
    · match a with
      | ⟨0, _⟩ => rfl
      | ⟨1, _⟩ => rfl
      | ⟨2, _⟩ => rfl
    · match a with
      | ⟨0, _⟩ => rfl
      | ⟨1, _⟩ => rfl

theorem st41_apply (x : FVec Ideal S50000x3 .f32) (v : Fin 50000) (i : Fin 3) :
    st41 x (ix3 0 v i) = x (ix2 v i) := by
  unfold st41
  refine broadcastInDim_apply _ _ x _ (ix2 v i) fun a => ?_
  match a with
  | ⟨0, _⟩ => rfl
  | ⟨1, _⟩ => rfl

section Blend
variable (a0 : FVec Ideal S50000x3 .f32) (a1 : FVec Ideal S1x25000x3x3 .f32) (a2 : FVec Ideal S1x25000x3 .f32)
    (a3 : FVec Ideal S50000x3 .f32) (a4 : IVec S25000 32) (a5 : IVec S50000x3 32) (a6 : IVec S25000x9 32)

theorem v0_apply (hok : ArgsOK a0 a1 a2 a3 a4 a5 a6) (μ : Fin 25000) (j : Fin 3) :
    res_v0 a0 a4 (ix2 μ j) = a0 (ix2 (clampIx 50000 (a4 (ix1 μ)).toNat) j) :=
  takeA_apply a0 a4 hok.rng4 μ j

theorem v1_rng (hok : ArgsOK a0 a1 a2 a3 a4 a5 a6) : ∀ i, (res_v1 a5 i).toNat < 25000 := fun i => hok.rng5 _
theorem v18_rng (hok : ArgsOK a0 a1 a2 a3 a4 a5 a6) : ∀ i, (res_v18 a6 i).toNat < 25000 := fun i => hok.rng6 _

theorem v2_apply (hok : ArgsOK a0 a1 a2 a3 a4 a5 a6) (v : Fin 50000) (k j : Fin 3) :
    res_v2 a0 a4 a5 (ix2 ⟨v.val * 3 + k.val, by omega⟩ j)
      = a0 (ix2 (clampIx 50000 (a4 (ix1 (clampIx 25000 (a5 (ix2 v k)).toNat))).toNat) j) := by
  unfold res_v2
  rw [takeB3_apply _ _ (v1_rng a0 a1 a2 a3 a4 a5 a6 hok), show res_v1 a5 = st1 a5 from rfl, st1_apply, v0_apply a0 a1 a2 a3 a4 a5 a6 hok]

theorem v5_apply (hok : ArgsOK a0 a1 a2 a3 a4 a5 a6) (v : Fin 50000) (k i j : Fin 3) :
    res_v5 a1 a5 (ix3 ⟨v.val * 3 + k.val, by omega⟩ i j) = a1 (ix4 0 (clampIx 25000 (a5 (ix2 v k)).toNat) i j) := by
  unfold res_v5
  rw [takeB33_apply _ _ (v1_rng a0 a1 a2 a3 a4 a5 a6 hok), show res_v1 a5 = st1 a5 from rfl, st1_apply, show res_v3 a1 = st3 a1 from rfl, st3_apply]

theorem v6_apply (hok : ArgsOK a0 a1 a2 a3 a4 a5 a6) (v : Fin 50000) (k i : Fin 3) :
    res_v6 a2 a5 (ix2 ⟨v.val * 3 + k.val, by omega⟩ i) = a2 (ix3 0 (clampIx 25000 (a5 (ix2 v k)).toNat) i) := by
  unfold res_v6
  rw [takeB3_apply _ _ (v1_rng a0 a1 a2 a3 a4 a5 a6 hok), show res_v1 a5 = st1 a5 from rfl, st1_apply, show res_v4 a2 = st4 a2 from rfl, st4_apply]

theorem v9_apply (hok : ArgsOK a0 a1 a2 a3 a4 a5 a6) (v : Fin 50000) (k j : Fin 3) :
    res_v9 a0 a4 a5 (ix2 ⟨v.val * 3 + k.val, by omega⟩ j)
      = a0 (ix2 v j) - a0 (ix2 (clampIx 50000 (a4 (ix1 (clampIx 25000 (a5 (ix2 v k)).toNat))).toNat) j) := by
  unfold res_v9 st9
  rw [subf_apply, rep3_apply, v2_apply a0 a1 a2 a3 a4 a5 a6 hok]

theorem v12_apply (hok : ArgsOK a0 a1 a2 a3 a4 a5 a6) (v : Fin 50000) (k i : Fin 3) :
    res_v12 a0 a1 a2 a4 a5 (ix2 ⟨v.val * 3 + k.val, by omega⟩ i)
      = ((∑ j : Fin 3, a1 (ix4 0 (clampIx 25000 (a5 (ix2 v k)).toNat) i j)
            * (a0 (ix2 v j) - a0 (ix2 (clampIx 50000 (a4 (ix1 (clampIx 25000 (a5 (ix2 v k)).toNat))).toNat) j)))
          + a0 (ix2 (clampIx 50000 (a4 (ix1 (clampIx 25000 (a5 (ix2 v k)).toNat))).toNat) i))
        + a2 (ix3 0 (clampIx 25000 (a5 (ix2 v k)).toNat) i) := by
  have hd : Host.dotGeneral dot_S150000x3x3_S150000x3_S150000x3_2_1_1_n_0_0 none (res_v5 a1 a5) (res_v9 a0 a4 a5)
      (ix2 ⟨v.val * 3 + k.val, by omega⟩ i)
      = ∑ j : Fin 3, a1 (ix4 0 (clampIx 25000 (a5 (ix2 v k)).toNat) i j)
            * (a0 (ix2 v j) - a0 (ix2 (clampIx 50000 (a4 (ix1 (clampIx 25000 (a5 (ix2 v k)).toNat))).toNat) j)) := by
    refine (dotGeneral_matvec_apply (G := 150000) Facts₀.dot_S150000x3x3_S150000x3_S150000x3_2_1_1_n_0_0_wf none _ _
      ⟨v.val * 3 + k.val, by omega⟩ i).trans ?_
    refine Finset.sum_congr rfl fun j _ => ?_
    rw [v5_apply a0 a1 a2 a3 a4 a5 a6 hok, v9_apply a0 a1 a2 a3 a4 a5 a6 hok]
  unfold res_v12 st12
  rw [addf_apply, addf_apply, v2_apply a0 a1 a2 a3 a4 a5 a6 hok, v6_apply a0 a1 a2 a3 a4 a5 a6 hok, hd]

theorem v17_apply (hok : ArgsOK a0 a1 a2 a3 a4 a5 a6) (v : Fin 50000) (i : Fin 3) :
    res_v17 a0 a1 a2 a3 a4 a5 (ix2 v i)
      = ∑ k : Fin 3, res_v12 a0 a1 a2 a4 a5 (ix2 ⟨v.val * 3 + k.val, by omega⟩ i) * a3 (ix2 v k) := by
  unfold res_v17 st17
  show Ideal.hostReduceAdd Gen.reducesTo_S50000x3x3_S50000x3_d1 _ _ (ix2 v i) = _
  rw [Ideal.hostReduceAdd_single _ (by decide : S50000x3x3.Reduces [1] S50000x3)]
  show Ideal.ofBits .f32 0x00000000#32 + _ = _
  rw [Ideal.ofBits_zero_f32, zero_add]
  refine Finset.sum_congr rfl fun k _ => ?_
  have hl : (by decide : S50000x3x3.Reduces [1] S50000x3).lift (ix2 v i) k = ix3 v k i := by
    funext c; apply Fin.ext
    match c with
    | ⟨0, _⟩ => rfl
    | ⟨1, _⟩ => rfl
    | ⟨2, _⟩ => rfl
  rw [hl]
  exact st16_apply _ a3 v k i

theorem out41_apply (hok : ArgsOK a0 a1 a2 a3 a4 a5 a6) (v : Fin 50000) (i : Fin 3) :
    out41 (F := Ideal) a0 a1 a2 a3 a4 a5 a6 (ix3 0 v i) = Cert.Spec.blendSpec a0 a1 a2 a3 a4 a5 v i := by
  unfold out41
  rw [st41_apply, v17_apply a0 a1 a2 a3 a4 a5 a6 hok, Cert.Spec.blendSpec_eq_sum]
  refine Finset.sum_congr rfl fun k _ => ?_
  rw [v12_apply a0 a1 a2 a3 a4 a5 a6 hok, Fin.sum_univ_three, mul_comm]
  rfl

end Blend

theorem coe_toReal_of_real {x : EReal} (h : ∃ r : ℝ, x = (r : EReal)) : ((x.toReal : ℝ) : EReal) = x := by
  obtain ⟨r, rfl⟩ := h
  rw [EReal.toReal_coe]

def edgeEquiv : Fin 25000 × Fin 9 ≃ Fin 225000 where
  toFun p := ⟨p.1.val * 9 + p.2.val, by omega⟩
  invFun q := (⟨q.val / 9, by omega⟩, ⟨q.val % 9, by omega⟩)
  left_inv p := by
    apply Prod.ext <;> apply Fin.ext <;> simp only <;> omega
  right_inv q := by apply Fin.ext; simp only; omega

theorem sum_edges2 {M : Type} [AddCommMonoid M] (f : (⟨2, ![225000, 3]⟩ : Shape).Idx → M) :
    ∑ idx, f idx = ∑ μ : Fin 25000, ∑ e : Fin 9, ∑ i : Fin 3, f (ix2 ⟨μ.val * 9 + e.val, by omega⟩ i) := by
  rw [sum_idx2, ← Equiv.sum_comp edgeEquiv, Fintype.sum_prod_type]
  rfl

theorem sum_idx3 {M : Type} [AddCommMonoid M] {n0 n1 n2 : Nat} (f : (⟨3, ![n0, n1, n2]⟩ : Shape).Idx → M) :
    ∑ i, f i = ∑ a : Fin n0, ∑ b : Fin n1, ∑ c : Fin n2, f (ix3 a b c) := by
  let E : (⟨3, ![n0, n1, n2]⟩ : Shape).Idx ≃ Fin n0 × Fin n1 × Fin n2 :=
    { toFun := fun i => (i 0, i 1, i 2), invFun := fun p => ix3 p.1 p.2.1 p.2.2,
      left_inv := fun i => (eq_ix3 i).symm, right_inv := fun _ => rfl }
  rw [← Equiv.sum_comp E.symm f, Fintype.sum_prod_type]
  refine Finset.sum_congr rfl fun a _ => ?_
  rw [Fintype.sum_prod_type]
  rfl

theorem sum_edges3 {M : Type} [AddCommMonoid M] (f : (⟨3, ![225000, 3, 3]⟩ : Shape).Idx → M) :
    ∑ idx, f idx
      = ∑ μ : Fin 25000, ∑ e : Fin 9, ∑ i : Fin 3, ∑ j : Fin 3, f (ix3 ⟨μ.val * 9 + e.val, by omega⟩ i j) := by
  rw [sum_idx3, ← Equiv.sum_comp edgeEquiv, Fintype.sum_prod_type]
  rfl

section Loss
variable (a0 : FVec Ideal S50000x3 .f32) (a1 : FVec Ideal S1x25000x3x3 .f32) (a2 : FVec Ideal S1x25000x3 .f32)
    (a3 : FVec Ideal S50000x3 .f32) (a4 : IVec S25000 32) (a5 : IVec S50000x3 32) (a6 : IVec S25000x9 32)

open Cert.Spec (nodeR trR rotR nbr arapTerm arapSpec srSpec)

theorem node_real (hok : ArgsOK a0 a1 a2 a3 a4 a5 a6) (μ : Fin 25000) (i : Fin 3) :
    res_v0 a0 a4 (ix2 μ i) = ((nodeR a0 a4 μ i : ℝ) : EReal) := by
  rw [v0_apply a0 a1 a2 a3 a4 a5 a6 hok]
  exact (coe_toReal_of_real (hok.fin0 _)).symm

theorem tr_real (hok : ArgsOK a0 a1 a2 a3 a4 a5 a6) (μ : Fin 25000) (i : Fin 3) :
    res_v4 a2 (ix2 μ i) = ((trR a2 μ i : ℝ) : EReal) := by
  rw [show res_v4 a2 = st4 a2 from rfl, st4_apply]
  exact (coe_toReal_of_real (hok.fin2 _)).symm

theorem rot_real (hok : ArgsOK a0 a1 a2 a3 a4 a5 a6) (μ : Fin 25000) (i j : Fin 3) :
    res_v3 a1 (ix3 μ i j) = ((rotR a1 μ i j : ℝ) : EReal) := by
  rw [show res_v3 a1 = st3 a1 from rfl, st3_apply]
  exact (coe_toReal_of_real (hok.fin1 _)).symm

theorem nbr_eq (μ : Fin 25000) (e : Fin 9) :
    clampIx 25000 (res_v18 a6 (ix1 ⟨μ.val * 9 + e.val, by omega⟩)).toNat = nbr a6 μ e := by
  rw [show res_v18 a6 = st18 a6 from rfl, st18_apply]
  rfl

theorem v32_apply (hok : ArgsOK a0 a1 a2 a3 a4 a5 a6) (μ : Fin 25000) (e : Fin 9) (i : Fin 3) :
    res_v32 a0 a1 a2 a4 a6 (ix2 ⟨μ.val * 9 + e.val, by omega⟩ i) = ((arapTerm a0 a1 a2 a4 μ (nbr a6 μ e) i : ℝ) : EReal) := by
  have h23 : ∀ c : Fin 3, res_v23 a0 a4 a6 (ix2 ⟨μ.val * 9 + e.val, by omega⟩ c) = ((nodeR a0 a4 (nbr a6 μ e) c : ℝ) : EReal) := fun c => by
    unfold res_v23
    rw [takeC3_apply _ _ (v18_rng a0 a1 a2 a3 a4 a5 a6 hok), nbr_eq, node_real a0 a1 a2 a3 a4 a5 a6 hok]
  have h27 : res_v27 a2 a6 (ix2 ⟨μ.val * 9 + e.val, by omega⟩ i) = ((trR a2 (nbr a6 μ e) i : ℝ) : EReal) := by
    unfold res_v27
    rw [takeC3_apply _ _ (v18_rng a0 a1 a2 a3 a4 a5 a6 hok), nbr_eq, tr_real a0 a1 a2 a3 a4 a5 a6 hok]
  have h26 : res_v26 a0 a2 a4 (ix2 ⟨μ.val * 9 + e.val, by omega⟩ i) = ((nodeR a0 a4 μ i : ℝ) : EReal) + ((trR a2 μ i : ℝ) : EReal) := by
    unfold res_v26
    rw [st22_apply]
    unfold res_v24
    rw [addf_apply, node_real a0 a1 a2 a3 a4 a5 a6 hok, tr_real a0 a1 a2 a3 a4 a5 a6 hok]
  have h22 : ∀ c : Fin 3, res_v22 a0 a4 (ix2 ⟨μ.val * 9 + e.val, by omega⟩ c) = ((nodeR a0 a4 μ c : ℝ) : EReal) := fun c => by
    unfold res_v22
    rw [st22_apply, node_real a0 a1 a2 a3 a4 a5 a6 hok]
  have h20 : ∀ c : Fin 3, res_v20 a1 (ix3 ⟨μ.val * 9 + e.val, by omega⟩ i c) = ((rotR a1 μ i c : ℝ) : EReal) := fun c => by
    unfold res_v20
    rw [st20_apply, rot_real a0 a1 a2 a3 a4 a5 a6 hok]
  have hd : Host.dotGeneral dot_S225000x3x3_S225000x3_S225000x3_2_1_1_n_0_0 none (res_v20 a1)
      (subf (res_v22 a0 a4) (res_v23 a0 a4 a6)) (ix2 ⟨μ.val * 9 + e.val, by omega⟩ i)
      = ∑ c : Fin 3, ((rotR a1 μ i c : ℝ) : EReal)
          * (((nodeR a0 a4 μ c : ℝ) : EReal) - ((nodeR a0 a4 (nbr a6 μ e) c : ℝ) : EReal)) := by
    refine (dotGeneral_matvec_apply (G := 225000) Facts₀.dot_S225000x3x3_S225000x3_S225000x3_2_1_1_n_0_0_wf none _ _
      ⟨μ.val * 9 + e.val, by omega⟩ i).trans ?_
    refine Finset.sum_congr rfl fun c _ => ?_
    rw [h20, subf_apply, h22, h23]
  unfold res_v32 st32
  rw [subf_apply, subf_apply, addf_apply, h26, h23, h27, hd]
  unfold Cert.Spec.arapTerm
  rw [Fin.sum_univ_three, Fin.sum_univ_three]
  push_cast
  rfl

theorem out40_eq (hok : ArgsOK a0 a1 a2 a3 a4 a5 a6) :
    out40 (F := Ideal) a0 a1 a2 a3 a4 a5 a6 = fun _ => arapSpec a0 a1 a2 a4 a6 := by
  funext j
  unfold out40 st40
  show Ideal.div (Ideal.hostReduceAdd Gen.reducesTo_S225000x3_S_d0_1 _ (Ideal.ofBits .f32 0x00000000#32) j)
    (Ideal.ofBits .f32 0x46C35000#32) = _
  rw [Ideal.hostReduceAdd_total _ (fun b => b.elim0), Ideal.ofBits_zero_f32, zero_add, sum_edges2]
  have ht : ∀ (μ : Fin 25000) (e : Fin 9) (i : Fin 3),
      mulf (res_v32 a0 a1 a2 a4 a6) (res_v32 a0 a1 a2 a4 a6) (ix2 ⟨μ.val * 9 + e.val, by omega⟩ i)
        = ((arapTerm a0 a1 a2 a4 μ (nbr a6 μ e) i ^ 2 : ℝ) : EReal) := fun μ e i => by
    rw [mulf_apply, v32_apply a0 a1 a2 a3 a4 a5 a6 hok, ← EReal.coe_mul, pow_two]
  have hs : (∑ μ : Fin 25000, ∑ e : Fin 9, ∑ i : Fin 3,
      mulf (res_v32 a0 a1 a2 a4 a6) (res_v32 a0 a1 a2 a4 a6) (ix2 ⟨μ.val * 9 + e.val, by omega⟩ i))
      = ((∑ μ : Fin 25000, ∑ e : Fin 9, ∑ i : Fin 3, arapTerm a0 a1 a2 a4 μ (nbr a6 μ e) i ^ 2 : ℝ) : EReal) := by
    rw [← Cert.LibIdealConsts.coe_finset_sum]; refine Finset.sum_congr rfl fun μ _ => ?_
    rw [← Cert.LibIdealConsts.coe_finset_sum]; refine Finset.sum_congr rfl fun e _ => ?_
    rw [← Cert.LibIdealConsts.coe_finset_sum]; refine Finset.sum_congr rfl fun i _ => ?_
    exact ht μ e i
  rw [hs, Cert.LibIdealConsts.ofBits_25000_f32, Ideal.div_coe (by norm_num), ← EReal.coe_mul, mul_one_div]
  rfl

theorem out37_eq (hok : ArgsOK a0 a1 a2 a3 a4 a5 a6) :
    out37 (F := Ideal) a0 a1 a2 a3 a4 a5 a6 = fun _ => srSpec a1 a6 := by
  funext j
  unfold out37 st37
  show Ideal.div (Ideal.hostReduceAdd Gen.reducesTo_S225000x3x3_S_d0_1_2 _ (Ideal.ofBits .f32 0x00000000#32) j)
    (Ideal.ofBits .f32 0x49F73140#32) = _
  rw [Ideal.hostReduceAdd_total _ (fun b => b.elim0), Ideal.ofBits_zero_f32, zero_add, sum_edges3]
  have ht : ∀ (μ : Fin 25000) (e : Fin 9) (i k : Fin 3),
      mulf (subf (res_v20 a1) (res_v33 a1 a6)) (subf (res_v20 a1) (res_v33 a1 a6)) (ix3 ⟨μ.val * 9 + e.val, by omega⟩ i k)
        = (((rotR a1 μ i k - rotR a1 (nbr a6 μ e) i k) ^ 2 : ℝ) : EReal) := fun μ e i k => by
    have h20 : res_v20 a1 (ix3 ⟨μ.val * 9 + e.val, by omega⟩ i k) = ((rotR a1 μ i k : ℝ) : EReal) := by
      unfold res_v20
      rw [st20_apply, rot_real a0 a1 a2 a3 a4 a5 a6 hok]
    have h33 : res_v33 a1 a6 (ix3 ⟨μ.val * 9 + e.val, by omega⟩ i k) = ((rotR a1 (nbr a6 μ e) i k : ℝ) : EReal) := by
      unfold res_v33
      rw [takeC33_apply _ _ (v18_rng a0 a1 a2 a3 a4 a5 a6 hok), nbr_eq, rot_real a0 a1 a2 a3 a4 a5 a6 hok]
    rw [mulf_apply, subf_apply, h20, h33, ← EReal.coe_sub, ← EReal.coe_mul, pow_two]
  have hs : (∑ μ : Fin 25000, ∑ e : Fin 9, ∑ i : Fin 3, ∑ k : Fin 3,
      mulf (subf (res_v20 a1) (res_v33 a1 a6)) (subf (res_v20 a1) (res_v33 a1 a6)) (ix3 ⟨μ.val * 9 + e.val, by omega⟩ i k))
      = ((∑ μ : Fin 25000, ∑ e : Fin 9, ∑ i : Fin 3, ∑ k : Fin 3,
          (rotR a1 μ i k - rotR a1 (nbr a6 μ e) i k) ^ 2 : ℝ) : EReal) := by
    rw [← Cert.LibIdealConsts.coe_finset_sum]; refine Finset.sum_congr rfl fun μ _ => ?_
    rw [← Cert.LibIdealConsts.coe_finset_sum]; refine Finset.sum_congr rfl fun e _ => ?_
    rw [← Cert.LibIdealConsts.coe_finset_sum]; refine Finset.sum_congr rfl fun i _ => ?_
    rw [← Cert.LibIdealConsts.coe_finset_sum]; refine Finset.sum_congr rfl fun k _ => ?_
    exact ht μ e i k
  rw [hs, Cert.LibIdealConsts.ofBits_2025000_f32, Ideal.div_coe (by norm_num), ← EReal.coe_mul, mul_one_div]
  rfl

end Loss

end Cert.ReferenceIdeal.RefValue

end
-- ==== Proof.Bridge.lean ====
import proofs.«205348_g71287867179597_cont_9to1c4b_113_38_alg».proof.Proof.ValueBlend
import proofs.«205348_g71287867179597_cont_9to1c4b_113_38_alg».proof.Proof.ValueLoss
import proofs.«205348_g71287867179597_cont_9to1c4b_113_38_alg».proof.Proof.RefValue
import proofs.«205348_g71287867179597_cont_9to1c4b_113_38_alg».proof.Proof.Tables
import proofs.«205348_g71287867179597_cont_9to1c4b_113_38_alg».proof.Proof.TablesIdeal

noncomputable section

namespace Cert.KI

open Cert.KernelIdeal Idealize.ShloMosaic Idealize.SL.Sem
open Idealize.ShloMosaic.ValueIdx

variable [Cert.KernelIdeal.Facts] [Cert.ReferenceIdeal.Facts] [Cert.Pre_input_domain.Facts]

theorem results_eq_of (m : (ℓ : Loc nD τ sig) → Buf (Elt Ideal) ℓ) (hpre : Cert.Pre_KernelIdeal m) (d : Dev nD)
    (f0 : Buf (Elt Ideal) (locOf d main_v24_0)) (f1 : Buf (Elt Ideal) (locOf d main_v24_1))
    (hB : ∀ w, BlendTile m d w f0)
    (h31 : post31 (F := Ideal) f1 = fun _ => Cert.Spec.arapSpec (m (locOf d main_arg0)) (m (locOf d main_arg1)) (m (locOf d main_arg2)) (m (locOf d main_arg4)) (m (locOf d main_arg6)))
    (h34 : post34 (F := Ideal) f1 = fun _ => Cert.Spec.srSpec (m (locOf d main_arg1)) (m (locOf d main_arg6))) :
    post27 (F := Ideal) f0 = Cert.ReferenceIdeal.RefRun.out41 (F := Ideal) (m (locOf d main_arg0)) (m (locOf d main_arg1)) (m (locOf d main_arg2)) (m (locOf d main_arg3)) (m (locOf d main_arg4)) (m (locOf d main_arg5)) (m (locOf d main_arg6))
    ∧ post31 (F := Ideal) f1 = Cert.ReferenceIdeal.RefRun.out40 (F := Ideal) (m (locOf d main_arg0)) (m (locOf d main_arg1)) (m (locOf d main_arg2)) (m (locOf d main_arg3)) (m (locOf d main_arg4)) (m (locOf d main_arg5)) (m (locOf d main_arg6))
    ∧ post34 (F := Ideal) f1 = Cert.ReferenceIdeal.RefRun.out37 (F := Ideal) (m (locOf d main_arg0)) (m (locOf d main_arg1)) (m (locOf d main_arg2)) (m (locOf d main_arg3)) (m (locOf d main_arg4)) (m (locOf d main_arg5)) (m (locOf d main_arg6)) := by
  have hR : RangesOK m := rangesOK_of_pre m hpre
  have hok := Cert.ReferenceIdeal.RefValue.argsOK_of_pre (m (locOf d main_arg0)) (m (locOf d main_arg1))
    (m (locOf d main_arg2)) (m (locOf d main_arg3)) (m (locOf d main_arg4)) (m (locOf d main_arg5))
    (m (locOf d main_arg6)) (hpre d)
  refine ⟨?_, ?_, ?_⟩
  · rw [Blend.post27_eq m hR d f0 hB]
    funext j
    have h0 : (j 0).val < 1 := (j 0).isLt
    have hj : ix3 (0 : Fin 1) (j 1) (j 2) = j := by
      conv_rhs => rw [eq_ix3 j]
      exact congrArg (fun a => ix3 a (j 1) (j 2)) (Fin.ext (by show 0 = (j 0).val; omega))
    exact ((Cert.ReferenceIdeal.RefValue.out41_apply _ _ _ _ _ _ _ hok (j 1) (j 2)).symm).trans
      (congrArg (Cert.ReferenceIdeal.RefRun.out41 (F := Ideal) (m (locOf d main_arg0)) (m (locOf d main_arg1))
        (m (locOf d main_arg2)) (m (locOf d main_arg3)) (m (locOf d main_arg4)) (m (locOf d main_arg5))
        (m (locOf d main_arg6))) hj)
  · rw [h31, Cert.ReferenceIdeal.RefValue.out40_eq _ _ _ _ _ _ _ hok]
  · rw [h34, Cert.ReferenceIdeal.RefValue.out37_eq _ _ _ _ _ _ _ hok]

theorem results_eq (m : (ℓ : Loc nD τ sig) → Buf (Elt Ideal) ℓ) (hpre : Cert.Pre_KernelIdeal m) (d : Dev nD)
    (f0 : Buf (Elt Ideal) (locOf d main_v24_0)) (f1 : Buf (Elt Ideal) (locOf d main_v24_1))
    (hB : ∀ w, BlendTile m d w f0) (hL : ∀ w, LossTile m d w f1) :
    post27 (F := Ideal) f0 = Cert.ReferenceIdeal.RefRun.out41 (F := Ideal) (m (locOf d main_arg0)) (m (locOf d main_arg1)) (m (locOf d main_arg2)) (m (locOf d main_arg3)) (m (locOf d main_arg4)) (m (locOf d main_arg5)) (m (locOf d main_arg6))
    ∧ post31 (F := Ideal) f1 = Cert.ReferenceIdeal.RefRun.out40 (F := Ideal) (m (locOf d main_arg0)) (m (locOf d main_arg1)) (m (locOf d main_arg2)) (m (locOf d main_arg3)) (m (locOf d main_arg4)) (m (locOf d main_arg5)) (m (locOf d main_arg6))
    ∧ post34 (F := Ideal) f1 = Cert.ReferenceIdeal.RefRun.out37 (F := Ideal) (m (locOf d main_arg0)) (m (locOf d main_arg1)) (m (locOf d main_arg2)) (m (locOf d main_arg3)) (m (locOf d main_arg4)) (m (locOf d main_arg5)) (m (locOf d main_arg6)) :=
  results_eq_of m hpre d f0 f1 hB (Loss.losses_of_pre m hpre d f1 hL).1 (Loss.losses_of_pre m hpre d f1 hL).2

end Cert.KI

end
-- ==== Proof.lean ====
-- The three programs run and keep their arguments, and the kernel's three results are the reference's.
import proofs.«205348_g71287867179597_cont_9to1c4b_113_38_alg».proof.Defs
import proofs.«205348_g71287867179597_cont_9to1c4b_113_38_alg».proof.Proof.Gen.Kernel
import proofs.«205348_g71287867179597_cont_9to1c4b_113_38_alg».proof.Proof.Gen.KernelIdeal
import proofs.«205348_g71287867179597_cont_9to1c4b_113_38_alg».proof.Proof.Gen.ReferenceIdeal
import proofs.«205348_g71287867179597_cont_9to1c4b_113_38_alg».proof.Proof.Gen.Pre_input_domain
import proofs.«205348_g71287867179597_cont_9to1c4b_113_38_alg».proof.Proof.Launch
import proofs.«205348_g71287867179597_cont_9to1c4b_113_38_alg».proof.Proof.Body0
import proofs.«205348_g71287867179597_cont_9to1c4b_113_38_alg».proof.Proof.Body1
import proofs.«205348_g71287867179597_cont_9to1c4b_113_38_alg».proof.Proof.TablesIdeal
import proofs.«205348_g71287867179597_cont_9to1c4b_113_38_alg».proof.Proof.LaunchBits
import proofs.«205348_g71287867179597_cont_9to1c4b_113_38_alg».proof.Proof.Body0Bits
import proofs.«205348_g71287867179597_cont_9to1c4b_113_38_alg».proof.Proof.Body1Bits
import proofs.«205348_g71287867179597_cont_9to1c4b_113_38_alg».proof.Proof.TablesBits
import proofs.«205348_g71287867179597_cont_9to1c4b_113_38_alg».proof.Proof.RefRun
import proofs.«205348_g71287867179597_cont_9to1c4b_113_38_alg».proof.Proof.Bridge

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_input_domain.Facts := Cert.Pre_input_domain.Gen.facts

theorem frame_p : Cert.frame_Kernel := fun m ρ hpre =>
  have hR : Cert.KB.RangesOK m := Cert.KB.rangesOK_of_preAt m (fun c => hpre c)
  (θ_run Cert.Kernel.defs _ _).mono (fun _ h c => (h c).2)
    (Cert.KB.run_main (F := Bits) m ρ hR (Cert.KB.tileObl0 m hR) (Cert.KB.tileObl1 m hR))

theorem frame_pi : Cert.frame_KernelIdeal := fun m ρ hpre =>
  have hR : Cert.KI.RangesOK m := Cert.KI.rangesOK_of_pre m hpre
  (θ_run Cert.KernelIdeal.defs _ _).mono (fun _ h c => (h c).2)
    (Cert.KI.run_main (F := Ideal) m ρ hR (Cert.KI.tileObl0 m hR) (Cert.KI.tileObl1 m hR))

theorem frame_ri : Cert.frame_ReferenceIdeal := fun m ρ _ =>
  (θ_run Cert.ReferenceIdeal.defs _ _).mono (fun _ h c => (h c).2.2.2) (Cert.ReferenceIdeal.RefRun.run (F := Ideal) m ρ)

theorem preserves : Cert.preserves_Kernel_KernelIdeal := trivial

theorem algebraic : Cert.algebraic_KernelIdeal_ReferenceIdeal := by
  intro m ρ m' ρ' hpre hagree
  have hR : Cert.KI.RangesOK m := Cert.KI.rangesOK_of_pre m hpre
  refine ⟨fun c => Cert.ReferenceIdeal.RefRun.out41 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.ReferenceIdeal.RefRun.out40 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.ReferenceIdeal.RefRun.out37 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun r h c => ?_)
      (Cert.KI.run_main (F := Ideal) m ρ hR (Cert.KI.tileObl0 m hR) (Cert.KI.tileObl1 m hR))
    obtain ⟨⟨f0, f1, hB, hL, e27, e31, e34⟩, hargs⟩ := h c
    obtain ⟨b27, b31, b34⟩ := Cert.KI.results_eq m hpre c f0 f1 hB hL
    exact ⟨e27.trans b27, e31.trans b31, e34.trans b34, hargs⟩
  · refine (θ_run Cert.ReferenceIdeal.defs _ _).mono (fun r h c => ?_) (Cert.ReferenceIdeal.RefRun.run (F := Ideal) m' ρ')
    obtain ⟨e41, e40, e37, hargs⟩ := h c
    obtain ⟨a0, a1, a2, a3, a4, a5, a6⟩ := hagree c
    refine ⟨?_, ?_, ?_, hargs⟩
    · rw [e41, a0, a1, a2, a3, a4, a5, a6]
    · rw [e40, a0, a1, a2, a3, a4, a5, a6]
    · rw [e37, a0, a1, a2, a3, a4, a5, a6]

theorem claim : Cert.Claim :=
  ⟨Cert.Kernel.Gen.facts, Cert.KernelIdeal.Gen.facts, Cert.ReferenceIdeal.Gen.facts, Cert.Pre_input_domain.Gen.facts,
    frame_p, frame_pi, frame_ri, preserves, algebraic⟩

end Cert.Proof

end
